-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v232) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32 : Shape := ⟨2, ![8192, 32]⟩
abbrev S256x160 : Shape := ⟨2, ![256, 160]⟩
abbrev S256 : Shape := ⟨1, ![256]⟩
abbrev S256x512 : Shape := ⟨2, ![256, 512]⟩
abbrev S256x256 : Shape := ⟨2, ![256, 256]⟩
abbrev S8192x256 : Shape := ⟨2, ![8192, 256]⟩
abbrev S8192 : Shape := ⟨1, ![8192]⟩
abbrev S2x262144 : Shape := ⟨2, ![2, 262144]⟩
abbrev S_ : Shape := ⟨0, ![]⟩

class Facts : Prop where
  bcast_S_S8192x32 : S_.BroadcastsInDim S8192x32 (![] : Fin 0 → Fin S8192x32.rank)
  reducesTo_S8192x32_S_d0_1 : S8192x32.ReducesTo [0, 1] S_
  h_S_ : 0 < S_.numel
  bcast_S_S256x160 : S_.BroadcastsInDim S256x160 (![] : Fin 0 → Fin S256x160.rank)
  reducesTo_S256x160_S_d0_1 : S256x160.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S256x256 : S_.BroadcastsInDim S256x256 (![] : Fin 0 → Fin S256x256.rank)
  reducesTo_S256x256_S_d0_1 : S256x256.ReducesTo [0, 1] S_
  bcast_S_S8192x256 : S_.BroadcastsInDim S8192x256 (![] : Fin 0 → Fin S8192x256.rank)
  reducesTo_S8192x256_S_d0_1 : S8192x256.ReducesTo [0, 1] S_
  bcast_S_S8192 : S_.BroadcastsInDim S8192 (![] : Fin 0 → Fin S8192.rank)
  reducesTo_S8192_S_d0 : S8192.ReducesTo [0] S_
  bcast_S_S2x262144 : S_.BroadcastsInDim S2x262144 (![] : Fin 0 → Fin S2x262144.rank)
  reducesTo_S2x262144_S_d0_1 : S2x262144.ReducesTo [0, 1] S_

variable [Facts]

def fn_part6 {F : FTy → Type} [FloatOps F] (main_arg20 : IVec S2x262144 32) (main_v98 : IVec S_ 1) (main_v100 : IVec S2x262144 1) (main_v101 : IVec S2x262144 32) : IVec S_ 1 :=
  let main_v102 : IVec S2x262144 1 := cmpi .slt main_arg20 main_v101
  let main_v103 : IVec S2x262144 1 := andi main_v100 main_v102
  let main_c_40 : IVec S_ 1 := constantI S_ 1 1#1
  let main_v104 : IVec S_ 1 := (fun x v => Host.reduce IntOp.andi x v reducesTo_S2x262144_S_d0_1 h_S_) main_v103 main_c_40
  let main_v105 : IVec S_ 1 := andi main_v98 main_v104
  main_v105

def fn_part5 {F : FTy → Type} [FloatOps F] (main_arg18 : FVec F S256 .f32) (main_arg19 : FVec F S256 .f32) (main_arg20 : IVec S2x262144 32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256 .f32 := Host.absf main_arg18
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256 .f32 := Host.absf main_arg19
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  let main_c_38 : IVec S_ 32 := constantI S_ 32 0#32
  let main_v99 : IVec S2x262144 32 := broadcastInDim S2x262144 ![] bcast_S_S2x262144 main_c_38
  let main_v100 : IVec S2x262144 1 := cmpi .sge main_arg20 main_v99
  let main_c_39 : IVec S_ 32 := constantI S_ 32 8192#32
  let main_v101 : IVec S2x262144 32 := broadcastInDim S2x262144 ![] bcast_S_S2x262144 main_c_39
  fn_part6 (F := F) main_arg20 main_v98 main_v100 main_v101

def fn_part4 {F : FTy → Type} [FloatOps F] (main_arg14 : FVec F S8192x256 .f32) (main_arg15 : FVec F S8192 .f32) (main_arg16 : FVec F S256 .f32) (main_arg17 : FVec F S256 .f32) (main_arg18 : FVec F S256 .f32) (main_arg19 : FVec F S256 .f32) (main_arg20 : IVec S2x262144 32) (main_v63 : IVec S_ 1) (main_v67 : IVec S_ 1) : IVec S_ 1 :=
  let main_v68 : IVec S_ 1 := andi main_v63 main_v67
  let main_v69 : FVec F S8192x256 .f32 := Host.absf main_arg14
  let main_cst_26 : FVec F S_ .f32 := constant S_ .f32 0x7F800000#32
  let main_v70 : FVec F S8192x256 .f32 := broadcastInDim S8192x256 ![] bcast_S_S8192x256 main_cst_26
  let main_v71 : IVec S8192x256 1 := cmpf .olt main_v69 main_v70
  let main_c_27 : IVec S_ 1 := constantI S_ 1 1#1
  let main_v72 : IVec S_ 1 := (fun x v => Host.reduce IntOp.andi x v reducesTo_S8192x256_S_d0_1 h_S_) main_v71 main_c_27
  let main_v73 : IVec S_ 1 := andi main_v68 main_v72
  let main_v74 : FVec F S8192 .f32 := Host.absf main_arg15
  let main_cst_28 : FVec F S_ .f32 := constant S_ .f32 0x7F800000#32
  let main_v75 : FVec F S8192 .f32 := broadcastInDim S8192 ![] bcast_S_S8192 main_cst_28
  let main_v76 : IVec S8192 1 := cmpf .olt main_v74 main_v75
  let main_c_29 : IVec S_ 1 := constantI S_ 1 1#1
  let main_v77 : IVec S_ 1 := (fun x v => Host.reduce IntOp.andi x v reducesTo_S8192_S_d0 h_S_) main_v76 main_c_29
  let main_v78 : IVec S_ 1 := andi main_v73 main_v77
  let main_v79 : FVec F S256 .f32 := Host.absf main_arg16
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S256x256 .f32) (main_arg12 : FVec F S256x256 .f32) (main_arg13 : FVec F S256 .f32) (main_arg14 : FVec F S8192x256 .f32) (main_arg15 : FVec F S8192 .f32) (main_arg16 : FVec F S256 .f32) (main_arg17 : FVec F S256 .f32) (main_arg18 : FVec F S256 .f32) (main_arg19 : FVec F S256 .f32) (main_arg20 : IVec S2x262144 32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256x256 .f32 := Host.absf main_arg12
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_arg18 main_arg19 main_arg20 main_v63 main_v67

def fn_part2 {F : FTy → Type} [FloatOps F] (main_arg7 : FVec F S256 .f32) (main_arg8 : FVec F S256x512 .f32) (main_arg9 : FVec F S256x512 .f32) (main_arg10 : FVec F S256 .f32) (main_arg11 : FVec F S256x256 .f32) (main_arg12 : FVec F S256x256 .f32) (main_arg13 : FVec F S256 .f32) (main_arg14 : FVec F S8192x256 .f32) (main_arg15 : FVec F S8192 .f32) (main_arg16 : FVec F S256 .f32) (main_arg17 : FVec F S256 .f32) (main_arg18 : FVec F S256 .f32) (main_arg19 : FVec F S256 .f32) (main_arg20 : IVec S2x262144 32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x512 .f32 := Host.absf main_arg8
  let main_cst_14 : FVec F S_ .f32 := constant S_ .f32 0x7F800000#32
  let main_v40 : FVec F S256x512 .f32 := broadcastInDim S256x512 ![] bcast_S_S256x512 main_cst_14
  let main_v41 : IVec S256x512 1 := cmpf .olt main_v39 main_v40
  let main_c_15 : IVec S_ 1 := constantI S_ 1 1#1
  let main_v42 : IVec S_ 1 := (fun x v => Host.reduce IntOp.andi x v reducesTo_S256x512_S_d0_1 h_S_) main_v41 main_c_15
  let main_v43 : IVec S_ 1 := andi main_v38 main_v42
  let main_v44 : FVec F S256x512 .f32 := Host.absf main_arg9
  let main_cst_16 : FVec F S_ .f32 := constant S_ .f32 0x7F800000#32
  let main_v45 : FVec F S256x512 .f32 := broadcastInDim S256x512 ![] bcast_S_S256x512 main_cst_16
  let main_v46 : IVec S256x512 1 := cmpf .olt main_v44 main_v45
  let main_c_17 : IVec S_ 1 := constantI S_ 1 1#1
  let main_v47 : IVec S_ 1 := (fun x v => Host.reduce IntOp.andi x v reducesTo_S256x512_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S8192x32 .f32) (main_arg5 : FVec F S256x160 .f32) (main_arg6 : FVec F S256x160 .f32) (main_arg7 : FVec F S256 .f32) (main_arg8 : FVec F S256x512 .f32) (main_arg9 : FVec F S256x512 .f32) (main_arg10 : FVec F S256 .f32) (main_arg11 : FVec F S256x256 .f32) (main_arg12 : FVec F S256x256 .f32) (main_arg13 : FVec F S256 .f32) (main_arg14 : FVec F S8192x256 .f32) (main_arg15 : FVec F S8192 .f32) (main_arg16 : FVec F S256 .f32) (main_arg17 : FVec F S256 .f32) (main_arg18 : FVec F S256 .f32) (main_arg19 : FVec F S256 .f32) (main_arg20 : IVec S2x262144 32) (main_v13 : IVec S_ 1) (main_v16 : IVec S8192x32 1) : IVec S_ 1 :=
  let main_c_5 : IVec S_ 1 := constantI S_ 1 1#1
  let main_v17 : IVec S_ 1 := (fun x v => Host.reduce IntOp.andi x v reducesTo_S8192x32_S_d0_1 h_S_) main_v16 main_c_5
  let main_v18 : IVec S_ 1 := andi main_v13 main_v17
  let main_v19 : FVec F S8192x32 .f32 := Host.absf main_arg4
  let main_cst_6 : FVec F S_ .f32 := constant S_ .f32 0x7F800000#32
  let main_v20 : FVec F S8192x32 .f32 := broadcastInDim S8192x32 ![] bcast_S_S8192x32 main_cst_6
  let main_v21 : IVec S8192x32 1 := cmpf .olt main_v19 main_v20
  let main_c_7 : IVec S_ 1 := constantI S_ 1 1#1
  let main_v22 : IVec S_ 1 := (fun x v => Host.reduce IntOp.andi x v reducesTo_S8192x32_S_d0_1 h_S_) main_v21 main_c_7
  let main_v23 : IVec S_ 1 := andi main_v18 main_v22
  let main_v24 : FVec F S256x160 .f32 := Host.absf main_arg5
  let main_cst_8 : FVec F S_ .f32 := constant S_ .f32 0x7F800000#32
  let main_v25 : FVec F S256x160 .f32 := broadcastInDim S256x160 ![] bcast_S_S256x160 main_cst_8
  let main_v26 : IVec S256x160 1 := cmpf .olt main_v24 main_v25
  let main_c_9 : IVec S_ 1 := constantI S_ 1 1#1
  let main_v27 : IVec S_ 1 := (fun x v => Host.reduce IntOp.andi x v reducesTo_S256x160_S_d0_1 h_S_) main_v26 main_c_9
  let main_v28 : IVec S_ 1 := andi main_v23 main_v27
  let main_v29 : FVec F S256x160 .f32 := Host.absf main_arg6
  let main_cst_10 : FVec F S_ .f32 := constant S_ .f32 0x7F800000#32
  let main_v30 : FVec F S256x160 .f32 := broadcastInDim S256x160 ![] bcast_S_S256x160 main_cst_10
  let main_v31 : IVec S256x160 1 := cmpf .olt main_v29 main_v30
  let main_c_11 : IVec S_ 1 := constantI S_ 1 1#1
  let main_v32 : IVec S_ 1 := (fun x v => Host.reduce IntOp.andi x v reducesTo_S256x160_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S8192x32 .f32) (main_arg1 : FVec F S8192x32 .f32) (main_arg2 : FVec F S8192x32 .f32) (main_arg3 : FVec F S8192x32 .f32) (main_arg4 : FVec F S8192x32 .f32) (main_arg5 : FVec F S256x160 .f32) (main_arg6 : FVec F S256x160 .f32) (main_arg7 : FVec F S256 .f32) (main_arg8 : FVec F S256x512 .f32) (main_arg9 : FVec F S256x512 .f32) (main_arg10 : FVec F S256 .f32) (main_arg11 : FVec F S256x256 .f32) (main_arg12 : FVec F S256x256 .f32) (main_arg13 : FVec F S256 .f32) (main_arg14 : FVec F S8192x256 .f32) (main_arg15 : FVec F S8192 .f32) (main_arg16 : FVec F S256 .f32) (main_arg17 : FVec F S256 .f32) (main_arg18 : FVec F S256 .f32) (main_arg19 : FVec F S256 .f32) (main_arg20 : IVec S2x262144 32) : IVec S_ 1 :=
  let main_v0 : FVec F S8192x32 .f32 := Host.absf main_arg0
  let main_cst : FVec F S_ .f32 := constant S_ .f32 0x7F800000#32
  let main_v1 : FVec F S8192x32 .f32 := broadcastInDim S8192x32 ![] bcast_S_S8192x32 main_cst
  let main_v2 : IVec S8192x32 1 := cmpf .olt main_v0 main_v1
  let main_c : IVec S_ 1 := constantI S_ 1 1#1
  let main_v3 : IVec S_ 1 := (fun x v => Host.reduce IntOp.andi x v reducesTo_S8192x32_S_d0_1 h_S_) main_v2 main_c
  let main_v4 : FVec F S8192x32 .f32 := Host.absf main_arg1
  let main_cst_0 : FVec F S_ .f32 := constant S_ .f32 0x7F800000#32
  let main_v5 : FVec F S8192x32 .f32 := broadcastInDim S8192x32 ![] bcast_S_S8192x32 main_cst_0
  let main_v6 : IVec S8192x32 1 := cmpf .olt main_v4 main_v5
  let main_c_1 : IVec S_ 1 := constantI S_ 1 1#1
  let main_v7 : IVec S_ 1 := (fun x v => Host.reduce IntOp.andi x v reducesTo_S8192x32_S_d0_1 h_S_) main_v6 main_c_1
  let main_v8 : IVec S_ 1 := andi main_v3 main_v7
  let main_v9 : FVec F S8192x32 .f32 := Host.absf main_arg2
  let main_cst_2 : FVec F S_ .f32 := constant S_ .f32 0x7F800000#32
  let main_v10 : FVec F S8192x32 .f32 := broadcastInDim S8192x32 ![] bcast_S_S8192x32 main_cst_2
  let main_v11 : IVec S8192x32 1 := cmpf .olt main_v9 main_v10
  let main_c_3 : IVec S_ 1 := constantI S_ 1 1#1
  let main_v12 : IVec S_ 1 := (fun x v => Host.reduce IntOp.andi x v reducesTo_S8192x32_S_d0_1 h_S_) main_v11 main_c_3
  let main_v13 : IVec S_ 1 := andi main_v8 main_v12
  let main_v14 : FVec F S8192x32 .f32 := Host.absf main_arg3
  let main_cst_4 : FVec F S_ .f32 := constant S_ .f32 0x7F800000#32
  let main_v15 : FVec F S8192x32 .f32 := broadcastInDim S8192x32 ![] bcast_S_S8192x32 main_cst_4
  let main_v16 : IVec S8192x32 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S8192x32 : Shape := ⟨2, ![8192, 32]⟩
abbrev S256x160 : Shape := ⟨2, ![256, 160]⟩
abbrev S256 : Shape := ⟨1, ![256]⟩
abbrev S256x512 : Shape := ⟨2, ![256, 512]⟩
abbrev S256x256 : Shape := ⟨2, ![256, 256]⟩
abbrev S8192x256 : Shape := ⟨2, ![8192, 256]⟩
abbrev S8192 : Shape := ⟨1, ![8192]⟩
abbrev S2x262144 : Shape := ⟨2, ![2, 262144]⟩
abbrev S1x262144 : Shape := ⟨2, ![1, 262144]⟩
abbrev S262144 : Shape := ⟨1, ![262144]⟩
abbrev S_ : Shape := ⟨0, ![]⟩
abbrev S262144x1 : Shape := ⟨2, ![262144, 1]⟩
abbrev S8192x1 : Shape := ⟨2, ![8192, 1]⟩
abbrev S8192x8192 : Shape := ⟨2, ![8192, 8192]⟩
abbrev S262144x2 : Shape := ⟨2, ![262144, 2]⟩
abbrev S8192x160 : Shape := ⟨2, ![8192, 160]⟩
abbrev S160x256 : Shape := ⟨2, ![160, 256]⟩
abbrev S1x256 : Shape := ⟨2, ![1, 256]⟩
abbrev S1024x2048 : Shape := ⟨2, ![1024, 2048]⟩
abbrev S1024x256 : Shape := ⟨2, ![1024, 256]⟩
abbrev S1024x160 : Shape := ⟨2, ![1024, 160]⟩
abbrev S2048x160 : Shape := ⟨2, ![2048, 160]⟩
abbrev S1024x1 : Shape := ⟨2, ![1024, 1]⟩
abbrev S1024 : Shape := ⟨1, ![1024]⟩
abbrev S8192x512 : Shape := ⟨2, ![8192, 512]⟩
abbrev S512x256 : Shape := ⟨2, ![512, 256]⟩
abbrev S1024x512 : Shape := ⟨2, ![1024, 512]⟩
abbrev S2048x512 : Shape := ⟨2, ![2048, 512]⟩
abbrev S2048x256 : Shape := ⟨2, ![2048, 256]⟩
abbrev S256x8192 : Shape := ⟨2, ![256, 8192]⟩
abbrev S1x8192 : Shape := ⟨2, ![1, 8192]⟩
abbrev S256x1 : Shape := ⟨2, ![256, 1]⟩

abbrev nBuf : Space → Nat
  | .hbm => 124
  | .vmem => 44
  | .smem => 0
  | _ => 0

abbrev bufTy : (tb : Table) → Fin (tcTables nBuf tb) → BufTy
  | .hbm, ⟨0, _⟩ => ⟨S8192x32, .f32⟩
  | .hbm, ⟨1, _⟩ => ⟨S8192x32, .f32⟩
  | .hbm, ⟨2, _⟩ => ⟨S8192x32, .f32⟩
  | .hbm, ⟨3, _⟩ => ⟨S8192x32, .f32⟩
  | .hbm, ⟨4, _⟩ => ⟨S8192x32, .f32⟩
  | .hbm, ⟨5, _⟩ => ⟨S256x160, .f32⟩
  | .hbm, ⟨6, _⟩ => ⟨S256x160, .f32⟩
  | .hbm, ⟨7, _⟩ => ⟨S256, .f32⟩
  | .hbm, ⟨8, _⟩ => ⟨S256x512, .f32⟩
  | .hbm, ⟨9, _⟩ => ⟨S256x512, .f32⟩
  | .hbm, ⟨10, _⟩ => ⟨S256, .f32⟩
  | .hbm, ⟨11, _⟩ => ⟨S256x256, .f32⟩
  | .hbm, ⟨12, _⟩ => ⟨S256x256, .f32⟩
  | .hbm, ⟨13, _⟩ => ⟨S256, .f32⟩
  | .hbm, ⟨14, _⟩ => ⟨S8192x256, .f32⟩
  | .hbm, ⟨15, _⟩ => ⟨S8192, .f32⟩
  | .hbm, ⟨16, _⟩ => ⟨S256, .f32⟩
  | .hbm, ⟨17, _⟩ => ⟨S256, .f32⟩
  | .hbm, ⟨18, _⟩ => ⟨S256, .f32⟩
  | .hbm, ⟨19, _⟩ => ⟨S256, .f32⟩
  | .hbm, ⟨20, _⟩ => ⟨S2x262144, .i32⟩
  | .hbm, ⟨21, _⟩ => ⟨S1x262144, .i32⟩
  | .hbm, ⟨22, _⟩ => ⟨S262144, .i32⟩
  | .hbm, ⟨23, _⟩ => ⟨S1x262144, .i32⟩
  | .hbm, ⟨24, _⟩ => ⟨S262144, .i32⟩
  | .hbm, ⟨25, _⟩ => ⟨S_, .f32⟩
  | .hbm, ⟨26, _⟩ => ⟨S8192, .f32⟩
  | .hbm, ⟨27, _⟩ => ⟨S_, .i32⟩
  | .hbm, ⟨28, _⟩ => ⟨S262144, .i32⟩
  | .hbm, ⟨29, _⟩ => ⟨S262144, .i1⟩
  | .hbm, ⟨30, _⟩ => ⟨S_, .i32⟩
  | .hbm, ⟨31, _⟩ => ⟨S262144, .i32⟩
  | .hbm, ⟨32, _⟩ => ⟨S262144, .i32⟩
  | .hbm, ⟨33, _⟩ => ⟨S262144, .i32⟩
  | .hbm, ⟨34, _⟩ => ⟨S262144x1, .i32⟩
  | .hbm, ⟨35, _⟩ => ⟨S_, .f32⟩
  | .hbm, ⟨36, _⟩ => ⟨S262144, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S8192x1, .f32⟩
  | .hbm, ⟨42, _⟩ => ⟨S_, .f32⟩
  | .hbm, ⟨43, _⟩ => ⟨S8192x8192, .f32⟩
  | .hbm, ⟨44, _⟩ => ⟨S_, .i32⟩
  | .hbm, ⟨45, _⟩ => ⟨S262144, .i32⟩
  | .hbm, ⟨46, _⟩ => ⟨S262144, .i1⟩
  | .hbm, ⟨47, _⟩ => ⟨S_, .i32⟩
  | .hbm, ⟨48, _⟩ => ⟨S262144, .i32⟩
  | .hbm, ⟨49, _⟩ => ⟨S262144, .i32⟩
  | .hbm, ⟨50, _⟩ => ⟨S262144, .i32⟩
  | .hbm, ⟨51, _⟩ => ⟨S_, .i32⟩
  | .hbm, ⟨52, _⟩ => ⟨S262144, .i32⟩
  | .hbm, ⟨53, _⟩ => ⟨S262144, .i1⟩
  | .hbm, ⟨54, _⟩ => ⟨S_, .i32⟩
  | .hbm, ⟨55, _⟩ => ⟨S262144, .i32⟩
  | .hbm, ⟨56, _⟩ => ⟨S262144, .i32⟩
  | .hbm, ⟨57, _⟩ => ⟨S262144, .i32⟩
  | .hbm, ⟨58, _⟩ => ⟨S262144x1, .i32⟩
  | .hbm, ⟨59, _⟩ => ⟨S262144x1, .i32⟩
  | .hbm, ⟨60, _⟩ => ⟨S262144x2, .i32⟩
  | .hbm, ⟨61, _⟩ => ⟨S_, .f32⟩
  | .hbm, ⟨62, _⟩ => ⟨S262144, .f32⟩
  | .hbm, ⟨63, _⟩ => ⟨S8192x8192, .f32⟩
  | .hbm, ⟨64, _⟩ => ⟨S8192x8192, .bf16⟩
  | .hbm, ⟨65, _⟩ => ⟨S_, .f32⟩
  | .hbm, ⟨66, _⟩ => ⟨S8192x8192, .f32⟩
  | .hbm, ⟨67, _⟩ => ⟨S8192x8192, .i1⟩
  | .hbm, ⟨68, _⟩ => ⟨S8192x8192, .i1⟩
  | .hbm, ⟨69, _⟩ => ⟨S8192x8192, .bf16⟩
  | .hbm, ⟨70, _⟩ => ⟨S8192x160, .f32⟩
  | .hbm, ⟨71, _⟩ => ⟨S160x256, .f32⟩
  | .hbm, ⟨72, _⟩ => ⟨S160x256, .f32⟩
  | .hbm, ⟨73, _⟩ => ⟨S1x256, .f32⟩
  | .hbm, ⟨74, _⟩ => ⟨S1x256, .f32⟩
  | .hbm, ⟨75, _⟩ => ⟨S1x256, .f32⟩
  | .hbm, ⟨76, _⟩ => ⟨S8192x256, .f32⟩
  | .hbm, ⟨77, _⟩ => ⟨S_, .f32⟩
  | .hbm, ⟨78, _⟩ => ⟨S8192x32, .f32⟩
  | .hbm, ⟨79, _⟩ => ⟨S8192x32, .i1⟩
  | .hbm, ⟨80, _⟩ => ⟨S_, .i1⟩
  | .hbm, ⟨81, _⟩ => ⟨S8192, .i1⟩
  | .hbm, ⟨82, _⟩ => ⟨S8192, .i32⟩
  | .hbm, ⟨83, _⟩ => ⟨S_, .i1⟩
  | .hbm, ⟨84, _⟩ => ⟨S_, .i32⟩
  | .hbm, ⟨85, _⟩ => ⟨S_, .i1⟩
  | .hbm, ⟨86, _⟩ => ⟨S_, .i32⟩
  | .hbm, ⟨87, _⟩ => ⟨S_, .i32⟩
  | .hbm, ⟨88, _⟩ => ⟨S_, .i1⟩
  | .hbm, ⟨89, _⟩ => ⟨S_, .i32⟩
  | .hbm, ⟨90, _⟩ => ⟨S_, .i32⟩
  | .hbm, ⟨91, _⟩ => ⟨S_, .i32⟩
  | .hbm, ⟨92, _⟩ => ⟨S_, .i32⟩
  | .hbm, ⟨93, _⟩ => ⟨S_, .i32⟩
  | .hbm, ⟨94, _⟩ => ⟨S_, .i1⟩
  | .hbm, ⟨95, _⟩ => ⟨S_, .i32⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S_, .i32⟩
  | .hbm, ⟨100, _⟩ => ⟨S1x256, .f32⟩
  | .hbm, ⟨101, _⟩ => ⟨S256, .f32⟩
  | .hbm, ⟨102, _⟩ => ⟨S1x256, .f32⟩
  | .hbm, ⟨103, _⟩ => ⟨S8192x256, .f32⟩
  | .hbm, ⟨104, _⟩ => ⟨S8192x512, .f32⟩
  | .hbm, ⟨105, _⟩ => ⟨S512x256, .f32⟩
  | .hbm, ⟨106, _⟩ => ⟨S512x256, .f32⟩
  | .hbm, ⟨107, _⟩ => ⟨S1x256, .f32⟩
  | .hbm, ⟨108, _⟩ => ⟨S1x256, .f32⟩
  | .hbm, ⟨109, _⟩ => ⟨S1x256, .f32⟩
  | .hbm, ⟨110, _⟩ => ⟨S8192x256, .f32⟩
  | .hbm, ⟨111, _⟩ => ⟨S_, .f32⟩
  | .hbm, ⟨112, _⟩ => ⟨S256, .f32⟩
  | .hbm, ⟨113, _⟩ => ⟨S_, .f32⟩
  | .hbm, ⟨114, _⟩ => ⟨S256, .f32⟩
  | .hbm, ⟨115, _⟩ => ⟨S256x256, .f32⟩
  | .hbm, ⟨116, _⟩ => ⟨S256x256, .f32⟩
  | .hbm, ⟨117, _⟩ => ⟨S1x256, .f32⟩
  | .hbm, ⟨118, _⟩ => ⟨S1x256, .f32⟩
  | .hbm, ⟨119, _⟩ => ⟨S1x256, .f32⟩
  | .hbm, ⟨120, _⟩ => ⟨S8192x256, .f32⟩
  | .hbm, ⟨121, _⟩ => ⟨S256x8192, .f32⟩
  | .hbm, ⟨122, _⟩ => ⟨S1x8192, .f32⟩
  | .hbm, ⟨123, _⟩ => ⟨S8192x8192, .f32⟩
  | .local _ .vmem, ⟨0, _⟩ => ⟨S1024x2048, .bf16⟩
  | .local _ .vmem, ⟨1, _⟩ => ⟨S1024x2048, .bf16⟩
  | .local _ .vmem, ⟨2, _⟩ => ⟨S8192x160, .f32⟩
  | .local _ .vmem, ⟨3, _⟩ => ⟨S8192x1, .f32⟩
  | .local _ .vmem, ⟨4, _⟩ => ⟨S160x256, .f32⟩
  | .local _ .vmem, ⟨5, _⟩ => ⟨S160x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1024x256, .f32⟩
  | .local _ .vmem, ⟨10, _⟩ => ⟨S1024x256, .f32⟩
  | .local _ .vmem, ⟨11, _⟩ => ⟨S1024x160, .f32⟩
  | .local _ .vmem, ⟨12, _⟩ => ⟨S1024x2048, .bf16⟩
  | .local _ .vmem, ⟨13, _⟩ => ⟨S1024x2048, .bf16⟩
  | .local _ .vmem, ⟨14, _⟩ => ⟨S8192x512, .f32⟩
  | .local _ .vmem, ⟨15, _⟩ => ⟨S8192x1, .f32⟩
  | .local _ .vmem, ⟨16, _⟩ => ⟨S512x256, .f32⟩
  | .local _ .vmem, ⟨17, _⟩ => ⟨S512x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1024x256, .f32⟩
  | .local _ .vmem, ⟨22, _⟩ => ⟨S1024x256, .f32⟩
  | .local _ .vmem, ⟨23, _⟩ => ⟨S1024x512, .f32⟩
  | .local _ .vmem, ⟨24, _⟩ => ⟨S1024x2048, .bf16⟩
  | .local _ .vmem, ⟨25, _⟩ => ⟨S1024x2048, .bf16⟩
  | .local _ .vmem, ⟨26, _⟩ => ⟨S8192x256, .f32⟩
  | .local _ .vmem, ⟨27, _⟩ => ⟨S8192x1, .f32⟩
  | .local _ .vmem, ⟨28, _⟩ => ⟨S256x256, .f32⟩
  | .local _ .vmem, ⟨29, _⟩ => ⟨S256x256, .f32⟩
  | .local _ .vmem, ⟨30, _⟩ => ⟨S1x256, .f32⟩
  | .local _ .vmem, ⟨31, _⟩ => ⟨S1x256, .f32⟩
  | .local _ .vmem, ⟨32, _⟩ => ⟨S1x256, .f32⟩
  | .local _ .vmem, ⟨33, _⟩ => ⟨S1024x256, .f32⟩
  | .local _ .vmem, ⟨34, _⟩ => ⟨S1024x256, .f32⟩
  | .local _ .vmem, ⟨35, _⟩ => ⟨S1024x256, .f32⟩
  | .local _ .vmem, ⟨36, _⟩ => ⟨S256x256, .f32⟩
  | .local _ .vmem, ⟨37, _⟩ => ⟨S256x256, .f32⟩
  | .local _ .vmem, ⟨38, _⟩ => ⟨S256x8192, .f32⟩
  | .local _ .vmem, ⟨39, _⟩ => ⟨S1x8192, .f32⟩
  | .local _ .vmem, ⟨40, _⟩ => ⟨S256x8192, .bf16⟩
  | .local _ .vmem, ⟨41, _⟩ => ⟨S256x8192, .bf16⟩
  | .local _ .vmem, ⟨42, _⟩ => ⟨S256x8192, .f32⟩
  | .local _ .vmem, ⟨43, _⟩ => ⟨S256x8192, .f32⟩
  | _, _ => ⟨S8192x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_c : Ref sig .tc := ⟨.hbm, 27, rfl⟩
abbrev main_v5 : Ref sig .tc := ⟨.hbm, 28, rfl⟩
abbrev main_v6 : Ref sig .tc := ⟨.hbm, 29, rfl⟩
abbrev main_c_0 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_1 : Ref sig .tc := ⟨.hbm, 35, rfl⟩
abbrev main_v11 : Ref sig .tc := ⟨.hbm, 36, rfl⟩
abbrev main_v12 : Ref sig .tc := ⟨.hbm, 37, rfl⟩
abbrev main_cst_2 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst_3 : Ref sig .tc := ⟨.hbm, 42, rfl⟩
abbrev main_v16 : Ref sig .tc := ⟨.hbm, 43, rfl⟩
abbrev main_c_4 : Ref sig .tc := ⟨.hbm, 44, rfl⟩
abbrev main_v17 : Ref sig .tc := ⟨.hbm, 45, rfl⟩
abbrev main_v18 : Ref sig .tc := ⟨.hbm, 46, rfl⟩
abbrev main_c_5 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_c_6 : Ref sig .tc := ⟨.hbm, 51, rfl⟩
abbrev main_v22 : Ref sig .tc := ⟨.hbm, 52, rfl⟩
abbrev main_v23 : Ref sig .tc := ⟨.hbm, 53, rfl⟩
abbrev main_c_7 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_cst_8 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_9 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_10 : Ref sig .tc := ⟨.hbm, 77, rfl⟩
abbrev main_v44 : Ref sig .tc := ⟨.hbm, 78, rfl⟩
abbrev main_v45 : Ref sig .tc := ⟨.hbm, 79, rfl⟩
abbrev main_c_11 : Ref sig .tc := ⟨.hbm, 80, rfl⟩
abbrev main_v46 : Ref sig .tc := ⟨.hbm, 81, rfl⟩
abbrev main_call0_v0 : Ref sig .tc := ⟨.hbm, 82, rfl⟩
abbrev main_call0_c : Ref sig .tc := ⟨.hbm, 83, rfl⟩
abbrev main_call0_c_0 : Ref sig .tc := ⟨.hbm, 84, rfl⟩
abbrev main_call0_v1_0 : Ref sig .tc := ⟨.hbm, 85, rfl⟩
abbrev main_v47 : Ref sig .tc := ⟨.hbm, 86, rfl⟩
abbrev main_c_12 : Ref sig .tc := ⟨.hbm, 87, rfl⟩
abbrev main_v48 : Ref sig .tc := ⟨.hbm, 88, rfl⟩
abbrev main_c_13 : Ref sig .tc := ⟨.hbm, 89, rfl⟩
abbrev main_v49 : Ref sig .tc := ⟨.hbm, 90, rfl⟩
abbrev main_v50 : Ref sig .tc := ⟨.hbm, 91, rfl⟩
abbrev main_c_14 : Ref sig .tc := ⟨.hbm, 92, rfl⟩
abbrev main_c_15 : Ref sig .tc := ⟨.hbm, 93, rfl⟩
abbrev main_v51 : Ref sig .tc := ⟨.hbm, 94, rfl⟩
abbrev main_c_16 : Ref sig .tc := ⟨.hbm, 95, rfl⟩
abbrev main_c_17 : Ref sig .tc := ⟨.hbm, 96, rfl⟩
abbrev main_v52 : Ref sig .tc := ⟨.hbm, 97, rfl⟩
abbrev main_c_18 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_cst_19 : Ref sig .tc := ⟨.hbm, 111, rfl⟩
abbrev main_v65 : Ref sig .tc := ⟨.hbm, 112, rfl⟩
abbrev main_cst_20 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg8_1 : Ref sig .tc := ⟨.vmem, 22, rfl⟩
abbrev cc1_scratch0 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg8_1 : Ref sig .tc := ⟨.vmem, 34, rfl⟩
abbrev cc2_scratch0 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg3_1 : Ref sig .tc := ⟨.vmem, 41, rfl⟩
abbrev cc3_stg4_0 : Ref sig .tc := ⟨.vmem, 42, rfl⟩
abbrev cc3_stg4_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem8_0 : DmaSem sig := 31
abbrev cc2_sem8_1 : DmaSem sig := 32
abbrev cc3_sem0_0 : DmaSem sig := 33
abbrev cc3_sem0_1 : DmaSem sig := 34
abbrev cc3_sem1_0 : DmaSem sig := 35
abbrev cc3_sem2_0 : DmaSem sig := 36
abbrev cc3_sem3_0 : DmaSem sig := 37
abbrev cc3_sem3_1 : DmaSem sig := 38
abbrev cc3_sem4_0 : DmaSem sig := 39
abbrev cc3_sem4_1 : DmaSem sig := 40

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg0 : BitVec 32 := BitVec.ofNat 32 (i 0).val
  let c1024_i32 : BitVec 32 := 1024#32
  let v3 : BitVec 32 := Scalar.muli arg0 c1024_i32
  v3
def k0_mult2 (i : grid0.Coords) : BitVec 32 :=
  let arg1 : BitVec 32 := BitVec.ofNat 32 (i 1).val
  let c2048_i32 : BitVec 32 := 2048#32
  let v5 : BitVec 32 := Scalar.muli arg1 c2048_i32
  v5
def k0_off1 (i : grid0.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v9 : Index := Scalar.indexCast v6
  let c0_2 : Index := 0#32
  ![v9.toNat, 0]
def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_7 : BitVec 32 := 0#32
  let v21 : BitVec 1 := Scalar.cmpi .ne v20 c0_i32_7
  v21

def k0_off2 (i : grid0.Coords) : Fin 2 → Nat :=
  let arg0 : BitVec 32 := BitVec.ofNat 32 (i 0).val
  let c1024_i32 : BitVec 32 := 1024#32
  let v3 : BitVec 32 := Scalar.muli arg0 c1024_i32
  let v4 : BitVec 32 := v3
  let v22 : Index := Scalar.indexCast v4
  let c0_8 : Index := 0#32
  ![v22.toNat, 0]
def k0_off3 (i : grid0.Coords) : Fin 2 → Nat :=
  let arg0 : BitVec 32 := BitVec.ofNat 32 (i 0).val
  let c1024_i32 : BitVec 32 := 1024#32
  let v3 : BitVec 32 := Scalar.muli arg0 c1024_i32
  let v4 : BitVec 32 := v3
  let v28 : Index := Scalar.indexCast v4
  let c0_11 : Index := 0#32
  ![v28.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x160 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8192x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S160x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S160x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev grid1 : Pipeline.Grid := ⟨2, ![8, 4], ![false, false]⟩

def k1_mult1 (i : grid1.Coords) : BitVec 32 :=
  let arg0 : BitVec 32 := BitVec.ofNat 32 (i 0).val
  let c1024_i32 : BitVec 32 := 1024#32
  let v3 : BitVec 32 := Scalar.muli arg0 c1024_i32
  v3
def k1_mult2 (i : grid1.Coords) : BitVec 32 :=
  let arg1 : BitVec 32 := BitVec.ofNat 32 (i 1).val
  let c2048_i32 : BitVec 32 := 2048#32
  let v5 : BitVec 32 := Scalar.muli arg1 c2048_i32
  v5
def k1_off1 (i : grid1.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v9 : Index := Scalar.indexCast v6
  let c0_2 : Index := 0#32
  ![v9.toNat, 0]
def k1_cond2 (i : grid1.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_7 : BitVec 32 := 0#32
  let v21 : BitVec 1 := Scalar.cmpi .ne v20 c0_i32_7
  v21

def k1_off2 (i : grid1.Coords) : Fin 2 → Nat :=
  let arg0 : BitVec 32 := BitVec.ofNat 32 (i 0).val
  let c1024_i32 : BitVec 32 := 1024#32
  let v3 : BitVec 32 := Scalar.muli arg0 c1024_i32
  let v4 : BitVec 32 := v3
  let v22 : Index := Scalar.indexCast v4
  let c0_8 : Index := 0#32
  ![v22.toNat, 0]
def k1_off3 (i : grid1.Coords) : Fin 2 → Nat :=
  let arg0 : BitVec 32 := BitVec.ofNat 32 (i 0).val
  let c1024_i32 : BitVec 32 := 1024#32
  let v3 : BitVec 32 := Scalar.muli arg0 c1024_i32
  let v4 : BitVec 32 := v3
  let v28 : Index := Scalar.indexCast v4
  let c0_11 : Index := 0#32
  ![v28.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S8192x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S512x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S512x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S1024x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev grid2 : Pipeline.Grid := ⟨2, ![8, 4], ![false, false]⟩

def k2_mult1 (i : grid2.Coords) : BitVec 32 :=
  let arg0 : BitVec 32 := BitVec.ofNat 32 (i 0).val
  let c1024_i32 : BitVec 32 := 1024#32
  let v3 : BitVec 32 := Scalar.muli arg0 c1024_i32
  v3
def k2_mult2 (i : grid2.Coords) : BitVec 32 :=
  let arg1 : BitVec 32 := BitVec.ofNat 32 (i 1).val
  let c2048_i32 : BitVec 32 := 2048#32
  let v5 : BitVec 32 := Scalar.muli arg1 c2048_i32
  v5
def k2_off1 (i : grid2.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v9 : Index := Scalar.indexCast v6
  let c0_2 : Index := 0#32
  ![v9.toNat, 0]
def k2_cond2 (i : grid2.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_7 : BitVec 32 := 0#32
  let v21 : BitVec 1 := Scalar.cmpi .ne v20 c0_i32_7
  v21

def k2_off2 (i : grid2.Coords) : Fin 2 → Nat :=
  let arg0 : BitVec 32 := BitVec.ofNat 32 (i 0).val
  let c1024_i32 : BitVec 32 := 1024#32
  let v3 : BitVec 32 := Scalar.muli arg0 c1024_i32
  let v4 : BitVec 32 := v3
  let v22 : Index := Scalar.indexCast v4
  let c0_8 : Index := 0#32
  ![v22.toNat, 0]
def k2_off3 (i : grid2.Coords) : Fin 2 → Nat :=
  let arg0 : BitVec 32 := BitVec.ofNat 32 (i 0).val
  let c1024_i32 : BitVec 32 := 1024#32
  let v3 : BitVec 32 := Scalar.muli arg0 c1024_i32
  let v4 : BitVec 32 := v3
  let v28 : Index := Scalar.indexCast v4
  let c0_11 : Index := 0#32
  ![v28.toNat, 0]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S8192x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S8192x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 2 → Memref sig .tc .vmem S1024x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, false]

abbrev grid3 : Pipeline.Grid := ⟨1, ![32], ![false]⟩

def k3_mult1 (i : grid3.Coords) : BitVec 32 :=
  let arg0 : BitVec 32 := BitVec.ofNat 32 (i 0).val
  let c256_i32 : BitVec 32 := 256#32
  let v0 : BitVec 32 := Scalar.muli arg0 c256_i32
  v0
def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x8192 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x8192 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S256x8192 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S256x8192 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S8192 : S_.BroadcastsInDim S8192 (![] : Fin 0 → Fin S8192.rank)
  bcast_S_S262144 : S_.BroadcastsInDim S262144 (![] : Fin 0 → Fin S262144.rank)
  bcast_S262144_S262144x1_0 : S262144.BroadcastsInDim S262144x1 (![0] : Fin 1 → Fin S262144x1.rank)
  shapeCasts_S8192_S8192x1 : S8192.ShapeCasts S8192x1
  bcast_S_S8192x8192 : S_.BroadcastsInDim S8192x8192 (![] : Fin 0 → Fin S8192x8192.rank)
  concatenates_S262144x1_S262144x1_S262144x2_d1 : Shape.Concatenates [S262144x1, S262144x1] S262144x2 1
  bitsLt_bf16_f32 : FTy.bits .bf16 < FTy.bits .f32
  transposes_S8192x8192_S8192x8192_1_0 : S8192x8192.Transposes [1, 0] S8192x8192
  concatenates_S8192x32_S8192x32_S8192x32_S8192x32_S8192x32_S8192x160_d1 : Shape.Concatenates [S8192x32, S8192x32, S8192x32, S8192x32, S8192x32] S8192x160 1
  transposes_S256x160_S160x256_1_0 : S256x160.Transposes [1, 0] S160x256
  shapeCasts_S256_S1x256 : S256.ShapeCasts S1x256
  inb_S1024x160_S1024x160_0_0 : ∀ a, (![0, 0] : Fin 2 → Nat) a + S1024x160.size a ≤ S1024x160.size a
  h_S1024x160 : 0 < S1024x160.numel
  shapeCasts_S1024x160_S1024x160 : S1024x160.ShapeCasts S1024x160
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  h_S2048x160 : 0 < S2048x160.numel
  shapeCasts_S2048x160_S2048x160 : S2048x160.ShapeCasts S2048x160
  h_S1024x1 : 0 < S1024x1.numel
  shapeCasts_S1024x1_S1024x1 : S1024x1.ShapeCasts S1024x1
  broadcasts_S1024x1_S1024x160 : S1024x1.Broadcasts S1024x160
  inb_S160x256_S160x256_0_0 : ∀ a, (![0, 0] : Fin 2 → Nat) a + S160x256.size a ≤ S160x256.size a
  h_S160x256 : 0 < S160x256.numel
  shapeCasts_S160x256_S160x256 : S160x256.ShapeCasts S160x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  reduces_S1024x256_S1024 : S1024x256.Reduces [1] S1024
  shapeCasts_S1024_S1024x1 : S1024.ShapeCasts S1024x1
  broadcasts_S1024x1_S1024x256 : S1024x1.Broadcasts S1024x256
  inb_S1024x256_S1024x256_0_0 : ∀ a, (![0, 0] : Fin 2 → Nat) a + S1024x256.size a ≤ S1024x256.size a
  h_S1024x256 : 0 < S1024x256.numel
  bcast_S_S8192x32 : S_.BroadcastsInDim S8192x32 (![] : Fin 0 → Fin S8192x32.rank)
  reducesTo_S8192x32_S8192_d1 : S8192x32.ReducesTo [1] S8192
  h_S_ : 0 < S_.numel
  reducesTo_S8192_S_d0 : S8192.ReducesTo [0] S_
  sliceFits_S8192x256_S1x256 : S8192x256.Slices (fun _ => 0) S1x256
  shapeCasts_S1x256_S256 : S1x256.ShapeCasts S256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  concatenates_S8192x256_S8192x256_S8192x512_d1 : Shape.Concatenates [S8192x256, S8192x256] S8192x512 1
  transposes_S256x512_S512x256_1_0 : S256x512.Transposes [1, 0] S512x256
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  h_S2048x512 : 0 < S2048x512.numel
  shapeCasts_S2048x512_S2048x512 : S2048x512.ShapeCasts S2048x512
  broadcasts_S1024x1_S1024x512 : S1024x1.Broadcasts S1024x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  bcast_S_S256 : S_.BroadcastsInDim S256 (![] : Fin 0 → Fin S256.rank)
  transposes_S256x256_S256x256_1_0 : S256x256.Transposes [1, 0] S256x256
  shapeCasts_S1024x256_S1024x256 : S1024x256.ShapeCasts S1024x256
  h_S2048x256 : 0 < S2048x256.numel
  shapeCasts_S2048x256_S2048x256 : S2048x256.ShapeCasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  transposes_S8192x256_S256x8192_1_0 : S8192x256.Transposes [1, 0] S256x8192
  shapeCasts_S8192_S1x8192 : S8192.ShapeCasts S1x8192
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S256x8192 : S1x8192.Broadcasts S256x8192
  reduces_S256x8192_S256 : S256x8192.Reduces [1] S256
  shapeCasts_S256_S256x1 : S256.ShapeCasts S256x1
  broadcasts_S256x1_S256x8192 : S256x1.Broadcasts S256x8192
  iota_S256x8192_d0_w32 : S256x8192.Iotas .tc 32 [0]
  iota_S256x8192_d1_w32 : S256x8192.Iotas .tc 32 [1]
  natLt_1_32 : 1 < 32
  scatter_S8192_S262144x1_S262144_n_0_0_1_wf : ScatterDims.WF S8192 S262144x1 S262144 [] [0] [0] 1
  scatter_S8192x8192_S262144x2_S262144_n_01_01_1_wf : ScatterDims.WF S8192x8192 S262144x2 S262144 [] [0, 1] [0, 1] 1
  dot_S1024x2048_S2048x160_S1024x160_1_0_0_1_n_n_wf : DotDims.WF S1024x2048 S2048x160 S1024x160 [1] [0] [0] [1] [] []
  dot_S1024x160_S160x256_S1024x256_1_0_0_1_n_n_wf : DotDims.WF S1024x160 S160x256 S1024x256 [1] [0] [0] [1] [] []
  dot_S1024x2048_S2048x512_S1024x512_1_0_0_1_n_n_wf : DotDims.WF S1024x2048 S2048x512 S1024x512 [1] [0] [0] [1] [] []
  dot_S1024x512_S512x256_S1024x256_1_0_0_1_n_n_wf : DotDims.WF S1024x512 S512x256 S1024x256 [1] [0] [0] [1] [] []
  dot_S1024x2048_S2048x256_S1024x256_1_0_0_1_n_n_wf : DotDims.WF S1024x2048 S2048x256 S1024x256 [1] [0] [0] [1] [] []
  dot_S1024x256_S256x256_S1024x256_1_0_0_1_n_n_wf : DotDims.WF S1024x256 S256x256 S1024x256 [1] [0] [0] [1] [] []
  dot_S256x256_S256x8192_S256x8192_1_0_0_1_n_n_wf : DotDims.WF S256x256 S256x8192 S256x8192 [1] [0] [0] [1] [] []
  hrank0 : 0 < grid0.rank
  k0_mult1_dvd : ∀ i : grid0.Coords, 1024 ∣ (k0_mult1 i).toNat
  k0_mult2_dvd : ∀ i : grid0.Coords, 2048 ∣ (k0_mult2 i).toNat
  k0_off1_inb : ∀ i : grid0.Coords, ∀ a, (k0_off1 i) a + S2048x160.size a ≤ S8192x160.size a
  k0_off2_inb : ∀ i : grid0.Coords, ∀ (k0_h2 : k0_cond2 i = 1#1), ∀ a, (k0_off2 i) a + S1024x1.size a ≤ S8192x1.size a
  k0_off3_inb : ∀ i : grid0.Coords, ∀ (k0_h2 : k0_cond2 i = 1#1), ∀ a, (k0_off3 i) a + S1024x160.size a ≤ S8192x160.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .bf16 = 32 ∨ (Rect.block (s := S8192x8192) S1024x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x160.size a ≤ S8192x160.size a
  hwx0_1 : ∀ i : grid0.Coords, EltTy.bits .f32 = 32 ∨ (Rect.block (s := S8192x160) S8192x160.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x1.size a ≤ S8192x1.size a
  hwx0_2 : ∀ i : grid0.Coords, EltTy.bits .f32 = 32 ∨ (Rect.block (s := S8192x1) S8192x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S160x256.size a ≤ S160x256.size a
  hwx0_3 : ∀ i : grid0.Coords, EltTy.bits .f32 = 32 ∨ (Rect.block (s := S160x256) S160x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S160x256.size a ≤ S160x256.size a
  hwx0_4 : ∀ i : grid0.Coords, EltTy.bits .f32 = 32 ∨ (Rect.block (s := S160x256) S160x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x256.size a ≤ S8192x256.size a
  hwx0_8 : ∀ i : grid0.Coords, EltTy.bits .f32 = 32 ∨ (Rect.block (s := S8192x256) S1024x256.size (cc0_transform_8 i) (hinb0_8 i)).WholeWords (EltTy.packing .f32)
  hrank1 : 0 < grid1.rank
  k1_mult1_dvd : ∀ i : grid1.Coords, 1024 ∣ (k1_mult1 i).toNat
  k1_mult2_dvd : ∀ i : grid1.Coords, 2048 ∣ (k1_mult2 i).toNat
  k1_off1_inb : ∀ i : grid1.Coords, ∀ a, (k1_off1 i) a + S2048x512.size a ≤ S8192x512.size a
  k1_off2_inb : ∀ i : grid1.Coords, ∀ (k1_h2 : k1_cond2 i = 1#1), ∀ a, (k1_off2 i) a + S1024x1.size a ≤ S8192x1.size a
  k1_off3_inb : ∀ i : grid1.Coords, ∀ (k1_h2 : k1_cond2 i = 1#1), ∀ a, (k1_off3 i) a + S1024x512.size a ≤ S8192x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .bf16 = 32 ∨ (Rect.block (s := S8192x8192) S1024x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x512.size a ≤ S8192x512.size a
  hwx1_1 : ∀ i : grid1.Coords, EltTy.bits .f32 = 32 ∨ (Rect.block (s := S8192x512) S8192x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x1.size a ≤ S8192x1.size a
  hwx1_2 : ∀ i : grid1.Coords, EltTy.bits .f32 = 32 ∨ (Rect.block (s := S8192x1) S8192x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S512x256.size a
  hwx1_3 : ∀ i : grid1.Coords, EltTy.bits .f32 = 32 ∨ (Rect.block (s := S512x256) S512x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x256.size a ≤ S512x256.size a
  hwx1_4 : ∀ i : grid1.Coords, EltTy.bits .f32 = 32 ∨ (Rect.block (s := S512x256) S512x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1024x256.size a ≤ S8192x256.size a
  hwx1_8 : ∀ i : grid1.Coords, EltTy.bits .f32 = 32 ∨ (Rect.block (s := S8192x256) S1024x256.size (cc1_transform_8 i) (hinb1_8 i)).WholeWords (EltTy.packing .f32)
  hrank2 : 0 < grid2.rank
  k2_mult1_dvd : ∀ i : grid2.Coords, 1024 ∣ (k2_mult1 i).toNat
  k2_mult2_dvd : ∀ i : grid2.Coords, 2048 ∣ (k2_mult2 i).toNat
  k2_off1_inb : ∀ i : grid2.Coords, ∀ a, (k2_off1 i) a + S2048x256.size a ≤ S8192x256.size a
  k2_off2_inb : ∀ i : grid2.Coords, ∀ (k2_h2 : k2_cond2 i = 1#1), ∀ a, (k2_off2 i) a + S1024x1.size a ≤ S8192x1.size a
  k2_off3_inb : ∀ i : grid2.Coords, ∀ (k2_h2 : k2_cond2 i = 1#1), ∀ a, (k2_off3 i) a + S1024x256.size a ≤ S8192x256.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S8192x8192.size a
  hwx2_0 : ∀ i : grid2.Coords, EltTy.bits .bf16 = 32 ∨ (Rect.block (s := S8192x8192) S1024x2048.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x256.size a ≤ S8192x256.size a
  hwx2_1 : ∀ i : grid2.Coords, EltTy.bits .f32 = 32 ∨ (Rect.block (s := S8192x256) S8192x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S8192x1.size a ≤ S8192x1.size a
  hwx2_2 : ∀ i : grid2.Coords, EltTy.bits .f32 = 32 ∨ (Rect.block (s := S8192x1) S8192x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1024x256.size a ≤ S8192x256.size a
  hwx2_8 : ∀ i : grid2.Coords, EltTy.bits .f32 = 32 ∨ (Rect.block (s := S8192x256) S1024x256.size (cc2_transform_8 i) (hinb2_8 i)).WholeWords (EltTy.packing .f32)
  hrank3 : 0 < grid3.rank
  k3_mult1_dvd : ∀ i : grid3.Coords, 256 ∣ (k3_mult1 i).toNat
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x256.size a ≤ S8192x256.size a
  hwx3_0 : ∀ i : grid3.Coords, EltTy.bits .f32 = 32 ∨ (Rect.block (s := S8192x256) S256x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x8192.size a ≤ S256x8192.size a
  hwx3_1 : ∀ i : grid3.Coords, EltTy.bits .f32 = 32 ∨ (Rect.block (s := S256x8192) S256x8192.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x8192.size a ≤ S1x8192.size a
  hwx3_2 : ∀ i : grid3.Coords, EltTy.bits .f32 = 32 ∨ (Rect.block (s := S1x8192) S1x8192.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x8192.size a ≤ S8192x8192.size a
  hwx3_3 : ∀ i : grid3.Coords, EltTy.bits .bf16 = 32 ∨ (Rect.block (s := S8192x8192) S256x8192.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S256x8192.size a ≤ S8192x8192.size a
  hwx3_4 : ∀ i : grid3.Coords, EltTy.bits .f32 = 32 ∨ (Rect.block (s := S8192x8192) S256x8192.size (cc3_transform_4 i) (hinb3_4 i)).WholeWords (EltTy.packing .f32)

variable [Facts₀]

def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf
def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S1024x2048_S2048x160_S1024x160_1_0_0_1_n_n : DotDims S1024x2048 S2048x160 S1024x160 where
  lhsContracting := [1]
  rhsContracting := [0]
  lhsNonContracting := [0]
  rhsNonContracting := [1]
  lhsBatch := []
  rhsBatch := []
  wf := dot_S1024x2048_S2048x160_S1024x160_1_0_0_1_n_n_wf
def dot_S1024x160_S160x256_S1024x256_1_0_0_1_n_n : DotDims S1024x160 S160x256 S1024x256 where
  lhsContracting := [1]
  rhsContracting := [0]
  lhsNonContracting := [0]
  rhsNonContracting := [1]
  lhsBatch := []
  rhsBatch := []
  wf := dot_S1024x160_S160x256_S1024x256_1_0_0_1_n_n_wf
def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S256x256_S256x8192_S256x8192_1_0_0_1_n_n : DotDims S256x256 S256x8192 S256x8192 where
  lhsContracting := [1]
  rhsContracting := [0]
  lhsNonContracting := [0]
  rhsNonContracting := [1]
  lhsBatch := []
  rhsBatch := []
  wf := dot_S256x256_S256x8192_S256x8192_1_0_0_1_n_n_wf

abbrev win0_0 : Pipeline.Window sig grid0 :=
  Pipeline.Window.ofSpec (Memref.whole main_v32) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S8192x160.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S8192x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v38) S160x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v39) S160x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v40) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v41) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v42) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v43) S1024x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

abbrev win1_0 : Pipeline.Window sig grid1 :=
  Pipeline.Window.ofSpec (Memref.whole main_v32) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v58) S8192x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S8192x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v59) S512x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v60) S512x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v61) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v62) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v63) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v64) S1024x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun _ => false | 8 => fun i => !(k1_cond2 i == 1#1) | ⟨_ + 9, h⟩ => absurd h (Nat.not_lt.2 (Nat.le_add_left _ _))

abbrev win2_0 : Pipeline.Window sig grid2 :=
  Pipeline.Window.ofSpec (Memref.whole main_v32) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S8192x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S8192x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v67) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v68) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v69) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v70) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v71) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v72) S1024x256.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev idle2 : Fin 9 → grid2.Coords → Bool := fun | 0 => fun _ => false | 1 => fun _ => false | 2 => fun _ => false | 3 => fun _ => false | 4 => fun _ => false | 5 => fun _ => false | 6 => fun _ => false | 7 => fun _ => false | 8 => fun i => !(k2_cond2 i == 1#1) | ⟨_ + 9, h⟩ => absurd h (Nat.not_lt.2 (Nat.le_add_left _ _))

abbrev win3_0 : Pipeline.Window sig grid3 :=
  Pipeline.Window.ofSpec (Memref.whole main_v72) S256x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v73) S256x8192.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v74) S1x8192.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v36) S256x8192.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v75) S256x8192.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S8192x32 : Shape := ⟨2, ![8192, 32]⟩
abbrev S256x160 : Shape := ⟨2, ![256, 160]⟩
abbrev S256 : Shape := ⟨1, ![256]⟩
abbrev S256x512 : Shape := ⟨2, ![256, 512]⟩
abbrev S256x256 : Shape := ⟨2, ![256, 256]⟩
abbrev S8192x256 : Shape := ⟨2, ![8192, 256]⟩
abbrev S8192 : Shape := ⟨1, ![8192]⟩
abbrev S2x262144 : Shape := ⟨2, ![2, 262144]⟩
abbrev S1x262144 : Shape := ⟨2, ![1, 262144]⟩
abbrev S262144 : Shape := ⟨1, ![262144]⟩
abbrev S8192x160 : Shape := ⟨2, ![8192, 160]⟩
abbrev S_ : Shape := ⟨0, ![]⟩
abbrev S262144x1 : Shape := ⟨2, ![262144, 1]⟩
abbrev S262144x160 : Shape := ⟨2, ![262144, 160]⟩
abbrev S8192x1 : Shape := ⟨2, ![8192, 1]⟩
abbrev S160x256 : Shape := ⟨2, ![160, 256]⟩
abbrev S1x256 : Shape := ⟨2, ![1, 256]⟩
abbrev S8192x512 : Shape := ⟨2, ![8192, 512]⟩
abbrev S262144x512 : Shape := ⟨2, ![262144, 512]⟩
abbrev S512x256 : Shape := ⟨2, ![512, 256]⟩
abbrev S262144x256 : Shape := ⟨2, ![262144, 256]⟩
abbrev S256x8192 : Shape := ⟨2, ![256, 8192]⟩
abbrev S8192x8192 : Shape := ⟨2, ![8192, 8192]⟩
abbrev S1x8192 : Shape := ⟨2, ![1, 8192]⟩
abbrev S262144x2 : Shape := ⟨2, ![262144, 2]⟩
abbrev S8192x2 : Shape := ⟨2, ![8192, 2]⟩

abbrev nBuf : Space → Nat
  | .hbm => 326
  | .vmem => 0
  | .smem => 0
  | _ => 0

abbrev hbmTy0_0 (i : Nat) : BufTy := match i % 128 with
  | 0 => ⟨S8192x32, .f32⟩
  | 1 => ⟨S8192x32, .f32⟩
  | 2 => ⟨S8192x32, .f32⟩
  | 3 => ⟨S8192x32, .f32⟩
  | 4 => ⟨S8192x32, .f32⟩
  | 5 => ⟨S256x160, .f32⟩
  | 6 => ⟨S256x160, .f32⟩
  | 7 => ⟨S256, .f32⟩
  | 8 => ⟨S256x512, .f32⟩
  | 9 => ⟨S256x512, .f32⟩
  | 10 => ⟨S256, .f32⟩
  | 11 => ⟨S256x256, .f32⟩
  | 12 => ⟨S256x256, .f32⟩
  | 13 => ⟨S256, .f32⟩
  | 14 => ⟨S8192x256, .f32⟩
  | 15 => ⟨S8192, .f32⟩
  | 16 => ⟨S256, .f32⟩
  | 17 => ⟨S256, .f32⟩
  | 18 => ⟨S256, .f32⟩
  | 19 => ⟨S256, .f32⟩
  | 20 => ⟨S2x262144, .i32⟩
  | 21 => ⟨S1x262144, .i32⟩
  | 22 => ⟨S262144, .i32⟩
  | 23 => ⟨S1x262144, .i32⟩
  | 24 => ⟨S262144, .i32⟩
  | 25 => ⟨S8192x160, .f32⟩
  | 26 => ⟨S_, .i32⟩
  | 27 => ⟨S262144, .i32⟩
  | 28 => ⟨S262144, .i1⟩
  | 29 => ⟨S_, .i32⟩
  | 30 => ⟨S262144, .i32⟩
  | 31 => ⟨S262144, .i32⟩
  | 32 => ⟨S262144, .i32⟩
  | 33 => ⟨S262144x1, .i32⟩
  | 34 => ⟨S262144x160, .f32⟩
  | 35 => ⟨S_, .f32⟩
  | 36 => ⟨S8192x160, .f32⟩
  | 37 => ⟨S262144x1, .i32⟩
  | 38 => ⟨S8192x160, .f32⟩
  | 39 => ⟨S_, .f32⟩
  | 40 => ⟨S262144, .f32⟩
  | 41 => ⟨S_, .f32⟩
  | 42 => ⟨S8192, .f32⟩
  | 43 => ⟨S262144x1, .i32⟩
  | 44 => ⟨S8192, .f32⟩
  | 45 => ⟨S_, .f32⟩
  | 46 => ⟨S8192, .f32⟩
  | 47 => ⟨S8192, .f32⟩
  | 48 => ⟨S8192x1, .f32⟩
  | 49 => ⟨S8192x160, .f32⟩
  | 50 => ⟨S8192x160, .f32⟩
  | 51 => ⟨S160x256, .f32⟩
  | 52 => ⟨S8192x256, .f32⟩
  | 53 => ⟨S1x256, .f32⟩
  | 54 => ⟨S8192x256, .f32⟩
  | 55 => ⟨S8192x256, .f32⟩
  | 56 => ⟨S160x256, .f32⟩
  | 57 => ⟨S8192x256, .f32⟩
  | 58 => ⟨S8192x256, .f32⟩
  | 59 => ⟨S_, .f32⟩
  | 60 => ⟨S8192x256, .f32⟩
  | 61 => ⟨S8192x256, .f32⟩
  | 62 => ⟨S_, .f32⟩
  | 63 => ⟨S8192, .f32⟩
  | 64 => ⟨S8192x1, .f32⟩
  | 65 => ⟨S_, .f32⟩
  | 66 => ⟨S8192x1, .f32⟩
  | 67 => ⟨S8192x1, .f32⟩
  | 68 => ⟨S8192x256, .f32⟩
  | 69 => ⟨S8192x256, .f32⟩
  | 70 => ⟨S8192x256, .f32⟩
  | 71 => ⟨S_, .f32⟩
  | 72 => ⟨S8192, .f32⟩
  | 73 => ⟨S8192x1, .f32⟩
  | 74 => ⟨S_, .f32⟩
  | 75 => ⟨S8192x1, .f32⟩
  | 76 => ⟨S8192x1, .f32⟩
  | 77 => ⟨S8192x256, .f32⟩
  | 78 => ⟨S8192x256, .f32⟩
  | 79 => ⟨S_, .f32⟩
  | 80 => ⟨S8192x1, .f32⟩
  | 81 => ⟨S8192x1, .f32⟩
  | 82 => ⟨S8192x1, .f32⟩
  | 83 => ⟨S8192x256, .f32⟩
  | 84 => ⟨S8192x256, .f32⟩
  | 85 => ⟨S1x256, .f32⟩
  | 86 => ⟨S8192x256, .f32⟩
  | 87 => ⟨S8192x256, .f32⟩
  | 88 => ⟨S1x256, .f32⟩
  | 89 => ⟨S8192x256, .f32⟩
  | 90 => ⟨S8192x256, .f32⟩
  | 91 => ⟨S_, .f32⟩
  | 92 => ⟨S8192x32, .f32⟩
  | 93 => ⟨S8192x32, .i1⟩
  | 94 => ⟨S_, .i1⟩
  | 95 => ⟨S8192, .i1⟩
  | 96 => ⟨S8192, .i32⟩
  | 97 => ⟨S_, .i1⟩
  | 98 => ⟨S_, .i32⟩
  | 99 => ⟨S_, .i1⟩
  | 100 => ⟨S_, .i32⟩
  | 101 => ⟨S_, .i32⟩
  | 102 => ⟨S_, .i1⟩
  | 103 => ⟨S_, .i32⟩
  | 104 => ⟨S_, .i32⟩
  | 105 => ⟨S_, .i32⟩
  | 106 => ⟨S_, .i32⟩
  | 107 => ⟨S_, .i32⟩
  | 108 => ⟨S_, .i1⟩
  | 109 => ⟨S_, .i32⟩
  | 110 => ⟨S_, .i32⟩
  | 111 => ⟨S_, .i32⟩
  | 112 => ⟨S_, .i32⟩
  | 113 => ⟨S_, .i32⟩
  | 114 => ⟨S1x256, .f32⟩
  | 115 => ⟨S256, .f32⟩
  | 116 => ⟨S1x256, .f32⟩
  | 117 => ⟨S8192x256, .f32⟩
  | 118 => ⟨S8192x512, .f32⟩
  | 119 => ⟨S_, .i32⟩
  | 120 => ⟨S262144, .i32⟩
  | 121 => ⟨S262144, .i1⟩
  | 122 => ⟨S_, .i32⟩
  | 123 => ⟨S262144, .i32⟩
  | 124 => ⟨S262144, .i32⟩
  | 125 => ⟨S262144, .i32⟩
  | 126 => ⟨S262144x1, .i32⟩
  | 127 => ⟨S262144x512, .f32⟩
  | _ => ⟨S8192x32, .f32⟩

abbrev hbmTy0_1 (i : Nat) : BufTy := match i % 128 with
  | 0 => ⟨S_, .f32⟩
  | 1 => ⟨S8192x512, .f32⟩
  | 2 => ⟨S262144x1, .i32⟩
  | 3 => ⟨S8192x512, .f32⟩
  | 4 => ⟨S_, .f32⟩
  | 5 => ⟨S262144, .f32⟩
  | 6 => ⟨S_, .f32⟩
  | 7 => ⟨S8192, .f32⟩
  | 8 => ⟨S262144x1, .i32⟩
  | 9 => ⟨S8192, .f32⟩
  | 10 => ⟨S_, .f32⟩
  | 11 => ⟨S8192, .f32⟩
  | 12 => ⟨S8192, .f32⟩
  | 13 => ⟨S8192x1, .f32⟩
  | 14 => ⟨S8192x512, .f32⟩
  | 15 => ⟨S8192x512, .f32⟩
  | 16 => ⟨S512x256, .f32⟩
  | 17 => ⟨S8192x256, .f32⟩
  | 18 => ⟨S1x256, .f32⟩
  | 19 => ⟨S8192x256, .f32⟩
  | 20 => ⟨S8192x256, .f32⟩
  | 21 => ⟨S512x256, .f32⟩
  | 22 => ⟨S8192x256, .f32⟩
  | 23 => ⟨S8192x256, .f32⟩
  | 24 => ⟨S_, .f32⟩
  | 25 => ⟨S8192x256, .f32⟩
  | 26 => ⟨S8192x256, .f32⟩
  | 27 => ⟨S_, .f32⟩
  | 28 => ⟨S8192, .f32⟩
  | 29 => ⟨S8192x1, .f32⟩
  | 30 => ⟨S_, .f32⟩
  | 31 => ⟨S8192x1, .f32⟩
  | 32 => ⟨S8192x1, .f32⟩
  | 33 => ⟨S8192x256, .f32⟩
  | 34 => ⟨S8192x256, .f32⟩
  | 35 => ⟨S8192x256, .f32⟩
  | 36 => ⟨S_, .f32⟩
  | 37 => ⟨S8192, .f32⟩
  | 38 => ⟨S8192x1, .f32⟩
  | 39 => ⟨S_, .f32⟩
  | 40 => ⟨S8192x1, .f32⟩
  | 41 => ⟨S8192x1, .f32⟩
  | 42 => ⟨S8192x256, .f32⟩
  | 43 => ⟨S8192x256, .f32⟩
  | 44 => ⟨S_, .f32⟩
  | 45 => ⟨S8192x1, .f32⟩
  | 46 => ⟨S8192x1, .f32⟩
  | 47 => ⟨S8192x1, .f32⟩
  | 48 => ⟨S8192x256, .f32⟩
  | 49 => ⟨S8192x256, .f32⟩
  | 50 => ⟨S1x256, .f32⟩
  | 51 => ⟨S8192x256, .f32⟩
  | 52 => ⟨S8192x256, .f32⟩
  | 53 => ⟨S1x256, .f32⟩
  | 54 => ⟨S8192x256, .f32⟩
  | 55 => ⟨S8192x256, .f32⟩
  | 56 => ⟨S_, .i32⟩
  | 57 => ⟨S262144, .i32⟩
  | 58 => ⟨S262144, .i1⟩
  | 59 => ⟨S_, .i32⟩
  | 60 => ⟨S262144, .i32⟩
  | 61 => ⟨S262144, .i32⟩
  | 62 => ⟨S262144, .i32⟩
  | 63 => ⟨S262144x1, .i32⟩
  | 64 => ⟨S262144x256, .f32⟩
  | 65 => ⟨S_, .f32⟩
  | 66 => ⟨S8192x256, .f32⟩
  | 67 => ⟨S262144x1, .i32⟩
  | 68 => ⟨S8192x256, .f32⟩
  | 69 => ⟨S_, .f32⟩
  | 70 => ⟨S262144, .f32⟩
  | 71 => ⟨S_, .f32⟩
  | 72 => ⟨S8192, .f32⟩
  | 73 => ⟨S262144x1, .i32⟩
  | 74 => ⟨S8192, .f32⟩
  | 75 => ⟨S_, .f32⟩
  | 76 => ⟨S8192, .f32⟩
  | 77 => ⟨S8192, .f32⟩
  | 78 => ⟨S8192x1, .f32⟩
  | 79 => ⟨S8192x256, .f32⟩
  | 80 => ⟨S8192x256, .f32⟩
  | 81 => ⟨S256x256, .f32⟩
  | 82 => ⟨S8192x256, .f32⟩
  | 83 => ⟨S1x256, .f32⟩
  | 84 => ⟨S8192x256, .f32⟩
  | 85 => ⟨S8192x256, .f32⟩
  | 86 => ⟨S256x256, .f32⟩
  | 87 => ⟨S8192x256, .f32⟩
  | 88 => ⟨S8192x256, .f32⟩
  | 89 => ⟨S_, .f32⟩
  | 90 => ⟨S8192x256, .f32⟩
  | 91 => ⟨S8192x256, .f32⟩
  | 92 => ⟨S256x8192, .f32⟩
  | 93 => ⟨S8192x8192, .f32⟩
  | 94 => ⟨S1x8192, .f32⟩
  | 95 => ⟨S8192x8192, .f32⟩
  | 96 => ⟨S8192x8192, .f32⟩
  | 97 => ⟨S_, .f32⟩
  | 98 => ⟨S8192, .f32⟩
  | 99 => ⟨S_, .f32⟩
  | 100 => ⟨S8192, .f32⟩
  | 101 => ⟨S8192, .f32⟩
  | 102 => ⟨S8192x1, .f32⟩
  | 103 => ⟨S8192x8192, .f32⟩
  | 104 => ⟨S8192x8192, .f32⟩
  | 105 => ⟨S8192x8192, .f32⟩
  | 106 => ⟨S_, .f32⟩
  | 107 => ⟨S8192, .f32⟩
  | 108 => ⟨S8192x1, .f32⟩
  | 109 => ⟨S8192x8192, .f32⟩
  | 110 => ⟨S8192x8192, .f32⟩
  | 111 => ⟨S_, .f32⟩
  | 112 => ⟨S8192x8192, .f32⟩
  | 113 => ⟨S_, .i32⟩
  | 114 => ⟨S262144, .i32⟩
  | 115 => ⟨S262144, .i1⟩
  | 116 => ⟨S_, .i32⟩
  | 117 => ⟨S262144, .i32⟩
  | 118 => ⟨S262144, .i32⟩
  | 119 => ⟨S262144, .i32⟩
  | 120 => ⟨S_, .i32⟩
  | 121 => ⟨S262144, .i32⟩
  | 122 => ⟨S262144, .i1⟩
  | 123 => ⟨S_, .i32⟩
  | 124 => ⟨S262144, .i32⟩
  | 125 => ⟨S262144, .i32⟩
  | 126 => ⟨S262144, .i32⟩
  | 127 => ⟨S262144x1, .i32⟩
  | _ => ⟨S8192x32, .f32⟩

abbrev hbmTy0_2 (i : Nat) : BufTy := match i % 128 with
  | 0 => ⟨S262144x1, .i32⟩
  | 1 => ⟨S262144x2, .i32⟩
  | 2 => ⟨S262144, .f32⟩
  | 3 => ⟨S_, .i32⟩
  | 4 => ⟨S262144, .i32⟩
  | 5 => ⟨S262144, .i1⟩
  | 6 => ⟨S_, .i32⟩
  | 7 => ⟨S262144, .i32⟩
  | 8 => ⟨S262144, .i32⟩
  | 9 => ⟨S262144, .i32⟩
  | 10 => ⟨S_, .i32⟩
  | 11 => ⟨S262144, .i32⟩
  | 12 => ⟨S262144, .i1⟩
  | 13 => ⟨S_, .i32⟩
  | 14 => ⟨S262144, .i32⟩
  | 15 => ⟨S262144, .i32⟩
  | 16 => ⟨S262144, .i32⟩
  | 17 => ⟨S262144x1, .i32⟩
  | 18 => ⟨S262144x1, .i32⟩
  | 19 => ⟨S262144x2, .i32⟩
  | 20 => ⟨S8192x8192, .f32⟩
  | 21 => ⟨S8192, .i32⟩
  | 22 => ⟨S_, .i32⟩
  | 23 => ⟨S8192, .i32⟩
  | 24 => ⟨S8192, .i1⟩
  | 25 => ⟨S_, .i32⟩
  | 26 => ⟨S8192, .i32⟩
  | 27 => ⟨S8192, .i32⟩
  | 28 => ⟨S8192, .i32⟩
  | 29 => ⟨S_, .i32⟩
  | 30 => ⟨S8192, .i32⟩
  | 31 => ⟨S8192, .i1⟩
  | 32 => ⟨S_, .i32⟩
  | 33 => ⟨S8192, .i32⟩
  | 34 => ⟨S8192, .i32⟩
  | 35 => ⟨S8192, .i32⟩
  | 36 => ⟨S8192x1, .i32⟩
  | 37 => ⟨S8192x1, .i32⟩
  | 38 => ⟨S8192x2, .i32⟩
  | 39 => ⟨S8192, .f32⟩
  | 40 => ⟨S_, .i32⟩
  | 41 => ⟨S8192, .i32⟩
  | 42 => ⟨S8192, .i1⟩
  | 43 => ⟨S_, .i32⟩
  | 44 => ⟨S8192, .i32⟩
  | 45 => ⟨S8192, .i32⟩
  | 46 => ⟨S8192, .i32⟩
  | 47 => ⟨S_, .i32⟩
  | 48 => ⟨S8192, .i32⟩
  | 49 => ⟨S8192, .i1⟩
  | 50 => ⟨S_, .i32⟩
  | 51 => ⟨S8192, .i32⟩
  | 52 => ⟨S8192, .i32⟩
  | 53 => ⟨S8192, .i32⟩
  | 54 => ⟨S8192x1, .i32⟩
  | 55 => ⟨S8192x1, .i32⟩
  | 56 => ⟨S8192x2, .i32⟩
  | 57 => ⟨S8192x8192, .f32⟩
  | 58 => ⟨S_, .f32⟩
  | 59 => ⟨S8192, .f32⟩
  | 60 => ⟨S8192x1, .f32⟩
  | 61 => ⟨S_, .f32⟩
  | 62 => ⟨S8192x1, .f32⟩
  | 63 => ⟨S8192x1, .i1⟩
  | 64 => ⟨S_, .f32⟩
  | 65 => ⟨S_, .f32⟩
  | 66 => ⟨S8192x1, .f32⟩
  | 67 => ⟨S8192x1, .f32⟩
  | 68 => ⟨S8192x8192, .f32⟩
  | 69 => ⟨S8192x8192, .f32⟩
  | _ => ⟨S8192x32, .f32⟩

abbrev hbmTy (i : Nat) : BufTy := match i / 128 with
  | 0 => hbmTy0_0 i
  | 1 => hbmTy0_1 i
  | 2 => hbmTy0_2 i
  | _ => ⟨S8192x32, .f32⟩

abbrev bufTy : (tb : Table) → Fin (tcTables nBuf tb) → BufTy
  | .hbm, ⟨i, _⟩ => hbmTy i
  | _, _ => ⟨S8192x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_c : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst_1 : Ref sig .tc := ⟨.hbm, 39, rfl⟩
abbrev main_v15 : Ref sig .tc := ⟨.hbm, 40, rfl⟩
abbrev main_cst_2 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst_3 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_call0_cst : Ref sig .tc := ⟨.hbm, 59, rfl⟩
abbrev main_call0_v0 : Ref sig .tc := ⟨.hbm, 60, rfl⟩
abbrev main_v32 : Ref sig .tc := ⟨.hbm, 61, rfl⟩
abbrev main_cst_4 : Ref sig .tc := ⟨.hbm, 62, rfl⟩
abbrev main_v33 : Ref sig .tc := ⟨.hbm, 63, rfl⟩
abbrev main_v34 : Ref sig .tc := ⟨.hbm, 64, rfl⟩
abbrev main_cst_5 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_6 : Ref sig .tc := ⟨.hbm, 71, rfl⟩
abbrev main_v40 : Ref sig .tc := ⟨.hbm, 72, rfl⟩
abbrev main_v41 : Ref sig .tc := ⟨.hbm, 73, rfl⟩
abbrev main_cst_7 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_8 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_9 : Ref sig .tc := ⟨.hbm, 91, rfl⟩
abbrev main_v57 : Ref sig .tc := ⟨.hbm, 92, rfl⟩
abbrev main_v58 : Ref sig .tc := ⟨.hbm, 93, rfl⟩
abbrev main_c_10 : Ref sig .tc := ⟨.hbm, 94, rfl⟩
abbrev main_v59 : Ref sig .tc := ⟨.hbm, 95, rfl⟩
abbrev main_call1_v0 : Ref sig .tc := ⟨.hbm, 96, rfl⟩
abbrev main_call1_c : Ref sig .tc := ⟨.hbm, 97, rfl⟩
abbrev main_call1_c_0 : Ref sig .tc := ⟨.hbm, 98, rfl⟩
abbrev main_call1_v1_0 : Ref sig .tc := ⟨.hbm, 99, rfl⟩
abbrev main_v60 : Ref sig .tc := ⟨.hbm, 100, rfl⟩
abbrev main_c_11 : Ref sig .tc := ⟨.hbm, 101, rfl⟩
abbrev main_v61 : Ref sig .tc := ⟨.hbm, 102, rfl⟩
abbrev main_c_12 : Ref sig .tc := ⟨.hbm, 103, rfl⟩
abbrev main_v62 : Ref sig .tc := ⟨.hbm, 104, rfl⟩
abbrev main_v63 : Ref sig .tc := ⟨.hbm, 105, rfl⟩
abbrev main_c_13 : Ref sig .tc := ⟨.hbm, 106, rfl⟩
abbrev main_c_14 : Ref sig .tc := ⟨.hbm, 107, rfl⟩
abbrev main_v64 : Ref sig .tc := ⟨.hbm, 108, rfl⟩
abbrev main_c_15 : Ref sig .tc := ⟨.hbm, 109, rfl⟩
abbrev main_c_16 : Ref sig .tc := ⟨.hbm, 110, rfl⟩
abbrev main_v65 : Ref sig .tc := ⟨.hbm, 111, rfl⟩
abbrev main_c_17 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_c_18 : Ref sig .tc := ⟨.hbm, 119, rfl⟩
abbrev main_v72 : Ref sig .tc := ⟨.hbm, 120, rfl⟩
abbrev main_v73 : Ref sig .tc := ⟨.hbm, 121, rfl⟩
abbrev main_c_19 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_cst_20 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_cst_21 : Ref sig .tc := ⟨.hbm, 132, rfl⟩
abbrev main_v82 : Ref sig .tc := ⟨.hbm, 133, rfl⟩
abbrev main_cst_22 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_cst_23 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_call2_cst : Ref sig .tc := ⟨.hbm, 152, rfl⟩
abbrev main_call2_v0 : Ref sig .tc := ⟨.hbm, 153, rfl⟩
abbrev main_v99 : Ref sig .tc := ⟨.hbm, 154, rfl⟩
abbrev main_cst_24 : Ref sig .tc := ⟨.hbm, 155, rfl⟩
abbrev main_v100 : Ref sig .tc := ⟨.hbm, 156, rfl⟩
abbrev main_v101 : Ref sig .tc := ⟨.hbm, 157, rfl⟩
abbrev main_cst_25 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_cst_26 : Ref sig .tc := ⟨.hbm, 164, rfl⟩
abbrev main_v107 : Ref sig .tc := ⟨.hbm, 165, rfl⟩
abbrev main_v108 : Ref sig .tc := ⟨.hbm, 166, rfl⟩
abbrev main_cst_27 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_cst_28 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_c_29 : Ref sig .tc := ⟨.hbm, 184, rfl⟩
abbrev main_v124 : Ref sig .tc := ⟨.hbm, 185, rfl⟩
abbrev main_v125 : Ref sig .tc := ⟨.hbm, 186, rfl⟩
abbrev main_c_30 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_cst_31 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_cst_32 : Ref sig .tc := ⟨.hbm, 197, rfl⟩
abbrev main_v134 : Ref sig .tc := ⟨.hbm, 198, rfl⟩
abbrev main_cst_33 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_cst_34 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_call3_cst : Ref sig .tc := ⟨.hbm, 217, rfl⟩
abbrev main_call3_v0 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_cst_35 : Ref sig .tc := ⟨.hbm, 225, rfl⟩
abbrev main_v157 : Ref sig .tc := ⟨.hbm, 226, rfl⟩
abbrev main_cst_36 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_cst_37 : Ref sig .tc := ⟨.hbm, 234, rfl⟩
abbrev main_v164 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_cst_38 : Ref sig .tc := ⟨.hbm, 239, rfl⟩
abbrev main_v168 : Ref sig .tc := ⟨.hbm, 240, rfl⟩
abbrev main_c_39 : Ref sig .tc := ⟨.hbm, 241, rfl⟩
abbrev main_v169 : Ref sig .tc := ⟨.hbm, 242, rfl⟩
abbrev main_v170 : Ref sig .tc := ⟨.hbm, 243, rfl⟩
abbrev main_c_40 : Ref sig .tc := ⟨.hbm, 244, rfl⟩
abbrev main_v171 : Ref sig .tc := ⟨.hbm, 245, rfl⟩
abbrev main_v172 : Ref sig .tc := ⟨.hbm, 246, rfl⟩
abbrev main_v173 : Ref sig .tc := ⟨.hbm, 247, rfl⟩
abbrev main_c_41 : Ref sig .tc := ⟨.hbm, 248, rfl⟩
abbrev main_v174 : Ref sig .tc := ⟨.hbm, 249, rfl⟩
abbrev main_v175 : Ref sig .tc := ⟨.hbm, 250, rfl⟩
abbrev main_c_42 : Ref sig .tc := ⟨.hbm, 251, rfl⟩
abbrev main_v176 : Ref sig .tc := ⟨.hbm, 252, rfl⟩
abbrev main_v177 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_c_43 : Ref sig .tc := ⟨.hbm, 259, rfl⟩
abbrev main_v183 : Ref sig .tc := ⟨.hbm, 260, rfl⟩
abbrev main_v184 : Ref sig .tc := ⟨.hbm, 261, rfl⟩
abbrev main_c_44 : Ref sig .tc := ⟨.hbm, 262, rfl⟩
abbrev main_v185 : Ref sig .tc := ⟨.hbm, 263, rfl⟩
abbrev main_v186 : Ref sig .tc := ⟨.hbm, 264, rfl⟩
abbrev main_v187 : Ref sig .tc := ⟨.hbm, 265, rfl⟩
abbrev main_c_45 : Ref sig .tc := ⟨.hbm, 266, rfl⟩
abbrev main_v188 : Ref sig .tc := ⟨.hbm, 267, rfl⟩
abbrev main_v189 : Ref sig .tc := ⟨.hbm, 268, rfl⟩
abbrev main_c_46 : Ref sig .tc := ⟨.hbm, 269, rfl⟩
abbrev main_v190 : Ref sig .tc := ⟨.hbm, 270, rfl⟩
abbrev main_v191 : Ref sig .tc := ⟨.hbm, 271, rfl⟩
abbrev main_v192 : Ref sig .tc := ⟨.hbm, 272, rfl⟩
abbrev main_v193 : Ref sig .tc := ⟨.hbm, 273, rfl⟩
abbrev main_v194 : Ref sig .tc := ⟨.hbm, 274, rfl⟩
abbrev main_v195 : Ref sig .tc := ⟨.hbm, 275, rfl⟩
abbrev main_v196 : Ref sig .tc := ⟨.hbm, 276, rfl⟩
abbrev main_v197 : Ref sig .tc := ⟨.hbm, 277, rfl⟩
abbrev main_c_47 : Ref sig .tc := ⟨.hbm, 278, rfl⟩
abbrev main_v198 : Ref sig .tc := ⟨.hbm, 279, rfl⟩
abbrev main_v199 : Ref sig .tc := ⟨.hbm, 280, rfl⟩
abbrev main_c_48 : Ref sig .tc := ⟨.hbm, 281, rfl⟩
abbrev main_v200 : Ref sig .tc := ⟨.hbm, 282, rfl⟩
abbrev main_v201 : Ref sig .tc := ⟨.hbm, 283, rfl⟩
abbrev main_v202 : Ref sig .tc := ⟨.hbm, 284, rfl⟩
abbrev main_c_49 : Ref sig .tc := ⟨.hbm, 285, rfl⟩
abbrev main_v203 : Ref sig .tc := ⟨.hbm, 286, rfl⟩
abbrev main_v204 : Ref sig .tc := ⟨.hbm, 287, rfl⟩
abbrev main_c_50 : Ref sig .tc := ⟨.hbm, 288, rfl⟩
abbrev main_v205 : Ref sig .tc := ⟨.hbm, 289, rfl⟩
abbrev main_v206 : Ref sig .tc := ⟨.hbm, 290, rfl⟩
abbrev main_v207 : Ref sig .tc := ⟨.hbm, 291, rfl⟩
abbrev main_v208 : Ref sig .tc := ⟨.hbm, 292, rfl⟩
abbrev main_v209 : Ref sig .tc := ⟨.hbm, 293, rfl⟩
abbrev main_v210 : Ref sig .tc := ⟨.hbm, 294, rfl⟩
abbrev main_v211 : Ref sig .tc := ⟨.hbm, 295, rfl⟩
abbrev main_c_51 : Ref sig .tc := ⟨.hbm, 296, rfl⟩
abbrev main_v212 : Ref sig .tc := ⟨.hbm, 297, rfl⟩
abbrev main_v213 : Ref sig .tc := ⟨.hbm, 298, rfl⟩
abbrev main_c_52 : Ref sig .tc := ⟨.hbm, 299, rfl⟩
abbrev main_v214 : Ref sig .tc := ⟨.hbm, 300, rfl⟩
abbrev main_v215 : Ref sig .tc := ⟨.hbm, 301, rfl⟩
abbrev main_v216 : Ref sig .tc := ⟨.hbm, 302, rfl⟩
abbrev main_c_53 : Ref sig .tc := ⟨.hbm, 303, rfl⟩
abbrev main_v217 : Ref sig .tc := ⟨.hbm, 304, rfl⟩
abbrev main_v218 : Ref sig .tc := ⟨.hbm, 305, rfl⟩
abbrev main_c_54 : Ref sig .tc := ⟨.hbm, 306, rfl⟩
abbrev main_v219 : Ref sig .tc := ⟨.hbm, 307, rfl⟩
abbrev main_v220 : Ref sig .tc := ⟨.hbm, 308, rfl⟩
abbrev main_v221 : Ref sig .tc := ⟨.hbm, 309, rfl⟩
abbrev main_v222 : Ref sig .tc := ⟨.hbm, 310, rfl⟩
abbrev main_v223 : Ref sig .tc := ⟨.hbm, 311, rfl⟩
abbrev main_v224 : Ref sig .tc := ⟨.hbm, 312, rfl⟩
abbrev main_v225 : Ref sig .tc := ⟨.hbm, 313, rfl⟩
abbrev main_cst_55 : Ref sig .tc := ⟨.hbm, 314, rfl⟩
abbrev main_v226 : Ref sig .tc := ⟨.hbm, 315, rfl⟩
abbrev main_v227 : Ref sig .tc := ⟨.hbm, 316, rfl⟩
abbrev main_cst_56 : Ref sig .tc := ⟨.hbm, 317, rfl⟩
abbrev main_v228 : Ref sig .tc := ⟨.hbm, 318, rfl⟩
abbrev main_v229 : Ref sig .tc := ⟨.hbm, 319, rfl⟩
abbrev main_cst_57 : Ref sig .tc := ⟨.hbm, 320, rfl⟩
abbrev main_call4_v0 : Ref sig .tc := ⟨.hbm, 321, rfl⟩
abbrev main_call4_v1 : Ref sig .tc := ⟨.hbm, 322, rfl⟩
abbrev main_v230 : Ref sig .tc := ⟨.hbm, 323, rfl⟩
abbrev main_v231 : Ref sig .tc := ⟨.hbm, 324, rfl⟩
abbrev main_v232 : Ref sig .tc := ⟨.hbm, 325, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  concatenates_S8192x32_S8192x32_S8192x32_S8192x32_S8192x32_S8192x160_d1 : Shape.Concatenates [S8192x32, S8192x32, S8192x32, S8192x32, S8192x32] S8192x160 1
  bcast_S_S262144 : S_.BroadcastsInDim S262144 (![] : Fin 0 → Fin S262144.rank)
  bcast_S262144_S262144x1_0 : S262144.BroadcastsInDim S262144x1 (![0] : Fin 1 → Fin S262144x1.rank)
  bcast_S_S8192x160 : S_.BroadcastsInDim S8192x160 (![] : Fin 0 → Fin S8192x160.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x160_0_1 : S8192x1.BroadcastsInDim S8192x160 (![0, 1] : Fin 2 → Fin S8192x160.rank)
  transposes_S256x160_S160x256_1_0 : S256x160.Transposes [1, 0] S160x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  reducesTo_S8192x256_S8192_d1 : S8192x256.ReducesTo [1] S8192
  h_S_ : 0 < S_.numel
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bcast_S_S8192x32 : S_.BroadcastsInDim S8192x32 (![] : Fin 0 → Fin S8192x32.rank)
  reducesTo_S8192x32_S8192_d1 : S8192x32.ReducesTo [1] S8192
  reducesTo_S8192_S_d0 : S8192.ReducesTo [0] S_
  sliceFits_S8192x256_S1x256 : S8192x256.Slices (fun _ => 0) S1x256
  shapeCasts_S1x256_S256 : S1x256.ShapeCasts S256
  concatenates_S8192x256_S8192x256_S8192x512_d1 : Shape.Concatenates [S8192x256, S8192x256] S8192x512 1
  bcast_S_S8192x512 : S_.BroadcastsInDim S8192x512 (![] : Fin 0 → Fin S8192x512.rank)
  bcast_S8192x1_S8192x512_0_1 : S8192x1.BroadcastsInDim S8192x512 (![0, 1] : Fin 2 → Fin S8192x512.rank)
  transposes_S256x512_S512x256_1_0 : S256x512.Transposes [1, 0] S512x256
  transposes_S256x256_S256x256_1_0 : S256x256.Transposes [1, 0] S256x256
  transposes_S8192x256_S256x8192_1_0 : S8192x256.Transposes [1, 0] S256x8192
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  bcast_S8192x1_S8192x8192_0_1 : S8192x1.BroadcastsInDim S8192x8192 (![0, 1] : Fin 2 → Fin S8192x8192.rank)
  bcast_S_S8192x8192 : S_.BroadcastsInDim S8192x8192 (![] : Fin 0 → Fin S8192x8192.rank)
  concatenates_S262144x1_S262144x1_S262144x2_d1 : Shape.Concatenates [S262144x1, S262144x1] S262144x2 1
  concatenates_S8192x1_S8192x1_S8192x2_d1 : Shape.Concatenates [S8192x1, S8192x1] S8192x2 1
  gather_S8192x160_S262144x1_S262144x160_1_0_n_n_0_1_1160_wf : GatherDims.WF S8192x160 S262144x1 S262144x160 [1] [0] [] [0] [] 1 ![1, 160]
  scatter_S8192x160_S262144x1_S262144x160_1_0_0_1_wf : ScatterDims.WF S8192x160 S262144x1 S262144x160 [1] [0] [0] 1
  scatter_S8192_S262144x1_S262144_n_0_0_1_wf : ScatterDims.WF S8192 S262144x1 S262144 [] [0] [0] 1
  dot_S8192x160_S160x256_S8192x256_1_0_0_1_n_n_wf : DotDims.WF S8192x160 S160x256 S8192x256 [1] [0] [0] [1] [] []
  gather_S8192x512_S262144x1_S262144x512_1_0_n_n_0_1_1512_wf : GatherDims.WF S8192x512 S262144x1 S262144x512 [1] [0] [] [0] [] 1 ![1, 512]
  scatter_S8192x512_S262144x1_S262144x512_1_0_0_1_wf : ScatterDims.WF S8192x512 S262144x1 S262144x512 [1] [0] [0] 1
  dot_S8192x512_S512x256_S8192x256_1_0_0_1_n_n_wf : DotDims.WF S8192x512 S512x256 S8192x256 [1] [0] [0] [1] [] []
  gather_S8192x256_S262144x1_S262144x256_1_0_n_n_0_1_1256_wf : GatherDims.WF S8192x256 S262144x1 S262144x256 [1] [0] [] [0] [] 1 ![1, 256]
  scatter_S8192x256_S262144x1_S262144x256_1_0_0_1_wf : ScatterDims.WF S8192x256 S262144x1 S262144x256 [1] [0] [0] 1
  dot_S8192x256_S256x256_S8192x256_1_0_0_1_n_n_wf : DotDims.WF S8192x256 S256x256 S8192x256 [1] [0] [0] [1] [] []
  dot_S8192x256_S256x8192_S8192x8192_1_0_0_1_n_n_wf : DotDims.WF S8192x256 S256x8192 S8192x8192 [1] [0] [0] [1] [] []
  gather_S8192x8192_S262144x2_S262144_n_01_n_n_01_1_11_wf : GatherDims.WF S8192x8192 S262144x2 S262144 [] [0, 1] [] [0, 1] [] 1 ![1, 1]
  scatter_S8192x8192_S262144x2_S262144_n_01_01_1_wf : ScatterDims.WF S8192x8192 S262144x2 S262144 [] [0, 1] [0, 1] 1
  gather_S8192x8192_S8192x2_S8192_n_01_n_n_01_1_11_wf : GatherDims.WF S8192x8192 S8192x2 S8192 [] [0, 1] [] [0, 1] [] 1 ![1, 1]
  scatter_S8192x8192_S8192x2_S8192_n_01_01_1_wf : ScatterDims.WF S8192x8192 S8192x2 S8192 [] [0, 1] [0, 1] 1

variable [Facts₀]

def gather_S8192x160_S262144x1_S262144x160_1_0_n_n_0_1_1160 : GatherDims S8192x160 S262144x1 S262144x160 where
  offsetDims := [1]
  collapsedSliceDims := [0]
  operandBatchingDims := []
  startIndicesBatchingDims := []
  startIndexMap := [0]
  indexVectorDim := 1
  sliceSizes := ![1, 160]
  wf := gather_S8192x160_S262144x1_S262144x160_1_0_n_n_0_1_1160_wf
def scatter_S8192x160_S262144x1_S262144x160_1_0_0_1 : ScatterDims S8192x160 S262144x1 S262144x160 where
  updateWindowDims := [1]
  insertedWindowDims := [0]
  scatterDimsToOperandDims := [0]
  indexVectorDim := 1
  wf := scatter_S8192x160_S262144x1_S262144x160_1_0_0_1_wf
def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf
def dot_S8192x160_S160x256_S8192x256_1_0_0_1_n_n : DotDims S8192x160 S160x256 S8192x256 where
  lhsContracting := [1]
  rhsContracting := [0]
  lhsNonContracting := [0]
  rhsNonContracting := [1]
  lhsBatch := []
  rhsBatch := []
  wf := dot_S8192x160_S160x256_S8192x256_1_0_0_1_n_n_wf
def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def gather_S8192x512_S262144x1_S262144x512_1_0_n_n_0_1_1512 : GatherDims S8192x512 S262144x1 S262144x512 where
  offsetDims := [1]
  collapsedSliceDims := [0]
  operandBatchingDims := []
  startIndicesBatchingDims := []
  startIndexMap := [0]
  indexVectorDim := 1
  sliceSizes := ![1, 512]
  wf := gather_S8192x512_S262144x1_S262144x512_1_0_n_n_0_1_1512_wf
def scatter_S8192x512_S262144x1_S262144x512_1_0_0_1 : ScatterDims S8192x512 S262144x1 S262144x512 where
  updateWindowDims := [1]
  insertedWindowDims := [0]
  scatterDimsToOperandDims := [0]
  indexVectorDim := 1
  wf := scatter_S8192x512_S262144x1_S262144x512_1_0_0_1_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def gather_S8192x256_S262144x1_S262144x256_1_0_n_n_0_1_1256 : GatherDims S8192x256 S262144x1 S262144x256 where
  offsetDims := [1]
  collapsedSliceDims := [0]
  operandBatchingDims := []
  startIndicesBatchingDims := []
  startIndexMap := [0]
  indexVectorDim := 1
  sliceSizes := ![1, 256]
  wf := gather_S8192x256_S262144x1_S262144x256_1_0_n_n_0_1_1256_wf
def scatter_S8192x256_S262144x1_S262144x256_1_0_0_1 : ScatterDims S8192x256 S262144x1 S262144x256 where
  updateWindowDims := [1]
  insertedWindowDims := [0]
  scatterDimsToOperandDims := [0]
  indexVectorDim := 1
  wf := scatter_S8192x256_S262144x1_S262144x256_1_0_0_1_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S8192x8192_S262144x2_S262144_n_01_n_n_01_1_11 : GatherDims S8192x8192 S262144x2 S262144 where
  offsetDims := []
  collapsedSliceDims := [0, 1]
  operandBatchingDims := []
  startIndicesBatchingDims := []
  startIndexMap := [0, 1]
  indexVectorDim := 1
  sliceSizes := ![1, 1]
  wf := gather_S8192x8192_S262144x2_S262144_n_01_n_n_01_1_11_wf
def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def gather_S8192x8192_S8192x2_S8192_n_01_n_n_01_1_11 : GatherDims S8192x8192 S8192x2 S8192 where
  offsetDims := []
  collapsedSliceDims := [0, 1]
  operandBatchingDims := []
  startIndicesBatchingDims := []
  startIndexMap := [0, 1]
  indexVectorDim := 1
  sliceSizes := ![1, 1]
  wf := gather_S8192x8192_S8192x2_S8192_n_01_n_n_01_1_11_wf
def scatter_S8192x8192_S8192x2_S8192_n_01_01_1 : ScatterDims S8192x8192 S8192x2 S8192 where
  updateWindowDims := []
  insertedWindowDims := [0, 1]
  scatterDimsToOperandDims := [0, 1]
  indexVectorDim := 1
  wf := scatter_S8192x8192_S8192x2_S8192_n_01_01_1_wf

class Facts : Prop extends Facts₀ where

variable [Facts]
-- ==== Proof.K.R3.lean ====
import proofs.«407196_j36060545417339_2_alg».proof.Proof.Gen.Kernel.Launch
import proofs.«407196_j36060545417339_2_alg».proof.Proof.Gen.Kernel.Skeleton
import proofs.«407196_j36060545417339_2_alg».proof.Proof.Gen.Kernel.Points
import Idealize.ShloMosaic.Lib.Pipeline.FrameBody
import Idealize.ShloMosaic.Lib.Tactic

/-! # Region 3 of @main: the masked softmax call (pipeline 3), at the entry contents V

One half of the frame: for the pipeline of the masked softmax over the grid of 32 row blocks, the proof data at
a parameter V (the core's buffer contents when the region is entered), and the body obligation at every point.
The body reads its four input windows whole, reads (and discards) the output window, and stores once through the
whole output rectangle; what it stores depends on the grid coordinate (the diagonal of the mask sits at row
256 * i + r), so the output's contents after the body are a function of the point as well as of the blocks. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
-- the core's buffer contents when the region is entered
variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current buffer holds its block at every point, fetched there or not, for any proof data
    whose array is V's and whose body leaves the block in place: where the pipeline does not fetch, the block
    index has not moved, so the buffer still holds the block (windows 1 and 2 have a constant index and are
    fetched at the first point only; windows 0 and 3 move with the row block and are fetched at every point). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the one store go through the whole rectangle of their buffer -/

abbrev r3_a : Rect S256x256 := Rect.unit (s := S256x256) ![0, 0] S256x256.size inb_S256x256_S256x256_0_0
abbrev r3_b : Rect S256x8192 := Rect.unit (s := S256x8192) ![0, 0] S256x8192.size inb_S256x8192_S256x8192_0_0
abbrev r3_c : Rect S1x8192 := Rect.unit (s := S1x8192) ![0, 0] S1x8192.size inb_S1x8192_S1x8192_0_0

/-! ## What the body leaves in the output window's buffer -/

/-- Window 4's buffer after the body at point t, from the input windows' blocks: its one store as a piece, the
    payload the skeleton's, at the point's grid coordinate. -/
def out3_4 (t : Fin cfg3.N) (x0 : Vec F S256x256 .f32) (x1 : Vec F S256x8192 .f32) (x2 : Vec F S1x8192 .f32) (x3 : Vec F S256x8192 .bf16) : Vec F S256x8192 .f32 :=
  View.canon [⟨r3_b, k3_pay1 (grid3.coords t) (View.ld x0 r3_a) (View.ld x1 r3_b) (View.ld x2 r3_c) (View.ld x3 r3_b)⟩]

/-- The one store is through the whole rectangle, so it tiles the buffer and covers it. -/
theorem cover3_4 (p0 : Vec F S256x8192 .f32) (y : S256x8192.Idx) :
    ∃ pc ∈ ([⟨r3_b, p0⟩] : List (View.Piece (Elt F) S256x8192 .f32)), y ∈ pc.1.set :=
  View.cover_of_tiled [⟨r3_b, p0⟩] S256x8192.size (by rfl) y

/-! ## The body's triple -/

set_option maxHeartbeats 1000000 in
/-- The body at point t on whole buffers, the inputs' at read contents x0..x3 and the output's at anything, runs to
    the continuation holding the inputs' as they were and the output's at out3_4 of them. -/
theorem sound_kernel3 (c : Dev nD) (E : Set ℕ) (t : Fin cfg3.N)
    (arg1 : Memref sig .tc .vmem S256x256 .f32) (harg1 : arg1.IsWhole) (arg2 : Memref sig .tc .vmem S256x8192 .f32) (harg2 : arg2.IsWhole)
    (arg3 : Memref sig .tc .vmem S1x8192 .f32) (harg3 : arg3.IsWhole) (arg4 : Memref sig .tc .vmem S256x8192 .bf16) (harg4 : arg4.IsWhole)
    (arg5 : Memref sig .tc .vmem S256x8192 .f32) (harg5 : arg5.IsWhole)
    (x0 : Vec F S256x256 .f32) (x1 : Vec F S256x8192 .f32) (x2 : Vec F S1x8192 .f32) (x3 : Vec F S256x8192 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out3_4 t x0 x1 x2 x3)) -∗ K ⟨⟩))
      ⊢ wp frame (wpE (defs₀ (F := F)) Variants.none c none) E
          (cc3__masked_softmax_kernel (grid3.coords t) arg1 harg1 arg2 harg2 arg3 harg3 arg4 harg4 arg5 harg5) K := by
  simp only [cc3__masked_softmax_kernel_eq_skeleton]; unfold cc3__masked_softmax_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The pipeline's proof data -/

/-- The proof data of pipeline 3 on core c: the arrays as the region finds them; after the body at point t each
    input's buffer at its block and the output's at out3_4 of the input blocks; the invariant the scoped rest and
    the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 t (iblk3 V c 0 t) (iblk3 V c 1 t) (iblk3 V c 2 t) (iblk3 V c 3 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 t (iblk3 V c 0 t) (iblk3 V c 1 t) (iblk3 V c 2 t) (iblk3 V c 3 t) := by dsimp only [dat3]

/-- Each input's current buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' buffers hold their blocks, so the triple applies; the invariant and what the
    core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ t _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The proof data's other fields, projected -/

/-- Full shares, nothing owed, and no bound on the recorded pairs. -/
theorem q_eq3 (c : Dev nD) (w : Fin cfg3.W) : (dat3 V c).q w = fullShare := by dsimp only [dat3]
theorem owed_eq3 (c : Dev nD) (t : Fin (cfg3.N + 1)) : (dat3 V c).owed t = 0 := by dsimp only [dat3]
theorem recorded_eq3 (c : Dev nD) (t : Fin (cfg3.N + 1)) : (dat3 V c).recorded t = Set.univ := by dsimp only [dat3]

/-- The invariant at the first point, from the generator register and the scoped rest (its two conjuncts, swapped), -/
theorem Φ0_in3 (c : Dev nD) :
    iprop((∃ r, prngReg c r) ∗ Pipeline.scopedRest (Ix := Unit) (Name := ℕ) (U := UR sig nD τ) (Lvl := ℕ) (Val := Elt F) spec3 c)
      ⊢ ((dat3 V c).Φ 0 : sProp 𝕄) := by
  show _ ⊢ Pipeline.ΦA spec3 c
  unfold Pipeline.ΦA
  iintro ⟨Hr, Hs⟩
  isplitl [Hs]; · iexact Hs
  iexact Hr

/-- and back to them at the last. -/
theorem Φlast_out3 (c : Dev nD) :
    (dat3 V c).Φ (Fin.last cfg3.N)
      ⊢ (iprop((∃ r, prngReg c r) ∗ Pipeline.scopedRest (Ix := Unit) (Name := ℕ) (U := UR sig nD τ) (Lvl := ℕ) (Val := Elt F) spec3 c) : sProp 𝕄) := by
  show Pipeline.ΦA spec3 c ⊢ _
  unfold Pipeline.ΦA
  iintro ⟨Hs, Hr⟩
  isplitl [Hr]; · iexact Hr
  iexact Hs

end Region3

end Cert.Kernel.Gen

end
-- ==== Proof.K.R0Run.lean ====
import proofs.«407196_j36060545417339_2_alg».proof.Proof.Gen.Kernel.Launch
import proofs.«407196_j36060545417339_2_alg».proof.Proof.Gen.Kernel.Skeleton
import proofs.«407196_j36060545417339_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (the first fused aggregation layer): the kernel body, case by case

The body runs on a grid of row blocks `i` and contraction blocks `k`. It keeps a running sum in a scratch
accumulator: at `k = 0` the accumulator is zeroed first; at every `k` the product of the streamed count tile with
the matching rows of the feature matrix is added to it; at the last `k` the sum is divided by the degree, sent through
the two dense maps, the bias, the rectifier and the row normalisation, and stored into the output block. So a point is
in one of three cases — first, middle, last contraction step — and each case's effect on the accumulator and on the
output block is a closed function of what the body reads. -/

/-! ## The two conditions of the body, over the grid -/

/-- The first conditional's condition (the accumulator is zeroed): the contraction index is 0. -/
abbrev cond0_0 (i : grid0.Coords) : Prop :=
  (Scalar.cmpi .ne (Scalar.extui (Scalar.cmpi .eq (BitVec.ofNat 32 (i 1).val) 0#32)) 0#32) = 1#1
/-- The second conditional's condition (the block is finalized and stored): the contraction index is the last. -/
abbrev cond0_1 (i : grid0.Coords) : Prop := k0_cond2 i = 1#1

/-- The contraction index is the fastest grid axis: the accumulator is zeroed at the points ≡ 0 (mod 4), -/
theorem hcond0_0 : ∀ t : Fin cfg0.N, cond0_0 (grid0.coords t) ↔ t.val % 4 = 0 :=
  (by decide +kernel : ∀ t : Fin grid0.N, cond0_0 (grid0.coords t) ↔ t.val % 4 = 0)
/-- and the block is finalized at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## The rectangles the body reads and writes through -/

theorem offz0 : (![0, 0] : Fin 2 → ℕ) = fun _ => 0 := funext fun a => by fin_cases a <;> rfl

/-- The degree rows and the self-feature rows of the row block lie inside their arrays at every grid point (the
    printed side conditions state it under the last-step condition only; it holds everywhere). -/
theorem off2_inb0 : ∀ i : grid0.Coords, ∀ a, (k0_off2 i) a + S1024x1.size a ≤ S8192x1.size a := by decide +kernel
theorem off3_inb0 : ∀ i : grid0.Coords, ∀ a, (k0_off3 i) a + S1024x160.size a ≤ S8192x160.size a := by decide +kernel

/-- The whole count tile, the whole accumulator, the whole output block. -/
abbrev rT0 : Rect S1024x2048 := Rect.unit (s := S1024x2048) ![0, 0] S1024x2048.size inb_S1024x2048_S1024x2048_0_0
abbrev rS0 : Rect S1024x160 := Rect.unit (s := S1024x160) ![0, 0] S1024x160.size inb_S1024x160_S1024x160_0_0
abbrev rO0 : Rect S1024x256 := Rect.unit (s := S1024x256) ![0, 0] S1024x256.size inb_S1024x256_S1024x256_0_0
/-- The feature rows of contraction block `k`; the degree rows and the feature rows of row block `i`. -/
abbrev rH0 (i : grid0.Coords) : Rect S8192x160 := Rect.unit (s := S8192x160) (k0_off1 i) S2048x160.size (k0_off1_inb i)
abbrev rD0 (i : grid0.Coords) : Rect S8192x1 := Rect.unit (s := S8192x1) (k0_off2 i) S1024x1.size (off2_inb0 i)
abbrev rX0 (i : grid0.Coords) : Rect S8192x160 := Rect.unit (s := S8192x160) (k0_off3 i) S1024x160.size (off3_inb0 i)

/-! ## What a point leaves, in closed form -/

/-- The accumulator after the contraction step at point `i`, from the count tile `x0`, the feature matrix `x1` and the
    accumulator `s` the step finds (the store's payload is the skeleton's). -/
def acc0 (i : grid0.Coords) (x0 : Vec F S1024x2048 .bf16) (x1 : Vec F S8192x160 .f32) (s : Vec F S1024x160 .f32) :
    Vec F S1024x160 .f32 :=
  k0_pay2 x0 (View.ld x1 (rH0 i)) s

/-- The output block the last contraction step stores, from the finished sum `s`, the degrees `x2`, the feature matrix
    `x1`, the two weight matrices, the bias and the normalisation's scale and shift (the payloads are the skeleton's). -/
def fin0 (i : grid0.Coords) (x1 : Vec F S8192x160 .f32) (x2 : Vec F S8192x1 .f32) (x3 x4 : Vec F S160x256 .f32)
    (x5 x6 x7 : Vec F S1x256 .f32) (s : Vec F S1024x160 .f32) : Vec F S1024x256 .f32 :=
  k0_pay3 (k0_pay4 (View.ld x2 (rD0 i)) s (View.ld x1 (rX0 i)) x3 x4 x5) x6 x7

/-- One store through the whole accumulator covers it. -/
theorem coverS0 (p : Vec F S1024x160 .f32) (L : List (View.Piece (Elt F) S1024x160 .f32)) (y : S1024x160.Idx) :
    ∃ pc ∈ ((⟨rS0, p⟩ : View.Piece (Elt F) S1024x160 .f32) :: L), y ∈ pc.1.set :=
  ⟨_, List.mem_cons_self, View.mem_set_unit_zero offz0 inb_S1024x160_S1024x160_0_0 y⟩
/-- One store through the whole output block covers it. -/
theorem coverO0 (p : Vec F S1024x256 .f32) (L : List (View.Piece (Elt F) S1024x256 .f32)) (y : S1024x256.Idx) :
    ∃ pc ∈ ((⟨rO0, p⟩ : View.Piece (Elt F) S1024x256 .f32) :: L), y ∈ pc.1.set :=
  ⟨_, List.mem_cons_self, View.mem_set_unit_zero offz0 inb_S1024x256_S1024x256_0_0 y⟩

/-! ## The body's triple, case by case -/

set_option maxHeartbeats 2000000 in
/-- FIRST contraction step (`k = 0`): on whole memrefs, the count tile at `x0`, the feature matrix at `x1`, the
    accumulator at anything, the body runs to the accumulator at the step from the zero block; it touches nothing else. -/
theorem run0_first (c : Dev nD) (E : Set ℕ) (i : grid0.Coords) (arg2 : Memref sig .tc .vmem S1024x2048 .bf16) (harg2 : arg2.IsWhole) (arg3 : Memref sig .tc .vmem S8192x160 .f32) (harg3 : arg3.IsWhole) (arg4 : Memref sig .tc .vmem S8192x1 .f32) (harg4 : arg4.IsWhole) (arg5 : Memref sig .tc .vmem S160x256 .f32) (harg5 : arg5.IsWhole) (arg6 : Memref sig .tc .vmem S160x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1024x160 .f32) (harg11 : arg11.IsWhole)
    (hc0 : cond0_0 i) (hc1 : ¬cond0_1 i)
    (x0 : Vec F S1024x2048 .bf16) (x1 : Vec F S8192x160 .f32) (K : PUnit → sProp 𝕄) :
    iprop(owns (c : Thread nD τ) arg2 fullShare x0 ∗ owns (c : Thread nD τ) arg3 fullShare x1
        ∗ (∃ d, owns (c : Thread nD τ) arg11 fullShare d)
        ∗ (iprop(owns (c : Thread nD τ) arg2 fullShare x0 ∗ owns (c : Thread nD τ) arg3 fullShare x1
            ∗ owns (c : Thread nD τ) arg11 fullShare (acc0 i x0 x1 k0_pay1)) -∗ K ⟨⟩))
      ⊢ wp frame (wpE (defs₀ (F := F)) Variants.none c none) E (cc0__sage_fused_kernel i arg2 harg2 arg3 harg3 arg4 harg4 arg5 harg5 arg6 harg6 arg7 harg7 arg8 harg8 arg9 harg9 arg10 harg10 arg11 harg11) K := by
  simp only [cc0__sage_fused_kernel_eq_skeleton]; unfold cc0__sage_fused_kernel_skel
  unfold owns
  iintro ⟨⟨%f0, %hf0, H0⟩, ⟨%f1, %hf1, H1⟩, ⟨%d, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_eq_canon _ _ _ (coverS0 _ _)]
  sl_unfold_words
  rw [View.canon_cons_unit_zero (S := S1024x160) offz0, View.readCov_unit_zero (S := S1024x160) _ offz0]
  unfold acc0
  simp only [View.readAt_eq_ld, View.ld_unit_zero (S := S1024x2048) offz0]
  rfl

set_option maxHeartbeats 2000000 in
/-- MIDDLE contraction step (`0 < k < 3`): the accumulator at `s` goes to the step from `s`. -/
theorem run0_mid (c : Dev nD) (E : Set ℕ) (i : grid0.Coords) (arg2 : Memref sig .tc .vmem S1024x2048 .bf16) (harg2 : arg2.IsWhole) (arg3 : Memref sig .tc .vmem S8192x160 .f32) (harg3 : arg3.IsWhole) (arg4 : Memref sig .tc .vmem S8192x1 .f32) (harg4 : arg4.IsWhole) (arg5 : Memref sig .tc .vmem S160x256 .f32) (harg5 : arg5.IsWhole) (arg6 : Memref sig .tc .vmem S160x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1024x160 .f32) (harg11 : arg11.IsWhole)
    (hc0 : ¬cond0_0 i) (hc1 : ¬cond0_1 i)
    (x0 : Vec F S1024x2048 .bf16) (x1 : Vec F S8192x160 .f32) (s : Vec F S1024x160 .f32) (K : PUnit → sProp 𝕄) :
    iprop(owns (c : Thread nD τ) arg2 fullShare x0 ∗ owns (c : Thread nD τ) arg3 fullShare x1
        ∗ owns (c : Thread nD τ) arg11 fullShare s
        ∗ (iprop(owns (c : Thread nD τ) arg2 fullShare x0 ∗ owns (c : Thread nD τ) arg3 fullShare x1
            ∗ owns (c : Thread nD τ) arg11 fullShare (acc0 i x0 x1 s)) -∗ K ⟨⟩))
      ⊢ wp frame (wpE (defs₀ (F := F)) Variants.none c none) E (cc0__sage_fused_kernel i arg2 harg2 arg3 harg3 arg4 harg4 arg5 harg5 arg6 harg6 arg7 harg7 arg8 harg8 arg9 harg9 arg10 harg10 arg11 harg11) K := by
  simp only [cc0__sage_fused_kernel_eq_skeleton]; unfold cc0__sage_fused_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_eq_canon _ _ _ (coverS0 _ _)]
  rw [View.canon_cons_unit_zero (S := S1024x160) offz0]
  unfold acc0
  simp only [View.readAt_eq_ld, View.ld_unit_zero (S := S1024x2048) offz0, View.ld_unit_zero (S := S1024x160) offz0]

set_option maxHeartbeats 4000000 in
/-- LAST contraction step (`k = 3`): the accumulator at `s` goes to the step from `s`, and the output block — handed
    over at anything — is left at the finalized block of that finished sum; the resident operands stay as they were. -/
theorem run0_last (c : Dev nD) (E : Set ℕ) (i : grid0.Coords) (arg2 : Memref sig .tc .vmem S1024x2048 .bf16) (harg2 : arg2.IsWhole) (arg3 : Memref sig .tc .vmem S8192x160 .f32) (harg3 : arg3.IsWhole) (arg4 : Memref sig .tc .vmem S8192x1 .f32) (harg4 : arg4.IsWhole) (arg5 : Memref sig .tc .vmem S160x256 .f32) (harg5 : arg5.IsWhole) (arg6 : Memref sig .tc .vmem S160x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1024x160 .f32) (harg11 : arg11.IsWhole)
    (hc0 : ¬cond0_0 i) (hc1 : cond0_1 i)
    (x0 : Vec F S1024x2048 .bf16) (x1 : Vec F S8192x160 .f32) (x2 : Vec F S8192x1 .f32) (x3 x4 : Vec F S160x256 .f32)
    (x5 x6 x7 : Vec F S1x256 .f32) (s : Vec F S1024x160 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ owns (c : Thread nD τ) arg8 fullShare x6 ∗ owns (c : Thread nD τ) arg9 fullShare x7
        ∗ (∃ d, owns (c : Thread nD τ) arg10 fullShare d)
        ∗ owns (c : Thread nD τ) arg11 fullShare s
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare x6 ∗ owns (c : Thread nD τ) arg9 fullShare x7
            ∗ owns (c : Thread nD τ) arg10 fullShare (fin0 i x1 x2 x3 x4 x5 x6 x7 (acc0 i x0 x1 s))
            ∗ owns (c : Thread nD τ) arg11 fullShare (acc0 i x0 x1 s)) -∗ K ⟨⟩))
      ⊢ wp frame (wpE (defs₀ (F := F)) Variants.none c none) E (cc0__sage_fused_kernel i arg2 harg2 arg3 harg3 arg4 harg4 arg5 harg5 arg6 harg6 arg7 harg7 arg8 harg8 arg9 harg9 arg10 harg10 arg11 harg11) K := by
  simp only [cc0__sage_fused_kernel_eq_skeleton]; unfold cc0__sage_fused_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%d, %fo, -, HO⟩, ⟨%fs, %hfs, HS⟩, Hk⟩
  subst hf0; subst hf1; subst hf2; subst hf3; subst hf4; subst hf5; subst hf6; subst hf7; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [HO]
  · iexists _; isplitr
    swap; · iexact HO
    ipureintro
    rw [View.read_writes_eq_canon _ _ _ (coverO0 _ _)]
    sl_unfold_words
    rw [View.canon_unit_zero (S := S1024x256) offz0, View.readCov_unit_zero (S := S1024x160) _ offz0]
    unfold fin0 acc0
    simp only [View.readAt_eq_ld, View.ld_unit_zero (S := S1024x2048) offz0, View.ld_unit_zero (S := S1024x160) offz0,
      View.ld_unit_zero (S := S160x256) offz0, View.ld_unit_zero (S := S1x256) offz0]
    rfl
  iexists _; isplitr
  swap; · iexact HS
  ipureintro
  sl_unfold_words
  rw [View.read_writes_eq_canon _ _ _ (coverS0 _ _), View.canon_cons_unit_zero (S := S1024x160) offz0]
  unfold acc0
  simp only [View.readAt_eq_ld, View.ld_unit_zero (S := S1024x2048) offz0, View.ld_unit_zero (S := S1024x160) offz0]
  rfl

end Cert.Kernel.Gen
end
-- ==== Proof.K.R0.lean ====
import proofs.«407196_j36060545417339_2_alg».proof.Proof.K.R0Run

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (the first fused aggregation layer): the proof data and the body obligation

Stated at a parameter `V`, the contents of the core's buffers when the region is entered. The accumulator the body
keeps between points is no window of the pipeline, so the region's invariant carries it: before point `t` it holds the
running sum of the count tiles times feature rows over the contraction steps of the current row block done so far. -/

section Region0

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window the body only reads holds its block at every point, whether the point fetched it or not (a resident
    operand is fetched once; its block index never moves): the proof is the same for each of the eight inputs. -/
local macro "before_in_block" w:term "," hA:ident "," hafter:ident "," dat:ident "," t:ident "," d:ident : tactic =>
  `(tactic| (
    have hkeep : ∀ t, (cfg0.win $w).cut (cfg0.grid.coords t) (Dat.after $dat $w t) = Dat.blockOf $dat $w t := fun t => by
      rw [$hafter:ident]; unfold Dat.blockOf iblk0; rw [$hA:ident]; try rfl
    rw [Dat.before_in_eq_fetched $dat $w rfl (fun _ => rfl) (fun _ _ _ => rfl) hkeep $t $d]
    unfold Dat.fetched Dat.blockOf iblk0; rw [$hA:ident]; try rfl))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t := by
  before_in_block 0, hA, hafter, dat, t, d
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t := by
  before_in_block 1, hA, hafter, dat, t, d
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t := by
  before_in_block 2, hA, hafter, dat, t, d
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t := by
  before_in_block 3, hA, hafter, dat, t, d
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t := by
  before_in_block 4, hA, hafter, dat, t, d
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t := by
  before_in_block 5, hA, hafter, dat, t, d
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t := by
  before_in_block 6, hA, hafter, dat, t, d
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t := by
  before_in_block 7, hA, hafter, dat, t, d

/-! ## Where the output window is idle -/

/-- Off the last contraction step the body stores nothing into the output block, and the pipeline does not write it back; -/
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
/-- at the last contraction step it is live. -/
theorem liveAt0_8 : ∀ t : Fin cfg0.N, cond0_1 (grid0.coords t) → cfg0.idle 8 (grid0.coords t) = false := by decide +kernel

/-! ## The accumulator, point by point -/

/-- THE ACCUMULATION. What the scratch accumulator holds after the body at position `n`: at the first contraction step of
    a row block (the positions ≡ 0 mod 4) the step from the zero block, else the step from what the position before
    left — the running sum over the contraction steps done so far of count tile times feature rows. -/
def sAt0 (c : Dev nD) : (n : ℕ) → n < cfg0.N → Vec F S1024x160 .f32
  | 0, h => acc0 (grid0.coords ⟨0, h⟩) (iblk0 V c 0 ⟨0, h⟩) (iblk0 V c 1 ⟨0, h⟩) k0_pay1
  | n + 1, h =>
    if (n + 1) % 4 = 0 then
      acc0 (grid0.coords ⟨n + 1, h⟩) (iblk0 V c 0 ⟨n + 1, h⟩) (iblk0 V c 1 ⟨n + 1, h⟩) k0_pay1
    else
      acc0 (grid0.coords ⟨n + 1, h⟩) (iblk0 V c 0 ⟨n + 1, h⟩) (iblk0 V c 1 ⟨n + 1, h⟩) (sAt0 c n (Nat.lt_of_succ_lt h))

/-- At the first contraction step of a row block: the step from the zero block. -/
theorem sAt0_first (c : Dev nD) (t : Fin cfg0.N) (h : t.val % 4 = 0) :
    sAt0 V c t.val t.isLt = acc0 (grid0.coords t) (iblk0 V c 0 t) (iblk0 V c 1 t) k0_pay1 := by
  obtain ⟨n, hn⟩ := t
  cases n with
  | zero => rfl
  | succ n => exact if_pos h

/-- At a later contraction step: the step from what the point before left. -/
theorem sAt0_next (c : Dev nD) (t : Fin cfg0.N) (h : ¬t.val % 4 = 0) :
    sAt0 V c t.val t.isLt = acc0 (grid0.coords t) (iblk0 V c 0 t) (iblk0 V c 1 t)
      (sAt0 V c (t.val - 1) (Nat.lt_of_le_of_lt (Nat.sub_le _ _) t.isLt)) := by
  obtain ⟨n, hn⟩ := t
  cases n with
  | zero => exact absurd (Nat.zero_mod _) h
  | succ n => exact if_neg h

/-! ## The region's invariant -/

/-- The scratch accumulator: a whole scoped buffer of the kernel's own, passed to the body beside the windows. -/
abbrev scM0 : Memref sig .tc .vmem S1024x160 .f32 := Memref.whole cc0_scratch0

/-- The core's scoped buffers that are no staging buffer, with the accumulator split off as a memref owned at some
    contents. -/
theorem scopedRest0_scratch (c : Dev nD) :
    (Pipeline.scopedRest (Ix := Unit) (Name := ℕ) (U := UR sig nD τ) (Lvl := ℕ) (Val := Elt F) spec0 c : sProp 𝕄)
      = iprop((∃ d, owns (c : Thread nD τ) scM0 fullShare d)
          ∗ Pipeline.scopedRestBut (Ix := Unit) (Name := ℕ) (U := UR sig nD τ) (Lvl := ℕ) (Val := Elt F) spec0 c [cc0_scratch0]) := by
  rw [scopedRest0_split]; simp only [scM0, owns_whole]
  rfl

/-- The invariant before position `n`: the generator register at some state and the scoped rest — before the first point
    with the accumulator at anything, afterwards with the accumulator at what the point before left in it. -/
def Phi0 (c : Dev nD) : (n : ℕ) → n ≤ cfg0.N → sProp 𝕄
  | 0, _ => iprop((∃ r, prngReg c r)
      ∗ Pipeline.scopedRest (Ix := Unit) (Name := ℕ) (U := UR sig nD τ) (Lvl := ℕ) (Val := Elt F) spec0 c)
  | n + 1, hn => iprop((∃ r, prngReg c r) ∗ owns (c : Thread nD τ) scM0 fullShare (sAt0 V c n hn)
      ∗ Pipeline.scopedRestBut (Ix := Unit) (Name := ℕ) (U := UR sig nD τ) (Lvl := ℕ) (Val := Elt F) spec0 c [cc0_scratch0])

theorem Phi0_zero (c : Dev nD) (n : ℕ) (h : n ≤ cfg0.N) (hz : n = 0) :
    Phi0 V c n h = iprop((∃ r, prngReg c r)
      ∗ Pipeline.scopedRest (Ix := Unit) (Name := ℕ) (U := UR sig nD τ) (Lvl := ℕ) (Val := Elt F) spec0 c) := by
  subst hz; rfl

theorem Phi0_succ (c : Dev nD) (n : ℕ) (hn : n < cfg0.N) :
    Phi0 V c (n + 1) hn = iprop((∃ r, prngReg c r) ∗ owns (c : Thread nD τ) scM0 fullShare (sAt0 V c n hn)
      ∗ Pipeline.scopedRestBut (Ix := Unit) (Name := ℕ) (U := UR sig nD τ) (Lvl := ℕ) (Val := Elt F) spec0 c [cc0_scratch0]) := rfl

theorem Phi0_pos (c : Dev nD) (n : ℕ) (h : n ≤ cfg0.N) (hz : n ≠ 0) :
    Phi0 V c n h = iprop((∃ r, prngReg c r) ∗ owns (c : Thread nD τ) scM0 fullShare (sAt0 V c (n - 1) (by omega))
      ∗ Pipeline.scopedRestBut (Ix := Unit) (Name := ℕ) (U := UR sig nD τ) (Lvl := ℕ) (Val := Elt F) spec0 c [cc0_scratch0]) := by
  cases n with
  | zero => exact absurd rfl hz
  | succ n => rfl

/-! ## The pipeline's proof data -/

/-- The proof data of pipeline 0 on core `c`: the arrays as the region finds them; after the body at point `t` each
    input's buffer at its block, the output's at the finalized block of the accumulator after `t` (what the last
    contraction step stores; at the other points the window is idle and this is not consulted); the invariant `Phi0`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => fin0 (grid0.coords t) (iblk0 V c 1 t) (iblk0 V c 2 t) (iblk0 V c 3 t) (iblk0 V c 4 t) (iblk0 V c 5 t)
        (iblk0 V c 6 t) (iblk0 V c 7 t) (sAt0 V c t.val t.isLt)
  Φ t := Phi0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The proof data's shares, tallies and recorded pairs, projected. -/
theorem q_eq0 (c : Dev nD) (w : Fin cfg0.W) : (dat0 V c).q w = fullShare := by dsimp only [dat0]
theorem owed_eq0 (c : Dev nD) (t : Fin (cfg0.N + 1)) : (dat0 V c).owed t = 0 := by dsimp only [dat0]
theorem recorded_eq0 (c : Dev nD) (t : Fin (cfg0.N + 1)) : (dat0 V c).recorded t = Set.univ := rfl

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) :
    (dat0 V c).after 8 t = fin0 (grid0.coords t) (iblk0 V c 1 t) (iblk0 V c 2 t) (iblk0 V c 3 t) (iblk0 V c 4 t)
      (iblk0 V c 5 t) (iblk0 V c 6 t) (iblk0 V c 7 t) (sAt0 V c t.val t.isLt) := by dsimp only [dat0]

/-- WHAT A FLUSHING POINT WRITES BACK: at the last contraction step of a row block the output block is the finalized
    block — the divide by degree, the two dense maps, bias, rectifier and row normalisation — of the accumulator after
    that point and of the resident operands' blocks there. -/
theorem after0_8_last (c : Dev nD) (t : Fin cfg0.N) (hk : t.val % 4 = 3) :
    (dat0 V c).after 8 t = fin0 (grid0.coords t) (iblk0 V c 1 t) (iblk0 V c 2 t) (iblk0 V c 3 t) (iblk0 V c 4 t)
      (iblk0 V c 5 t) (iblk0 V c 6 t) (iblk0 V c 7 t) (sAt0 V c t.val t.isLt) := after0_8 V c t

/-- The invariant at a point's start, restated at the point's position. -/
theorem Phi0_castSucc (c : Dev nD) (t : Fin cfg0.N) :
    (dat0 V c).Φ t.castSucc = Phi0 V c t.val (Nat.le_of_lt t.isLt) := by
  dsimp only [dat0]; simp only [Fin.coe_castSucc]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation, at a generic point -/

/-- What the body is called with at point `t`: the invariant, the core's tallies, the windows' current buffers one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns: the inputs' buffers at their blocks, the output's at what the point leaves (the finalized block at
    a last contraction step; as found elsewhere). -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ (dat0 V c).leavesExact 8 t)

set_option maxHeartbeats 4000000 in
/-- The body at any point. The inputs' memrefs hold their blocks; the position mod 4 says which contraction step the
    point is. At a last step the invariant hands over the accumulator at what the point before left, the body adds this
    step, finalizes and stores the output block. At a first step the accumulator — at anything before the first point, at
    the previous row block's finished sum later, forgotten either way — restarts from the zero block. At a middle step it
    goes on from what the point before left. Off the last step the output's buffer goes back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [after0_0, after0_1, after0_2, after0_3, after0_4, after0_5, after0_6, after0_7]
  rw [show (dat0 V c).owesAt () t.succ = (dat0 V c).owesAt () t.castSucc from rfl]
  rw [show (dat0 V c).Φ t.succ = Phi0 V c (t.val + 1) t.isLt from rfl, Phi0_succ, Phi0_castSucc]
  have hN : t.val < 32 := lt_of_lt_of_eq t.isLt (show cfg0.N = 32 from N_0)
  by_cases h3 : t.val % 4 = 3
  · -- the last contraction step of the row block
    have hc1 : cond0_1 (grid0.coords t) := (hcond0_1 t).mpr h3
    have hc0 : ¬cond0_0 (grid0.coords t) := fun h => by have := (hcond0_0 t).mp h; omega
    have hz : t.val ≠ 0 := by omega
    have h0 : ¬t.val % 4 = 0 := by omega
    rw [show (dat0 V c).leavesExact 8 t = owns (c : Thread nD τ) (st0_8 t) fullShare ((dat0 V c).after 8 t) from by
      unfold Dat.leavesExact; rw [liveAt0_8 t hc1], after0_8]
    rw [Phi0_pos V c _ _ hz, sAt0_next V c t h0]
    iintro ⟨⟨Hg, HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run0_last c Set.univ (grid0.coords t) _ _ _ _ _ _ _ _ _ _ _ _ _ _ _ _ _ _ _ _ hc0 hc1
      (iblk0 V c 0 t) (iblk0 V c 1 t) (iblk0 V c 2 t) (iblk0 V c 3 t) (iblk0 V c 4 t) (iblk0 V c 5 t) (iblk0 V c 6 t)
      (iblk0 V c 7 t) (sAt0 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexact HS
    iintro ⟨H0, H1, H2, H3, H4, H5, H6, H7, H8, HS⟩
    isplitl [Hg HS Hrest]
    · isplitl [Hg]; · iexact Hg
      isplitl [HS]; · iexact HS
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc1 : ¬cond0_1 (grid0.coords t) := fun h => h3 ((hcond0_1 t).mp h)
    rw [Dat.leavesExact_idle (dat0 V c) 8 t (idleAt0_8 t hc1) (noFlush0_8 t hc1)]
    by_cases h0 : t.val % 4 = 0
    · -- the first contraction step of the row block
      have hc0 : cond0_0 (grid0.coords t) := (hcond0_0 t).mpr h0
      rw [sAt0_first V c t h0]
      by_cases hz : t.val = 0
      · rw [Phi0_zero V c _ _ hz, scopedRest0_scratch]
        iintro ⟨⟨Hg, HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply (run0_first c Set.univ (grid0.coords t) _ _ _ _ _ _ _ _ _ _ _ _ _ _ _ _ _ _ _ _ hc0 hc1
          (iblk0 V c 0 t) (iblk0 V c 1 t) _)
        isplitl [H0]; · iexact H0
        isplitl [H1]; · iexact H1
        isplitl [HS]; · iexact HS
        iintro ⟨H0, H1, HS⟩
        isplitl [Hg HS Hrest]
        · isplitl [Hg]; · iexact Hg
          isplitl [HS]; · iexact HS
          iexact Hrest
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
      · rw [Phi0_pos V c _ _ hz]
        iintro ⟨⟨Hg, HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply (run0_first c Set.univ (grid0.coords t) _ _ _ _ _ _ _ _ _ _ _ _ _ _ _ _ _ _ _ _ hc0 hc1
          (iblk0 V c 0 t) (iblk0 V c 1 t) _)
        isplitl [H0]; · iexact H0
        isplitl [H1]; · iexact H1
        isplitl [HS]; · iexists _; iexact HS
        iintro ⟨H0, H1, HS⟩
        isplitl [Hg HS Hrest]
        · isplitl [Hg]; · iexact Hg
          isplitl [HS]; · iexact HS
          iexact Hrest
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
    · -- a middle contraction step
      have hc0 : ¬cond0_0 (grid0.coords t) := fun h => h0 ((hcond0_0 t).mp h)
      have hz : t.val ≠ 0 := fun e => h0 (by rw [e])
      rw [Phi0_pos V c _ _ hz, sAt0_next V c t h0]
      iintro ⟨⟨Hg, HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run0_mid c Set.univ (grid0.coords t) _ _ _ _ _ _ _ _ _ _ _ _ _ _ _ _ _ _ _ _ hc0 hc1
        (iblk0 V c 0 t) (iblk0 V c 1 t) (sAt0 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [Hg HS Hrest]
      · isplitl [Hg]; · iexact Hg
        isplitl [HS]; · iexact HS
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The two ends of the invariant -/

/-- What the region is entered with — the generator register and the scoped rest, the accumulator at anything — is the
    invariant before the first point. -/
theorem Φ0_in0 (c : Dev nD) :
    iprop((∃ r, prngReg c r) ∗ Pipeline.scopedRest (Ix := Unit) (Name := ℕ) (U := UR sig nD τ) (Lvl := ℕ) (Val := Elt F) spec0 c)
      ⊢ ((dat0 V c).Φ 0 : sProp 𝕄) := by
  rw [show (dat0 V c).Φ 0 = Phi0 V c 0 (Nat.zero_le _) from rfl, Phi0_zero V c 0 _ rfl]

/-- After the last point the invariant gives them back: the accumulator's named contents are forgotten. -/
theorem Φlast_out0 (c : Dev nD) :
    (dat0 V c).Φ (Fin.last cfg0.N)
      ⊢ (iprop((∃ r, prngReg c r) ∗ Pipeline.scopedRest (Ix := Unit) (Name := ℕ) (U := UR sig nD τ) (Lvl := ℕ) (Val := Elt F) spec0 c) : sProp 𝕄) := by
  have hN : cfg0.N ≠ 0 := by have : cfg0.N = 32 := N_0; omega
  rw [show (dat0 V c).Φ (Fin.last cfg0.N) = Phi0 V c cfg0.N (Nat.le_refl _) from rfl, Phi0_pos V c _ _ hN, scopedRest0_scratch]
  iintro ⟨Hg, HS, Hrest⟩
  isplitl [Hg]; · iexact Hg
  isplitl [HS]; · iexists _; iexact HS
  iexact Hrest

end Region0

end Cert.Kernel.Gen
end
-- ==== Proof.K.R1Run.lean ====
import proofs.«407196_j36060545417339_2_alg».proof.Proof.Gen.Kernel.Launch
import proofs.«407196_j36060545417339_2_alg».proof.Proof.Gen.Kernel.Skeleton
import proofs.«407196_j36060545417339_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the second fused aggregation layer): the kernel body, case by case

The body runs on a grid of row blocks `i` and contraction blocks `k`. It keeps a running sum in a scratch
accumulator: at `k = 0` the accumulator is zeroed first; at every `k` the product of the streamed count tile with
the matching rows of the feature matrix is added to it; at the last `k` the sum is divided by the degree, sent through
the two dense maps, the bias, the rectifier and the row normalisation, and stored into the output block. So a point is
in one of three cases — first, middle, last contraction step — and each case's effect on the accumulator and on the
output block is a closed function of what the body reads. -/

/-! ## The two conditions of the body, over the grid -/

/-- The first conditional's condition (the accumulator is zeroed): the contraction index is 0. -/
abbrev cond1_0 (i : grid1.Coords) : Prop :=
  (Scalar.cmpi .ne (Scalar.extui (Scalar.cmpi .eq (BitVec.ofNat 32 (i 1).val) 0#32)) 0#32) = 1#1
/-- The second conditional's condition (the block is finalized and stored): the contraction index is the last. -/
abbrev cond1_1 (i : grid1.Coords) : Prop := k1_cond2 i = 1#1

/-- The contraction index is the fastest grid axis: the accumulator is zeroed at the points ≡ 0 (mod 4), -/
theorem hcond1_0 : ∀ t : Fin cfg1.N, cond1_0 (grid1.coords t) ↔ t.val % 4 = 0 :=
  (by decide +kernel : ∀ t : Fin grid1.N, cond1_0 (grid1.coords t) ↔ t.val % 4 = 0)
/-- and the block is finalized at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## The rectangles the body reads and writes through -/

theorem offz1 : (![0, 0] : Fin 2 → ℕ) = fun _ => 0 := funext fun a => by fin_cases a <;> rfl

/-- The degree rows and the self-feature rows of the row block lie inside their arrays at every grid point (the
    printed side conditions state it under the last-step condition only; it holds everywhere). -/
theorem off2_inb1 : ∀ i : grid1.Coords, ∀ a, (k1_off2 i) a + S1024x1.size a ≤ S8192x1.size a := by decide +kernel
theorem off3_inb1 : ∀ i : grid1.Coords, ∀ a, (k1_off3 i) a + S1024x512.size a ≤ S8192x512.size a := by decide +kernel

/-- The whole count tile, the whole accumulator, the whole output block. -/
abbrev rT1 : Rect S1024x2048 := Rect.unit (s := S1024x2048) ![0, 0] S1024x2048.size inb_S1024x2048_S1024x2048_0_0
abbrev rS1 : Rect S1024x512 := Rect.unit (s := S1024x512) ![0, 0] S1024x512.size inb_S1024x512_S1024x512_0_0
abbrev rO1 : Rect S1024x256 := Rect.unit (s := S1024x256) ![0, 0] S1024x256.size inb_S1024x256_S1024x256_0_0
/-- The feature rows of contraction block `k`; the degree rows and the feature rows of row block `i`. -/
abbrev rH1 (i : grid1.Coords) : Rect S8192x512 := Rect.unit (s := S8192x512) (k1_off1 i) S2048x512.size (k1_off1_inb i)
abbrev rD1 (i : grid1.Coords) : Rect S8192x1 := Rect.unit (s := S8192x1) (k1_off2 i) S1024x1.size (off2_inb1 i)
abbrev rX1 (i : grid1.Coords) : Rect S8192x512 := Rect.unit (s := S8192x512) (k1_off3 i) S1024x512.size (off3_inb1 i)

/-! ## What a point leaves, in closed form -/

/-- The accumulator after the contraction step at point `i`, from the count tile `x0`, the feature matrix `x1` and the
    accumulator `s` the step finds (the store's payload is the skeleton's). -/
def acc1 (i : grid1.Coords) (x0 : Vec F S1024x2048 .bf16) (x1 : Vec F S8192x512 .f32) (s : Vec F S1024x512 .f32) :
    Vec F S1024x512 .f32 :=
  k1_pay2 x0 (View.ld x1 (rH1 i)) s

/-- The output block the last contraction step stores, from the finished sum `s`, the degrees `x2`, the feature matrix
    `x1`, the two weight matrices, the bias and the normalisation's scale and shift (the payloads are the skeleton's). -/
def fin1 (i : grid1.Coords) (x1 : Vec F S8192x512 .f32) (x2 : Vec F S8192x1 .f32) (x3 x4 : Vec F S512x256 .f32)
    (x5 x6 x7 : Vec F S1x256 .f32) (s : Vec F S1024x512 .f32) : Vec F S1024x256 .f32 :=
  k1_pay3 (k1_pay4 (View.ld x2 (rD1 i)) s (View.ld x1 (rX1 i)) x3 x4 x5) x6 x7

/-- One store through the whole accumulator covers it. -/
theorem coverS1 (p : Vec F S1024x512 .f32) (L : List (View.Piece (Elt F) S1024x512 .f32)) (y : S1024x512.Idx) :
    ∃ pc ∈ ((⟨rS1, p⟩ : View.Piece (Elt F) S1024x512 .f32) :: L), y ∈ pc.1.set :=
  ⟨_, List.mem_cons_self, View.mem_set_unit_zero offz1 inb_S1024x512_S1024x512_0_0 y⟩
/-- One store through the whole output block covers it. -/
theorem coverO1 (p : Vec F S1024x256 .f32) (L : List (View.Piece (Elt F) S1024x256 .f32)) (y : S1024x256.Idx) :
    ∃ pc ∈ ((⟨rO1, p⟩ : View.Piece (Elt F) S1024x256 .f32) :: L), y ∈ pc.1.set :=
  ⟨_, List.mem_cons_self, View.mem_set_unit_zero offz1 inb_S1024x256_S1024x256_0_0 y⟩

/-! ## The body's triple, case by case -/

set_option maxHeartbeats 2000000 in
/-- FIRST contraction step (`k = 0`): on whole memrefs, the count tile at `x0`, the feature matrix at `x1`, the
    accumulator at anything, the body runs to the accumulator at the step from the zero block; it touches nothing else. -/
theorem run1_first (c : Dev nD) (E : Set ℕ) (i : grid1.Coords) (arg2 : Memref sig .tc .vmem S1024x2048 .bf16) (harg2 : arg2.IsWhole) (arg3 : Memref sig .tc .vmem S8192x512 .f32) (harg3 : arg3.IsWhole) (arg4 : Memref sig .tc .vmem S8192x1 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1024x512 .f32) (harg11 : arg11.IsWhole)
    (hc0 : cond1_0 i) (hc1 : ¬cond1_1 i)
    (x0 : Vec F S1024x2048 .bf16) (x1 : Vec F S8192x512 .f32) (K : PUnit → sProp 𝕄) :
    iprop(owns (c : Thread nD τ) arg2 fullShare x0 ∗ owns (c : Thread nD τ) arg3 fullShare x1
        ∗ (∃ d, owns (c : Thread nD τ) arg11 fullShare d)
        ∗ (iprop(owns (c : Thread nD τ) arg2 fullShare x0 ∗ owns (c : Thread nD τ) arg3 fullShare x1
            ∗ owns (c : Thread nD τ) arg11 fullShare (acc1 i x0 x1 k1_pay1)) -∗ K ⟨⟩))
      ⊢ wp frame (wpE (defs₀ (F := F)) Variants.none c none) E (cc1__sage_fused_kernel i arg2 harg2 arg3 harg3 arg4 harg4 arg5 harg5 arg6 harg6 arg7 harg7 arg8 harg8 arg9 harg9 arg10 harg10 arg11 harg11) K := by
  simp only [cc1__sage_fused_kernel_eq_skeleton]; unfold cc1__sage_fused_kernel_skel
  unfold owns
  iintro ⟨⟨%f0, %hf0, H0⟩, ⟨%f1, %hf1, H1⟩, ⟨%d, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_eq_canon _ _ _ (coverS1 _ _)]
  sl_unfold_words
  rw [View.canon_cons_unit_zero (S := S1024x512) offz1, View.readCov_unit_zero (S := S1024x512) _ offz1]
  unfold acc1
  simp only [View.readAt_eq_ld, View.ld_unit_zero (S := S1024x2048) offz1]
  rfl

set_option maxHeartbeats 2000000 in
/-- MIDDLE contraction step (`0 < k < 3`): the accumulator at `s` goes to the step from `s`. -/
theorem run1_mid (c : Dev nD) (E : Set ℕ) (i : grid1.Coords) (arg2 : Memref sig .tc .vmem S1024x2048 .bf16) (harg2 : arg2.IsWhole) (arg3 : Memref sig .tc .vmem S8192x512 .f32) (harg3 : arg3.IsWhole) (arg4 : Memref sig .tc .vmem S8192x1 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1024x512 .f32) (harg11 : arg11.IsWhole)
    (hc0 : ¬cond1_0 i) (hc1 : ¬cond1_1 i)
    (x0 : Vec F S1024x2048 .bf16) (x1 : Vec F S8192x512 .f32) (s : Vec F S1024x512 .f32) (K : PUnit → sProp 𝕄) :
    iprop(owns (c : Thread nD τ) arg2 fullShare x0 ∗ owns (c : Thread nD τ) arg3 fullShare x1
        ∗ owns (c : Thread nD τ) arg11 fullShare s
        ∗ (iprop(owns (c : Thread nD τ) arg2 fullShare x0 ∗ owns (c : Thread nD τ) arg3 fullShare x1
            ∗ owns (c : Thread nD τ) arg11 fullShare (acc1 i x0 x1 s)) -∗ K ⟨⟩))
      ⊢ wp frame (wpE (defs₀ (F := F)) Variants.none c none) E (cc1__sage_fused_kernel i arg2 harg2 arg3 harg3 arg4 harg4 arg5 harg5 arg6 harg6 arg7 harg7 arg8 harg8 arg9 harg9 arg10 harg10 arg11 harg11) K := by
  simp only [cc1__sage_fused_kernel_eq_skeleton]; unfold cc1__sage_fused_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_eq_canon _ _ _ (coverS1 _ _)]
  rw [View.canon_cons_unit_zero (S := S1024x512) offz1]
  unfold acc1
  simp only [View.readAt_eq_ld, View.ld_unit_zero (S := S1024x2048) offz1, View.ld_unit_zero (S := S1024x512) offz1]

set_option maxHeartbeats 4000000 in
/-- LAST contraction step (`k = 3`): the accumulator at `s` goes to the step from `s`, and the output block — handed
    over at anything — is left at the finalized block of that finished sum; the resident operands stay as they were. -/
theorem run1_last (c : Dev nD) (E : Set ℕ) (i : grid1.Coords) (arg2 : Memref sig .tc .vmem S1024x2048 .bf16) (harg2 : arg2.IsWhole) (arg3 : Memref sig .tc .vmem S8192x512 .f32) (harg3 : arg3.IsWhole) (arg4 : Memref sig .tc .vmem S8192x1 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1024x512 .f32) (harg11 : arg11.IsWhole)
    (hc0 : ¬cond1_0 i) (hc1 : cond1_1 i)
    (x0 : Vec F S1024x2048 .bf16) (x1 : Vec F S8192x512 .f32) (x2 : Vec F S8192x1 .f32) (x3 x4 : Vec F S512x256 .f32)
    (x5 x6 x7 : Vec F S1x256 .f32) (s : Vec F S1024x512 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ owns (c : Thread nD τ) arg8 fullShare x6 ∗ owns (c : Thread nD τ) arg9 fullShare x7
        ∗ (∃ d, owns (c : Thread nD τ) arg10 fullShare d)
        ∗ owns (c : Thread nD τ) arg11 fullShare s
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare x6 ∗ owns (c : Thread nD τ) arg9 fullShare x7
            ∗ owns (c : Thread nD τ) arg10 fullShare (fin1 i x1 x2 x3 x4 x5 x6 x7 (acc1 i x0 x1 s))
            ∗ owns (c : Thread nD τ) arg11 fullShare (acc1 i x0 x1 s)) -∗ K ⟨⟩))
      ⊢ wp frame (wpE (defs₀ (F := F)) Variants.none c none) E (cc1__sage_fused_kernel i arg2 harg2 arg3 harg3 arg4 harg4 arg5 harg5 arg6 harg6 arg7 harg7 arg8 harg8 arg9 harg9 arg10 harg10 arg11 harg11) K := by
  simp only [cc1__sage_fused_kernel_eq_skeleton]; unfold cc1__sage_fused_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%d, %fo, -, HO⟩, ⟨%fs, %hfs, HS⟩, Hk⟩
  subst hf0; subst hf1; subst hf2; subst hf3; subst hf4; subst hf5; subst hf6; subst hf7; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [HO]
  · iexists _; isplitr
    swap; · iexact HO
    ipureintro
    rw [View.read_writes_eq_canon _ _ _ (coverO1 _ _)]
    sl_unfold_words
    rw [View.canon_unit_zero (S := S1024x256) offz1, View.readCov_unit_zero (S := S1024x512) _ offz1]
    unfold fin1 acc1
    simp only [View.readAt_eq_ld, View.ld_unit_zero (S := S1024x2048) offz1, View.ld_unit_zero (S := S1024x512) offz1,
      View.ld_unit_zero (S := S512x256) offz1, View.ld_unit_zero (S := S1x256) offz1]
    rfl
  iexists _; isplitr
  swap; · iexact HS
  ipureintro
  sl_unfold_words
  rw [View.read_writes_eq_canon _ _ _ (coverS1 _ _), View.canon_cons_unit_zero (S := S1024x512) offz1]
  unfold acc1
  simp only [View.readAt_eq_ld, View.ld_unit_zero (S := S1024x2048) offz1, View.ld_unit_zero (S := S1024x512) offz1]
  rfl

end Cert.Kernel.Gen
end
-- ==== Proof.K.R1.lean ====
import proofs.«407196_j36060545417339_2_alg».proof.Proof.K.R1Run

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the second fused aggregation layer): the proof data and the body obligation

Stated at a parameter `V`, the contents of the core's buffers when the region is entered. The accumulator the body
keeps between points is no window of the pipeline, so the region's invariant carries it: before point `t` it holds the
running sum of the count tiles times feature rows over the contraction steps of the current row block done so far. -/

section Region1

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window the body only reads holds its block at every point, whether the point fetched it or not (a resident
    operand is fetched once; its block index never moves): the proof is the same for each of the eight inputs. -/
local macro "before_in_block" w:term "," hA:ident "," hafter:ident "," dat:ident "," t:ident "," d:ident : tactic =>
  `(tactic| (
    have hkeep : ∀ t, (cfg1.win $w).cut (cfg1.grid.coords t) (Dat.after $dat $w t) = Dat.blockOf $dat $w t := fun t => by
      rw [$hafter:ident]; unfold Dat.blockOf iblk1; rw [$hA:ident]; try rfl
    rw [Dat.before_in_eq_fetched $dat $w rfl (fun _ => rfl) (fun _ _ _ => rfl) hkeep $t $d]
    unfold Dat.fetched Dat.blockOf iblk1; rw [$hA:ident]; try rfl))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t := by
  before_in_block 0, hA, hafter, dat, t, d
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t := by
  before_in_block 1, hA, hafter, dat, t, d
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t := by
  before_in_block 2, hA, hafter, dat, t, d
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t := by
  before_in_block 3, hA, hafter, dat, t, d
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t := by
  before_in_block 4, hA, hafter, dat, t, d
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t := by
  before_in_block 5, hA, hafter, dat, t, d
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t := by
  before_in_block 6, hA, hafter, dat, t, d
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t := by
  before_in_block 7, hA, hafter, dat, t, d

/-! ## Where the output window is idle -/

/-- Off the last contraction step the body stores nothing into the output block, and the pipeline does not write it back; -/
theorem idleAt1_8 : ∀ t : Fin cfg1.N, ¬cond1_1 (grid1.coords t) → cfg1.idle 8 (grid1.coords t) = true := by decide +kernel
theorem noFlush1_8 : ∀ t : Fin cfg1.N, ¬cond1_1 (grid1.coords t) → (cfg1.win 8).flush t = false := by decide +kernel
/-- at the last contraction step it is live. -/
theorem liveAt1_8 : ∀ t : Fin cfg1.N, cond1_1 (grid1.coords t) → cfg1.idle 8 (grid1.coords t) = false := by decide +kernel

/-! ## The accumulator, point by point -/

/-- THE ACCUMULATION. What the scratch accumulator holds after the body at position `n`: at the first contraction step of
    a row block (the positions ≡ 0 mod 4) the step from the zero block, else the step from what the position before
    left — the running sum over the contraction steps done so far of count tile times feature rows. -/
def sAt1 (c : Dev nD) : (n : ℕ) → n < cfg1.N → Vec F S1024x512 .f32
  | 0, h => acc1 (grid1.coords ⟨0, h⟩) (iblk1 V c 0 ⟨0, h⟩) (iblk1 V c 1 ⟨0, h⟩) k1_pay1
  | n + 1, h =>
    if (n + 1) % 4 = 0 then
      acc1 (grid1.coords ⟨n + 1, h⟩) (iblk1 V c 0 ⟨n + 1, h⟩) (iblk1 V c 1 ⟨n + 1, h⟩) k1_pay1
    else
      acc1 (grid1.coords ⟨n + 1, h⟩) (iblk1 V c 0 ⟨n + 1, h⟩) (iblk1 V c 1 ⟨n + 1, h⟩) (sAt1 c n (Nat.lt_of_succ_lt h))

/-- At the first contraction step of a row block: the step from the zero block. -/
theorem sAt1_first (c : Dev nD) (t : Fin cfg1.N) (h : t.val % 4 = 0) :
    sAt1 V c t.val t.isLt = acc1 (grid1.coords t) (iblk1 V c 0 t) (iblk1 V c 1 t) k1_pay1 := by
  obtain ⟨n, hn⟩ := t
  cases n with
  | zero => rfl
  | succ n => exact if_pos h

/-- At a later contraction step: the step from what the point before left. -/
theorem sAt1_next (c : Dev nD) (t : Fin cfg1.N) (h : ¬t.val % 4 = 0) :
    sAt1 V c t.val t.isLt = acc1 (grid1.coords t) (iblk1 V c 0 t) (iblk1 V c 1 t)
      (sAt1 V c (t.val - 1) (Nat.lt_of_le_of_lt (Nat.sub_le _ _) t.isLt)) := by
  obtain ⟨n, hn⟩ := t
  cases n with
  | zero => exact absurd (Nat.zero_mod _) h
  | succ n => exact if_neg h

/-! ## The region's invariant -/

/-- The scratch accumulator: a whole scoped buffer of the kernel's own, passed to the body beside the windows. -/
abbrev scM1 : Memref sig .tc .vmem S1024x512 .f32 := Memref.whole cc1_scratch0

/-- The core's scoped buffers that are no staging buffer, with the accumulator split off as a memref owned at some
    contents. -/
theorem scopedRest1_scratch (c : Dev nD) :
    (Pipeline.scopedRest (Ix := Unit) (Name := ℕ) (U := UR sig nD τ) (Lvl := ℕ) (Val := Elt F) spec1 c : sProp 𝕄)
      = iprop((∃ d, owns (c : Thread nD τ) scM1 fullShare d)
          ∗ Pipeline.scopedRestBut (Ix := Unit) (Name := ℕ) (U := UR sig nD τ) (Lvl := ℕ) (Val := Elt F) spec1 c [cc1_scratch0]) := by
  rw [scopedRest1_split]; simp only [scM1, owns_whole]
  rfl

/-- The invariant before position `n`: the generator register at some state and the scoped rest — before the first point
    with the accumulator at anything, afterwards with the accumulator at what the point before left in it. -/
def Phi1 (c : Dev nD) : (n : ℕ) → n ≤ cfg1.N → sProp 𝕄
  | 0, _ => iprop((∃ r, prngReg c r)
      ∗ Pipeline.scopedRest (Ix := Unit) (Name := ℕ) (U := UR sig nD τ) (Lvl := ℕ) (Val := Elt F) spec1 c)
  | n + 1, hn => iprop((∃ r, prngReg c r) ∗ owns (c : Thread nD τ) scM1 fullShare (sAt1 V c n hn)
      ∗ Pipeline.scopedRestBut (Ix := Unit) (Name := ℕ) (U := UR sig nD τ) (Lvl := ℕ) (Val := Elt F) spec1 c [cc1_scratch0])

theorem Phi1_zero (c : Dev nD) (n : ℕ) (h : n ≤ cfg1.N) (hz : n = 0) :
    Phi1 V c n h = iprop((∃ r, prngReg c r)
      ∗ Pipeline.scopedRest (Ix := Unit) (Name := ℕ) (U := UR sig nD τ) (Lvl := ℕ) (Val := Elt F) spec1 c) := by
  subst hz; rfl

theorem Phi1_succ (c : Dev nD) (n : ℕ) (hn : n < cfg1.N) :
    Phi1 V c (n + 1) hn = iprop((∃ r, prngReg c r) ∗ owns (c : Thread nD τ) scM1 fullShare (sAt1 V c n hn)
      ∗ Pipeline.scopedRestBut (Ix := Unit) (Name := ℕ) (U := UR sig nD τ) (Lvl := ℕ) (Val := Elt F) spec1 c [cc1_scratch0]) := rfl

theorem Phi1_pos (c : Dev nD) (n : ℕ) (h : n ≤ cfg1.N) (hz : n ≠ 0) :
    Phi1 V c n h = iprop((∃ r, prngReg c r) ∗ owns (c : Thread nD τ) scM1 fullShare (sAt1 V c (n - 1) (by omega))
      ∗ Pipeline.scopedRestBut (Ix := Unit) (Name := ℕ) (U := UR sig nD τ) (Lvl := ℕ) (Val := Elt F) spec1 c [cc1_scratch0]) := by
  cases n with
  | zero => exact absurd rfl hz
  | succ n => rfl

/-! ## The pipeline's proof data -/

/-- The proof data of pipeline 1 on core `c`: the arrays as the region finds them; after the body at point `t` each
    input's buffer at its block, the output's at the finalized block of the accumulator after `t` (what the last
    contraction step stores; at the other points the window is idle and this is not consulted); the invariant `Phi1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => fin1 (grid1.coords t) (iblk1 V c 1 t) (iblk1 V c 2 t) (iblk1 V c 3 t) (iblk1 V c 4 t) (iblk1 V c 5 t)
        (iblk1 V c 6 t) (iblk1 V c 7 t) (sAt1 V c t.val t.isLt)
  Φ t := Phi1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The proof data's shares, tallies and recorded pairs, projected. -/
theorem q_eq1 (c : Dev nD) (w : Fin cfg1.W) : (dat1 V c).q w = fullShare := by dsimp only [dat1]
theorem owed_eq1 (c : Dev nD) (t : Fin (cfg1.N + 1)) : (dat1 V c).owed t = 0 := by dsimp only [dat1]
theorem recorded_eq1 (c : Dev nD) (t : Fin (cfg1.N + 1)) : (dat1 V c).recorded t = Set.univ := rfl

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) :
    (dat1 V c).after 8 t = fin1 (grid1.coords t) (iblk1 V c 1 t) (iblk1 V c 2 t) (iblk1 V c 3 t) (iblk1 V c 4 t)
      (iblk1 V c 5 t) (iblk1 V c 6 t) (iblk1 V c 7 t) (sAt1 V c t.val t.isLt) := by dsimp only [dat1]

/-- WHAT A FLUSHING POINT WRITES BACK: at the last contraction step of a row block the output block is the finalized
    block — the divide by degree, the two dense maps, bias, rectifier and row normalisation — of the accumulator after
    that point and of the resident operands' blocks there. -/
theorem after1_8_last (c : Dev nD) (t : Fin cfg1.N) (hk : t.val % 4 = 3) :
    (dat1 V c).after 8 t = fin1 (grid1.coords t) (iblk1 V c 1 t) (iblk1 V c 2 t) (iblk1 V c 3 t) (iblk1 V c 4 t)
      (iblk1 V c 5 t) (iblk1 V c 6 t) (iblk1 V c 7 t) (sAt1 V c t.val t.isLt) := after1_8 V c t

/-- The invariant at a point's start, restated at the point's position. -/
theorem Phi1_castSucc (c : Dev nD) (t : Fin cfg1.N) :
    (dat1 V c).Φ t.castSucc = Phi1 V c t.val (Nat.le_of_lt t.isLt) := by
  dsimp only [dat1]; simp only [Fin.coe_castSucc]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t`: the invariant, the core's tallies, the windows' current buffers one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns: the inputs' buffers at their blocks, the output's at what the point leaves (the finalized block at
    a last contraction step; as found elsewhere). -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ (dat1 V c).leavesExact 8 t)

set_option maxHeartbeats 4000000 in
/-- The body at any point. The inputs' memrefs hold their blocks; the position mod 4 says which contraction step the
    point is. At a last step the invariant hands over the accumulator at what the point before left, the body adds this
    step, finalizes and stores the output block. At a first step the accumulator — at anything before the first point, at
    the previous row block's finished sum later, forgotten either way — restarts from the zero block. At a middle step it
    goes on from what the point before left. Off the last step the output's buffer goes back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [after1_0, after1_1, after1_2, after1_3, after1_4, after1_5, after1_6, after1_7]
  rw [show (dat1 V c).owesAt () t.succ = (dat1 V c).owesAt () t.castSucc from rfl]
  rw [show (dat1 V c).Φ t.succ = Phi1 V c (t.val + 1) t.isLt from rfl, Phi1_succ, Phi1_castSucc]
  have hN : t.val < 32 := lt_of_lt_of_eq t.isLt (show cfg1.N = 32 from N_1)
  by_cases h3 : t.val % 4 = 3
  · -- the last contraction step of the row block
    have hc1 : cond1_1 (grid1.coords t) := (hcond1_1 t).mpr h3
    have hc0 : ¬cond1_0 (grid1.coords t) := fun h => by have := (hcond1_0 t).mp h; omega
    have hz : t.val ≠ 0 := by omega
    have h0 : ¬t.val % 4 = 0 := by omega
    rw [show (dat1 V c).leavesExact 8 t = owns (c : Thread nD τ) (st1_8 t) fullShare ((dat1 V c).after 8 t) from by
      unfold Dat.leavesExact; rw [liveAt1_8 t hc1], after1_8]
    rw [Phi1_pos V c _ _ hz, sAt1_next V c t h0]
    iintro ⟨⟨Hg, HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run1_last c Set.univ (grid1.coords t) _ _ _ _ _ _ _ _ _ _ _ _ _ _ _ _ _ _ _ _ hc0 hc1
      (iblk1 V c 0 t) (iblk1 V c 1 t) (iblk1 V c 2 t) (iblk1 V c 3 t) (iblk1 V c 4 t) (iblk1 V c 5 t) (iblk1 V c 6 t)
      (iblk1 V c 7 t) (sAt1 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexact HS
    iintro ⟨H0, H1, H2, H3, H4, H5, H6, H7, H8, HS⟩
    isplitl [Hg HS Hrest]
    · isplitl [Hg]; · iexact Hg
      isplitl [HS]; · iexact HS
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc1 : ¬cond1_1 (grid1.coords t) := fun h => h3 ((hcond1_1 t).mp h)
    rw [Dat.leavesExact_idle (dat1 V c) 8 t (idleAt1_8 t hc1) (noFlush1_8 t hc1)]
    by_cases h0 : t.val % 4 = 0
    · -- the first contraction step of the row block
      have hc0 : cond1_0 (grid1.coords t) := (hcond1_0 t).mpr h0
      rw [sAt1_first V c t h0]
      by_cases hz : t.val = 0
      · rw [Phi1_zero V c _ _ hz, scopedRest1_scratch]
        iintro ⟨⟨Hg, HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply (run1_first c Set.univ (grid1.coords t) _ _ _ _ _ _ _ _ _ _ _ _ _ _ _ _ _ _ _ _ hc0 hc1
          (iblk1 V c 0 t) (iblk1 V c 1 t) _)
        isplitl [H0]; · iexact H0
        isplitl [H1]; · iexact H1
        isplitl [HS]; · iexact HS
        iintro ⟨H0, H1, HS⟩
        isplitl [Hg HS Hrest]
        · isplitl [Hg]; · iexact Hg
          isplitl [HS]; · iexact HS
          iexact Hrest
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
      · rw [Phi1_pos V c _ _ hz]
        iintro ⟨⟨Hg, HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply (run1_first c Set.univ (grid1.coords t) _ _ _ _ _ _ _ _ _ _ _ _ _ _ _ _ _ _ _ _ hc0 hc1
          (iblk1 V c 0 t) (iblk1 V c 1 t) _)
        isplitl [H0]; · iexact H0
        isplitl [H1]; · iexact H1
        isplitl [HS]; · iexists _; iexact HS
        iintro ⟨H0, H1, HS⟩
        isplitl [Hg HS Hrest]
        · isplitl [Hg]; · iexact Hg
          isplitl [HS]; · iexact HS
          iexact Hrest
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
    · -- a middle contraction step
      have hc0 : ¬cond1_0 (grid1.coords t) := fun h => h0 ((hcond1_0 t).mp h)
      have hz : t.val ≠ 0 := fun e => h0 (by rw [e])
      rw [Phi1_pos V c _ _ hz, sAt1_next V c t h0]
      iintro ⟨⟨Hg, HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run1_mid c Set.univ (grid1.coords t) _ _ _ _ _ _ _ _ _ _ _ _ _ _ _ _ _ _ _ _ hc0 hc1
        (iblk1 V c 0 t) (iblk1 V c 1 t) (sAt1 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [Hg HS Hrest]
      · isplitl [Hg]; · iexact Hg
        isplitl [HS]; · iexact HS
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The two ends of the invariant -/

/-- What the region is entered with — the generator register and the scoped rest, the accumulator at anything — is the
    invariant before the first point. -/
theorem Φ0_in1 (c : Dev nD) :
    iprop((∃ r, prngReg c r) ∗ Pipeline.scopedRest (Ix := Unit) (Name := ℕ) (U := UR sig nD τ) (Lvl := ℕ) (Val := Elt F) spec1 c)
      ⊢ ((dat1 V c).Φ 0 : sProp 𝕄) := by
  rw [show (dat1 V c).Φ 0 = Phi1 V c 0 (Nat.zero_le _) from rfl, Phi1_zero V c 0 _ rfl]

/-- After the last point the invariant gives them back: the accumulator's named contents are forgotten. -/
theorem Φlast_out1 (c : Dev nD) :
    (dat1 V c).Φ (Fin.last cfg1.N)
      ⊢ (iprop((∃ r, prngReg c r) ∗ Pipeline.scopedRest (Ix := Unit) (Name := ℕ) (U := UR sig nD τ) (Lvl := ℕ) (Val := Elt F) spec1 c) : sProp 𝕄) := by
  have hN : cfg1.N ≠ 0 := by have : cfg1.N = 32 := N_1; omega
  rw [show (dat1 V c).Φ (Fin.last cfg1.N) = Phi1 V c cfg1.N (Nat.le_refl _) from rfl, Phi1_pos V c _ _ hN, scopedRest1_scratch]
  iintro ⟨Hg, HS, Hrest⟩
  isplitl [Hg]; · iexact Hg
  isplitl [HS]; · iexists _; iexact HS
  iexact Hrest

end Region1

end Cert.Kernel.Gen
end
-- ==== Proof.K.R2Run.lean ====
import proofs.«407196_j36060545417339_2_alg».proof.Proof.Gen.Kernel.Launch
import proofs.«407196_j36060545417339_2_alg».proof.Proof.Gen.Kernel.Skeleton
import proofs.«407196_j36060545417339_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2 (the third fused aggregation layer): the kernel body, case by case

The body runs on a grid of row blocks `i` and contraction blocks `k`. It keeps a running sum in a scratch
accumulator: at `k = 0` the accumulator is zeroed first; at every `k` the product of the streamed count tile with
the matching rows of the feature matrix is added to it; at the last `k` the sum is divided by the degree, sent through
the two dense maps, the bias and the rectifier, and stored into the output block: the third layer has no row
normalisation, so the finalize step is one payload and the scale and shift operands are passed but never read. So a
point is in one of three cases — first, middle, last contraction step — and each case's effect on the accumulator and
on the output block is a closed function of what the body reads. -/

/-! ## The two conditions of the body, over the grid -/

/-- The first conditional's condition (the accumulator is zeroed): the contraction index is 0. -/
abbrev cond2_0 (i : grid2.Coords) : Prop :=
  (Scalar.cmpi .ne (Scalar.extui (Scalar.cmpi .eq (BitVec.ofNat 32 (i 1).val) 0#32)) 0#32) = 1#1
/-- The second conditional's condition (the block is finalized and stored): the contraction index is the last. -/
abbrev cond2_1 (i : grid2.Coords) : Prop := k2_cond2 i = 1#1

/-- The contraction index is the fastest grid axis: the accumulator is zeroed at the points ≡ 0 (mod 4), -/
theorem hcond2_0 : ∀ t : Fin cfg2.N, cond2_0 (grid2.coords t) ↔ t.val % 4 = 0 :=
  (by decide +kernel : ∀ t : Fin grid2.N, cond2_0 (grid2.coords t) ↔ t.val % 4 = 0)
/-- and the block is finalized at the points ≡ 3 (mod 4). -/
theorem hcond2_1 : ∀ t : Fin cfg2.N, cond2_1 (grid2.coords t) ↔ t.val % 4 = 3 :=
  (by decide +kernel : ∀ t : Fin grid2.N, cond2_1 (grid2.coords t) ↔ t.val % 4 = 3)

/-! ## The rectangles the body reads and writes through -/

theorem offz2 : (![0, 0] : Fin 2 → ℕ) = fun _ => 0 := funext fun a => by fin_cases a <;> rfl

/-- The degree rows and the self-feature rows of the row block lie inside their arrays at every grid point (the
    printed side conditions state it under the last-step condition only; it holds everywhere). -/
theorem off2_inb2 : ∀ i : grid2.Coords, ∀ a, (k2_off2 i) a + S1024x1.size a ≤ S8192x1.size a := by decide +kernel
theorem off3_inb2 : ∀ i : grid2.Coords, ∀ a, (k2_off3 i) a + S1024x256.size a ≤ S8192x256.size a := by decide +kernel

/-- The whole count tile, the whole accumulator, the whole output block. -/
abbrev rT2 : Rect S1024x2048 := Rect.unit (s := S1024x2048) ![0, 0] S1024x2048.size inb_S1024x2048_S1024x2048_0_0
abbrev rS2 : Rect S1024x256 := Rect.unit (s := S1024x256) ![0, 0] S1024x256.size inb_S1024x256_S1024x256_0_0
abbrev rO2 : Rect S1024x256 := Rect.unit (s := S1024x256) ![0, 0] S1024x256.size inb_S1024x256_S1024x256_0_0
/-- The feature rows of contraction block `k`; the degree rows and the feature rows of row block `i`. -/
abbrev rH2 (i : grid2.Coords) : Rect S8192x256 := Rect.unit (s := S8192x256) (k2_off1 i) S2048x256.size (k2_off1_inb i)
abbrev rD2 (i : grid2.Coords) : Rect S8192x1 := Rect.unit (s := S8192x1) (k2_off2 i) S1024x1.size (off2_inb2 i)
abbrev rX2 (i : grid2.Coords) : Rect S8192x256 := Rect.unit (s := S8192x256) (k2_off3 i) S1024x256.size (off3_inb2 i)

/-! ## What a point leaves, in closed form -/

/-- The accumulator after the contraction step at point `i`, from the count tile `x0`, the feature matrix `x1` and the
    accumulator `s` the step finds (the store's payload is the skeleton's). -/
def acc2 (i : grid2.Coords) (x0 : Vec F S1024x2048 .bf16) (x1 : Vec F S8192x256 .f32) (s : Vec F S1024x256 .f32) :
    Vec F S1024x256 .f32 :=
  k2_pay2 x0 (View.ld x1 (rH2 i)) s

/-- The output block the last contraction step stores, from the finished sum `s`, the degrees `x2`, the feature matrix
    `x1`, the two weight matrices and the bias (the payload is the skeleton's). The operands `x6` and `x7`, the scale and
    shift of a row normalisation this layer does not have, are arguments the block does not depend on: they are kept so
    that the three layers' statements have one shape. -/
def fin2 (i : grid2.Coords) (x1 : Vec F S8192x256 .f32) (x2 : Vec F S8192x1 .f32) (x3 x4 : Vec F S256x256 .f32)
    (x5 x6 x7 : Vec F S1x256 .f32) (s : Vec F S1024x256 .f32) : Vec F S1024x256 .f32 :=
  k2_pay3 (View.ld x2 (rD2 i)) s (View.ld x1 (rX2 i)) x3 x4 x5

/-- One store through the whole accumulator covers it. -/
theorem coverS2 (p : Vec F S1024x256 .f32) (L : List (View.Piece (Elt F) S1024x256 .f32)) (y : S1024x256.Idx) :
    ∃ pc ∈ ((⟨rS2, p⟩ : View.Piece (Elt F) S1024x256 .f32) :: L), y ∈ pc.1.set :=
  ⟨_, List.mem_cons_self, View.mem_set_unit_zero offz2 inb_S1024x256_S1024x256_0_0 y⟩
/-- One store through the whole output block covers it. -/
theorem coverO2 (p : Vec F S1024x256 .f32) (L : List (View.Piece (Elt F) S1024x256 .f32)) (y : S1024x256.Idx) :
    ∃ pc ∈ ((⟨rO2, p⟩ : View.Piece (Elt F) S1024x256 .f32) :: L), y ∈ pc.1.set :=
  ⟨_, List.mem_cons_self, View.mem_set_unit_zero offz2 inb_S1024x256_S1024x256_0_0 y⟩

/-! ## The body's triple, case by case -/

set_option maxHeartbeats 2000000 in
/-- FIRST contraction step (`k = 0`): on whole memrefs, the count tile at `x0`, the feature matrix at `x1`, the
    accumulator at anything, the body runs to the accumulator at the step from the zero block; it touches nothing else. -/
theorem run2_first (c : Dev nD) (E : Set ℕ) (i : grid2.Coords) (arg2 : Memref sig .tc .vmem S1024x2048 .bf16) (harg2 : arg2.IsWhole) (arg3 : Memref sig .tc .vmem S8192x256 .f32) (harg3 : arg3.IsWhole) (arg4 : Memref sig .tc .vmem S8192x1 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1024x256 .f32) (harg11 : arg11.IsWhole)
    (hc0 : cond2_0 i) (hc1 : ¬cond2_1 i)
    (x0 : Vec F S1024x2048 .bf16) (x1 : Vec F S8192x256 .f32) (K : PUnit → sProp 𝕄) :
    iprop(owns (c : Thread nD τ) arg2 fullShare x0 ∗ owns (c : Thread nD τ) arg3 fullShare x1
        ∗ (∃ d, owns (c : Thread nD τ) arg11 fullShare d)
        ∗ (iprop(owns (c : Thread nD τ) arg2 fullShare x0 ∗ owns (c : Thread nD τ) arg3 fullShare x1
            ∗ owns (c : Thread nD τ) arg11 fullShare (acc2 i x0 x1 k2_pay1)) -∗ K ⟨⟩))
      ⊢ wp frame (wpE (defs₀ (F := F)) Variants.none c none) E (cc2__sage_fused_kernel i arg2 harg2 arg3 harg3 arg4 harg4 arg5 harg5 arg6 harg6 arg7 harg7 arg8 harg8 arg9 harg9 arg10 harg10 arg11 harg11) K := by
  simp only [cc2__sage_fused_kernel_eq_skeleton]; unfold cc2__sage_fused_kernel_skel
  unfold owns
  iintro ⟨⟨%f0, %hf0, H0⟩, ⟨%f1, %hf1, H1⟩, ⟨%d, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_eq_canon _ _ _ (coverS2 _ _)]
  sl_unfold_words
  rw [View.canon_cons_unit_zero (S := S1024x256) offz2, View.readCov_unit_zero (S := S1024x256) _ offz2]
  unfold acc2
  simp only [View.readAt_eq_ld, View.ld_unit_zero (S := S1024x2048) offz2]
  rfl

set_option maxHeartbeats 2000000 in
/-- MIDDLE contraction step (`0 < k < 3`): the accumulator at `s` goes to the step from `s`. -/
theorem run2_mid (c : Dev nD) (E : Set ℕ) (i : grid2.Coords) (arg2 : Memref sig .tc .vmem S1024x2048 .bf16) (harg2 : arg2.IsWhole) (arg3 : Memref sig .tc .vmem S8192x256 .f32) (harg3 : arg3.IsWhole) (arg4 : Memref sig .tc .vmem S8192x1 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1024x256 .f32) (harg11 : arg11.IsWhole)
    (hc0 : ¬cond2_0 i) (hc1 : ¬cond2_1 i)
    (x0 : Vec F S1024x2048 .bf16) (x1 : Vec F S8192x256 .f32) (s : Vec F S1024x256 .f32) (K : PUnit → sProp 𝕄) :
    iprop(owns (c : Thread nD τ) arg2 fullShare x0 ∗ owns (c : Thread nD τ) arg3 fullShare x1
        ∗ owns (c : Thread nD τ) arg11 fullShare s
        ∗ (iprop(owns (c : Thread nD τ) arg2 fullShare x0 ∗ owns (c : Thread nD τ) arg3 fullShare x1
            ∗ owns (c : Thread nD τ) arg11 fullShare (acc2 i x0 x1 s)) -∗ K ⟨⟩))
      ⊢ wp frame (wpE (defs₀ (F := F)) Variants.none c none) E (cc2__sage_fused_kernel i arg2 harg2 arg3 harg3 arg4 harg4 arg5 harg5 arg6 harg6 arg7 harg7 arg8 harg8 arg9 harg9 arg10 harg10 arg11 harg11) K := by
  simp only [cc2__sage_fused_kernel_eq_skeleton]; unfold cc2__sage_fused_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_eq_canon _ _ _ (coverS2 _ _)]
  rw [View.canon_cons_unit_zero (S := S1024x256) offz2]
  unfold acc2
  simp only [View.readAt_eq_ld, View.ld_unit_zero (S := S1024x2048) offz2, View.ld_unit_zero (S := S1024x256) offz2]

set_option maxHeartbeats 4000000 in
/-- LAST contraction step (`k = 3`): the accumulator at `s` goes to the step from `s`, and the output block — handed
    over at anything — is left at the finalized block of that finished sum; the resident operands stay as they were
    (the scale and shift operands are owned through the step and given back untouched). -/
theorem run2_last (c : Dev nD) (E : Set ℕ) (i : grid2.Coords) (arg2 : Memref sig .tc .vmem S1024x2048 .bf16) (harg2 : arg2.IsWhole) (arg3 : Memref sig .tc .vmem S8192x256 .f32) (harg3 : arg3.IsWhole) (arg4 : Memref sig .tc .vmem S8192x1 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1024x256 .f32) (harg11 : arg11.IsWhole)
    (hc0 : ¬cond2_0 i) (hc1 : cond2_1 i)
    (x0 : Vec F S1024x2048 .bf16) (x1 : Vec F S8192x256 .f32) (x2 : Vec F S8192x1 .f32) (x3 x4 : Vec F S256x256 .f32)
    (x5 x6 x7 : Vec F S1x256 .f32) (s : Vec F S1024x256 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ owns (c : Thread nD τ) arg8 fullShare x6 ∗ owns (c : Thread nD τ) arg9 fullShare x7
        ∗ (∃ d, owns (c : Thread nD τ) arg10 fullShare d)
        ∗ owns (c : Thread nD τ) arg11 fullShare s
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare x6 ∗ owns (c : Thread nD τ) arg9 fullShare x7
            ∗ owns (c : Thread nD τ) arg10 fullShare (fin2 i x1 x2 x3 x4 x5 x6 x7 (acc2 i x0 x1 s))
            ∗ owns (c : Thread nD τ) arg11 fullShare (acc2 i x0 x1 s)) -∗ K ⟨⟩))
      ⊢ wp frame (wpE (defs₀ (F := F)) Variants.none c none) E (cc2__sage_fused_kernel i arg2 harg2 arg3 harg3 arg4 harg4 arg5 harg5 arg6 harg6 arg7 harg7 arg8 harg8 arg9 harg9 arg10 harg10 arg11 harg11) K := by
  simp only [cc2__sage_fused_kernel_eq_skeleton]; unfold cc2__sage_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%d, %fo, -, HO⟩, ⟨%fs, %hfs, HS⟩, Hk⟩
  subst hf0; subst hf1; subst hf2; subst hf3; subst hf4; subst hf5; subst hf6; subst hf7; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [HO]
  · iexists _; isplitr
    swap; · iexact HO
    ipureintro
    rw [View.read_writes_eq_canon _ _ _ (coverO2 _ _)]
    sl_unfold_words
    rw [View.canon_unit_zero (S := S1024x256) offz2, View.readCov_unit_zero (S := S1024x256) _ offz2]
    unfold fin2 acc2
    simp only [View.readAt_eq_ld, View.ld_unit_zero (S := S1024x2048) offz2, View.ld_unit_zero (S := S1024x256) offz2,
      View.ld_unit_zero (S := S256x256) offz2, View.ld_unit_zero (S := S1x256) offz2]
    rfl
  iexists _; isplitr
  swap; · iexact HS
  ipureintro
  sl_unfold_words
  rw [View.read_writes_eq_canon _ _ _ (coverS2 _ _), View.canon_cons_unit_zero (S := S1024x256) offz2]
  unfold acc2
  simp only [View.readAt_eq_ld, View.ld_unit_zero (S := S1024x2048) offz2, View.ld_unit_zero (S := S1024x256) offz2]
  rfl

end Cert.Kernel.Gen
end
-- ==== Proof.K.R2.lean ====
import proofs.«407196_j36060545417339_2_alg».proof.Proof.K.R2Run

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2 (the third fused aggregation layer): the proof data and the body obligation

Stated at a parameter `V`, the contents of the core's buffers when the region is entered. The accumulator the body
keeps between points is no window of the pipeline, so the region's invariant carries it: before point `t` it holds the
running sum of the count tiles times feature rows over the contraction steps of the current row block done so far. -/

section Region2

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window the body only reads holds its block at every point, whether the point fetched it or not (a resident
    operand is fetched once; its block index never moves): the proof is the same for each of the eight inputs. -/
local macro "before_in_block" w:term "," hA:ident "," hafter:ident "," dat:ident "," t:ident "," d:ident : tactic =>
  `(tactic| (
    have hkeep : ∀ t, (cfg2.win $w).cut (cfg2.grid.coords t) (Dat.after $dat $w t) = Dat.blockOf $dat $w t := fun t => by
      rw [$hafter:ident]; unfold Dat.blockOf iblk2; rw [$hA:ident]; try rfl
    rw [Dat.before_in_eq_fetched $dat $w rfl (fun _ => rfl) (fun _ _ _ => rfl) hkeep $t $d]
    unfold Dat.fetched Dat.blockOf iblk2; rw [$hA:ident]; try rfl))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t := by
  before_in_block 0, hA, hafter, dat, t, d
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t := by
  before_in_block 1, hA, hafter, dat, t, d
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t := by
  before_in_block 2, hA, hafter, dat, t, d
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t := by
  before_in_block 3, hA, hafter, dat, t, d
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t := by
  before_in_block 4, hA, hafter, dat, t, d
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t := by
  before_in_block 5, hA, hafter, dat, t, d
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t := by
  before_in_block 6, hA, hafter, dat, t, d
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t := by
  before_in_block 7, hA, hafter, dat, t, d

/-! ## Where the output window is idle -/

/-- Off the last contraction step the body stores nothing into the output block, and the pipeline does not write it back; -/
theorem idleAt2_8 : ∀ t : Fin cfg2.N, ¬cond2_1 (grid2.coords t) → cfg2.idle 8 (grid2.coords t) = true := by decide +kernel
theorem noFlush2_8 : ∀ t : Fin cfg2.N, ¬cond2_1 (grid2.coords t) → (cfg2.win 8).flush t = false := by decide +kernel
/-- at the last contraction step it is live. -/
theorem liveAt2_8 : ∀ t : Fin cfg2.N, cond2_1 (grid2.coords t) → cfg2.idle 8 (grid2.coords t) = false := by decide +kernel

/-! ## The accumulator, point by point -/

/-- THE ACCUMULATION. What the scratch accumulator holds after the body at position `n`: at the first contraction step of
    a row block (the positions ≡ 0 mod 4) the step from the zero block, else the step from what the position before
    left — the running sum over the contraction steps done so far of count tile times feature rows. -/
def sAt2 (c : Dev nD) : (n : ℕ) → n < cfg2.N → Vec F S1024x256 .f32
  | 0, h => acc2 (grid2.coords ⟨0, h⟩) (iblk2 V c 0 ⟨0, h⟩) (iblk2 V c 1 ⟨0, h⟩) k2_pay1
  | n + 1, h =>
    if (n + 1) % 4 = 0 then
      acc2 (grid2.coords ⟨n + 1, h⟩) (iblk2 V c 0 ⟨n + 1, h⟩) (iblk2 V c 1 ⟨n + 1, h⟩) k2_pay1
    else
      acc2 (grid2.coords ⟨n + 1, h⟩) (iblk2 V c 0 ⟨n + 1, h⟩) (iblk2 V c 1 ⟨n + 1, h⟩) (sAt2 c n (Nat.lt_of_succ_lt h))

/-- At the first contraction step of a row block: the step from the zero block. -/
theorem sAt2_first (c : Dev nD) (t : Fin cfg2.N) (h : t.val % 4 = 0) :
    sAt2 V c t.val t.isLt = acc2 (grid2.coords t) (iblk2 V c 0 t) (iblk2 V c 1 t) k2_pay1 := by
  obtain ⟨n, hn⟩ := t
  cases n with
  | zero => rfl
  | succ n => exact if_pos h

/-- At a later contraction step: the step from what the point before left. -/
theorem sAt2_next (c : Dev nD) (t : Fin cfg2.N) (h : ¬t.val % 4 = 0) :
    sAt2 V c t.val t.isLt = acc2 (grid2.coords t) (iblk2 V c 0 t) (iblk2 V c 1 t)
      (sAt2 V c (t.val - 1) (Nat.lt_of_le_of_lt (Nat.sub_le _ _) t.isLt)) := by
  obtain ⟨n, hn⟩ := t
  cases n with
  | zero => exact absurd (Nat.zero_mod _) h
  | succ n => exact if_neg h

/-! ## The region's invariant -/

/-- The scratch accumulator: a whole scoped buffer of the kernel's own, passed to the body beside the windows. -/
abbrev scM2 : Memref sig .tc .vmem S1024x256 .f32 := Memref.whole cc2_scratch0

/-- The core's scoped buffers that are no staging buffer, with the accumulator split off as a memref owned at some
    contents. -/
theorem scopedRest2_scratch (c : Dev nD) :
    (Pipeline.scopedRest (Ix := Unit) (Name := ℕ) (U := UR sig nD τ) (Lvl := ℕ) (Val := Elt F) spec2 c : sProp 𝕄)
      = iprop((∃ d, owns (c : Thread nD τ) scM2 fullShare d)
          ∗ Pipeline.scopedRestBut (Ix := Unit) (Name := ℕ) (U := UR sig nD τ) (Lvl := ℕ) (Val := Elt F) spec2 c [cc2_scratch0]) := by
  rw [scopedRest2_split]; simp only [scM2, owns_whole]
  rfl

/-- The invariant before position `n`: the generator register at some state and the scoped rest — before the first point
    with the accumulator at anything, afterwards with the accumulator at what the point before left in it. -/
def Phi2 (c : Dev nD) : (n : ℕ) → n ≤ cfg2.N → sProp 𝕄
  | 0, _ => iprop((∃ r, prngReg c r)
      ∗ Pipeline.scopedRest (Ix := Unit) (Name := ℕ) (U := UR sig nD τ) (Lvl := ℕ) (Val := Elt F) spec2 c)
  | n + 1, hn => iprop((∃ r, prngReg c r) ∗ owns (c : Thread nD τ) scM2 fullShare (sAt2 V c n hn)
      ∗ Pipeline.scopedRestBut (Ix := Unit) (Name := ℕ) (U := UR sig nD τ) (Lvl := ℕ) (Val := Elt F) spec2 c [cc2_scratch0])

theorem Phi2_zero (c : Dev nD) (n : ℕ) (h : n ≤ cfg2.N) (hz : n = 0) :
    Phi2 V c n h = iprop((∃ r, prngReg c r)
      ∗ Pipeline.scopedRest (Ix := Unit) (Name := ℕ) (U := UR sig nD τ) (Lvl := ℕ) (Val := Elt F) spec2 c) := by
  subst hz; rfl

theorem Phi2_succ (c : Dev nD) (n : ℕ) (hn : n < cfg2.N) :
    Phi2 V c (n + 1) hn = iprop((∃ r, prngReg c r) ∗ owns (c : Thread nD τ) scM2 fullShare (sAt2 V c n hn)
      ∗ Pipeline.scopedRestBut (Ix := Unit) (Name := ℕ) (U := UR sig nD τ) (Lvl := ℕ) (Val := Elt F) spec2 c [cc2_scratch0]) := rfl

theorem Phi2_pos (c : Dev nD) (n : ℕ) (h : n ≤ cfg2.N) (hz : n ≠ 0) :
    Phi2 V c n h = iprop((∃ r, prngReg c r) ∗ owns (c : Thread nD τ) scM2 fullShare (sAt2 V c (n - 1) (by omega))
      ∗ Pipeline.scopedRestBut (Ix := Unit) (Name := ℕ) (U := UR sig nD τ) (Lvl := ℕ) (Val := Elt F) spec2 c [cc2_scratch0]) := by
  cases n with
  | zero => exact absurd rfl hz
  | succ n => rfl

/-! ## The pipeline's proof data -/

/-- The proof data of pipeline 2 on core `c`: the arrays as the region finds them; after the body at point `t` each
    input's buffer at its block, the output's at the finalized block of the accumulator after `t` (what the last
    contraction step stores; at the other points the window is idle and this is not consulted); the invariant `Phi2`;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => fin2 (grid2.coords t) (iblk2 V c 1 t) (iblk2 V c 2 t) (iblk2 V c 3 t) (iblk2 V c 4 t) (iblk2 V c 5 t)
        (iblk2 V c 6 t) (iblk2 V c 7 t) (sAt2 V c t.val t.isLt)
  Φ t := Phi2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The proof data's shares, tallies and recorded pairs, projected. -/
theorem q_eq2 (c : Dev nD) (w : Fin cfg2.W) : (dat2 V c).q w = fullShare := by dsimp only [dat2]
theorem owed_eq2 (c : Dev nD) (t : Fin (cfg2.N + 1)) : (dat2 V c).owed t = 0 := by dsimp only [dat2]
theorem recorded_eq2 (c : Dev nD) (t : Fin (cfg2.N + 1)) : (dat2 V c).recorded t = Set.univ := rfl

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) :
    (dat2 V c).after 8 t = fin2 (grid2.coords t) (iblk2 V c 1 t) (iblk2 V c 2 t) (iblk2 V c 3 t) (iblk2 V c 4 t)
      (iblk2 V c 5 t) (iblk2 V c 6 t) (iblk2 V c 7 t) (sAt2 V c t.val t.isLt) := by dsimp only [dat2]

/-- WHAT A FLUSHING POINT WRITES BACK: at the last contraction step of a row block the output block is the finalized
    block — the divide by degree, the two dense maps, bias and rectifier — of the accumulator after
    that point and of the resident operands' blocks there. -/
theorem after2_8_last (c : Dev nD) (t : Fin cfg2.N) (hk : t.val % 4 = 3) :
    (dat2 V c).after 8 t = fin2 (grid2.coords t) (iblk2 V c 1 t) (iblk2 V c 2 t) (iblk2 V c 3 t) (iblk2 V c 4 t)
      (iblk2 V c 5 t) (iblk2 V c 6 t) (iblk2 V c 7 t) (sAt2 V c t.val t.isLt) := after2_8 V c t

/-- The invariant at a point's start, restated at the point's position. -/
theorem Phi2_castSucc (c : Dev nD) (t : Fin cfg2.N) :
    (dat2 V c).Φ t.castSucc = Phi2 V c t.val (Nat.le_of_lt t.isLt) := by
  dsimp only [dat2]; simp only [Fin.coe_castSucc]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-! ## The body obligation, at a generic point -/

/-- What the body is called with at point `t`: the invariant, the core's tallies, the windows' current buffers one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns: the inputs' buffers at their blocks, the output's at what the point leaves (the finalized block at
    a last contraction step; as found elsewhere). -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ (dat2 V c).leavesExact 8 t)

set_option maxHeartbeats 4000000 in
/-- The body at any point. The inputs' memrefs hold their blocks; the position mod 4 says which contraction step the
    point is. At a last step the invariant hands over the accumulator at what the point before left, the body adds this
    step, finalizes and stores the output block. At a first step the accumulator — at anything before the first point, at
    the previous row block's finished sum later, forgotten either way — restarts from the zero block. At a middle step it
    goes on from what the point before left. Off the last step the output's buffer goes back as found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [after2_0, after2_1, after2_2, after2_3, after2_4, after2_5, after2_6, after2_7]
  rw [show (dat2 V c).owesAt () t.succ = (dat2 V c).owesAt () t.castSucc from rfl]
  rw [show (dat2 V c).Φ t.succ = Phi2 V c (t.val + 1) t.isLt from rfl, Phi2_succ, Phi2_castSucc]
  have hN : t.val < 32 := lt_of_lt_of_eq t.isLt (show cfg2.N = 32 from N_2)
  by_cases h3 : t.val % 4 = 3
  · -- the last contraction step of the row block
    have hc1 : cond2_1 (grid2.coords t) := (hcond2_1 t).mpr h3
    have hc0 : ¬cond2_0 (grid2.coords t) := fun h => by have := (hcond2_0 t).mp h; omega
    have hz : t.val ≠ 0 := by omega
    have h0 : ¬t.val % 4 = 0 := by omega
    rw [show (dat2 V c).leavesExact 8 t = owns (c : Thread nD τ) (st2_8 t) fullShare ((dat2 V c).after 8 t) from by
      unfold Dat.leavesExact; rw [liveAt2_8 t hc1], after2_8]
    rw [Phi2_pos V c _ _ hz, sAt2_next V c t h0]
    iintro ⟨⟨Hg, HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run2_last c Set.univ (grid2.coords t) _ _ _ _ _ _ _ _ _ _ _ _ _ _ _ _ _ _ _ _ hc0 hc1
      (iblk2 V c 0 t) (iblk2 V c 1 t) (iblk2 V c 2 t) (iblk2 V c 3 t) (iblk2 V c 4 t) (iblk2 V c 5 t) (iblk2 V c 6 t)
      (iblk2 V c 7 t) (sAt2 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexact HS
    iintro ⟨H0, H1, H2, H3, H4, H5, H6, H7, H8, HS⟩
    isplitl [Hg HS Hrest]
    · isplitl [Hg]; · iexact Hg
      isplitl [HS]; · iexact HS
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc1 : ¬cond2_1 (grid2.coords t) := fun h => h3 ((hcond2_1 t).mp h)
    rw [Dat.leavesExact_idle (dat2 V c) 8 t (idleAt2_8 t hc1) (noFlush2_8 t hc1)]
    by_cases h0 : t.val % 4 = 0
    · -- the first contraction step of the row block
      have hc0 : cond2_0 (grid2.coords t) := (hcond2_0 t).mpr h0
      rw [sAt2_first V c t h0]
      by_cases hz : t.val = 0
      · rw [Phi2_zero V c _ _ hz, scopedRest2_scratch]
        iintro ⟨⟨Hg, HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply (run2_first c Set.univ (grid2.coords t) _ _ _ _ _ _ _ _ _ _ _ _ _ _ _ _ _ _ _ _ hc0 hc1
          (iblk2 V c 0 t) (iblk2 V c 1 t) _)
        isplitl [H0]; · iexact H0
        isplitl [H1]; · iexact H1
        isplitl [HS]; · iexact HS
        iintro ⟨H0, H1, HS⟩
        isplitl [Hg HS Hrest]
        · isplitl [Hg]; · iexact Hg
          isplitl [HS]; · iexact HS
          iexact Hrest
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
      · rw [Phi2_pos V c _ _ hz]
        iintro ⟨⟨Hg, HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply (run2_first c Set.univ (grid2.coords t) _ _ _ _ _ _ _ _ _ _ _ _ _ _ _ _ _ _ _ _ hc0 hc1
          (iblk2 V c 0 t) (iblk2 V c 1 t) _)
        isplitl [H0]; · iexact H0
        isplitl [H1]; · iexact H1
        isplitl [HS]; · iexists _; iexact HS
        iintro ⟨H0, H1, HS⟩
        isplitl [Hg HS Hrest]
        · isplitl [Hg]; · iexact Hg
          isplitl [HS]; · iexact HS
          iexact Hrest
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
    · -- a middle contraction step
      have hc0 : ¬cond2_0 (grid2.coords t) := fun h => h0 ((hcond2_0 t).mp h)
      have hz : t.val ≠ 0 := fun e => h0 (by rw [e])
      rw [Phi2_pos V c _ _ hz, sAt2_next V c t h0]
      iintro ⟨⟨Hg, HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run2_mid c Set.univ (grid2.coords t) _ _ _ _ _ _ _ _ _ _ _ _ _ _ _ _ _ _ _ _ hc0 hc1
        (iblk2 V c 0 t) (iblk2 V c 1 t) (sAt2 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [Hg HS Hrest]
      · isplitl [Hg]; · iexact Hg
        isplitl [HS]; · iexact HS
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The two ends of the invariant -/

/-- What the region is entered with — the generator register and the scoped rest, the accumulator at anything — is the
    invariant before the first point. -/
theorem Φ0_in2 (c : Dev nD) :
    iprop((∃ r, prngReg c r) ∗ Pipeline.scopedRest (Ix := Unit) (Name := ℕ) (U := UR sig nD τ) (Lvl := ℕ) (Val := Elt F) spec2 c)
      ⊢ ((dat2 V c).Φ 0 : sProp 𝕄) := by
  rw [show (dat2 V c).Φ 0 = Phi2 V c 0 (Nat.zero_le _) from rfl, Phi2_zero V c 0 _ rfl]

/-- After the last point the invariant gives them back: the accumulator's named contents are forgotten. -/
theorem Φlast_out2 (c : Dev nD) :
    (dat2 V c).Φ (Fin.last cfg2.N)
      ⊢ (iprop((∃ r, prngReg c r) ∗ Pipeline.scopedRest (Ix := Unit) (Name := ℕ) (U := UR sig nD τ) (Lvl := ℕ) (Val := Elt F) spec2 c) : sProp 𝕄) := by
  have hN : cfg2.N ≠ 0 := by have : cfg2.N = 32 := N_2; omega
  rw [show (dat2 V c).Φ (Fin.last cfg2.N) = Phi2 V c cfg2.N (Nat.le_refl _) from rfl, Phi2_pos V c _ _ hN, scopedRest2_scratch]
  iintro ⟨Hg, HS, Hrest⟩
  isplitl [Hg]; · iexact Hg
  isplitl [HS]; · iexists _; iexact HS
  iexact Hrest

end Region2

end Cert.Kernel.Gen
end
-- ==== Proof.K.Run.lean ====
/-
  The run of the four kernel regions of @main among its host stretches, at any float instance.

  Between two items of @main every unscoped buffer of a core holds a definite content: the launch memory, then each host
  stretch applied to it, then, after a kernel region, the region's output array at what the pipeline's write-backs
  leave (each region's proof data is taken at the contents its region is entered from). Each region is entered from
  and left at these contents with the generator register at some state and nothing owed beside them, so consecutive
  segments agree and the launch theorem for a list of segments gives: every weakly fair execution terminates, the
  result array ends at the last region's written-back blocks, and every argument array ends as launched.
-/
import proofs.«407196_j36060545417339_2_alg».proof.Proof.Gen.Kernel.Regions
import proofs.«407196_j36060545417339_2_alg».proof.Proof.K.R3
import proofs.«407196_j36060545417339_2_alg».proof.Proof.K.R0
import proofs.«407196_j36060545417339_2_alg».proof.Proof.K.R1
import proofs.«407196_j36060545417339_2_alg».proof.Proof.K.R2
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents at each boundary -/

/-- What region 0 is entered from, read at the TensorCore's references. -/
abbrev U1 : (c : Dev nD) → (b : Ref sig .tc) → Buf (Elt F) ((c : Thread nD τ).loc b) := fun c b => V1 m c b
/-- Region 0's arrays after its last point, every other buffer as entered. -/
def o2 (c : Dev nD) : Valuation τ sig (Elt F) :=
  Pipeline.withArrays spec0 c (V1 m c) fun w => (dat0 (U1 m) c).arrAt w cfg0.N
/-- The regions' leavings known after region 0. -/
def outsA : Outs (F := F) := fun _ r c => o2 m c r
abbrev U5 : (c : Dev nD) → (b : Ref sig .tc) → Buf (Elt F) ((c : Thread nD τ).loc b) := fun c b => V5 m (outsA m) c b
def o6 (c : Dev nD) : Valuation τ sig (Elt F) :=
  Pipeline.withArrays spec1 c (V5 m (outsA m) c) fun w => (dat1 (U5 m) c).arrAt w cfg1.N
def outsB : Outs (F := F) := fun J r c => match J with
  | 2 => o2 m c r
  | _ => o6 m c r
abbrev U7 : (c : Dev nD) → (b : Ref sig .tc) → Buf (Elt F) ((c : Thread nD τ).loc b) := fun c b => V7 m (outsB m) c b
def o8 (c : Dev nD) : Valuation τ sig (Elt F) :=
  Pipeline.withArrays spec2 c (V7 m (outsB m) c) fun w => (dat2 (U7 m) c).arrAt w cfg2.N
def outsC : Outs (F := F) := fun J r c => match J with
  | 2 => o2 m c r
  | 6 => o6 m c r
  | _ => o8 m c r
abbrev U9 : (c : Dev nD) → (b : Ref sig .tc) → Buf (Elt F) ((c : Thread nD τ).loc b) := fun c b => V9 m (outsC m) c b
def o10 (c : Dev nD) : Valuation τ sig (Elt F) :=
  Pipeline.withArrays spec3 c (V9 m (outsC m) c) fun w => (dat3 (U9 m) c).arrAt w cfg3.N
/-- What each region leaves in the array it writes. -/
def outs : Outs (F := F) := fun J r c => match J with
  | 2 => o2 m c r
  | 6 => o6 m c r
  | 8 => o8 m c r
  | _ => o10 m c r

theorem V5_outs (c : Dev nD) : V5 m (outs m) c = V5 m (outsA m) c := rfl
theorem V7_outs (c : Dev nD) : V7 m (outs m) c = V7 m (outsB m) c := rfl
theorem V9_outs (c : Dev nD) : V9 m (outs m) c = V9 m (outsC m) c := rfl

/-- Every pipeline's proof data, each at the contents its region is entered from. -/
def pdats : (p : Fin 4) → (c : Dev nD) → Dat τ (Elt F) Unit ℕ (UR sig nD τ) ℕ (cfgs p) c
  | ⟨0, _⟩ => fun c => dat0 (U1 m) c
  | ⟨1, _⟩ => fun c => dat1 (U5 m) c
  | ⟨2, _⟩ => fun c => dat2 (U7 m) c
  | ⟨3, _⟩ => fun c => dat3 (U9 m) c

/-! ## The thread state beside the buffers, and the regions as segments -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev E : Fin 5 → Dev nD → sProp 𝕄 := fun _ c => R c

/-! ## A region's arrays against the next boundary's contents -/

/-- Writing, at a region's output array, what the region leaves there gives contents that agree with the region's
    arrays at every window, when every other window's array is left as it was found: the output's by the update itself,
    another window's because distinct windows have distinct arrays. -/
theorem upd_withArrays {gr W : Nat} (win : Fin W → Pipeline.WinSpec sig gr) (hinj : Function.Injective (Pipeline.arrRef win))
    (c : Dev nD) (V : Valuation τ sig (Elt F)) (A : (w : Fin W) → Buf (Elt F) ((win w).arr.view.loc (c.tc : Thread nD τ)))
    (wout : Fin W) (hin : ∀ w, w ≠ wout → A w = V (Proc.devRef .tc (Pipeline.arrRef win w))) (w : Fin W) :
    A w = Function.update V (Proc.devRef .tc (Pipeline.arrRef win wout))
      (Pipeline.withArrays win c V A (Proc.devRef .tc (Pipeline.arrRef win wout))) (Proc.devRef .tc (Pipeline.arrRef win w)) := by
  by_cases h : w = wout
  · subst h
    rw [Function.update_self]
    exact (Pipeline.withArrays_arr win hinj c V A w).symm
  · rw [Function.update_of_ne (fun e => h (hinj (Proc.devRef_injective _ e)))]
    exact hin w h

end Cert.Kernel.Gen

end
-- ==== Proof.K.Reg0.lean ====
/-
  Region 0 of @main as a segment of the run: what its arrays hold when it is left, and the region entered from and left
  at the boundary contents with the generator register and nothing owed beside them.
-/
import proofs.«407196_j36060545417339_2_alg».proof.Proof.K.Run

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Region 0's arrays after its last point are what the next boundary holds: the output array at the write-backs,
    each input array as entered. -/
theorem hF0 (c : Dev nD) (w : Fin cfg0.W) :
    (dat0 (U1 m) c).arrAt w cfg0.N = (fun b : Ref sig .tc => V2 m (outs m) c b) (Pipeline.arrRef spec0 w) :=
  upd_withArrays spec0 launch0.win.arr_inj c (V1 m c) (fun w => (dat0 (U1 m) c).arrAt w cfg0.N) 8
    (fun w hw => ((dat0 (U1 m) c).arrAt_in w ((by decide : ∀ w : Fin cfg0.W, w ≠ 8 → (cfg0.win w).isOut = false) w hw) _).trans
      (A_eq0 (U1 m) c w)) w
/-- Every buffer that is no array of region 0 is left as entered. -/
theorem hrest0 (c : Dev nD) : ∀ b : Ref sig .tc, b ∉ Finset.univ.image (Pipeline.arrRef spec0) →
    (fun b : Ref sig .tc => V2 m (outs m) c b) b = (fun b : Ref sig .tc => V1 m c b) b := fun b hb => by
  show Function.update (V1 m c) (Proc.devRef .tc main_v43) _ (Proc.devRef .tc b) = _
  rw [Function.update_of_ne (StableHlo.devRef_ne_of_ne fun e => hb (Finset.mem_image.mpr ⟨8, Finset.mem_univ _, e.symm⟩))]

set_option backward.isDefEq.respectTransparency.types false in
/-- Region 0 over the thread state: entered from every unscoped buffer at the contents before it, left at the contents
    after it. Its arrays are split out of the unscoped buffers at entry and put back, at what the pipeline leaves, at
    exit; the generator register goes into the region's invariant and comes back; nothing is owed; the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun c t => owed_eq0 (U1 m) c t
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun w => q_eq0 (U1 m) c w) (U1 m c) fun w => A_eq0 (U1 m) c w
    rw [Pipeline.unscopedBufs_held] at hsplit
    replace hsplit : StableHlo.held (c : Thread nD τ) (Pipeline.ucRefs τ sig) (V1 m c) ⊢ _ := hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [show (pdats m 0 c).recorded 0 = Set.univ from recorded_eq0 (U1 m) c 0]; trivial)
      rw [show (pdats m 0 c).owed 0 = 0 from owed_eq0 (U1 m) c 0]
      iexact HO
    isplitl [Hp]; · iexact Hp
    iexact Hrest
  hin c := by
    rw [show (pdats m 0 c).Φ 0 = (dat0 (U1 m) c).Φ 0 from rfl]
    iintro ⟨Hp, -, Hr⟩
    iapply (Φ0_in0 (U1 m) c)
    isplitl [Hp]; · iexact Hp
    iexact Hr
  hout c := by
    rw [Pipeline.ownSems0_none, show (pdats m 0 c).Φ (Fin.last _) = (dat0 (U1 m) c).Φ (Fin.last cfg0.N) from rfl]
    iintro HΦ
    ihave H := (Φlast_out0 (U1 m) c) $$ HΦ
    icases H with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => q_eq0 (U1 m) c w)
      (U1 m c) (fun b : Ref sig .tc => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 0 c).owed (Fin.last _) = 0 from owed_eq0 (U1 m) c _]
    iexact HO

end Cert.Kernel.Gen

end
-- ==== Proof.K.Reg1.lean ====
/-
  Region 1 of @main as a segment of the run: what its arrays hold when it is left, and the region entered from and left
  at the boundary contents with the generator register and nothing owed beside them.
-/
import proofs.«407196_j36060545417339_2_alg».proof.Proof.K.Run

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Region 1's arrays after its last point are what the next boundary holds: the output array at the write-backs,
    each input array as entered. -/
theorem hF1 (c : Dev nD) (w : Fin cfg1.W) :
    (dat1 (U5 m) c).arrAt w cfg1.N = (fun b : Ref sig .tc => V6 m (outs m) c b) (Pipeline.arrRef spec1 w) :=
  upd_withArrays spec1 launch1.win.arr_inj c (V5 m (outs m) c) (fun w => (dat1 (U5 m) c).arrAt w cfg1.N) 8
    (fun w hw => ((dat1 (U5 m) c).arrAt_in w ((by decide : ∀ w : Fin cfg1.W, w ≠ 8 → (cfg1.win w).isOut = false) w hw) _).trans
      (A_eq1 (U5 m) c w)) w
/-- Every buffer that is no array of region 1 is left as entered. -/
theorem hrest1 (c : Dev nD) : ∀ b : Ref sig .tc, b ∉ Finset.univ.image (Pipeline.arrRef spec1) →
    (fun b : Ref sig .tc => V6 m (outs m) c b) b = (fun b : Ref sig .tc => V5 m (outs m) c b) b := fun b hb => by
  show Function.update (V5 m (outs m) c) (Proc.devRef .tc main_v64) _ (Proc.devRef .tc b) = _
  rw [Function.update_of_ne (StableHlo.devRef_ne_of_ne fun e => hb (Finset.mem_image.mpr ⟨8, Finset.mem_univ _, e.symm⟩))]

set_option backward.isDefEq.respectTransparency.types false in
/-- Region 1 over the thread state: entered from every unscoped buffer at the contents before it, left at the contents
    after it. Its arrays are split out of the unscoped buffers at entry and put back, at what the pipeline leaves, at
    exit; the generator register goes into the region's invariant and comes back; nothing is owed; the kernel has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U5 m) c).loose
  hwaits := Pipeline.hwaits_of_owed_zero _ _ _ _ L lv 1 fun c t => owed_eq1 (U5 m) c t
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (U5 m c)
  hentry c := by
    rw [Pipeline.ownSems0_none]
    have hsplit := Pipeline.arrays_of_unscopedBufs (p := 1) (pcfgs (F := F)) adm (pdats m) launch1.win launch1.arr_whole c
      ((pdats m 1 c).share_full fun w => q_eq1 (U5 m) c w) (U5 m c) fun w => A_eq1 (U5 m) c w
    rw [Pipeline.unscopedBufs_held] at hsplit
    replace hsplit : StableHlo.held (c : Thread nD τ) (Pipeline.ucRefs τ sig) (V5 m (outs m) c) ⊢ _ := hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [show (pdats m 1 c).recorded 0 = Set.univ from recorded_eq1 (U5 m) c 0]; trivial)
      rw [show (pdats m 1 c).owed 0 = 0 from owed_eq1 (U5 m) c 0]
      iexact HO
    isplitl [Hp]; · iexact Hp
    iexact Hrest
  hin c := by
    rw [show (pdats m 1 c).Φ 0 = (dat1 (U5 m) c).Φ 0 from rfl]
    iintro ⟨Hp, -, Hr⟩
    iapply (Φ0_in1 (U5 m) c)
    isplitl [Hp]; · iexact Hp
    iexact Hr
  hout c := by
    rw [Pipeline.ownSems0_none, show (pdats m 1 c).Φ (Fin.last _) = (dat1 (U5 m) c).Φ (Fin.last cfg1.N) from rfl]
    iintro HΦ
    ihave H := (Φlast_out1 (U5 m) c) $$ HΦ
    icases H with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => q_eq1 (U5 m) c w)
      (U5 m c) (fun b : Ref sig .tc => V6 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 1 c).owed (Fin.last _) = 0 from owed_eq1 (U5 m) c _]
    iexact HO

end Cert.Kernel.Gen

end
-- ==== Proof.K.Reg2.lean ====
/-
  Region 2 of @main as a segment of the run: what its arrays hold when it is left, and the region entered from and left
  at the boundary contents with the generator register and nothing owed beside them.
-/
import proofs.«407196_j36060545417339_2_alg».proof.Proof.K.Run

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Region 2's arrays after its last point are what the next boundary holds: the output array at the write-backs,
    each input array as entered. -/
theorem hF2 (c : Dev nD) (w : Fin cfg2.W) :
    (dat2 (U7 m) c).arrAt w cfg2.N = (fun b : Ref sig .tc => V8 m (outs m) c b) (Pipeline.arrRef spec2 w) :=
  upd_withArrays spec2 launch2.win.arr_inj c (V7 m (outs m) c) (fun w => (dat2 (U7 m) c).arrAt w cfg2.N) 8
    (fun w hw => ((dat2 (U7 m) c).arrAt_in w ((by decide : ∀ w : Fin cfg2.W, w ≠ 8 → (cfg2.win w).isOut = false) w hw) _).trans
      (A_eq2 (U7 m) c w)) w
/-- Every buffer that is no array of region 2 is left as entered. -/
theorem hrest2 (c : Dev nD) : ∀ b : Ref sig .tc, b ∉ Finset.univ.image (Pipeline.arrRef spec2) →
    (fun b : Ref sig .tc => V8 m (outs m) c b) b = (fun b : Ref sig .tc => V7 m (outs m) c b) b := fun b hb => by
  show Function.update (V7 m (outs m) c) (Proc.devRef .tc main_v72) _ (Proc.devRef .tc b) = _
  rw [Function.update_of_ne (StableHlo.devRef_ne_of_ne fun e => hb (Finset.mem_image.mpr ⟨8, Finset.mem_univ _, e.symm⟩))]

set_option backward.isDefEq.respectTransparency.types false in
/-- Region 2 over the thread state: entered from every unscoped buffer at the contents before it, left at the contents
    after it. Its arrays are split out of the unscoped buffers at entry and put back, at what the pipeline leaves, at
    exit; the generator register goes into the region's invariant and comes back; nothing is owed; the kernel has no
    semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U7 m) c).loose
  hwaits := Pipeline.hwaits_of_owed_zero _ _ _ _ L lv 2 fun c t => owed_eq2 (U7 m) c t
  pre c := iprop(StableHlo.held (c : Thread nD τ) (Pipeline.ucRefs τ sig) (V7 m (outs m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec2 c (U7 m c)
  hentry c := by
    rw [Pipeline.ownSems0_none]
    have hsplit := Pipeline.arrays_of_unscopedBufs (p := 2) (pcfgs (F := F)) adm (pdats m) launch2.win launch2.arr_whole c
      ((pdats m 2 c).share_full fun w => q_eq2 (U7 m) c w) (U7 m c) fun w => A_eq2 (U7 m) c w
    rw [Pipeline.unscopedBufs_held] at hsplit
    replace hsplit : StableHlo.held (c : Thread nD τ) (Pipeline.ucRefs τ sig) (V7 m (outs m) c) ⊢ _ := hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [show (pdats m 2 c).recorded 0 = Set.univ from recorded_eq2 (U7 m) c 0]; trivial)
      rw [show (pdats m 2 c).owed 0 = 0 from owed_eq2 (U7 m) c 0]
      iexact HO
    isplitl [Hp]; · iexact Hp
    iexact Hrest
  hin c := by
    rw [show (pdats m 2 c).Φ 0 = (dat2 (U7 m) c).Φ 0 from rfl]
    iintro ⟨Hp, -, Hr⟩
    iapply (Φ0_in2 (U7 m) c)
    isplitl [Hp]; · iexact Hp
    iexact Hr
  hout c := by
    rw [Pipeline.ownSems0_none, show (pdats m 2 c).Φ (Fin.last _) = (dat2 (U7 m) c).Φ (Fin.last cfg2.N) from rfl]
    iintro HΦ
    ihave H := (Φlast_out2 (U7 m) c) $$ HΦ
    icases H with ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun w => q_eq2 (U7 m) c w)
      (U7 m c) (fun b : Ref sig .tc => V8 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 2 c).owed (Fin.last _) = 0 from owed_eq2 (U7 m) c _]
    iexact HO

end Cert.Kernel.Gen

end
-- ==== Proof.K.Reg3.lean ====
/-
  Region 3 of @main as a segment of the run: what its arrays hold when it is left, and the region entered from and left
  at the boundary contents with the generator register and nothing owed beside them.
-/
import proofs.«407196_j36060545417339_2_alg».proof.Proof.K.Run

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Region 3's arrays after its last point are what the next boundary holds: the output array at the write-backs,
    each input array as entered. -/
theorem hF3 (c : Dev nD) (w : Fin cfg3.W) :
    (dat3 (U9 m) c).arrAt w cfg3.N = (fun b : Ref sig .tc => V10 m (outs m) c b) (Pipeline.arrRef spec3 w) :=
  upd_withArrays spec3 launch3.win.arr_inj c (V9 m (outs m) c) (fun w => (dat3 (U9 m) c).arrAt w cfg3.N) 4
    (fun w hw => ((dat3 (U9 m) c).arrAt_in w ((by decide : ∀ w : Fin cfg3.W, w ≠ 4 → (cfg3.win w).isOut = false) w hw) _).trans
      (A_eq3 (U9 m) c w)) w
/-- Every buffer that is no array of region 3 is left as entered. -/
theorem hrest3 (c : Dev nD) : ∀ b : Ref sig .tc, b ∉ Finset.univ.image (Pipeline.arrRef spec3) →
    (fun b : Ref sig .tc => V10 m (outs m) c b) b = (fun b : Ref sig .tc => V9 m (outs m) c b) b := fun b hb => by
  show Function.update (V9 m (outs m) c) (Proc.devRef .tc main_v75) _ (Proc.devRef .tc b) = _
  rw [Function.update_of_ne (StableHlo.devRef_ne_of_ne fun e => hb (Finset.mem_image.mpr ⟨4, Finset.mem_univ _, e.symm⟩))]

set_option backward.isDefEq.respectTransparency.types false in
/-- Region 3 over the thread state: entered from every unscoped buffer at the contents before it, left at the contents
    after it. Its arrays are split out of the unscoped buffers at entry and put back, at what the pipeline leaves, at
    exit; the generator register goes into the region's invariant and comes back; nothing is owed; the kernel has no
    semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U9 m) c).loose
  hwaits := Pipeline.hwaits_of_owed_zero _ _ _ _ L lv 3 fun c t => owed_eq3 (U9 m) c t
  pre c := iprop(StableHlo.held (c : Thread nD τ) (Pipeline.ucRefs τ sig) (V9 m (outs m) c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec3 c (U9 m c)
  hentry c := by
    rw [Pipeline.ownSems0_none]
    have hsplit := Pipeline.arrays_of_unscopedBufs (p := 3) (pcfgs (F := F)) adm (pdats m) launch3.win launch3.arr_whole c
      ((pdats m 3 c).share_full fun w => q_eq3 (U9 m) c w) (U9 m c) fun w => A_eq3 (U9 m) c w
    rw [Pipeline.unscopedBufs_held] at hsplit
    replace hsplit : StableHlo.held (c : Thread nD τ) (Pipeline.ucRefs τ sig) (V9 m (outs m) c) ⊢ _ := hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [show (pdats m 3 c).recorded 0 = Set.univ from recorded_eq3 (U9 m) c 0]; trivial)
      rw [show (pdats m 3 c).owed 0 = 0 from owed_eq3 (U9 m) c 0]
      iexact HO
    isplitl [Hp]; · iexact Hp
    iexact Hrest
  hin c := by
    rw [show (pdats m 3 c).Φ 0 = (dat3 (U9 m) c).Φ 0 from rfl]
    iintro ⟨Hp, -, Hr⟩
    iapply (Φ0_in3 (U9 m) c)
    isplitl [Hp]; · iexact Hp
    iexact Hr
  hout c := by
    rw [Pipeline.ownSems0_none, show (pdats m 3 c).Φ (Fin.last _) = (dat3 (U9 m) c).Φ (Fin.last cfg3.N) from rfl]
    iintro HΦ
    ihave H := (Φlast_out3 (U9 m) c) $$ HΦ
    icases H with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun w => q_eq3 (U9 m) c w)
      (U9 m c) (fun b : Ref sig .tc => V10 m (outs m) c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 3 c).owed (Fin.last _) = 0 from owed_eq3 (U9 m) c _]
    iexact HO

end Cert.Kernel.Gen

end
-- ==== Proof.K.RunAll.lean ====
import proofs.«407196_j36060545417339_2_alg».proof.Proof.K.Reg0
import proofs.«407196_j36060545417339_2_alg».proof.Proof.K.Reg1
import proofs.«407196_j36060545417339_2_alg».proof.Proof.K.Reg2
import proofs.«407196_j36060545417339_2_alg».proof.Proof.K.Reg3

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L lv)
    ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_cond m emb₁ () 𝒱₀ L lv (fun _ _ => rfl) ρ (outs m) (pdats m) 0 (fun _ => (BI.emp : sProp 𝕄))
    (initOf (Pipeline.cells cfgs cellOf_inj) (Pipeline.launchToks cfgs cellOf_inj)) hu₀ E (hE0 ρ)
    (fun c => by iintro ⟨-, H⟩; iexact H)
    (reg0 m) (fun _ => .rfl) (fun _ => .rfl) (reg1 m) (fun _ => .rfl) (fun _ => .rfl)
    (reg2 m) (fun _ => .rfl) (fun _ => .rfl) (reg3 m) (fun _ => .rfl) (fun _ => .rfl)

end Cert.Kernel.Gen

end
-- ==== Proof.R3.lean ====
import proofs.«407196_j36060545417339_2_alg».proof.Proof.Gen.KernelIdeal.Launch
import proofs.«407196_j36060545417339_2_alg».proof.Proof.Gen.KernelIdeal.Skeleton
import proofs.«407196_j36060545417339_2_alg».proof.Proof.Gen.KernelIdeal.Points
import Idealize.ShloMosaic.Lib.Pipeline.FrameBody
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

abbrev r3_a : Rect S256x256 := Rect.unit (s := S256x256) ![0, 0] S256x256.size inb_S256x256_S256x256_0_0
abbrev r3_b : Rect S256x8192 := Rect.unit (s := S256x8192) ![0, 0] S256x8192.size inb_S256x8192_S256x8192_0_0
abbrev r3_c : Rect S1x8192 := Rect.unit (s := S1x8192) ![0, 0] S1x8192.size inb_S1x8192_S1x8192_0_0

def out3_4 (t : Fin cfg3.N) (x0 : Vec F S256x256 .f32) (x1 : Vec F S256x8192 .f32) (x2 : Vec F S1x8192 .f32) (x3 : Vec F S256x8192 .bf16) : Vec F S256x8192 .f32 :=
  View.canon [⟨r3_b, k3_pay1 (grid3.coords t) (View.ld x0 r3_a) (View.ld x1 r3_b) (View.ld x2 r3_c) (View.ld x3 r3_b)⟩]

theorem cover3_4 (p0 : Vec F S256x8192 .f32) (y : S256x8192.Idx) :
    ∃ pc ∈ ([⟨r3_b, p0⟩] : List (View.Piece (Elt F) S256x8192 .f32)), y ∈ pc.1.set :=
  View.cover_of_tiled [⟨r3_b, p0⟩] S256x8192.size (by rfl) y

set_option maxHeartbeats 1000000 in
theorem sound_kernel3 (c : Dev nD) (E : Set ℕ) (t : Fin cfg3.N)
    (arg1 : Memref sig .tc .vmem S256x256 .f32) (harg1 : arg1.IsWhole) (arg2 : Memref sig .tc .vmem S256x8192 .f32) (harg2 : arg2.IsWhole)
    (arg3 : Memref sig .tc .vmem S1x8192 .f32) (harg3 : arg3.IsWhole) (arg4 : Memref sig .tc .vmem S256x8192 .bf16) (harg4 : arg4.IsWhole)
    (arg5 : Memref sig .tc .vmem S256x8192 .f32) (harg5 : arg5.IsWhole)
    (x0 : Vec F S256x256 .f32) (x1 : Vec F S256x8192 .f32) (x2 : Vec F S1x8192 .f32) (x3 : Vec F S256x8192 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out3_4 t x0 x1 x2 x3)) -∗ K ⟨⟩))
      ⊢ wp frame (wpE (defs₀ (F := F)) Variants.none c none) E
          (cc3__masked_softmax_kernel (grid3.coords t) arg1 harg1 arg2 harg2 arg3 harg3 arg4 harg4 arg5 harg5) K := by
  simp only [cc3__masked_softmax_kernel_eq_skeleton]; unfold cc3__masked_softmax_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 t (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 t (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ t _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation3 (c : Dev nD) : BodyObligation (dat3 (F := F) V c) (defs₀ (F := F)) Variants.none () Set.univ := fun t => by
  rw [bigSep_W3, bigSep_W3]
  exact sound_body3 V c t

theorem q_eq3 (c : Dev nD) (w : Fin cfg3.W) : (dat3 V c).q w = fullShare := by dsimp only [dat3]
theorem owed_eq3 (c : Dev nD) (t : Fin (cfg3.N + 1)) : (dat3 V c).owed t = 0 := by dsimp only [dat3]
theorem recorded_eq3 (c : Dev nD) (t : Fin (cfg3.N + 1)) : (dat3 V c).recorded t = Set.univ := by dsimp only [dat3]

theorem Φ0_in3 (c : Dev nD) :
    iprop((∃ r, prngReg c r) ∗ Pipeline.scopedRest (Ix := Unit) (Name := ℕ) (U := UR sig nD τ) (Lvl := ℕ) (Val := Elt F) spec3 c)
      ⊢ ((dat3 V c).Φ 0 : sProp 𝕄) := by
  show _ ⊢ Pipeline.ΦA spec3 c
  unfold Pipeline.ΦA
  iintro ⟨Hr, Hs⟩
  isplitl [Hs]; · iexact Hs
  iexact Hr

theorem Φlast_out3 (c : Dev nD) :
    (dat3 V c).Φ (Fin.last cfg3.N)
      ⊢ (iprop((∃ r, prngReg c r) ∗ Pipeline.scopedRest (Ix := Unit) (Name := ℕ) (U := UR sig nD τ) (Lvl := ℕ) (Val := Elt F) spec3 c) : sProp 𝕄) := by
  show Pipeline.ΦA spec3 c ⊢ _
  unfold Pipeline.ΦA
  iintro ⟨Hs, Hr⟩
  isplitl [Hr]; · iexact Hr
  iexact Hs

end Region3

end Cert.KernelIdeal.Gen

end
-- ==== Proof.R0Run.lean ====
import proofs.«407196_j36060545417339_2_alg».proof.Proof.Gen.KernelIdeal.Launch
import proofs.«407196_j36060545417339_2_alg».proof.Proof.Gen.KernelIdeal.Skeleton
import proofs.«407196_j36060545417339_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop :=
  (Scalar.cmpi .ne (Scalar.extui (Scalar.cmpi .eq (BitVec.ofNat 32 (i 1).val) 0#32)) 0#32) = 1#1

abbrev cond0_1 (i : grid0.Coords) : Prop := k0_cond2 i = 1#1

theorem hcond0_0 : ∀ t : Fin cfg0.N, cond0_0 (grid0.coords t) ↔ t.val % 4 = 0 :=
  (by decide +kernel : ∀ t : Fin grid0.N, cond0_0 (grid0.coords t) ↔ t.val % 4 = 0)

theorem hcond0_1 : ∀ t : Fin cfg0.N, cond0_1 (grid0.coords t) ↔ t.val % 4 = 3 :=
  (by decide +kernel : ∀ t : Fin grid0.N, cond0_1 (grid0.coords t) ↔ t.val % 4 = 3)

theorem offz0 : (![0, 0] : Fin 2 → ℕ) = fun _ => 0 := funext fun a => by fin_cases a <;> rfl

theorem off2_inb0 : ∀ i : grid0.Coords, ∀ a, (k0_off2 i) a + S1024x1.size a ≤ S8192x1.size a := by decide +kernel
theorem off3_inb0 : ∀ i : grid0.Coords, ∀ a, (k0_off3 i) a + S1024x160.size a ≤ S8192x160.size a := by decide +kernel

abbrev rT0 : Rect S1024x2048 := Rect.unit (s := S1024x2048) ![0, 0] S1024x2048.size inb_S1024x2048_S1024x2048_0_0
abbrev rS0 : Rect S1024x160 := Rect.unit (s := S1024x160) ![0, 0] S1024x160.size inb_S1024x160_S1024x160_0_0
abbrev rO0 : Rect S1024x256 := Rect.unit (s := S1024x256) ![0, 0] S1024x256.size inb_S1024x256_S1024x256_0_0

abbrev rH0 (i : grid0.Coords) : Rect S8192x160 := Rect.unit (s := S8192x160) (k0_off1 i) S2048x160.size (k0_off1_inb i)
abbrev rD0 (i : grid0.Coords) : Rect S8192x1 := Rect.unit (s := S8192x1) (k0_off2 i) S1024x1.size (off2_inb0 i)
abbrev rX0 (i : grid0.Coords) : Rect S8192x160 := Rect.unit (s := S8192x160) (k0_off3 i) S1024x160.size (off3_inb0 i)

def acc0 (i : grid0.Coords) (x0 : Vec F S1024x2048 .bf16) (x1 : Vec F S8192x160 .f32) (s : Vec F S1024x160 .f32) :
    Vec F S1024x160 .f32 :=
  k0_pay2 x0 (View.ld x1 (rH0 i)) s

def fin0 (i : grid0.Coords) (x1 : Vec F S8192x160 .f32) (x2 : Vec F S8192x1 .f32) (x3 x4 : Vec F S160x256 .f32)
    (x5 x6 x7 : Vec F S1x256 .f32) (s : Vec F S1024x160 .f32) : Vec F S1024x256 .f32 :=
  k0_pay3 (k0_pay4 (View.ld x2 (rD0 i)) s (View.ld x1 (rX0 i)) x3 x4 x5) x6 x7

theorem coverS0 (p : Vec F S1024x160 .f32) (L : List (View.Piece (Elt F) S1024x160 .f32)) (y : S1024x160.Idx) :
    ∃ pc ∈ ((⟨rS0, p⟩ : View.Piece (Elt F) S1024x160 .f32) :: L), y ∈ pc.1.set :=
  ⟨_, List.mem_cons_self, View.mem_set_unit_zero offz0 inb_S1024x160_S1024x160_0_0 y⟩

theorem coverO0 (p : Vec F S1024x256 .f32) (L : List (View.Piece (Elt F) S1024x256 .f32)) (y : S1024x256.Idx) :
    ∃ pc ∈ ((⟨rO0, p⟩ : View.Piece (Elt F) S1024x256 .f32) :: L), y ∈ pc.1.set :=
  ⟨_, List.mem_cons_self, View.mem_set_unit_zero offz0 inb_S1024x256_S1024x256_0_0 y⟩

set_option maxHeartbeats 2000000 in
theorem run0_first (c : Dev nD) (E : Set ℕ) (i : grid0.Coords) (arg2 : Memref sig .tc .vmem S1024x2048 .bf16) (harg2 : arg2.IsWhole) (arg3 : Memref sig .tc .vmem S8192x160 .f32) (harg3 : arg3.IsWhole) (arg4 : Memref sig .tc .vmem S8192x1 .f32) (harg4 : arg4.IsWhole) (arg5 : Memref sig .tc .vmem S160x256 .f32) (harg5 : arg5.IsWhole) (arg6 : Memref sig .tc .vmem S160x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1024x160 .f32) (harg11 : arg11.IsWhole)
    (hc0 : cond0_0 i) (hc1 : ¬cond0_1 i)
    (x0 : Vec F S1024x2048 .bf16) (x1 : Vec F S8192x160 .f32) (K : PUnit → sProp 𝕄) :
    iprop(owns (c : Thread nD τ) arg2 fullShare x0 ∗ owns (c : Thread nD τ) arg3 fullShare x1
        ∗ (∃ d, owns (c : Thread nD τ) arg11 fullShare d)
        ∗ (iprop(owns (c : Thread nD τ) arg2 fullShare x0 ∗ owns (c : Thread nD τ) arg3 fullShare x1
            ∗ owns (c : Thread nD τ) arg11 fullShare (acc0 i x0 x1 k0_pay1)) -∗ K ⟨⟩))
      ⊢ wp frame (wpE (defs₀ (F := F)) Variants.none c none) E (cc0__sage_fused_kernel i arg2 harg2 arg3 harg3 arg4 harg4 arg5 harg5 arg6 harg6 arg7 harg7 arg8 harg8 arg9 harg9 arg10 harg10 arg11 harg11) K := by
  simp only [cc0__sage_fused_kernel_eq_skeleton]; unfold cc0__sage_fused_kernel_skel
  unfold owns
  iintro ⟨⟨%f0, %hf0, H0⟩, ⟨%f1, %hf1, H1⟩, ⟨%d, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_eq_canon _ _ _ (coverS0 _ _)]
  sl_unfold_words
  rw [View.canon_cons_unit_zero (S := S1024x160) offz0, View.readCov_unit_zero (S := S1024x160) _ offz0]
  unfold acc0
  simp only [View.readAt_eq_ld, View.ld_unit_zero (S := S1024x2048) offz0]
  rfl

set_option maxHeartbeats 2000000 in
theorem run0_mid (c : Dev nD) (E : Set ℕ) (i : grid0.Coords) (arg2 : Memref sig .tc .vmem S1024x2048 .bf16) (harg2 : arg2.IsWhole) (arg3 : Memref sig .tc .vmem S8192x160 .f32) (harg3 : arg3.IsWhole) (arg4 : Memref sig .tc .vmem S8192x1 .f32) (harg4 : arg4.IsWhole) (arg5 : Memref sig .tc .vmem S160x256 .f32) (harg5 : arg5.IsWhole) (arg6 : Memref sig .tc .vmem S160x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1024x160 .f32) (harg11 : arg11.IsWhole)
    (hc0 : ¬cond0_0 i) (hc1 : ¬cond0_1 i)
    (x0 : Vec F S1024x2048 .bf16) (x1 : Vec F S8192x160 .f32) (s : Vec F S1024x160 .f32) (K : PUnit → sProp 𝕄) :
    iprop(owns (c : Thread nD τ) arg2 fullShare x0 ∗ owns (c : Thread nD τ) arg3 fullShare x1
        ∗ owns (c : Thread nD τ) arg11 fullShare s
        ∗ (iprop(owns (c : Thread nD τ) arg2 fullShare x0 ∗ owns (c : Thread nD τ) arg3 fullShare x1
            ∗ owns (c : Thread nD τ) arg11 fullShare (acc0 i x0 x1 s)) -∗ K ⟨⟩))
      ⊢ wp frame (wpE (defs₀ (F := F)) Variants.none c none) E (cc0__sage_fused_kernel i arg2 harg2 arg3 harg3 arg4 harg4 arg5 harg5 arg6 harg6 arg7 harg7 arg8 harg8 arg9 harg9 arg10 harg10 arg11 harg11) K := by
  simp only [cc0__sage_fused_kernel_eq_skeleton]; unfold cc0__sage_fused_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_eq_canon _ _ _ (coverS0 _ _)]
  rw [View.canon_cons_unit_zero (S := S1024x160) offz0]
  unfold acc0
  simp only [View.readAt_eq_ld, View.ld_unit_zero (S := S1024x2048) offz0, View.ld_unit_zero (S := S1024x160) offz0]

set_option maxHeartbeats 4000000 in
theorem run0_last (c : Dev nD) (E : Set ℕ) (i : grid0.Coords) (arg2 : Memref sig .tc .vmem S1024x2048 .bf16) (harg2 : arg2.IsWhole) (arg3 : Memref sig .tc .vmem S8192x160 .f32) (harg3 : arg3.IsWhole) (arg4 : Memref sig .tc .vmem S8192x1 .f32) (harg4 : arg4.IsWhole) (arg5 : Memref sig .tc .vmem S160x256 .f32) (harg5 : arg5.IsWhole) (arg6 : Memref sig .tc .vmem S160x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1024x160 .f32) (harg11 : arg11.IsWhole)
    (hc0 : ¬cond0_0 i) (hc1 : cond0_1 i)
    (x0 : Vec F S1024x2048 .bf16) (x1 : Vec F S8192x160 .f32) (x2 : Vec F S8192x1 .f32) (x3 x4 : Vec F S160x256 .f32)
    (x5 x6 x7 : Vec F S1x256 .f32) (s : Vec F S1024x160 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ owns (c : Thread nD τ) arg8 fullShare x6 ∗ owns (c : Thread nD τ) arg9 fullShare x7
        ∗ (∃ d, owns (c : Thread nD τ) arg10 fullShare d)
        ∗ owns (c : Thread nD τ) arg11 fullShare s
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare x6 ∗ owns (c : Thread nD τ) arg9 fullShare x7
            ∗ owns (c : Thread nD τ) arg10 fullShare (fin0 i x1 x2 x3 x4 x5 x6 x7 (acc0 i x0 x1 s))
            ∗ owns (c : Thread nD τ) arg11 fullShare (acc0 i x0 x1 s)) -∗ K ⟨⟩))
      ⊢ wp frame (wpE (defs₀ (F := F)) Variants.none c none) E (cc0__sage_fused_kernel i arg2 harg2 arg3 harg3 arg4 harg4 arg5 harg5 arg6 harg6 arg7 harg7 arg8 harg8 arg9 harg9 arg10 harg10 arg11 harg11) K := by
  simp only [cc0__sage_fused_kernel_eq_skeleton]; unfold cc0__sage_fused_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%d, %fo, -, HO⟩, ⟨%fs, %hfs, HS⟩, Hk⟩
  subst hf0; subst hf1; subst hf2; subst hf3; subst hf4; subst hf5; subst hf6; subst hf7; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [HO]
  · iexists _; isplitr
    swap; · iexact HO
    ipureintro
    rw [View.read_writes_eq_canon _ _ _ (coverO0 _ _)]
    sl_unfold_words
    rw [View.canon_unit_zero (S := S1024x256) offz0, View.readCov_unit_zero (S := S1024x160) _ offz0]
    unfold fin0 acc0
    simp only [View.readAt_eq_ld, View.ld_unit_zero (S := S1024x2048) offz0, View.ld_unit_zero (S := S1024x160) offz0,
      View.ld_unit_zero (S := S160x256) offz0, View.ld_unit_zero (S := S1x256) offz0]
    rfl
  iexists _; isplitr
  swap; · iexact HS
  ipureintro
  sl_unfold_words
  rw [View.read_writes_eq_canon _ _ _ (coverS0 _ _), View.canon_cons_unit_zero (S := S1024x160) offz0]
  unfold acc0
  simp only [View.readAt_eq_ld, View.ld_unit_zero (S := S1024x2048) offz0, View.ld_unit_zero (S := S1024x160) offz0]
  rfl

end Cert.KernelIdeal.Gen
end
-- ==== Proof.R0.lean ====
import proofs.«407196_j36060545417339_2_alg».proof.Proof.R0Run

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

local macro "before_in_block" w:term "," hA:ident "," hafter:ident "," dat:ident "," t:ident "," d:ident : tactic =>
  `(tactic| (
    have hkeep : ∀ t, (cfg0.win $w).cut (cfg0.grid.coords t) (Dat.after $dat $w t) = Dat.blockOf $dat $w t := fun t => by
      rw [$hafter:ident]; unfold Dat.blockOf iblk0; rw [$hA:ident]; try rfl
    rw [Dat.before_in_eq_fetched $dat $w rfl (fun _ => rfl) (fun _ _ _ => rfl) hkeep $t $d]
    unfold Dat.fetched Dat.blockOf iblk0; rw [$hA:ident]; try rfl))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t := by
  before_in_block 0, hA, hafter, dat, t, d
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t := by
  before_in_block 1, hA, hafter, dat, t, d
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t := by
  before_in_block 2, hA, hafter, dat, t, d
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t := by
  before_in_block 3, hA, hafter, dat, t, d
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t := by
  before_in_block 4, hA, hafter, dat, t, d
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t := by
  before_in_block 5, hA, hafter, dat, t, d
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t := by
  before_in_block 6, hA, hafter, dat, t, d
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t := by
  before_in_block 7, hA, hafter, dat, t, d

theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel

theorem liveAt0_8 : ∀ t : Fin cfg0.N, cond0_1 (grid0.coords t) → cfg0.idle 8 (grid0.coords t) = false := by decide +kernel

def sAt0 (c : Dev nD) : (n : ℕ) → n < cfg0.N → Vec F S1024x160 .f32
  | 0, h => acc0 (grid0.coords ⟨0, h⟩) (iblk0 V c 0 ⟨0, h⟩) (iblk0 V c 1 ⟨0, h⟩) k0_pay1
  | n + 1, h =>
    if (n + 1) % 4 = 0 then
      acc0 (grid0.coords ⟨n + 1, h⟩) (iblk0 V c 0 ⟨n + 1, h⟩) (iblk0 V c 1 ⟨n + 1, h⟩) k0_pay1
    else
      acc0 (grid0.coords ⟨n + 1, h⟩) (iblk0 V c 0 ⟨n + 1, h⟩) (iblk0 V c 1 ⟨n + 1, h⟩) (sAt0 c n (Nat.lt_of_succ_lt h))

theorem sAt0_first (c : Dev nD) (t : Fin cfg0.N) (h : t.val % 4 = 0) :
    sAt0 V c t.val t.isLt = acc0 (grid0.coords t) (iblk0 V c 0 t) (iblk0 V c 1 t) k0_pay1 := by
  obtain ⟨n, hn⟩ := t
  cases n with
  | zero => rfl
  | succ n => exact if_pos h

theorem sAt0_next (c : Dev nD) (t : Fin cfg0.N) (h : ¬t.val % 4 = 0) :
    sAt0 V c t.val t.isLt = acc0 (grid0.coords t) (iblk0 V c 0 t) (iblk0 V c 1 t)
      (sAt0 V c (t.val - 1) (Nat.lt_of_le_of_lt (Nat.sub_le _ _) t.isLt)) := by
  obtain ⟨n, hn⟩ := t
  cases n with
  | zero => exact absurd (Nat.zero_mod _) h
  | succ n => exact if_neg h

abbrev scM0 : Memref sig .tc .vmem S1024x160 .f32 := Memref.whole cc0_scratch0

theorem scopedRest0_scratch (c : Dev nD) :
    (Pipeline.scopedRest (Ix := Unit) (Name := ℕ) (U := UR sig nD τ) (Lvl := ℕ) (Val := Elt F) spec0 c : sProp 𝕄)
      = iprop((∃ d, owns (c : Thread nD τ) scM0 fullShare d)
          ∗ Pipeline.scopedRestBut (Ix := Unit) (Name := ℕ) (U := UR sig nD τ) (Lvl := ℕ) (Val := Elt F) spec0 c [cc0_scratch0]) := by
  rw [scopedRest0_split]; simp only [scM0, owns_whole]
  rfl

def Phi0 (c : Dev nD) : (n : ℕ) → n ≤ cfg0.N → sProp 𝕄
  | 0, _ => iprop((∃ r, prngReg c r)
      ∗ Pipeline.scopedRest (Ix := Unit) (Name := ℕ) (U := UR sig nD τ) (Lvl := ℕ) (Val := Elt F) spec0 c)
  | n + 1, hn => iprop((∃ r, prngReg c r) ∗ owns (c : Thread nD τ) scM0 fullShare (sAt0 V c n hn)
      ∗ Pipeline.scopedRestBut (Ix := Unit) (Name := ℕ) (U := UR sig nD τ) (Lvl := ℕ) (Val := Elt F) spec0 c [cc0_scratch0])

theorem Phi0_zero (c : Dev nD) (n : ℕ) (h : n ≤ cfg0.N) (hz : n = 0) :
    Phi0 V c n h = iprop((∃ r, prngReg c r)
      ∗ Pipeline.scopedRest (Ix := Unit) (Name := ℕ) (U := UR sig nD τ) (Lvl := ℕ) (Val := Elt F) spec0 c) := by
  subst hz; rfl

theorem Phi0_succ (c : Dev nD) (n : ℕ) (hn : n < cfg0.N) :
    Phi0 V c (n + 1) hn = iprop((∃ r, prngReg c r) ∗ owns (c : Thread nD τ) scM0 fullShare (sAt0 V c n hn)
      ∗ Pipeline.scopedRestBut (Ix := Unit) (Name := ℕ) (U := UR sig nD τ) (Lvl := ℕ) (Val := Elt F) spec0 c [cc0_scratch0]) := rfl

theorem Phi0_pos (c : Dev nD) (n : ℕ) (h : n ≤ cfg0.N) (hz : n ≠ 0) :
    Phi0 V c n h = iprop((∃ r, prngReg c r) ∗ owns (c : Thread nD τ) scM0 fullShare (sAt0 V c (n - 1) (by omega))
      ∗ Pipeline.scopedRestBut (Ix := Unit) (Name := ℕ) (U := UR sig nD τ) (Lvl := ℕ) (Val := Elt F) spec0 c [cc0_scratch0]) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => fin0 (grid0.coords t) (iblk0 V c 1 t) (iblk0 V c 2 t) (iblk0 V c 3 t) (iblk0 V c 4 t) (iblk0 V c 5 t)
        (iblk0 V c 6 t) (iblk0 V c 7 t) (sAt0 V c t.val t.isLt)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem q_eq0 (c : Dev nD) (w : Fin cfg0.W) : (dat0 V c).q w = fullShare := by dsimp only [dat0]
theorem owed_eq0 (c : Dev nD) (t : Fin (cfg0.N + 1)) : (dat0 V c).owed t = 0 := by dsimp only [dat0]
theorem recorded_eq0 (c : Dev nD) (t : Fin (cfg0.N + 1)) : (dat0 V c).recorded t = Set.univ := rfl

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) :
    (dat0 V c).after 8 t = fin0 (grid0.coords t) (iblk0 V c 1 t) (iblk0 V c 2 t) (iblk0 V c 3 t) (iblk0 V c 4 t)
      (iblk0 V c 5 t) (iblk0 V c 6 t) (iblk0 V c 7 t) (sAt0 V c t.val t.isLt) := by dsimp only [dat0]

theorem after0_8_last (c : Dev nD) (t : Fin cfg0.N) (hk : t.val % 4 = 3) :
    (dat0 V c).after 8 t = fin0 (grid0.coords t) (iblk0 V c 1 t) (iblk0 V c 2 t) (iblk0 V c 3 t) (iblk0 V c 4 t)
      (iblk0 V c 5 t) (iblk0 V c 6 t) (iblk0 V c 7 t) (sAt0 V c t.val t.isLt) := after0_8 V c t

theorem Phi0_castSucc (c : Dev nD) (t : Fin cfg0.N) :
    (dat0 V c).Φ t.castSucc = Phi0 V c t.val (Nat.le_of_lt t.isLt) := by
  dsimp only [dat0]; simp only [Fin.coe_castSucc]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ (dat0 V c).leavesExact 8 t)

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [after0_0, after0_1, after0_2, after0_3, after0_4, after0_5, after0_6, after0_7]
  rw [show (dat0 V c).owesAt () t.succ = (dat0 V c).owesAt () t.castSucc from rfl]
  rw [show (dat0 V c).Φ t.succ = Phi0 V c (t.val + 1) t.isLt from rfl, Phi0_succ, Phi0_castSucc]
  have hN : t.val < 32 := lt_of_lt_of_eq t.isLt (show cfg0.N = 32 from N_0)
  by_cases h3 : t.val % 4 = 3
  ·
    have hc1 : cond0_1 (grid0.coords t) := (hcond0_1 t).mpr h3
    have hc0 : ¬cond0_0 (grid0.coords t) := fun h => by have := (hcond0_0 t).mp h; omega
    have hz : t.val ≠ 0 := by omega
    have h0 : ¬t.val % 4 = 0 := by omega
    rw [show (dat0 V c).leavesExact 8 t = owns (c : Thread nD τ) (st0_8 t) fullShare ((dat0 V c).after 8 t) from by
      unfold Dat.leavesExact; rw [liveAt0_8 t hc1], after0_8]
    rw [Phi0_pos V c _ _ hz, sAt0_next V c t h0]
    iintro ⟨⟨Hg, HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run0_last c Set.univ (grid0.coords t) _ _ _ _ _ _ _ _ _ _ _ _ _ _ _ _ _ _ _ _ hc0 hc1
      (iblk0 V c 0 t) (iblk0 V c 1 t) (iblk0 V c 2 t) (iblk0 V c 3 t) (iblk0 V c 4 t) (iblk0 V c 5 t) (iblk0 V c 6 t)
      (iblk0 V c 7 t) (sAt0 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexact HS
    iintro ⟨H0, H1, H2, H3, H4, H5, H6, H7, H8, HS⟩
    isplitl [Hg HS Hrest]
    · isplitl [Hg]; · iexact Hg
      isplitl [HS]; · iexact HS
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc1 : ¬cond0_1 (grid0.coords t) := fun h => h3 ((hcond0_1 t).mp h)
    rw [Dat.leavesExact_idle (dat0 V c) 8 t (idleAt0_8 t hc1) (noFlush0_8 t hc1)]
    by_cases h0 : t.val % 4 = 0
    ·
      have hc0 : cond0_0 (grid0.coords t) := (hcond0_0 t).mpr h0
      rw [sAt0_first V c t h0]
      by_cases hz : t.val = 0
      · rw [Phi0_zero V c _ _ hz, scopedRest0_scratch]
        iintro ⟨⟨Hg, HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply (run0_first c Set.univ (grid0.coords t) _ _ _ _ _ _ _ _ _ _ _ _ _ _ _ _ _ _ _ _ hc0 hc1
          (iblk0 V c 0 t) (iblk0 V c 1 t) _)
        isplitl [H0]; · iexact H0
        isplitl [H1]; · iexact H1
        isplitl [HS]; · iexact HS
        iintro ⟨H0, H1, HS⟩
        isplitl [Hg HS Hrest]
        · isplitl [Hg]; · iexact Hg
          isplitl [HS]; · iexact HS
          iexact Hrest
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
      · rw [Phi0_pos V c _ _ hz]
        iintro ⟨⟨Hg, HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply (run0_first c Set.univ (grid0.coords t) _ _ _ _ _ _ _ _ _ _ _ _ _ _ _ _ _ _ _ _ hc0 hc1
          (iblk0 V c 0 t) (iblk0 V c 1 t) _)
        isplitl [H0]; · iexact H0
        isplitl [H1]; · iexact H1
        isplitl [HS]; · iexists _; iexact HS
        iintro ⟨H0, H1, HS⟩
        isplitl [Hg HS Hrest]
        · isplitl [Hg]; · iexact Hg
          isplitl [HS]; · iexact HS
          iexact Hrest
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
    ·
      have hc0 : ¬cond0_0 (grid0.coords t) := fun h => h0 ((hcond0_0 t).mp h)
      have hz : t.val ≠ 0 := fun e => h0 (by rw [e])
      rw [Phi0_pos V c _ _ hz, sAt0_next V c t h0]
      iintro ⟨⟨Hg, HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run0_mid c Set.univ (grid0.coords t) _ _ _ _ _ _ _ _ _ _ _ _ _ _ _ _ _ _ _ _ hc0 hc1
        (iblk0 V c 0 t) (iblk0 V c 1 t) (sAt0 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [Hg HS Hrest]
      · isplitl [Hg]; · iexact Hg
        isplitl [HS]; · iexact HS
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

theorem body_obligation0 (c : Dev nD) : BodyObligation (dat0 (F := F) V c) (defs₀ (F := F)) Variants.none () Set.univ := fun t => by
  rw [bigSep_W0, bigSep_W0]
  exact sound_body0 V c t

theorem Φ0_in0 (c : Dev nD) :
    iprop((∃ r, prngReg c r) ∗ Pipeline.scopedRest (Ix := Unit) (Name := ℕ) (U := UR sig nD τ) (Lvl := ℕ) (Val := Elt F) spec0 c)
      ⊢ ((dat0 V c).Φ 0 : sProp 𝕄) := by
  rw [show (dat0 V c).Φ 0 = Phi0 V c 0 (Nat.zero_le _) from rfl, Phi0_zero V c 0 _ rfl]

theorem Φlast_out0 (c : Dev nD) :
    (dat0 V c).Φ (Fin.last cfg0.N)
      ⊢ (iprop((∃ r, prngReg c r) ∗ Pipeline.scopedRest (Ix := Unit) (Name := ℕ) (U := UR sig nD τ) (Lvl := ℕ) (Val := Elt F) spec0 c) : sProp 𝕄) := by
  have hN : cfg0.N ≠ 0 := by have : cfg0.N = 32 := N_0; omega
  rw [show (dat0 V c).Φ (Fin.last cfg0.N) = Phi0 V c cfg0.N (Nat.le_refl _) from rfl, Phi0_pos V c _ _ hN, scopedRest0_scratch]
  iintro ⟨Hg, HS, Hrest⟩
  isplitl [Hg]; · iexact Hg
  isplitl [HS]; · iexists _; iexact HS
  iexact Hrest

end Region0

end Cert.KernelIdeal.Gen
end
-- ==== Proof.R1Run.lean ====
import proofs.«407196_j36060545417339_2_alg».proof.Proof.Gen.KernelIdeal.Launch
import proofs.«407196_j36060545417339_2_alg».proof.Proof.Gen.KernelIdeal.Skeleton
import proofs.«407196_j36060545417339_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the second fused aggregation layer): the kernel body, case by case

The body runs on a grid of row blocks `i` and contraction blocks `k`. It keeps a running sum in a scratch
accumulator: at `k = 0` the accumulator is zeroed first; at every `k` the product of the streamed count tile with
the matching rows of the feature matrix is added to it; at the last `k` the sum is divided by the degree, sent through
the two dense maps, the bias, the rectifier and the row normalisation, and stored into the output block. So a point is
in one of three cases — first, middle, last contraction step — and each case's effect on the accumulator and on the
output block is a closed function of what the body reads. -/

/-! ## The two conditions of the body, over the grid -/

/-- The first conditional's condition (the accumulator is zeroed): the contraction index is 0. -/
abbrev cond1_0 (i : grid1.Coords) : Prop :=
  (Scalar.cmpi .ne (Scalar.extui (Scalar.cmpi .eq (BitVec.ofNat 32 (i 1).val) 0#32)) 0#32) = 1#1
/-- The second conditional's condition (the block is finalized and stored): the contraction index is the last. -/
abbrev cond1_1 (i : grid1.Coords) : Prop := k1_cond2 i = 1#1

/-- The contraction index is the fastest grid axis: the accumulator is zeroed at the points ≡ 0 (mod 4), -/
theorem hcond1_0 : ∀ t : Fin cfg1.N, cond1_0 (grid1.coords t) ↔ t.val % 4 = 0 :=
  (by decide +kernel : ∀ t : Fin grid1.N, cond1_0 (grid1.coords t) ↔ t.val % 4 = 0)
/-- and the block is finalized at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## The rectangles the body reads and writes through -/

theorem offz1 : (![0, 0] : Fin 2 → ℕ) = fun _ => 0 := funext fun a => by fin_cases a <;> rfl

/-- The degree rows and the self-feature rows of the row block lie inside their arrays at every grid point (the
    printed side conditions state it under the last-step condition only; it holds everywhere). -/
theorem off2_inb1 : ∀ i : grid1.Coords, ∀ a, (k1_off2 i) a + S1024x1.size a ≤ S8192x1.size a := by decide +kernel
theorem off3_inb1 : ∀ i : grid1.Coords, ∀ a, (k1_off3 i) a + S1024x512.size a ≤ S8192x512.size a := by decide +kernel

/-- The whole count tile, the whole accumulator, the whole output block. -/
abbrev rT1 : Rect S1024x2048 := Rect.unit (s := S1024x2048) ![0, 0] S1024x2048.size inb_S1024x2048_S1024x2048_0_0
abbrev rS1 : Rect S1024x512 := Rect.unit (s := S1024x512) ![0, 0] S1024x512.size inb_S1024x512_S1024x512_0_0
abbrev rO1 : Rect S1024x256 := Rect.unit (s := S1024x256) ![0, 0] S1024x256.size inb_S1024x256_S1024x256_0_0
/-- The feature rows of contraction block `k`; the degree rows and the feature rows of row block `i`. -/
abbrev rH1 (i : grid1.Coords) : Rect S8192x512 := Rect.unit (s := S8192x512) (k1_off1 i) S2048x512.size (k1_off1_inb i)
abbrev rD1 (i : grid1.Coords) : Rect S8192x1 := Rect.unit (s := S8192x1) (k1_off2 i) S1024x1.size (off2_inb1 i)
abbrev rX1 (i : grid1.Coords) : Rect S8192x512 := Rect.unit (s := S8192x512) (k1_off3 i) S1024x512.size (off3_inb1 i)

/-! ## What a point leaves, in closed form -/

/-- The accumulator after the contraction step at point `i`, from the count tile `x0`, the feature matrix `x1` and the
    accumulator `s` the step finds (the store's payload is the skeleton's). -/
def acc1 (i : grid1.Coords) (x0 : Vec F S1024x2048 .bf16) (x1 : Vec F S8192x512 .f32) (s : Vec F S1024x512 .f32) :
    Vec F S1024x512 .f32 :=
  k1_pay2 x0 (View.ld x1 (rH1 i)) s

/-- The output block the last contraction step stores, from the finished sum `s`, the degrees `x2`, the feature matrix
    `x1`, the two weight matrices, the bias and the normalisation's scale and shift (the payloads are the skeleton's). -/
def fin1 (i : grid1.Coords) (x1 : Vec F S8192x512 .f32) (x2 : Vec F S8192x1 .f32) (x3 x4 : Vec F S512x256 .f32)
    (x5 x6 x7 : Vec F S1x256 .f32) (s : Vec F S1024x512 .f32) : Vec F S1024x256 .f32 :=
  k1_pay3 (k1_pay4 (View.ld x2 (rD1 i)) s (View.ld x1 (rX1 i)) x3 x4 x5) x6 x7

/-- One store through the whole accumulator covers it. -/
theorem coverS1 (p : Vec F S1024x512 .f32) (L : List (View.Piece (Elt F) S1024x512 .f32)) (y : S1024x512.Idx) :
    ∃ pc ∈ ((⟨rS1, p⟩ : View.Piece (Elt F) S1024x512 .f32) :: L), y ∈ pc.1.set :=
  ⟨_, List.mem_cons_self, View.mem_set_unit_zero offz1 inb_S1024x512_S1024x512_0_0 y⟩
/-- One store through the whole output block covers it. -/
theorem coverO1 (p : Vec F S1024x256 .f32) (L : List (View.Piece (Elt F) S1024x256 .f32)) (y : S1024x256.Idx) :
    ∃ pc ∈ ((⟨rO1, p⟩ : View.Piece (Elt F) S1024x256 .f32) :: L), y ∈ pc.1.set :=
  ⟨_, List.mem_cons_self, View.mem_set_unit_zero offz1 inb_S1024x256_S1024x256_0_0 y⟩

/-! ## The body's triple, case by case -/

set_option maxHeartbeats 2000000 in
/-- FIRST contraction step (`k = 0`): on whole memrefs, the count tile at `x0`, the feature matrix at `x1`, the
    accumulator at anything, the body runs to the accumulator at the step from the zero block; it touches nothing else. -/
theorem run1_first (c : Dev nD) (E : Set ℕ) (i : grid1.Coords) (arg2 : Memref sig .tc .vmem S1024x2048 .bf16) (harg2 : arg2.IsWhole) (arg3 : Memref sig .tc .vmem S8192x512 .f32) (harg3 : arg3.IsWhole) (arg4 : Memref sig .tc .vmem S8192x1 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1024x512 .f32) (harg11 : arg11.IsWhole)
    (hc0 : cond1_0 i) (hc1 : ¬cond1_1 i)
    (x0 : Vec F S1024x2048 .bf16) (x1 : Vec F S8192x512 .f32) (K : PUnit → sProp 𝕄) :
    iprop(owns (c : Thread nD τ) arg2 fullShare x0 ∗ owns (c : Thread nD τ) arg3 fullShare x1
        ∗ (∃ d, owns (c : Thread nD τ) arg11 fullShare d)
        ∗ (iprop(owns (c : Thread nD τ) arg2 fullShare x0 ∗ owns (c : Thread nD τ) arg3 fullShare x1
            ∗ owns (c : Thread nD τ) arg11 fullShare (acc1 i x0 x1 k1_pay1)) -∗ K ⟨⟩))
      ⊢ wp frame (wpE (defs₀ (F := F)) Variants.none c none) E (cc1__sage_fused_kernel i arg2 harg2 arg3 harg3 arg4 harg4 arg5 harg5 arg6 harg6 arg7 harg7 arg8 harg8 arg9 harg9 arg10 harg10 arg11 harg11) K := by
  simp only [cc1__sage_fused_kernel_eq_skeleton]; unfold cc1__sage_fused_kernel_skel
  unfold owns
  iintro ⟨⟨%f0, %hf0, H0⟩, ⟨%f1, %hf1, H1⟩, ⟨%d, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_eq_canon _ _ _ (coverS1 _ _)]
  sl_unfold_words
  rw [View.canon_cons_unit_zero (S := S1024x512) offz1, View.readCov_unit_zero (S := S1024x512) _ offz1]
  unfold acc1
  simp only [View.readAt_eq_ld, View.ld_unit_zero (S := S1024x2048) offz1]
  rfl

set_option maxHeartbeats 2000000 in
/-- MIDDLE contraction step (`0 < k < 3`): the accumulator at `s` goes to the step from `s`. -/
theorem run1_mid (c : Dev nD) (E : Set ℕ) (i : grid1.Coords) (arg2 : Memref sig .tc .vmem S1024x2048 .bf16) (harg2 : arg2.IsWhole) (arg3 : Memref sig .tc .vmem S8192x512 .f32) (harg3 : arg3.IsWhole) (arg4 : Memref sig .tc .vmem S8192x1 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1024x512 .f32) (harg11 : arg11.IsWhole)
    (hc0 : ¬cond1_0 i) (hc1 : ¬cond1_1 i)
    (x0 : Vec F S1024x2048 .bf16) (x1 : Vec F S8192x512 .f32) (s : Vec F S1024x512 .f32) (K : PUnit → sProp 𝕄) :
    iprop(owns (c : Thread nD τ) arg2 fullShare x0 ∗ owns (c : Thread nD τ) arg3 fullShare x1
        ∗ owns (c : Thread nD τ) arg11 fullShare s
        ∗ (iprop(owns (c : Thread nD τ) arg2 fullShare x0 ∗ owns (c : Thread nD τ) arg3 fullShare x1
            ∗ owns (c : Thread nD τ) arg11 fullShare (acc1 i x0 x1 s)) -∗ K ⟨⟩))
      ⊢ wp frame (wpE (defs₀ (F := F)) Variants.none c none) E (cc1__sage_fused_kernel i arg2 harg2 arg3 harg3 arg4 harg4 arg5 harg5 arg6 harg6 arg7 harg7 arg8 harg8 arg9 harg9 arg10 harg10 arg11 harg11) K := by
  simp only [cc1__sage_fused_kernel_eq_skeleton]; unfold cc1__sage_fused_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_eq_canon _ _ _ (coverS1 _ _)]
  rw [View.canon_cons_unit_zero (S := S1024x512) offz1]
  unfold acc1
  simp only [View.readAt_eq_ld, View.ld_unit_zero (S := S1024x2048) offz1, View.ld_unit_zero (S := S1024x512) offz1]

set_option maxHeartbeats 4000000 in
/-- LAST contraction step (`k = 3`): the accumulator at `s` goes to the step from `s`, and the output block — handed
    over at anything — is left at the finalized block of that finished sum; the resident operands stay as they were. -/
theorem run1_last (c : Dev nD) (E : Set ℕ) (i : grid1.Coords) (arg2 : Memref sig .tc .vmem S1024x2048 .bf16) (harg2 : arg2.IsWhole) (arg3 : Memref sig .tc .vmem S8192x512 .f32) (harg3 : arg3.IsWhole) (arg4 : Memref sig .tc .vmem S8192x1 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1024x512 .f32) (harg11 : arg11.IsWhole)
    (hc0 : ¬cond1_0 i) (hc1 : cond1_1 i)
    (x0 : Vec F S1024x2048 .bf16) (x1 : Vec F S8192x512 .f32) (x2 : Vec F S8192x1 .f32) (x3 x4 : Vec F S512x256 .f32)
    (x5 x6 x7 : Vec F S1x256 .f32) (s : Vec F S1024x512 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ owns (c : Thread nD τ) arg8 fullShare x6 ∗ owns (c : Thread nD τ) arg9 fullShare x7
        ∗ (∃ d, owns (c : Thread nD τ) arg10 fullShare d)
        ∗ owns (c : Thread nD τ) arg11 fullShare s
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare x6 ∗ owns (c : Thread nD τ) arg9 fullShare x7
            ∗ owns (c : Thread nD τ) arg10 fullShare (fin1 i x1 x2 x3 x4 x5 x6 x7 (acc1 i x0 x1 s))
            ∗ owns (c : Thread nD τ) arg11 fullShare (acc1 i x0 x1 s)) -∗ K ⟨⟩))
      ⊢ wp frame (wpE (defs₀ (F := F)) Variants.none c none) E (cc1__sage_fused_kernel i arg2 harg2 arg3 harg3 arg4 harg4 arg5 harg5 arg6 harg6 arg7 harg7 arg8 harg8 arg9 harg9 arg10 harg10 arg11 harg11) K := by
  simp only [cc1__sage_fused_kernel_eq_skeleton]; unfold cc1__sage_fused_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%d, %fo, -, HO⟩, ⟨%fs, %hfs, HS⟩, Hk⟩
  subst hf0; subst hf1; subst hf2; subst hf3; subst hf4; subst hf5; subst hf6; subst hf7; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [HO]
  · iexists _; isplitr
    swap; · iexact HO
    ipureintro
    rw [View.read_writes_eq_canon _ _ _ (coverO1 _ _)]
    sl_unfold_words
    rw [View.canon_unit_zero (S := S1024x256) offz1, View.readCov_unit_zero (S := S1024x512) _ offz1]
    unfold fin1 acc1
    simp only [View.readAt_eq_ld, View.ld_unit_zero (S := S1024x2048) offz1, View.ld_unit_zero (S := S1024x512) offz1,
      View.ld_unit_zero (S := S512x256) offz1, View.ld_unit_zero (S := S1x256) offz1]
    rfl
  iexists _; isplitr
  swap; · iexact HS
  ipureintro
  sl_unfold_words
  rw [View.read_writes_eq_canon _ _ _ (coverS1 _ _), View.canon_cons_unit_zero (S := S1024x512) offz1]
  unfold acc1
  simp only [View.readAt_eq_ld, View.ld_unit_zero (S := S1024x2048) offz1, View.ld_unit_zero (S := S1024x512) offz1]
  rfl

end Cert.KernelIdeal.Gen
end
-- ==== Proof.R1.lean ====
import proofs.«407196_j36060545417339_2_alg».proof.Proof.R1Run

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the second fused aggregation layer): the proof data and the body obligation

Stated at a parameter `V`, the contents of the core's buffers when the region is entered. The accumulator the body
keeps between points is no window of the pipeline, so the region's invariant carries it: before point `t` it holds the
running sum of the count tiles times feature rows over the contraction steps of the current row block done so far. -/

section Region1

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window the body only reads holds its block at every point, whether the point fetched it or not (a resident
    operand is fetched once; its block index never moves): the proof is the same for each of the eight inputs. -/
local macro "before_in_block" w:term "," hA:ident "," hafter:ident "," dat:ident "," t:ident "," d:ident : tactic =>
  `(tactic| (
    have hkeep : ∀ t, (cfg1.win $w).cut (cfg1.grid.coords t) (Dat.after $dat $w t) = Dat.blockOf $dat $w t := fun t => by
      rw [$hafter:ident]; unfold Dat.blockOf iblk1; rw [$hA:ident]; try rfl
    rw [Dat.before_in_eq_fetched $dat $w rfl (fun _ => rfl) (fun _ _ _ => rfl) hkeep $t $d]
    unfold Dat.fetched Dat.blockOf iblk1; rw [$hA:ident]; try rfl))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t := by
  before_in_block 0, hA, hafter, dat, t, d
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t := by
  before_in_block 1, hA, hafter, dat, t, d
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t := by
  before_in_block 2, hA, hafter, dat, t, d
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t := by
  before_in_block 3, hA, hafter, dat, t, d
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t := by
  before_in_block 4, hA, hafter, dat, t, d
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t := by
  before_in_block 5, hA, hafter, dat, t, d
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t := by
  before_in_block 6, hA, hafter, dat, t, d
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t := by
  before_in_block 7, hA, hafter, dat, t, d

/-! ## Where the output window is idle -/

/-- Off the last contraction step the body stores nothing into the output block, and the pipeline does not write it back; -/
theorem idleAt1_8 : ∀ t : Fin cfg1.N, ¬cond1_1 (grid1.coords t) → cfg1.idle 8 (grid1.coords t) = true := by decide +kernel
theorem noFlush1_8 : ∀ t : Fin cfg1.N, ¬cond1_1 (grid1.coords t) → (cfg1.win 8).flush t = false := by decide +kernel
/-- at the last contraction step it is live. -/
theorem liveAt1_8 : ∀ t : Fin cfg1.N, cond1_1 (grid1.coords t) → cfg1.idle 8 (grid1.coords t) = false := by decide +kernel

/-! ## The accumulator, point by point -/

/-- THE ACCUMULATION. What the scratch accumulator holds after the body at position `n`: at the first contraction step of
    a row block (the positions ≡ 0 mod 4) the step from the zero block, else the step from what the position before
    left — the running sum over the contraction steps done so far of count tile times feature rows. -/
def sAt1 (c : Dev nD) : (n : ℕ) → n < cfg1.N → Vec F S1024x512 .f32
  | 0, h => acc1 (grid1.coords ⟨0, h⟩) (iblk1 V c 0 ⟨0, h⟩) (iblk1 V c 1 ⟨0, h⟩) k1_pay1
  | n + 1, h =>
    if (n + 1) % 4 = 0 then
      acc1 (grid1.coords ⟨n + 1, h⟩) (iblk1 V c 0 ⟨n + 1, h⟩) (iblk1 V c 1 ⟨n + 1, h⟩) k1_pay1
    else
      acc1 (grid1.coords ⟨n + 1, h⟩) (iblk1 V c 0 ⟨n + 1, h⟩) (iblk1 V c 1 ⟨n + 1, h⟩) (sAt1 c n (Nat.lt_of_succ_lt h))

/-- At the first contraction step of a row block: the step from the zero block. -/
theorem sAt1_first (c : Dev nD) (t : Fin cfg1.N) (h : t.val % 4 = 0) :
    sAt1 V c t.val t.isLt = acc1 (grid1.coords t) (iblk1 V c 0 t) (iblk1 V c 1 t) k1_pay1 := by
  obtain ⟨n, hn⟩ := t
  cases n with
  | zero => rfl
  | succ n => exact if_pos h

/-- At a later contraction step: the step from what the point before left. -/
theorem sAt1_next (c : Dev nD) (t : Fin cfg1.N) (h : ¬t.val % 4 = 0) :
    sAt1 V c t.val t.isLt = acc1 (grid1.coords t) (iblk1 V c 0 t) (iblk1 V c 1 t)
      (sAt1 V c (t.val - 1) (Nat.lt_of_le_of_lt (Nat.sub_le _ _) t.isLt)) := by
  obtain ⟨n, hn⟩ := t
  cases n with
  | zero => exact absurd (Nat.zero_mod _) h
  | succ n => exact if_neg h

/-! ## The region's invariant -/

/-- The scratch accumulator: a whole scoped buffer of the kernel's own, passed to the body beside the windows. -/
abbrev scM1 : Memref sig .tc .vmem S1024x512 .f32 := Memref.whole cc1_scratch0

/-- The core's scoped buffers that are no staging buffer, with the accumulator split off as a memref owned at some
    contents. -/
theorem scopedRest1_scratch (c : Dev nD) :
    (Pipeline.scopedRest (Ix := Unit) (Name := ℕ) (U := UR sig nD τ) (Lvl := ℕ) (Val := Elt F) spec1 c : sProp 𝕄)
      = iprop((∃ d, owns (c : Thread nD τ) scM1 fullShare d)
          ∗ Pipeline.scopedRestBut (Ix := Unit) (Name := ℕ) (U := UR sig nD τ) (Lvl := ℕ) (Val := Elt F) spec1 c [cc1_scratch0]) := by
  rw [scopedRest1_split]; simp only [scM1, owns_whole]
  rfl

/-- The invariant before position `n`: the generator register at some state and the scoped rest — before the first point
    with the accumulator at anything, afterwards with the accumulator at what the point before left in it. -/
def Phi1 (c : Dev nD) : (n : ℕ) → n ≤ cfg1.N → sProp 𝕄
  | 0, _ => iprop((∃ r, prngReg c r)
      ∗ Pipeline.scopedRest (Ix := Unit) (Name := ℕ) (U := UR sig nD τ) (Lvl := ℕ) (Val := Elt F) spec1 c)
  | n + 1, hn => iprop((∃ r, prngReg c r) ∗ owns (c : Thread nD τ) scM1 fullShare (sAt1 V c n hn)
      ∗ Pipeline.scopedRestBut (Ix := Unit) (Name := ℕ) (U := UR sig nD τ) (Lvl := ℕ) (Val := Elt F) spec1 c [cc1_scratch0])

theorem Phi1_zero (c : Dev nD) (n : ℕ) (h : n ≤ cfg1.N) (hz : n = 0) :
    Phi1 V c n h = iprop((∃ r, prngReg c r)
      ∗ Pipeline.scopedRest (Ix := Unit) (Name := ℕ) (U := UR sig nD τ) (Lvl := ℕ) (Val := Elt F) spec1 c) := by
  subst hz; rfl

theorem Phi1_succ (c : Dev nD) (n : ℕ) (hn : n < cfg1.N) :
    Phi1 V c (n + 1) hn = iprop((∃ r, prngReg c r) ∗ owns (c : Thread nD τ) scM1 fullShare (sAt1 V c n hn)
      ∗ Pipeline.scopedRestBut (Ix := Unit) (Name := ℕ) (U := UR sig nD τ) (Lvl := ℕ) (Val := Elt F) spec1 c [cc1_scratch0]) := rfl

theorem Phi1_pos (c : Dev nD) (n : ℕ) (h : n ≤ cfg1.N) (hz : n ≠ 0) :
    Phi1 V c n h = iprop((∃ r, prngReg c r) ∗ owns (c : Thread nD τ) scM1 fullShare (sAt1 V c (n - 1) (by omega))
      ∗ Pipeline.scopedRestBut (Ix := Unit) (Name := ℕ) (U := UR sig nD τ) (Lvl := ℕ) (Val := Elt F) spec1 c [cc1_scratch0]) := by
  cases n with
  | zero => exact absurd rfl hz
  | succ n => rfl

/-! ## The pipeline's proof data -/

/-- The proof data of pipeline 1 on core `c`: the arrays as the region finds them; after the body at point `t` each
    input's buffer at its block, the output's at the finalized block of the accumulator after `t` (what the last
    contraction step stores; at the other points the window is idle and this is not consulted); the invariant `Phi1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => fin1 (grid1.coords t) (iblk1 V c 1 t) (iblk1 V c 2 t) (iblk1 V c 3 t) (iblk1 V c 4 t) (iblk1 V c 5 t)
        (iblk1 V c 6 t) (iblk1 V c 7 t) (sAt1 V c t.val t.isLt)
  Φ t := Phi1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The proof data's shares, tallies and recorded pairs, projected. -/
theorem q_eq1 (c : Dev nD) (w : Fin cfg1.W) : (dat1 V c).q w = fullShare := by dsimp only [dat1]
theorem owed_eq1 (c : Dev nD) (t : Fin (cfg1.N + 1)) : (dat1 V c).owed t = 0 := by dsimp only [dat1]
theorem recorded_eq1 (c : Dev nD) (t : Fin (cfg1.N + 1)) : (dat1 V c).recorded t = Set.univ := rfl

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) :
    (dat1 V c).after 8 t = fin1 (grid1.coords t) (iblk1 V c 1 t) (iblk1 V c 2 t) (iblk1 V c 3 t) (iblk1 V c 4 t)
      (iblk1 V c 5 t) (iblk1 V c 6 t) (iblk1 V c 7 t) (sAt1 V c t.val t.isLt) := by dsimp only [dat1]

/-- WHAT A FLUSHING POINT WRITES BACK: at the last contraction step of a row block the output block is the finalized
    block — the divide by degree, the two dense maps, bias, rectifier and row normalisation — of the accumulator after
    that point and of the resident operands' blocks there. -/
theorem after1_8_last (c : Dev nD) (t : Fin cfg1.N) (hk : t.val % 4 = 3) :
    (dat1 V c).after 8 t = fin1 (grid1.coords t) (iblk1 V c 1 t) (iblk1 V c 2 t) (iblk1 V c 3 t) (iblk1 V c 4 t)
      (iblk1 V c 5 t) (iblk1 V c 6 t) (iblk1 V c 7 t) (sAt1 V c t.val t.isLt) := after1_8 V c t

/-- The invariant at a point's start, restated at the point's position. -/
theorem Phi1_castSucc (c : Dev nD) (t : Fin cfg1.N) :
    (dat1 V c).Φ t.castSucc = Phi1 V c t.val (Nat.le_of_lt t.isLt) := by
  dsimp only [dat1]; simp only [Fin.coe_castSucc]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t`: the invariant, the core's tallies, the windows' current buffers one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns: the inputs' buffers at their blocks, the output's at what the point leaves (the finalized block at
    a last contraction step; as found elsewhere). -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ (dat1 V c).leavesExact 8 t)

set_option maxHeartbeats 4000000 in
/-- The body at any point. The inputs' memrefs hold their blocks; the position mod 4 says which contraction step the
    point is. At a last step the invariant hands over the accumulator at what the point before left, the body adds this
    step, finalizes and stores the output block. At a first step the accumulator — at anything before the first point, at
    the previous row block's finished sum later, forgotten either way — restarts from the zero block. At a middle step it
    goes on from what the point before left. Off the last step the output's buffer goes back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [after1_0, after1_1, after1_2, after1_3, after1_4, after1_5, after1_6, after1_7]
  rw [show (dat1 V c).owesAt () t.succ = (dat1 V c).owesAt () t.castSucc from rfl]
  rw [show (dat1 V c).Φ t.succ = Phi1 V c (t.val + 1) t.isLt from rfl, Phi1_succ, Phi1_castSucc]
  have hN : t.val < 32 := lt_of_lt_of_eq t.isLt (show cfg1.N = 32 from N_1)
  by_cases h3 : t.val % 4 = 3
  · -- the last contraction step of the row block
    have hc1 : cond1_1 (grid1.coords t) := (hcond1_1 t).mpr h3
    have hc0 : ¬cond1_0 (grid1.coords t) := fun h => by have := (hcond1_0 t).mp h; omega
    have hz : t.val ≠ 0 := by omega
    have h0 : ¬t.val % 4 = 0 := by omega
    rw [show (dat1 V c).leavesExact 8 t = owns (c : Thread nD τ) (st1_8 t) fullShare ((dat1 V c).after 8 t) from by
      unfold Dat.leavesExact; rw [liveAt1_8 t hc1], after1_8]
    rw [Phi1_pos V c _ _ hz, sAt1_next V c t h0]
    iintro ⟨⟨Hg, HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run1_last c Set.univ (grid1.coords t) _ _ _ _ _ _ _ _ _ _ _ _ _ _ _ _ _ _ _ _ hc0 hc1
      (iblk1 V c 0 t) (iblk1 V c 1 t) (iblk1 V c 2 t) (iblk1 V c 3 t) (iblk1 V c 4 t) (iblk1 V c 5 t) (iblk1 V c 6 t)
      (iblk1 V c 7 t) (sAt1 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexact HS
    iintro ⟨H0, H1, H2, H3, H4, H5, H6, H7, H8, HS⟩
    isplitl [Hg HS Hrest]
    · isplitl [Hg]; · iexact Hg
      isplitl [HS]; · iexact HS
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc1 : ¬cond1_1 (grid1.coords t) := fun h => h3 ((hcond1_1 t).mp h)
    rw [Dat.leavesExact_idle (dat1 V c) 8 t (idleAt1_8 t hc1) (noFlush1_8 t hc1)]
    by_cases h0 : t.val % 4 = 0
    · -- the first contraction step of the row block
      have hc0 : cond1_0 (grid1.coords t) := (hcond1_0 t).mpr h0
      rw [sAt1_first V c t h0]
      by_cases hz : t.val = 0
      · rw [Phi1_zero V c _ _ hz, scopedRest1_scratch]
        iintro ⟨⟨Hg, HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply (run1_first c Set.univ (grid1.coords t) _ _ _ _ _ _ _ _ _ _ _ _ _ _ _ _ _ _ _ _ hc0 hc1
          (iblk1 V c 0 t) (iblk1 V c 1 t) _)
        isplitl [H0]; · iexact H0
        isplitl [H1]; · iexact H1
        isplitl [HS]; · iexact HS
        iintro ⟨H0, H1, HS⟩
        isplitl [Hg HS Hrest]
        · isplitl [Hg]; · iexact Hg
          isplitl [HS]; · iexact HS
          iexact Hrest
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
      · rw [Phi1_pos V c _ _ hz]
        iintro ⟨⟨Hg, HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply (run1_first c Set.univ (grid1.coords t) _ _ _ _ _ _ _ _ _ _ _ _ _ _ _ _ _ _ _ _ hc0 hc1
          (iblk1 V c 0 t) (iblk1 V c 1 t) _)
        isplitl [H0]; · iexact H0
        isplitl [H1]; · iexact H1
        isplitl [HS]; · iexists _; iexact HS
        iintro ⟨H0, H1, HS⟩
        isplitl [Hg HS Hrest]
        · isplitl [Hg]; · iexact Hg
          isplitl [HS]; · iexact HS
          iexact Hrest
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
    · -- a middle contraction step
      have hc0 : ¬cond1_0 (grid1.coords t) := fun h => h0 ((hcond1_0 t).mp h)
      have hz : t.val ≠ 0 := fun e => h0 (by rw [e])
      rw [Phi1_pos V c _ _ hz, sAt1_next V c t h0]
      iintro ⟨⟨Hg, HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run1_mid c Set.univ (grid1.coords t) _ _ _ _ _ _ _ _ _ _ _ _ _ _ _ _ _ _ _ _ hc0 hc1
        (iblk1 V c 0 t) (iblk1 V c 1 t) (sAt1 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [Hg HS Hrest]
      · isplitl [Hg]; · iexact Hg
        isplitl [HS]; · iexact HS
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The two ends of the invariant -/

/-- What the region is entered with — the generator register and the scoped rest, the accumulator at anything — is the
    invariant before the first point. -/
theorem Φ0_in1 (c : Dev nD) :
    iprop((∃ r, prngReg c r) ∗ Pipeline.scopedRest (Ix := Unit) (Name := ℕ) (U := UR sig nD τ) (Lvl := ℕ) (Val := Elt F) spec1 c)
      ⊢ ((dat1 V c).Φ 0 : sProp 𝕄) := by
  rw [show (dat1 V c).Φ 0 = Phi1 V c 0 (Nat.zero_le _) from rfl, Phi1_zero V c 0 _ rfl]

/-- After the last point the invariant gives them back: the accumulator's named contents are forgotten. -/
theorem Φlast_out1 (c : Dev nD) :
    (dat1 V c).Φ (Fin.last cfg1.N)
      ⊢ (iprop((∃ r, prngReg c r) ∗ Pipeline.scopedRest (Ix := Unit) (Name := ℕ) (U := UR sig nD τ) (Lvl := ℕ) (Val := Elt F) spec1 c) : sProp 𝕄) := by
  have hN : cfg1.N ≠ 0 := by have : cfg1.N = 32 := N_1; omega
  rw [show (dat1 V c).Φ (Fin.last cfg1.N) = Phi1 V c cfg1.N (Nat.le_refl _) from rfl, Phi1_pos V c _ _ hN, scopedRest1_scratch]
  iintro ⟨Hg, HS, Hrest⟩
  isplitl [Hg]; · iexact Hg
  isplitl [HS]; · iexists _; iexact HS
  iexact Hrest

end Region1

end Cert.KernelIdeal.Gen
end
-- ==== Proof.R2Run.lean ====
import proofs.«407196_j36060545417339_2_alg».proof.Proof.Gen.KernelIdeal.Launch
import proofs.«407196_j36060545417339_2_alg».proof.Proof.Gen.KernelIdeal.Skeleton
import proofs.«407196_j36060545417339_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond2_0 (i : grid2.Coords) : Prop :=
  (Scalar.cmpi .ne (Scalar.extui (Scalar.cmpi .eq (BitVec.ofNat 32 (i 1).val) 0#32)) 0#32) = 1#1

abbrev cond2_1 (i : grid2.Coords) : Prop := k2_cond2 i = 1#1

theorem hcond2_0 : ∀ t : Fin cfg2.N, cond2_0 (grid2.coords t) ↔ t.val % 4 = 0 :=
  (by decide +kernel : ∀ t : Fin grid2.N, cond2_0 (grid2.coords t) ↔ t.val % 4 = 0)

theorem hcond2_1 : ∀ t : Fin cfg2.N, cond2_1 (grid2.coords t) ↔ t.val % 4 = 3 :=
  (by decide +kernel : ∀ t : Fin grid2.N, cond2_1 (grid2.coords t) ↔ t.val % 4 = 3)

theorem offz2 : (![0, 0] : Fin 2 → ℕ) = fun _ => 0 := funext fun a => by fin_cases a <;> rfl

theorem off2_inb2 : ∀ i : grid2.Coords, ∀ a, (k2_off2 i) a + S1024x1.size a ≤ S8192x1.size a := by decide +kernel
theorem off3_inb2 : ∀ i : grid2.Coords, ∀ a, (k2_off3 i) a + S1024x256.size a ≤ S8192x256.size a := by decide +kernel

abbrev rT2 : Rect S1024x2048 := Rect.unit (s := S1024x2048) ![0, 0] S1024x2048.size inb_S1024x2048_S1024x2048_0_0
abbrev rS2 : Rect S1024x256 := Rect.unit (s := S1024x256) ![0, 0] S1024x256.size inb_S1024x256_S1024x256_0_0
abbrev rO2 : Rect S1024x256 := Rect.unit (s := S1024x256) ![0, 0] S1024x256.size inb_S1024x256_S1024x256_0_0

abbrev rH2 (i : grid2.Coords) : Rect S8192x256 := Rect.unit (s := S8192x256) (k2_off1 i) S2048x256.size (k2_off1_inb i)
abbrev rD2 (i : grid2.Coords) : Rect S8192x1 := Rect.unit (s := S8192x1) (k2_off2 i) S1024x1.size (off2_inb2 i)
abbrev rX2 (i : grid2.Coords) : Rect S8192x256 := Rect.unit (s := S8192x256) (k2_off3 i) S1024x256.size (off3_inb2 i)

def acc2 (i : grid2.Coords) (x0 : Vec F S1024x2048 .bf16) (x1 : Vec F S8192x256 .f32) (s : Vec F S1024x256 .f32) :
    Vec F S1024x256 .f32 :=
  k2_pay2 x0 (View.ld x1 (rH2 i)) s

def fin2 (i : grid2.Coords) (x1 : Vec F S8192x256 .f32) (x2 : Vec F S8192x1 .f32) (x3 x4 : Vec F S256x256 .f32)
    (x5 x6 x7 : Vec F S1x256 .f32) (s : Vec F S1024x256 .f32) : Vec F S1024x256 .f32 :=
  k2_pay3 (View.ld x2 (rD2 i)) s (View.ld x1 (rX2 i)) x3 x4 x5

theorem coverS2 (p : Vec F S1024x256 .f32) (L : List (View.Piece (Elt F) S1024x256 .f32)) (y : S1024x256.Idx) :
    ∃ pc ∈ ((⟨rS2, p⟩ : View.Piece (Elt F) S1024x256 .f32) :: L), y ∈ pc.1.set :=
  ⟨_, List.mem_cons_self, View.mem_set_unit_zero offz2 inb_S1024x256_S1024x256_0_0 y⟩

theorem coverO2 (p : Vec F S1024x256 .f32) (L : List (View.Piece (Elt F) S1024x256 .f32)) (y : S1024x256.Idx) :
    ∃ pc ∈ ((⟨rO2, p⟩ : View.Piece (Elt F) S1024x256 .f32) :: L), y ∈ pc.1.set :=
  ⟨_, List.mem_cons_self, View.mem_set_unit_zero offz2 inb_S1024x256_S1024x256_0_0 y⟩

set_option maxHeartbeats 2000000 in
theorem run2_first (c : Dev nD) (E : Set ℕ) (i : grid2.Coords) (arg2 : Memref sig .tc .vmem S1024x2048 .bf16) (harg2 : arg2.IsWhole) (arg3 : Memref sig .tc .vmem S8192x256 .f32) (harg3 : arg3.IsWhole) (arg4 : Memref sig .tc .vmem S8192x1 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1024x256 .f32) (harg11 : arg11.IsWhole)
    (hc0 : cond2_0 i) (hc1 : ¬cond2_1 i)
    (x0 : Vec F S1024x2048 .bf16) (x1 : Vec F S8192x256 .f32) (K : PUnit → sProp 𝕄) :
    iprop(owns (c : Thread nD τ) arg2 fullShare x0 ∗ owns (c : Thread nD τ) arg3 fullShare x1
        ∗ (∃ d, owns (c : Thread nD τ) arg11 fullShare d)
        ∗ (iprop(owns (c : Thread nD τ) arg2 fullShare x0 ∗ owns (c : Thread nD τ) arg3 fullShare x1
            ∗ owns (c : Thread nD τ) arg11 fullShare (acc2 i x0 x1 k2_pay1)) -∗ K ⟨⟩))
      ⊢ wp frame (wpE (defs₀ (F := F)) Variants.none c none) E (cc2__sage_fused_kernel i arg2 harg2 arg3 harg3 arg4 harg4 arg5 harg5 arg6 harg6 arg7 harg7 arg8 harg8 arg9 harg9 arg10 harg10 arg11 harg11) K := by
  simp only [cc2__sage_fused_kernel_eq_skeleton]; unfold cc2__sage_fused_kernel_skel
  unfold owns
  iintro ⟨⟨%f0, %hf0, H0⟩, ⟨%f1, %hf1, H1⟩, ⟨%d, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_eq_canon _ _ _ (coverS2 _ _)]
  sl_unfold_words
  rw [View.canon_cons_unit_zero (S := S1024x256) offz2, View.readCov_unit_zero (S := S1024x256) _ offz2]
  unfold acc2
  simp only [View.readAt_eq_ld, View.ld_unit_zero (S := S1024x2048) offz2]
  rfl

set_option maxHeartbeats 2000000 in
theorem run2_mid (c : Dev nD) (E : Set ℕ) (i : grid2.Coords) (arg2 : Memref sig .tc .vmem S1024x2048 .bf16) (harg2 : arg2.IsWhole) (arg3 : Memref sig .tc .vmem S8192x256 .f32) (harg3 : arg3.IsWhole) (arg4 : Memref sig .tc .vmem S8192x1 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1024x256 .f32) (harg11 : arg11.IsWhole)
    (hc0 : ¬cond2_0 i) (hc1 : ¬cond2_1 i)
    (x0 : Vec F S1024x2048 .bf16) (x1 : Vec F S8192x256 .f32) (s : Vec F S1024x256 .f32) (K : PUnit → sProp 𝕄) :
    iprop(owns (c : Thread nD τ) arg2 fullShare x0 ∗ owns (c : Thread nD τ) arg3 fullShare x1
        ∗ owns (c : Thread nD τ) arg11 fullShare s
        ∗ (iprop(owns (c : Thread nD τ) arg2 fullShare x0 ∗ owns (c : Thread nD τ) arg3 fullShare x1
            ∗ owns (c : Thread nD τ) arg11 fullShare (acc2 i x0 x1 s)) -∗ K ⟨⟩))
      ⊢ wp frame (wpE (defs₀ (F := F)) Variants.none c none) E (cc2__sage_fused_kernel i arg2 harg2 arg3 harg3 arg4 harg4 arg5 harg5 arg6 harg6 arg7 harg7 arg8 harg8 arg9 harg9 arg10 harg10 arg11 harg11) K := by
  simp only [cc2__sage_fused_kernel_eq_skeleton]; unfold cc2__sage_fused_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_eq_canon _ _ _ (coverS2 _ _)]
  rw [View.canon_cons_unit_zero (S := S1024x256) offz2]
  unfold acc2
  simp only [View.readAt_eq_ld, View.ld_unit_zero (S := S1024x2048) offz2, View.ld_unit_zero (S := S1024x256) offz2]

set_option maxHeartbeats 4000000 in
theorem run2_last (c : Dev nD) (E : Set ℕ) (i : grid2.Coords) (arg2 : Memref sig .tc .vmem S1024x2048 .bf16) (harg2 : arg2.IsWhole) (arg3 : Memref sig .tc .vmem S8192x256 .f32) (harg3 : arg3.IsWhole) (arg4 : Memref sig .tc .vmem S8192x1 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1024x256 .f32) (harg11 : arg11.IsWhole)
    (hc0 : ¬cond2_0 i) (hc1 : cond2_1 i)
    (x0 : Vec F S1024x2048 .bf16) (x1 : Vec F S8192x256 .f32) (x2 : Vec F S8192x1 .f32) (x3 x4 : Vec F S256x256 .f32)
    (x5 x6 x7 : Vec F S1x256 .f32) (s : Vec F S1024x256 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ owns (c : Thread nD τ) arg8 fullShare x6 ∗ owns (c : Thread nD τ) arg9 fullShare x7
        ∗ (∃ d, owns (c : Thread nD τ) arg10 fullShare d)
        ∗ owns (c : Thread nD τ) arg11 fullShare s
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare x6 ∗ owns (c : Thread nD τ) arg9 fullShare x7
            ∗ owns (c : Thread nD τ) arg10 fullShare (fin2 i x1 x2 x3 x4 x5 x6 x7 (acc2 i x0 x1 s))
            ∗ owns (c : Thread nD τ) arg11 fullShare (acc2 i x0 x1 s)) -∗ K ⟨⟩))
      ⊢ wp frame (wpE (defs₀ (F := F)) Variants.none c none) E (cc2__sage_fused_kernel i arg2 harg2 arg3 harg3 arg4 harg4 arg5 harg5 arg6 harg6 arg7 harg7 arg8 harg8 arg9 harg9 arg10 harg10 arg11 harg11) K := by
  simp only [cc2__sage_fused_kernel_eq_skeleton]; unfold cc2__sage_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%d, %fo, -, HO⟩, ⟨%fs, %hfs, HS⟩, Hk⟩
  subst hf0; subst hf1; subst hf2; subst hf3; subst hf4; subst hf5; subst hf6; subst hf7; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [HO]
  · iexists _; isplitr
    swap; · iexact HO
    ipureintro
    rw [View.read_writes_eq_canon _ _ _ (coverO2 _ _)]
    sl_unfold_words
    rw [View.canon_unit_zero (S := S1024x256) offz2, View.readCov_unit_zero (S := S1024x256) _ offz2]
    unfold fin2 acc2
    simp only [View.readAt_eq_ld, View.ld_unit_zero (S := S1024x2048) offz2, View.ld_unit_zero (S := S1024x256) offz2,
      View.ld_unit_zero (S := S256x256) offz2, View.ld_unit_zero (S := S1x256) offz2]
    rfl
  iexists _; isplitr
  swap; · iexact HS
  ipureintro
  sl_unfold_words
  rw [View.read_writes_eq_canon _ _ _ (coverS2 _ _), View.canon_cons_unit_zero (S := S1024x256) offz2]
  unfold acc2
  simp only [View.readAt_eq_ld, View.ld_unit_zero (S := S1024x2048) offz2, View.ld_unit_zero (S := S1024x256) offz2]
  rfl

end Cert.KernelIdeal.Gen
end
-- ==== Proof.R2.lean ====
import proofs.«407196_j36060545417339_2_alg».proof.Proof.R2Run

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2 (the third fused aggregation layer): the proof data and the body obligation

Stated at a parameter `V`, the contents of the core's buffers when the region is entered. The accumulator the body
keeps between points is no window of the pipeline, so the region's invariant carries it: before point `t` it holds the
running sum of the count tiles times feature rows over the contraction steps of the current row block done so far. -/

section Region2

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window the body only reads holds its block at every point, whether the point fetched it or not (a resident
    operand is fetched once; its block index never moves): the proof is the same for each of the eight inputs. -/
local macro "before_in_block" w:term "," hA:ident "," hafter:ident "," dat:ident "," t:ident "," d:ident : tactic =>
  `(tactic| (
    have hkeep : ∀ t, (cfg2.win $w).cut (cfg2.grid.coords t) (Dat.after $dat $w t) = Dat.blockOf $dat $w t := fun t => by
      rw [$hafter:ident]; unfold Dat.blockOf iblk2; rw [$hA:ident]; try rfl
    rw [Dat.before_in_eq_fetched $dat $w rfl (fun _ => rfl) (fun _ _ _ => rfl) hkeep $t $d]
    unfold Dat.fetched Dat.blockOf iblk2; rw [$hA:ident]; try rfl))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t := by
  before_in_block 0, hA, hafter, dat, t, d
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t := by
  before_in_block 1, hA, hafter, dat, t, d
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t := by
  before_in_block 2, hA, hafter, dat, t, d
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t := by
  before_in_block 3, hA, hafter, dat, t, d
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t := by
  before_in_block 4, hA, hafter, dat, t, d
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t := by
  before_in_block 5, hA, hafter, dat, t, d
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t := by
  before_in_block 6, hA, hafter, dat, t, d
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t := by
  before_in_block 7, hA, hafter, dat, t, d

/-! ## Where the output window is idle -/

/-- Off the last contraction step the body stores nothing into the output block, and the pipeline does not write it back; -/
theorem idleAt2_8 : ∀ t : Fin cfg2.N, ¬cond2_1 (grid2.coords t) → cfg2.idle 8 (grid2.coords t) = true := by decide +kernel
theorem noFlush2_8 : ∀ t : Fin cfg2.N, ¬cond2_1 (grid2.coords t) → (cfg2.win 8).flush t = false := by decide +kernel
/-- at the last contraction step it is live. -/
theorem liveAt2_8 : ∀ t : Fin cfg2.N, cond2_1 (grid2.coords t) → cfg2.idle 8 (grid2.coords t) = false := by decide +kernel

/-! ## The accumulator, point by point -/

/-- THE ACCUMULATION. What the scratch accumulator holds after the body at position `n`: at the first contraction step of
    a row block (the positions ≡ 0 mod 4) the step from the zero block, else the step from what the position before
    left — the running sum over the contraction steps done so far of count tile times feature rows. -/
def sAt2 (c : Dev nD) : (n : ℕ) → n < cfg2.N → Vec F S1024x256 .f32
  | 0, h => acc2 (grid2.coords ⟨0, h⟩) (iblk2 V c 0 ⟨0, h⟩) (iblk2 V c 1 ⟨0, h⟩) k2_pay1
  | n + 1, h =>
    if (n + 1) % 4 = 0 then
      acc2 (grid2.coords ⟨n + 1, h⟩) (iblk2 V c 0 ⟨n + 1, h⟩) (iblk2 V c 1 ⟨n + 1, h⟩) k2_pay1
    else
      acc2 (grid2.coords ⟨n + 1, h⟩) (iblk2 V c 0 ⟨n + 1, h⟩) (iblk2 V c 1 ⟨n + 1, h⟩) (sAt2 c n (Nat.lt_of_succ_lt h))

/-- At the first contraction step of a row block: the step from the zero block. -/
theorem sAt2_first (c : Dev nD) (t : Fin cfg2.N) (h : t.val % 4 = 0) :
    sAt2 V c t.val t.isLt = acc2 (grid2.coords t) (iblk2 V c 0 t) (iblk2 V c 1 t) k2_pay1 := by
  obtain ⟨n, hn⟩ := t
  cases n with
  | zero => rfl
  | succ n => exact if_pos h

/-- At a later contraction step: the step from what the point before left. -/
theorem sAt2_next (c : Dev nD) (t : Fin cfg2.N) (h : ¬t.val % 4 = 0) :
    sAt2 V c t.val t.isLt = acc2 (grid2.coords t) (iblk2 V c 0 t) (iblk2 V c 1 t)
      (sAt2 V c (t.val - 1) (Nat.lt_of_le_of_lt (Nat.sub_le _ _) t.isLt)) := by
  obtain ⟨n, hn⟩ := t
  cases n with
  | zero => exact absurd (Nat.zero_mod _) h
  | succ n => exact if_neg h

/-! ## The region's invariant -/

/-- The scratch accumulator: a whole scoped buffer of the kernel's own, passed to the body beside the windows. -/
abbrev scM2 : Memref sig .tc .vmem S1024x256 .f32 := Memref.whole cc2_scratch0

/-- The core's scoped buffers that are no staging buffer, with the accumulator split off as a memref owned at some
    contents. -/
theorem scopedRest2_scratch (c : Dev nD) :
    (Pipeline.scopedRest (Ix := Unit) (Name := ℕ) (U := UR sig nD τ) (Lvl := ℕ) (Val := Elt F) spec2 c : sProp 𝕄)
      = iprop((∃ d, owns (c : Thread nD τ) scM2 fullShare d)
          ∗ Pipeline.scopedRestBut (Ix := Unit) (Name := ℕ) (U := UR sig nD τ) (Lvl := ℕ) (Val := Elt F) spec2 c [cc2_scratch0]) := by
  rw [scopedRest2_split]; simp only [scM2, owns_whole]
  rfl

/-- The invariant before position `n`: the generator register at some state and the scoped rest — before the first point
    with the accumulator at anything, afterwards with the accumulator at what the point before left in it. -/
def Phi2 (c : Dev nD) : (n : ℕ) → n ≤ cfg2.N → sProp 𝕄
  | 0, _ => iprop((∃ r, prngReg c r)
      ∗ Pipeline.scopedRest (Ix := Unit) (Name := ℕ) (U := UR sig nD τ) (Lvl := ℕ) (Val := Elt F) spec2 c)
  | n + 1, hn => iprop((∃ r, prngReg c r) ∗ owns (c : Thread nD τ) scM2 fullShare (sAt2 V c n hn)
      ∗ Pipeline.scopedRestBut (Ix := Unit) (Name := ℕ) (U := UR sig nD τ) (Lvl := ℕ) (Val := Elt F) spec2 c [cc2_scratch0])

theorem Phi2_zero (c : Dev nD) (n : ℕ) (h : n ≤ cfg2.N) (hz : n = 0) :
    Phi2 V c n h = iprop((∃ r, prngReg c r)
      ∗ Pipeline.scopedRest (Ix := Unit) (Name := ℕ) (U := UR sig nD τ) (Lvl := ℕ) (Val := Elt F) spec2 c) := by
  subst hz; rfl

theorem Phi2_succ (c : Dev nD) (n : ℕ) (hn : n < cfg2.N) :
    Phi2 V c (n + 1) hn = iprop((∃ r, prngReg c r) ∗ owns (c : Thread nD τ) scM2 fullShare (sAt2 V c n hn)
      ∗ Pipeline.scopedRestBut (Ix := Unit) (Name := ℕ) (U := UR sig nD τ) (Lvl := ℕ) (Val := Elt F) spec2 c [cc2_scratch0]) := rfl

theorem Phi2_pos (c : Dev nD) (n : ℕ) (h : n ≤ cfg2.N) (hz : n ≠ 0) :
    Phi2 V c n h = iprop((∃ r, prngReg c r) ∗ owns (c : Thread nD τ) scM2 fullShare (sAt2 V c (n - 1) (by omega))
      ∗ Pipeline.scopedRestBut (Ix := Unit) (Name := ℕ) (U := UR sig nD τ) (Lvl := ℕ) (Val := Elt F) spec2 c [cc2_scratch0]) := by
  cases n with
  | zero => exact absurd rfl hz
  | succ n => rfl

/-! ## The pipeline's proof data -/

/-- The proof data of pipeline 2 on core `c`: the arrays as the region finds them; after the body at point `t` each
    input's buffer at its block, the output's at the finalized block of the accumulator after `t` (what the last
    contraction step stores; at the other points the window is idle and this is not consulted); the invariant `Phi2`;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => fin2 (grid2.coords t) (iblk2 V c 1 t) (iblk2 V c 2 t) (iblk2 V c 3 t) (iblk2 V c 4 t) (iblk2 V c 5 t)
        (iblk2 V c 6 t) (iblk2 V c 7 t) (sAt2 V c t.val t.isLt)
  Φ t := Phi2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The proof data's shares, tallies and recorded pairs, projected. -/
theorem q_eq2 (c : Dev nD) (w : Fin cfg2.W) : (dat2 V c).q w = fullShare := by dsimp only [dat2]
theorem owed_eq2 (c : Dev nD) (t : Fin (cfg2.N + 1)) : (dat2 V c).owed t = 0 := by dsimp only [dat2]
theorem recorded_eq2 (c : Dev nD) (t : Fin (cfg2.N + 1)) : (dat2 V c).recorded t = Set.univ := rfl

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) :
    (dat2 V c).after 8 t = fin2 (grid2.coords t) (iblk2 V c 1 t) (iblk2 V c 2 t) (iblk2 V c 3 t) (iblk2 V c 4 t)
      (iblk2 V c 5 t) (iblk2 V c 6 t) (iblk2 V c 7 t) (sAt2 V c t.val t.isLt) := by dsimp only [dat2]

/-- WHAT A FLUSHING POINT WRITES BACK: at the last contraction step of a row block the output block is the finalized
    block — the divide by degree, the two dense maps, bias and rectifier — of the accumulator after
    that point and of the resident operands' blocks there. -/
theorem after2_8_last (c : Dev nD) (t : Fin cfg2.N) (hk : t.val % 4 = 3) :
    (dat2 V c).after 8 t = fin2 (grid2.coords t) (iblk2 V c 1 t) (iblk2 V c 2 t) (iblk2 V c 3 t) (iblk2 V c 4 t)
      (iblk2 V c 5 t) (iblk2 V c 6 t) (iblk2 V c 7 t) (sAt2 V c t.val t.isLt) := after2_8 V c t

/-- The invariant at a point's start, restated at the point's position. -/
theorem Phi2_castSucc (c : Dev nD) (t : Fin cfg2.N) :
    (dat2 V c).Φ t.castSucc = Phi2 V c t.val (Nat.le_of_lt t.isLt) := by
  dsimp only [dat2]; simp only [Fin.coe_castSucc]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-! ## The body obligation, at a generic point -/

/-- What the body is called with at point `t`: the invariant, the core's tallies, the windows' current buffers one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns: the inputs' buffers at their blocks, the output's at what the point leaves (the finalized block at
    a last contraction step; as found elsewhere). -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ (dat2 V c).leavesExact 8 t)

set_option maxHeartbeats 4000000 in
/-- The body at any point. The inputs' memrefs hold their blocks; the position mod 4 says which contraction step the
    point is. At a last step the invariant hands over the accumulator at what the point before left, the body adds this
    step, finalizes and stores the output block. At a first step the accumulator — at anything before the first point, at
    the previous row block's finished sum later, forgotten either way — restarts from the zero block. At a middle step it
    goes on from what the point before left. Off the last step the output's buffer goes back as found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [after2_0, after2_1, after2_2, after2_3, after2_4, after2_5, after2_6, after2_7]
  rw [show (dat2 V c).owesAt () t.succ = (dat2 V c).owesAt () t.castSucc from rfl]
  rw [show (dat2 V c).Φ t.succ = Phi2 V c (t.val + 1) t.isLt from rfl, Phi2_succ, Phi2_castSucc]
  have hN : t.val < 32 := lt_of_lt_of_eq t.isLt (show cfg2.N = 32 from N_2)
  by_cases h3 : t.val % 4 = 3
  · -- the last contraction step of the row block
    have hc1 : cond2_1 (grid2.coords t) := (hcond2_1 t).mpr h3
    have hc0 : ¬cond2_0 (grid2.coords t) := fun h => by have := (hcond2_0 t).mp h; omega
    have hz : t.val ≠ 0 := by omega
    have h0 : ¬t.val % 4 = 0 := by omega
    rw [show (dat2 V c).leavesExact 8 t = owns (c : Thread nD τ) (st2_8 t) fullShare ((dat2 V c).after 8 t) from by
      unfold Dat.leavesExact; rw [liveAt2_8 t hc1], after2_8]
    rw [Phi2_pos V c _ _ hz, sAt2_next V c t h0]
    iintro ⟨⟨Hg, HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run2_last c Set.univ (grid2.coords t) _ _ _ _ _ _ _ _ _ _ _ _ _ _ _ _ _ _ _ _ hc0 hc1
      (iblk2 V c 0 t) (iblk2 V c 1 t) (iblk2 V c 2 t) (iblk2 V c 3 t) (iblk2 V c 4 t) (iblk2 V c 5 t) (iblk2 V c 6 t)
      (iblk2 V c 7 t) (sAt2 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexact HS
    iintro ⟨H0, H1, H2, H3, H4, H5, H6, H7, H8, HS⟩
    isplitl [Hg HS Hrest]
    · isplitl [Hg]; · iexact Hg
      isplitl [HS]; · iexact HS
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc1 : ¬cond2_1 (grid2.coords t) := fun h => h3 ((hcond2_1 t).mp h)
    rw [Dat.leavesExact_idle (dat2 V c) 8 t (idleAt2_8 t hc1) (noFlush2_8 t hc1)]
    by_cases h0 : t.val % 4 = 0
    · -- the first contraction step of the row block
      have hc0 : cond2_0 (grid2.coords t) := (hcond2_0 t).mpr h0
      rw [sAt2_first V c t h0]
      by_cases hz : t.val = 0
      · rw [Phi2_zero V c _ _ hz, scopedRest2_scratch]
        iintro ⟨⟨Hg, HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply (run2_first c Set.univ (grid2.coords t) _ _ _ _ _ _ _ _ _ _ _ _ _ _ _ _ _ _ _ _ hc0 hc1
          (iblk2 V c 0 t) (iblk2 V c 1 t) _)
        isplitl [H0]; · iexact H0
        isplitl [H1]; · iexact H1
        isplitl [HS]; · iexact HS
        iintro ⟨H0, H1, HS⟩
        isplitl [Hg HS Hrest]
        · isplitl [Hg]; · iexact Hg
          isplitl [HS]; · iexact HS
          iexact Hrest
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
      · rw [Phi2_pos V c _ _ hz]
        iintro ⟨⟨Hg, HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply (run2_first c Set.univ (grid2.coords t) _ _ _ _ _ _ _ _ _ _ _ _ _ _ _ _ _ _ _ _ hc0 hc1
          (iblk2 V c 0 t) (iblk2 V c 1 t) _)
        isplitl [H0]; · iexact H0
        isplitl [H1]; · iexact H1
        isplitl [HS]; · iexists _; iexact HS
        iintro ⟨H0, H1, HS⟩
        isplitl [Hg HS Hrest]
        · isplitl [Hg]; · iexact Hg
          isplitl [HS]; · iexact HS
          iexact Hrest
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
    · -- a middle contraction step
      have hc0 : ¬cond2_0 (grid2.coords t) := fun h => h0 ((hcond2_0 t).mp h)
      have hz : t.val ≠ 0 := fun e => h0 (by rw [e])
      rw [Phi2_pos V c _ _ hz, sAt2_next V c t h0]
      iintro ⟨⟨Hg, HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run2_mid c Set.univ (grid2.coords t) _ _ _ _ _ _ _ _ _ _ _ _ _ _ _ _ _ _ _ _ hc0 hc1
        (iblk2 V c 0 t) (iblk2 V c 1 t) (sAt2 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [Hg HS Hrest]
      · isplitl [Hg]; · iexact Hg
        isplitl [HS]; · iexact HS
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The two ends of the invariant -/

/-- What the region is entered with — the generator register and the scoped rest, the accumulator at anything — is the
    invariant before the first point. -/
theorem Φ0_in2 (c : Dev nD) :
    iprop((∃ r, prngReg c r) ∗ Pipeline.scopedRest (Ix := Unit) (Name := ℕ) (U := UR sig nD τ) (Lvl := ℕ) (Val := Elt F) spec2 c)
      ⊢ ((dat2 V c).Φ 0 : sProp 𝕄) := by
  rw [show (dat2 V c).Φ 0 = Phi2 V c 0 (Nat.zero_le _) from rfl, Phi2_zero V c 0 _ rfl]

/-- After the last point the invariant gives them back: the accumulator's named contents are forgotten. -/
theorem Φlast_out2 (c : Dev nD) :
    (dat2 V c).Φ (Fin.last cfg2.N)
      ⊢ (iprop((∃ r, prngReg c r) ∗ Pipeline.scopedRest (Ix := Unit) (Name := ℕ) (U := UR sig nD τ) (Lvl := ℕ) (Val := Elt F) spec2 c) : sProp 𝕄) := by
  have hN : cfg2.N ≠ 0 := by have : cfg2.N = 32 := N_2; omega
  rw [show (dat2 V c).Φ (Fin.last cfg2.N) = Phi2 V c cfg2.N (Nat.le_refl _) from rfl, Phi2_pos V c _ _ hN, scopedRest2_scratch]
  iintro ⟨Hg, HS, Hrest⟩
  isplitl [Hg]; · iexact Hg
  isplitl [HS]; · iexists _; iexact HS
  iexact Hrest

end Region2

end Cert.KernelIdeal.Gen
end
-- ==== Proof.Run.lean ====
import proofs.«407196_j36060545417339_2_alg».proof.Proof.Gen.KernelIdeal.Regions
import proofs.«407196_j36060545417339_2_alg».proof.Proof.R3
import proofs.«407196_j36060545417339_2_alg».proof.Proof.R0
import proofs.«407196_j36060545417339_2_alg».proof.Proof.R1
import proofs.«407196_j36060545417339_2_alg».proof.Proof.R2
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev U1 : (c : Dev nD) → (b : Ref sig .tc) → Buf (Elt F) ((c : Thread nD τ).loc b) := fun c b => V1 m c b

def o2 (c : Dev nD) : Valuation τ sig (Elt F) :=
  Pipeline.withArrays spec0 c (V1 m c) fun w => (dat0 (U1 m) c).arrAt w cfg0.N

def outsA : Outs (F := F) := fun _ r c => o2 m c r
abbrev U5 : (c : Dev nD) → (b : Ref sig .tc) → Buf (Elt F) ((c : Thread nD τ).loc b) := fun c b => V5 m (outsA m) c b
def o6 (c : Dev nD) : Valuation τ sig (Elt F) :=
  Pipeline.withArrays spec1 c (V5 m (outsA m) c) fun w => (dat1 (U5 m) c).arrAt w cfg1.N
def outsB : Outs (F := F) := fun J r c => match J with
  | 2 => o2 m c r
  | _ => o6 m c r
abbrev U7 : (c : Dev nD) → (b : Ref sig .tc) → Buf (Elt F) ((c : Thread nD τ).loc b) := fun c b => V7 m (outsB m) c b
def o8 (c : Dev nD) : Valuation τ sig (Elt F) :=
  Pipeline.withArrays spec2 c (V7 m (outsB m) c) fun w => (dat2 (U7 m) c).arrAt w cfg2.N
def outsC : Outs (F := F) := fun J r c => match J with
  | 2 => o2 m c r
  | 6 => o6 m c r
  | _ => o8 m c r
abbrev U9 : (c : Dev nD) → (b : Ref sig .tc) → Buf (Elt F) ((c : Thread nD τ).loc b) := fun c b => V9 m (outsC m) c b
def o10 (c : Dev nD) : Valuation τ sig (Elt F) :=
  Pipeline.withArrays spec3 c (V9 m (outsC m) c) fun w => (dat3 (U9 m) c).arrAt w cfg3.N

def outs : Outs (F := F) := fun J r c => match J with
  | 2 => o2 m c r
  | 6 => o6 m c r
  | 8 => o8 m c r
  | _ => o10 m c r

theorem V5_outs (c : Dev nD) : V5 m (outs m) c = V5 m (outsA m) c := rfl
theorem V7_outs (c : Dev nD) : V7 m (outs m) c = V7 m (outsB m) c := rfl
theorem V9_outs (c : Dev nD) : V9 m (outs m) c = V9 m (outsC m) c := rfl

def pdats : (p : Fin 4) → (c : Dev nD) → Dat τ (Elt F) Unit ℕ (UR sig nD τ) ℕ (cfgs p) c
  | ⟨0, _⟩ => fun c => dat0 (U1 m) c
  | ⟨1, _⟩ => fun c => dat1 (U5 m) c
  | ⟨2, _⟩ => fun c => dat2 (U7 m) c
  | ⟨3, _⟩ => fun c => dat3 (U9 m) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev E : Fin 5 → Dev nD → sProp 𝕄 := fun _ c => R c

theorem upd_withArrays {gr W : Nat} (win : Fin W → Pipeline.WinSpec sig gr) (hinj : Function.Injective (Pipeline.arrRef win))
    (c : Dev nD) (V : Valuation τ sig (Elt F)) (A : (w : Fin W) → Buf (Elt F) ((win w).arr.view.loc (c.tc : Thread nD τ)))
    (wout : Fin W) (hin : ∀ w, w ≠ wout → A w = V (Proc.devRef .tc (Pipeline.arrRef win w))) (w : Fin W) :
    A w = Function.update V (Proc.devRef .tc (Pipeline.arrRef win wout))
      (Pipeline.withArrays win c V A (Proc.devRef .tc (Pipeline.arrRef win wout))) (Proc.devRef .tc (Pipeline.arrRef win w)) := by
  by_cases h : w = wout
  · subst h
    rw [Function.update_self]
    exact (Pipeline.withArrays_arr win hinj c V A w).symm
  · rw [Function.update_of_ne (fun e => h (hinj (Proc.devRef_injective _ e)))]
    exact hin w h

end Cert.KernelIdeal.Gen

end
-- ==== Proof.Reg0.lean ====
import proofs.«407196_j36060545417339_2_alg».proof.Proof.Run

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem hF0 (c : Dev nD) (w : Fin cfg0.W) :
    (dat0 (U1 m) c).arrAt w cfg0.N = (fun b : Ref sig .tc => V2 m (outs m) c b) (Pipeline.arrRef spec0 w) :=
  upd_withArrays spec0 launch0.win.arr_inj c (V1 m c) (fun w => (dat0 (U1 m) c).arrAt w cfg0.N) 8
    (fun w hw => ((dat0 (U1 m) c).arrAt_in w ((by decide : ∀ w : Fin cfg0.W, w ≠ 8 → (cfg0.win w).isOut = false) w hw) _).trans
      (A_eq0 (U1 m) c w)) w

theorem hrest0 (c : Dev nD) : ∀ b : Ref sig .tc, b ∉ Finset.univ.image (Pipeline.arrRef spec0) →
    (fun b : Ref sig .tc => V2 m (outs m) c b) b = (fun b : Ref sig .tc => V1 m c b) b := fun b hb => by
  show Function.update (V1 m c) (Proc.devRef .tc main_v43) _ (Proc.devRef .tc b) = _
  rw [Function.update_of_ne (StableHlo.devRef_ne_of_ne fun e => hb (Finset.mem_image.mpr ⟨8, Finset.mem_univ _, e.symm⟩))]

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun c t => owed_eq0 (U1 m) c t
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun w => q_eq0 (U1 m) c w) (U1 m c) fun w => A_eq0 (U1 m) c w
    rw [Pipeline.unscopedBufs_held] at hsplit
    replace hsplit : StableHlo.held (c : Thread nD τ) (Pipeline.ucRefs τ sig) (V1 m c) ⊢ _ := hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [show (pdats m 0 c).recorded 0 = Set.univ from recorded_eq0 (U1 m) c 0]; trivial)
      rw [show (pdats m 0 c).owed 0 = 0 from owed_eq0 (U1 m) c 0]
      iexact HO
    isplitl [Hp]; · iexact Hp
    iexact Hrest
  hin c := by
    rw [show (pdats m 0 c).Φ 0 = (dat0 (U1 m) c).Φ 0 from rfl]
    iintro ⟨Hp, -, Hr⟩
    iapply (Φ0_in0 (U1 m) c)
    isplitl [Hp]; · iexact Hp
    iexact Hr
  hout c := by
    rw [Pipeline.ownSems0_none, show (pdats m 0 c).Φ (Fin.last _) = (dat0 (U1 m) c).Φ (Fin.last cfg0.N) from rfl]
    iintro HΦ
    ihave H := (Φlast_out0 (U1 m) c) $$ HΦ
    icases H with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => q_eq0 (U1 m) c w)
      (U1 m c) (fun b : Ref sig .tc => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 0 c).owed (Fin.last _) = 0 from owed_eq0 (U1 m) c _]
    iexact HO

end Cert.KernelIdeal.Gen

end
-- ==== Proof.Reg1.lean ====
/-
  Region 1 of @main as a segment of the run: what its arrays hold when it is left, and the region entered from and left
  at the boundary contents with the generator register and nothing owed beside them.
-/
import proofs.«407196_j36060545417339_2_alg».proof.Proof.Run

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Region 1's arrays after its last point are what the next boundary holds: the output array at the write-backs,
    each input array as entered. -/
theorem hF1 (c : Dev nD) (w : Fin cfg1.W) :
    (dat1 (U5 m) c).arrAt w cfg1.N = (fun b : Ref sig .tc => V6 m (outs m) c b) (Pipeline.arrRef spec1 w) :=
  upd_withArrays spec1 launch1.win.arr_inj c (V5 m (outs m) c) (fun w => (dat1 (U5 m) c).arrAt w cfg1.N) 8
    (fun w hw => ((dat1 (U5 m) c).arrAt_in w ((by decide : ∀ w : Fin cfg1.W, w ≠ 8 → (cfg1.win w).isOut = false) w hw) _).trans
      (A_eq1 (U5 m) c w)) w
/-- Every buffer that is no array of region 1 is left as entered. -/
theorem hrest1 (c : Dev nD) : ∀ b : Ref sig .tc, b ∉ Finset.univ.image (Pipeline.arrRef spec1) →
    (fun b : Ref sig .tc => V6 m (outs m) c b) b = (fun b : Ref sig .tc => V5 m (outs m) c b) b := fun b hb => by
  show Function.update (V5 m (outs m) c) (Proc.devRef .tc main_v64) _ (Proc.devRef .tc b) = _
  rw [Function.update_of_ne (StableHlo.devRef_ne_of_ne fun e => hb (Finset.mem_image.mpr ⟨8, Finset.mem_univ _, e.symm⟩))]

set_option backward.isDefEq.respectTransparency.types false in
/-- Region 1 over the thread state: entered from every unscoped buffer at the contents before it, left at the contents
    after it. Its arrays are split out of the unscoped buffers at entry and put back, at what the pipeline leaves, at
    exit; the generator register goes into the region's invariant and comes back; nothing is owed; the kernel has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U5 m) c).loose
  hwaits := Pipeline.hwaits_of_owed_zero _ _ _ _ L lv 1 fun c t => owed_eq1 (U5 m) c t
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (U5 m c)
  hentry c := by
    rw [Pipeline.ownSems0_none]
    have hsplit := Pipeline.arrays_of_unscopedBufs (p := 1) (pcfgs (F := F)) adm (pdats m) launch1.win launch1.arr_whole c
      ((pdats m 1 c).share_full fun w => q_eq1 (U5 m) c w) (U5 m c) fun w => A_eq1 (U5 m) c w
    rw [Pipeline.unscopedBufs_held] at hsplit
    replace hsplit : StableHlo.held (c : Thread nD τ) (Pipeline.ucRefs τ sig) (V5 m (outs m) c) ⊢ _ := hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [show (pdats m 1 c).recorded 0 = Set.univ from recorded_eq1 (U5 m) c 0]; trivial)
      rw [show (pdats m 1 c).owed 0 = 0 from owed_eq1 (U5 m) c 0]
      iexact HO
    isplitl [Hp]; · iexact Hp
    iexact Hrest
  hin c := by
    rw [show (pdats m 1 c).Φ 0 = (dat1 (U5 m) c).Φ 0 from rfl]
    iintro ⟨Hp, -, Hr⟩
    iapply (Φ0_in1 (U5 m) c)
    isplitl [Hp]; · iexact Hp
    iexact Hr
  hout c := by
    rw [Pipeline.ownSems0_none, show (pdats m 1 c).Φ (Fin.last _) = (dat1 (U5 m) c).Φ (Fin.last cfg1.N) from rfl]
    iintro HΦ
    ihave H := (Φlast_out1 (U5 m) c) $$ HΦ
    icases H with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => q_eq1 (U5 m) c w)
      (U5 m c) (fun b : Ref sig .tc => V6 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 1 c).owed (Fin.last _) = 0 from owed_eq1 (U5 m) c _]
    iexact HO

end Cert.KernelIdeal.Gen

end
-- ==== Proof.Reg2.lean ====
/-
  Region 2 of @main as a segment of the run: what its arrays hold when it is left, and the region entered from and left
  at the boundary contents with the generator register and nothing owed beside them.
-/
import proofs.«407196_j36060545417339_2_alg».proof.Proof.Run

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Region 2's arrays after its last point are what the next boundary holds: the output array at the write-backs,
    each input array as entered. -/
theorem hF2 (c : Dev nD) (w : Fin cfg2.W) :
    (dat2 (U7 m) c).arrAt w cfg2.N = (fun b : Ref sig .tc => V8 m (outs m) c b) (Pipeline.arrRef spec2 w) :=
  upd_withArrays spec2 launch2.win.arr_inj c (V7 m (outs m) c) (fun w => (dat2 (U7 m) c).arrAt w cfg2.N) 8
    (fun w hw => ((dat2 (U7 m) c).arrAt_in w ((by decide : ∀ w : Fin cfg2.W, w ≠ 8 → (cfg2.win w).isOut = false) w hw) _).trans
      (A_eq2 (U7 m) c w)) w
/-- Every buffer that is no array of region 2 is left as entered. -/
theorem hrest2 (c : Dev nD) : ∀ b : Ref sig .tc, b ∉ Finset.univ.image (Pipeline.arrRef spec2) →
    (fun b : Ref sig .tc => V8 m (outs m) c b) b = (fun b : Ref sig .tc => V7 m (outs m) c b) b := fun b hb => by
  show Function.update (V7 m (outs m) c) (Proc.devRef .tc main_v72) _ (Proc.devRef .tc b) = _
  rw [Function.update_of_ne (StableHlo.devRef_ne_of_ne fun e => hb (Finset.mem_image.mpr ⟨8, Finset.mem_univ _, e.symm⟩))]

set_option backward.isDefEq.respectTransparency.types false in
/-- Region 2 over the thread state: entered from every unscoped buffer at the contents before it, left at the contents
    after it. Its arrays are split out of the unscoped buffers at entry and put back, at what the pipeline leaves, at
    exit; the generator register goes into the region's invariant and comes back; nothing is owed; the kernel has no
    semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U7 m) c).loose
  hwaits := Pipeline.hwaits_of_owed_zero _ _ _ _ L lv 2 fun c t => owed_eq2 (U7 m) c t
  pre c := iprop(StableHlo.held (c : Thread nD τ) (Pipeline.ucRefs τ sig) (V7 m (outs m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec2 c (U7 m c)
  hentry c := by
    rw [Pipeline.ownSems0_none]
    have hsplit := Pipeline.arrays_of_unscopedBufs (p := 2) (pcfgs (F := F)) adm (pdats m) launch2.win launch2.arr_whole c
      ((pdats m 2 c).share_full fun w => q_eq2 (U7 m) c w) (U7 m c) fun w => A_eq2 (U7 m) c w
    rw [Pipeline.unscopedBufs_held] at hsplit
    replace hsplit : StableHlo.held (c : Thread nD τ) (Pipeline.ucRefs τ sig) (V7 m (outs m) c) ⊢ _ := hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [show (pdats m 2 c).recorded 0 = Set.univ from recorded_eq2 (U7 m) c 0]; trivial)
      rw [show (pdats m 2 c).owed 0 = 0 from owed_eq2 (U7 m) c 0]
      iexact HO
    isplitl [Hp]; · iexact Hp
    iexact Hrest
  hin c := by
    rw [show (pdats m 2 c).Φ 0 = (dat2 (U7 m) c).Φ 0 from rfl]
    iintro ⟨Hp, -, Hr⟩
    iapply (Φ0_in2 (U7 m) c)
    isplitl [Hp]; · iexact Hp
    iexact Hr
  hout c := by
    rw [Pipeline.ownSems0_none, show (pdats m 2 c).Φ (Fin.last _) = (dat2 (U7 m) c).Φ (Fin.last cfg2.N) from rfl]
    iintro HΦ
    ihave H := (Φlast_out2 (U7 m) c) $$ HΦ
    icases H with ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun w => q_eq2 (U7 m) c w)
      (U7 m c) (fun b : Ref sig .tc => V8 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 2 c).owed (Fin.last _) = 0 from owed_eq2 (U7 m) c _]
    iexact HO

end Cert.KernelIdeal.Gen

end
-- ==== Proof.Reg3.lean ====
/-
  Region 3 of @main as a segment of the run: what its arrays hold when it is left, and the region entered from and left
  at the boundary contents with the generator register and nothing owed beside them.
-/
import proofs.«407196_j36060545417339_2_alg».proof.Proof.Run

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Region 3's arrays after its last point are what the next boundary holds: the output array at the write-backs,
    each input array as entered. -/
theorem hF3 (c : Dev nD) (w : Fin cfg3.W) :
    (dat3 (U9 m) c).arrAt w cfg3.N = (fun b : Ref sig .tc => V10 m (outs m) c b) (Pipeline.arrRef spec3 w) :=
  upd_withArrays spec3 launch3.win.arr_inj c (V9 m (outs m) c) (fun w => (dat3 (U9 m) c).arrAt w cfg3.N) 4
    (fun w hw => ((dat3 (U9 m) c).arrAt_in w ((by decide : ∀ w : Fin cfg3.W, w ≠ 4 → (cfg3.win w).isOut = false) w hw) _).trans
      (A_eq3 (U9 m) c w)) w
/-- Every buffer that is no array of region 3 is left as entered. -/
theorem hrest3 (c : Dev nD) : ∀ b : Ref sig .tc, b ∉ Finset.univ.image (Pipeline.arrRef spec3) →
    (fun b : Ref sig .tc => V10 m (outs m) c b) b = (fun b : Ref sig .tc => V9 m (outs m) c b) b := fun b hb => by
  show Function.update (V9 m (outs m) c) (Proc.devRef .tc main_v75) _ (Proc.devRef .tc b) = _
  rw [Function.update_of_ne (StableHlo.devRef_ne_of_ne fun e => hb (Finset.mem_image.mpr ⟨4, Finset.mem_univ _, e.symm⟩))]

set_option backward.isDefEq.respectTransparency.types false in
/-- Region 3 over the thread state: entered from every unscoped buffer at the contents before it, left at the contents
    after it. Its arrays are split out of the unscoped buffers at entry and put back, at what the pipeline leaves, at
    exit; the generator register goes into the region's invariant and comes back; nothing is owed; the kernel has no
    semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U9 m) c).loose
  hwaits := Pipeline.hwaits_of_owed_zero _ _ _ _ L lv 3 fun c t => owed_eq3 (U9 m) c t
  pre c := iprop(StableHlo.held (c : Thread nD τ) (Pipeline.ucRefs τ sig) (V9 m (outs m) c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec3 c (U9 m c)
  hentry c := by
    rw [Pipeline.ownSems0_none]
    have hsplit := Pipeline.arrays_of_unscopedBufs (p := 3) (pcfgs (F := F)) adm (pdats m) launch3.win launch3.arr_whole c
      ((pdats m 3 c).share_full fun w => q_eq3 (U9 m) c w) (U9 m c) fun w => A_eq3 (U9 m) c w
    rw [Pipeline.unscopedBufs_held] at hsplit
    replace hsplit : StableHlo.held (c : Thread nD τ) (Pipeline.ucRefs τ sig) (V9 m (outs m) c) ⊢ _ := hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [show (pdats m 3 c).recorded 0 = Set.univ from recorded_eq3 (U9 m) c 0]; trivial)
      rw [show (pdats m 3 c).owed 0 = 0 from owed_eq3 (U9 m) c 0]
      iexact HO
    isplitl [Hp]; · iexact Hp
    iexact Hrest
  hin c := by
    rw [show (pdats m 3 c).Φ 0 = (dat3 (U9 m) c).Φ 0 from rfl]
    iintro ⟨Hp, -, Hr⟩
    iapply (Φ0_in3 (U9 m) c)
    isplitl [Hp]; · iexact Hp
    iexact Hr
  hout c := by
    rw [Pipeline.ownSems0_none, show (pdats m 3 c).Φ (Fin.last _) = (dat3 (U9 m) c).Φ (Fin.last cfg3.N) from rfl]
    iintro HΦ
    ihave H := (Φlast_out3 (U9 m) c) $$ HΦ
    icases H with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun w => q_eq3 (U9 m) c w)
      (U9 m c) (fun b : Ref sig .tc => V10 m (outs m) c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 3 c).owed (Fin.last _) = 0 from owed_eq3 (U9 m) c _]
    iexact HO

end Cert.KernelIdeal.Gen

end
-- ==== Proof.RunAll.lean ====
import proofs.«407196_j36060545417339_2_alg».proof.Proof.Reg0
import proofs.«407196_j36060545417339_2_alg».proof.Proof.Reg1
import proofs.«407196_j36060545417339_2_alg».proof.Proof.Reg2
import proofs.«407196_j36060545417339_2_alg».proof.Proof.Reg3

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L lv)
    ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_cond m emb₁ () 𝒱₀ L lv (fun _ _ => rfl) ρ (outs m) (pdats m) 0 (fun _ => (BI.emp : sProp 𝕄))
    (initOf (Pipeline.cells cfgs cellOf_inj) (Pipeline.launchToks cfgs cellOf_inj)) hu₀ E (hE0 ρ)
    (fun c => by iintro ⟨-, H⟩; iexact H)
    (reg0 m) (fun _ => .rfl) (fun _ => .rfl) (reg1 m) (fun _ => .rfl) (fun _ => .rfl)
    (reg2 m) (fun _ => .rfl) (fun _ => .rfl) (reg3 m) (fun _ => .rfl) (fun _ => .rfl)

theorem V10_result (c : Dev nD) :
    V10 m (outs m) c (Proc.devRef .tc main_v75) = (dat3 (U9 m) c).arrAt 4 cfg3.N := by
  show Function.update (V9 m (outs m) c) (Proc.devRef .tc main_v75) (o10 m c (Proc.devRef .tc main_v75)) (Proc.devRef .tc main_v75) = _
  rw [Function.update_self]
  unfold o10; exact Pipeline.withArrays_arr spec3 launch3.win.arr_inj c _ _ 4

set_option backward.isDefEq.respectTransparency.types false in
theorem run_val : θ_run defs (onTc (τ := τ) (main (F := F))) ⟨m, fun _ => 0, ρ⟩ (fun r => ∀ c : Dev nD,
      r.2.mem ((c.tc : Thread nD τ).loc main_v75) = (dat3 (U9 m) c).arrAt 4 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) := by
  refine Pipeline.θ_run_regions_kit_dev (pcfgs (F := F)) adm (pdats m) () cellOf_inj emb₁ defs₀ 𝒱₀ L lv m ρ main
    (segs m (outs m) 𝒱₀ L lv E () (pdats m) (reg0 m) (reg1 m) (reg2 m) (reg3 m))
    (fun c Q => by
      rewrite [main_chain c, Seg.run_eq_chain,
        show (segs m (outs m) 𝒱₀ L lv E () (pdats m) (reg0 m) (reg1 m) (reg2 m) (reg3 m) c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [segs, Seg.pipes_host, Seg.pipes_region, Seg.pipes_nil]; decide) 0 (fun _ _ => rfl)
    (fun _ => (BI.emp : sProp 𝕄)) (initOf (Pipeline.cells cfgs cellOf_inj) (Pipeline.launchToks cfgs cellOf_inj)) hu₀
    (T₀ := fun c => iprop(StableHlo.held (c : Thread nD τ) (Pipeline.ucRefs τ sig) (V0 m c) ∗ E 0 c))
    (Tₙ := fun c => StableHlo.held (c : Thread nD τ) (Pipeline.ucRefs τ sig) (V10 m (outs m) c))
    (hch := fun c => ⟨.rfl, .rfl, .rfl, .rfl, .rfl, .rfl, .rfl, .rfl, .rfl, .rfl,
      (show (reg3 m).post c ⊢ _ from sep_mono .rfl (by iintro ⟨-, H⟩; iexact H))⟩)
    (hinit := ?_)
    (QY := fun c s => s.mem ((c.tc : Thread nD τ).loc main_v75) = (dat3 (U9 m) c).arrAt 4 cfg3.N ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17) ∧ s.mem ((c.tc : Thread nD τ).loc main_arg18) = m ((c.tc : Thread nD τ).loc main_arg18) ∧ s.mem ((c.tc : Thread nD τ).loc main_arg19) = m ((c.tc : Thread nD τ).loc main_arg19) ∧ s.mem ((c.tc : Thread nD τ).loc main_arg20) = m ((c.tc : Thread nD τ).loc main_arg20))
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 (F := F) ρ) $$ [Hr Hla] with HE
    · isplitl [Hr]; · iexact Hr
      iexact Hla
    imodintro
    rw [bigSep_sep' Finset.univ (fun c : Dev nD => StableHlo.held (c : Thread nD τ) (Pipeline.ucRefs τ sig) (V0 m c)) (E (F := F) 0)]
    isplitl [Hh]; · iexact Hh
    iexact HE
  · unfold StableHlo.held
    iintro ⟨Hh, HSI⟩
    ihave Hr := (pointsTo_read_all (Pipeline.ucRefs τ sig) (fun b => ((c : Thread nD τ).1, b)) (V10 m (outs m) c) s') $$ [Hh HSI]
    · isplitl [Hh] <;> iassumption
    icases Hr with ⟨%h, HSI⟩
    imodintro
    isplitr
    · ipureintro
      exact ⟨(h (Proc.devRef .tc main_v75) (Finset.mem_filter.mpr ⟨StableHlo.devRef_mem_tcRefs main_v75, by decide⟩)).trans (V10_result m c),
        (h (Proc.devRef .tc main_arg0) (Finset.mem_filter.mpr ⟨StableHlo.devRef_mem_tcRefs main_arg0, by decide⟩)).trans (V10_main_arg0 m (outs m) c),
        (h (Proc.devRef .tc main_arg1) (Finset.mem_filter.mpr ⟨StableHlo.devRef_mem_tcRefs main_arg1, by decide⟩)).trans (V10_main_arg1 m (outs m) c),
        (h (Proc.devRef .tc main_arg2) (Finset.mem_filter.mpr ⟨StableHlo.devRef_mem_tcRefs main_arg2, by decide⟩)).trans (V10_main_arg2 m (outs m) c),
        (h (Proc.devRef .tc main_arg3) (Finset.mem_filter.mpr ⟨StableHlo.devRef_mem_tcRefs main_arg3, by decide⟩)).trans (V10_main_arg3 m (outs m) c),
        (h (Proc.devRef .tc main_arg4) (Finset.mem_filter.mpr ⟨StableHlo.devRef_mem_tcRefs main_arg4, by decide⟩)).trans (V10_main_arg4 m (outs m) c),
        (h (Proc.devRef .tc main_arg5) (Finset.mem_filter.mpr ⟨StableHlo.devRef_mem_tcRefs main_arg5, by decide⟩)).trans (V10_main_arg5 m (outs m) c),
        (h (Proc.devRef .tc main_arg6) (Finset.mem_filter.mpr ⟨StableHlo.devRef_mem_tcRefs main_arg6, by decide⟩)).trans (V10_main_arg6 m (outs m) c),
        (h (Proc.devRef .tc main_arg7) (Finset.mem_filter.mpr ⟨StableHlo.devRef_mem_tcRefs main_arg7, by decide⟩)).trans (V10_main_arg7 m (outs m) c),
        (h (Proc.devRef .tc main_arg8) (Finset.mem_filter.mpr ⟨StableHlo.devRef_mem_tcRefs main_arg8, by decide⟩)).trans (V10_main_arg8 m (outs m) c),
        (h (Proc.devRef .tc main_arg9) (Finset.mem_filter.mpr ⟨StableHlo.devRef_mem_tcRefs main_arg9, by decide⟩)).trans (V10_main_arg9 m (outs m) c),
        (h (Proc.devRef .tc main_arg10) (Finset.mem_filter.mpr ⟨StableHlo.devRef_mem_tcRefs main_arg10, by decide⟩)).trans (V10_main_arg10 m (outs m) c),
        (h (Proc.devRef .tc main_arg11) (Finset.mem_filter.mpr ⟨StableHlo.devRef_mem_tcRefs main_arg11, by decide⟩)).trans (V10_main_arg11 m (outs m) c),
        (h (Proc.devRef .tc main_arg12) (Finset.mem_filter.mpr ⟨StableHlo.devRef_mem_tcRefs main_arg12, by decide⟩)).trans (V10_main_arg12 m (outs m) c),
        (h (Proc.devRef .tc main_arg13) (Finset.mem_filter.mpr ⟨StableHlo.devRef_mem_tcRefs main_arg13, by decide⟩)).trans (V10_main_arg13 m (outs m) c),
        (h (Proc.devRef .tc main_arg14) (Finset.mem_filter.mpr ⟨StableHlo.devRef_mem_tcRefs main_arg14, by decide⟩)).trans (V10_main_arg14 m (outs m) c),
        (h (Proc.devRef .tc main_arg15) (Finset.mem_filter.mpr ⟨StableHlo.devRef_mem_tcRefs main_arg15, by decide⟩)).trans (V10_main_arg15 m (outs m) c),
        (h (Proc.devRef .tc main_arg16) (Finset.mem_filter.mpr ⟨StableHlo.devRef_mem_tcRefs main_arg16, by decide⟩)).trans (V10_main_arg16 m (outs m) c),
        (h (Proc.devRef .tc main_arg17) (Finset.mem_filter.mpr ⟨StableHlo.devRef_mem_tcRefs main_arg17, by decide⟩)).trans (V10_main_arg17 m (outs m) c),
        (h (Proc.devRef .tc main_arg18) (Finset.mem_filter.mpr ⟨StableHlo.devRef_mem_tcRefs main_arg18, by decide⟩)).trans (V10_main_arg18 m (outs m) c),
        (h (Proc.devRef .tc main_arg19) (Finset.mem_filter.mpr ⟨StableHlo.devRef_mem_tcRefs main_arg19, by decide⟩)).trans (V10_main_arg19 m (outs m) c),
        (h (Proc.devRef .tc main_arg20) (Finset.mem_filter.mpr ⟨StableHlo.devRef_mem_tcRefs main_arg20, by decide⟩)).trans (V10_main_arg20 m (outs m) c)⟩
    · iexact HSI

end Cert.KernelIdeal.Gen

end
-- ==== Proof.RefRun.lean ====
import proofs.«407196_j36060545417339_2_alg».proof.Proof.Gen.ReferenceIdeal
import Idealize.ShloMosaic.Lib.StableHlo.Run
import Idealize.ShloMosaic.Lib.Pipeline.Frame

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [ StableHlo.unary main_arg20 main_v0 ((extractStridedSlice S1x262144 ![0, 0] · slices_S2x262144_S1x262144_0_0) : (⟨S2x262144, .i32⟩ : BufTy).Contents (Elt F) → (⟨S1x262144, .i32⟩ : BufTy).Contents (Elt F)),
    StableHlo.reshape main_v0 main_v1 rfl shapeCasts_S1x262144_S262144,
    StableHlo.unary main_arg20 main_v2 ((extractStridedSlice S1x262144 ![1, 0] · slices_S2x262144_S1x262144_1_0) : (⟨S2x262144, .i32⟩ : BufTy).Contents (Elt F) → (⟨S1x262144, .i32⟩ : BufTy).Contents (Elt F)),
    StableHlo.reshape main_v2 main_v3 rfl shapeCasts_S1x262144_S262144,
    StableHlo.nary ![main_arg0, main_arg1, main_arg2, main_arg3, main_arg4] main_v4 (fun u => concatenate S8192x160 1 [⟨S8192x32, u 0⟩, ⟨S8192x32, u 1⟩, ⟨S8192x32, u 2⟩, ⟨S8192x32, u 3⟩, ⟨S8192x32, u 4⟩] concatenates_S8192x32_S8192x32_S8192x32_S8192x32_S8192x32_S8192x160_d1),
    StableHlo.nullary main_c (constantI S_ 32 0#32),
    StableHlo.unary main_c main_v5 (broadcastInDim S262144 ![] bcast_S_S262144 : (⟨S_, .i32⟩ : BufTy).Contents (Elt F) → (⟨S262144, .i32⟩ : BufTy).Contents (Elt F)),
    StableHlo.binary main_v1 main_v5 main_v6 (cmpi .slt : (⟨S262144, .i32⟩ : BufTy).Contents (Elt F) → (⟨S262144, .i32⟩ : BufTy).Contents (Elt F) → (⟨S262144, .i1⟩ : BufTy).Contents (Elt F)),
    StableHlo.nullary main_c_0 (constantI S_ 32 8192#32),
    StableHlo.unary main_c_0 main_v7 (broadcastInDim S262144 ![] bcast_S_S262144 : (⟨S_, .i32⟩ : BufTy).Contents (Elt F) → (⟨S262144, .i32⟩ : BufTy).Contents (Elt F)),
    StableHlo.binary main_v1 main_v7 main_v8 (addi : (⟨S262144, .i32⟩ : BufTy).Contents (Elt F) → (⟨S262144, .i32⟩ : BufTy).Contents (Elt F) → (⟨S262144, .i32⟩ : BufTy).Contents (Elt F)),
    StableHlo.ternary main_v6 main_v8 main_v1 main_v9 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v9 main_v10 (broadcastInDim S262144x1 ![0] bcast_S262144_S262144x1_0 : (⟨S262144, .i32⟩ : BufTy).Contents (Elt F) → (⟨S262144x1, .i32⟩ : BufTy).Contents (Elt F)),
    StableHlo.binary main_v4 main_v10 main_v11 ((fun x i => Host.gather gather_S8192x160_S262144x1_S262144x160_1_0_n_n_0_1_1160 x i) : (⟨S8192x160, .f32⟩ : BufTy).Contents (Elt F) → (⟨S262144x1, .i32⟩ : BufTy).Contents (Elt F) → (⟨S262144x160, .f32⟩ : BufTy).Contents (Elt F)),
    StableHlo.nullary main_cst (constant S_ .f32 0x00000000#32),
    StableHlo.unary main_cst main_v12 (broadcastInDim S8192x160 ![] bcast_S_S8192x160 : (⟨S_, .f32⟩ : BufTy).Contents (Elt F) → (⟨S8192x160, .f32⟩ : BufTy).Contents (Elt F)),
    StableHlo.unary main_v3 main_v13 (broadcastInDim S262144x1 ![0] bcast_S262144_S262144x1_0 : (⟨S262144, .i32⟩ : BufTy).Contents (Elt F) → (⟨S262144x1, .i32⟩ : BufTy).Contents (Elt F)),
    StableHlo.ternary main_v12 main_v13 main_v11 main_v14 ((fun x i u => Host.scatterAdd scatter_S8192x160_S262144x1_S262144x160_1_0_0_1 x i u) : (⟨S8192x160, .f32⟩ : BufTy).Contents (Elt F) → (⟨S262144x1, .i32⟩ : BufTy).Contents (Elt F) → (⟨S262144x160, .f32⟩ : BufTy).Contents (Elt F) → (⟨S8192x160, .f32⟩ : BufTy).Contents (Elt F)),
    StableHlo.nullary main_cst_1 (constant S_ .f32 0x3F800000#32),
    StableHlo.unary main_cst_1 main_v15 (broadcastInDim S262144 ![] bcast_S_S262144 : (⟨S_, .f32⟩ : BufTy).Contents (Elt F) → (⟨S262144, .f32⟩ : BufTy).Contents (Elt F)),
    StableHlo.nullary main_cst_2 (constant S_ .f32 0x00000000#32),
    StableHlo.unary main_cst_2 main_v16 (broadcastInDim S8192 ![] bcast_S_S8192 : (⟨S_, .f32⟩ : BufTy).Contents (Elt F) → (⟨S8192, .f32⟩ : BufTy).Contents (Elt F)),
    StableHlo.unary main_v3 main_v17 (broadcastInDim S262144x1 ![0] bcast_S262144_S262144x1_0 : (⟨S262144, .i32⟩ : BufTy).Contents (Elt F) → (⟨S262144x1, .i32⟩ : BufTy).Contents (Elt F)),
    StableHlo.ternary main_v16 main_v17 main_v15 main_v18 ((fun x i u => Host.scatterAdd scatter_S8192_S262144x1_S262144_n_0_0_1 x i u) : (⟨S8192, .f32⟩ : BufTy).Contents (Elt F) → (⟨S262144x1, .i32⟩ : BufTy).Contents (Elt F) → (⟨S262144, .f32⟩ : BufTy).Contents (Elt F) → (⟨S8192, .f32⟩ : BufTy).Contents (Elt F)),
    StableHlo.nullary main_cst_3 (constant S_ .f32 0x3F800000#32),
    StableHlo.unary main_cst_3 main_v19 (broadcastInDim S8192 ![] bcast_S_S8192 : (⟨S_, .f32⟩ : BufTy).Contents (Elt F) → (⟨S8192, .f32⟩ : BufTy).Contents (Elt F)),
    StableHlo.binary main_v18 main_v19 main_v20 (maximumf : (⟨S8192, .f32⟩ : BufTy).Contents (Elt F) → (⟨S8192, .f32⟩ : BufTy).Contents (Elt F) → (⟨S8192, .f32⟩ : BufTy).Contents (Elt F)),
    StableHlo.unary main_v20 main_v21 (broadcastInDim S8192x1 ![0] bcast_S8192_S8192x1_0 : (⟨S8192, .f32⟩ : BufTy).Contents (Elt F) → (⟨S8192x1, .f32⟩ : BufTy).Contents (Elt F)),
    StableHlo.unary main_v21 main_v22 (broadcastInDim S8192x160 ![0, 1] bcast_S8192x1_S8192x160_0_1 : (⟨S8192x1, .f32⟩ : BufTy).Contents (Elt F) → (⟨S8192x160, .f32⟩ : BufTy).Contents (Elt F)),
    StableHlo.binary main_v14 main_v22 main_v23 (Host.divf : (⟨S8192x160, .f32⟩ : BufTy).Contents (Elt F) → (⟨S8192x160, .f32⟩ : BufTy).Contents (Elt F) → (⟨S8192x160, .f32⟩ : BufTy).Contents (Elt F)),
    StableHlo.unary main_arg5 main_v24 ((transpose S160x256 [1, 0] · transposes_S256x160_S160x256_1_0) : (⟨S256x160, .f32⟩ : BufTy).Contents (Elt F) → (⟨S160x256, .f32⟩ : BufTy).Contents (Elt F)),
    StableHlo.binary main_v23 main_v24 main_v25 ((fun l r => Host.dotGeneral dot_S8192x160_S160x256_S8192x256_1_0_0_1_n_n none l r) : (⟨S8192x160, .f32⟩ : BufTy).Contents (Elt F) → (⟨S160x256, .f32⟩ : BufTy).Contents (Elt F) → (⟨S8192x256, .f32⟩ : BufTy).Contents (Elt F)),
    StableHlo.unary main_arg7 main_v26 (broadcastInDim S1x256 ![1] bcast_S256_S1x256_1 : (⟨S256, .f32⟩ : BufTy).Contents (Elt F) → (⟨S1x256, .f32⟩ : BufTy).Contents (Elt F)),
    StableHlo.unary main_v26 main_v27 (broadcastInDim S8192x256 ![0, 1] bcast_S1x256_S8192x256_0_1 : (⟨S1x256, .f32⟩ : BufTy).Contents (Elt F) → (⟨S8192x256, .f32⟩ : BufTy).Contents (Elt F)),
    StableHlo.binary main_v25 main_v27 main_v28 (addf : (⟨S8192x256, .f32⟩ : BufTy).Contents (Elt F) → (⟨S8192x256, .f32⟩ : BufTy).Contents (Elt F) → (⟨S8192x256, .f32⟩ : BufTy).Contents (Elt F)),
    StableHlo.unary main_arg6 main_v29 ((transpose S160x256 [1, 0] · transposes_S256x160_S160x256_1_0) : (⟨S256x160, .f32⟩ : BufTy).Contents (Elt F) → (⟨S160x256, .f32⟩ : BufTy).Contents (Elt F)),
    StableHlo.binary main_v4 main_v29 main_v30 ((fun l r => Host.dotGeneral dot_S8192x160_S160x256_S8192x256_1_0_0_1_n_n none l r) : (⟨S8192x160, .f32⟩ : BufTy).Contents (Elt F) → (⟨S160x256, .f32⟩ : BufTy).Contents (Elt F) → (⟨S8192x256, .f32⟩ : BufTy).Contents (Elt F)),
    StableHlo.binary main_v28 main_v30 main_v31 (addf : (⟨S8192x256, .f32⟩ : BufTy).Contents (Elt F) → (⟨S8192x256, .f32⟩ : BufTy).Contents (Elt F) → (⟨S8192x256, .f32⟩ : BufTy).Contents (Elt F)),
    StableHlo.TRef.nullary main_call0.cst (constant S_ .f32 0x00000000#32),
    StableHlo.TRef.unary main_call0.cst main_call0.v0 (broadcastInDim S8192x256 ![] bcast_S_S8192x256),
    StableHlo.TRef.binary (.of main_v31 : StableHlo.TRef sig ⟨S8192x256, .f32⟩) main_call0.v0 main_call0.v1 maximumf,
    StableHlo.nullary main_cst_4 (constant S_ .f32 0x00000000#32),
    StableHlo.binary main_v32 main_cst_4 main_v33 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    StableHlo.unary main_v33 main_v34 (broadcastInDim S8192x1 ![0] bcast_S8192_S8192x1_0 : (⟨S8192, .f32⟩ : BufTy).Contents (Elt F) → (⟨S8192x1, .f32⟩ : BufTy).Contents (Elt F)),
    StableHlo.nullary main_cst_5 (constant S_ .f32 0x43800000#32),
    StableHlo.unary main_cst_5 main_v35 (broadcastInDim S8192x1 ![] bcast_S_S8192x1 : (⟨S_, .f32⟩ : BufTy).Contents (Elt F) → (⟨S8192x1, .f32⟩ : BufTy).Contents (Elt F)),
    StableHlo.binary main_v34 main_v35 main_v36 (Host.divf : (⟨S8192x1, .f32⟩ : BufTy).Contents (Elt F) → (⟨S8192x1, .f32⟩ : BufTy).Contents (Elt F) → (⟨S8192x1, .f32⟩ : BufTy).Contents (Elt F)),
    StableHlo.unary main_v36 main_v37 (broadcastInDim S8192x256 ![0, 1] bcast_S8192x1_S8192x256_0_1 : (⟨S8192x1, .f32⟩ : BufTy).Contents (Elt F) → (⟨S8192x256, .f32⟩ : BufTy).Contents (Elt F)),
    StableHlo.binary main_v32 main_v37 main_v38 (subf : (⟨S8192x256, .f32⟩ : BufTy).Contents (Elt F) → (⟨S8192x256, .f32⟩ : BufTy).Contents (Elt F) → (⟨S8192x256, .f32⟩ : BufTy).Contents (Elt F)),
    StableHlo.binary main_v38 main_v38 main_v39 (mulf : (⟨S8192x256, .f32⟩ : BufTy).Contents (Elt F) → (⟨S8192x256, .f32⟩ : BufTy).Contents (Elt F) → (⟨S8192x256, .f32⟩ : BufTy).Contents (Elt F)),
    StableHlo.nullary main_cst_6 (constant S_ .f32 0x00000000#32),
    StableHlo.binary main_v39 main_cst_6 main_v40 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    StableHlo.unary main_v40 main_v41 (broadcastInDim S8192x1 ![0] bcast_S8192_S8192x1_0 : (⟨S8192, .f32⟩ : BufTy).Contents (Elt F) → (⟨S8192x1, .f32⟩ : BufTy).Contents (Elt F)),
    StableHlo.nullary main_cst_7 (constant S_ .f32 0x43800000#32),
    StableHlo.unary main_cst_7 main_v42 (broadcastInDim S8192x1 ![] bcast_S_S8192x1 : (⟨S_, .f32⟩ : BufTy).Contents (Elt F) → (⟨S8192x1, .f32⟩ : BufTy).Contents (Elt F)),
    StableHlo.binary main_v41 main_v42 main_v43 (Host.divf : (⟨S8192x1, .f32⟩ : BufTy).Contents (Elt F) → (⟨S8192x1, .f32⟩ : BufTy).Contents (Elt F) → (⟨S8192x1, .f32⟩ : BufTy).Contents (Elt F)),
    StableHlo.unary main_v36 main_v44 (broadcastInDim S8192x256 ![0, 1] bcast_S8192x1_S8192x256_0_1 : (⟨S8192x1, .f32⟩ : BufTy).Contents (Elt F) → (⟨S8192x256, .f32⟩ : BufTy).Contents (Elt F)),
    StableHlo.binary main_v32 main_v44 main_v45 (subf : (⟨S8192x256, .f32⟩ : BufTy).Contents (Elt F) → (⟨S8192x256, .f32⟩ : BufTy).Contents (Elt F) → (⟨S8192x256, .f32⟩ : BufTy).Contents (Elt F)),
    StableHlo.nullary main_cst_8 (constant S_ .f32 0x3727C5AC#32),
    StableHlo.unary main_cst_8 main_v46 (broadcastInDim S8192x1 ![] bcast_S_S8192x1 : (⟨S_, .f32⟩ : BufTy).Contents (Elt F) → (⟨S8192x1, .f32⟩ : BufTy).Contents (Elt F)),
    StableHlo.binary main_v43 main_v46 main_v47 (addf : (⟨S8192x1, .f32⟩ : BufTy).Contents (Elt F) → (⟨S8192x1, .f32⟩ : BufTy).Contents (Elt F) → (⟨S8192x1, .f32⟩ : BufTy).Contents (Elt F)),
    StableHlo.unary main_v47 main_v48 (Host.sqrt : (⟨S8192x1, .f32⟩ : BufTy).Contents (Elt F) → (⟨S8192x1, .f32⟩ : BufTy).Contents (Elt F)) ]

abbrev ops1 : List (HloOp τ sig (Elt F)) :=
  [ StableHlo.unary main_v48 main_v49 (broadcastInDim S8192x256 ![0, 1] bcast_S8192x1_S8192x256_0_1 : (⟨S8192x1, .f32⟩ : BufTy).Contents (Elt F) → (⟨S8192x256, .f32⟩ : BufTy).Contents (Elt F)),
    StableHlo.binary main_v45 main_v49 main_v50 (Host.divf : (⟨S8192x256, .f32⟩ : BufTy).Contents (Elt F) → (⟨S8192x256, .f32⟩ : BufTy).Contents (Elt F) → (⟨S8192x256, .f32⟩ : BufTy).Contents (Elt F)),
    StableHlo.unary main_arg16 main_v51 (broadcastInDim S1x256 ![1] bcast_S256_S1x256_1 : (⟨S256, .f32⟩ : BufTy).Contents (Elt F) → (⟨S1x256, .f32⟩ : BufTy).Contents (Elt F)),
    StableHlo.unary main_v51 main_v52 (broadcastInDim S8192x256 ![0, 1] bcast_S1x256_S8192x256_0_1 : (⟨S1x256, .f32⟩ : BufTy).Contents (Elt F) → (⟨S8192x256, .f32⟩ : BufTy).Contents (Elt F)),
    StableHlo.binary main_v50 main_v52 main_v53 (mulf : (⟨S8192x256, .f32⟩ : BufTy).Contents (Elt F) → (⟨S8192x256, .f32⟩ : BufTy).Contents (Elt F) → (⟨S8192x256, .f32⟩ : BufTy).Contents (Elt F)),
    StableHlo.unary main_arg17 main_v54 (broadcastInDim S1x256 ![1] bcast_S256_S1x256_1 : (⟨S256, .f32⟩ : BufTy).Contents (Elt F) → (⟨S1x256, .f32⟩ : BufTy).Contents (Elt F)),
    StableHlo.unary main_v54 main_v55 (broadcastInDim S8192x256 ![0, 1] bcast_S1x256_S8192x256_0_1 : (⟨S1x256, .f32⟩ : BufTy).Contents (Elt F) → (⟨S8192x256, .f32⟩ : BufTy).Contents (Elt F)),
    StableHlo.binary main_v53 main_v55 main_v56 (addf : (⟨S8192x256, .f32⟩ : BufTy).Contents (Elt F) → (⟨S8192x256, .f32⟩ : BufTy).Contents (Elt F) → (⟨S8192x256, .f32⟩ : BufTy).Contents (Elt F)),
    StableHlo.nullary main_cst_9 (constant S_ .f32 0x00000000#32),
    StableHlo.unary main_cst_9 main_v57 (broadcastInDim S8192x32 ![] bcast_S_S8192x32 : (⟨S_, .f32⟩ : BufTy).Contents (Elt F) → (⟨S8192x32, .f32⟩ : BufTy).Contents (Elt F)),
    StableHlo.binary main_arg2 main_v57 main_v58 (cmpf .une : (⟨S8192x32, .f32⟩ : BufTy).Contents (Elt F) → (⟨S8192x32, .f32⟩ : BufTy).Contents (Elt F) → (⟨S8192x32, .i1⟩ : BufTy).Contents (Elt F)),
    StableHlo.nullary main_c_10 (constantI S_ 1 0#1),
    StableHlo.binary main_v58 main_c_10 main_v59 ((fun x v => Host.reduce IntOp.ori x v reducesTo_S8192x32_S8192_d1 h_S_) : (⟨S8192x32, .i1⟩ : BufTy).Contents (Elt F) → (⟨S_, .i1⟩ : BufTy).Contents (Elt F) → (⟨S8192, .i1⟩ : BufTy).Contents (Elt F)),
    StableHlo.TRef.nullary main_call1.v0 (iotaInDim S8192 32 0),
    StableHlo.TRef.nullary main_call1.c (constantI S_ 1 0#1),
    StableHlo.TRef.nullary main_call1.c_0 (constantI S_ 32 0#32),
    StableHlo.TRef.quaternary (.of main_v59 : StableHlo.TRef sig ⟨S8192, .i1⟩) main_call1.v0 main_call1.c main_call1.c_0 main_call1.v1_0 (fun x y u v j => (Host.reduce2 reducer_argmax_i1_i32 x y u v reducesTo_S8192_S_d0 h_S_ j).1),
    StableHlo.TRef.quaternary (.of main_v59 : StableHlo.TRef sig ⟨S8192, .i1⟩) main_call1.v0 main_call1.c main_call1.c_0 main_call1.v1_1 (fun x y u v j => (Host.reduce2 reducer_argmax_i1_i32 x y u v reducesTo_S8192_S_d0 h_S_ j).2),
    StableHlo.nullary main_c_11 (constantI S_ 32 0#32),
    StableHlo.binary main_v60 main_c_11 main_v61 (cmpi .slt : (⟨S_, .i32⟩ : BufTy).Contents (Elt F) → (⟨S_, .i32⟩ : BufTy).Contents (Elt F) → (⟨S_, .i1⟩ : BufTy).Contents (Elt F)),
    StableHlo.nullary main_c_12 (constantI S_ 32 8192#32),
    StableHlo.binary main_v60 main_c_12 main_v62 (addi : (⟨S_, .i32⟩ : BufTy).Contents (Elt F) → (⟨S_, .i32⟩ : BufTy).Contents (Elt F) → (⟨S_, .i32⟩ : BufTy).Contents (Elt F)),
    StableHlo.ternary main_v61 main_v62 main_v60 main_v63 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_c_13 (constantI S_ 32 0#32),
    StableHlo.nullary main_c_14 (constantI S_ 32 0#32),
    StableHlo.binary main_c_13 main_c_14 main_v64 (cmpi .slt : (⟨S_, .i32⟩ : BufTy).Contents (Elt F) → (⟨S_, .i32⟩ : BufTy).Contents (Elt F) → (⟨S_, .i1⟩ : BufTy).Contents (Elt F)),
    StableHlo.nullary main_c_15 (constantI S_ 32 0#32),
    StableHlo.nullary main_c_16 (constantI S_ 32 256#32),
    StableHlo.binary main_c_15 main_c_16 main_v65 (addi : (⟨S_, .i32⟩ : BufTy).Contents (Elt F) → (⟨S_, .i32⟩ : BufTy).Contents (Elt F) → (⟨S_, .i32⟩ : BufTy).Contents (Elt F)),
    StableHlo.nullary main_c_17 (constantI S_ 32 0#32),
    StableHlo.ternary main_v64 main_v65 main_c_17 main_v66 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v56 ![main_v63, main_v66] ⟨S_, .i32⟩ main_v67 ((fun x i => Host.dynamicSlice S1x256 x (fun k => (i k (Shape.Idx.first h_S_)).toInt) sliceFits_S8192x256_S1x256) : (⟨S8192x256, .f32⟩ : BufTy).Contents (Elt F) → (Fin 2 → (⟨S_, .i32⟩ : BufTy).Contents (Elt F)) → (⟨S1x256, .f32⟩ : BufTy).Contents (Elt F)),
    StableHlo.reshape main_v67 main_v68 rfl shapeCasts_S1x256_S256,
    StableHlo.unary main_v68 main_v69 (broadcastInDim S1x256 ![1] bcast_S256_S1x256_1 : (⟨S256, .f32⟩ : BufTy).Contents (Elt F) → (⟨S1x256, .f32⟩ : BufTy).Contents (Elt F)),
    StableHlo.unary main_v69 main_v70 (broadcastInDim S8192x256 ![0, 1] bcast_S1x256_S8192x256_0_1 : (⟨S1x256, .f32⟩ : BufTy).Contents (Elt F) → (⟨S8192x256, .f32⟩ : BufTy).Contents (Elt F)),
    StableHlo.binary main_v56 main_v70 main_v71 ((fun a b => concatenate S8192x512 1 [⟨S8192x256, a⟩, ⟨S8192x256, b⟩] concatenates_S8192x256_S8192x256_S8192x512_d1) : (⟨S8192x256, .f32⟩ : BufTy).Contents (Elt F) → (⟨S8192x256, .f32⟩ : BufTy).Contents (Elt F) → (⟨S8192x512, .f32⟩ : BufTy).Contents (Elt F)),
    StableHlo.nullary main_c_18 (constantI S_ 32 0#32),
    StableHlo.unary main_c_18 main_v72 (broadcastInDim S262144 ![] bcast_S_S262144 : (⟨S_, .i32⟩ : BufTy).Contents (Elt F) → (⟨S262144, .i32⟩ : BufTy).Contents (Elt F)),
    StableHlo.binary main_v1 main_v72 main_v73 (cmpi .slt : (⟨S262144, .i32⟩ : BufTy).Contents (Elt F) → (⟨S262144, .i32⟩ : BufTy).Contents (Elt F) → (⟨S262144, .i1⟩ : BufTy).Contents (Elt F)),
    StableHlo.nullary main_c_19 (constantI S_ 32 8192#32),
    StableHlo.unary main_c_19 main_v74 (broadcastInDim S262144 ![] bcast_S_S262144 : (⟨S_, .i32⟩ : BufTy).Contents (Elt F) → (⟨S262144, .i32⟩ : BufTy).Contents (Elt F)),
    StableHlo.binary main_v1 main_v74 main_v75 (addi : (⟨S262144, .i32⟩ : BufTy).Contents (Elt F) → (⟨S262144, .i32⟩ : BufTy).Contents (Elt F) → (⟨S262144, .i32⟩ : BufTy).Contents (Elt F)),
    StableHlo.ternary main_v73 main_v75 main_v1 main_v76 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v76 main_v77 (broadcastInDim S262144x1 ![0] bcast_S262144_S262144x1_0 : (⟨S262144, .i32⟩ : BufTy).Contents (Elt F) → (⟨S262144x1, .i32⟩ : BufTy).Contents (Elt F)),
    StableHlo.binary main_v71 main_v77 main_v78 ((fun x i => Host.gather gather_S8192x512_S262144x1_S262144x512_1_0_n_n_0_1_1512 x i) : (⟨S8192x512, .f32⟩ : BufTy).Contents (Elt F) → (⟨S262144x1, .i32⟩ : BufTy).Contents (Elt F) → (⟨S262144x512, .f32⟩ : BufTy).Contents (Elt F)),
    StableHlo.nullary main_cst_20 (constant S_ .f32 0x00000000#32),
    StableHlo.unary main_cst_20 main_v79 (broadcastInDim S8192x512 ![] bcast_S_S8192x512 : (⟨S_, .f32⟩ : BufTy).Contents (Elt F) → (⟨S8192x512, .f32⟩ : BufTy).Contents (Elt F)),
    StableHlo.unary main_v3 main_v80 (broadcastInDim S262144x1 ![0] bcast_S262144_S262144x1_0 : (⟨S262144, .i32⟩ : BufTy).Contents (Elt F) → (⟨S262144x1, .i32⟩ : BufTy).Contents (Elt F)),
    StableHlo.ternary main_v79 main_v80 main_v78 main_v81 ((fun x i u => Host.scatterAdd scatter_S8192x512_S262144x1_S262144x512_1_0_0_1 x i u) : (⟨S8192x512, .f32⟩ : BufTy).Contents (Elt F) → (⟨S262144x1, .i32⟩ : BufTy).Contents (Elt F) → (⟨S262144x512, .f32⟩ : BufTy).Contents (Elt F) → (⟨S8192x512, .f32⟩ : BufTy).Contents (Elt F)),
    StableHlo.nullary main_cst_21 (constant S_ .f32 0x3F800000#32),
    StableHlo.unary main_cst_21 main_v82 (broadcastInDim S262144 ![] bcast_S_S262144 : (⟨S_, .f32⟩ : BufTy).Contents (Elt F) → (⟨S262144, .f32⟩ : BufTy).Contents (Elt F)),
    StableHlo.nullary main_cst_22 (constant S_ .f32 0x00000000#32),
    StableHlo.unary main_cst_22 main_v83 (broadcastInDim S8192 ![] bcast_S_S8192 : (⟨S_, .f32⟩ : BufTy).Contents (Elt F) → (⟨S8192, .f32⟩ : BufTy).Contents (Elt F)),
    StableHlo.unary main_v3 main_v84 (broadcastInDim S262144x1 ![0] bcast_S262144_S262144x1_0 : (⟨S262144, .i32⟩ : BufTy).Contents (Elt F) → (⟨S262144x1, .i32⟩ : BufTy).Contents (Elt F)),
    StableHlo.ternary main_v83 main_v84 main_v82 main_v85 ((fun x i u => Host.scatterAdd scatter_S8192_S262144x1_S262144_n_0_0_1 x i u) : (⟨S8192, .f32⟩ : BufTy).Contents (Elt F) → (⟨S262144x1, .i32⟩ : BufTy).Contents (Elt F) → (⟨S262144, .f32⟩ : BufTy).Contents (Elt F) → (⟨S8192, .f32⟩ : BufTy).Contents (Elt F)),
    StableHlo.nullary main_cst_23 (constant S_ .f32 0x3F800000#32),
    StableHlo.unary main_cst_23 main_v86 (broadcastInDim S8192 ![] bcast_S_S8192 : (⟨S_, .f32⟩ : BufTy).Contents (Elt F) → (⟨S8192, .f32⟩ : BufTy).Contents (Elt F)),
    StableHlo.binary main_v85 main_v86 main_v87 (maximumf : (⟨S8192, .f32⟩ : BufTy).Contents (Elt F) → (⟨S8192, .f32⟩ : BufTy).Contents (Elt F) → (⟨S8192, .f32⟩ : BufTy).Contents (Elt F)),
    StableHlo.unary main_v87 main_v88 (broadcastInDim S8192x1 ![0] bcast_S8192_S8192x1_0 : (⟨S8192, .f32⟩ : BufTy).Contents (Elt F) → (⟨S8192x1, .f32⟩ : BufTy).Contents (Elt F)),
    StableHlo.unary main_v88 main_v89 (broadcastInDim S8192x512 ![0, 1] bcast_S8192x1_S8192x512_0_1 : (⟨S8192x1, .f32⟩ : BufTy).Contents (Elt F) → (⟨S8192x512, .f32⟩ : BufTy).Contents (Elt F)),
    StableHlo.binary main_v81 main_v89 main_v90 (Host.divf : (⟨S8192x512, .f32⟩ : BufTy).Contents (Elt F) → (⟨S8192x512, .f32⟩ : BufTy).Contents (Elt F) → (⟨S8192x512, .f32⟩ : BufTy).Contents (Elt F)),
    StableHlo.unary main_arg8 main_v91 ((transpose S512x256 [1, 0] · transposes_S256x512_S512x256_1_0) : (⟨S256x512, .f32⟩ : BufTy).Contents (Elt F) → (⟨S512x256, .f32⟩ : BufTy).Contents (Elt F)),
    StableHlo.binary main_v90 main_v91 main_v92 ((fun l r => Host.dotGeneral dot_S8192x512_S512x256_S8192x256_1_0_0_1_n_n none l r) : (⟨S8192x512, .f32⟩ : BufTy).Contents (Elt F) → (⟨S512x256, .f32⟩ : BufTy).Contents (Elt F) → (⟨S8192x256, .f32⟩ : BufTy).Contents (Elt F)),
    StableHlo.unary main_arg10 main_v93 (broadcastInDim S1x256 ![1] bcast_S256_S1x256_1 : (⟨S256, .f32⟩ : BufTy).Contents (Elt F) → (⟨S1x256, .f32⟩ : BufTy).Contents (Elt F)) ]

abbrev ops2 : List (HloOp τ sig (Elt F)) :=
  [ StableHlo.unary main_v93 main_v94 (broadcastInDim S8192x256 ![0, 1] bcast_S1x256_S8192x256_0_1 : (⟨S1x256, .f32⟩ : BufTy).Contents (Elt F) → (⟨S8192x256, .f32⟩ : BufTy).Contents (Elt F)),
    StableHlo.binary main_v92 main_v94 main_v95 (addf : (⟨S8192x256, .f32⟩ : BufTy).Contents (Elt F) → (⟨S8192x256, .f32⟩ : BufTy).Contents (Elt F) → (⟨S8192x256, .f32⟩ : BufTy).Contents (Elt F)),
    StableHlo.unary main_arg9 main_v96 ((transpose S512x256 [1, 0] · transposes_S256x512_S512x256_1_0) : (⟨S256x512, .f32⟩ : BufTy).Contents (Elt F) → (⟨S512x256, .f32⟩ : BufTy).Contents (Elt F)),
    StableHlo.binary main_v71 main_v96 main_v97 ((fun l r => Host.dotGeneral dot_S8192x512_S512x256_S8192x256_1_0_0_1_n_n none l r) : (⟨S8192x512, .f32⟩ : BufTy).Contents (Elt F) → (⟨S512x256, .f32⟩ : BufTy).Contents (Elt F) → (⟨S8192x256, .f32⟩ : BufTy).Contents (Elt F)),
    StableHlo.binary main_v95 main_v97 main_v98 (addf : (⟨S8192x256, .f32⟩ : BufTy).Contents (Elt F) → (⟨S8192x256, .f32⟩ : BufTy).Contents (Elt F) → (⟨S8192x256, .f32⟩ : BufTy).Contents (Elt F)),
    StableHlo.TRef.nullary main_call2.cst (constant S_ .f32 0x00000000#32),
    StableHlo.TRef.unary main_call2.cst main_call2.v0 (broadcastInDim S8192x256 ![] bcast_S_S8192x256),
    StableHlo.TRef.binary (.of main_v98 : StableHlo.TRef sig ⟨S8192x256, .f32⟩) main_call2.v0 main_call2.v1 maximumf,
    StableHlo.nullary main_cst_24 (constant S_ .f32 0x00000000#32),
    StableHlo.binary main_v99 main_cst_24 main_v100 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    StableHlo.unary main_v100 main_v101 (broadcastInDim S8192x1 ![0] bcast_S8192_S8192x1_0 : (⟨S8192, .f32⟩ : BufTy).Contents (Elt F) → (⟨S8192x1, .f32⟩ : BufTy).Contents (Elt F)),
    StableHlo.nullary main_cst_25 (constant S_ .f32 0x43800000#32),
    StableHlo.unary main_cst_25 main_v102 (broadcastInDim S8192x1 ![] bcast_S_S8192x1 : (⟨S_, .f32⟩ : BufTy).Contents (Elt F) → (⟨S8192x1, .f32⟩ : BufTy).Contents (Elt F)),
    StableHlo.binary main_v101 main_v102 main_v103 (Host.divf : (⟨S8192x1, .f32⟩ : BufTy).Contents (Elt F) → (⟨S8192x1, .f32⟩ : BufTy).Contents (Elt F) → (⟨S8192x1, .f32⟩ : BufTy).Contents (Elt F)),
    StableHlo.unary main_v103 main_v104 (broadcastInDim S8192x256 ![0, 1] bcast_S8192x1_S8192x256_0_1 : (⟨S8192x1, .f32⟩ : BufTy).Contents (Elt F) → (⟨S8192x256, .f32⟩ : BufTy).Contents (Elt F)),
    StableHlo.binary main_v99 main_v104 main_v105 (subf : (⟨S8192x256, .f32⟩ : BufTy).Contents (Elt F) → (⟨S8192x256, .f32⟩ : BufTy).Contents (Elt F) → (⟨S8192x256, .f32⟩ : BufTy).Contents (Elt F)),
    StableHlo.binary main_v105 main_v105 main_v106 (mulf : (⟨S8192x256, .f32⟩ : BufTy).Contents (Elt F) → (⟨S8192x256, .f32⟩ : BufTy).Contents (Elt F) → (⟨S8192x256, .f32⟩ : BufTy).Contents (Elt F)),
    StableHlo.nullary main_cst_26 (constant S_ .f32 0x00000000#32),
    StableHlo.binary main_v106 main_cst_26 main_v107 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    StableHlo.unary main_v107 main_v108 (broadcastInDim S8192x1 ![0] bcast_S8192_S8192x1_0 : (⟨S8192, .f32⟩ : BufTy).Contents (Elt F) → (⟨S8192x1, .f32⟩ : BufTy).Contents (Elt F)),
    StableHlo.nullary main_cst_27 (constant S_ .f32 0x43800000#32),
    StableHlo.unary main_cst_27 main_v109 (broadcastInDim S8192x1 ![] bcast_S_S8192x1 : (⟨S_, .f32⟩ : BufTy).Contents (Elt F) → (⟨S8192x1, .f32⟩ : BufTy).Contents (Elt F)),
    StableHlo.binary main_v108 main_v109 main_v110 (Host.divf : (⟨S8192x1, .f32⟩ : BufTy).Contents (Elt F) → (⟨S8192x1, .f32⟩ : BufTy).Contents (Elt F) → (⟨S8192x1, .f32⟩ : BufTy).Contents (Elt F)),
    StableHlo.unary main_v103 main_v111 (broadcastInDim S8192x256 ![0, 1] bcast_S8192x1_S8192x256_0_1 : (⟨S8192x1, .f32⟩ : BufTy).Contents (Elt F) → (⟨S8192x256, .f32⟩ : BufTy).Contents (Elt F)),
    StableHlo.binary main_v99 main_v111 main_v112 (subf : (⟨S8192x256, .f32⟩ : BufTy).Contents (Elt F) → (⟨S8192x256, .f32⟩ : BufTy).Contents (Elt F) → (⟨S8192x256, .f32⟩ : BufTy).Contents (Elt F)),
    StableHlo.nullary main_cst_28 (constant S_ .f32 0x3727C5AC#32),
    StableHlo.unary main_cst_28 main_v113 (broadcastInDim S8192x1 ![] bcast_S_S8192x1 : (⟨S_, .f32⟩ : BufTy).Contents (Elt F) → (⟨S8192x1, .f32⟩ : BufTy).Contents (Elt F)),
    StableHlo.binary main_v110 main_v113 main_v114 (addf : (⟨S8192x1, .f32⟩ : BufTy).Contents (Elt F) → (⟨S8192x1, .f32⟩ : BufTy).Contents (Elt F) → (⟨S8192x1, .f32⟩ : BufTy).Contents (Elt F)),
    StableHlo.unary main_v114 main_v115 (Host.sqrt : (⟨S8192x1, .f32⟩ : BufTy).Contents (Elt F) → (⟨S8192x1, .f32⟩ : BufTy).Contents (Elt F)),
    StableHlo.unary main_v115 main_v116 (broadcastInDim S8192x256 ![0, 1] bcast_S8192x1_S8192x256_0_1 : (⟨S8192x1, .f32⟩ : BufTy).Contents (Elt F) → (⟨S8192x256, .f32⟩ : BufTy).Contents (Elt F)),
    StableHlo.binary main_v112 main_v116 main_v117 (Host.divf : (⟨S8192x256, .f32⟩ : BufTy).Contents (Elt F) → (⟨S8192x256, .f32⟩ : BufTy).Contents (Elt F) → (⟨S8192x256, .f32⟩ : BufTy).Contents (Elt F)),
    StableHlo.unary main_arg18 main_v118 (broadcastInDim S1x256 ![1] bcast_S256_S1x256_1 : (⟨S256, .f32⟩ : BufTy).Contents (Elt F) → (⟨S1x256, .f32⟩ : BufTy).Contents (Elt F)),
    StableHlo.unary main_v118 main_v119 (broadcastInDim S8192x256 ![0, 1] bcast_S1x256_S8192x256_0_1 : (⟨S1x256, .f32⟩ : BufTy).Contents (Elt F) → (⟨S8192x256, .f32⟩ : BufTy).Contents (Elt F)),
    StableHlo.binary main_v117 main_v119 main_v120 (mulf : (⟨S8192x256, .f32⟩ : BufTy).Contents (Elt F) → (⟨S8192x256, .f32⟩ : BufTy).Contents (Elt F) → (⟨S8192x256, .f32⟩ : BufTy).Contents (Elt F)),
    StableHlo.unary main_arg19 main_v121 (broadcastInDim S1x256 ![1] bcast_S256_S1x256_1 : (⟨S256, .f32⟩ : BufTy).Contents (Elt F) → (⟨S1x256, .f32⟩ : BufTy).Contents (Elt F)),
    StableHlo.unary main_v121 main_v122 (broadcastInDim S8192x256 ![0, 1] bcast_S1x256_S8192x256_0_1 : (⟨S1x256, .f32⟩ : BufTy).Contents (Elt F) → (⟨S8192x256, .f32⟩ : BufTy).Contents (Elt F)),
    StableHlo.binary main_v120 main_v122 main_v123 (addf : (⟨S8192x256, .f32⟩ : BufTy).Contents (Elt F) → (⟨S8192x256, .f32⟩ : BufTy).Contents (Elt F) → (⟨S8192x256, .f32⟩ : BufTy).Contents (Elt F)),
    StableHlo.nullary main_c_29 (constantI S_ 32 0#32),
    StableHlo.unary main_c_29 main_v124 (broadcastInDim S262144 ![] bcast_S_S262144 : (⟨S_, .i32⟩ : BufTy).Contents (Elt F) → (⟨S262144, .i32⟩ : BufTy).Contents (Elt F)),
    StableHlo.binary main_v1 main_v124 main_v125 (cmpi .slt : (⟨S262144, .i32⟩ : BufTy).Contents (Elt F) → (⟨S262144, .i32⟩ : BufTy).Contents (Elt F) → (⟨S262144, .i1⟩ : BufTy).Contents (Elt F)),
    StableHlo.nullary main_c_30 (constantI S_ 32 8192#32),
    StableHlo.unary main_c_30 main_v126 (broadcastInDim S262144 ![] bcast_S_S262144 : (⟨S_, .i32⟩ : BufTy).Contents (Elt F) → (⟨S262144, .i32⟩ : BufTy).Contents (Elt F)),
    StableHlo.binary main_v1 main_v126 main_v127 (addi : (⟨S262144, .i32⟩ : BufTy).Contents (Elt F) → (⟨S262144, .i32⟩ : BufTy).Contents (Elt F) → (⟨S262144, .i32⟩ : BufTy).Contents (Elt F)),
    StableHlo.ternary main_v125 main_v127 main_v1 main_v128 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v128 main_v129 (broadcastInDim S262144x1 ![0] bcast_S262144_S262144x1_0 : (⟨S262144, .i32⟩ : BufTy).Contents (Elt F) → (⟨S262144x1, .i32⟩ : BufTy).Contents (Elt F)),
    StableHlo.binary main_v123 main_v129 main_v130 ((fun x i => Host.gather gather_S8192x256_S262144x1_S262144x256_1_0_n_n_0_1_1256 x i) : (⟨S8192x256, .f32⟩ : BufTy).Contents (Elt F) → (⟨S262144x1, .i32⟩ : BufTy).Contents (Elt F) → (⟨S262144x256, .f32⟩ : BufTy).Contents (Elt F)),
    StableHlo.nullary main_cst_31 (constant S_ .f32 0x00000000#32),
    StableHlo.unary main_cst_31 main_v131 (broadcastInDim S8192x256 ![] bcast_S_S8192x256 : (⟨S_, .f32⟩ : BufTy).Contents (Elt F) → (⟨S8192x256, .f32⟩ : BufTy).Contents (Elt F)),
    StableHlo.unary main_v3 main_v132 (broadcastInDim S262144x1 ![0] bcast_S262144_S262144x1_0 : (⟨S262144, .i32⟩ : BufTy).Contents (Elt F) → (⟨S262144x1, .i32⟩ : BufTy).Contents (Elt F)),
    StableHlo.ternary main_v131 main_v132 main_v130 main_v133 ((fun x i u => Host.scatterAdd scatter_S8192x256_S262144x1_S262144x256_1_0_0_1 x i u) : (⟨S8192x256, .f32⟩ : BufTy).Contents (Elt F) → (⟨S262144x1, .i32⟩ : BufTy).Contents (Elt F) → (⟨S262144x256, .f32⟩ : BufTy).Contents (Elt F) → (⟨S8192x256, .f32⟩ : BufTy).Contents (Elt F)),
    StableHlo.nullary main_cst_32 (constant S_ .f32 0x3F800000#32),
    StableHlo.unary main_cst_32 main_v134 (broadcastInDim S262144 ![] bcast_S_S262144 : (⟨S_, .f32⟩ : BufTy).Contents (Elt F) → (⟨S262144, .f32⟩ : BufTy).Contents (Elt F)),
    StableHlo.nullary main_cst_33 (constant S_ .f32 0x00000000#32),
    StableHlo.unary main_cst_33 main_v135 (broadcastInDim S8192 ![] bcast_S_S8192 : (⟨S_, .f32⟩ : BufTy).Contents (Elt F) → (⟨S8192, .f32⟩ : BufTy).Contents (Elt F)),
    StableHlo.unary main_v3 main_v136 (broadcastInDim S262144x1 ![0] bcast_S262144_S262144x1_0 : (⟨S262144, .i32⟩ : BufTy).Contents (Elt F) → (⟨S262144x1, .i32⟩ : BufTy).Contents (Elt F)),
    StableHlo.ternary main_v135 main_v136 main_v134 main_v137 ((fun x i u => Host.scatterAdd scatter_S8192_S262144x1_S262144_n_0_0_1 x i u) : (⟨S8192, .f32⟩ : BufTy).Contents (Elt F) → (⟨S262144x1, .i32⟩ : BufTy).Contents (Elt F) → (⟨S262144, .f32⟩ : BufTy).Contents (Elt F) → (⟨S8192, .f32⟩ : BufTy).Contents (Elt F)),
    StableHlo.nullary main_cst_34 (constant S_ .f32 0x3F800000#32),
    StableHlo.unary main_cst_34 main_v138 (broadcastInDim S8192 ![] bcast_S_S8192 : (⟨S_, .f32⟩ : BufTy).Contents (Elt F) → (⟨S8192, .f32⟩ : BufTy).Contents (Elt F)),
    StableHlo.binary main_v137 main_v138 main_v139 (maximumf : (⟨S8192, .f32⟩ : BufTy).Contents (Elt F) → (⟨S8192, .f32⟩ : BufTy).Contents (Elt F) → (⟨S8192, .f32⟩ : BufTy).Contents (Elt F)),
    StableHlo.unary main_v139 main_v140 (broadcastInDim S8192x1 ![0] bcast_S8192_S8192x1_0 : (⟨S8192, .f32⟩ : BufTy).Contents (Elt F) → (⟨S8192x1, .f32⟩ : BufTy).Contents (Elt F)),
    StableHlo.unary main_v140 main_v141 (broadcastInDim S8192x256 ![0, 1] bcast_S8192x1_S8192x256_0_1 : (⟨S8192x1, .f32⟩ : BufTy).Contents (Elt F) → (⟨S8192x256, .f32⟩ : BufTy).Contents (Elt F)),
    StableHlo.binary main_v133 main_v141 main_v142 (Host.divf : (⟨S8192x256, .f32⟩ : BufTy).Contents (Elt F) → (⟨S8192x256, .f32⟩ : BufTy).Contents (Elt F) → (⟨S8192x256, .f32⟩ : BufTy).Contents (Elt F)) ]

abbrev ops3 : List (HloOp τ sig (Elt F)) :=
  [ StableHlo.unary main_arg11 main_v143 ((transpose S256x256 [1, 0] · transposes_S256x256_S256x256_1_0) : (⟨S256x256, .f32⟩ : BufTy).Contents (Elt F) → (⟨S256x256, .f32⟩ : BufTy).Contents (Elt F)),
    StableHlo.binary main_v142 main_v143 main_v144 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    StableHlo.unary main_arg13 main_v145 (broadcastInDim S1x256 ![1] bcast_S256_S1x256_1 : (⟨S256, .f32⟩ : BufTy).Contents (Elt F) → (⟨S1x256, .f32⟩ : BufTy).Contents (Elt F)),
    StableHlo.unary main_v145 main_v146 (broadcastInDim S8192x256 ![0, 1] bcast_S1x256_S8192x256_0_1 : (⟨S1x256, .f32⟩ : BufTy).Contents (Elt F) → (⟨S8192x256, .f32⟩ : BufTy).Contents (Elt F)),
    StableHlo.binary main_v144 main_v146 main_v147 (addf : (⟨S8192x256, .f32⟩ : BufTy).Contents (Elt F) → (⟨S8192x256, .f32⟩ : BufTy).Contents (Elt F) → (⟨S8192x256, .f32⟩ : BufTy).Contents (Elt F)),
    StableHlo.unary main_arg12 main_v148 ((transpose S256x256 [1, 0] · transposes_S256x256_S256x256_1_0) : (⟨S256x256, .f32⟩ : BufTy).Contents (Elt F) → (⟨S256x256, .f32⟩ : BufTy).Contents (Elt F)),
    StableHlo.binary main_v123 main_v148 main_v149 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    StableHlo.binary main_v147 main_v149 main_v150 (addf : (⟨S8192x256, .f32⟩ : BufTy).Contents (Elt F) → (⟨S8192x256, .f32⟩ : BufTy).Contents (Elt F) → (⟨S8192x256, .f32⟩ : BufTy).Contents (Elt F)),
    StableHlo.TRef.nullary main_call3.cst (constant S_ .f32 0x00000000#32),
    StableHlo.TRef.unary main_call3.cst main_call3.v0 (broadcastInDim S8192x256 ![] bcast_S_S8192x256),
    StableHlo.TRef.binary (.of main_v150 : StableHlo.TRef sig ⟨S8192x256, .f32⟩) main_call3.v0 main_call3.v1 maximumf,
    StableHlo.unary main_arg14 main_v152 ((transpose S256x8192 [1, 0] · transposes_S8192x256_S256x8192_1_0) : (⟨S8192x256, .f32⟩ : BufTy).Contents (Elt F) → (⟨S256x8192, .f32⟩ : BufTy).Contents (Elt F)),
    StableHlo.binary main_v151 main_v152 main_v153 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)),
    StableHlo.unary main_arg15 main_v154 (broadcastInDim S1x8192 ![1] bcast_S8192_S1x8192_1 : (⟨S8192, .f32⟩ : BufTy).Contents (Elt F) → (⟨S1x8192, .f32⟩ : BufTy).Contents (Elt F)),
    StableHlo.unary main_v154 main_v155 (broadcastInDim S8192x8192 ![0, 1] bcast_S1x8192_S8192x8192_0_1 : (⟨S1x8192, .f32⟩ : BufTy).Contents (Elt F) → (⟨S8192x8192, .f32⟩ : BufTy).Contents (Elt F)),
    StableHlo.binary main_v153 main_v155 main_v156 (addf : (⟨S8192x8192, .f32⟩ : BufTy).Contents (Elt F) → (⟨S8192x8192, .f32⟩ : BufTy).Contents (Elt F) → (⟨S8192x8192, .f32⟩ : BufTy).Contents (Elt F)),
    StableHlo.nullary main_cst_35 (constant S_ .f32 0xFF800000#32),
    StableHlo.binary main_v156 main_cst_35 main_v157 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.nullary main_cst_36 (constant S_ .f32 0xFF800000#32),
    StableHlo.unary main_cst_36 main_v158 (broadcastInDim S8192 ![] bcast_S_S8192 : (⟨S_, .f32⟩ : BufTy).Contents (Elt F) → (⟨S8192, .f32⟩ : BufTy).Contents (Elt F)),
    StableHlo.binary main_v158 main_v157 main_v159 (maximumf : (⟨S8192, .f32⟩ : BufTy).Contents (Elt F) → (⟨S8192, .f32⟩ : BufTy).Contents (Elt F) → (⟨S8192, .f32⟩ : BufTy).Contents (Elt F)),
    StableHlo.unary main_v159 main_v160 (broadcastInDim S8192x1 ![0] bcast_S8192_S8192x1_0 : (⟨S8192, .f32⟩ : BufTy).Contents (Elt F) → (⟨S8192x1, .f32⟩ : BufTy).Contents (Elt F)),
    StableHlo.unary main_v160 main_v161 (broadcastInDim S8192x8192 ![0, 1] bcast_S8192x1_S8192x8192_0_1 : (⟨S8192x1, .f32⟩ : BufTy).Contents (Elt F) → (⟨S8192x8192, .f32⟩ : BufTy).Contents (Elt F)),
    StableHlo.binary main_v156 main_v161 main_v162 (subf : (⟨S8192x8192, .f32⟩ : BufTy).Contents (Elt F) → (⟨S8192x8192, .f32⟩ : BufTy).Contents (Elt F) → (⟨S8192x8192, .f32⟩ : BufTy).Contents (Elt F)),
    StableHlo.unary main_v162 main_v163 (Host.exp : (⟨S8192x8192, .f32⟩ : BufTy).Contents (Elt F) → (⟨S8192x8192, .f32⟩ : BufTy).Contents (Elt F)),
    StableHlo.nullary main_cst_37 (constant S_ .f32 0x00000000#32),
    StableHlo.binary main_v163 main_cst_37 main_v164 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.unary main_v164 main_v165 (broadcastInDim S8192x1 ![0] bcast_S8192_S8192x1_0 : (⟨S8192, .f32⟩ : BufTy).Contents (Elt F) → (⟨S8192x1, .f32⟩ : BufTy).Contents (Elt F)),
    StableHlo.unary main_v165 main_v166 (broadcastInDim S8192x8192 ![0, 1] bcast_S8192x1_S8192x8192_0_1 : (⟨S8192x1, .f32⟩ : BufTy).Contents (Elt F) → (⟨S8192x8192, .f32⟩ : BufTy).Contents (Elt F)),
    StableHlo.binary main_v163 main_v166 main_v167 (Host.divf : (⟨S8192x8192, .f32⟩ : BufTy).Contents (Elt F) → (⟨S8192x8192, .f32⟩ : BufTy).Contents (Elt F) → (⟨S8192x8192, .f32⟩ : BufTy).Contents (Elt F)),
    StableHlo.nullary main_cst_38 (constant S_ .f32 0x00000000#32),
    StableHlo.unary main_cst_38 main_v168 (broadcastInDim S8192x8192 ![] bcast_S_S8192x8192 : (⟨S_, .f32⟩ : BufTy).Contents (Elt F) → (⟨S8192x8192, .f32⟩ : BufTy).Contents (Elt F)),
    StableHlo.nullary main_c_39 (constantI S_ 32 0#32),
    StableHlo.unary main_c_39 main_v169 (broadcastInDim S262144 ![] bcast_S_S262144 : (⟨S_, .i32⟩ : BufTy).Contents (Elt F) → (⟨S262144, .i32⟩ : BufTy).Contents (Elt F)),
    StableHlo.binary main_v1 main_v169 main_v170 (cmpi .slt : (⟨S262144, .i32⟩ : BufTy).Contents (Elt F) → (⟨S262144, .i32⟩ : BufTy).Contents (Elt F) → (⟨S262144, .i1⟩ : BufTy).Contents (Elt F)),
    StableHlo.nullary main_c_40 (constantI S_ 32 8192#32),
    StableHlo.unary main_c_40 main_v171 (broadcastInDim S262144 ![] bcast_S_S262144 : (⟨S_, .i32⟩ : BufTy).Contents (Elt F) → (⟨S262144, .i32⟩ : BufTy).Contents (Elt F)),
    StableHlo.binary main_v1 main_v171 main_v172 (addi : (⟨S262144, .i32⟩ : BufTy).Contents (Elt F) → (⟨S262144, .i32⟩ : BufTy).Contents (Elt F) → (⟨S262144, .i32⟩ : BufTy).Contents (Elt F)),
    StableHlo.ternary main_v170 main_v172 main_v1 main_v173 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.nullary main_c_41 (constantI S_ 32 0#32),
    StableHlo.unary main_c_41 main_v174 (broadcastInDim S262144 ![] bcast_S_S262144 : (⟨S_, .i32⟩ : BufTy).Contents (Elt F) → (⟨S262144, .i32⟩ : BufTy).Contents (Elt F)),
    StableHlo.binary main_v3 main_v174 main_v175 (cmpi .slt : (⟨S262144, .i32⟩ : BufTy).Contents (Elt F) → (⟨S262144, .i32⟩ : BufTy).Contents (Elt F) → (⟨S262144, .i1⟩ : BufTy).Contents (Elt F)),
    StableHlo.nullary main_c_42 (constantI S_ 32 8192#32),
    StableHlo.unary main_c_42 main_v176 (broadcastInDim S262144 ![] bcast_S_S262144 : (⟨S_, .i32⟩ : BufTy).Contents (Elt F) → (⟨S262144, .i32⟩ : BufTy).Contents (Elt F)),
    StableHlo.binary main_v3 main_v176 main_v177 (addi : (⟨S262144, .i32⟩ : BufTy).Contents (Elt F) → (⟨S262144, .i32⟩ : BufTy).Contents (Elt F) → (⟨S262144, .i32⟩ : BufTy).Contents (Elt F)),
    StableHlo.ternary main_v175 main_v177 main_v3 main_v178 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v173 main_v179 (broadcastInDim S262144x1 ![0] bcast_S262144_S262144x1_0 : (⟨S262144, .i32⟩ : BufTy).Contents (Elt F) → (⟨S262144x1, .i32⟩ : BufTy).Contents (Elt F)),
    StableHlo.unary main_v178 main_v180 (broadcastInDim S262144x1 ![0] bcast_S262144_S262144x1_0 : (⟨S262144, .i32⟩ : BufTy).Contents (Elt F) → (⟨S262144x1, .i32⟩ : BufTy).Contents (Elt F)),
    StableHlo.binary main_v179 main_v180 main_v181 ((fun a b => concatenate S262144x2 1 [⟨S262144x1, a⟩, ⟨S262144x1, b⟩] concatenates_S262144x1_S262144x1_S262144x2_d1) : (⟨S262144x1, .i32⟩ : BufTy).Contents (Elt F) → (⟨S262144x1, .i32⟩ : BufTy).Contents (Elt F) → (⟨S262144x2, .i32⟩ : BufTy).Contents (Elt F)),
    StableHlo.binary main_v167 main_v181 main_v182 ((fun x i => Host.gather gather_S8192x8192_S262144x2_S262144_n_01_n_n_01_1_11 x i) : (⟨S8192x8192, .f32⟩ : BufTy).Contents (Elt F) → (⟨S262144x2, .i32⟩ : BufTy).Contents (Elt F) → (⟨S262144, .f32⟩ : BufTy).Contents (Elt F)),
    StableHlo.nullary main_c_43 (constantI S_ 32 0#32),
    StableHlo.unary main_c_43 main_v183 (broadcastInDim S262144 ![] bcast_S_S262144 : (⟨S_, .i32⟩ : BufTy).Contents (Elt F) → (⟨S262144, .i32⟩ : BufTy).Contents (Elt F)),
    StableHlo.binary main_v1 main_v183 main_v184 (cmpi .slt : (⟨S262144, .i32⟩ : BufTy).Contents (Elt F) → (⟨S262144, .i32⟩ : BufTy).Contents (Elt F) → (⟨S262144, .i1⟩ : BufTy).Contents (Elt F)),
    StableHlo.nullary main_c_44 (constantI S_ 32 8192#32),
    StableHlo.unary main_c_44 main_v185 (broadcastInDim S262144 ![] bcast_S_S262144 : (⟨S_, .i32⟩ : BufTy).Contents (Elt F) → (⟨S262144, .i32⟩ : BufTy).Contents (Elt F)),
    StableHlo.binary main_v1 main_v185 main_v186 (addi : (⟨S262144, .i32⟩ : BufTy).Contents (Elt F) → (⟨S262144, .i32⟩ : BufTy).Contents (Elt F) → (⟨S262144, .i32⟩ : BufTy).Contents (Elt F)),
    StableHlo.ternary main_v184 main_v186 main_v1 main_v187 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.nullary main_c_45 (constantI S_ 32 0#32),
    StableHlo.unary main_c_45 main_v188 (broadcastInDim S262144 ![] bcast_S_S262144 : (⟨S_, .i32⟩ : BufTy).Contents (Elt F) → (⟨S262144, .i32⟩ : BufTy).Contents (Elt F)),
    StableHlo.binary main_v3 main_v188 main_v189 (cmpi .slt : (⟨S262144, .i32⟩ : BufTy).Contents (Elt F) → (⟨S262144, .i32⟩ : BufTy).Contents (Elt F) → (⟨S262144, .i1⟩ : BufTy).Contents (Elt F)),
    StableHlo.nullary main_c_46 (constantI S_ 32 8192#32),
    StableHlo.unary main_c_46 main_v190 (broadcastInDim S262144 ![] bcast_S_S262144 : (⟨S_, .i32⟩ : BufTy).Contents (Elt F) → (⟨S262144, .i32⟩ : BufTy).Contents (Elt F)) ]

abbrev ops4 : List (HloOp τ sig (Elt F)) :=
  [ StableHlo.binary main_v3 main_v190 main_v191 (addi : (⟨S262144, .i32⟩ : BufTy).Contents (Elt F) → (⟨S262144, .i32⟩ : BufTy).Contents (Elt F) → (⟨S262144, .i32⟩ : BufTy).Contents (Elt F)),
    StableHlo.ternary main_v189 main_v191 main_v3 main_v192 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v187 main_v193 (broadcastInDim S262144x1 ![0] bcast_S262144_S262144x1_0 : (⟨S262144, .i32⟩ : BufTy).Contents (Elt F) → (⟨S262144x1, .i32⟩ : BufTy).Contents (Elt F)),
    StableHlo.unary main_v192 main_v194 (broadcastInDim S262144x1 ![0] bcast_S262144_S262144x1_0 : (⟨S262144, .i32⟩ : BufTy).Contents (Elt F) → (⟨S262144x1, .i32⟩ : BufTy).Contents (Elt F)),
    StableHlo.binary main_v193 main_v194 main_v195 ((fun a b => concatenate S262144x2 1 [⟨S262144x1, a⟩, ⟨S262144x1, b⟩] concatenates_S262144x1_S262144x1_S262144x2_d1) : (⟨S262144x1, .i32⟩ : BufTy).Contents (Elt F) → (⟨S262144x1, .i32⟩ : BufTy).Contents (Elt F) → (⟨S262144x2, .i32⟩ : BufTy).Contents (Elt F)),
    StableHlo.ternary main_v168 main_v195 main_v182 main_v196 ((fun x i u => Host.scatter scatter_S8192x8192_S262144x2_S262144_n_01_01_1 (fun _ b => b) x i u) : (⟨S8192x8192, .f32⟩ : BufTy).Contents (Elt F) → (⟨S262144x2, .i32⟩ : BufTy).Contents (Elt F) → (⟨S262144, .f32⟩ : BufTy).Contents (Elt F) → (⟨S8192x8192, .f32⟩ : BufTy).Contents (Elt F)),
    StableHlo.nullary main_v197 (iotaInDim S8192 32 0),
    StableHlo.nullary main_c_47 (constantI S_ 32 0#32),
    StableHlo.unary main_c_47 main_v198 (broadcastInDim S8192 ![] bcast_S_S8192 : (⟨S_, .i32⟩ : BufTy).Contents (Elt F) → (⟨S8192, .i32⟩ : BufTy).Contents (Elt F)),
    StableHlo.binary main_v197 main_v198 main_v199 (cmpi .slt : (⟨S8192, .i32⟩ : BufTy).Contents (Elt F) → (⟨S8192, .i32⟩ : BufTy).Contents (Elt F) → (⟨S8192, .i1⟩ : BufTy).Contents (Elt F)),
    StableHlo.nullary main_c_48 (constantI S_ 32 8192#32),
    StableHlo.unary main_c_48 main_v200 (broadcastInDim S8192 ![] bcast_S_S8192 : (⟨S_, .i32⟩ : BufTy).Contents (Elt F) → (⟨S8192, .i32⟩ : BufTy).Contents (Elt F)),
    StableHlo.binary main_v197 main_v200 main_v201 (addi : (⟨S8192, .i32⟩ : BufTy).Contents (Elt F) → (⟨S8192, .i32⟩ : BufTy).Contents (Elt F) → (⟨S8192, .i32⟩ : BufTy).Contents (Elt F)),
    StableHlo.ternary main_v199 main_v201 main_v197 main_v202 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_49 (constantI S_ 32 0#32),
    StableHlo.unary main_c_49 main_v203 (broadcastInDim S8192 ![] bcast_S_S8192 : (⟨S_, .i32⟩ : BufTy).Contents (Elt F) → (⟨S8192, .i32⟩ : BufTy).Contents (Elt F)),
    StableHlo.binary main_v197 main_v203 main_v204 (cmpi .slt : (⟨S8192, .i32⟩ : BufTy).Contents (Elt F) → (⟨S8192, .i32⟩ : BufTy).Contents (Elt F) → (⟨S8192, .i1⟩ : BufTy).Contents (Elt F)),
    StableHlo.nullary main_c_50 (constantI S_ 32 8192#32),
    StableHlo.unary main_c_50 main_v205 (broadcastInDim S8192 ![] bcast_S_S8192 : (⟨S_, .i32⟩ : BufTy).Contents (Elt F) → (⟨S8192, .i32⟩ : BufTy).Contents (Elt F)),
    StableHlo.binary main_v197 main_v205 main_v206 (addi : (⟨S8192, .i32⟩ : BufTy).Contents (Elt F) → (⟨S8192, .i32⟩ : BufTy).Contents (Elt F) → (⟨S8192, .i32⟩ : BufTy).Contents (Elt F)),
    StableHlo.ternary main_v204 main_v206 main_v197 main_v207 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v202 main_v208 (broadcastInDim S8192x1 ![0] bcast_S8192_S8192x1_0 : (⟨S8192, .i32⟩ : BufTy).Contents (Elt F) → (⟨S8192x1, .i32⟩ : BufTy).Contents (Elt F)),
    StableHlo.unary main_v207 main_v209 (broadcastInDim S8192x1 ![0] bcast_S8192_S8192x1_0 : (⟨S8192, .i32⟩ : BufTy).Contents (Elt F) → (⟨S8192x1, .i32⟩ : BufTy).Contents (Elt F)),
    StableHlo.binary main_v208 main_v209 main_v210 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.binary main_v167 main_v210 main_v211 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)),
    StableHlo.nullary main_c_51 (constantI S_ 32 0#32),
    StableHlo.unary main_c_51 main_v212 (broadcastInDim S8192 ![] bcast_S_S8192 : (⟨S_, .i32⟩ : BufTy).Contents (Elt F) → (⟨S8192, .i32⟩ : BufTy).Contents (Elt F)),
    StableHlo.binary main_v197 main_v212 main_v213 (cmpi .slt : (⟨S8192, .i32⟩ : BufTy).Contents (Elt F) → (⟨S8192, .i32⟩ : BufTy).Contents (Elt F) → (⟨S8192, .i1⟩ : BufTy).Contents (Elt F)),
    StableHlo.nullary main_c_52 (constantI S_ 32 8192#32),
    StableHlo.unary main_c_52 main_v214 (broadcastInDim S8192 ![] bcast_S_S8192 : (⟨S_, .i32⟩ : BufTy).Contents (Elt F) → (⟨S8192, .i32⟩ : BufTy).Contents (Elt F)),
    StableHlo.binary main_v197 main_v214 main_v215 (addi : (⟨S8192, .i32⟩ : BufTy).Contents (Elt F) → (⟨S8192, .i32⟩ : BufTy).Contents (Elt F) → (⟨S8192, .i32⟩ : BufTy).Contents (Elt F)),
    StableHlo.ternary main_v213 main_v215 main_v197 main_v216 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_53 (constantI S_ 32 0#32),
    StableHlo.unary main_c_53 main_v217 (broadcastInDim S8192 ![] bcast_S_S8192 : (⟨S_, .i32⟩ : BufTy).Contents (Elt F) → (⟨S8192, .i32⟩ : BufTy).Contents (Elt F)),
    StableHlo.binary main_v197 main_v217 main_v218 (cmpi .slt : (⟨S8192, .i32⟩ : BufTy).Contents (Elt F) → (⟨S8192, .i32⟩ : BufTy).Contents (Elt F) → (⟨S8192, .i1⟩ : BufTy).Contents (Elt F)),
    StableHlo.nullary main_c_54 (constantI S_ 32 8192#32),
    StableHlo.unary main_c_54 main_v219 (broadcastInDim S8192 ![] bcast_S_S8192 : (⟨S_, .i32⟩ : BufTy).Contents (Elt F) → (⟨S8192, .i32⟩ : BufTy).Contents (Elt F)),
    StableHlo.binary main_v197 main_v219 main_v220 (addi : (⟨S8192, .i32⟩ : BufTy).Contents (Elt F) → (⟨S8192, .i32⟩ : BufTy).Contents (Elt F) → (⟨S8192, .i32⟩ : BufTy).Contents (Elt F)),
    StableHlo.ternary main_v218 main_v220 main_v197 main_v221 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v216 main_v222 (broadcastInDim S8192x1 ![0] bcast_S8192_S8192x1_0 : (⟨S8192, .i32⟩ : BufTy).Contents (Elt F) → (⟨S8192x1, .i32⟩ : BufTy).Contents (Elt F)),
    StableHlo.unary main_v221 main_v223 (broadcastInDim S8192x1 ![0] bcast_S8192_S8192x1_0 : (⟨S8192, .i32⟩ : BufTy).Contents (Elt F) → (⟨S8192x1, .i32⟩ : BufTy).Contents (Elt F)),
    StableHlo.binary main_v222 main_v223 main_v224 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.ternary main_v196 main_v224 main_v211 main_v225 ((fun x i u => Host.scatter scatter_S8192x8192_S8192x2_S8192_n_01_01_1 (fun _ b => b) x i u) : (⟨S8192x8192, .f32⟩ : BufTy).Contents (Elt F) → (⟨S8192x2, .i32⟩ : BufTy).Contents (Elt F) → (⟨S8192, .f32⟩ : BufTy).Contents (Elt F) → (⟨S8192x8192, .f32⟩ : BufTy).Contents (Elt F)),
    StableHlo.nullary main_cst_55 (constant S_ .f32 0x00000000#32),
    StableHlo.binary main_v225 main_cst_55 main_v226 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.unary main_v226 main_v227 (broadcastInDim S8192x1 ![0] bcast_S8192_S8192x1_0 : (⟨S8192, .f32⟩ : BufTy).Contents (Elt F) → (⟨S8192x1, .f32⟩ : BufTy).Contents (Elt F)),
    StableHlo.nullary main_cst_56 (constant S_ .f32 0x00000000#32),
    StableHlo.unary main_cst_56 main_v228 (broadcastInDim S8192x1 ![] bcast_S_S8192x1 : (⟨S_, .f32⟩ : BufTy).Contents (Elt F) → (⟨S8192x1, .f32⟩ : BufTy).Contents (Elt F)),
    StableHlo.binary main_v227 main_v228 main_v229 (cmpf .ogt : (⟨S8192x1, .f32⟩ : BufTy).Contents (Elt F) → (⟨S8192x1, .f32⟩ : BufTy).Contents (Elt F) → (⟨S8192x1, .i1⟩ : BufTy).Contents (Elt F)),
    StableHlo.nullary main_cst_57 (constant S_ .f32 0x3F800000#32),
    StableHlo.TRef.unary (.of main_cst_57 : StableHlo.TRef sig ⟨S_, .f32⟩) main_call4.v0 id,
    StableHlo.TRef.unary main_call4.v0 main_call4.v1 (broadcastInDim S8192x1 ![] bcast_S_S8192x1),
    StableHlo.TRef.ternary (.of main_v229 : StableHlo.TRef sig ⟨S8192x1, .i1⟩) (.of main_v227 : StableHlo.TRef sig ⟨S8192x1, .f32⟩) main_call4.v1 main_call4.v2 select,
    StableHlo.unary main_v230 main_v231 (broadcastInDim S8192x8192 ![0, 1] bcast_S8192x1_S8192x8192_0_1 : (⟨S8192x1, .f32⟩ : BufTy).Contents (Elt F) → (⟨S8192x8192, .f32⟩ : BufTy).Contents (Elt F)),
    StableHlo.binary main_v225 main_v231 main_v232 (Host.divf : (⟨S8192x8192, .f32⟩ : BufTy).Contents (Elt F) → (⟨S8192x8192, .f32⟩ : BufTy).Contents (Elt F) → (⟨S8192x8192, .f32⟩ : BufTy).Contents (Elt F)) ]

abbrev ops : List (HloOp τ sig (Elt F)) :=
  ops0 ++ (ops1 ++ (ops2 ++ (ops3 ++ ops4)))

set_option maxRecDepth 8192 in
theorem main_part0_eq (c : Dev nD) : main_part0 (F := F) c = seq ops0 := rfl

set_option maxRecDepth 8192 in
theorem main_part1_eq (c : Dev nD) : main_part1 (F := F) c = seq ops1 := rfl

set_option maxRecDepth 8192 in
theorem main_part2_eq (c : Dev nD) : main_part2 (F := F) c = seq ops2 := rfl

set_option maxRecDepth 8192 in
theorem main_part3_eq (c : Dev nD) : main_part3 (F := F) c = seq ops3 := rfl

set_option maxRecDepth 8192 in
theorem main_part4_eq (c : Dev nD) : main_part4 (F := F) c = seq ops4 := rfl

theorem main_eq (c : Dev nD) : main (F := F) c = seq ops := by
  simp only [ops, seq_append, ← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨unary_bufs_sub .., reshape_bufs_sub .., unary_bufs_sub .., reshape_bufs_sub .., nary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., nullary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub ..⟩

set_option maxRecDepth 8192 in
theorem ops1_sub : (ops1 : List (HloOp τ sig (Elt F))).Forall fun op => op.bufs ⊆ tcRefs τ sig :=
  ⟨unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., binary_bufs_sub .., nullary_bufs_sub .., nullary_bufs_sub .., nullary_bufs_sub .., quaternary_bufs_sub .., quaternary_bufs_sub .., nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., unaryIndexed_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub ..⟩

set_option maxRecDepth 8192 in
theorem ops2_sub : (ops2 : List (HloOp τ sig (Elt F))).Forall fun op => op.bufs ⊆ tcRefs τ sig :=
  ⟨unary_bufs_sub .., binary_bufs_sub .., unary_bufs_sub .., binary_bufs_sub .., binary_bufs_sub .., nullary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

set_option maxRecDepth 8192 in
theorem ops3_sub : (ops3 : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., binary_bufs_sub .., nullary_bufs_sub .., unary_bufs_sub .., binary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub ..⟩

set_option maxRecDepth 8192 in
theorem ops4_sub : (ops4 : List (HloOp τ sig (Elt F))).Forall fun op => op.bufs ⊆ tcRefs τ sig :=
  ⟨binary_bufs_sub .., ternary_bufs_sub .., unary_bufs_sub .., unary_bufs_sub .., binary_bufs_sub .., ternary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., nullary_bufs_sub .., binary_bufs_sub .., unary_bufs_sub .., nullary_bufs_sub .., unary_bufs_sub .., binary_bufs_sub .., nullary_bufs_sub .., unary_bufs_sub .., unary_bufs_sub .., ternary_bufs_sub .., unary_bufs_sub .., binary_bufs_sub ..⟩

theorem ops_sub : (ops : List (HloOp τ sig (Elt F))).Forall fun op => op.bufs ⊆ tcRefs τ sig :=
  List.forall_append.mpr ⟨ops0_sub, List.forall_append.mpr ⟨ops1_sub, List.forall_append.mpr ⟨ops2_sub, List.forall_append.mpr ⟨ops3_sub, ops4_sub⟩⟩⟩⟩

set_option maxRecDepth 8192 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_fresh : ∀ op ∈ (ops : List (HloOp τ sig (Elt F))), op.fresh = ∅ :=
  List.forall_iff_forall_mem.mp
    (List.forall_append.mpr ⟨ops0_fresh, List.forall_append.mpr ⟨ops1_fresh, List.forall_append.mpr ⟨ops2_fresh, List.forall_append.mpr ⟨ops3_fresh, ops4_fresh⟩⟩⟩⟩)

section General

variable {τ' : Topo} {sig' : RefSig} {Val : EltTy → Type}

abbrev WritesAt (op : HloOp τ' sig' Val) (y : Ref sig' .tc) : Prop := op.writes = {Proc.devRef .tc y}

theorem exists_of_forall₂ {l : List (HloOp τ' sig' Val)} {W : List (Ref sig' .tc)} (h : List.Forall₂ WritesAt l W) :
    ∀ op ∈ l, ∃ y ∈ W, op.writes = {Proc.devRef .tc y} := by
  induction h with
  | nil => intro op hop; exact absurd hop (List.not_mem_nil)
  | cons hab _ ih =>
    intro op hop
    rcases List.mem_cons.mp hop with rfl | hop
    · exact ⟨_, List.mem_cons_self, hab⟩
    · obtain ⟨y, hy, hw⟩ := ih op hop
      exact ⟨y, List.mem_cons_of_mem _ hy, hw⟩

theorem after_take_keep {l : List (HloOp τ' sig' Val)} {W : List (Ref sig' .tc)} (hW : List.Forall₂ WritesAt l W)
    (n : Nat) (r : Ref sig' .tc) (hr : r ∉ W.drop n) (V : Valuation τ' sig' Val) :
    after l V (Proc.devRef .tc r) = after (l.take n) V (Proc.devRef .tc r) := by
  conv_lhs => rw [← List.take_append_drop n l]
  rw [StableHlo.after_append]
  refine after_of_forall_not_mem (l.drop n) _ fun op hop hb => ?_
  obtain ⟨y, hy, hw⟩ := exists_of_forall₂ (List.forall₂_drop n hW) op hop
  rw [hw, Finset.mem_singleton] at hb
  exact hr (Proc.devRef_injective _ hb ▸ hy)

theorem after_read_at {l : List (HloOp τ' sig' Val)} {W : List (Ref sig' .tc)} (hW : List.Forall₂ WritesAt l W)
    (k : Nat) (hk : k < l.length) (r : Ref sig' .tc) (hr : r ∉ W.drop (k + 1)) (V : Valuation τ' sig' Val) :
    after l V (Proc.devRef .tc r) = (l[k]).result (after (l.take k) V) (Proc.devRef .tc r) := by
  rw [after_take_keep hW (k + 1) r hr V, List.take_succ_eq_append_getElem hk, StableHlo.after_append, after_cons, after_nil]

end General

abbrev W0 : List (Ref sig .tc) := [main_v0, main_v1, main_v2, main_v3, main_v4, main_c, main_v5, main_v6, main_c_0, main_v7, main_v8, main_v9, main_v10, main_v11, main_cst, main_v12, main_v13, main_v14, main_cst_1, main_v15, main_cst_2, main_v16, main_v17, main_v18, main_cst_3, main_v19, main_v20, main_v21, main_v22, main_v23, main_v24, main_v25, main_v26, main_v27, main_v28, main_v29, main_v30, main_v31, main_call0_cst, main_call0_v0, main_v32, main_cst_4, main_v33, main_v34, main_cst_5, main_v35, main_v36, main_v37, main_v38, main_v39, main_cst_6, main_v40, main_v41, main_cst_7, main_v42, main_v43, main_v44, main_v45, main_cst_8, main_v46, main_v47, main_v48]

set_option maxRecDepth 8192 in
theorem ops0_writesAt : List.Forall₂ WritesAt (ops0 : List (HloOp τ sig (Elt F))) W0 :=
  .cons (unary_writes ..) <|
    .cons (reshape_writes ..) <|
    .cons (unary_writes ..) <|
    .cons (reshape_writes ..) <|
    .cons (nary_writes ..) <|
    .cons (nullary_writes ..) <|
    .cons (unary_writes ..) <|
    .cons (binary_writes ..) <|
    .cons (nullary_writes ..) <|
    .cons (unary_writes ..) <|
    .cons (binary_writes ..) <|
    .cons (ternary_writes ..) <|
    .cons (unary_writes ..) <|
    .cons (binary_writes ..) <|
    .cons (nullary_writes ..) <|
    .cons (unary_writes ..) <|
    .cons (unary_writes ..) <|
    .cons (ternary_writes ..) <|
    .cons (nullary_writes ..) <|
    .cons (unary_writes ..) <|
    .cons (nullary_writes ..) <|
    .cons (unary_writes ..) <|
    .cons (unary_writes ..) <|
    .cons (ternary_writes ..) <|
    .cons (nullary_writes ..) <|
    .cons (unary_writes ..) <|
    .cons (binary_writes ..) <|
    .cons (unary_writes ..) <|
    .cons (unary_writes ..) <|
    .cons (binary_writes ..) <|
    .cons (unary_writes ..) <|
    .cons (binary_writes ..) <|
    .cons (unary_writes ..) <|
    .cons (unary_writes ..) <|
    .cons (binary_writes ..) <|
    .cons (unary_writes ..) <|
    .cons (binary_writes ..) <|
    .cons (binary_writes ..) <|
    .cons (nullary_writes ..) <|
    .cons (unary_writes ..) <|
    .cons (binary_writes ..) <|
    .cons (nullary_writes ..) <|
    .cons (binary_writes ..) <|
    .cons (unary_writes ..) <|
    .cons (nullary_writes ..) <|
    .cons (unary_writes ..) <|
    .cons (binary_writes ..) <|
    .cons (unary_writes ..) <|
    .cons (binary_writes ..) <|
    .cons (binary_writes ..) <|
    .cons (nullary_writes ..) <|
    .cons (binary_writes ..) <|
    .cons (unary_writes ..) <|
    .cons (nullary_writes ..) <|
    .cons (unary_writes ..) <|
    .cons (binary_writes ..) <|
    .cons (unary_writes ..) <|
    .cons (binary_writes ..) <|
    .cons (nullary_writes ..) <|
    .cons (unary_writes ..) <|
    .cons (binary_writes ..) <|
    .cons (unary_writes ..) <| .nil

abbrev W1 : List (Ref sig .tc) := [main_v49, main_v50, main_v51, main_v52, main_v53, main_v54, main_v55, main_v56, main_cst_9, main_v57, main_v58, main_c_10, main_v59, main_call1_v0, main_call1_c, main_call1_c_0, main_call1_v1_0, main_v60, main_c_11, main_v61, main_c_12, main_v62, main_v63, main_c_13, main_c_14, main_v64, main_c_15, main_c_16, main_v65, main_c_17, main_v66, main_v67, main_v68, main_v69, main_v70, main_v71, main_c_18, main_v72, main_v73, main_c_19, main_v74, main_v75, main_v76, main_v77, main_v78, main_cst_20, main_v79, main_v80, main_v81, main_cst_21, main_v82, main_cst_22, main_v83, main_v84, main_v85, main_cst_23, main_v86, main_v87, main_v88, main_v89, main_v90, main_v91, main_v92, main_v93]

set_option maxRecDepth 8192 in
theorem ops1_writesAt : List.Forall₂ WritesAt (ops1 : List (HloOp τ sig (Elt F))) W1 :=
  .cons (unary_writes ..) <|
    .cons (binary_writes ..) <|
    .cons (unary_writes ..) <|
    .cons (unary_writes ..) <|
    .cons (binary_writes ..) <|
    .cons (unary_writes ..) <|
    .cons (unary_writes ..) <|
    .cons (binary_writes ..) <|
    .cons (nullary_writes ..) <|
    .cons (unary_writes ..) <|
    .cons (binary_writes ..) <|
    .cons (nullary_writes ..) <|
    .cons (binary_writes ..) <|
    .cons (nullary_writes ..) <|
    .cons (nullary_writes ..) <|
    .cons (nullary_writes ..) <|
    .cons (quaternary_writes ..) <|
    .cons (quaternary_writes ..) <|
    .cons (nullary_writes ..) <|
    .cons (binary_writes ..) <|
    .cons (nullary_writes ..) <|
    .cons (binary_writes ..) <|
    .cons (ternary_writes ..) <|
    .cons (nullary_writes ..) <|
    .cons (nullary_writes ..) <|
    .cons (binary_writes ..) <|
    .cons (nullary_writes ..) <|
    .cons (nullary_writes ..) <|
    .cons (binary_writes ..) <|
    .cons (nullary_writes ..) <|
    .cons (ternary_writes ..) <|
    .cons (unaryIndexed_writes ..) <|
    .cons (reshape_writes ..) <|
    .cons (unary_writes ..) <|
    .cons (unary_writes ..) <|
    .cons (binary_writes ..) <|
    .cons (nullary_writes ..) <|
    .cons (unary_writes ..) <|
    .cons (binary_writes ..) <|
    .cons (nullary_writes ..) <|
    .cons (unary_writes ..) <|
    .cons (binary_writes ..) <|
    .cons (ternary_writes ..) <|
    .cons (unary_writes ..) <|
    .cons (binary_writes ..) <|
    .cons (nullary_writes ..) <|
    .cons (unary_writes ..) <|
    .cons (unary_writes ..) <|
    .cons (ternary_writes ..) <|
    .cons (nullary_writes ..) <|
    .cons (unary_writes ..) <|
    .cons (nullary_writes ..) <|
    .cons (unary_writes ..) <|
    .cons (unary_writes ..) <|
    .cons (ternary_writes ..) <|
    .cons (nullary_writes ..) <|
    .cons (unary_writes ..) <|
    .cons (binary_writes ..) <|
    .cons (unary_writes ..) <|
    .cons (unary_writes ..) <|
    .cons (binary_writes ..) <|
    .cons (unary_writes ..) <|
    .cons (binary_writes ..) <|
    .cons (unary_writes ..) <| .nil

abbrev W2 : List (Ref sig .tc) := [main_v94, main_v95, main_v96, main_v97, main_v98, main_call2_cst, main_call2_v0, main_v99, main_cst_24, main_v100, main_v101, main_cst_25, main_v102, main_v103, main_v104, main_v105, main_v106, main_cst_26, main_v107, main_v108, main_cst_27, main_v109, main_v110, main_v111, main_v112, main_cst_28, main_v113, main_v114, main_v115, main_v116, main_v117, main_v118, main_v119, main_v120, main_v121, main_v122, main_v123, main_c_29, main_v124, main_v125, main_c_30, main_v126, main_v127, main_v128, main_v129, main_v130, main_cst_31, main_v131, main_v132, main_v133, main_cst_32, main_v134, main_cst_33, main_v135, main_v136, main_v137, main_cst_34, main_v138, main_v139, main_v140, main_v141, main_v142]

set_option maxRecDepth 8192 in
theorem ops2_writesAt : List.Forall₂ WritesAt (ops2 : List (HloOp τ sig (Elt F))) W2 :=
  .cons (unary_writes ..) <|
    .cons (binary_writes ..) <|
    .cons (unary_writes ..) <|
    .cons (binary_writes ..) <|
    .cons (binary_writes ..) <|
    .cons (nullary_writes ..) <|
    .cons (unary_writes ..) <|
    .cons (binary_writes ..) <|
    .cons (nullary_writes ..) <|
    .cons (binary_writes ..) <|
    .cons (unary_writes ..) <|
    .cons (nullary_writes ..) <|
    .cons (unary_writes ..) <|
    .cons (binary_writes ..) <|
    .cons (unary_writes ..) <|
    .cons (binary_writes ..) <|
    .cons (binary_writes ..) <|
    .cons (nullary_writes ..) <|
    .cons (binary_writes ..) <|
    .cons (unary_writes ..) <|
    .cons (nullary_writes ..) <|
    .cons (unary_writes ..) <|
    .cons (binary_writes ..) <|
    .cons (unary_writes ..) <|
    .cons (binary_writes ..) <|
    .cons (nullary_writes ..) <|
    .cons (unary_writes ..) <|
    .cons (binary_writes ..) <|
    .cons (unary_writes ..) <|
    .cons (unary_writes ..) <|
    .cons (binary_writes ..) <|
    .cons (unary_writes ..) <|
    .cons (unary_writes ..) <|
    .cons (binary_writes ..) <|
    .cons (unary_writes ..) <|
    .cons (unary_writes ..) <|
    .cons (binary_writes ..) <|
    .cons (nullary_writes ..) <|
    .cons (unary_writes ..) <|
    .cons (binary_writes ..) <|
    .cons (nullary_writes ..) <|
    .cons (unary_writes ..) <|
    .cons (binary_writes ..) <|
    .cons (ternary_writes ..) <|
    .cons (unary_writes ..) <|
    .cons (binary_writes ..) <|
    .cons (nullary_writes ..) <|
    .cons (unary_writes ..) <|
    .cons (unary_writes ..) <|
    .cons (ternary_writes ..) <|
    .cons (nullary_writes ..) <|
    .cons (unary_writes ..) <|
    .cons (nullary_writes ..) <|
    .cons (unary_writes ..) <|
    .cons (unary_writes ..) <|
    .cons (ternary_writes ..) <|
    .cons (nullary_writes ..) <|
    .cons (unary_writes ..) <|
    .cons (binary_writes ..) <|
    .cons (unary_writes ..) <|
    .cons (unary_writes ..) <|
    .cons (binary_writes ..) <| .nil

abbrev W3 : List (Ref sig .tc) := [main_v143, main_v144, main_v145, main_v146, main_v147, main_v148, main_v149, main_v150, main_call3_cst, main_call3_v0, main_v151, main_v152, main_v153, main_v154, main_v155, main_v156, main_cst_35, main_v157, main_cst_36, main_v158, main_v159, main_v160, main_v161, main_v162, main_v163, main_cst_37, main_v164, main_v165, main_v166, main_v167, main_cst_38, main_v168, main_c_39, main_v169, main_v170, main_c_40, main_v171, main_v172, main_v173, main_c_41, main_v174, main_v175, main_c_42, main_v176, main_v177, main_v178, main_v179, main_v180, main_v181, main_v182, main_c_43, main_v183, main_v184, main_c_44, main_v185, main_v186, main_v187, main_c_45, main_v188, main_v189, main_c_46, main_v190]

set_option maxRecDepth 8192 in
theorem ops3_writesAt : List.Forall₂ WritesAt (ops3 : List (HloOp τ sig (Elt F))) W3 :=
  .cons (unary_writes ..) <|
    .cons (binary_writes ..) <|
    .cons (unary_writes ..) <|
    .cons (unary_writes ..) <|
    .cons (binary_writes ..) <|
    .cons (unary_writes ..) <|
    .cons (binary_writes ..) <|
    .cons (binary_writes ..) <|
    .cons (nullary_writes ..) <|
    .cons (unary_writes ..) <|
    .cons (binary_writes ..) <|
    .cons (unary_writes ..) <|
    .cons (binary_writes ..) <|
    .cons (unary_writes ..) <|
    .cons (unary_writes ..) <|
    .cons (binary_writes ..) <|
    .cons (nullary_writes ..) <|
    .cons (binary_writes ..) <|
    .cons (nullary_writes ..) <|
    .cons (unary_writes ..) <|
    .cons (binary_writes ..) <|
    .cons (unary_writes ..) <|
    .cons (unary_writes ..) <|
    .cons (binary_writes ..) <|
    .cons (unary_writes ..) <|
    .cons (nullary_writes ..) <|
    .cons (binary_writes ..) <|
    .cons (unary_writes ..) <|
    .cons (unary_writes ..) <|
    .cons (binary_writes ..) <|
    .cons (nullary_writes ..) <|
    .cons (unary_writes ..) <|
    .cons (nullary_writes ..) <|
    .cons (unary_writes ..) <|
    .cons (binary_writes ..) <|
    .cons (nullary_writes ..) <|
    .cons (unary_writes ..) <|
    .cons (binary_writes ..) <|
    .cons (ternary_writes ..) <|
    .cons (nullary_writes ..) <|
    .cons (unary_writes ..) <|
    .cons (binary_writes ..) <|
    .cons (nullary_writes ..) <|
    .cons (unary_writes ..) <|
    .cons (binary_writes ..) <|
    .cons (ternary_writes ..) <|
    .cons (unary_writes ..) <|
    .cons (unary_writes ..) <|
    .cons (binary_writes ..) <|
    .cons (binary_writes ..) <|
    .cons (nullary_writes ..) <|
    .cons (unary_writes ..) <|
    .cons (binary_writes ..) <|
    .cons (nullary_writes ..) <|
    .cons (unary_writes ..) <|
    .cons (binary_writes ..) <|
    .cons (ternary_writes ..) <|
    .cons (nullary_writes ..) <|
    .cons (unary_writes ..) <|
    .cons (binary_writes ..) <|
    .cons (nullary_writes ..) <|
    .cons (unary_writes ..) <| .nil

abbrev W4 : List (Ref sig .tc) := [main_v191, main_v192, main_v193, main_v194, main_v195, main_v196, main_v197, main_c_47, main_v198, main_v199, main_c_48, main_v200, main_v201, main_v202, main_c_49, main_v203, main_v204, main_c_50, main_v205, main_v206, main_v207, main_v208, main_v209, main_v210, main_v211, main_c_51, main_v212, main_v213, main_c_52, main_v214, main_v215, main_v216, main_c_53, main_v217, main_v218, main_c_54, main_v219, main_v220, main_v221, main_v222, main_v223, main_v224, main_v225, main_cst_55, main_v226, main_v227, main_cst_56, main_v228, main_v229, main_cst_57, main_call4_v0, main_call4_v1, main_v230, main_v231, main_v232]

set_option maxRecDepth 8192 in
theorem ops4_writesAt : List.Forall₂ WritesAt (ops4 : List (HloOp τ sig (Elt F))) W4 :=
  .cons (binary_writes ..) <|
    .cons (ternary_writes ..) <|
    .cons (unary_writes ..) <|
    .cons (unary_writes ..) <|
    .cons (binary_writes ..) <|
    .cons (ternary_writes ..) <|
    .cons (nullary_writes ..) <|
    .cons (nullary_writes ..) <|
    .cons (unary_writes ..) <|
    .cons (binary_writes ..) <|
    .cons (nullary_writes ..) <|
    .cons (unary_writes ..) <|
    .cons (binary_writes ..) <|
    .cons (ternary_writes ..) <|
    .cons (nullary_writes ..) <|
    .cons (unary_writes ..) <|
    .cons (binary_writes ..) <|
    .cons (nullary_writes ..) <|
    .cons (unary_writes ..) <|
    .cons (binary_writes ..) <|
    .cons (ternary_writes ..) <|
    .cons (unary_writes ..) <|
    .cons (unary_writes ..) <|
    .cons (binary_writes ..) <|
    .cons (binary_writes ..) <|
    .cons (nullary_writes ..) <|
    .cons (unary_writes ..) <|
    .cons (binary_writes ..) <|
    .cons (nullary_writes ..) <|
    .cons (unary_writes ..) <|
    .cons (binary_writes ..) <|
    .cons (ternary_writes ..) <|
    .cons (nullary_writes ..) <|
    .cons (unary_writes ..) <|
    .cons (binary_writes ..) <|
    .cons (nullary_writes ..) <|
    .cons (unary_writes ..) <|
    .cons (binary_writes ..) <|
    .cons (ternary_writes ..) <|
    .cons (unary_writes ..) <|
    .cons (unary_writes ..) <|
    .cons (binary_writes ..) <|
    .cons (ternary_writes ..) <|
    .cons (nullary_writes ..) <|
    .cons (binary_writes ..) <|
    .cons (unary_writes ..) <|
    .cons (nullary_writes ..) <|
    .cons (unary_writes ..) <|
    .cons (binary_writes ..) <|
    .cons (nullary_writes ..) <|
    .cons (unary_writes ..) <|
    .cons (unary_writes ..) <|
    .cons (ternary_writes ..) <|
    .cons (unary_writes ..) <|
    .cons (binary_writes ..) <| .nil

abbrev W : List (Ref sig .tc) := W0 ++ (W1 ++ (W2 ++ (W3 ++ W4)))

theorem ops_writesAt : List.Forall₂ WritesAt (ops : List (HloOp τ sig (Elt F))) W :=
  List.rel_append ops0_writesAt (List.rel_append ops1_writesAt (List.rel_append ops2_writesAt (List.rel_append ops3_writesAt ops4_writesAt)))

-- A buffer no operation writes holds after @main what it held before: the fold read at position 0.
theorem keep (r : Ref sig .tc) (h : r ∉ W) (V : Valuation τ sig (Elt F)) :
    after ops V (Proc.devRef .tc r) = V (Proc.devRef .tc r) :=
  after_take_keep ops_writesAt 0 r h V

theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v232) = StableHlo.after ops (fun b => m (c, b)) (Proc.devRef .tc main_v232)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨h c main_v232,
      (h c main_arg0).trans (keep main_arg0 (by decide +kernel) _),
      (h c main_arg1).trans (keep main_arg1 (by decide +kernel) _),
      (h c main_arg2).trans (keep main_arg2 (by decide +kernel) _),
      (h c main_arg3).trans (keep main_arg3 (by decide +kernel) _),
      (h c main_arg4).trans (keep main_arg4 (by decide +kernel) _),
      (h c main_arg5).trans (keep main_arg5 (by decide +kernel) _),
      (h c main_arg6).trans (keep main_arg6 (by decide +kernel) _),
      (h c main_arg7).trans (keep main_arg7 (by decide +kernel) _),
      (h c main_arg8).trans (keep main_arg8 (by decide +kernel) _),
      (h c main_arg9).trans (keep main_arg9 (by decide +kernel) _),
      (h c main_arg10).trans (keep main_arg10 (by decide +kernel) _),
      (h c main_arg11).trans (keep main_arg11 (by decide +kernel) _),
      (h c main_arg12).trans (keep main_arg12 (by decide +kernel) _),
      (h c main_arg13).trans (keep main_arg13 (by decide +kernel) _),
      (h c main_arg14).trans (keep main_arg14 (by decide +kernel) _),
      (h c main_arg15).trans (keep main_arg15 (by decide +kernel) _),
      (h c main_arg16).trans (keep main_arg16 (by decide +kernel) _),
      (h c main_arg17).trans (keep main_arg17 (by decide +kernel) _),
      (h c main_arg18).trans (keep main_arg18 (by decide +kernel) _),
      (h c main_arg19).trans (keep main_arg19 (by decide +kernel) _),
      (h c main_arg20).trans (keep main_arg20 (by decide +kernel) _)⟩)
    (run_seq scopedRefs_eq scopedSems_eq defs main (fun _ => ops) main_eq (fun _ => ops_sub) m ρ (fun _ => ops_fresh))

end Cert.ReferenceIdeal.RefRun

end
-- ==== Proof.SpecSage.lean ====
import Idealize.ShloMosaic.PureOps.Ideal
import Idealize.ShloMosaic.Lib.ValueIdx

noncomputable section

open scoped BigOperators

namespace Cert.KernelIdeal.Gen

open Idealize.ShloMosaic Idealize.ShloMosaic.ValueIdx

namespace Sage

def srcZ (ei : IVec ⟨2, ![2, 262144]⟩ 32) (e : Fin 262144) : ℤ := (ei (ix2 (0 : Fin 2) e)).toInt

def dstZ (ei : IVec ⟨2, ![2, 262144]⟩ 32) (e : Fin 262144) : ℤ := (ei (ix2 (1 : Fin 2) e)).toInt

def srcRow (ei : IVec ⟨2, ![2, 262144]⟩ 32) (e : Fin 262144) : Fin 8192 :=
  ⟨min (if srcZ ei e < 0 then srcZ ei e + 8192 else srcZ ei e).toNat 8191, by omega⟩

def Cnt (ei : IVec ⟨2, ![2, 262144]⟩ 32) (i j : Fin 8192) : EReal :=
  ∑ e : Fin 262144, if dstZ ei e = (i.val : ℤ) ∧ srcZ ei e = (j.val : ℤ) then (1 : EReal) else 0

def DegRaw (ei : IVec ⟨2, ![2, 262144]⟩ 32) (i : Fin 8192) : EReal :=
  ∑ e : Fin 262144, if dstZ ei e = (i.val : ℤ) then (1 : EReal) else 0

def Deg (ei : IVec ⟨2, ![2, 262144]⟩ 32) (i : Fin 8192) : EReal := max (DegRaw ei i) 1

variable {D : ℕ}

def aggK (ei : IVec ⟨2, ![2, 262144]⟩ 32) (h : Vec Ideal ⟨2, ![8192, D]⟩ .f32) (i : Fin 8192) (d : Fin D) : EReal :=
  Ideal.div (∑ j : Fin 8192, Cnt ei i j * h (ix2 j d)) (Deg ei i)

def aggR (ei : IVec ⟨2, ![2, 262144]⟩ 32) (h : Vec Ideal ⟨2, ![8192, D]⟩ .f32) (i : Fin 8192) (d : Fin D) : EReal :=
  Ideal.div (∑ e : Fin 262144, if dstZ ei e = (i.val : ℤ) then h (ix2 (srcRow ei e) d) else 0) (Deg ei i)

def linK (agg : Fin 8192 → Fin D → EReal) (h : Vec Ideal ⟨2, ![8192, D]⟩ .f32)
    (wlT wrT : Vec Ideal ⟨2, ![D, 256]⟩ .f32) (b : Vec Ideal ⟨2, ![1, 256]⟩ .f32) (i : Fin 8192) (o : Fin 256) : EReal :=
  (∑ d : Fin D, agg i d * wlT (ix2 d o)) + (∑ d : Fin D, h (ix2 i d) * wrT (ix2 d o)) + b (ix2 (0 : Fin 1) o)

def linR (agg : Fin 8192 → Fin D → EReal) (h : Vec Ideal ⟨2, ![8192, D]⟩ .f32)
    (wlT wrT : Vec Ideal ⟨2, ![D, 256]⟩ .f32) (b : Vec Ideal ⟨2, ![1, 256]⟩ .f32) (i : Fin 8192) (o : Fin 256) : EReal :=
  ((∑ d : Fin D, agg i d * wlT (ix2 d o)) + b (ix2 (0 : Fin 1) o)) + (∑ d : Fin D, h (ix2 i d) * wrT (ix2 d o))

theorem linK_eq_linR (agg : Fin 8192 → Fin D → EReal) (h : Vec Ideal ⟨2, ![8192, D]⟩ .f32)
    (wlT wrT : Vec Ideal ⟨2, ![D, 256]⟩ .f32) (b : Vec Ideal ⟨2, ![1, 256]⟩ .f32) (i : Fin 8192) (o : Fin 256) :
    linK agg h wlT wrT b i o = linR agg h wlT wrT b i o := by
  unfold linK linR
  exact add_right_comm _ _ _

def relu (x : EReal) : EReal := max x 0

def LNmean (x : Fin 256 → EReal) : EReal := Ideal.div (∑ o : Fin 256, x o) (Ideal.ofBits .f32 0x43800000#32)

def LNvar (x : Fin 256 → EReal) : EReal :=
  Ideal.div (∑ o : Fin 256, (x o - LNmean x) * (x o - LNmean x)) (Ideal.ofBits .f32 0x43800000#32)

def LN (x : Fin 256 → EReal) (g be : Vec Ideal ⟨2, ![1, 256]⟩ .f32) (o : Fin 256) : EReal :=
  Ideal.div (x o - LNmean x) (Ideal.sqrt (LNvar x + Ideal.ofBits .f32 0x3727C5AC#32)) * g (ix2 (0 : Fin 1) o)
    + be (ix2 (0 : Fin 1) o)

def post (ln : Bool) (pre : Fin 8192 → Fin 256 → EReal) (g be : Vec Ideal ⟨2, ![1, 256]⟩ .f32)
    (i : Fin 8192) (o : Fin 256) : EReal :=
  if ln then LN (fun o' => relu (pre i o')) g be o else relu (pre i o)

end Sage

open Sage

def SageK (D : ℕ) (ln : Bool) (ei : IVec ⟨2, ![2, 262144]⟩ 32) (h : Vec Ideal ⟨2, ![8192, D]⟩ .f32)
    (wlT wrT : Vec Ideal ⟨2, ![D, 256]⟩ .f32) (b g be : Vec Ideal ⟨2, ![1, 256]⟩ .f32) : Vec Ideal ⟨2, ![8192, 256]⟩ .f32 :=
  fun x => post ln (linK (aggK ei h) h wlT wrT b) g be (x 0) (x 1)

def SageR (D : ℕ) (ln : Bool) (ei : IVec ⟨2, ![2, 262144]⟩ 32) (h : Vec Ideal ⟨2, ![8192, D]⟩ .f32)
    (wlT wrT : Vec Ideal ⟨2, ![D, 256]⟩ .f32) (b g be : Vec Ideal ⟨2, ![1, 256]⟩ .f32) : Vec Ideal ⟨2, ![8192, 256]⟩ .f32 :=
  fun x => post ln (linR (aggR ei h) h wlT wrT b) g be (x 0) (x 1)

end Cert.KernelIdeal.Gen

end
-- ==== Proof.SageForms.lean ====
import proofs.«407196_j36060545417339_2_alg».proof.Proof.SpecSage
import Mathlib.Data.EReal.Operations
import Mathlib.Data.EReal.Inv
import Mathlib.Algebra.BigOperators.Ring.Finset
import Mathlib.Algebra.Order.BigOperators.Group.Finset

noncomputable section

open scoped BigOperators

namespace Cert.KernelIdeal.Gen

open Idealize.ShloMosaic Idealize.ShloMosaic.ValueIdx

namespace Sage

theorem sum_mul_of_nonneg {ι : Type} (s : Finset ι) (c : ι → EReal) (hc : ∀ e ∈ s, 0 ≤ c e) (x : EReal) :
    (∑ e ∈ s, c e) * x = ∑ e ∈ s, c e * x := by
  classical
  induction s using Finset.induction_on with
  | empty => simp
  | insert a s ha ih =>
    rw [Finset.sum_insert ha, Finset.sum_insert ha,
      EReal.right_distrib_of_nonneg (hc a (Finset.mem_insert_self a s))
        (Finset.sum_nonneg fun e he => hc e (Finset.mem_insert_of_mem he)),
      ih (fun e he => hc e (Finset.mem_insert_of_mem he))]

theorem ind_nonneg (p : Prop) [Decidable p] : (0 : EReal) ≤ if p then (1 : EReal) else 0 := by
  split_ifs
  · exact zero_le_one
  · exact le_rfl

variable (ei : IVec ⟨2, ![2, 262144]⟩ 32)

theorem srcRow_val (e : Fin 262144) (h0 : 0 ≤ srcZ ei e) (h1 : srcZ ei e < 8192) :
    ((srcRow ei e).val : ℤ) = srcZ ei e := by
  unfold srcRow
  show ((min (if srcZ ei e < 0 then srcZ ei e + 8192 else srcZ ei e).toNat 8191 : ℕ) : ℤ) = srcZ ei e
  rw [if_neg (not_lt.mpr h0)]
  omega

theorem Cnt_eq_card (i j : Fin 8192) :
    Cnt ei i j = ((Finset.univ.filter fun e : Fin 262144 => dstZ ei e = (i.val : ℤ) ∧ srcZ ei e = (j.val : ℤ)).card : EReal) := by
  unfold Cnt
  exact (Finset.natCast_card_filter _ _).symm

theorem DegRaw_eq_card (i : Fin 8192) :
    DegRaw ei i = ((Finset.univ.filter fun e : Fin 262144 => dstZ ei e = (i.val : ℤ)).card : EReal) := by
  unfold DegRaw
  exact (Finset.natCast_card_filter _ _).symm

theorem Cnt_eq_coe (i j : Fin 8192) : ∃ n : ℕ, Cnt ei i j = ((n : ℝ) : EReal) :=
  ⟨_, by rw [Cnt_eq_card]; rfl⟩

theorem Deg_eq_coe (i : Fin 8192) : ∃ r : ℝ, 1 ≤ r ∧ Deg ei i = (r : EReal) := by
  refine ⟨max ((Finset.univ.filter fun e : Fin 262144 => dstZ ei e = (i.val : ℤ)).card : ℝ) 1, le_max_right _ _, ?_⟩
  unfold Deg
  rw [DegRaw_eq_card]
  exact (EReal.coe_strictMono.monotone.map_max).symm

variable {D : ℕ}

theorem count_mul_eq_edge_sum
    (hrange : ∀ e, 0 ≤ srcZ ei e ∧ srcZ ei e < 8192 ∧ 0 ≤ dstZ ei e ∧ dstZ ei e < 8192)
    (h : Vec Ideal ⟨2, ![8192, D]⟩ .f32) (i : Fin 8192) (d : Fin D) :
    (∑ j : Fin 8192, Cnt ei i j * h (ix2 j d))
      = ∑ e : Fin 262144, if dstZ ei e = (i.val : ℤ) then h (ix2 (srcRow ei e) d) else 0 := by
  have h1 : ∀ j : Fin 8192, Cnt ei i j * h (ix2 j d)
      = ∑ e : Fin 262144, (if dstZ ei e = (i.val : ℤ) ∧ srcZ ei e = (j.val : ℤ) then (1 : EReal) else 0) * h (ix2 j d) := by
    intro j
    unfold Cnt
    exact sum_mul_of_nonneg _ _ (fun e _ => ind_nonneg _) _
  rw [Finset.sum_congr rfl (fun j _ => h1 j), Finset.sum_comm]
  refine Finset.sum_congr rfl (fun e _ => ?_)
  have hs : ((srcRow ei e).val : ℤ) = srcZ ei e := srcRow_val ei e (hrange e).1 (hrange e).2.1
  by_cases hd : dstZ ei e = (i.val : ℤ)
  · rw [if_pos hd, Finset.sum_eq_single (srcRow ei e)]
    · rw [if_pos ⟨hd, hs.symm⟩, one_mul]
    · intro j _ hj
      rw [if_neg, zero_mul]
      rintro ⟨_, hsj⟩
      exact hj (Fin.ext (by omega))
    · intro hn
      exact absurd (Finset.mem_univ _) hn
  · rw [if_neg hd]
    refine Finset.sum_eq_zero (fun j _ => ?_)
    rw [if_neg (fun hh => hd hh.1), zero_mul]

theorem aggK_eq_aggR
    (hrange : ∀ e, 0 ≤ srcZ ei e ∧ srcZ ei e < 8192 ∧ 0 ≤ dstZ ei e ∧ dstZ ei e < 8192)
    (h : Vec Ideal ⟨2, ![8192, D]⟩ .f32) : aggK ei h = aggR ei h := by
  funext i d
  unfold aggK aggR
  rw [count_mul_eq_edge_sum ei hrange h i d]

end Sage

open Sage

theorem SageK_eq_SageR (D : ℕ) (ln : Bool) (ei : IVec ⟨2, ![2, 262144]⟩ 32)
    (hrange : ∀ e, 0 ≤ srcZ ei e ∧ srcZ ei e < 8192 ∧ 0 ≤ dstZ ei e ∧ dstZ ei e < 8192)
    (h : Vec Ideal ⟨2, ![8192, D]⟩ .f32) (wlT wrT : Vec Ideal ⟨2, ![D, 256]⟩ .f32) (b g be : Vec Ideal ⟨2, ![1, 256]⟩ .f32) :
    SageK D ln ei h wlT wrT b g be = SageR D ln ei h wlT wrT b g be := by
  funext x
  unfold SageK SageR
  rw [aggK_eq_aggR ei hrange h]
  have hl : linK (aggR ei h) h wlT wrT b = linR (aggR ei h) h wlT wrT b := by
    funext i o
    exact linK_eq_linR _ _ _ _ _ _ _
  rw [hl]

end Cert.KernelIdeal.Gen

end
-- ==== Proof.SpecSoftmax.lean ====
import Idealize.ShloMosaic.PureOps.Ideal
import Idealize.ShloMosaic.Lib.ValueIdx

noncomputable section

open scoped BigOperators

namespace Cert.KernelIdeal.Gen

open Idealize.ShloMosaic Idealize.ShloMosaic.ValueIdx

def G3L (h : Vec Ideal ⟨2, ![8192, 256]⟩ .f32) (wT : Vec Ideal ⟨2, ![256, 8192]⟩ .f32) (b : Vec Ideal ⟨2, ![1, 8192]⟩ .f32)
    (i j : Fin 8192) : EReal :=
  (∑ k : Fin 256, h (ix2 i k) * wT (ix2 k j)) + b (ix2 (0 : Fin 1) j)

def G3M (h : Vec Ideal ⟨2, ![8192, 256]⟩ .f32) (wT : Vec Ideal ⟨2, ![256, 8192]⟩ .f32) (b : Vec Ideal ⟨2, ![1, 8192]⟩ .f32)
    (i : Fin 8192) : EReal :=
  (Finset.univ : Finset (Fin 8192)).fold max (Ideal.ofBits .f32 0xFF800000#32) (fun j => G3L h wT b i j)

def G3msk (mask : Vec Ideal ⟨2, ![8192, 8192]⟩ .bf16) (i j : Fin 8192) : EReal :=
  max (mask (ix2 i j)) (if i = j then 1 else 0)

def G3mp (h : Vec Ideal ⟨2, ![8192, 256]⟩ .f32) (wT : Vec Ideal ⟨2, ![256, 8192]⟩ .f32) (b : Vec Ideal ⟨2, ![1, 8192]⟩ .f32)
    (mask : Vec Ideal ⟨2, ![8192, 8192]⟩ .bf16) (i j : Fin 8192) : EReal :=
  Ideal.exp (G3L h wT b i j - G3M h wT b i) * G3msk mask i j

def G3s (h : Vec Ideal ⟨2, ![8192, 256]⟩ .f32) (wT : Vec Ideal ⟨2, ![256, 8192]⟩ .f32) (b : Vec Ideal ⟨2, ![1, 8192]⟩ .f32)
    (mask : Vec Ideal ⟨2, ![8192, 8192]⟩ .bf16) (i : Fin 8192) : EReal :=
  ∑ j : Fin 8192, G3mp h wT b mask i j

def G3at (h : Vec Ideal ⟨2, ![8192, 256]⟩ .f32) (wT : Vec Ideal ⟨2, ![256, 8192]⟩ .f32) (b : Vec Ideal ⟨2, ![1, 8192]⟩ .f32)
    (mask : Vec Ideal ⟨2, ![8192, 8192]⟩ .bf16) (i j : Fin 8192) : EReal :=
  Ideal.div (G3mp h wT b mask i j)
    (Scalar.select (Ideal.cmp .ogt (G3s h wT b mask i) (Ideal.ofBits .f32 0x00000000#32)) (G3s h wT b mask i) (Ideal.ofBits .f32 0x3F800000#32))

def G3 (h : Vec Ideal ⟨2, ![8192, 256]⟩ .f32) (wT : Vec Ideal ⟨2, ![256, 8192]⟩ .f32) (b : Vec Ideal ⟨2, ![1, 8192]⟩ .f32)
    (mask : Vec Ideal ⟨2, ![8192, 8192]⟩ .bf16) : Vec Ideal ⟨2, ![8192, 8192]⟩ .f32 :=
  fun x => G3at h wT b mask (x 0) (x 1)

theorem G3_ix2 (h : Vec Ideal ⟨2, ![8192, 256]⟩ .f32) (wT : Vec Ideal ⟨2, ![256, 8192]⟩ .f32) (b : Vec Ideal ⟨2, ![1, 8192]⟩ .f32)
    (mask : Vec Ideal ⟨2, ![8192, 8192]⟩ .bf16) (i j : Fin 8192) : G3 h wT b mask (ix2 i j) = G3at h wT b mask i j := rfl

end Cert.KernelIdeal.Gen

end
-- ==== Proof.LibIdealReal.lean ====
import Idealize.ShloMosaic.PureOps.Ideal
import Idealize.ShloMosaic.PureOps.Ideal.Laws

noncomputable section

namespace Idealize.ShloMosaic.IdealReal

open Idealize.ShloMosaic

theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem div_coe_coe (x y : ℝ) (hy : y ≠ 0) : Ideal.div (x : EReal) (y : EReal) = ((x / y : ℝ) : EReal) := by
  rw [Ideal.div_coe hy, ← EReal.coe_mul]
  congr 1
  field_simp

theorem cmp_ogt_coe (x y : ℝ) : Ideal.cmp .ogt (x : EReal) (y : EReal) = if y < x then 1#1 else 0#1 := by
  unfold Ideal.cmp
  by_cases h : y < x
  · simp [h, EReal.coe_lt_coe_iff]
  · simp [h, EReal.coe_lt_coe_iff]

end Idealize.ShloMosaic.IdealReal

end
-- ==== Proof.SoftmaxForms.lean ====
import proofs.«407196_j36060545417339_2_alg».proof.Proof.SpecSoftmax
import proofs.«407196_j36060545417339_2_alg».proof.Proof.LibIdealReal
import Idealize.ShloMosaic.PureOps.Ideal
import Idealize.ShloMosaic.PureOps.Ideal.Laws
import Idealize.ShloMosaic.Lib.IdealHost
import Idealize.ShloMosaic.Lib.ValueIdx
import Mathlib.Data.EReal.Basic
import Mathlib.Data.EReal.Operations
import Mathlib.Analysis.SpecialFunctions.Exp

noncomputable section

open scoped BigOperators

namespace Cert.KernelIdeal.Gen

open Idealize.ShloMosaic Idealize.ShloMosaic.ValueIdx

def R3u (h : Vec Ideal ⟨2, ![8192, 256]⟩ .f32) (wT : Vec Ideal ⟨2, ![256, 8192]⟩ .f32) (b : Vec Ideal ⟨2, ![1, 8192]⟩ .f32)
    (i j : Fin 8192) : EReal :=
  Ideal.exp (G3L h wT b i j - G3M h wT b i)

def R3p (h : Vec Ideal ⟨2, ![8192, 256]⟩ .f32) (wT : Vec Ideal ⟨2, ![256, 8192]⟩ .f32) (b : Vec Ideal ⟨2, ![1, 8192]⟩ .f32)
    (i j : Fin 8192) : EReal :=
  Ideal.div (R3u h wT b i j) (∑ k : Fin 8192, R3u h wT b i k)

def R3mp (h : Vec Ideal ⟨2, ![8192, 256]⟩ .f32) (wT : Vec Ideal ⟨2, ![256, 8192]⟩ .f32) (b : Vec Ideal ⟨2, ![1, 8192]⟩ .f32)
    (nbr : Fin 8192 → Fin 8192 → Prop) [∀ i j, Decidable (nbr i j)] (i j : Fin 8192) : EReal :=
  if nbr i j ∨ i = j then R3p h wT b i j else 0

def R3s (h : Vec Ideal ⟨2, ![8192, 256]⟩ .f32) (wT : Vec Ideal ⟨2, ![256, 8192]⟩ .f32) (b : Vec Ideal ⟨2, ![1, 8192]⟩ .f32)
    (nbr : Fin 8192 → Fin 8192 → Prop) [∀ i j, Decidable (nbr i j)] (i : Fin 8192) : EReal :=
  ∑ j : Fin 8192, R3mp h wT b nbr i j

def R3at (h : Vec Ideal ⟨2, ![8192, 256]⟩ .f32) (wT : Vec Ideal ⟨2, ![256, 8192]⟩ .f32) (b : Vec Ideal ⟨2, ![1, 8192]⟩ .f32)
    (nbr : Fin 8192 → Fin 8192 → Prop) [∀ i j, Decidable (nbr i j)] (i j : Fin 8192) : EReal :=
  Ideal.div (R3mp h wT b nbr i j)
    (Scalar.select (Ideal.cmp .ogt (R3s h wT b nbr i) (Ideal.ofBits .f32 0x00000000#32)) (R3s h wT b nbr i) (Ideal.ofBits .f32 0x3F800000#32))

def R3 (h : Vec Ideal ⟨2, ![8192, 256]⟩ .f32) (wT : Vec Ideal ⟨2, ![256, 8192]⟩ .f32) (b : Vec Ideal ⟨2, ![1, 8192]⟩ .f32)
    (nbr : Fin 8192 → Fin 8192 → Prop) [∀ i j, Decidable (nbr i j)] : Vec Ideal ⟨2, ![8192, 8192]⟩ .f32 :=
  fun x => R3at h wT b nbr (x 0) (x 1)

theorem R3_ix2 (h : Vec Ideal ⟨2, ![8192, 256]⟩ .f32) (wT : Vec Ideal ⟨2, ![256, 8192]⟩ .f32) (b : Vec Ideal ⟨2, ![1, 8192]⟩ .f32)
    (nbr : Fin 8192 → Fin 8192 → Prop) [∀ i j, Decidable (nbr i j)] (i j : Fin 8192) :
    R3 h wT b nbr (ix2 i j) = R3at h wT b nbr i j := rfl

theorem select_of_pos (S : ℝ) (hS : 0 < S) :
    Scalar.select (Ideal.cmp .ogt (S : EReal) (Ideal.ofBits .f32 0x00000000#32)) (S : EReal) (Ideal.ofBits .f32 0x3F800000#32)
      = (S : EReal) := by
  rw [Ideal.ofBits_zero_f32, ← EReal.coe_zero, IdealReal.cmp_ogt_coe, if_pos hS]
  simp [Scalar.select]

theorem masked_row {ι : Type} [Fintype ι] (a : ι → ℝ) (ha : ∀ j, 0 < a j) (c : ι → Prop) [DecidablePred c]
    (j0 : ι) (hc : c j0) (j : ι) :
    Ideal.div ((a j : EReal) * (if c j then 1 else 0))
        (Scalar.select (Ideal.cmp .ogt (∑ k, (a k : EReal) * (if c k then 1 else 0)) (Ideal.ofBits .f32 0x00000000#32))
          (∑ k, (a k : EReal) * (if c k then 1 else 0)) (Ideal.ofBits .f32 0x3F800000#32))
      = Ideal.div (if c j then Ideal.div (a j : EReal) (∑ l, (a l : EReal)) else 0)
        (Scalar.select (Ideal.cmp .ogt (∑ k, (if c k then Ideal.div (a k : EReal) (∑ l, (a l : EReal)) else 0))
            (Ideal.ofBits .f32 0x00000000#32))
          (∑ k, (if c k then Ideal.div (a k : EReal) (∑ l, (a l : EReal)) else 0)) (Ideal.ofBits .f32 0x3F800000#32)) := by
  have hZ : 0 < ∑ k, a k := Finset.sum_pos (fun k _ => ha k) ⟨j0, Finset.mem_univ _⟩
  have hw0 : ∀ k, 0 ≤ (if c k then a k else 0) := fun k => by
    split
    · exact (ha k).le
    · exact le_rfl
  have hS : 0 < ∑ k, (if c k then a k else 0) :=
    Finset.sum_pos' (fun k _ => hw0 k) ⟨j0, Finset.mem_univ _, by rw [if_pos hc]; exact ha j0⟩
  have e1 : ∀ k, (a k : EReal) * (if c k then 1 else 0) = (((if c k then a k else 0 : ℝ)) : EReal) := fun k => by
    by_cases hk : c k
    · rw [if_pos hk, if_pos hk, mul_one]
    · rw [if_neg hk, if_neg hk, mul_zero, EReal.coe_zero]
  have e2 : (∑ l, (a l : EReal)) = ((∑ l, a l : ℝ) : EReal) := IdealReal.coe_sum _ _
  have e3 : ∀ k, (if c k then Ideal.div (a k : EReal) ((∑ l, a l : ℝ) : EReal) else 0)
      = ((((if c k then a k else 0) / ∑ l, a l : ℝ)) : EReal) := fun k => by
    by_cases hk : c k
    · rw [if_pos hk, if_pos hk, IdealReal.div_coe_coe _ _ hZ.ne']
    · rw [if_neg hk, if_neg hk, zero_div, EReal.coe_zero]
  simp only [e2, e1, e3]
  rw [IdealReal.coe_sum, IdealReal.coe_sum, ← Finset.sum_div,
    select_of_pos _ hS, select_of_pos _ (div_pos hS hZ),
    IdealReal.div_coe_coe _ _ hS.ne', IdealReal.div_coe_coe _ _ (div_pos hS hZ).ne']
  congr 1
  field_simp

theorem ofBits_neg_inf_f32 : Ideal.ofBits .f32 0xFF800000#32 = (⊥ : EReal) := by
  simp [Ideal.ofBits, Ideal.ieee]

theorem G3M_real (h : Vec Ideal ⟨2, ![8192, 256]⟩ .f32) (wT : Vec Ideal ⟨2, ![256, 8192]⟩ .f32) (b : Vec Ideal ⟨2, ![1, 8192]⟩ .f32)
    (hL : ∀ i j, ∃ r : ℝ, G3L h wT b i j = (r : EReal)) (i : Fin 8192) : ∃ m : ℝ, G3M h wT b i = (m : EReal) := by
  have hsup : G3M h wT b i = (Finset.univ : Finset (Fin 8192)).sup (fun j => G3L h wT b i j) := by
    unfold G3M; rw [ofBits_neg_inf_f32]; rfl
  obtain ⟨j0, -, hj0⟩ := Finset.exists_mem_eq_sup (Finset.univ : Finset (Fin 8192)) ⟨i, Finset.mem_univ i⟩
    (fun j => G3L h wT b i j)
  obtain ⟨r, hr⟩ := hL i j0
  exact ⟨r, by rw [hsup, hj0, hr]⟩

theorem G3msk_eq (mask : Vec Ideal ⟨2, ![8192, 8192]⟩ .bf16) (nbr : Fin 8192 → Fin 8192 → Prop) [∀ i j, Decidable (nbr i j)]
    (hmask : ∀ i j, (mask (ix2 i j) : EReal) = if nbr i j then 1 else 0) (i j : Fin 8192) :
    G3msk mask i j = if nbr i j ∨ i = j then 1 else 0 := by
  unfold G3msk
  rw [hmask i j]
  by_cases h1 : nbr i j
  · rw [if_pos h1, if_pos (Or.inl h1)]
    by_cases h2 : i = j
    · rw [if_pos h2, max_self]
    · rw [if_neg h2]; exact max_eq_left zero_le_one
  · rw [if_neg h1]
    by_cases h2 : i = j
    · rw [if_pos h2, if_pos (Or.inr h2)]; exact max_eq_right zero_le_one
    · rw [if_neg h2, if_neg (fun h => h.elim h1 h2), max_self]

theorem G3at_eq_R3at (h : Vec Ideal ⟨2, ![8192, 256]⟩ .f32) (wT : Vec Ideal ⟨2, ![256, 8192]⟩ .f32) (b : Vec Ideal ⟨2, ![1, 8192]⟩ .f32)
    (mask : Vec Ideal ⟨2, ![8192, 8192]⟩ .bf16) (nbr : Fin 8192 → Fin 8192 → Prop) [∀ i j, Decidable (nbr i j)]
    (hL : ∀ i j, ∃ r : ℝ, G3L h wT b i j = (r : EReal))
    (hmask : ∀ i j, (mask (ix2 i j) : EReal) = if nbr i j then 1 else 0) (i j : Fin 8192) :
    G3at h wT b mask i j = R3at h wT b nbr i j := by
  obtain ⟨m, hm⟩ := G3M_real h wT b hL i
  choose ℓ hℓ using hL i
  have hu : ∀ k, Ideal.exp (G3L h wT b i k - G3M h wT b i) = ((Real.exp (ℓ k - m) : ℝ) : EReal) := fun k => by
    rw [hℓ k, hm, ← EReal.coe_sub, Ideal.exp_coe]
  have hk : ∀ k, G3msk mask i k = if nbr i k ∨ i = k then 1 else 0 := G3msk_eq mask nbr hmask i
  unfold G3at G3s G3mp R3at R3s R3mp R3p R3u
  simp only [hu, hk]
  exact masked_row (fun k => Real.exp (ℓ k - m)) (fun k => Real.exp_pos _) (fun k => nbr i k ∨ i = k) i (Or.inr rfl) j

theorem G3_eq_R3 (h : Vec Ideal ⟨2, ![8192, 256]⟩ .f32) (wT : Vec Ideal ⟨2, ![256, 8192]⟩ .f32) (b : Vec Ideal ⟨2, ![1, 8192]⟩ .f32)
    (mask : Vec Ideal ⟨2, ![8192, 8192]⟩ .bf16) (nbr : Fin 8192 → Fin 8192 → Prop) [∀ i j, Decidable (nbr i j)]
    (hL : ∀ i j, ∃ r : ℝ, G3L h wT b i j = (r : EReal))
    (hmask : ∀ i j, (mask (ix2 i j) : EReal) = if nbr i j then 1 else 0) :
    G3 h wT b mask = R3 h wT b nbr :=
  funext fun x => G3at_eq_R3at h wT b mask nbr hL hmask (x 0) (x 1)

end Cert.KernelIdeal.Gen

end
-- ==== Proof.FiniteClosure.lean ====
import proofs.«407196_j36060545417339_2_alg».proof.Proof.LibIdealReal
import Idealize.ShloMosaic.PureOps.Ideal
import Idealize.ShloMosaic.PureOps.Ideal.Laws
import Idealize.ShloMosaic.Lib.IdealHost
import Mathlib.Data.EReal.Basic
import Mathlib.Data.EReal.Operations
import Mathlib.Analysis.SpecialFunctions.Sqrt

noncomputable section

open scoped BigOperators

namespace Cert.KernelIdeal.Gen

open Idealize.ShloMosaic

def IsR (x : EReal) : Prop := ∃ r : ℝ, x = (r : EReal)

namespace IsR

theorem coe (r : ℝ) : IsR (r : EReal) := ⟨r, rfl⟩

theorem zero : IsR 0 := ⟨0, rfl⟩

theorem one : IsR 1 := ⟨1, rfl⟩

theorem natCast (n : ℕ) : IsR (n : EReal) := ⟨(n : ℝ), by norm_cast⟩

theorem add {x y : EReal} (hx : IsR x) (hy : IsR y) : IsR (x + y) := by
  obtain ⟨a, rfl⟩ := hx; obtain ⟨b, rfl⟩ := hy; exact ⟨a + b, (EReal.coe_add a b).symm⟩

theorem mul {x y : EReal} (hx : IsR x) (hy : IsR y) : IsR (x * y) := by
  obtain ⟨a, rfl⟩ := hx; obtain ⟨b, rfl⟩ := hy; exact ⟨a * b, (EReal.coe_mul a b).symm⟩

theorem sub {x y : EReal} (hx : IsR x) (hy : IsR y) : IsR (x - y) := by
  obtain ⟨a, rfl⟩ := hx; obtain ⟨b, rfl⟩ := hy; exact ⟨a - b, (EReal.coe_sub a b).symm⟩

theorem ite {p : Prop} [Decidable p] {x y : EReal} (hx : IsR x) (hy : IsR y) : IsR (if p then x else y) := by
  split
  · exact hx
  · exact hy

theorem sum {ι : Type*} (s : Finset ι) (f : ι → EReal) (h : ∀ i ∈ s, IsR (f i)) : IsR (∑ i ∈ s, f i) := by
  classical
  induction s using Finset.induction_on with
  | empty => rw [Finset.sum_empty]; exact zero
  | insert a s ha ih =>
    rw [Finset.sum_insert ha]
    exact add (h a (Finset.mem_insert_self a s)) (ih fun i hi => h i (Finset.mem_insert_of_mem hi))

theorem max {x y : EReal} (hx : IsR x) (hy : IsR y) : IsR (max x y) := by
  rcases max_choice x y with h | h <;> rw [h] <;> assumption

theorem min {x y : EReal} (hx : IsR x) (hy : IsR y) : IsR (min x y) := by
  rcases min_choice x y with h | h <;> rw [h] <;> assumption

theorem div {x y : EReal} (hx : IsR x) (hy : IsR y) (hy0 : y ≠ 0) : IsR (Ideal.div x y) := by
  obtain ⟨a, rfl⟩ := hx; obtain ⟨b, rfl⟩ := hy
  have hb : b ≠ 0 := fun e => hy0 (by rw [e]; rfl)
  exact ⟨a / b, IdealReal.div_coe_coe a b hb⟩

theorem div_pos {x y : EReal} (hx : IsR x) (hy : IsR y) (hy0 : 0 < y) : IsR (Ideal.div x y) :=
  div hx hy hy0.ne'

theorem div_one_le {x y : EReal} (hx : IsR x) (hy : IsR y) (hy1 : 1 ≤ y) : IsR (Ideal.div x y) :=
  div_pos hx hy (lt_of_lt_of_le zero_lt_one hy1)

theorem exp {x : EReal} (hx : IsR x) : IsR (Ideal.exp x) := by
  obtain ⟨a, rfl⟩ := hx; exact ⟨Real.exp a, Ideal.exp_coe a⟩

theorem exp_pos {x : EReal} (hx : IsR x) : 0 < Ideal.exp x := by
  obtain ⟨a, rfl⟩ := hx
  rw [Ideal.exp_coe]; exact EReal.coe_pos.mpr (Real.exp_pos a)

theorem sqrt {x : EReal} (hx : IsR x) (h0 : 0 ≤ x) : IsR (Ideal.sqrt x) := by
  obtain ⟨a, rfl⟩ := hx
  have ha : ¬ a < 0 := not_lt.mpr (EReal.coe_nonneg.mp h0)
  exact ⟨Real.sqrt a, by rw [Ideal.sqrt_coe, if_neg ha]⟩

theorem sqrt_pos {x : EReal} (hx : IsR x) (h0 : 0 < x) : 0 < Ideal.sqrt x := by
  obtain ⟨a, rfl⟩ := hx
  have ha : 0 < a := EReal.coe_pos.mp h0
  rw [Ideal.sqrt_coe, if_neg (not_lt.mpr ha.le)]
  exact EReal.coe_pos.mpr (Real.sqrt_pos.mpr ha)

theorem mul_self_nonneg {x : EReal} (hx : IsR x) : 0 ≤ x * x := by
  obtain ⟨a, rfl⟩ := hx
  rw [← EReal.coe_mul]; exact EReal.coe_nonneg.mpr (_root_.mul_self_nonneg a)

theorem div_nonneg {x y : EReal} (hx : IsR x) (hy : IsR y) (hx0 : 0 ≤ x) (hy0 : 0 < y) : 0 ≤ Ideal.div x y := by
  obtain ⟨a, rfl⟩ := hx; obtain ⟨b, rfl⟩ := hy
  have hb : 0 < b := EReal.coe_pos.mp hy0
  rw [IdealReal.div_coe_coe a b hb.ne']
  exact EReal.coe_nonneg.mpr (_root_.div_nonneg (EReal.coe_nonneg.mp hx0) hb.le)

end IsR

theorem ofBits_256_f32 : Ideal.ofBits .f32 0x43800000#32 = ((256 : ℝ) : EReal) := by
  simp [Ideal.ofBits, Ideal.ieee, -EReal.coe_mul]; norm_num

theorem ofBits_eps_f32 : ∃ e : ℝ, 0 < e ∧ Ideal.ofBits .f32 0x3727C5AC#32 = (e : EReal) := by
  refine ⟨_, ?_, by simp [Ideal.ofBits, Ideal.ieee, -EReal.coe_mul]; rfl⟩
  norm_num

theorem isR_ofBits_256_f32 : IsR (Ideal.ofBits .f32 0x43800000#32) := ⟨256, ofBits_256_f32⟩

theorem ofBits_256_f32_pos : 0 < Ideal.ofBits .f32 0x43800000#32 := by
  rw [ofBits_256_f32]; exact EReal.coe_pos.mpr (by norm_num)

theorem isR_ofBits_eps_f32 : IsR (Ideal.ofBits .f32 0x3727C5AC#32) := by
  obtain ⟨e, -, h⟩ := ofBits_eps_f32; exact ⟨e, h⟩

theorem ofBits_eps_f32_pos : 0 < Ideal.ofBits .f32 0x3727C5AC#32 := by
  obtain ⟨e, he, h⟩ := ofBits_eps_f32; rw [h]; exact EReal.coe_pos.mpr he

section Row

variable {ι : Type*} [Fintype ι]

theorem IsR.mean (x : ι → EReal) (hx : ∀ k, IsR (x k)) {c : EReal} (hc : IsR c) (hc0 : 0 < c) :
    IsR (Ideal.div (∑ l, x l) c) :=
  IsR.div_pos (IsR.sum _ _ fun l _ => hx l) hc hc0

theorem IsR.variance (x : ι → EReal) (hx : ∀ k, IsR (x k)) {m c : EReal} (hm : IsR m) (hc : IsR c) (hc0 : 0 < c) :
    IsR (Ideal.div (∑ l, (x l - m) * (x l - m)) c) ∧ 0 ≤ Ideal.div (∑ l, (x l - m) * (x l - m)) c := by
  have hs : IsR (∑ l, (x l - m) * (x l - m)) :=
    IsR.sum _ _ fun l _ => IsR.mul (IsR.sub (hx l) hm) (IsR.sub (hx l) hm)
  have h0 : (0 : EReal) ≤ ∑ l, (x l - m) * (x l - m) :=
    Finset.sum_nonneg fun l _ => IsR.mul_self_nonneg (IsR.sub (hx l) hm)
  exact ⟨IsR.div_pos hs hc hc0, IsR.div_nonneg hs hc h0 hc0⟩

theorem IsR.std (x : ι → EReal) (hx : ∀ k, IsR (x k)) {m c e : EReal} (hm : IsR m) (hc : IsR c) (hc0 : 0 < c)
    (he : IsR e) (he0 : 0 < e) :
    IsR (Ideal.sqrt (Ideal.div (∑ l, (x l - m) * (x l - m)) c + e))
      ∧ 0 < Ideal.sqrt (Ideal.div (∑ l, (x l - m) * (x l - m)) c + e) := by
  obtain ⟨hv, hv0⟩ := IsR.variance x hx hm hc hc0
  have hve : IsR (Ideal.div (∑ l, (x l - m) * (x l - m)) c + e) := IsR.add hv he
  have hve0 : 0 < Ideal.div (∑ l, (x l - m) * (x l - m)) c + e :=
    lt_of_lt_of_le he0 (le_add_of_nonneg_left hv0)
  exact ⟨IsR.sqrt hve hve0.le, IsR.sqrt_pos hve hve0⟩

theorem IsR.normalised (x : ι → EReal) (hx : ∀ k, IsR (x k)) {c e : EReal} (hc : IsR c) (hc0 : 0 < c)
    (he : IsR e) (he0 : 0 < e) (k : ι) :
    IsR (Ideal.div (x k - Ideal.div (∑ l, x l) c)
      (Ideal.sqrt (Ideal.div (∑ l, (x l - Ideal.div (∑ l', x l') c) * (x l - Ideal.div (∑ l', x l') c)) c + e))) := by
  have hm := IsR.mean x hx hc hc0
  obtain ⟨hs, hs0⟩ := IsR.std x hx hm hc hc0 he he0
  exact IsR.div_pos (IsR.sub (hx k) hm) hs hs0

theorem IsR.layerNorm (x g be : ι → EReal) (hx : ∀ k, IsR (x k)) (hg : ∀ k, IsR (g k)) (hbe : ∀ k, IsR (be k))
    {c e : EReal} (hc : IsR c) (hc0 : 0 < c) (he : IsR e) (he0 : 0 < e) (k : ι) :
    IsR (Ideal.div (x k - Ideal.div (∑ l, x l) c)
      (Ideal.sqrt (Ideal.div (∑ l, (x l - Ideal.div (∑ l', x l') c) * (x l - Ideal.div (∑ l', x l') c)) c + e))
        * g k + be k) :=
  IsR.add (IsR.mul (IsR.normalised x hx hc hc0 he he0 k) (hg k)) (hbe k)

theorem IsR.layerNorm_f32 (x g be : ι → EReal) (hx : ∀ k, IsR (x k)) (hg : ∀ k, IsR (g k)) (hbe : ∀ k, IsR (be k)) (k : ι) :
    IsR (Ideal.div (x k - Ideal.div (∑ l, x l) (Ideal.ofBits .f32 0x43800000#32))
      (Ideal.sqrt (Ideal.div (∑ l, (x l - Ideal.div (∑ l', x l') (Ideal.ofBits .f32 0x43800000#32))
          * (x l - Ideal.div (∑ l', x l') (Ideal.ofBits .f32 0x43800000#32))) (Ideal.ofBits .f32 0x43800000#32)
        + Ideal.ofBits .f32 0x3727C5AC#32))
        * g k + be k) :=
  IsR.layerNorm x g be hx hg hbe isR_ofBits_256_f32 ofBits_256_f32_pos isR_ofBits_eps_f32 ofBits_eps_f32_pos k

end Row

section Agg

variable {ι : Type*} [Fintype ι]

theorem IsR.weighted_mean (w h : ι → EReal) (hw : ∀ j, IsR (w j)) (hh : ∀ j, IsR (h j)) {d : EReal} (hd : IsR d)
    (hd1 : 1 ≤ d) : IsR (Ideal.div (∑ j, w j * h j) d) :=
  IsR.div_one_le (IsR.sum _ _ fun j _ => IsR.mul (hw j) (hh j)) hd hd1

theorem IsR.max_one {d : EReal} (hd : IsR d) : IsR (Max.max d 1) ∧ 1 ≤ Max.max d 1 :=
  ⟨IsR.max hd IsR.one, le_max_right d 1⟩

theorem IsR.relu {x : EReal} (hx : IsR x) : IsR (Max.max x 0) := IsR.max hx IsR.zero

end Agg

end Cert.KernelIdeal.Gen

end
-- ==== Proof.FiniteSage.lean ====
import proofs.«407196_j36060545417339_2_alg».proof.Proof.SpecSage
import proofs.«407196_j36060545417339_2_alg».proof.Proof.SpecSoftmax
import proofs.«407196_j36060545417339_2_alg».proof.Proof.FiniteClosure
import Idealize.ShloMosaic.PureOps.Ideal
import Idealize.ShloMosaic.Lib.ValueIdx

noncomputable section

open scoped BigOperators

namespace Cert.KernelIdeal.Gen

open Idealize.ShloMosaic Idealize.ShloMosaic.ValueIdx

namespace Sage

theorem sum_ind_isNat {κ : Type*} (s : Finset κ) (p : κ → Prop) [DecidablePred p] :
    ∃ n : ℕ, (∑ e ∈ s, if p e then (1 : EReal) else 0) = (n : EReal) := by
  classical
  induction s using Finset.induction_on with
  | empty => exact ⟨0, by rw [Finset.sum_empty, Nat.cast_zero]⟩
  | insert a s ha ih =>
    obtain ⟨n, hn⟩ := ih
    rw [Finset.sum_insert ha, hn]
    by_cases h : p a
    · exact ⟨n + 1, by rw [if_pos h, Nat.cast_add, Nat.cast_one, add_comm]⟩
    · exact ⟨n, by rw [if_neg h, zero_add]⟩

theorem Cnt_isNat (ei : IVec ⟨2, ![2, 262144]⟩ 32) (i j : Fin 8192) : ∃ n : ℕ, Cnt ei i j = (n : EReal) :=
  sum_ind_isNat Finset.univ _

theorem Cnt_isR (ei : IVec ⟨2, ![2, 262144]⟩ 32) (i j : Fin 8192) : IsR (Cnt ei i j) := by
  obtain ⟨n, hn⟩ := Cnt_isNat ei i j
  rw [hn]; exact IsR.natCast n

theorem DegRaw_isNat (ei : IVec ⟨2, ![2, 262144]⟩ 32) (i : Fin 8192) : ∃ n : ℕ, DegRaw ei i = (n : EReal) :=
  sum_ind_isNat Finset.univ _

theorem Deg_isR (ei : IVec ⟨2, ![2, 262144]⟩ 32) (i : Fin 8192) : IsR (Deg ei i) ∧ 1 ≤ Deg ei i := by
  obtain ⟨n, hn⟩ := DegRaw_isNat ei i
  unfold Deg
  rw [hn]
  exact IsR.max_one (IsR.natCast n)

variable {D : ℕ}

theorem aggK_isR (ei : IVec ⟨2, ![2, 262144]⟩ 32) (h : Vec Ideal ⟨2, ![8192, D]⟩ .f32) (hh : ∀ x, IsR (h x))
    (i : Fin 8192) (d : Fin D) : IsR (aggK ei h i d) :=
  IsR.weighted_mean (fun j => Cnt ei i j) (fun j => h (ix2 j d)) (fun j => Cnt_isR ei i j) (fun j => hh _)
    (Deg_isR ei i).1 (Deg_isR ei i).2

theorem aggR_isR (ei : IVec ⟨2, ![2, 262144]⟩ 32) (h : Vec Ideal ⟨2, ![8192, D]⟩ .f32) (hh : ∀ x, IsR (h x))
    (i : Fin 8192) (d : Fin D) : IsR (aggR ei h i d) :=
  IsR.div_one_le (IsR.sum _ _ fun e _ => IsR.ite (hh _) IsR.zero) (Deg_isR ei i).1 (Deg_isR ei i).2

theorem linK_isR (agg : Fin 8192 → Fin D → EReal) (hagg : ∀ i d, IsR (agg i d)) (h : Vec Ideal ⟨2, ![8192, D]⟩ .f32)
    (wlT wrT : Vec Ideal ⟨2, ![D, 256]⟩ .f32) (b : Vec Ideal ⟨2, ![1, 256]⟩ .f32) (hh : ∀ x, IsR (h x))
    (hwl : ∀ x, IsR (wlT x)) (hwr : ∀ x, IsR (wrT x)) (hb : ∀ x, IsR (b x)) (i : Fin 8192) (o : Fin 256) :
    IsR (linK agg h wlT wrT b i o) :=
  IsR.add (IsR.add (IsR.sum _ _ fun d _ => IsR.mul (hagg i d) (hwl _)) (IsR.sum _ _ fun d _ => IsR.mul (hh _) (hwr _)))
    (hb _)

theorem linR_isR (agg : Fin 8192 → Fin D → EReal) (hagg : ∀ i d, IsR (agg i d)) (h : Vec Ideal ⟨2, ![8192, D]⟩ .f32)
    (wlT wrT : Vec Ideal ⟨2, ![D, 256]⟩ .f32) (b : Vec Ideal ⟨2, ![1, 256]⟩ .f32) (hh : ∀ x, IsR (h x))
    (hwl : ∀ x, IsR (wlT x)) (hwr : ∀ x, IsR (wrT x)) (hb : ∀ x, IsR (b x)) (i : Fin 8192) (o : Fin 256) :
    IsR (linR agg h wlT wrT b i o) :=
  IsR.add (IsR.add (IsR.sum _ _ fun d _ => IsR.mul (hagg i d) (hwl _)) (hb _))
    (IsR.sum _ _ fun d _ => IsR.mul (hh _) (hwr _))

theorem relu_isR {x : EReal} (hx : IsR x) : IsR (relu x) := IsR.relu hx

theorem LNmean_isR (x : Fin 256 → EReal) (hx : ∀ o, IsR (x o)) : IsR (LNmean x) :=
  IsR.mean x hx isR_ofBits_256_f32 ofBits_256_f32_pos

theorem LN_isR (x : Fin 256 → EReal) (hx : ∀ o, IsR (x o)) (g be : Vec Ideal ⟨2, ![1, 256]⟩ .f32)
    (hg : ∀ x, IsR (g x)) (hbe : ∀ x, IsR (be x)) (o : Fin 256) : IsR (LN x g be o) :=
  IsR.layerNorm_f32 x (fun o => g (ix2 (0 : Fin 1) o)) (fun o => be (ix2 (0 : Fin 1) o)) hx (fun _ => hg _)
    (fun _ => hbe _) o

theorem post_isR (ln : Bool) (pre : Fin 8192 → Fin 256 → EReal) (hpre : ∀ i o, IsR (pre i o))
    (g be : Vec Ideal ⟨2, ![1, 256]⟩ .f32) (hg : ∀ x, IsR (g x)) (hbe : ∀ x, IsR (be x)) (i : Fin 8192) (o : Fin 256) :
    IsR (post ln pre g be i o) :=
  IsR.ite (LN_isR _ (fun o' => relu_isR (hpre i o')) g be hg hbe o) (relu_isR (hpre i o))

end Sage

open Sage

theorem SageR_isR (D : ℕ) (ln : Bool) (ei : IVec ⟨2, ![2, 262144]⟩ 32) (h : Vec Ideal ⟨2, ![8192, D]⟩ .f32)
    (wlT wrT : Vec Ideal ⟨2, ![D, 256]⟩ .f32) (b g be : Vec Ideal ⟨2, ![1, 256]⟩ .f32)
    (hh : ∀ x, IsR (h x)) (hwl : ∀ x, IsR (wlT x)) (hwr : ∀ x, IsR (wrT x)) (hb : ∀ x, IsR (b x))
    (hg : ∀ x, IsR (g x)) (hbe : ∀ x, IsR (be x)) : ∀ x, IsR (SageR D ln ei h wlT wrT b g be x) :=
  fun x => post_isR ln _ (linR_isR _ (aggR_isR ei h hh) h wlT wrT b hh hwl hwr hb) g be hg hbe (x 0) (x 1)

theorem G3L_isR (h : Vec Ideal ⟨2, ![8192, 256]⟩ .f32) (wT : Vec Ideal ⟨2, ![256, 8192]⟩ .f32) (b : Vec Ideal ⟨2, ![1, 8192]⟩ .f32)
    (hh : ∀ x, IsR (h x)) (hw : ∀ x, IsR (wT x)) (hb : ∀ x, IsR (b x)) : ∀ i j, IsR (G3L h wT b i j) :=
  fun _ _ => IsR.add (IsR.sum _ _ fun _ _ => IsR.mul (hh _) (hw _)) (hb _)

end Cert.KernelIdeal.Gen

end
-- ==== Proof.Network.lean ====
import proofs.«407196_j36060545417339_2_alg».proof.Proof.SpecSage
import proofs.«407196_j36060545417339_2_alg».proof.Proof.SageForms
import proofs.«407196_j36060545417339_2_alg».proof.Proof.SpecSoftmax
import proofs.«407196_j36060545417339_2_alg».proof.Proof.SoftmaxForms
import proofs.«407196_j36060545417339_2_alg».proof.Proof.FiniteClosure
import proofs.«407196_j36060545417339_2_alg».proof.Proof.FiniteSage
import Idealize.ShloMosaic.PureOps.Ideal
import Idealize.ShloMosaic.Lib.ValueIdx

noncomputable section

open scoped BigOperators

namespace Cert.KernelIdeal.Gen

open Idealize.ShloMosaic Idealize.ShloMosaic.ValueIdx

def nbrE (ei : IVec ⟨2, ![2, 262144]⟩ 32) (i j : Fin 8192) : Prop :=
  ∃ e : Fin 262144, Sage.srcZ ei e = (i.val : ℤ) ∧ Sage.dstZ ei e = (j.val : ℤ)

instance nbrE.decidable (ei : IVec ⟨2, ![2, 262144]⟩ 32) (i j : Fin 8192) : Decidable (nbrE ei i j) := by
  unfold nbrE; exact inferInstance

def L3K (ei : IVec ⟨2, ![2, 262144]⟩ 32) (h0 : Vec Ideal ⟨2, ![8192, 160]⟩ .f32)
    (tcat : Vec Ideal ⟨2, ![8192, 256]⟩ .f32 → Vec Ideal ⟨2, ![8192, 512]⟩ .f32)
    (w1l w1r : Vec Ideal ⟨2, ![160, 256]⟩ .f32) (b1 g1 e1 : Vec Ideal ⟨2, ![1, 256]⟩ .f32)
    (w2l w2r : Vec Ideal ⟨2, ![512, 256]⟩ .f32) (b2 g2 e2 : Vec Ideal ⟨2, ![1, 256]⟩ .f32)
    (w3l w3r : Vec Ideal ⟨2, ![256, 256]⟩ .f32) (b3 g3 e3 : Vec Ideal ⟨2, ![1, 256]⟩ .f32) :
    Vec Ideal ⟨2, ![8192, 256]⟩ .f32 :=
  SageK 256 false ei (SageK 512 true ei (tcat (SageK 160 true ei h0 w1l w1r b1 g1 e1)) w2l w2r b2 g2 e2) w3l w3r b3 g3 e3

def L3R (ei : IVec ⟨2, ![2, 262144]⟩ 32) (h0 : Vec Ideal ⟨2, ![8192, 160]⟩ .f32)
    (tcat : Vec Ideal ⟨2, ![8192, 256]⟩ .f32 → Vec Ideal ⟨2, ![8192, 512]⟩ .f32)
    (w1l w1r : Vec Ideal ⟨2, ![160, 256]⟩ .f32) (b1 g1 e1 : Vec Ideal ⟨2, ![1, 256]⟩ .f32)
    (w2l w2r : Vec Ideal ⟨2, ![512, 256]⟩ .f32) (b2 g2 e2 : Vec Ideal ⟨2, ![1, 256]⟩ .f32)
    (w3l w3r : Vec Ideal ⟨2, ![256, 256]⟩ .f32) (b3 g3 e3 : Vec Ideal ⟨2, ![1, 256]⟩ .f32) :
    Vec Ideal ⟨2, ![8192, 256]⟩ .f32 :=
  SageR 256 false ei (SageR 512 true ei (tcat (SageR 160 true ei h0 w1l w1r b1 g1 e1)) w2l w2r b2 g2 e2) w3l w3r b3 g3 e3

theorem L3K_eq_L3R (ei : IVec ⟨2, ![2, 262144]⟩ 32)
    (hrange : ∀ e, 0 ≤ Sage.srcZ ei e ∧ Sage.srcZ ei e < 8192 ∧ 0 ≤ Sage.dstZ ei e ∧ Sage.dstZ ei e < 8192)
    (h0 : Vec Ideal ⟨2, ![8192, 160]⟩ .f32)
    (tcat : Vec Ideal ⟨2, ![8192, 256]⟩ .f32 → Vec Ideal ⟨2, ![8192, 512]⟩ .f32)
    (w1l w1r : Vec Ideal ⟨2, ![160, 256]⟩ .f32) (b1 g1 e1 : Vec Ideal ⟨2, ![1, 256]⟩ .f32)
    (w2l w2r : Vec Ideal ⟨2, ![512, 256]⟩ .f32) (b2 g2 e2 : Vec Ideal ⟨2, ![1, 256]⟩ .f32)
    (w3l w3r : Vec Ideal ⟨2, ![256, 256]⟩ .f32) (b3 g3 e3 : Vec Ideal ⟨2, ![1, 256]⟩ .f32) :
    L3K ei h0 tcat w1l w1r b1 g1 e1 w2l w2r b2 g2 e2 w3l w3r b3 g3 e3
      = L3R ei h0 tcat w1l w1r b1 g1 e1 w2l w2r b2 g2 e2 w3l w3r b3 g3 e3 := by
  unfold L3K L3R
  rw [SageK_eq_SageR 160 true ei hrange, SageK_eq_SageR 512 true ei hrange, SageK_eq_SageR 256 false ei hrange]

theorem SageR_false_isR (D : ℕ) (ei : IVec ⟨2, ![2, 262144]⟩ 32) (h : Vec Ideal ⟨2, ![8192, D]⟩ .f32)
    (wlT wrT : Vec Ideal ⟨2, ![D, 256]⟩ .f32) (b g be : Vec Ideal ⟨2, ![1, 256]⟩ .f32)
    (hh : ∀ x, IsR (h x)) (hwl : ∀ x, IsR (wlT x)) (hwr : ∀ x, IsR (wrT x)) (hb : ∀ x, IsR (b x)) :
    ∀ x, IsR (SageR D false ei h wlT wrT b g be x) := by
  intro x
  unfold SageR Sage.post
  rw [if_neg Bool.false_ne_true]
  exact Sage.relu_isR (Sage.linR_isR _ (Sage.aggR_isR ei h hh) h wlT wrT b hh hwl hwr hb (x 0) (x 1))

theorem L3R_isR (ei : IVec ⟨2, ![2, 262144]⟩ 32) (h0 : Vec Ideal ⟨2, ![8192, 160]⟩ .f32) (hh0 : ∀ x, IsR (h0 x))
    (tcat : Vec Ideal ⟨2, ![8192, 256]⟩ .f32 → Vec Ideal ⟨2, ![8192, 512]⟩ .f32)
    (htcat : ∀ (h : Vec Ideal ⟨2, ![8192, 256]⟩ .f32) (x : (⟨2, ![8192, 512]⟩ : Shape).Idx), ∃ y, tcat h x = h y)
    (w1l w1r : Vec Ideal ⟨2, ![160, 256]⟩ .f32) (b1 g1 e1 : Vec Ideal ⟨2, ![1, 256]⟩ .f32)
    (w2l w2r : Vec Ideal ⟨2, ![512, 256]⟩ .f32) (b2 g2 e2 : Vec Ideal ⟨2, ![1, 256]⟩ .f32)
    (w3l w3r : Vec Ideal ⟨2, ![256, 256]⟩ .f32) (b3 g3 e3 : Vec Ideal ⟨2, ![1, 256]⟩ .f32)
    (hw1l : ∀ x, IsR (w1l x)) (hw1r : ∀ x, IsR (w1r x)) (hb1 : ∀ x, IsR (b1 x)) (hg1 : ∀ x, IsR (g1 x)) (he1 : ∀ x, IsR (e1 x))
    (hw2l : ∀ x, IsR (w2l x)) (hw2r : ∀ x, IsR (w2r x)) (hb2 : ∀ x, IsR (b2 x)) (hg2 : ∀ x, IsR (g2 x)) (he2 : ∀ x, IsR (e2 x))
    (hw3l : ∀ x, IsR (w3l x)) (hw3r : ∀ x, IsR (w3r x)) (hb3 : ∀ x, IsR (b3 x)) :
    ∀ x, IsR (L3R ei h0 tcat w1l w1r b1 g1 e1 w2l w2r b2 g2 e2 w3l w3r b3 g3 e3 x) := by
  have hh1 : ∀ x, IsR (SageR 160 true ei h0 w1l w1r b1 g1 e1 x) :=
    SageR_isR 160 true ei h0 w1l w1r b1 g1 e1 hh0 hw1l hw1r hb1 hg1 he1
  have htc : ∀ x, IsR (tcat (SageR 160 true ei h0 w1l w1r b1 g1 e1) x) := fun x => by
    obtain ⟨y, hy⟩ := htcat (SageR 160 true ei h0 w1l w1r b1 g1 e1) x
    rw [hy]; exact hh1 y
  have hh2 : ∀ x, IsR (SageR 512 true ei (tcat (SageR 160 true ei h0 w1l w1r b1 g1 e1)) w2l w2r b2 g2 e2 x) :=
    SageR_isR 512 true ei _ w2l w2r b2 g2 e2 htc hw2l hw2r hb2 hg2 he2
  exact SageR_false_isR 256 ei _ w3l w3r b3 g3 e3 hh2 hw3l hw3r hb3

theorem Cnt_pos_iff_nbrE (ei : IVec ⟨2, ![2, 262144]⟩ 32) (i j : Fin 8192) : 0 < Sage.Cnt ei j i ↔ nbrE ei i j := by
  have hc : Sage.Cnt ei j i
      = (((Finset.univ.filter fun e : Fin 262144 => Sage.dstZ ei e = (j.val : ℤ) ∧ Sage.srcZ ei e = (i.val : ℤ)).card : ℝ) : EReal) := by
    rw [Sage.Cnt_eq_card]; rfl
  rw [hc, EReal.coe_pos, Nat.cast_pos, Finset.card_pos]
  constructor
  · rintro ⟨e, he⟩
    obtain ⟨hd, hs⟩ := (Finset.mem_filter.mp he).2
    exact ⟨e, hs, hd⟩
  · rintro ⟨e, hs, hd⟩
    exact ⟨e, Finset.mem_filter.mpr ⟨Finset.mem_univ _, hd, hs⟩⟩

theorem net_eq (ei : IVec ⟨2, ![2, 262144]⟩ 32)
    (hrange : ∀ e, 0 ≤ Sage.srcZ ei e ∧ Sage.srcZ ei e < 8192 ∧ 0 ≤ Sage.dstZ ei e ∧ Sage.dstZ ei e < 8192)
    (h0 : Vec Ideal ⟨2, ![8192, 160]⟩ .f32) (hh0 : ∀ x, IsR (h0 x))
    (tcat : Vec Ideal ⟨2, ![8192, 256]⟩ .f32 → Vec Ideal ⟨2, ![8192, 512]⟩ .f32)
    (htcat : ∀ (h : Vec Ideal ⟨2, ![8192, 256]⟩ .f32) (x : (⟨2, ![8192, 512]⟩ : Shape).Idx), ∃ y, tcat h x = h y)
    (w1l w1r : Vec Ideal ⟨2, ![160, 256]⟩ .f32) (b1 g1 e1 : Vec Ideal ⟨2, ![1, 256]⟩ .f32)
    (w2l w2r : Vec Ideal ⟨2, ![512, 256]⟩ .f32) (b2 g2 e2 : Vec Ideal ⟨2, ![1, 256]⟩ .f32)
    (w3l w3r : Vec Ideal ⟨2, ![256, 256]⟩ .f32) (b3 g3 e3 : Vec Ideal ⟨2, ![1, 256]⟩ .f32)
    (hw1l : ∀ x, IsR (w1l x)) (hw1r : ∀ x, IsR (w1r x)) (hb1 : ∀ x, IsR (b1 x)) (hg1 : ∀ x, IsR (g1 x)) (he1 : ∀ x, IsR (e1 x))
    (hw2l : ∀ x, IsR (w2l x)) (hw2r : ∀ x, IsR (w2r x)) (hb2 : ∀ x, IsR (b2 x)) (hg2 : ∀ x, IsR (g2 x)) (he2 : ∀ x, IsR (e2 x))
    (hw3l : ∀ x, IsR (w3l x)) (hw3r : ∀ x, IsR (w3r x)) (hb3 : ∀ x, IsR (b3 x))
    (wT : Vec Ideal ⟨2, ![256, 8192]⟩ .f32) (bT : Vec Ideal ⟨2, ![1, 8192]⟩ .f32)
    (hwT : ∀ x, IsR (wT x)) (hbT : ∀ x, IsR (bT x))
    (mask : Vec Ideal ⟨2, ![8192, 8192]⟩ .bf16)
    (hmask : ∀ i j : Fin 8192, (mask (ix2 i j) : EReal) = if 0 < Sage.Cnt ei j i then 1 else 0) :
    G3 (L3K ei h0 tcat w1l w1r b1 g1 e1 w2l w2r b2 g2 e2 w3l w3r b3 g3 e3) wT bT mask
      = R3 (L3R ei h0 tcat w1l w1r b1 g1 e1 w2l w2r b2 g2 e2 w3l w3r b3 g3 e3) wT bT (nbrE ei) := by
  rw [L3K_eq_L3R ei hrange]
  refine G3_eq_R3 _ wT bT mask (nbrE ei) ?_ ?_
  · exact G3L_isR _ wT bT
      (L3R_isR ei h0 hh0 tcat htcat w1l w1r b1 g1 e1 w2l w2r b2 g2 e2 w3l w3r b3 g3 e3
        hw1l hw1r hb1 hg1 he1 hw2l hw2r hb2 hg2 he2 hw3l hw3r hb3) hwT hbT
  · intro i j
    rw [hmask i j]
    exact if_congr (Cnt_pos_iff_nbrE ei i j) rfl rfl

end Cert.KernelIdeal.Gen

end
-- ==== Proof.SpecHost.lean ====
import Idealize.ShloMosaic.PureOps.Ideal
import Idealize.ShloMosaic.PureOps.Contract
import Idealize.ShloMosaic.Lib.ValueIdx

noncomputable section

open scoped BigOperators

namespace Cert.KernelIdeal.Gen

open Idealize.ShloMosaic Idealize.ShloMosaic.ValueIdx

namespace HostSpec

def H0 (a0 a1 a2 a3 a4 : Vec Ideal ⟨2, ![8192, 32]⟩ .f32) : Vec Ideal ⟨2, ![8192, 160]⟩ .f32 :=
  fun x =>
    (if (x 1).val < 32 then a0 else if (x 1).val < 64 then a1 else if (x 1).val < 96 then a2
      else if (x 1).val < 128 then a3 else a4)
      (ix2 (x 0) (⟨(x 1).val % 32, Nat.mod_lt _ (by decide)⟩ : Fin 32))

theorem H0_ix2 (a0 a1 a2 a3 a4 : Vec Ideal ⟨2, ![8192, 32]⟩ .f32) (i : Fin 8192) (d : Fin 160) :
    H0 a0 a1 a2 a3 a4 (ix2 i d)
      = (if d.val < 32 then a0 else if d.val < 64 then a1 else if d.val < 96 then a2
          else if d.val < 128 then a3 else a4) (ix2 i (⟨d.val % 32, Nat.mod_lt _ (by decide)⟩ : Fin 32)) := rfl

def Tr {m n : ℕ} (w : Vec Ideal ⟨2, ![m, n]⟩ .f32) : Vec Ideal ⟨2, ![n, m]⟩ .f32 := fun x => w (ix2 (x 1) (x 0))

def Row {n : ℕ} (b : Vec Ideal ⟨1, ![n]⟩ .f32) : Vec Ideal ⟨2, ![1, n]⟩ .f32 := fun x => b (ix1 (x 1))

def argmaxBody : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

def targetWord (t : Vec Ideal ⟨2, ![8192, 32]⟩ .f32) : IVec ⟨0, ![]⟩ 32 :=
  fun j => (Host.reduce2 (s := ⟨1, ![8192]⟩) (t := ⟨0, ![]⟩) (u := ⟨0, ![]⟩) (axes := [0]) argmaxBody
      (Host.reduce (s := ⟨2, ![8192, 32]⟩) (t := ⟨1, ![8192]⟩) (u := ⟨0, ![]⟩) (axes := [1]) IntOp.ori
        (cmpf .une t (broadcastInDim ⟨2, ![8192, 32]⟩ ![] (by decide) (constant (F := Ideal) ⟨0, ![]⟩ .f32 0x00000000#32)))
        (constantI ⟨0, ![]⟩ 1 0#1) (by decide) (by decide))
      (iotaInDim ⟨1, ![8192]⟩ 32 0) (constantI ⟨0, ![]⟩ 1 0#1) (constantI ⟨0, ![]⟩ 32 0#32) (by decide) (by decide) j).2

def rowStart (t : Vec Ideal ⟨2, ![8192, 32]⟩ .f32) : IVec ⟨0, ![]⟩ 32 :=
  select (cmpi .slt (targetWord t) (constantI ⟨0, ![]⟩ 32 0#32)) (addi (targetWord t) (constantI ⟨0, ![]⟩ 32 8192#32)) (targetWord t)

def colStart : IVec ⟨0, ![]⟩ 32 :=
  select (cmpi .slt (constantI ⟨0, ![]⟩ 32 0#32) (constantI ⟨0, ![]⟩ 32 0#32))
    (addi (constantI ⟨0, ![]⟩ 32 0#32) (constantI ⟨0, ![]⟩ 32 256#32)) (constantI ⟨0, ![]⟩ 32 0#32)

def targetRows (h1 : Vec Ideal ⟨2, ![8192, 256]⟩ .f32) (t : Vec Ideal ⟨2, ![8192, 32]⟩ .f32) : Vec Ideal ⟨2, ![8192, 256]⟩ .f32 :=
  broadcastInDim ⟨2, ![8192, 256]⟩ ![0, 1] (by decide)
    (broadcastInDim ⟨2, ![1, 256]⟩ ![1] (by decide)
      (shapeCast ⟨1, ![256]⟩
        (Host.dynamicSlice (s := ⟨2, ![8192, 256]⟩) ⟨2, ![1, 256]⟩ h1
          (fun k => ((![rowStart t, colStart] : Fin 2 → IVec ⟨0, ![]⟩ 32) k (Shape.Idx.first (by decide))).toInt) (by decide))
        (by decide)))

theorem cat512 : Shape.Concatenates [(⟨2, ![8192, 256]⟩ : Shape), ⟨2, ![8192, 256]⟩] ⟨2, ![8192, 512]⟩ 1 := by decide

def Tcat (h1 : Vec Ideal ⟨2, ![8192, 256]⟩ .f32) (t : Vec Ideal ⟨2, ![8192, 32]⟩ .f32) : Vec Ideal ⟨2, ![8192, 512]⟩ .f32 :=
  concatenate ⟨2, ![8192, 512]⟩ 1 [⟨⟨2, ![8192, 256]⟩, h1⟩, ⟨⟨2, ![8192, 256]⟩, targetRows h1 t⟩] cat512

end HostSpec

end Cert.KernelIdeal.Gen

end
-- ==== Proof.PreFacts.lean ====
import proofs.«407196_j36060545417339_2_alg».proof.Defs
import proofs.«407196_j36060545417339_2_alg».proof.Proof.SpecSage
import proofs.«407196_j36060545417339_2_alg».proof.Proof.FiniteClosure
import Idealize.ShloMosaic.Lib.ReduceAll
import Idealize.ShloMosaic.Lib.StableHlo.Predicate

noncomputable section

namespace Cert.KernelIdeal.Gen

open Idealize.ShloMosaic Idealize.ShloMosaic.ValueIdx

namespace PreFacts

theorem idx0_subsingleton : Subsingleton (⟨0, ![]⟩ : Shape).Idx := ⟨fun a b => funext fun d => d.elim0⟩

theorem inf_word : Ideal.ofBits .f32 0x7F800000#32 = (⊤ : EReal) := by
  simp [Ideal.ofBits, Ideal.ieee]

theorem isR_of_abs_lt_top (x : EReal) (h : max x (-x) < ⊤) : IsR x := by
  induction x using EReal.rec with
  | bot => simp at h
  | coe r => exact ⟨r, rfl⟩
  | top => simp at h

theorem isR_of_cmp (x : EReal) (h : Ideal.cmp .olt (max x (-x)) (Ideal.ofBits .f32 0x7F800000#32) = 1#1) : IsR x := by
  rw [inf_word] at h
  unfold Ideal.cmp at h
  rw [StableHlo.Predicate.ofBool_eq_one_iff] at h
  exact isR_of_abs_lt_top x (of_decide_eq_true h)

theorem all_finite {s : Shape} {axes : List (Fin s.rank)} (hb : (⟨0, ![]⟩ : Shape).BroadcastsInDim s (![] : Fin 0 → Fin s.rank))
    (hr : s.ReducesTo axes ⟨0, ![]⟩) (h0 : 0 < (⟨0, ![]⟩ : Shape).numel) (a : FVec Ideal s .f32) (j : (⟨0, ![]⟩ : Shape).Idx)
    (e : Host.reduce IntOp.andi
        (cmpf .olt (Host.absf a) (broadcastInDim s ![] hb (constant (F := Ideal) ⟨0, ![]⟩ .f32 0x7F800000#32)))
        (constantI ⟨0, ![]⟩ 1 1#1) hr h0 j = 1#1) :
    ∀ x, IsR (a x) := by
  intro x
  haveI := idx0_subsingleton
  have hx := Host.reduce_andi_all _ _ hr h0 j e x
  exact isR_of_cmp (a x) hx

theorem word_range (w : BitVec 32) (h : IntOp.andi (IntOp.cmpi .sge w 0#32) (IntOp.cmpi .slt w 8192#32) = 1#1) :
    0 ≤ w.toInt ∧ w.toInt < 8192 := by
  obtain ⟨h0, h1⟩ := IntOp.andi_eq_one.1 h
  exact ⟨IntOp.cmpi_sge.1 h0, IntOp.cmpi_slt.1 h1⟩

theorem edge_range {axes : List (Fin (⟨2, ![2, 262144]⟩ : Shape).rank)}
    (hb : (⟨0, ![]⟩ : Shape).BroadcastsInDim ⟨2, ![2, 262144]⟩ (![] : Fin 0 → Fin (⟨2, ![2, 262144]⟩ : Shape).rank))
    (hr : (⟨2, ![2, 262144]⟩ : Shape).ReducesTo axes ⟨0, ![]⟩) (h0 : 0 < (⟨0, ![]⟩ : Shape).numel)
    (ei : IVec ⟨2, ![2, 262144]⟩ 32) (j : (⟨0, ![]⟩ : Shape).Idx)
    (e : Host.reduce IntOp.andi
        (fun i => IntOp.andi
          (cmpi .sge ei (broadcastInDim ⟨2, ![2, 262144]⟩ ![] hb (constantI ⟨0, ![]⟩ 32 0#32)) i)
          (cmpi .slt ei (broadcastInDim ⟨2, ![2, 262144]⟩ ![] hb (constantI ⟨0, ![]⟩ 32 8192#32)) i))
        (constantI ⟨0, ![]⟩ 1 1#1) hr h0 j = 1#1) :
    ∀ k : Fin 262144, 0 ≤ Sage.srcZ ei k ∧ Sage.srcZ ei k < 8192 ∧ 0 ≤ Sage.dstZ ei k ∧ Sage.dstZ ei k < 8192 := by
  intro k
  haveI := idx0_subsingleton
  have hs := word_range _ (Host.reduce_andi_all _ _ hr h0 j e (ix2 (0 : Fin 2) k))
  have hd := word_range _ (Host.reduce_andi_all _ _ hr h0 j e (ix2 (1 : Fin 2) k))
  exact ⟨hs.1, hs.2, hd.1, hd.2⟩

end PreFacts

open PreFacts

theorem pre_facts [Cert.Pre_finite_inputs.Facts]
    (a0 a1 a2 a3 a4 : FVec Ideal Cert.Pre_finite_inputs.S8192x32 .f32)
    (a5 a6 : FVec Ideal Cert.Pre_finite_inputs.S256x160 .f32) (a7 : FVec Ideal Cert.Pre_finite_inputs.S256 .f32)
    (a8 a9 : FVec Ideal Cert.Pre_finite_inputs.S256x512 .f32) (a10 : FVec Ideal Cert.Pre_finite_inputs.S256 .f32)
    (a11 a12 : FVec Ideal Cert.Pre_finite_inputs.S256x256 .f32) (a13 : FVec Ideal Cert.Pre_finite_inputs.S256 .f32)
    (a14 : FVec Ideal Cert.Pre_finite_inputs.S8192x256 .f32) (a15 : FVec Ideal Cert.Pre_finite_inputs.S8192 .f32)
    (a16 a17 a18 a19 : FVec Ideal Cert.Pre_finite_inputs.S256 .f32) (a20 : IVec Cert.Pre_finite_inputs.S2x262144 32)
    (h : Cert.Pre_finite_inputs.fn (F := Ideal) a0 a1 a2 a3 a4 a5 a6 a7 a8 a9 a10 a11 a12 a13 a14 a15 a16 a17 a18 a19 a20
      = (fun _ => 1#1)) :
    (∀ x, IsR (a0 x)) ∧ (∀ x, IsR (a1 x)) ∧ (∀ x, IsR (a2 x)) ∧ (∀ x, IsR (a3 x)) ∧ (∀ x, IsR (a4 x)) ∧
    (∀ x, IsR (a5 x)) ∧ (∀ x, IsR (a6 x)) ∧ (∀ x, IsR (a7 x)) ∧ (∀ x, IsR (a8 x)) ∧ (∀ x, IsR (a9 x)) ∧
    (∀ x, IsR (a10 x)) ∧ (∀ x, IsR (a11 x)) ∧ (∀ x, IsR (a12 x)) ∧ (∀ x, IsR (a13 x)) ∧ (∀ x, IsR (a14 x)) ∧
    (∀ x, IsR (a15 x)) ∧ (∀ x, IsR (a16 x)) ∧ (∀ x, IsR (a17 x)) ∧ (∀ x, IsR (a18 x)) ∧ (∀ x, IsR (a19 x)) ∧
    (∀ k : Fin 262144, 0 ≤ Sage.srcZ a20 k ∧ Sage.srcZ a20 k < 8192 ∧ 0 ≤ Sage.dstZ a20 k ∧ Sage.dstZ a20 k < 8192) := by
  have e := congrFun h ValueIdx.ix0
  unfold Cert.Pre_finite_inputs.fn Cert.Pre_finite_inputs.fn_part1 Cert.Pre_finite_inputs.fn_part2
    Cert.Pre_finite_inputs.fn_part3 Cert.Pre_finite_inputs.fn_part4 Cert.Pre_finite_inputs.fn_part5
    Cert.Pre_finite_inputs.fn_part6 at e
  simp only [andi, IntOp.andi_eq_one] at e
  obtain ⟨⟨⟨⟨⟨⟨⟨⟨⟨⟨⟨⟨⟨⟨⟨⟨⟨⟨⟨⟨e0, e1⟩, e2⟩, e3⟩, e4⟩, e5⟩, e6⟩, e7⟩, e8⟩, e9⟩, e10⟩, e11⟩, e12⟩, e13⟩, e14⟩, e15⟩, e16⟩, e17⟩,
    e18⟩, e19⟩, e20⟩ := e
  exact ⟨all_finite _ _ _ a0 _ e0, all_finite _ _ _ a1 _ e1, all_finite _ _ _ a2 _ e2, all_finite _ _ _ a3 _ e3,
    all_finite _ _ _ a4 _ e4, all_finite _ _ _ a5 _ e5, all_finite _ _ _ a6 _ e6, all_finite _ _ _ a7 _ e7,
    all_finite _ _ _ a8 _ e8, all_finite _ _ _ a9 _ e9, all_finite _ _ _ a10 _ e10, all_finite _ _ _ a11 _ e11,
    all_finite _ _ _ a12 _ e12, all_finite _ _ _ a13 _ e13, all_finite _ _ _ a14 _ e14, all_finite _ _ _ a15 _ e15,
    all_finite _ _ _ a16 _ e16, all_finite _ _ _ a17 _ e17, all_finite _ _ _ a18 _ e18, all_finite _ _ _ a19 _ e19,
    edge_range _ _ _ a20 _ e20⟩

theorem pre_facts_KernelIdeal [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ x, IsR (m ((c.tc : Thread Cert.KernelIdeal.nD Cert.KernelIdeal.τ).loc Cert.KernelIdeal.main_arg0) x)) ∧
    (∀ x, IsR (m ((c.tc : Thread Cert.KernelIdeal.nD Cert.KernelIdeal.τ).loc Cert.KernelIdeal.main_arg1) x)) ∧
    (∀ x, IsR (m ((c.tc : Thread Cert.KernelIdeal.nD Cert.KernelIdeal.τ).loc Cert.KernelIdeal.main_arg2) x)) ∧
    (∀ x, IsR (m ((c.tc : Thread Cert.KernelIdeal.nD Cert.KernelIdeal.τ).loc Cert.KernelIdeal.main_arg3) x)) ∧
    (∀ x, IsR (m ((c.tc : Thread Cert.KernelIdeal.nD Cert.KernelIdeal.τ).loc Cert.KernelIdeal.main_arg4) x)) ∧
    (∀ x, IsR (m ((c.tc : Thread Cert.KernelIdeal.nD Cert.KernelIdeal.τ).loc Cert.KernelIdeal.main_arg5) x)) ∧
    (∀ x, IsR (m ((c.tc : Thread Cert.KernelIdeal.nD Cert.KernelIdeal.τ).loc Cert.KernelIdeal.main_arg6) x)) ∧
    (∀ x, IsR (m ((c.tc : Thread Cert.KernelIdeal.nD Cert.KernelIdeal.τ).loc Cert.KernelIdeal.main_arg7) x)) ∧
    (∀ x, IsR (m ((c.tc : Thread Cert.KernelIdeal.nD Cert.KernelIdeal.τ).loc Cert.KernelIdeal.main_arg8) x)) ∧
    (∀ x, IsR (m ((c.tc : Thread Cert.KernelIdeal.nD Cert.KernelIdeal.τ).loc Cert.KernelIdeal.main_arg9) x)) ∧
    (∀ x, IsR (m ((c.tc : Thread Cert.KernelIdeal.nD Cert.KernelIdeal.τ).loc Cert.KernelIdeal.main_arg10) x)) ∧
    (∀ x, IsR (m ((c.tc : Thread Cert.KernelIdeal.nD Cert.KernelIdeal.τ).loc Cert.KernelIdeal.main_arg11) x)) ∧
    (∀ x, IsR (m ((c.tc : Thread Cert.KernelIdeal.nD Cert.KernelIdeal.τ).loc Cert.KernelIdeal.main_arg12) x)) ∧
    (∀ x, IsR (m ((c.tc : Thread Cert.KernelIdeal.nD Cert.KernelIdeal.τ).loc Cert.KernelIdeal.main_arg13) x)) ∧
    (∀ x, IsR (m ((c.tc : Thread Cert.KernelIdeal.nD Cert.KernelIdeal.τ).loc Cert.KernelIdeal.main_arg14) x)) ∧
    (∀ x, IsR (m ((c.tc : Thread Cert.KernelIdeal.nD Cert.KernelIdeal.τ).loc Cert.KernelIdeal.main_arg15) x)) ∧
    (∀ x, IsR (m ((c.tc : Thread Cert.KernelIdeal.nD Cert.KernelIdeal.τ).loc Cert.KernelIdeal.main_arg16) x)) ∧
    (∀ x, IsR (m ((c.tc : Thread Cert.KernelIdeal.nD Cert.KernelIdeal.τ).loc Cert.KernelIdeal.main_arg17) x)) ∧
    (∀ x, IsR (m ((c.tc : Thread Cert.KernelIdeal.nD Cert.KernelIdeal.τ).loc Cert.KernelIdeal.main_arg18) x)) ∧
    (∀ x, IsR (m ((c.tc : Thread Cert.KernelIdeal.nD Cert.KernelIdeal.τ).loc Cert.KernelIdeal.main_arg19) x)) ∧
    (∀ k : Fin 262144,
      0 ≤ Sage.srcZ (m ((c.tc : Thread Cert.KernelIdeal.nD Cert.KernelIdeal.τ).loc Cert.KernelIdeal.main_arg20)) k ∧
      Sage.srcZ (m ((c.tc : Thread Cert.KernelIdeal.nD Cert.KernelIdeal.τ).loc Cert.KernelIdeal.main_arg20)) k < 8192 ∧
      0 ≤ Sage.dstZ (m ((c.tc : Thread Cert.KernelIdeal.nD Cert.KernelIdeal.τ).loc Cert.KernelIdeal.main_arg20)) k ∧
      Sage.dstZ (m ((c.tc : Thread Cert.KernelIdeal.nD Cert.KernelIdeal.τ).loc Cert.KernelIdeal.main_arg20)) k < 8192) :=
  pre_facts _ _ _ _ _ _ _ _ _ _ _ _ _ _ _ _ _ _ _ _ _ (hpre c)

end Cert.KernelIdeal.Gen

end
-- ==== Proof.NetArgs.lean ====
import proofs.«407196_j36060545417339_2_alg».proof.Proof.Network
import proofs.«407196_j36060545417339_2_alg».proof.Proof.SpecHost
import proofs.«407196_j36060545417339_2_alg».proof.Proof.PreFacts
import proofs.«407196_j36060545417339_2_alg».proof.Proof.FiniteClosure

noncomputable section

namespace Cert.KernelIdeal.Gen

open Idealize.ShloMosaic Idealize.ShloMosaic.ValueIdx

namespace HostSpec

theorem H0_isR (a0 a1 a2 a3 a4 : Vec Ideal ⟨2, ![8192, 32]⟩ .f32) (h0 : ∀ x, IsR (a0 x)) (h1 : ∀ x, IsR (a1 x))
    (h2 : ∀ x, IsR (a2 x)) (h3 : ∀ x, IsR (a3 x)) (h4 : ∀ x, IsR (a4 x)) : ∀ x, IsR (H0 a0 a1 a2 a3 a4 x) := by
  intro x
  unfold H0
  split_ifs
  · exact h0 _
  · exact h1 _
  · exact h2 _
  · exact h3 _
  · exact h4 _

theorem Tr_isR {m n : ℕ} (w : Vec Ideal ⟨2, ![m, n]⟩ .f32) (hw : ∀ x, IsR (w x)) : ∀ x, IsR (Tr w x) :=
  fun _ => hw _

theorem Row_isR {n : ℕ} (b : Vec Ideal ⟨1, ![n]⟩ .f32) (hb : ∀ x, IsR (b x)) : ∀ x, IsR (Row b x) :=
  fun _ => hb _

theorem concatenate_entry {α : Type} (t : Shape) (a : Fin t.rank) (xs : List ((s : Shape) × (s.Idx → α)))
    (h : Shape.Concatenates (xs.map (·.1)) t a) (j : t.Idx) :
    ∃ p ∈ xs, ∃ i, concatenate t a xs h j = p.2 i := by
  unfold concatenate
  exact ⟨_, List.getElem_mem _, _, rfl⟩

theorem targetRows_entry (h1 : Vec Ideal ⟨2, ![8192, 256]⟩ .f32) (t : Vec Ideal ⟨2, ![8192, 32]⟩ .f32)
    (z : (⟨2, ![8192, 256]⟩ : Shape).Idx) : ∃ y, targetRows h1 t z = h1 y :=
  ⟨_, rfl⟩

theorem Tcat_entry (h1 : Vec Ideal ⟨2, ![8192, 256]⟩ .f32) (t : Vec Ideal ⟨2, ![8192, 32]⟩ .f32)
    (x : (⟨2, ![8192, 512]⟩ : Shape).Idx) : ∃ y, Tcat h1 t x = h1 y := by
  obtain ⟨p, hp, i, e⟩ := concatenate_entry ⟨2, ![8192, 512]⟩ 1
    [⟨⟨2, ![8192, 256]⟩, h1⟩, ⟨⟨2, ![8192, 256]⟩, targetRows h1 t⟩] cat512 x
  simp only [List.mem_cons, List.not_mem_nil, or_false] at hp
  rcases hp with rfl | rfl
  · exact ⟨i, e⟩
  · obtain ⟨y, hy⟩ := targetRows_entry h1 t i
    exact ⟨y, e.trans hy⟩

end HostSpec

def netK (a0 a1 a2 a3 a4 : FVec Ideal Cert.Pre_finite_inputs.S8192x32 .f32)
    (a5 a6 : FVec Ideal Cert.Pre_finite_inputs.S256x160 .f32) (a7 : FVec Ideal Cert.Pre_finite_inputs.S256 .f32)
    (a8 a9 : FVec Ideal Cert.Pre_finite_inputs.S256x512 .f32) (a10 : FVec Ideal Cert.Pre_finite_inputs.S256 .f32)
    (a11 a12 : FVec Ideal Cert.Pre_finite_inputs.S256x256 .f32) (a13 : FVec Ideal Cert.Pre_finite_inputs.S256 .f32)
    (a14 : FVec Ideal Cert.Pre_finite_inputs.S8192x256 .f32) (a15 : FVec Ideal Cert.Pre_finite_inputs.S8192 .f32)
    (a16 a17 a18 a19 : FVec Ideal Cert.Pre_finite_inputs.S256 .f32) (a20 : IVec Cert.Pre_finite_inputs.S2x262144 32) :
    Vec Ideal ⟨2, ![8192, 8192]⟩ .f32 :=
  G3 (L3K a20 (HostSpec.H0 a0 a1 a2 a3 a4) (fun h => HostSpec.Tcat h a2)
      (HostSpec.Tr a5) (HostSpec.Tr a6) (HostSpec.Row a7) (HostSpec.Row a16) (HostSpec.Row a17)
      (HostSpec.Tr a8) (HostSpec.Tr a9) (HostSpec.Row a10) (HostSpec.Row a18) (HostSpec.Row a19)
      (HostSpec.Tr a11) (HostSpec.Tr a12) (HostSpec.Row a13) (fun _ => (1 : EReal)) (fun _ => (0 : EReal)))
    (HostSpec.Tr a14) (HostSpec.Row a15) (fun x => if 0 < Sage.Cnt a20 (x 1) (x 0) then (1 : EReal) else 0)

def netR (a0 a1 a2 a3 a4 : FVec Ideal Cert.Pre_finite_inputs.S8192x32 .f32)
    (a5 a6 : FVec Ideal Cert.Pre_finite_inputs.S256x160 .f32) (a7 : FVec Ideal Cert.Pre_finite_inputs.S256 .f32)
    (a8 a9 : FVec Ideal Cert.Pre_finite_inputs.S256x512 .f32) (a10 : FVec Ideal Cert.Pre_finite_inputs.S256 .f32)
    (a11 a12 : FVec Ideal Cert.Pre_finite_inputs.S256x256 .f32) (a13 : FVec Ideal Cert.Pre_finite_inputs.S256 .f32)
    (a14 : FVec Ideal Cert.Pre_finite_inputs.S8192x256 .f32) (a15 : FVec Ideal Cert.Pre_finite_inputs.S8192 .f32)
    (a16 a17 a18 a19 : FVec Ideal Cert.Pre_finite_inputs.S256 .f32) (a20 : IVec Cert.Pre_finite_inputs.S2x262144 32) :
    Vec Ideal ⟨2, ![8192, 8192]⟩ .f32 :=
  R3 (L3R a20 (HostSpec.H0 a0 a1 a2 a3 a4) (fun h => HostSpec.Tcat h a2)
      (HostSpec.Tr a5) (HostSpec.Tr a6) (HostSpec.Row a7) (HostSpec.Row a16) (HostSpec.Row a17)
      (HostSpec.Tr a8) (HostSpec.Tr a9) (HostSpec.Row a10) (HostSpec.Row a18) (HostSpec.Row a19)
      (HostSpec.Tr a11) (HostSpec.Tr a12) (HostSpec.Row a13) (fun _ => (1 : EReal)) (fun _ => (0 : EReal)))
    (HostSpec.Tr a14) (HostSpec.Row a15) (nbrE a20)

theorem netK_eq_netR (a0 a1 a2 a3 a4 : FVec Ideal Cert.Pre_finite_inputs.S8192x32 .f32)
    (a5 a6 : FVec Ideal Cert.Pre_finite_inputs.S256x160 .f32) (a7 : FVec Ideal Cert.Pre_finite_inputs.S256 .f32)
    (a8 a9 : FVec Ideal Cert.Pre_finite_inputs.S256x512 .f32) (a10 : FVec Ideal Cert.Pre_finite_inputs.S256 .f32)
    (a11 a12 : FVec Ideal Cert.Pre_finite_inputs.S256x256 .f32) (a13 : FVec Ideal Cert.Pre_finite_inputs.S256 .f32)
    (a14 : FVec Ideal Cert.Pre_finite_inputs.S8192x256 .f32) (a15 : FVec Ideal Cert.Pre_finite_inputs.S8192 .f32)
    (a16 a17 a18 a19 : FVec Ideal Cert.Pre_finite_inputs.S256 .f32) (a20 : IVec Cert.Pre_finite_inputs.S2x262144 32)
    (h0 : ∀ x, IsR (a0 x)) (h1 : ∀ x, IsR (a1 x)) (h2 : ∀ x, IsR (a2 x)) (h3 : ∀ x, IsR (a3 x)) (h4 : ∀ x, IsR (a4 x))
    (h5 : ∀ x, IsR (a5 x)) (h6 : ∀ x, IsR (a6 x)) (h7 : ∀ x, IsR (a7 x)) (h8 : ∀ x, IsR (a8 x)) (h9 : ∀ x, IsR (a9 x))
    (h10 : ∀ x, IsR (a10 x)) (h11 : ∀ x, IsR (a11 x)) (h12 : ∀ x, IsR (a12 x)) (h13 : ∀ x, IsR (a13 x))
    (h14 : ∀ x, IsR (a14 x)) (h15 : ∀ x, IsR (a15 x)) (h16 : ∀ x, IsR (a16 x)) (h17 : ∀ x, IsR (a17 x))
    (h18 : ∀ x, IsR (a18 x)) (h19 : ∀ x, IsR (a19 x))
    (hrange : ∀ k : Fin 262144, 0 ≤ Sage.srcZ a20 k ∧ Sage.srcZ a20 k < 8192 ∧ 0 ≤ Sage.dstZ a20 k ∧ Sage.dstZ a20 k < 8192) :
    netK a0 a1 a2 a3 a4 a5 a6 a7 a8 a9 a10 a11 a12 a13 a14 a15 a16 a17 a18 a19 a20
      = netR a0 a1 a2 a3 a4 a5 a6 a7 a8 a9 a10 a11 a12 a13 a14 a15 a16 a17 a18 a19 a20 := by
  unfold netK netR
  exact net_eq a20 hrange (HostSpec.H0 a0 a1 a2 a3 a4) (HostSpec.H0_isR a0 a1 a2 a3 a4 h0 h1 h2 h3 h4)
    (fun h => HostSpec.Tcat h a2) (fun h x => HostSpec.Tcat_entry h a2 x)
    (HostSpec.Tr a5) (HostSpec.Tr a6) (HostSpec.Row a7) (HostSpec.Row a16) (HostSpec.Row a17)
    (HostSpec.Tr a8) (HostSpec.Tr a9) (HostSpec.Row a10) (HostSpec.Row a18) (HostSpec.Row a19)
    (HostSpec.Tr a11) (HostSpec.Tr a12) (HostSpec.Row a13) (fun _ => (1 : EReal)) (fun _ => (0 : EReal))
    (HostSpec.Tr_isR a5 h5) (HostSpec.Tr_isR a6 h6) (HostSpec.Row_isR a7 h7) (HostSpec.Row_isR a16 h16) (HostSpec.Row_isR a17 h17)
    (HostSpec.Tr_isR a8 h8) (HostSpec.Tr_isR a9 h9) (HostSpec.Row_isR a10 h10) (HostSpec.Row_isR a18 h18) (HostSpec.Row_isR a19 h19)
    (HostSpec.Tr_isR a11 h11) (HostSpec.Tr_isR a12 h12) (HostSpec.Row_isR a13 h13)
    (HostSpec.Tr a14) (HostSpec.Row a15) (HostSpec.Tr_isR a14 h14) (HostSpec.Row_isR a15 h15)
    (fun x => if 0 < Sage.Cnt a20 (x 1) (x 0) then (1 : EReal) else 0) (fun _ _ => rfl)

end Cert.KernelIdeal.Gen

end
-- ==== Proof.Assemble.lean ====
import proofs.«407196_j36060545417339_2_alg».proof.Defs
import proofs.«407196_j36060545417339_2_alg».proof.Proof.RunAll
import proofs.«407196_j36060545417339_2_alg».proof.Proof.RefRun
import proofs.«407196_j36060545417339_2_alg».proof.Proof.NetArgs
import proofs.«407196_j36060545417339_2_alg».proof.Proof.PreFacts
import proofs.«407196_j36060545417339_2_alg».proof.Proof.Gen.Pre_finite_inputs

set_option maxRecDepth 16384

noncomputable section

namespace Cert.Proof.Parts

open Idealize.ShloMosaic Idealize.ShloMosaic.TcCoe Idealize.SL.Sem
open Cert.KernelIdeal.Gen (IsR netK netR netK_eq_netR pre_facts_KernelIdeal)

abbrev KArg (m : (ℓ : Loc Cert.KernelIdeal.nD Cert.KernelIdeal.τ Cert.KernelIdeal.sig) → Buf (Elt Ideal) ℓ)
    (c : Dev Cert.KernelIdeal.nD) (b : Ref Cert.KernelIdeal.sig .tc) :
    Buf (Elt Ideal) ((c.tc : Thread Cert.KernelIdeal.nD Cert.KernelIdeal.τ).loc b) :=
  m ((c.tc : Thread Cert.KernelIdeal.nD Cert.KernelIdeal.τ).loc b)

abbrev RArg (m : (ℓ : Loc Cert.ReferenceIdeal.nD Cert.ReferenceIdeal.τ Cert.ReferenceIdeal.sig) → Buf (Elt Ideal) ℓ)
    (c : Dev Cert.ReferenceIdeal.nD) (b : Ref Cert.ReferenceIdeal.sig .tc) :
    Buf (Elt Ideal) ((c.tc : Thread Cert.ReferenceIdeal.nD Cert.ReferenceIdeal.τ).loc b) :=
  m ((c.tc : Thread Cert.ReferenceIdeal.nD Cert.ReferenceIdeal.τ).loc b)

def EdgeRange (ei : IVec ⟨2, ![2, 262144]⟩ 32) : Prop :=
  ∀ k : Fin 262144, 0 ≤ Cert.KernelIdeal.Gen.Sage.srcZ ei k ∧ Cert.KernelIdeal.Gen.Sage.srcZ ei k < 8192 ∧
    0 ≤ Cert.KernelIdeal.Gen.Sage.dstZ ei k ∧ Cert.KernelIdeal.Gen.Sage.dstZ ei k < 8192

def netK_at (m : (ℓ : Loc Cert.KernelIdeal.nD Cert.KernelIdeal.τ Cert.KernelIdeal.sig) → Buf (Elt Ideal) ℓ)
    (c : Dev Cert.KernelIdeal.nD) : Vec Ideal ⟨2, ![8192, 8192]⟩ .f32 :=
  netK (KArg m c Cert.KernelIdeal.main_arg0) (KArg m c Cert.KernelIdeal.main_arg1) (KArg m c Cert.KernelIdeal.main_arg2)
    (KArg m c Cert.KernelIdeal.main_arg3) (KArg m c Cert.KernelIdeal.main_arg4) (KArg m c Cert.KernelIdeal.main_arg5)
    (KArg m c Cert.KernelIdeal.main_arg6) (KArg m c Cert.KernelIdeal.main_arg7) (KArg m c Cert.KernelIdeal.main_arg8)
    (KArg m c Cert.KernelIdeal.main_arg9) (KArg m c Cert.KernelIdeal.main_arg10) (KArg m c Cert.KernelIdeal.main_arg11)
    (KArg m c Cert.KernelIdeal.main_arg12) (KArg m c Cert.KernelIdeal.main_arg13) (KArg m c Cert.KernelIdeal.main_arg14)
    (KArg m c Cert.KernelIdeal.main_arg15) (KArg m c Cert.KernelIdeal.main_arg16) (KArg m c Cert.KernelIdeal.main_arg17)
    (KArg m c Cert.KernelIdeal.main_arg18) (KArg m c Cert.KernelIdeal.main_arg19) (KArg m c Cert.KernelIdeal.main_arg20)

def netR_at (m : (ℓ : Loc Cert.ReferenceIdeal.nD Cert.ReferenceIdeal.τ Cert.ReferenceIdeal.sig) → Buf (Elt Ideal) ℓ)
    (c : Dev Cert.ReferenceIdeal.nD) : Vec Ideal ⟨2, ![8192, 8192]⟩ .f32 :=
  netR (RArg m c Cert.ReferenceIdeal.main_arg0) (RArg m c Cert.ReferenceIdeal.main_arg1) (RArg m c Cert.ReferenceIdeal.main_arg2)
    (RArg m c Cert.ReferenceIdeal.main_arg3) (RArg m c Cert.ReferenceIdeal.main_arg4) (RArg m c Cert.ReferenceIdeal.main_arg5)
    (RArg m c Cert.ReferenceIdeal.main_arg6) (RArg m c Cert.ReferenceIdeal.main_arg7) (RArg m c Cert.ReferenceIdeal.main_arg8)
    (RArg m c Cert.ReferenceIdeal.main_arg9) (RArg m c Cert.ReferenceIdeal.main_arg10) (RArg m c Cert.ReferenceIdeal.main_arg11)
    (RArg m c Cert.ReferenceIdeal.main_arg12) (RArg m c Cert.ReferenceIdeal.main_arg13) (RArg m c Cert.ReferenceIdeal.main_arg14)
    (RArg m c Cert.ReferenceIdeal.main_arg15) (RArg m c Cert.ReferenceIdeal.main_arg16) (RArg m c Cert.ReferenceIdeal.main_arg17)
    (RArg m c Cert.ReferenceIdeal.main_arg18) (RArg m c Cert.ReferenceIdeal.main_arg19) (RArg m c Cert.ReferenceIdeal.main_arg20)

theorem frame_ri : Cert.frame_ReferenceIdeal :=
  fun m ρ _ => (θ_run Cert.ReferenceIdeal.defs _ _).mono (fun _ h c => (h c).2)
    (Cert.ReferenceIdeal.RefRun.run (F := Ideal) m ρ)

theorem frame_pi : Cert.frame_KernelIdeal := fun m ρ _ => Cert.KernelIdeal.Gen.frame m ρ

theorem preserves : Cert.preserves_Kernel_KernelIdeal := trivial

theorem netR_congr
    {a0 a1 a2 a3 a4 b0 b1 b2 b3 b4 : FVec Ideal Cert.Pre_finite_inputs.S8192x32 .f32}
    {a5 a6 b5 b6 : FVec Ideal Cert.Pre_finite_inputs.S256x160 .f32} {a7 b7 : FVec Ideal Cert.Pre_finite_inputs.S256 .f32}
    {a8 a9 b8 b9 : FVec Ideal Cert.Pre_finite_inputs.S256x512 .f32} {a10 b10 : FVec Ideal Cert.Pre_finite_inputs.S256 .f32}
    {a11 a12 b11 b12 : FVec Ideal Cert.Pre_finite_inputs.S256x256 .f32} {a13 b13 : FVec Ideal Cert.Pre_finite_inputs.S256 .f32}
    {a14 b14 : FVec Ideal Cert.Pre_finite_inputs.S8192x256 .f32} {a15 b15 : FVec Ideal Cert.Pre_finite_inputs.S8192 .f32}
    {a16 a17 a18 a19 b16 b17 b18 b19 : FVec Ideal Cert.Pre_finite_inputs.S256 .f32}
    {a20 b20 : IVec Cert.Pre_finite_inputs.S2x262144 32}
    (e0 : a0 = b0) (e1 : a1 = b1) (e2 : a2 = b2) (e3 : a3 = b3) (e4 : a4 = b4) (e5 : a5 = b5) (e6 : a6 = b6)
    (e7 : a7 = b7) (e8 : a8 = b8) (e9 : a9 = b9) (e10 : a10 = b10) (e11 : a11 = b11) (e12 : a12 = b12)
    (e13 : a13 = b13) (e14 : a14 = b14) (e15 : a15 = b15) (e16 : a16 = b16) (e17 : a17 = b17) (e18 : a18 = b18)
    (e19 : a19 = b19) (e20 : a20 = b20) :
    netR a0 a1 a2 a3 a4 a5 a6 a7 a8 a9 a10 a11 a12 a13 a14 a15 a16 a17 a18 a19 a20
      = netR b0 b1 b2 b3 b4 b5 b6 b7 b8 b9 b10 b11 b12 b13 b14 b15 b16 b17 b18 b19 b20 := by
  subst e0 e1 e2 e3 e4 e5 e6 e7 e8 e9 e10 e11 e12 e13 e14 e15 e16 e17 e18 e19 e20
  rfl

theorem algebraic_of
    (KV : ∀ (m : (ℓ : Loc Cert.KernelIdeal.nD Cert.KernelIdeal.τ Cert.KernelIdeal.sig) → Buf (Elt Ideal) ℓ)
        (c : Dev Cert.KernelIdeal.nD), EdgeRange (KArg m c Cert.KernelIdeal.main_arg20) →
      (Cert.KernelIdeal.Gen.dat3 (F := Ideal) (Cert.KernelIdeal.Gen.U9 m) c).arrAt 4 Cert.KernelIdeal.cfg3.N = netK_at m c)
    (RV : ∀ (m' : (ℓ : Loc Cert.ReferenceIdeal.nD Cert.ReferenceIdeal.τ Cert.ReferenceIdeal.sig) → Buf (Elt Ideal) ℓ)
        (c : Dev Cert.ReferenceIdeal.nD), EdgeRange (RArg m' c Cert.ReferenceIdeal.main_arg20) →
      StableHlo.after (Cert.ReferenceIdeal.RefRun.ops (F := Ideal)) (fun b => m' (c, b))
          (Proc.devRef .tc Cert.ReferenceIdeal.main_v232) = netR_at m' c) :
    Cert.algebraic_KernelIdeal_ReferenceIdeal := by
  intro m g m' g' hpre hagree
  refine ⟨fun c => (Cert.KernelIdeal.Gen.dat3 (F := Ideal) (Cert.KernelIdeal.Gen.U9 m) c).arrAt 4 Cert.KernelIdeal.cfg3.N,
    Cert.KernelIdeal.Gen.run_val m g, ?_⟩
  refine (θ_run Cert.ReferenceIdeal.defs _ _).mono (fun r h c => ⟨?_, (h c).2⟩)
    (Cert.ReferenceIdeal.RefRun.run (F := Ideal) m' g')
  obtain ⟨h0, h1, h2, h3, h4, h5, h6, h7, h8, h9, h10, h11, h12, h13, h14, h15, h16, h17, h18, h19, hrange⟩ :=
    pre_facts_KernelIdeal m hpre c
  obtain ⟨e0, e1, e2, e3, e4, e5, e6, e7, e8, e9, e10, e11, e12, e13, e14, e15, e16, e17, e18, e19, e20⟩ := hagree c
  have hrange' : EdgeRange (RArg m' c Cert.ReferenceIdeal.main_arg20) := Eq.mpr (congrArg EdgeRange e20) hrange
  have hR : netR_at m' c = netK_at m c :=
    (netR_congr e0 e1 e2 e3 e4 e5 e6 e7 e8 e9 e10 e11 e12 e13 e14 e15 e16 e17 e18 e19 e20).trans
      (netK_eq_netR _ _ _ _ _ _ _ _ _ _ _ _ _ _ _ _ _ _ _ _ _ h0 h1 h2 h3 h4 h5 h6 h7 h8 h9 h10 h11 h12 h13 h14 h15
        h16 h17 h18 h19 hrange).symm
  exact ((h c).1.trans (RV m' c hrange')).trans (hR.trans (KV m c hrange).symm)

end Cert.Proof.Parts

end
-- ==== Proof.R3Value.lean ====
import proofs.«407196_j36060545417339_2_alg».proof.Proof.R3
import proofs.«407196_j36060545417339_2_alg».proof.Proof.SpecSoftmax
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open scoped BigOperators

namespace Cert.KernelIdeal.Gen

open Idealize.ShloMosaic Idealize.ShloMosaic.TcCoe Idealize.ShloMosaic.ValueIdx
open Idealize.ShloMosaic.Pipeline (Dat Cfg Window)

theorem dot3_lhs_0 (j : S256x8192.Idx) (k : dot_S256x256_S256x8192_S256x8192_1_0_0_1_n_n.contr.Idx) :
    ((dot_S256x256_S256x8192_S256x8192_1_0_0_1_n_n.lhsIdx j k) (0 : Fin 2)).val = (j (0 : Fin 2)).val := by
  unfold DotDims.lhsIdx
  rw [dif_neg (show ¬(0 : Fin S256x256.rank) ∈ dot_S256x256_S256x8192_S256x8192_1_0_0_1_n_n.lhsBatch by decide),
    dif_pos (show (0 : Fin S256x256.rank) ∈ dot_S256x256_S256x8192_S256x8192_1_0_0_1_n_n.lhsNonContracting by decide)]
  rfl

theorem dot3_lhs_1 (j : S256x8192.Idx) (k : dot_S256x256_S256x8192_S256x8192_1_0_0_1_n_n.contr.Idx) :
    ((dot_S256x256_S256x8192_S256x8192_1_0_0_1_n_n.lhsIdx j k) (1 : Fin 2)).val = (k ⟨0, by decide⟩).val :=
  DotDims.lhsIdx_val_of_single _ (cl := (1 : Fin S256x256.rank)) rfl j k

theorem dot3_rhs_0 (j : S256x8192.Idx) (k : dot_S256x256_S256x8192_S256x8192_1_0_0_1_n_n.contr.Idx) :
    ((dot_S256x256_S256x8192_S256x8192_1_0_0_1_n_n.rhsIdx j k) (0 : Fin 2)).val = (k ⟨0, by decide⟩).val :=
  DotDims.rhsIdx_val_of_single _ (cr := (0 : Fin S256x8192.rank)) rfl j k

theorem dot3_rhs_1 (j : S256x8192.Idx) (k : dot_S256x256_S256x8192_S256x8192_1_0_0_1_n_n.contr.Idx) :
    ((dot_S256x256_S256x8192_S256x8192_1_0_0_1_n_n.rhsIdx j k) (1 : Fin 2)).val = (j (1 : Fin 2)).val := by
  unfold DotDims.rhsIdx
  rw [dif_neg (show ¬(1 : Fin S256x8192.rank) ∈ dot_S256x256_S256x8192_S256x8192_1_0_0_1_n_n.rhsBatch by decide),
    dif_pos (show (1 : Fin S256x8192.rank) ∈ dot_S256x256_S256x8192_S256x8192_1_0_0_1_n_n.rhsNonContracting by decide)]
  rfl

theorem matmul3_apply (a : FVec Ideal S256x256 .f32) (w : FVec Ideal S256x8192 .f32) (r : Fin 256) (j : Fin 8192) :
    matmul dot_S256x256_S256x8192_S256x8192_1_0_0_1_n_n none a w (constant (F := Ideal) S256x8192 .f32 0x00000000#32) (ix2 r j)
      = ∑ k : Fin 256, a (ix2 r k) * w (ix2 k j) := by
  simp only [matmul]
  rw [Ideal.matmul_constant_zero_apply]
  rw [← Equiv.sum_comp (contrEquiv1 dot_S256x256_S256x8192_S256x8192_1_0_0_1_n_n 256 rfl rfl).symm]
  refine Finset.sum_congr rfl fun k _ => ?_
  have hl : dot_S256x256_S256x8192_S256x8192_1_0_0_1_n_n.lhsIdx (ix2 r j)
      ((contrEquiv1 dot_S256x256_S256x8192_S256x8192_1_0_0_1_n_n 256 rfl rfl).symm k) = ix2 r k := by
    funext ax; apply Fin.ext
    match ax with
    | ⟨0, _⟩ => exact dot3_lhs_0 _ _
    | ⟨1, _⟩ => exact (dot3_lhs_1 _ _).trans (contrEquiv1_symm_val _ 256 rfl rfl k)
  have hr : dot_S256x256_S256x8192_S256x8192_1_0_0_1_n_n.rhsIdx (ix2 r j)
      ((contrEquiv1 dot_S256x256_S256x8192_S256x8192_1_0_0_1_n_n 256 rfl rfl).symm k) = ix2 k j := by
    funext ax; apply Fin.ext
    match ax with
    | ⟨0, _⟩ => exact (dot3_rhs_0 _ _).trans (contrEquiv1_symm_val _ 256 rfl rfl k)
    | ⟨1, _⟩ => exact dot3_rhs_1 _ _
  rw [hl, hr]

theorem lift3 (r : Fin 256) (k : Fin 8192) :
    reduces_S256x8192_S256.lift (ix1 r) (k : Fin (S256x8192.size (1 : Fin 2))) = ix2 r k := by
  funext ax; apply Fin.ext
  match ax with
  | ⟨0, h0⟩ =>
    show Shape.Reduces.liftVal reduces_S256x8192_S256 (ix1 r) k.val ⟨0, h0⟩ = r.val
    unfold Shape.Reduces.liftVal
    rw [dif_neg (by show ¬((0 : ℕ) = 1); omega), dif_pos (by show (0 : ℕ) < 1; omega)]
  | ⟨1, h1⟩ =>
    show Shape.Reduces.liftVal reduces_S256x8192_S256 (ix1 r) k.val ⟨1, h1⟩ = k.val
    unfold Shape.Reduces.liftVal
    rw [dif_pos (by show (1 : ℕ) = 1; rfl)]

theorem bcol3_apply {α : Type} (v : S256x1.Idx → α) (r : Fin 256) (j : Fin 8192) :
    broadcastTo S256x8192 v broadcasts_S256x1_S256x8192 (ix2 r j) = v (ix2 r (0 : Fin 1)) :=
  broadcastTo_apply _ _ (ix2 r j) (ix2 r (0 : Fin 1)) (fun ax => by
    match ax with
    | ⟨0, _⟩ => rfl
    | ⟨1, _⟩ => rfl)

theorem colcast3_apply {α : Type} (v : S256.Idx → α) (r : Fin 256) :
    shapeCast S256x1 v shapeCasts_S256_S256x1 (ix2 r (0 : Fin 1)) = v (ix1 r) :=
  shapeCast_apply v _ _ _ (by
    rw [Shape.rowMajor_val_two, Shape.rowMajor_val_one]
    show r.val = r.val * 1 + 0
    omega)

theorem max3_apply (v : FVec Ideal S256x8192 .f32) (hφ : FTy.f32 = FTy.f32 ∨ FTy.f32 = FTy.bf16)
    (hacc : (4286578688#32 : BitVec 32) = 4286578688#32) (r : Fin 256) :
    multiReduction .maximumf [(1 : Fin S256x8192.rank)] S256 v (4286578688#32) reduces_S256x8192_S256 hφ hacc (ix1 r)
      = (Finset.univ : Finset (Fin 8192)).fold max (Ideal.ofBits .f32 0xFF800000#32) (fun k => v (ix2 r k)) :=
  (Ideal.multiReduction_maximumf_single v (4286578688#32) reduces_S256x8192_S256 hφ hacc (ix1 r)).trans
    (congrArg (fun f => (Finset.univ : Finset (Fin 8192)).fold max (Ideal.ofBits .f32 0xFF800000#32) f)
      (funext fun k => congrArg v (lift3 r k)))

theorem sum3_apply (v : FVec Ideal S256x8192 .f32) (hφ : FTy.f32 = FTy.f32 ∨ FTy.f32 = FTy.bf16)
    (hacc : (0#32 : BitVec 32) = 0#32) (r : Fin 256) :
    multiReduction .add [(1 : Fin S256x8192.rank)] S256 v (0#32) reduces_S256x8192_S256 hφ hacc (ix1 r)
      = ∑ k : Fin 8192, v (ix2 r k) :=
  (Ideal.multiReduction_add_single v (0#32) reduces_S256x8192_S256 hφ hacc (ix1 r)).trans
    (Finset.sum_congr rfl fun k _ => congrArg v (lift3 r k))

theorem exp3_apply {s : Shape} (a : FVec Ideal s .f32) (x : s.Idx) : exp a x = Ideal.exp (a x) := rfl
theorem sitofp_bit (b : Bool) :
    FloatOps.sitofp (F := Ideal) .f32 (BitVec.setWidth 32 (BitVec.ofBool b)) = if b then (1 : EReal) else 0 := by
  cases b
  · show (((BitVec.setWidth 32 (BitVec.ofBool false)).toInt : ℝ) : EReal) = _
    have e : (BitVec.setWidth 32 (BitVec.ofBool false)).toInt = 0 := by decide
    rw [e]; simp
  · show (((BitVec.setWidth 32 (BitVec.ofBool true)).toInt : ℝ) : EReal) = _
    have e : (BitVec.setWidth 32 (BitVec.ofBool true)).toInt = 1 := by decide
    rw [e]; simp

theorem diag3_word (t : ℕ) (ht : t < 32) (r : Fin 256) (j : Fin 8192) :
    FloatOps.sitofp (F := Ideal) .f32 (BitVec.setWidth 32
        (IntOp.cmpi .eq (IntOp.addi (Scalar.muli (BitVec.ofNat 32 t) 256#32) (BitVec.ofNat 32 r.val)) (BitVec.ofNat 32 j.val)))
      = if 256 * t + r.val = j.val then (1 : EReal) else 0 := by
  have key : (IntOp.addi (Scalar.muli (BitVec.ofNat 32 t) 256#32) (BitVec.ofNat 32 r.val) == BitVec.ofNat 32 j.val)
      = decide (256 * t + r.val = j.val) := by
    rw [Bool.eq_iff_iff, beq_iff_eq, decide_eq_true_eq]
    unfold IntOp.addi Scalar.muli IntOp.muli
    rw [← BitVec.toNat_inj]
    simp only [BitVec.toNat_add, BitVec.toNat_mul, BitVec.toNat_ofNat]
    have hr := r.isLt; have hj := j.isLt
    omega
  show FloatOps.sitofp (F := Ideal) .f32 (BitVec.setWidth 32 (BitVec.ofBool
      (IntOp.addi (Scalar.muli (BitVec.ofNat 32 t) 256#32) (BitVec.ofNat 32 r.val) == BitVec.ofNat 32 j.val))) = _
  rw [key, sitofp_bit]
  by_cases h : 256 * t + r.val = j.val
  · simp [h]
  · simp [h]

theorem diagv3_apply (i : grid3.Coords) (r : Fin 256) (j : Fin 8192) :
    sitofp (F := Ideal) .f32 (extui 32 (cmpi .eq (addi (broadcast S256x8192 (Scalar.muli (BitVec.ofNat 32 (i 0).val) 256#32))
        (iota .tc S256x8192 32 [0] iota_S256x8192_d0_w32)) (iota .tc S256x8192 32 [1] iota_S256x8192_d1_w32)) natLt_1_32) (ix2 r j)
      = if 256 * (i 0).val + r.val = j.val then (1 : EReal) else 0 := by
  show FloatOps.sitofp (F := Ideal) .f32 (BitVec.setWidth 32 (IntOp.cmpi .eq
      (IntOp.addi (Scalar.muli (BitVec.ofNat 32 (i 0).val) 256#32) (iota .tc S256x8192 32 [0] iota_S256x8192_d0_w32 (ix2 r j)))
      (iota .tc S256x8192 32 [1] iota_S256x8192_d1_w32 (ix2 r j)))) = _
  rw [iota_single_apply, iota_single_apply]
  exact diag3_word (i 0).val (i 0).isLt r j

section Block
variable (i : grid3.Coords) (x0 : FVec Ideal S256x256 .f32) (x1 : FVec Ideal S256x8192 .f32) (x2 : FVec Ideal S1x8192 .f32)
  (x3 : FVec Ideal S256x8192 .bf16)

def B3L (r : Fin 256) (j : Fin 8192) : EReal := (∑ k : Fin 256, x0 (ix2 r k) * x1 (ix2 k j)) + x2 (ix2 (0 : Fin 1) j)

def B3M (r : Fin 256) : EReal := (Finset.univ : Finset (Fin 8192)).fold max (Ideal.ofBits .f32 0xFF800000#32) (fun j => B3L x0 x1 x2 r j)

def B3msk (r : Fin 256) (j : Fin 8192) : EReal := max (x3 (ix2 r j)) (if 256 * (i 0).val + r.val = j.val then 1 else 0)

def B3mp (r : Fin 256) (j : Fin 8192) : EReal := Ideal.exp (B3L x0 x1 x2 r j - B3M x0 x1 x2 r) * B3msk i x3 r j

def B3s (r : Fin 256) : EReal := ∑ j : Fin 8192, B3mp i x0 x1 x2 x3 r j

def L3v : FVec Ideal S256x8192 .f32 :=
  addf (matmul dot_S256x256_S256x8192_S256x8192_1_0_0_1_n_n none x0 x1 (constant (F := Ideal) S256x8192 .f32 0x00000000#32))
    (broadcastTo S256x8192 x2 broadcasts_S1x8192_S256x8192)

def M3v : FVec Ideal S256 .f32 :=
  multiReduction .maximumf [1] S256 (L3v x0 x1 x2) 0xFF800000#32 reduces_S256x8192_S256 (.inl rfl) rfl

def K3v : FVec Ideal S256x8192 .f32 :=
  maximumf (extf .f32 x3 bitsLt_bf16_f32)
    (sitofp .f32 (extui 32 (cmpi .eq (addi (broadcast S256x8192 (Scalar.muli (BitVec.ofNat 32 (i 0).val) 256#32))
      (iota .tc S256x8192 32 [0] iota_S256x8192_d0_w32)) (iota .tc S256x8192 32 [1] iota_S256x8192_d1_w32)) natLt_1_32))

def P3v : FVec Ideal S256x8192 .f32 :=
  mulf (exp (subf (L3v x0 x1 x2)
      (broadcastTo S256x8192 (shapeCast S256x1 (M3v x0 x1 x2) shapeCasts_S256_S256x1) broadcasts_S256x1_S256x8192)))
    (K3v i x3)

def S3v : FVec Ideal S256 .f32 :=
  multiReduction .add [1] S256 (P3v i x0 x1 x2 x3) 0x00000000#32 reduces_S256x8192_S256 (.inl rfl) rfl

set_option maxHeartbeats 1000000 in
theorem pay3_eq :
    k3_pay1 (F := Ideal) i x0 x1 x2 x3
      = divf (P3v i x0 x1 x2 x3)
          (broadcastTo S256x8192
            (select (cmpf .ogt (shapeCast S256x1 (S3v i x0 x1 x2 x3) shapeCasts_S256_S256x1) (broadcast S256x1 (Scalar.ofBits (F := Ideal) .f32 0x00000000#32)))
              (shapeCast S256x1 (S3v i x0 x1 x2 x3) shapeCasts_S256_S256x1) (broadcast S256x1 (Scalar.ofBits (F := Ideal) .f32 0x3F800000#32)))
            broadcasts_S256x1_S256x8192) := by
  unfold k3_pay1 S3v P3v K3v M3v L3v
  simp only [shapeCast_self]

theorem L3v_apply (r : Fin 256) (j : Fin 8192) : L3v x0 x1 x2 (ix2 r j) = B3L x0 x1 x2 r j := by
  unfold L3v B3L
  rw [addf_apply, matmul3_apply, broadcastTo_1b_ab_apply]

theorem M3v_apply (r : Fin 256) : M3v x0 x1 x2 (ix1 r) = B3M x0 x1 x2 r :=
  (max3_apply (L3v x0 x1 x2) _ _ r).trans
    (congrArg (fun f => (Finset.univ : Finset (Fin 8192)).fold max (Ideal.ofBits .f32 0xFF800000#32) f)
      (funext fun k => L3v_apply x0 x1 x2 r k))

theorem K3v_apply (r : Fin 256) (j : Fin 8192) : K3v i x3 (ix2 r j) = B3msk i x3 r j := by
  unfold K3v B3msk
  rw [maximumf_apply, extf_apply, diagv3_apply]

theorem P3v_apply (r : Fin 256) (j : Fin 8192) : P3v i x0 x1 x2 x3 (ix2 r j) = B3mp i x0 x1 x2 x3 r j := by
  unfold P3v B3mp
  rw [mulf_apply, exp3_apply, subf_apply, bcol3_apply, colcast3_apply, M3v_apply, L3v_apply, K3v_apply]

theorem S3v_apply (r : Fin 256) : S3v i x0 x1 x2 x3 (ix1 r) = B3s i x0 x1 x2 x3 r :=
  (sum3_apply (P3v i x0 x1 x2 x3) _ _ r).trans (Finset.sum_congr rfl fun k _ => P3v_apply i x0 x1 x2 x3 r k)

theorem pay3_apply (r : Fin 256) (j : Fin 8192) :
    k3_pay1 (F := Ideal) i x0 x1 x2 x3 (ix2 r j)
      = Ideal.div (B3mp i x0 x1 x2 x3 r j)
          (Scalar.select (Ideal.cmp .ogt (B3s i x0 x1 x2 x3 r) (Ideal.ofBits .f32 0x00000000#32)) (B3s i x0 x1 x2 x3 r) (Ideal.ofBits .f32 0x3F800000#32)) := by
  rw [pay3_eq, divf_apply, bcol3_apply, select_apply, cmpf_apply, colcast3_apply, broadcast_apply, broadcast_apply, S3v_apply, P3v_apply]
  rfl

end Block

theorem pay3_eq_G3 (i : grid3.Coords) (x0 : FVec Ideal S256x256 .f32) (x1 : FVec Ideal S256x8192 .f32) (x2 : FVec Ideal S1x8192 .f32)
    (x3 : FVec Ideal S256x8192 .bf16)
    (H : Vec Ideal S8192x256 .f32) (W : Vec Ideal S256x8192 .f32) (B : Vec Ideal S1x8192 .f32) (Mk : Vec Ideal S8192x8192 .bf16)
    (tt : ℕ) (htt : tt < 32) (hi : (i 0).val = tt)
    (h0 : ∀ (r : Fin 256) (k : Fin 256), x0 (ix2 r k) = H (ix2 (⟨256 * tt + r.val, by have := r.isLt; omega⟩ : Fin 8192) k))
    (h1 : ∀ (k : Fin 256) (j : Fin 8192), x1 (ix2 k j) = W (ix2 k j))
    (h2 : ∀ j : Fin 8192, x2 (ix2 (0 : Fin 1) j) = B (ix2 (0 : Fin 1) j))
    (h3 : ∀ (r : Fin 256) (j : Fin 8192), x3 (ix2 r j) = Mk (ix2 (⟨256 * tt + r.val, by have := r.isLt; omega⟩ : Fin 8192) j))
    (r : Fin 256) (j : Fin 8192) :
    k3_pay1 (F := Ideal) i x0 x1 x2 x3 (ix2 r j)
      = G3 H W B Mk (ix2 (⟨256 * tt + r.val, by have := r.isLt; omega⟩ : Fin 8192) j) := by
  have eL : ∀ j : Fin 8192, B3L x0 x1 x2 r j = G3L H W B ⟨256 * tt + r.val, by have := r.isLt; omega⟩ j := by
    intro j; unfold B3L G3L; simp only [h0, h1, h2]
  have eM : B3M x0 x1 x2 r = G3M H W B ⟨256 * tt + r.val, by have := r.isLt; omega⟩ := by
    unfold B3M G3M; simp only [eL]
  have eK : ∀ j : Fin 8192, B3msk i x3 r j = G3msk Mk ⟨256 * tt + r.val, by have := r.isLt; omega⟩ j := by
    intro j; unfold B3msk G3msk; rw [h3, hi]; simp only [Fin.ext_iff]
  have eP : ∀ j : Fin 8192, B3mp i x0 x1 x2 x3 r j = G3mp H W B Mk ⟨256 * tt + r.val, by have := r.isLt; omega⟩ j := by
    intro j; unfold B3mp G3mp; rw [eL, eM, eK]
  have eS : B3s i x0 x1 x2 x3 r = G3s H W B Mk ⟨256 * tt + r.val, by have := r.isLt; omega⟩ := by
    unfold B3s G3s; simp only [eP]
  rw [pay3_apply, G3_ix2]; unfold G3at
  rw [eP, eS]

section Array
variable (V : (c : Dev nD) → (b : Ref sig .tc) → Buf (Elt Ideal) ((c : Thread nD τ).loc b))

theorem hz3 : (![0, 0] : Fin 2 → Nat) = fun _ => 0 := funext fun a => by fin_cases a <;> rfl

theorem idx_facts3 : ∀ t : Fin cfg3.N,
    win3_0.index t (0 : Fin 2) = win3_4.index t (0 : Fin 2) ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = win3_4.index t (0 : Fin 2) ∧ win3_3.index t (1 : Fin 2) = 0
    ∧ win3_4.index t (1 : Fin 2) = 0 ∧ win3_4.index t (0 : Fin 2) ≤ 31
    ∧ ((grid3.coords t) 0).val = win3_4.index t (0 : Fin 2) :=
  (by decide +kernel : ∀ t : Fin grid3.N, _)

theorem idx_onto3 : ∀ q0 : Fin 32, ∃ t : Fin cfg3.N, win3_4.index t = ![q0.val, 0] :=
  (by decide +kernel : ∀ q0 : Fin 32, ∃ t : Fin grid3.N, win3_4.index t = ![q0.val, 0])

set_option maxHeartbeats 1000000 in
theorem flushed3_eq (c : Dev nD) (t : Fin cfg3.N) :
    (dat3 (F := Ideal) V c).flushed 4 t
      = ((cfg3.win 4).blk t).view.read (Elt Ideal) (G3 (V c main_v72) (V c main_v73) (V c main_v74) (V c main_v36)) := by
  show (cfg3.win 4).cut (grid3.coords t) ((dat3 V c).after 4 t) = _
  rw [after3_4]
  unfold out3_4
  rw [View.canon_unit_zero hz3]
  simp only [View.ld_unit_zero (S := S256x256) hz3, View.ld_unit_zero (S := S256x8192) hz3, View.ld_unit_zero (S := S1x8192) hz3]
  obtain ⟨e0, e1, e2, e3, e4, e5, e6, e7, e8, e9, e10⟩ := idx_facts3 t
  funext y
  obtain ⟨r, j, rfl⟩ : ∃ (r : Fin 256) (j : Fin 8192), y = ix2 r j := ⟨y 0, y 1, eq_ix2 y⟩
  show k3_pay1 (F := Ideal) (grid3.coords t) (iblk3 V c 0 t) (iblk3 V c 1 t) (iblk3 V c 2 t) (iblk3 V c 3 t) (ix2 r j)
    = G3 (V c main_v72) (V c main_v73) (V c main_v74) (V c main_v36) (((cfg3.win 4).blk t).view.emb (ix2 r j))
  have hemb : ((cfg3.win 4).blk t).view.emb (ix2 r j)
      = ix2 (⟨256 * win3_4.index t (0 : Fin 2) + r.val, by have := r.isLt; omega⟩ : Fin 8192) j := by
    funext a; apply Fin.ext
    match a with
    | ⟨0, _⟩ => show win3_4.index t (0 : Fin 2) * 256 + 1 * r.val = 256 * win3_4.index t (0 : Fin 2) + r.val; omega
    | ⟨1, _⟩ => show win3_4.index t (1 : Fin 2) * 8192 + 1 * j.val = j.val; omega
  rw [hemb]
  refine pay3_eq_G3 (grid3.coords t) _ _ _ _ _ _ _ _ (win3_4.index t (0 : Fin 2)) (by omega) e10 ?_ ?_ ?_ ?_ r j
  · intro r k
    show V c main_v72 (((cfg3.win 0).blk t).view.emb (ix2 r k)) = V c main_v72 _
    refine congrArg (V c main_v72) (funext fun a => Fin.ext ?_)
    match a with
    | ⟨0, _⟩ => show win3_0.index t (0 : Fin 2) * 256 + 1 * r.val = 256 * win3_4.index t (0 : Fin 2) + r.val; omega
    | ⟨1, _⟩ => show win3_0.index t (1 : Fin 2) * 256 + 1 * k.val = k.val; omega
  · intro k j
    show V c main_v73 (((cfg3.win 1).blk t).view.emb (ix2 k j)) = V c main_v73 _
    refine congrArg (V c main_v73) (funext fun a => Fin.ext ?_)
    match a with
    | ⟨0, _⟩ => show win3_1.index t (0 : Fin 2) * 256 + 1 * k.val = k.val; omega
    | ⟨1, _⟩ => show win3_1.index t (1 : Fin 2) * 8192 + 1 * j.val = j.val; omega
  · intro j
    show V c main_v74 (((cfg3.win 2).blk t).view.emb (ix2 (0 : Fin 1) j)) = V c main_v74 _
    refine congrArg (V c main_v74) (funext fun a => Fin.ext ?_)
    match a with
    | ⟨0, _⟩ => show win3_2.index t (0 : Fin 2) * 1 + 1 * 0 = 0; omega
    | ⟨1, _⟩ => show win3_2.index t (1 : Fin 2) * 8192 + 1 * j.val = j.val; omega
  · intro r j
    show V c main_v36 (((cfg3.win 3).blk t).view.emb (ix2 r j)) = V c main_v36 _
    refine congrArg (V c main_v36) (funext fun a => Fin.ext ?_)
    match a with
    | ⟨0, _⟩ => show win3_3.index t (0 : Fin 2) * 256 + 1 * r.val = 256 * win3_4.index t (0 : Fin 2) + r.val; omega
    | ⟨1, _⟩ => show win3_3.index t (1 : Fin 2) * 8192 + 1 * j.val = j.val; omega

theorem mem_blk3 (t : Fin cfg3.N) (x : S8192x8192.Idx) :
    x ∈ ((cfg3.win 4).blk t).view.set ↔ ∀ a : Fin 2, win3_4.index t a * S256x8192.size a ≤ (x a).val
      ∧ (x a).val < win3_4.index t a * S256x8192.size a + S256x8192.size a := by
  show x ∈ ((View.whole main_v75).slice (win3_4.rect t)).set ↔ _
  rw [View.set_slice_whole, Rect.mem_set_unit]
  exact Iff.rfl

theorem cover3 (x : S8192x8192.Idx) : ∃ t : Fin cfg3.N, (cfg3.win 4).flush t = true ∧ x ∈ ((cfg3.win 4).blk t).view.set := by
  have hx0 : (x 0).val < 8192 := (x 0).isLt
  have hx1 : (x 1).val < 8192 := (x 1).isLt
  obtain ⟨t, ht⟩ := idx_onto3 ⟨(x 0).val / 256, by omega⟩
  have q0 : win3_4.index t (0 : Fin 2) = (x 0).val / 256 := congrFun ht 0
  have q1 : win3_4.index t (1 : Fin 2) = 0 := congrFun ht 1
  refine ⟨t, flush3_4 t, ?_⟩
  rw [mem_blk3]
  intro a
  match a with
  | ⟨0, _⟩ => show win3_4.index t (0 : Fin 2) * 256 ≤ (x 0).val ∧ (x 0).val < win3_4.index t (0 : Fin 2) * 256 + 256; omega
  | ⟨1, _⟩ => show win3_4.index t (1 : Fin 2) * 8192 ≤ (x 1).val ∧ (x 1).val < win3_4.index t (1 : Fin 2) * 8192 + 8192; omega

theorem final3_4 (c : Dev nD) :
    (dat3 (F := Ideal) V c).arrAt 4 cfg3.N = G3 (V c main_v72) (V c main_v73) (V c main_v74) (V c main_v36) :=
  (dat3 (F := Ideal) V c).arrAt_eq_of_cover 4 (G3 (V c main_v72) (V c main_v73) (V c main_v74) (V c main_v36))
    (fun t _ => flushed3_eq V c t) cover3

end Array

end Cert.KernelIdeal.Gen

end
-- ==== Proof.LibScatterVec.lean ====
import Idealize.ShloMosaic.PureOps.Ideal
import Idealize.ShloMosaic.PureOps.Contract
import Idealize.ShloMosaic.Lib.ValueIdx
import Idealize.ShloMosaic.Lib.ValueIdxRank1

noncomputable section

open scoped BigOperators

namespace Cert.LibScatterVec

open Idealize.ShloMosaic Idealize.ShloMosaic.ValueIdx

abbrev vecScatterDims (M E : Nat)
    (wf : ScatterDims.WF (⟨1, ![M]⟩ : Shape) (⟨2, ![E, 1]⟩ : Shape) (⟨1, ![E]⟩ : Shape) [] [0] [0] 1) :
    ScatterDims (⟨1, ![M]⟩ : Shape) (⟨2, ![E, 1]⟩ : Shape) (⟨1, ![E]⟩ : Shape) where
  updateWindowDims := []
  insertedWindowDims := [0]
  scatterDimsToOperandDims := [0]
  indexVectorDim := 1
  wf := wf

private theorem siIdx_eq {M E : Nat}
    (wf : ScatterDims.WF (⟨1, ![M]⟩ : Shape) (⟨2, ![E, 1]⟩ : Shape) (⟨1, ![E]⟩ : Shape) [] [0] [0] 1)
    (e : Fin E) (c : Fin (vecScatterDims M E wf).scatterDimsToOperandDims.length) :
    (vecScatterDims M E wf).siIdx (ix1 e) c = ix2 e (0 : Fin 1) := by
  have hc : c.val = 0 := by have := c.isLt; simpa using this
  funext b
  refine Fin.ext ?_
  match b with
  | ⟨0, _⟩ => rfl
  | ⟨1, _⟩ => exact hc

private theorem start_eq {M E w : Nat}
    (wf : ScatterDims.WF (⟨1, ![M]⟩ : Shape) (⟨2, ![E, 1]⟩ : Shape) (⟨1, ![E]⟩ : Shape) [] [0] [0] 1)
    (idx : IVec (⟨2, ![E, 1]⟩ : Shape) w) (e : Fin E) :
    (vecScatterDims M E wf).start (ix1 e) idx 0 = (idx (ix2 e (0 : Fin 1))).toInt := by
  unfold ScatterDims.start
  rw [dif_pos (show (0 : Fin 1) ∈ (vecScatterDims M E wf).scatterDimsToOperandDims from List.mem_singleton.mpr rfl),
    siIdx_eq]

private theorem window_eq {M E : Nat}
    (wf : ScatterDims.WF (⟨1, ![M]⟩ : Shape) (⟨2, ![E, 1]⟩ : Shape) (⟨1, ![E]⟩ : Shape) [] [0] [0] 1)
    (j : (⟨1, ![E]⟩ : Shape).Idx) :
    (vecScatterDims M E wf).window j 0 = 0 := by
  unfold ScatterDims.window
  rw [dif_neg (show ¬ (0 : Fin 1) ∈ (vecScatterDims M E wf).sKept from
    (by decide : ¬ (0 : Fin 1) ∈ (List.finRange 1).filter (· ∉ [(0 : Fin 1)])))]

theorem resultIdx?_eq_some_iff {M E w : Nat}
    (wf : ScatterDims.WF (⟨1, ![M]⟩ : Shape) (⟨2, ![E, 1]⟩ : Shape) (⟨1, ![E]⟩ : Shape) [] [0] [0] 1)
    (idx : IVec (⟨2, ![E, 1]⟩ : Shape) w) (e : Fin E) (r : Fin M) :
    (vecScatterDims M E wf).resultIdx? (ix1 e) idx = some (ix1 r)
      ↔ (idx (ix2 e (0 : Fin 1))).toInt = (r.val : ℤ) := by
  have hs := start_eq wf idx e
  have hw := window_eq wf (ix1 e)
  have hr := r.isLt
  constructor
  · intro hres
    unfold ScatterDims.resultIdx? at hres
    split_ifs at hres with h
    rw [Option.some.injEq] at hres
    have e0 : ((vecScatterDims M E wf).start (ix1 e) idx 0 + (vecScatterDims M E wf).window (ix1 e) 0).toNat = r.val :=
      congrArg Fin.val (congrFun hres 0)
    have h0 := (h 0).1
    rw [hs, hw] at e0 h0
    omega
  · intro hidx
    unfold ScatterDims.resultIdx?
    have h : ∀ a, 0 ≤ (vecScatterDims M E wf).start (ix1 e) idx a + (vecScatterDims M E wf).window (ix1 e) a
        ∧ (vecScatterDims M E wf).start (ix1 e) idx a + (vecScatterDims M E wf).window (ix1 e) a
          < (⟨1, ![M]⟩ : Shape).size a := by
      refine Fin.forall_fin_one.2 ?_
      rw [hs, hw]
      show 0 ≤ _ ∧ _ < (M : ℤ)
      omega
    rw [dif_pos h, Option.some.injEq]
    funext a
    refine Fin.ext ?_
    revert a
    refine Fin.forall_fin_one.2 ?_
    show ((vecScatterDims M E wf).start (ix1 e) idx 0 + (vecScatterDims M E wf).window (ix1 e) 0).toNat = r.val
    rw [hs, hw]; omega

theorem vecScatterAdd_apply {M E w : Nat}
    (wf : ScatterDims.WF (⟨1, ![M]⟩ : Shape) (⟨2, ![E, 1]⟩ : Shape) (⟨1, ![E]⟩ : Shape) [] [0] [0] 1)
    (x : (⟨1, ![M]⟩ : Shape).Idx → EReal) (idx : IVec (⟨2, ![E, 1]⟩ : Shape) w)
    (u : (⟨1, ![E]⟩ : Shape).Idx → EReal) (r : Fin M) :
    Ideal.hostScatterAdd (vecScatterDims M E wf) x idx u (ix1 r)
      = x (ix1 r) + ∑ e : Fin E, if (idx (ix2 e (0 : Fin 1))).toInt = (r.val : ℤ) then u (ix1 e) else 0 := by
  unfold Ideal.hostScatterAdd
  congr 1
  rw [Finset.sum_filter]
  refine Fintype.sum_equiv idxEquiv1 _ _ fun j => ?_
  obtain ⟨e, rfl⟩ : ∃ e, j = ix1 e := ⟨j 0, eq_ix1 j⟩
  exact if_congr (resultIdx?_eq_some_iff wf idx e r) rfl rfl

end Cert.LibScatterVec

end
-- ==== Proof.LibScatterMat.lean ====
import Idealize.ShloMosaic.PureOps.Ideal
import Idealize.ShloMosaic.PureOps.Contract
import Idealize.ShloMosaic.Lib.ValueIdx
import Idealize.ShloMosaic.Lib.ValueIdxRank1

noncomputable section

open scoped BigOperators

namespace Cert.LibScatterMat

open Idealize.ShloMosaic Idealize.ShloMosaic.ValueIdx

abbrev matScatterDims (M N E : Nat)
    (wf : ScatterDims.WF (⟨2, ![M, N]⟩ : Shape) (⟨2, ![E, 2]⟩ : Shape) (⟨1, ![E]⟩ : Shape) [] [0, 1] [0, 1] 1) :
    ScatterDims (⟨2, ![M, N]⟩ : Shape) (⟨2, ![E, 2]⟩ : Shape) (⟨1, ![E]⟩ : Shape) where
  updateWindowDims := []
  insertedWindowDims := [0, 1]
  scatterDimsToOperandDims := [0, 1]
  indexVectorDim := 1
  wf := wf

variable {M N E : Nat}
  (wf : ScatterDims.WF (⟨2, ![M, N]⟩ : Shape) (⟨2, ![E, 2]⟩ : Shape) (⟨1, ![E]⟩ : Shape) [] [0, 1] [0, 1] 1)

private theorem siIdx_eq (e : Fin E) (c : Fin (matScatterDims M N E wf).scatterDimsToOperandDims.length) :
    (matScatterDims M N E wf).siIdx (ix1 e) c = ix2 e (⟨c.val, c.isLt⟩ : Fin 2) := by
  funext b
  refine Fin.ext ?_
  match b with
  | ⟨0, _⟩ => rfl
  | ⟨1, _⟩ => rfl

private theorem start0_eq {w : Nat} (idx : IVec (⟨2, ![E, 2]⟩ : Shape) w) (e : Fin E) :
    (matScatterDims M N E wf).start (ix1 e) idx 0 = (idx (ix2 e (0 : Fin 2))).toInt := by
  unfold ScatterDims.start
  rw [dif_pos (show (0 : Fin 2) ∈ (matScatterDims M N E wf).scatterDimsToOperandDims from List.mem_cons_self), siIdx_eq]
  rfl

private theorem start1_eq {w : Nat} (idx : IVec (⟨2, ![E, 2]⟩ : Shape) w) (e : Fin E) :
    (matScatterDims M N E wf).start (ix1 e) idx 1 = (idx (ix2 e (1 : Fin 2))).toInt := by
  unfold ScatterDims.start
  rw [dif_pos (show (1 : Fin 2) ∈ (matScatterDims M N E wf).scatterDimsToOperandDims from List.mem_cons_of_mem _ List.mem_cons_self), siIdx_eq]
  rfl

private theorem window_eq (j : (⟨1, ![E]⟩ : Shape).Idx) (a : Fin 2) :
    (matScatterDims M N E wf).window j a = 0 := by
  unfold ScatterDims.window
  rw [dif_neg]
  show ¬ a ∈ (List.finRange 2).filter (· ∉ [(0 : Fin 2), 1])
  revert a; decide

theorem resultIdx?_eq_some_iff {w : Nat} (idx : IVec (⟨2, ![E, 2]⟩ : Shape) w) (e : Fin E) (r : Fin M) (c : Fin N) :
    (matScatterDims M N E wf).resultIdx? (ix1 e) idx = some (ix2 r c)
      ↔ (idx (ix2 e (0 : Fin 2))).toInt = (r.val : ℤ) ∧ (idx (ix2 e (1 : Fin 2))).toInt = (c.val : ℤ) := by
  have hs0 := start0_eq wf idx e
  have hs1 := start1_eq wf idx e
  have hw0 := window_eq wf (ix1 e) 0
  have hw1 := window_eq wf (ix1 e) 1
  have hr := r.isLt
  have hc := c.isLt
  constructor
  · intro hres
    unfold ScatterDims.resultIdx? at hres
    split_ifs at hres with h
    rw [Option.some.injEq] at hres
    have e0 : ((matScatterDims M N E wf).start (ix1 e) idx 0 + (matScatterDims M N E wf).window (ix1 e) 0).toNat = r.val :=
      congrArg Fin.val (congrFun hres 0)
    have e1 : ((matScatterDims M N E wf).start (ix1 e) idx 1 + (matScatterDims M N E wf).window (ix1 e) 1).toNat = c.val :=
      congrArg Fin.val (congrFun hres 1)
    have h0 := (h 0).1
    have h1 := (h 1).1
    rw [hs0, hw0] at e0 h0
    rw [hs1, hw1] at e1 h1
    omega
  · rintro ⟨hi0, hi1⟩
    unfold ScatterDims.resultIdx?
    have h : ∀ a, 0 ≤ (matScatterDims M N E wf).start (ix1 e) idx a + (matScatterDims M N E wf).window (ix1 e) a
        ∧ (matScatterDims M N E wf).start (ix1 e) idx a + (matScatterDims M N E wf).window (ix1 e) a
          < (⟨2, ![M, N]⟩ : Shape).size a := by
      refine Fin.forall_fin_two.2 ⟨?_, ?_⟩
      · rw [hs0, hw0]
        show 0 ≤ _ ∧ _ < (M : ℤ)
        omega
      · rw [hs1, hw1]
        show 0 ≤ _ ∧ _ < (N : ℤ)
        omega
    rw [dif_pos h, Option.some.injEq]
    funext a
    refine Fin.ext ?_
    revert a
    refine Fin.forall_fin_two.2 ⟨?_, ?_⟩
    · show ((matScatterDims M N E wf).start (ix1 e) idx 0 + (matScatterDims M N E wf).window (ix1 e) 0).toNat = r.val
      rw [hs0, hw0]; omega
    · show ((matScatterDims M N E wf).start (ix1 e) idx 1 + (matScatterDims M N E wf).window (ix1 e) 1).toNat = c.val
      rw [hs1, hw1]; omega

theorem matScatterAdd_apply {w : Nat}
    (x : (⟨2, ![M, N]⟩ : Shape).Idx → EReal) (idx : IVec (⟨2, ![E, 2]⟩ : Shape) w)
    (u : (⟨1, ![E]⟩ : Shape).Idx → EReal) (r : Fin M) (c : Fin N) :
    Ideal.hostScatterAdd (matScatterDims M N E wf) x idx u (ix2 r c)
      = x (ix2 r c) + ∑ e : Fin E,
          if (idx (ix2 e (0 : Fin 2))).toInt = (r.val : ℤ) ∧ (idx (ix2 e (1 : Fin 2))).toInt = (c.val : ℤ) then u (ix1 e) else 0 := by
  unfold Ideal.hostScatterAdd
  congr 1
  rw [Finset.sum_filter]
  refine Fintype.sum_equiv idxEquiv1 _ _ fun j => ?_
  obtain ⟨e, rfl⟩ : ∃ e, j = ix1 e := ⟨j 0, eq_ix1 j⟩
  exact if_congr (resultIdx?_eq_some_iff wf idx e r c) rfl rfl

end Cert.LibScatterMat

end
-- ==== Proof.HostReads.lean ====
import proofs.«407196_j36060545417339_2_alg».proof.Proof.Gen.KernelIdeal.Launch
import proofs.«407196_j36060545417339_2_alg».proof.Proof.SpecSage
import proofs.«407196_j36060545417339_2_alg».proof.Proof.SpecHost
import proofs.«407196_j36060545417339_2_alg».proof.Proof.LibScatterVec
import proofs.«407196_j36060545417339_2_alg».proof.Proof.LibScatterMat
import Idealize.ShloMosaic.Lib.StableHlo.Run
import Idealize.ShloMosaic.Lib.Pipeline.Value
import Idealize.ShloMosaic.Lib.ValueLayout
import Idealize.ShloMosaic.Lib.IdealHost

set_option maxRecDepth 16384

noncomputable section

open scoped BigOperators

namespace Cert.KernelIdeal.Gen

open Idealize.ShloMosaic Idealize.ShloMosaic.TcCoe Idealize.ShloMosaic.ValueIdx
open Idealize.ShloMosaic.StableHlo

local macro "results_rw" : tactic =>
  `(tactic| (repeat (first
               | rw [nullary_result] | rw [unary_result] | rw [binary_result] | rw [ternary_result] | rw [quaternary_result]
               | rw [reshape_result] | rw [nary_result] | rw [unaryIndexed_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [nary_result_ne]; rotate_left; decide)
               | (rw [unaryIndexed_result_ne]; rotate_left; decide))))

section Indexed2L

open Idealize.ShloMosaic.StableHlo

variable {nD : ℕ} {τ : Topo} {sig : RefSig} {Val : EltTy → Type}

theorem unaryIndexed2_result {a i0 i1 y : Ref sig .tc} (T : BufTy)
    (f : a.ty.Contents Val → (Fin 2 → T.Contents Val) → y.ty.Contents Val) (hT ha hix hy) (V : Valuation τ sig Val) :
    (StableHlo.unaryIndexed (τ := τ) a ![i0, i1] T y f hT ha hix hy).result V (Proc.devRef .tc y)
      = f (V (Proc.devRef .tc a))
          ![cast (congrArg (fun U : BufTy => U.Contents Val) (hT 0)) (V (Proc.devRef .tc i0)),
            cast (congrArg (fun U : BufTy => U.Contents Val) (hT 1)) (V (Proc.devRef .tc i1))] := by
  rw [unaryIndexed_result]
  exact congrArg (f (V (Proc.devRef .tc a))) (funext fun k => by fin_cases k <;> rfl)

theorem unaryIndexed2_result' {a i0 i1 y : Ref sig .tc} (T : BufTy)
    (f : a.ty.Contents Val → (Fin 2 → T.Contents Val) → y.ty.Contents Val) (hT ha hix hy) (V : Valuation τ sig Val) :
    (StableHlo.unaryIndexed (τ := τ) a ![i0, i1] T y f hT ha hix hy).result V (no_index (Proc.devRef .tc y))
      = f (V (Proc.devRef .tc a))
          ![cast (congrArg (fun U : BufTy => U.Contents Val) (hT 0)) (V (Proc.devRef .tc i0)),
            cast (congrArg (fun U : BufTy => U.Contents Val) (hT 1)) (V (Proc.devRef .tc i1))] :=
  unaryIndexed2_result T f hT ha hix hy V

end Indexed2L

local macro "results_rw2" : tactic =>
  `(tactic| (repeat (first
               | rw [nullary_result] | rw [unary_result] | rw [binary_result] | rw [ternary_result] | rw [quaternary_result]
               | rw [reshape_result] | rw [unaryIndexed2_result] | rw [nary_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [nary_result_ne]; rotate_left; decide)
               | (rw [unaryIndexed_result_ne]; rotate_left; decide))))

section Terms

variable (ei : IVec ⟨2, ![2, 262144]⟩ 32)

def edgeRow (r : ℕ) (hs : (⟨2, ![2, 262144]⟩ : Shape).Slices ![r, 0] ⟨2, ![1, 262144]⟩) : IVec ⟨1, ![262144]⟩ 32 :=
  shapeCast ⟨1, ![262144]⟩ (extractStridedSlice ⟨2, ![1, 262144]⟩ ![r, 0] ei hs) (by decide)

def wrapV (v : IVec ⟨1, ![262144]⟩ 32) : IVec ⟨1, ![262144]⟩ 32 :=
  select (cmpi .slt v (broadcastInDim ⟨1, ![262144]⟩ ![] (by decide) (constantI ⟨0, ![]⟩ 32 0#32)))
    (addi v (broadcastInDim ⟨1, ![262144]⟩ ![] (by decide) (constantI ⟨0, ![]⟩ 32 8192#32))) v

def colV (v : IVec ⟨1, ![262144]⟩ 32) : IVec ⟨2, ![262144, 1]⟩ 32 := broadcastInDim ⟨2, ![262144, 1]⟩ ![0] (by decide) v

def splat (s : Shape) (b : BitVec 32) (h : (⟨0, ![]⟩ : Shape).BroadcastsInDim s ![]) : FVec Ideal s .f32 :=
  broadcastInDim s ![] h (constant (F := Ideal) ⟨0, ![]⟩ .f32 b)

def degRawT : FVec Ideal ⟨1, ![8192]⟩ .f32 :=
  Host.scatterAdd (F := Ideal) (φ := .f32) (Cert.LibScatterVec.vecScatterDims 8192 262144 (by decide)) (splat ⟨1, ![8192]⟩ 0x00000000#32 (by decide))
    (colV (wrapV (edgeRow ei 1 (by decide)))) (splat ⟨1, ![262144]⟩ 0x3F800000#32 (by decide))

def degT : FVec Ideal ⟨2, ![8192, 1]⟩ .f32 :=
  shapeCast ⟨2, ![8192, 1]⟩ (maximumf (F := Ideal) (φ := .f32) (degRawT ei) (splat ⟨1, ![8192]⟩ 0x3F800000#32 (by decide))) (by decide)

theorem catPairs : Shape.Concatenates [(⟨2, ![262144, 1]⟩ : Shape), ⟨2, ![262144, 1]⟩] ⟨2, ![262144, 2]⟩ 1 := by decide

def pairsV : IVec ⟨2, ![262144, 2]⟩ 32 :=
  concatenate ⟨2, ![262144, 2]⟩ 1
    [⟨⟨2, ![262144, 1]⟩, colV (wrapV (edgeRow ei 1 (by decide)))⟩, ⟨⟨2, ![262144, 1]⟩, colV (wrapV (edgeRow ei 0 (by decide)))⟩] catPairs

def cntT : FVec Ideal ⟨2, ![8192, 8192]⟩ .f32 :=
  Host.scatterAdd (F := Ideal) (φ := .f32) (Cert.LibScatterMat.matScatterDims 8192 8192 262144 (by decide)) (splat ⟨2, ![8192, 8192]⟩ 0x00000000#32 (by decide))
    (pairsV ei) (splat ⟨1, ![262144]⟩ 0x3F800000#32 (by decide))

def maskT : FVec Ideal ⟨2, ![8192, 8192]⟩ .bf16 :=
  uitofp (F := Ideal) .bf16 (transpose ⟨2, ![8192, 8192]⟩ [1, 0] (cmpf (F := Ideal) (φ := .f32) .ogt (cntT ei) (splat ⟨2, ![8192, 8192]⟩ 0x00000000#32 (by decide))) (by decide))

end Terms

theorem wrap_of_nonneg (x : BitVec 32) (h : 0 ≤ x.toInt) :
    Scalar.select (IntOp.cmpi .slt x 0#32) (IntOp.addi x 8192#32) x = x := by
  have hc : IntOp.cmpi .slt x 0#32 = 0#1 := by
    show BitVec.ofBool (x.slt 0#32) = 0#1
    have hs : x.slt 0#32 = false := by
      simp only [BitVec.slt, BitVec.toInt_zero, decide_eq_false_iff_not, not_lt]
      exact h
    rw [hs]; rfl
  rw [hc]; exact select_zero _ _

theorem uitofp_bit (b : BitVec 1) : FloatOps.uitofp (F := Ideal) .bf16 b = if b = 1#1 then (1 : EReal) else 0 := by
  rcases BitVec.eq_zero_or_eq_one b with rfl | rfl
  · show (((0#1 : BitVec 1).toNat : ℝ) : EReal) = _
    simp
  · show (((1#1 : BitVec 1).toNat : ℝ) : EReal) = _
    simp

theorem cmp_ogt_zero (x : EReal) : FloatOps.cmpf (F := Ideal) (φ := .f32) .ogt x (0 : EReal) = 1#1 ↔ 0 < x := by
  show Ideal.cmp .ogt x 0 = 1#1 ↔ 0 < x
  unfold Ideal.cmp
  by_cases h : (0 : EReal) < x
  · simp [h]
  · simp [h]

section TermsAt

variable (ei : IVec ⟨2, ![2, 262144]⟩ 32)

theorem edgeRow_apply (r : ℕ) (hs : (⟨2, ![2, 262144]⟩ : Shape).Slices ![r, 0] ⟨2, ![1, 262144]⟩) (k : Fin 2) (hk : k.val = r)
    (e : Fin 262144) : edgeRow ei r hs (ix1 e) = ei (ix2 k e) := by
  unfold edgeRow
  rw [shapeCast_1a_a_apply]
  exact slice2_axis0_apply r ei hs 0 e k (by rw [hk]; rfl)

theorem wrapV_apply (v : IVec ⟨1, ![262144]⟩ 32) (e : Fin 262144) :
    wrapV v (ix1 e) = Scalar.select (IntOp.cmpi .slt (v (ix1 e)) 0#32) (IntOp.addi (v (ix1 e)) 8192#32) (v (ix1 e)) := rfl

theorem colV_apply (v : IVec ⟨1, ![262144]⟩ 32) (e : Fin 262144) (c : Fin 1) : colV v (ix2 e c) = v (ix1 e) := by
  unfold colV
  exact broadcastInDim_apply _ _ v _ (ix1 e) (fun a => match a with | ⟨0, _⟩ => rfl)

theorem splat_apply (s : Shape) (b : BitVec 32) (h : (⟨0, ![]⟩ : Shape).BroadcastsInDim s ![]) (i : s.Idx) :
    splat s b h i = Ideal.ofBits .f32 b := rfl

theorem wrapped_row (r : ℕ) (hs : (⟨2, ![2, 262144]⟩ : Shape).Slices ![r, 0] ⟨2, ![1, 262144]⟩) (k : Fin 2) (hk : k.val = r)
    (e : Fin 262144) (h : 0 ≤ (ei (ix2 k e)).toInt) : wrapV (edgeRow ei r hs) (ix1 e) = ei (ix2 k e) := by
  rw [wrapV_apply, edgeRow_apply ei r hs k hk e]
  exact wrap_of_nonneg _ h

theorem pairsV_apply0 (e : Fin 262144) :
    pairsV ei (ix2 e (0 : Fin 2)) = wrapV (edgeRow ei 1 (by decide)) (ix1 e) := by
  unfold pairsV
  refine (concatenate_pair_apply_left (t := ⟨2, ![262144, 2]⟩) (s₁ := ⟨2, ![262144, 1]⟩) (s₂ := ⟨2, ![262144, 1]⟩) (1 : Fin 2) _ _ catPairs (ix2 e (0 : Fin 2)) rfl (ix2 e (0 : Fin 1)) ?_).trans
    (colV_apply _ e 0)
  intro b
  match b with
  | ⟨0, _⟩ => rfl
  | ⟨1, _⟩ => rfl

theorem pairsV_apply1 (e : Fin 262144) :
    pairsV ei (ix2 e (1 : Fin 2)) = wrapV (edgeRow ei 0 (by decide)) (ix1 e) := by
  unfold pairsV
  refine (concatenate_pair_apply_right (t := ⟨2, ![262144, 2]⟩) (s₁ := ⟨2, ![262144, 1]⟩) (s₂ := ⟨2, ![262144, 1]⟩) (1 : Fin 2) _ _ catPairs (ix2 e (1 : Fin 2)) rfl rfl (ix2 e (0 : Fin 1)) ?_ rfl).trans
    (colV_apply _ e 0)
  intro b hb
  match b, hb with
  | ⟨0, _⟩, _ => rfl
  | ⟨1, _⟩, hb => exact absurd rfl hb

theorem degRawT_apply (r : Fin 8192) :
    degRawT ei (ix1 r)
      = ∑ e : Fin 262144, if (wrapV (edgeRow ei 1 (by decide)) (ix1 e)).toInt = (r.val : ℤ) then (1 : EReal) else 0 := by
  unfold degRawT
  refine (Cert.LibScatterVec.vecScatterAdd_apply _ _ _ _ r).trans ?_
  rw [splat_apply, Ideal.ofBits_zero_f32, zero_add]
  refine Finset.sum_congr rfl fun e _ => ?_
  rw [colV_apply, splat_apply, Ideal.ofBits_one_f32]

theorem cntT_apply (i j : Fin 8192) :
    cntT ei (ix2 i j)
      = ∑ e : Fin 262144, if (wrapV (edgeRow ei 1 (by decide)) (ix1 e)).toInt = (i.val : ℤ)
          ∧ (wrapV (edgeRow ei 0 (by decide)) (ix1 e)).toInt = (j.val : ℤ) then (1 : EReal) else 0 := by
  unfold cntT
  refine (Cert.LibScatterMat.matScatterAdd_apply _ _ _ _ i j).trans ?_
  rw [splat_apply, Ideal.ofBits_zero_f32, zero_add]
  refine Finset.sum_congr rfl fun e _ => ?_
  rw [pairsV_apply0, pairsV_apply1, splat_apply, Ideal.ofBits_one_f32]

theorem degT_eq (hd : ∀ e, 0 ≤ Sage.dstZ ei e) : degT ei = fun x => Sage.Deg ei (x 0) := by
  funext x
  obtain ⟨r, u, rfl⟩ : ∃ r u, x = ix2 r u := ⟨x 0, x 1, eq_ix2 x⟩
  unfold degT
  refine (shapeCast_apply _ _ (ix2 r u) (ix1 r) ?_).trans ?_
  · rw [Shape.rowMajor_val_two, Shape.rowMajor_val_one]
    show r.val = r.val * 1 + u.val
    omega
  · show max (degRawT ei (ix1 r)) (splat _ _ _ (ix1 r)) = max (Sage.DegRaw ei r) 1
    rw [degRawT_apply, splat_apply, Ideal.ofBits_one_f32]
    refine congrArg (fun z : EReal => max z 1) ?_
    unfold Sage.DegRaw
    refine Finset.sum_congr rfl fun e _ => ?_
    rw [wrapped_row ei 1 _ 1 rfl e (hd e)]
    rfl

theorem cntT_eq (hs : ∀ e, 0 ≤ Sage.srcZ ei e) (hd : ∀ e, 0 ≤ Sage.dstZ ei e) (i j : Fin 8192) :
    cntT ei (ix2 i j) = Sage.Cnt ei i j := by
  rw [cntT_apply]
  unfold Sage.Cnt
  refine Finset.sum_congr rfl fun e _ => ?_
  rw [wrapped_row ei 1 _ 1 rfl e (hd e), wrapped_row ei 0 _ 0 rfl e (hs e)]
  rfl

theorem maskT_apply (a b : Fin 8192) :
    maskT ei (ix2 a b) = if 0 < cntT ei (ix2 b a) then (1 : EReal) else 0 := by
  unfold maskT
  show FloatOps.uitofp (F := Ideal) .bf16 (transpose ⟨2, ![8192, 8192]⟩ [1, 0] (cmpf (F := Ideal) (φ := .f32) .ogt (cntT ei) (splat ⟨2, ![8192, 8192]⟩ 0x00000000#32 (by decide))) (by decide) (ix2 a b)) = _
  rw [transpose_ix2_apply, uitofp_bit, cmpf_apply, splat_apply, Ideal.ofBits_zero_f32]
  exact if_congr (cmp_ogt_zero _) rfl rfl

end TermsAt

theorem Tr_of_transpose {m n : ℕ} (w : (⟨2, ![m, n]⟩ : Shape).Idx → EReal)
    (h : (⟨2, ![m, n]⟩ : Shape).Transposes [1, 0] ⟨2, ![n, m]⟩) :
    transpose ⟨2, ![n, m]⟩ [1, 0] w h = HostSpec.Tr (m := m) (n := n) w := by
  funext x
  obtain ⟨a, b, rfl⟩ : ∃ a b, x = ix2 a b := ⟨x 0, x 1, eq_ix2 x⟩
  exact transpose_ix2_apply w h a b

theorem Row_of_shapeCast {n : ℕ} (b : (⟨1, ![n]⟩ : Shape).Idx → EReal) (h : (⟨1, ![n]⟩ : Shape).ShapeCasts ⟨2, ![1, n]⟩) :
    shapeCast ⟨2, ![1, n]⟩ b h = HostSpec.Row (n := n) b := by
  funext x
  obtain ⟨u, o, rfl⟩ : ∃ u o, x = ix2 u o := ⟨x 0, x 1, eq_ix2 x⟩
  exact shapeCast_a_1a_apply b h u o

theorem cat160 : Shape.Concatenates [(⟨2, ![8192, 32]⟩ : Shape), ⟨2, ![8192, 32]⟩, ⟨2, ![8192, 32]⟩, ⟨2, ![8192, 32]⟩, ⟨2, ![8192, 32]⟩]
    ⟨2, ![8192, 160]⟩ 1 := by decide

theorem H0_of_concatenate (a0 a1 a2 a3 a4 : (⟨2, ![8192, 32]⟩ : Shape).Idx → EReal)
    (h : Shape.Concatenates (([⟨⟨2, ![8192, 32]⟩, a0⟩, ⟨⟨2, ![8192, 32]⟩, a1⟩, ⟨⟨2, ![8192, 32]⟩, a2⟩, ⟨⟨2, ![8192, 32]⟩, a3⟩,
      ⟨⟨2, ![8192, 32]⟩, a4⟩] : List ((s : Shape) × (s.Idx → EReal))).map (·.1)) ⟨2, ![8192, 160]⟩ 1) :
    concatenate ⟨2, ![8192, 160]⟩ 1 [⟨⟨2, ![8192, 32]⟩, a0⟩, ⟨⟨2, ![8192, 32]⟩, a1⟩, ⟨⟨2, ![8192, 32]⟩, a2⟩,
      ⟨⟨2, ![8192, 32]⟩, a3⟩, ⟨⟨2, ![8192, 32]⟩, a4⟩] h = HostSpec.H0 a0 a1 a2 a3 a4 := by
  funext x
  obtain ⟨i, d, rfl⟩ : ∃ i d, x = ix2 i d := ⟨x 0, x 1, eq_ix2 x⟩
  rw [HostSpec.H0_ix2]
  by_cases h0 : d.val < 32
  · rw [if_pos h0]
    refine concatenate_apply_piece (t := ⟨2, ![8192, 160]⟩) (1 : Fin 2) _ h (ix2 i d) 0 (show 0 < 5 from by decide) ⟨2, ![8192, 32]⟩ a0 rfl rfl 0 rfl
      (ix2 i (⟨d.val % 32, Nat.mod_lt _ (by decide)⟩ : Fin 32)) ?_ ?_
    · intro b hb
      match b, hb with
      | ⟨0, _⟩, _ => rfl
      | ⟨1, _⟩, hb => exact absurd rfl hb
    · show 0 + d.val % 32 = d.val
      have := d.isLt
      omega
  · rw [if_neg h0]
    by_cases h1 : d.val < 64
    · rw [if_pos h1]
      refine concatenate_apply_piece (t := ⟨2, ![8192, 160]⟩) (1 : Fin 2) _ h (ix2 i d) 1 (show 1 < 5 from by decide) ⟨2, ![8192, 32]⟩ a1 rfl rfl 32 rfl
        (ix2 i (⟨d.val % 32, Nat.mod_lt _ (by decide)⟩ : Fin 32)) ?_ ?_
      · intro b hb
        match b, hb with
        | ⟨0, _⟩, _ => rfl
        | ⟨1, _⟩, hb => exact absurd rfl hb
      · show 32 + d.val % 32 = d.val
        have := d.isLt
        omega
    · rw [if_neg h1]
      by_cases h2 : d.val < 96
      · rw [if_pos h2]
        refine concatenate_apply_piece (t := ⟨2, ![8192, 160]⟩) (1 : Fin 2) _ h (ix2 i d) 2 (show 2 < 5 from by decide) ⟨2, ![8192, 32]⟩ a2 rfl rfl 64 rfl
          (ix2 i (⟨d.val % 32, Nat.mod_lt _ (by decide)⟩ : Fin 32)) ?_ ?_
        · intro b hb
          match b, hb with
          | ⟨0, _⟩, _ => rfl
          | ⟨1, _⟩, hb => exact absurd rfl hb
        · show 64 + d.val % 32 = d.val
          have := d.isLt
          omega
      · rw [if_neg h2]
        by_cases h3 : d.val < 128
        · rw [if_pos h3]
          refine concatenate_apply_piece (t := ⟨2, ![8192, 160]⟩) (1 : Fin 2) _ h (ix2 i d) 3 (show 3 < 5 from by decide) ⟨2, ![8192, 32]⟩ a3 rfl rfl 96 rfl
            (ix2 i (⟨d.val % 32, Nat.mod_lt _ (by decide)⟩ : Fin 32)) ?_ ?_
          · intro b hb
            match b, hb with
            | ⟨0, _⟩, _ => rfl
            | ⟨1, _⟩, hb => exact absurd rfl hb
          · show 96 + d.val % 32 = d.val
            have := d.isLt
            omega
        · rw [if_neg h3]
          refine concatenate_apply_piece (t := ⟨2, ![8192, 160]⟩) (1 : Fin 2) _ h (ix2 i d) 4 (show 4 < 5 from by decide) ⟨2, ![8192, 32]⟩ a4 rfl rfl 128 rfl
            (ix2 i (⟨d.val % 32, Nat.mod_lt _ (by decide)⟩ : Fin 32)) ?_ ?_
          · intro b hb
            match b, hb with
            | ⟨0, _⟩, _ => rfl
            | ⟨1, _⟩, hb => exact absurd rfl hb
          · show 128 + d.val % 32 = d.val
            have := d.isLt
            omega

variable (W : Valuation τ sig (Elt Ideal))

abbrev eiOf : IVec ⟨2, ![2, 262144]⟩ 32 := W (Proc.devRef .tc main_arg20)
set_option maxHeartbeats 4000000 in
theorem host0_v15_term :
    (StableHlo.after (hostOps0 (F := Ideal)) W (Proc.devRef .tc main_v15) : S8192x1.Idx → EReal) = degT (eiOf W) := by
  unfold hostOps0
  after_results_simp
  rfl

set_option maxHeartbeats 4000000 in
theorem host0_v32_term :
    (StableHlo.after (hostOps0 (F := Ideal)) W (Proc.devRef .tc main_v32) : S8192x8192.Idx → EReal)
      = truncf (F := Ideal) (φ := .f32) .bf16 (cntT (eiOf W)) (by decide) := by
  unfold hostOps0
  after_results_simp
  results_rw
  rfl

set_option maxHeartbeats 4000000 in
theorem host0_v36_term :
    (StableHlo.after (hostOps0 (F := Ideal)) W (Proc.devRef .tc main_v36) : S8192x8192.Idx → EReal) = maskT (eiOf W) := by
  unfold hostOps0
  after_results_simp
  results_rw
  rfl

theorem host0_v32
    (hrange : ∀ e, 0 ≤ Sage.srcZ (eiOf W) e ∧ Sage.srcZ (eiOf W) e < 8192 ∧ 0 ≤ Sage.dstZ (eiOf W) e ∧ Sage.dstZ (eiOf W) e < 8192) :
    (StableHlo.after (hostOps0 (F := Ideal)) W (Proc.devRef .tc main_v32) : S8192x8192.Idx → EReal)
      = fun x => Sage.Cnt (eiOf W) (x 0) (x 1) := by
  refine (host0_v32_term W).trans ?_
  funext x
  obtain ⟨i, j, rfl⟩ : ∃ i j, x = ix2 i j := ⟨x 0, x 1, eq_ix2 x⟩
  exact cntT_eq (eiOf W) (fun e => (hrange e).1) (fun e => (hrange e).2.2.1) i j

theorem host0_v15
    (hrange : ∀ e, 0 ≤ Sage.srcZ (eiOf W) e ∧ Sage.srcZ (eiOf W) e < 8192 ∧ 0 ≤ Sage.dstZ (eiOf W) e ∧ Sage.dstZ (eiOf W) e < 8192) :
    (StableHlo.after (hostOps0 (F := Ideal)) W (Proc.devRef .tc main_v15) : S8192x1.Idx → EReal)
      = fun x => Sage.Deg (eiOf W) (x 0) := by
  refine (host0_v15_term W).trans ?_
  exact degT_eq (eiOf W) (fun e => (hrange e).2.2.1)

theorem host0_v36
    (hrange : ∀ e, 0 ≤ Sage.srcZ (eiOf W) e ∧ Sage.srcZ (eiOf W) e < 8192 ∧ 0 ≤ Sage.dstZ (eiOf W) e ∧ Sage.dstZ (eiOf W) e < 8192) :
    (StableHlo.after (hostOps0 (F := Ideal)) W (Proc.devRef .tc main_v36) : S8192x8192.Idx → EReal)
      = fun x => if 0 < Sage.Cnt (eiOf W) (x 1) (x 0) then (1 : EReal) else 0 := by
  refine (host0_v36_term W).trans ?_
  funext x
  obtain ⟨a, b, rfl⟩ : ∃ a b, x = ix2 a b := ⟨x 0, x 1, eq_ix2 x⟩
  rw [maskT_apply, cntT_eq (eiOf W) (fun e => (hrange e).1) (fun e => (hrange e).2.2.1) b a]
  rfl

abbrev after1 : Valuation τ sig (Elt Ideal) :=
  StableHlo.after (hostOps1_2 (F := Ideal)) (StableHlo.after (hostOps1_1 (F := Ideal)) (StableHlo.after (hostOps1 (F := Ideal)) W))

theorem nary5_result' {Val : EltTy → Type} {x a b c d y : Ref sig .tc}
    (f : ((k : Fin 5) → ((![x, a, b, c, d] : Fin 5 → Ref sig .tc) k).ty.Contents Val) → y.ty.Contents Val) (hxs hy)
    (V : Valuation τ sig Val) :
    (StableHlo.nary (τ := τ) ![x, a, b, c, d] y f hxs hy).result V (no_index (Proc.devRef .tc y))
      = f (Fin.cons (V (Proc.devRef .tc x)) (Fin.cons (V (Proc.devRef .tc a)) (Fin.cons (V (Proc.devRef .tc b))
          (Fin.cons (V (Proc.devRef .tc c)) (Fin.cons (V (Proc.devRef .tc d)) (fun i => i.elim0)))))) := by
  rw [nary_result]
  exact congrArg f (funext fun k => by fin_cases k <;> rfl)

set_option maxHeartbeats 4000000 in
theorem host0_v37 :
    (StableHlo.after (hostOps0 (F := Ideal)) W (Proc.devRef .tc main_v37) : S8192x160.Idx → EReal)
      = HostSpec.H0 (W (Proc.devRef .tc main_arg0)) (W (Proc.devRef .tc main_arg1)) (W (Proc.devRef .tc main_arg2))
          (W (Proc.devRef .tc main_arg3)) (W (Proc.devRef .tc main_arg4)) := by
  refine Eq.trans ?_ (H0_of_concatenate (W (Proc.devRef .tc main_arg0)) (W (Proc.devRef .tc main_arg1)) (W (Proc.devRef .tc main_arg2))
    (W (Proc.devRef .tc main_arg3)) (W (Proc.devRef .tc main_arg4)) cat160)
  unfold hostOps0
  simp (disch := decide) only [after_cons, after_nil, nary5_result',
      nullary_result', unary_result', binary_result', ternary_result', quaternary_result', reshape_result',
      nullary_result_ne', unary_result_ne', binary_result_ne', ternary_result_ne', quaternary_result_ne', reshape_result_ne',
      nary_result_ne']
  rfl

set_option maxHeartbeats 4000000 in
theorem host0_v38 :
    (StableHlo.after (hostOps0 (F := Ideal)) W (Proc.devRef .tc main_v38) : S160x256.Idx → EReal)
      = HostSpec.Tr (m := 256) (n := 160) (W (Proc.devRef .tc main_arg5)) := by
  refine Eq.trans ?_ (Tr_of_transpose (m := 256) (n := 160) (W (Proc.devRef .tc main_arg5)) (by decide))
  unfold hostOps0
  after_results_simp <;> rfl

set_option maxHeartbeats 4000000 in
theorem host0_v39 :
    (StableHlo.after (hostOps0 (F := Ideal)) W (Proc.devRef .tc main_v39) : S160x256.Idx → EReal)
      = HostSpec.Tr (m := 256) (n := 160) (W (Proc.devRef .tc main_arg6)) := by
  refine Eq.trans ?_ (Tr_of_transpose (m := 256) (n := 160) (W (Proc.devRef .tc main_arg6)) (by decide))
  unfold hostOps0
  after_results_simp <;> rfl

set_option maxHeartbeats 4000000 in
theorem host0_v40 :
    (StableHlo.after (hostOps0 (F := Ideal)) W (Proc.devRef .tc main_v40) : S1x256.Idx → EReal)
      = HostSpec.Row (n := 256) (W (Proc.devRef .tc main_arg7)) := by
  refine Eq.trans ?_ (Row_of_shapeCast (n := 256) (W (Proc.devRef .tc main_arg7)) (by decide))
  unfold hostOps0
  after_results_simp <;> rfl

set_option maxHeartbeats 4000000 in
theorem host0_v41 :
    (StableHlo.after (hostOps0 (F := Ideal)) W (Proc.devRef .tc main_v41) : S1x256.Idx → EReal)
      = HostSpec.Row (n := 256) (W (Proc.devRef .tc main_arg16)) := by
  refine Eq.trans ?_ (Row_of_shapeCast (n := 256) (W (Proc.devRef .tc main_arg16)) (by decide))
  unfold hostOps0
  after_results_simp <;> rfl

set_option maxHeartbeats 4000000 in
theorem host0_v42 :
    (StableHlo.after (hostOps0 (F := Ideal)) W (Proc.devRef .tc main_v42) : S1x256.Idx → EReal)
      = HostSpec.Row (n := 256) (W (Proc.devRef .tc main_arg17)) := by
  refine Eq.trans ?_ (Row_of_shapeCast (n := 256) (W (Proc.devRef .tc main_arg17)) (by decide))
  unfold hostOps0
  after_results_simp <;> rfl

set_option maxHeartbeats 4000000 in
theorem host1_v59 :
    (after1 W (Proc.devRef .tc main_v59) : S512x256.Idx → EReal)
      = HostSpec.Tr (m := 256) (n := 512) (W (Proc.devRef .tc main_arg8)) := by
  refine Eq.trans ?_ (Tr_of_transpose (m := 256) (n := 512) (W (Proc.devRef .tc main_arg8)) (by decide))
  unfold after1 hostOps1_2 hostOps1_1 hostOps1
  after_results_simp <;> rfl

set_option maxHeartbeats 4000000 in
theorem host1_v60 :
    (after1 W (Proc.devRef .tc main_v60) : S512x256.Idx → EReal)
      = HostSpec.Tr (m := 256) (n := 512) (W (Proc.devRef .tc main_arg9)) := by
  refine Eq.trans ?_ (Tr_of_transpose (m := 256) (n := 512) (W (Proc.devRef .tc main_arg9)) (by decide))
  unfold after1 hostOps1_2 hostOps1_1 hostOps1
  after_results_simp <;> rfl

set_option maxHeartbeats 4000000 in
theorem host1_v61 :
    (after1 W (Proc.devRef .tc main_v61) : S1x256.Idx → EReal)
      = HostSpec.Row (n := 256) (W (Proc.devRef .tc main_arg10)) := by
  refine Eq.trans ?_ (Row_of_shapeCast (n := 256) (W (Proc.devRef .tc main_arg10)) (by decide))
  unfold after1 hostOps1_2 hostOps1_1 hostOps1
  after_results_simp <;> rfl

set_option maxHeartbeats 4000000 in
theorem host1_v62 :
    (after1 W (Proc.devRef .tc main_v62) : S1x256.Idx → EReal)
      = HostSpec.Row (n := 256) (W (Proc.devRef .tc main_arg18)) := by
  refine Eq.trans ?_ (Row_of_shapeCast (n := 256) (W (Proc.devRef .tc main_arg18)) (by decide))
  unfold after1 hostOps1_2 hostOps1_1 hostOps1
  after_results_simp <;> rfl

set_option maxHeartbeats 4000000 in
theorem host1_v63 :
    (after1 W (Proc.devRef .tc main_v63) : S1x256.Idx → EReal)
      = HostSpec.Row (n := 256) (W (Proc.devRef .tc main_arg19)) := by
  refine Eq.trans ?_ (Row_of_shapeCast (n := 256) (W (Proc.devRef .tc main_arg19)) (by decide))
  unfold after1 hostOps1_2 hostOps1_1 hostOps1
  after_results_simp <;> rfl

set_option maxHeartbeats 4000000 in
theorem host2_v67 :
    (StableHlo.after (hostOps2 (F := Ideal)) W (Proc.devRef .tc main_v67) : S256x256.Idx → EReal)
      = HostSpec.Tr (m := 256) (n := 256) (W (Proc.devRef .tc main_arg11)) := by
  refine Eq.trans ?_ (Tr_of_transpose (m := 256) (n := 256) (W (Proc.devRef .tc main_arg11)) (by decide))
  unfold hostOps2
  after_results_simp <;> rfl

set_option maxHeartbeats 4000000 in
theorem host2_v68 :
    (StableHlo.after (hostOps2 (F := Ideal)) W (Proc.devRef .tc main_v68) : S256x256.Idx → EReal)
      = HostSpec.Tr (m := 256) (n := 256) (W (Proc.devRef .tc main_arg12)) := by
  refine Eq.trans ?_ (Tr_of_transpose (m := 256) (n := 256) (W (Proc.devRef .tc main_arg12)) (by decide))
  unfold hostOps2
  after_results_simp <;> rfl

set_option maxHeartbeats 4000000 in
theorem host2_v69 :
    (StableHlo.after (hostOps2 (F := Ideal)) W (Proc.devRef .tc main_v69) : S1x256.Idx → EReal)
      = HostSpec.Row (n := 256) (W (Proc.devRef .tc main_arg13)) := by
  refine Eq.trans ?_ (Row_of_shapeCast (n := 256) (W (Proc.devRef .tc main_arg13)) (by decide))
  unfold hostOps2
  after_results_simp <;> rfl

set_option maxHeartbeats 4000000 in
theorem host2_v70 :
    (StableHlo.after (hostOps2 (F := Ideal)) W (Proc.devRef .tc main_v70) : S1x256.Idx → EReal) = fun _ => (1 : EReal) := by
  have e : (StableHlo.after (hostOps2 (F := Ideal)) W (Proc.devRef .tc main_v70) : S1x256.Idx → EReal)
      = shapeCast ⟨2, ![1, 256]⟩ (broadcastInDim ⟨1, ![256]⟩ ![] (by decide) (constant (F := Ideal) ⟨0, ![]⟩ .f32 0x3F800000#32)) (by decide) := by
    unfold hostOps2
    after_results_simp <;> rfl
  rw [e]
  funext x
  obtain ⟨u, o, rfl⟩ : ∃ u o, x = ix2 u o := ⟨x 0, x 1, eq_ix2 x⟩
  rw [shapeCast_a_1a_apply]
  exact Ideal.ofBits_one_f32

set_option maxHeartbeats 4000000 in
theorem host2_v71 :
    (StableHlo.after (hostOps2 (F := Ideal)) W (Proc.devRef .tc main_v71) : S1x256.Idx → EReal) = fun _ => (0 : EReal) := by
  have e : (StableHlo.after (hostOps2 (F := Ideal)) W (Proc.devRef .tc main_v71) : S1x256.Idx → EReal)
      = shapeCast ⟨2, ![1, 256]⟩ (broadcastInDim ⟨1, ![256]⟩ ![] (by decide) (constant (F := Ideal) ⟨0, ![]⟩ .f32 0x00000000#32)) (by decide) := by
    unfold hostOps2
    after_results_simp <;> rfl
  rw [e]
  funext x
  obtain ⟨u, o, rfl⟩ : ∃ u o, x = ix2 u o := ⟨x 0, x 1, eq_ix2 x⟩
  rw [shapeCast_a_1a_apply]
  exact Ideal.ofBits_zero_f32

set_option maxHeartbeats 4000000 in
theorem host3_v73 :
    (StableHlo.after (hostOps3 (F := Ideal)) W (Proc.devRef .tc main_v73) : S256x8192.Idx → EReal)
      = HostSpec.Tr (m := 8192) (n := 256) (W (Proc.devRef .tc main_arg14)) := by
  refine Eq.trans ?_ (Tr_of_transpose (m := 8192) (n := 256) (W (Proc.devRef .tc main_arg14)) (by decide))
  unfold hostOps3
  after_results_simp <;> rfl

set_option maxHeartbeats 4000000 in
theorem host3_v74 :
    (StableHlo.after (hostOps3 (F := Ideal)) W (Proc.devRef .tc main_v74) : S1x8192.Idx → EReal)
      = HostSpec.Row (n := 8192) (W (Proc.devRef .tc main_arg15)) := by
  refine Eq.trans ?_ (Row_of_shapeCast (n := 8192) (W (Proc.devRef .tc main_arg15)) (by decide))
  unfold hostOps3
  after_results_simp <;> rfl

section TargetRow

def rowStartW (w : IVec ⟨0, ![]⟩ 32) : IVec ⟨0, ![]⟩ 32 :=
  select (cmpi .slt w (constantI ⟨0, ![]⟩ 32 0#32)) (addi w (constantI ⟨0, ![]⟩ 32 8192#32)) w

def targetRowsW (h1 : Vec Ideal ⟨2, ![8192, 256]⟩ .f32) (w : IVec ⟨0, ![]⟩ 32) : Vec Ideal ⟨2, ![8192, 256]⟩ .f32 :=
  broadcastInDim ⟨2, ![8192, 256]⟩ ![0, 1] (by decide)
    (broadcastInDim ⟨2, ![1, 256]⟩ ![1] (by decide)
      (shapeCast ⟨1, ![256]⟩
        (Host.dynamicSlice (s := ⟨2, ![8192, 256]⟩) ⟨2, ![1, 256]⟩ h1
          (fun k => ((![rowStartW w, HostSpec.colStart] : Fin 2 → IVec ⟨0, ![]⟩ 32) k (Shape.Idx.first (by decide))).toInt) (by decide))
        (by decide)))

def TcatW (h1 : Vec Ideal ⟨2, ![8192, 256]⟩ .f32) (w : IVec ⟨0, ![]⟩ 32) : Vec Ideal ⟨2, ![8192, 512]⟩ .f32 :=
  concatenate ⟨2, ![8192, 512]⟩ 1 [⟨⟨2, ![8192, 256]⟩, h1⟩, ⟨⟨2, ![8192, 256]⟩, targetRowsW h1 w⟩] HostSpec.cat512

theorem TcatW_targetWord (h1 : Vec Ideal ⟨2, ![8192, 256]⟩ .f32) (t : Vec Ideal ⟨2, ![8192, 32]⟩ .f32) :
    TcatW h1 (HostSpec.targetWord t) = HostSpec.Tcat h1 t := rfl

end TargetRow

set_option maxHeartbeats 1000000 in
theorem host1_v47 :
    (StableHlo.after (hostOps1_1 (F := Ideal)) (StableHlo.after (hostOps1 (F := Ideal)) W) (Proc.devRef .tc main_v47) : S_.Idx → BitVec 32)
      = HostSpec.targetWord (W (Proc.devRef .tc main_arg2)) := by
  unfold hostOps1_1 hostOps1
  after_results_simp
  (try simp only [TRef.ofBuf, TRef.toBuf, cast_eq])
  rfl

set_option maxHeartbeats 4000000 in
theorem host1_v43 :
    StableHlo.after (hostOps1_1 (F := Ideal)) (StableHlo.after (hostOps1 (F := Ideal)) W) (Proc.devRef .tc main_v43)
      = W (Proc.devRef .tc main_v43) := by
  unfold hostOps1_1 hostOps1
  after_results_simp <;> rfl

set_option maxHeartbeats 4000000 in
theorem host1_2_v58 (V : Valuation τ sig (Elt Ideal)) :
    (StableHlo.after (hostOps1_2 (F := Ideal)) V (Proc.devRef .tc main_v58) : S8192x512.Idx → EReal)
      = TcatW (V (Proc.devRef .tc main_v43)) (V (Proc.devRef .tc main_v47)) := by
  unfold hostOps1_2
  simp (disch := decide) only [after_cons, after_nil, unaryIndexed2_result',
      nullary_result', unary_result', binary_result', ternary_result', quaternary_result', reshape_result',
      nullary_result_ne', unary_result_ne', binary_result_ne', ternary_result_ne', quaternary_result_ne', reshape_result_ne',
      unaryIndexed_result_ne']
  results_rw2
  rfl

theorem host1_v58 :
    (after1 W (Proc.devRef .tc main_v58) : S8192x512.Idx → EReal)
      = HostSpec.Tcat (W (Proc.devRef .tc main_v43)) (W (Proc.devRef .tc main_arg2)) := by
  refine (host1_2_v58 _).trans ?_
  rw [host1_v43, host1_v47]
  exact TcatW_targetWord _ _

end Cert.KernelIdeal.Gen

end
-- ==== Proof.KernelValue.lean ====
import proofs.«407196_j36060545417339_2_alg».proof.Proof.Run
import proofs.«407196_j36060545417339_2_alg».proof.Proof.R3Value
import proofs.«407196_j36060545417339_2_alg».proof.Proof.HostReads
import proofs.«407196_j36060545417339_2_alg».proof.Proof.Network
import proofs.«407196_j36060545417339_2_alg».proof.Proof.SpecHost

set_option maxRecDepth 16384

set_option maxHeartbeats 2000000

noncomputable section

open scoped BigOperators

namespace Cert.KernelIdeal.Gen

open Idealize.ShloMosaic Idealize.ShloMosaic.TcCoe Idealize.ShloMosaic.ValueIdx
open Idealize.ShloMosaic.Pipeline (Dat Cfg Window)

def layerOf (ln : Bool) {D : ℕ} (C : (⟨2, ![8192, 8192]⟩ : Shape).Idx → EReal) (h : Vec Ideal ⟨2, ![8192, D]⟩ .f32)
    (Dg : (⟨2, ![8192, 1]⟩ : Shape).Idx → EReal) (wl wr : Vec Ideal ⟨2, ![D, 256]⟩ .f32) (b g be : Vec Ideal ⟨2, ![1, 256]⟩ .f32) :
    Vec Ideal ⟨2, ![8192, 256]⟩ .f32 :=
  fun x => Sage.post ln (Sage.linK (fun i d => Ideal.div (∑ j : Fin 8192, C (ix2 i j) * h (ix2 j d)) (Dg (ix2 i (0 : Fin 1)))) h wl wr b) g be (x 0) (x 1)

theorem layerOf_eq (ln : Bool) {D : ℕ} (ei : IVec ⟨2, ![2, 262144]⟩ 32)
    (C : (⟨2, ![8192, 8192]⟩ : Shape).Idx → EReal) (h : Vec Ideal ⟨2, ![8192, D]⟩ .f32) (Dg : (⟨2, ![8192, 1]⟩ : Shape).Idx → EReal)
    (wl wr : Vec Ideal ⟨2, ![D, 256]⟩ .f32) (b g be : Vec Ideal ⟨2, ![1, 256]⟩ .f32)
    (h' : Vec Ideal ⟨2, ![8192, D]⟩ .f32) (wl' wr' : Vec Ideal ⟨2, ![D, 256]⟩ .f32) (b' g' be' : Vec Ideal ⟨2, ![1, 256]⟩ .f32)
    (hC : C = fun x => Sage.Cnt ei (x 0) (x 1)) (hh : h = h') (hD : Dg = fun x => Sage.Deg ei (x 0))
    (hwl : wl = wl') (hwr : wr = wr') (hb : b = b') (hg : g = g') (hbe : be = be') :
    layerOf ln C h Dg wl wr b g be = SageK D ln ei h' wl' wr' b' g' be' := by
  subst hC hD hh hwl hwr hb hg hbe
  rfl

theorem G3_congr {h h' : Vec Ideal ⟨2, ![8192, 256]⟩ .f32} {w w' : Vec Ideal ⟨2, ![256, 8192]⟩ .f32} {b b' : Vec Ideal ⟨2, ![1, 8192]⟩ .f32}
    {k k' : Vec Ideal ⟨2, ![8192, 8192]⟩ .bf16} (hh : h = h') (hw : w = w') (hb : b = b') (hk : k = k') :
    G3 h w b k = G3 h' w' b' k' := by
  subst hh hw hb hk; rfl

section Walk
variable {F : FTy → Type} [FloatOps F] (m : (ℓ : Loc nD τ sig) → Buf (Elt F) ℓ) (outs : Outs (F := F)) (c : Dev nD) (r : Ref sig .tc)

theorem V5_back (h1 : r ∉ ([main_v43] : List (Ref sig .tc))) (h2 : r ∉ hostOps1_W) (h3 : r ∉ hostOps1_1_W) (h4 : r ∉ hostOps1_2_W) :
    V5 m outs c r = V1 m c r :=
  (V5_of m outs c r h4).trans <| (V4_of m outs c r h3).trans <| (V3_of m outs c r h2).trans (V2_of m outs c r h1)

theorem V7_back (h1 : r ∉ ([main_v43] : List (Ref sig .tc))) (h2 : r ∉ hostOps1_W) (h3 : r ∉ hostOps1_1_W) (h4 : r ∉ hostOps1_2_W)
    (h5 : r ∉ ([main_v64] : List (Ref sig .tc))) (h6 : r ∉ hostOps2_W) : V7 m outs c r = V1 m c r :=
  (V7_of m outs c r h6).trans <| (V6_of m outs c r h5).trans (V5_back m outs c r h1 h2 h3 h4)

theorem V9_back (h1 : r ∉ ([main_v43] : List (Ref sig .tc))) (h2 : r ∉ hostOps1_W) (h3 : r ∉ hostOps1_1_W) (h4 : r ∉ hostOps1_2_W)
    (h5 : r ∉ ([main_v64] : List (Ref sig .tc))) (h6 : r ∉ hostOps2_W) (h7 : r ∉ ([main_v72] : List (Ref sig .tc))) (h8 : r ∉ hostOps3_W) :
    V9 m outs c r = V1 m c r :=
  (V9_of m outs c r h8).trans <| (V8_of m outs c r h7).trans (V7_back m outs c r h1 h2 h3 h4 h5 h6)

theorem V2_launch (h0 : r ∉ hostOps0_W) (h1 : r ∉ ([main_v43] : List (Ref sig .tc))) : V2 m outs c r = V0 m c r :=
  (V2_of m outs c r h1).trans (V1_of m c r h0)

theorem V6_launch (h0 : r ∉ hostOps0_W) (h1 : r ∉ ([main_v43] : List (Ref sig .tc))) (h2 : r ∉ hostOps1_W) (h3 : r ∉ hostOps1_1_W)
    (h4 : r ∉ hostOps1_2_W) (h5 : r ∉ ([main_v64] : List (Ref sig .tc))) : V6 m outs c r = V0 m c r :=
  (V6_of m outs c r h5).trans <| (V5_back m outs c r h1 h2 h3 h4).trans (V1_of m c r h0)

theorem V8_launch (h0 : r ∉ hostOps0_W) (h1 : r ∉ ([main_v43] : List (Ref sig .tc))) (h2 : r ∉ hostOps1_W) (h3 : r ∉ hostOps1_1_W)
    (h4 : r ∉ hostOps1_2_W) (h5 : r ∉ ([main_v64] : List (Ref sig .tc))) (h6 : r ∉ hostOps2_W) (h7 : r ∉ ([main_v72] : List (Ref sig .tc))) :
    V8 m outs c r = V0 m c r :=
  (V8_of m outs c r h7).trans <| (V7_back m outs c r h1 h2 h3 h4 h5 h6).trans (V1_of m c r h0)

end Walk

section Leaves
variable (m : (ℓ : Loc nD τ sig) → Buf (Elt Ideal) ℓ) (c : Dev nD)

theorem V2_v43 : V2 m (outsA m) c (Proc.devRef .tc main_v43) = (dat0 (U1 m) c).arrAt 8 cfg0.N := by
  show Function.update (V1 m c) (Proc.devRef .tc main_v43) (o2 m c (Proc.devRef .tc main_v43)) (Proc.devRef .tc main_v43) = _
  rw [Function.update_self]
  unfold o2; exact Pipeline.withArrays_arr spec0 launch0.win.arr_inj c _ _ 8

theorem V6_v64 : V6 m (outsB m) c (Proc.devRef .tc main_v64) = (dat1 (U5 m) c).arrAt 8 cfg1.N := by
  show Function.update (V5 m (outsB m) c) (Proc.devRef .tc main_v64) (o6 m c (Proc.devRef .tc main_v64)) (Proc.devRef .tc main_v64) = _
  rw [Function.update_self]
  unfold o6; exact Pipeline.withArrays_arr spec1 launch1.win.arr_inj c _ _ 8

theorem V8_v72 : V8 m (outsC m) c (Proc.devRef .tc main_v72) = (dat2 (U7 m) c).arrAt 8 cfg2.N := by
  show Function.update (V7 m (outsC m) c) (Proc.devRef .tc main_v72) (o8 m c (Proc.devRef .tc main_v72)) (Proc.devRef .tc main_v72) = _
  rw [Function.update_self]
  unfold o8; exact Pipeline.withArrays_arr spec2 launch2.win.arr_inj c _ _ 8

end Leaves

abbrev Final0 : Prop := ∀ (V : (c : Dev nD) → (b : Ref sig .tc) → Buf (Elt Ideal) ((c : Thread nD τ).loc b)) (c : Dev nD),
  (dat0 (F := Ideal) V c).arrAt 8 cfg0.N = layerOf true (V c main_v32) (V c main_v37) (V c main_v15) (V c main_v38) (V c main_v39) (V c main_v40) (V c main_v41) (V c main_v42)
abbrev Final1 : Prop := ∀ (V : (c : Dev nD) → (b : Ref sig .tc) → Buf (Elt Ideal) ((c : Thread nD τ).loc b)) (c : Dev nD),
  (dat1 (F := Ideal) V c).arrAt 8 cfg1.N = layerOf true (V c main_v32) (V c main_v58) (V c main_v15) (V c main_v59) (V c main_v60) (V c main_v61) (V c main_v62) (V c main_v63)
abbrev Final2 : Prop := ∀ (V : (c : Dev nD) → (b : Ref sig .tc) → Buf (Elt Ideal) ((c : Thread nD τ).loc b)) (c : Dev nD),
  (dat2 (F := Ideal) V c).arrAt 8 cfg2.N = layerOf false (V c main_v32) (V c main_v64) (V c main_v15) (V c main_v67) (V c main_v68) (V c main_v69) (V c main_v70) (V c main_v71)

section Compose
variable (m : (ℓ : Loc nD τ sig) → Buf (Elt Ideal) ℓ) (c : Dev nD)

theorem cnt1 (hrange : ∀ e, 0 ≤ Sage.srcZ (V0 m c (Proc.devRef .tc main_arg20)) e ∧ Sage.srcZ (V0 m c (Proc.devRef .tc main_arg20)) e < 8192 ∧ 0 ≤ Sage.dstZ (V0 m c (Proc.devRef .tc main_arg20)) e ∧ Sage.dstZ (V0 m c (Proc.devRef .tc main_arg20)) e < 8192) :
    (V1 m c (Proc.devRef .tc main_v32) : S8192x8192.Idx → EReal) = fun x => Sage.Cnt (V0 m c (Proc.devRef .tc main_arg20)) (x 0) (x 1) :=
  host0_v32 (V0 m c) hrange

theorem deg1 (hrange : ∀ e, 0 ≤ Sage.srcZ (V0 m c (Proc.devRef .tc main_arg20)) e ∧ Sage.srcZ (V0 m c (Proc.devRef .tc main_arg20)) e < 8192 ∧ 0 ≤ Sage.dstZ (V0 m c (Proc.devRef .tc main_arg20)) e ∧ Sage.dstZ (V0 m c (Proc.devRef .tc main_arg20)) e < 8192) :
    (V1 m c (Proc.devRef .tc main_v15) : S8192x1.Idx → EReal) = fun x => Sage.Deg (V0 m c (Proc.devRef .tc main_arg20)) (x 0) :=
  host0_v15 (V0 m c) hrange

theorem msk1 (hrange : ∀ e, 0 ≤ Sage.srcZ (V0 m c (Proc.devRef .tc main_arg20)) e ∧ Sage.srcZ (V0 m c (Proc.devRef .tc main_arg20)) e < 8192 ∧ 0 ≤ Sage.dstZ (V0 m c (Proc.devRef .tc main_arg20)) e ∧ Sage.dstZ (V0 m c (Proc.devRef .tc main_arg20)) e < 8192) :
    (V1 m c (Proc.devRef .tc main_v36) : S8192x8192.Idx → EReal) = fun x => if 0 < Sage.Cnt (V0 m c (Proc.devRef .tc main_arg20)) (x 1) (x 0) then (1 : EReal) else 0 :=
  host0_v36 (V0 m c) hrange

theorem layer1 (f0 : Final0) (hrange : ∀ e, 0 ≤ Sage.srcZ (V0 m c (Proc.devRef .tc main_arg20)) e ∧ Sage.srcZ (V0 m c (Proc.devRef .tc main_arg20)) e < 8192 ∧ 0 ≤ Sage.dstZ (V0 m c (Proc.devRef .tc main_arg20)) e ∧ Sage.dstZ (V0 m c (Proc.devRef .tc main_arg20)) e < 8192) :
    (dat0 (F := Ideal) (U1 m) c).arrAt 8 cfg0.N = (SageK 160 true (V0 m c (Proc.devRef .tc main_arg20)) (HostSpec.H0 (V0 m c (Proc.devRef .tc main_arg0)) (V0 m c (Proc.devRef .tc main_arg1)) (V0 m c (Proc.devRef .tc main_arg2)) (V0 m c (Proc.devRef .tc main_arg3)) (V0 m c (Proc.devRef .tc main_arg4))) (HostSpec.Tr (m := 256) (n := 160) (V0 m c (Proc.devRef .tc main_arg5))) (HostSpec.Tr (m := 256) (n := 160) (V0 m c (Proc.devRef .tc main_arg6))) (HostSpec.Row (n := 256) (V0 m c (Proc.devRef .tc main_arg7))) (HostSpec.Row (n := 256) (V0 m c (Proc.devRef .tc main_arg16))) (HostSpec.Row (n := 256) (V0 m c (Proc.devRef .tc main_arg17)))) :=
  (f0 (U1 m) c).trans
    (layerOf_eq true (V0 m c (Proc.devRef .tc main_arg20)) _ _ _ _ _ _ _ _ _ _ _ _ _ _
      (cnt1 m c hrange) (host0_v37 (V0 m c)) (deg1 m c hrange) (host0_v38 (V0 m c)) (host0_v39 (V0 m c))
      (host0_v40 (V0 m c)) (host0_v41 (V0 m c)) (host0_v42 (V0 m c)))

theorem layer2 (f0 : Final0) (f1 : Final1) (hrange : ∀ e, 0 ≤ Sage.srcZ (V0 m c (Proc.devRef .tc main_arg20)) e ∧ Sage.srcZ (V0 m c (Proc.devRef .tc main_arg20)) e < 8192 ∧ 0 ≤ Sage.dstZ (V0 m c (Proc.devRef .tc main_arg20)) e ∧ Sage.dstZ (V0 m c (Proc.devRef .tc main_arg20)) e < 8192) :
    (dat1 (F := Ideal) (U5 m) c).arrAt 8 cfg1.N = (SageK 512 true (V0 m c (Proc.devRef .tc main_arg20)) (HostSpec.Tcat (SageK 160 true (V0 m c (Proc.devRef .tc main_arg20)) (HostSpec.H0 (V0 m c (Proc.devRef .tc main_arg0)) (V0 m c (Proc.devRef .tc main_arg1)) (V0 m c (Proc.devRef .tc main_arg2)) (V0 m c (Proc.devRef .tc main_arg3)) (V0 m c (Proc.devRef .tc main_arg4))) (HostSpec.Tr (m := 256) (n := 160) (V0 m c (Proc.devRef .tc main_arg5))) (HostSpec.Tr (m := 256) (n := 160) (V0 m c (Proc.devRef .tc main_arg6))) (HostSpec.Row (n := 256) (V0 m c (Proc.devRef .tc main_arg7))) (HostSpec.Row (n := 256) (V0 m c (Proc.devRef .tc main_arg16))) (HostSpec.Row (n := 256) (V0 m c (Proc.devRef .tc main_arg17)))) (V0 m c (Proc.devRef .tc main_arg2))) (HostSpec.Tr (m := 256) (n := 512) (V0 m c (Proc.devRef .tc main_arg8))) (HostSpec.Tr (m := 256) (n := 512) (V0 m c (Proc.devRef .tc main_arg9))) (HostSpec.Row (n := 256) (V0 m c (Proc.devRef .tc main_arg10))) (HostSpec.Row (n := 256) (V0 m c (Proc.devRef .tc main_arg18))) (HostSpec.Row (n := 256) (V0 m c (Proc.devRef .tc main_arg19)))) :=
  (f1 (U5 m) c).trans
    (layerOf_eq true (V0 m c (Proc.devRef .tc main_arg20)) _ _ _ _ _ _ _ _ _ _ _ _ _ _
      ((V5_back m (outsA m) c main_v32 (by decide) (by decide) (by decide) (by decide)).trans (cnt1 m c hrange))
      ((host1_v58 (V2 m (outsA m) c)).trans
        (congrArg₂ HostSpec.Tcat ((V2_v43 m c).trans (layer1 m c f0 hrange)) (V2_launch m (outsA m) c main_arg2 (by decide) (by decide))))
      ((V5_back m (outsA m) c main_v15 (by decide) (by decide) (by decide) (by decide)).trans (deg1 m c hrange))
      ((host1_v59 (V2 m (outsA m) c)).trans (congrArg (HostSpec.Tr (m := 256) (n := 512)) (V2_launch m (outsA m) c main_arg8 (by decide) (by decide))))
      ((host1_v60 (V2 m (outsA m) c)).trans (congrArg (HostSpec.Tr (m := 256) (n := 512)) (V2_launch m (outsA m) c main_arg9 (by decide) (by decide))))
      ((host1_v61 (V2 m (outsA m) c)).trans (congrArg (HostSpec.Row (n := 256)) (V2_launch m (outsA m) c main_arg10 (by decide) (by decide))))
      ((host1_v62 (V2 m (outsA m) c)).trans (congrArg (HostSpec.Row (n := 256)) (V2_launch m (outsA m) c main_arg18 (by decide) (by decide))))
      ((host1_v63 (V2 m (outsA m) c)).trans (congrArg (HostSpec.Row (n := 256)) (V2_launch m (outsA m) c main_arg19 (by decide) (by decide)))))

theorem layer3 (f0 : Final0) (f1 : Final1) (f2 : Final2) (hrange : ∀ e, 0 ≤ Sage.srcZ (V0 m c (Proc.devRef .tc main_arg20)) e ∧ Sage.srcZ (V0 m c (Proc.devRef .tc main_arg20)) e < 8192 ∧ 0 ≤ Sage.dstZ (V0 m c (Proc.devRef .tc main_arg20)) e ∧ Sage.dstZ (V0 m c (Proc.devRef .tc main_arg20)) e < 8192) :
    (dat2 (F := Ideal) (U7 m) c).arrAt 8 cfg2.N = (SageK 256 false (V0 m c (Proc.devRef .tc main_arg20)) (SageK 512 true (V0 m c (Proc.devRef .tc main_arg20)) (HostSpec.Tcat (SageK 160 true (V0 m c (Proc.devRef .tc main_arg20)) (HostSpec.H0 (V0 m c (Proc.devRef .tc main_arg0)) (V0 m c (Proc.devRef .tc main_arg1)) (V0 m c (Proc.devRef .tc main_arg2)) (V0 m c (Proc.devRef .tc main_arg3)) (V0 m c (Proc.devRef .tc main_arg4))) (HostSpec.Tr (m := 256) (n := 160) (V0 m c (Proc.devRef .tc main_arg5))) (HostSpec.Tr (m := 256) (n := 160) (V0 m c (Proc.devRef .tc main_arg6))) (HostSpec.Row (n := 256) (V0 m c (Proc.devRef .tc main_arg7))) (HostSpec.Row (n := 256) (V0 m c (Proc.devRef .tc main_arg16))) (HostSpec.Row (n := 256) (V0 m c (Proc.devRef .tc main_arg17)))) (V0 m c (Proc.devRef .tc main_arg2))) (HostSpec.Tr (m := 256) (n := 512) (V0 m c (Proc.devRef .tc main_arg8))) (HostSpec.Tr (m := 256) (n := 512) (V0 m c (Proc.devRef .tc main_arg9))) (HostSpec.Row (n := 256) (V0 m c (Proc.devRef .tc main_arg10))) (HostSpec.Row (n := 256) (V0 m c (Proc.devRef .tc main_arg18))) (HostSpec.Row (n := 256) (V0 m c (Proc.devRef .tc main_arg19)))) (HostSpec.Tr (m := 256) (n := 256) (V0 m c (Proc.devRef .tc main_arg11))) (HostSpec.Tr (m := 256) (n := 256) (V0 m c (Proc.devRef .tc main_arg12))) (HostSpec.Row (n := 256) (V0 m c (Proc.devRef .tc main_arg13))) (fun _ => (1 : EReal)) (fun _ => (0 : EReal))) :=
  (f2 (U7 m) c).trans
    (layerOf_eq false (V0 m c (Proc.devRef .tc main_arg20)) _ _ _ _ _ _ _ _ _ _ _ _ _ _
      ((V7_back m (outsB m) c main_v32 (by decide) (by decide) (by decide) (by decide) (by decide) (by decide)).trans (cnt1 m c hrange))
      ((V7_of m (outsB m) c main_v64 (by decide)).trans ((V6_v64 m c).trans (layer2 m c f0 f1 hrange)))
      ((V7_back m (outsB m) c main_v15 (by decide) (by decide) (by decide) (by decide) (by decide) (by decide)).trans (deg1 m c hrange))
      ((host2_v67 (V6 m (outsB m) c)).trans (congrArg (HostSpec.Tr (m := 256) (n := 256)) (V6_launch m (outsB m) c main_arg11 (by decide) (by decide) (by decide) (by decide) (by decide) (by decide))))
      ((host2_v68 (V6 m (outsB m) c)).trans (congrArg (HostSpec.Tr (m := 256) (n := 256)) (V6_launch m (outsB m) c main_arg12 (by decide) (by decide) (by decide) (by decide) (by decide) (by decide))))
      ((host2_v69 (V6 m (outsB m) c)).trans (congrArg (HostSpec.Row (n := 256)) (V6_launch m (outsB m) c main_arg13 (by decide) (by decide) (by decide) (by decide) (by decide) (by decide))))
      (host2_v70 (V6 m (outsB m) c)) (host2_v71 (V6 m (outsB m) c)))

theorem kernel_value_of (f0 : Final0) (f1 : Final1) (f2 : Final2) (hrange : ∀ e, 0 ≤ Sage.srcZ (V0 m c (Proc.devRef .tc main_arg20)) e ∧ Sage.srcZ (V0 m c (Proc.devRef .tc main_arg20)) e < 8192 ∧ 0 ≤ Sage.dstZ (V0 m c (Proc.devRef .tc main_arg20)) e ∧ Sage.dstZ (V0 m c (Proc.devRef .tc main_arg20)) e < 8192) :
    (dat3 (F := Ideal) (U9 m) c).arrAt 4 cfg3.N = G3 (L3K (V0 m c (Proc.devRef .tc main_arg20)) (HostSpec.H0 (V0 m c (Proc.devRef .tc main_arg0)) (V0 m c (Proc.devRef .tc main_arg1)) (V0 m c (Proc.devRef .tc main_arg2)) (V0 m c (Proc.devRef .tc main_arg3)) (V0 m c (Proc.devRef .tc main_arg4))) (fun h => HostSpec.Tcat h (V0 m c (Proc.devRef .tc main_arg2))) (HostSpec.Tr (m := 256) (n := 160) (V0 m c (Proc.devRef .tc main_arg5))) (HostSpec.Tr (m := 256) (n := 160) (V0 m c (Proc.devRef .tc main_arg6))) (HostSpec.Row (n := 256) (V0 m c (Proc.devRef .tc main_arg7))) (HostSpec.Row (n := 256) (V0 m c (Proc.devRef .tc main_arg16))) (HostSpec.Row (n := 256) (V0 m c (Proc.devRef .tc main_arg17))) (HostSpec.Tr (m := 256) (n := 512) (V0 m c (Proc.devRef .tc main_arg8))) (HostSpec.Tr (m := 256) (n := 512) (V0 m c (Proc.devRef .tc main_arg9))) (HostSpec.Row (n := 256) (V0 m c (Proc.devRef .tc main_arg10))) (HostSpec.Row (n := 256) (V0 m c (Proc.devRef .tc main_arg18))) (HostSpec.Row (n := 256) (V0 m c (Proc.devRef .tc main_arg19))) (HostSpec.Tr (m := 256) (n := 256) (V0 m c (Proc.devRef .tc main_arg11))) (HostSpec.Tr (m := 256) (n := 256) (V0 m c (Proc.devRef .tc main_arg12))) (HostSpec.Row (n := 256) (V0 m c (Proc.devRef .tc main_arg13))) (fun _ => (1 : EReal)) (fun _ => (0 : EReal))) (HostSpec.Tr (m := 8192) (n := 256) (V0 m c (Proc.devRef .tc main_arg14))) (HostSpec.Row (n := 8192) (V0 m c (Proc.devRef .tc main_arg15))) (fun x => if 0 < Sage.Cnt (V0 m c (Proc.devRef .tc main_arg20)) (x 1) (x 0) then (1 : EReal) else 0) :=
  (final3_4 (U9 m) c).trans
    (G3_congr
      ((V9_of m (outsC m) c main_v72 (by decide)).trans ((V8_v72 m c).trans (layer3 m c f0 f1 f2 hrange)))
      ((host3_v73 (V8 m (outsC m) c)).trans (congrArg (HostSpec.Tr (m := 8192) (n := 256)) (V8_launch m (outsC m) c main_arg14 (by decide) (by decide) (by decide) (by decide) (by decide) (by decide) (by decide) (by decide))))
      ((host3_v74 (V8 m (outsC m) c)).trans (congrArg (HostSpec.Row (n := 8192)) (V8_launch m (outsC m) c main_arg15 (by decide) (by decide) (by decide) (by decide) (by decide) (by decide) (by decide) (by decide))))
      ((V9_back m (outsC m) c main_v36 (by decide) (by decide) (by decide) (by decide) (by decide) (by decide) (by decide) (by decide)).trans (msk1 m c hrange)))

theorem kernel_value_of_mem (f0 : Final0) (f1 : Final1) (f2 : Final2) (hrange : ∀ e, 0 ≤ Sage.srcZ (m ((c.tc : Thread nD τ).loc main_arg20)) e ∧ Sage.srcZ (m ((c.tc : Thread nD τ).loc main_arg20)) e < 8192 ∧ 0 ≤ Sage.dstZ (m ((c.tc : Thread nD τ).loc main_arg20)) e ∧ Sage.dstZ (m ((c.tc : Thread nD τ).loc main_arg20)) e < 8192) :
    (dat3 (F := Ideal) (U9 m) c).arrAt 4 cfg3.N = G3 (L3K (m ((c.tc : Thread nD τ).loc main_arg20)) (HostSpec.H0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (fun h => HostSpec.Tcat h (m ((c.tc : Thread nD τ).loc main_arg2))) (HostSpec.Tr (m := 256) (n := 160) (m ((c.tc : Thread nD τ).loc main_arg5))) (HostSpec.Tr (m := 256) (n := 160) (m ((c.tc : Thread nD τ).loc main_arg6))) (HostSpec.Row (n := 256) (m ((c.tc : Thread nD τ).loc main_arg7))) (HostSpec.Row (n := 256) (m ((c.tc : Thread nD τ).loc main_arg16))) (HostSpec.Row (n := 256) (m ((c.tc : Thread nD τ).loc main_arg17))) (HostSpec.Tr (m := 256) (n := 512) (m ((c.tc : Thread nD τ).loc main_arg8))) (HostSpec.Tr (m := 256) (n := 512) (m ((c.tc : Thread nD τ).loc main_arg9))) (HostSpec.Row (n := 256) (m ((c.tc : Thread nD τ).loc main_arg10))) (HostSpec.Row (n := 256) (m ((c.tc : Thread nD τ).loc main_arg18))) (HostSpec.Row (n := 256) (m ((c.tc : Thread nD τ).loc main_arg19))) (HostSpec.Tr (m := 256) (n := 256) (m ((c.tc : Thread nD τ).loc main_arg11))) (HostSpec.Tr (m := 256) (n := 256) (m ((c.tc : Thread nD τ).loc main_arg12))) (HostSpec.Row (n := 256) (m ((c.tc : Thread nD τ).loc main_arg13))) (fun _ => (1 : EReal)) (fun _ => (0 : EReal))) (HostSpec.Tr (m := 8192) (n := 256) (m ((c.tc : Thread nD τ).loc main_arg14))) (HostSpec.Row (n := 8192) (m ((c.tc : Thread nD τ).loc main_arg15))) (fun x => if 0 < Sage.Cnt (m ((c.tc : Thread nD τ).loc main_arg20)) (x 1) (x 0) then (1 : EReal) else 0) :=
  kernel_value_of m c f0 f1 f2 hrange

end Compose

end Cert.KernelIdeal.Gen

end
-- ==== Proof.R0Value.lean ====
import proofs.«407196_j36060545417339_2_alg».proof.Proof.R0
import proofs.«407196_j36060545417339_2_alg».proof.Proof.SpecSage
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open scoped BigOperators

namespace Cert.KernelIdeal.Gen

open Idealize.ShloMosaic Idealize.ShloMosaic.TcCoe Idealize.ShloMosaic.ValueIdx
open Idealize.ShloMosaic.Pipeline (Dat Cfg Window)

theorem dotA0_lhs_0 (j : S1024x160.Idx) (k : dot_S1024x2048_S2048x160_S1024x160_1_0_0_1_n_n.contr.Idx) :
    ((dot_S1024x2048_S2048x160_S1024x160_1_0_0_1_n_n.lhsIdx j k) (0 : Fin 2)).val = (j (0 : Fin 2)).val := by
  unfold DotDims.lhsIdx
  rw [dif_neg (show ¬(0 : Fin S1024x2048.rank) ∈ dot_S1024x2048_S2048x160_S1024x160_1_0_0_1_n_n.lhsBatch by decide),
    dif_pos (show (0 : Fin S1024x2048.rank) ∈ dot_S1024x2048_S2048x160_S1024x160_1_0_0_1_n_n.lhsNonContracting by decide)]
  rfl

theorem dotA0_lhs_1 (j : S1024x160.Idx) (k : dot_S1024x2048_S2048x160_S1024x160_1_0_0_1_n_n.contr.Idx) :
    ((dot_S1024x2048_S2048x160_S1024x160_1_0_0_1_n_n.lhsIdx j k) (1 : Fin 2)).val = (k ⟨0, by decide⟩).val :=
  DotDims.lhsIdx_val_of_single _ (cl := (1 : Fin S1024x2048.rank)) rfl j k

theorem dotA0_rhs_0 (j : S1024x160.Idx) (k : dot_S1024x2048_S2048x160_S1024x160_1_0_0_1_n_n.contr.Idx) :
    ((dot_S1024x2048_S2048x160_S1024x160_1_0_0_1_n_n.rhsIdx j k) (0 : Fin 2)).val = (k ⟨0, by decide⟩).val :=
  DotDims.rhsIdx_val_of_single _ (cr := (0 : Fin S2048x160.rank)) rfl j k

theorem dotA0_rhs_1 (j : S1024x160.Idx) (k : dot_S1024x2048_S2048x160_S1024x160_1_0_0_1_n_n.contr.Idx) :
    ((dot_S1024x2048_S2048x160_S1024x160_1_0_0_1_n_n.rhsIdx j k) (1 : Fin 2)).val = (j (1 : Fin 2)).val := by
  unfold DotDims.rhsIdx
  rw [dif_neg (show ¬(1 : Fin S2048x160.rank) ∈ dot_S1024x2048_S2048x160_S1024x160_1_0_0_1_n_n.rhsBatch by decide),
    dif_pos (show (1 : Fin S2048x160.rank) ∈ dot_S1024x2048_S2048x160_S1024x160_1_0_0_1_n_n.rhsNonContracting by decide)]
  rfl

theorem matmulA0_apply (a : FVec Ideal S1024x2048 .bf16) (w : FVec Ideal S2048x160 .bf16) (r : Fin 1024) (d : Fin 160) :
    matmul dot_S1024x2048_S2048x160_S1024x160_1_0_0_1_n_n none a w (constant (F := Ideal) S1024x160 .f32 0x00000000#32) (ix2 r d)
      = ∑ k : Fin 2048, a (ix2 r k) * w (ix2 k d) := by
  simp only [matmul]
  rw [Ideal.matmul_constant_zero_apply]
  rw [← Equiv.sum_comp (contrEquiv1 dot_S1024x2048_S2048x160_S1024x160_1_0_0_1_n_n 2048 rfl rfl).symm]
  refine Finset.sum_congr rfl fun k _ => ?_
  have hl : dot_S1024x2048_S2048x160_S1024x160_1_0_0_1_n_n.lhsIdx (ix2 r d) ((contrEquiv1 dot_S1024x2048_S2048x160_S1024x160_1_0_0_1_n_n 2048 rfl rfl).symm k) = ix2 r k := by
    funext ax; apply Fin.ext
    match ax with
    | ⟨0, _⟩ => exact dotA0_lhs_0 _ _
    | ⟨1, _⟩ => exact (dotA0_lhs_1 _ _).trans (contrEquiv1_symm_val _ 2048 rfl rfl k)
  have hr : dot_S1024x2048_S2048x160_S1024x160_1_0_0_1_n_n.rhsIdx (ix2 r d) ((contrEquiv1 dot_S1024x2048_S2048x160_S1024x160_1_0_0_1_n_n 2048 rfl rfl).symm k) = ix2 k d := by
    funext ax; apply Fin.ext
    match ax with
    | ⟨0, _⟩ => exact (dotA0_rhs_0 _ _).trans (contrEquiv1_symm_val _ 2048 rfl rfl k)
    | ⟨1, _⟩ => exact dotA0_rhs_1 _ _
  rw [hl, hr]

theorem dotB0_lhs_0 (j : S1024x256.Idx) (k : dot_S1024x160_S160x256_S1024x256_1_0_0_1_n_n.contr.Idx) :
    ((dot_S1024x160_S160x256_S1024x256_1_0_0_1_n_n.lhsIdx j k) (0 : Fin 2)).val = (j (0 : Fin 2)).val := by
  unfold DotDims.lhsIdx
  rw [dif_neg (show ¬(0 : Fin S1024x160.rank) ∈ dot_S1024x160_S160x256_S1024x256_1_0_0_1_n_n.lhsBatch by decide),
    dif_pos (show (0 : Fin S1024x160.rank) ∈ dot_S1024x160_S160x256_S1024x256_1_0_0_1_n_n.lhsNonContracting by decide)]
  rfl

theorem dotB0_lhs_1 (j : S1024x256.Idx) (k : dot_S1024x160_S160x256_S1024x256_1_0_0_1_n_n.contr.Idx) :
    ((dot_S1024x160_S160x256_S1024x256_1_0_0_1_n_n.lhsIdx j k) (1 : Fin 2)).val = (k ⟨0, by decide⟩).val :=
  DotDims.lhsIdx_val_of_single _ (cl := (1 : Fin S1024x160.rank)) rfl j k

theorem dotB0_rhs_0 (j : S1024x256.Idx) (k : dot_S1024x160_S160x256_S1024x256_1_0_0_1_n_n.contr.Idx) :
    ((dot_S1024x160_S160x256_S1024x256_1_0_0_1_n_n.rhsIdx j k) (0 : Fin 2)).val = (k ⟨0, by decide⟩).val :=
  DotDims.rhsIdx_val_of_single _ (cr := (0 : Fin S160x256.rank)) rfl j k

theorem dotB0_rhs_1 (j : S1024x256.Idx) (k : dot_S1024x160_S160x256_S1024x256_1_0_0_1_n_n.contr.Idx) :
    ((dot_S1024x160_S160x256_S1024x256_1_0_0_1_n_n.rhsIdx j k) (1 : Fin 2)).val = (j (1 : Fin 2)).val := by
  unfold DotDims.rhsIdx
  rw [dif_neg (show ¬(1 : Fin S160x256.rank) ∈ dot_S1024x160_S160x256_S1024x256_1_0_0_1_n_n.rhsBatch by decide),
    dif_pos (show (1 : Fin S160x256.rank) ∈ dot_S1024x160_S160x256_S1024x256_1_0_0_1_n_n.rhsNonContracting by decide)]
  rfl

theorem matmulB0_apply (a : FVec Ideal S1024x160 .f32) (w : FVec Ideal S160x256 .f32) (r : Fin 1024) (o : Fin 256) :
    matmul dot_S1024x160_S160x256_S1024x256_1_0_0_1_n_n none a w (constant (F := Ideal) S1024x256 .f32 0x00000000#32) (ix2 r o)
      = ∑ k : Fin 160, a (ix2 r k) * w (ix2 k o) := by
  simp only [matmul]
  rw [Ideal.matmul_constant_zero_apply]
  rw [← Equiv.sum_comp (contrEquiv1 dot_S1024x160_S160x256_S1024x256_1_0_0_1_n_n 160 rfl rfl).symm]
  refine Finset.sum_congr rfl fun k _ => ?_
  have hl : dot_S1024x160_S160x256_S1024x256_1_0_0_1_n_n.lhsIdx (ix2 r o) ((contrEquiv1 dot_S1024x160_S160x256_S1024x256_1_0_0_1_n_n 160 rfl rfl).symm k) = ix2 r k := by
    funext ax; apply Fin.ext
    match ax with
    | ⟨0, _⟩ => exact dotB0_lhs_0 _ _
    | ⟨1, _⟩ => exact (dotB0_lhs_1 _ _).trans (contrEquiv1_symm_val _ 160 rfl rfl k)
  have hr : dot_S1024x160_S160x256_S1024x256_1_0_0_1_n_n.rhsIdx (ix2 r o) ((contrEquiv1 dot_S1024x160_S160x256_S1024x256_1_0_0_1_n_n 160 rfl rfl).symm k) = ix2 k o := by
    funext ax; apply Fin.ext
    match ax with
    | ⟨0, _⟩ => exact (dotB0_rhs_0 _ _).trans (contrEquiv1_symm_val _ 160 rfl rfl k)
    | ⟨1, _⟩ => exact dotB0_rhs_1 _ _
  rw [hl, hr]

theorem bcolS0_apply {α : Type} (v : S1024x1.Idx → α) (r : Fin 1024) (d : Fin 160) :
    broadcastTo S1024x160 v broadcasts_S1024x1_S1024x160 (ix2 r d) = v (ix2 r (0 : Fin 1)) :=
  broadcastTo_apply _ _ (ix2 r d) (ix2 r (0 : Fin 1)) (fun ax => by
    match ax with
    | ⟨0, _⟩ => rfl
    | ⟨1, _⟩ => rfl)

theorem bcolO0_apply {α : Type} (v : S1024x1.Idx → α) (r : Fin 1024) (o : Fin 256) :
    broadcastTo S1024x256 v broadcasts_S1024x1_S1024x256 (ix2 r o) = v (ix2 r (0 : Fin 1)) :=
  broadcastTo_apply _ _ (ix2 r o) (ix2 r (0 : Fin 1)) (fun ax => by
    match ax with
    | ⟨0, _⟩ => rfl
    | ⟨1, _⟩ => rfl)

theorem colcast0_apply {α : Type} (v : S1024.Idx → α) (r : Fin 1024) :
    shapeCast S1024x1 v shapeCasts_S1024_S1024x1 (ix2 r (0 : Fin 1)) = v (ix1 r) :=
  shapeCast_apply v _ _ _ (by
    rw [Shape.rowMajor_val_two, Shape.rowMajor_val_one]
    show r.val = r.val * 1 + 0
    omega)

theorem liftO0 (r : Fin 1024) (k : Fin 256) :
    reduces_S1024x256_S1024.lift (ix1 r) (k : Fin (S1024x256.size (1 : Fin 2))) = ix2 r k := by
  funext ax; apply Fin.ext
  match ax with
  | ⟨0, h0⟩ =>
    show Shape.Reduces.liftVal reduces_S1024x256_S1024 (ix1 r) k.val ⟨0, h0⟩ = r.val
    unfold Shape.Reduces.liftVal
    rw [dif_neg (by show ¬((0 : ℕ) = 1); omega), dif_pos (by show (0 : ℕ) < 1; omega)]
  | ⟨1, h1⟩ =>
    show Shape.Reduces.liftVal reduces_S1024x256_S1024 (ix1 r) k.val ⟨1, h1⟩ = k.val
    unfold Shape.Reduces.liftVal
    rw [dif_pos (by show (1 : ℕ) = 1; rfl)]

theorem sumO0_apply (v : FVec Ideal S1024x256 .f32) (hφ : FTy.f32 = FTy.f32 ∨ FTy.f32 = FTy.bf16)
    (hacc : (0#32 : BitVec 32) = 0#32) (r : Fin 1024) :
    multiReduction .add [(1 : Fin S1024x256.rank)] S1024 v (0#32) reduces_S1024x256_S1024 hφ hacc (ix1 r)
      = ∑ k : Fin 256, v (ix2 r k) :=
  (Ideal.multiReduction_add_single v (0#32) reduces_S1024x256_S1024 hφ hacc (ix1 r)).trans
    (Finset.sum_congr rfl fun k _ => congrArg v (liftO0 r k))

theorem sqrt0_apply {s : Shape} (a : FVec Ideal s .f32) (x : s.Idx) : sqrt a x = Ideal.sqrt (a x) := rfl

theorem pay1_0_apply (y : S1024x160.Idx) : k0_pay1 (F := Ideal) y = 0 := by
  unfold k0_pay1
  simp only [shapeCast_self]
  show Ideal.ofBits .f32 0x00000000#32 = 0
  exact Ideal.ofBits_zero_f32

theorem pay2_0_apply (x0 : FVec Ideal S1024x2048 .bf16) (hk : FVec Ideal S2048x160 .f32) (s : FVec Ideal S1024x160 .f32)
    (r : Fin 1024) (d : Fin 160) :
    k0_pay2 (F := Ideal) x0 hk s (ix2 r d) = s (ix2 r d) + ∑ k : Fin 2048, x0 (ix2 r k) * hk (ix2 k d) := by
  unfold k0_pay2
  simp only [shapeCast_self]
  rw [addf_apply, matmulA0_apply]
  rfl

section Fin0
variable (deg : FVec Ideal S1024x1 .f32) (s hs : FVec Ideal S1024x160 .f32) (wl wr : FVec Ideal S160x256 .f32)
  (b g be : FVec Ideal S1x256 .f32)

def F0pre (r : Fin 1024) (o : Fin 256) : EReal :=
  (∑ d : Fin 160, Ideal.div (s (ix2 r d)) (deg (ix2 r (0 : Fin 1))) * wl (ix2 d o))
    + (∑ d : Fin 160, hs (ix2 r d) * wr (ix2 d o)) + b (ix2 (0 : Fin 1) o)

def F0row (r : Fin 1024) : Fin 256 → EReal := fun o => Sage.relu (F0pre deg s hs wl wr b r o)

def P0v : FVec Ideal S1024x256 .f32 :=
  maximumf
    (addf
      (addf
        (matmul dot_S1024x160_S160x256_S1024x256_1_0_0_1_n_n none (divf s (broadcastTo S1024x160 deg broadcasts_S1024x1_S1024x160)) wl
          (constant (F := Ideal) S1024x256 .f32 0x00000000#32))
        (matmul dot_S1024x160_S160x256_S1024x256_1_0_0_1_n_n none hs wr (constant (F := Ideal) S1024x256 .f32 0x00000000#32)))
      (broadcastTo S1024x256 b broadcasts_S1x256_S1024x256))
    (broadcast S1024x256 (Scalar.ofBits (F := Ideal) .f32 0x00000000#32))

def Mn0v : FVec Ideal S1024x1 .f32 :=
  divf
    (shapeCast S1024x1
      (multiReduction .add [1] S1024 (P0v deg s hs wl wr b) 0x00000000#32 reduces_S1024x256_S1024 (.inl rfl) rfl)
      shapeCasts_S1024_S1024x1)
    (broadcast S1024x1 (Scalar.ofBits (F := Ideal) .f32 0x43800000#32))

def D0v : FVec Ideal S1024x256 .f32 :=
  subf (P0v deg s hs wl wr b) (broadcastTo S1024x256 (Mn0v deg s hs wl wr b) broadcasts_S1024x1_S1024x256)

def Vr0v : FVec Ideal S1024x1 .f32 :=
  divf
    (shapeCast S1024x1
      (multiReduction .add [1] S1024 (mulf (D0v deg s hs wl wr b) (D0v deg s hs wl wr b)) 0x00000000#32
        reduces_S1024x256_S1024 (.inl rfl) rfl)
      shapeCasts_S1024_S1024x1)
    (broadcast S1024x1 (Scalar.ofBits (F := Ideal) .f32 0x43800000#32))

set_option maxHeartbeats 1000000 in
theorem pay4_0_eq :
    k0_pay4 (F := Ideal) deg s hs wl wr b
      = divf (D0v deg s hs wl wr b)
          (broadcastTo S1024x256
            (sqrt (addf (Vr0v deg s hs wl wr b) (broadcast S1024x1 (Scalar.ofBits (F := Ideal) .f32 0x3727C5AC#32))))
            broadcasts_S1024x1_S1024x256) := by
  unfold k0_pay4 Vr0v D0v Mn0v P0v
  simp only [shapeCast_self]

theorem P0v_apply (r : Fin 1024) (o : Fin 256) : P0v deg s hs wl wr b (ix2 r o) = F0row deg s hs wl wr b r o := by
  unfold P0v F0row Sage.relu F0pre
  rw [maximumf_apply, addf_apply, addf_apply, matmulB0_apply, matmulB0_apply, broadcastTo_1b_ab_apply, broadcast_apply]
  simp only [divf_apply, bcolS0_apply]
  show max _ (Ideal.ofBits .f32 0x00000000#32) = max _ 0
  rw [Ideal.ofBits_zero_f32]

theorem Mn0v_apply (r : Fin 1024) :
    Mn0v deg s hs wl wr b (ix2 r (0 : Fin 1)) = Sage.LNmean (F0row deg s hs wl wr b r) := by
  unfold Mn0v Sage.LNmean
  rw [divf_apply, colcast0_apply, sumO0_apply, broadcast_apply]
  simp only [P0v_apply]
  rfl

theorem D0v_apply (r : Fin 1024) (o : Fin 256) :
    D0v deg s hs wl wr b (ix2 r o) = F0row deg s hs wl wr b r o - Sage.LNmean (F0row deg s hs wl wr b r) := by
  unfold D0v
  rw [subf_apply, bcolO0_apply, P0v_apply, Mn0v_apply]

theorem Vr0v_apply (r : Fin 1024) :
    Vr0v deg s hs wl wr b (ix2 r (0 : Fin 1)) = Sage.LNvar (F0row deg s hs wl wr b r) := by
  unfold Vr0v Sage.LNvar
  rw [divf_apply, colcast0_apply, sumO0_apply, broadcast_apply]
  simp only [mulf_apply, D0v_apply]
  rfl

theorem fin0_pay_apply (r : Fin 1024) (o : Fin 256) :
    k0_pay3 (F := Ideal) (k0_pay4 (F := Ideal) deg s hs wl wr b) g be (ix2 r o)
      = Sage.LN (F0row deg s hs wl wr b r) g be o := by
  unfold k0_pay3 Sage.LN
  simp only [shapeCast_self]
  rw [addf_apply, mulf_apply, broadcastTo_1b_ab_apply, broadcastTo_1b_ab_apply, pay4_0_eq, divf_apply, bcolO0_apply,
    sqrt0_apply, addf_apply, broadcast_apply, D0v_apply, Vr0v_apply]
  rfl

end Fin0

theorem widx0_0 : ∀ t : Fin cfg0.N, win0_0.index t 0 = t.val / 4 ∧ win0_0.index t 1 = t.val % 4 :=
  (by decide +kernel : ∀ t : Fin grid0.N, win0_0.index t 0 = t.val / 4 ∧ win0_0.index t 1 = t.val % 4)

theorem widx0_8 : ∀ t : Fin cfg0.N, win0_8.index t 0 = t.val / 4 ∧ win0_8.index t 1 = 0 :=
  (by decide +kernel : ∀ t : Fin grid0.N, win0_8.index t 0 = t.val / 4 ∧ win0_8.index t 1 = 0)

theorem widx0_1 : ∀ t : Fin cfg0.N, ∀ a, win0_1.index t a = 0 := (by decide +kernel : ∀ t : Fin grid0.N, ∀ a, win0_1.index t a = 0)
theorem widx0_2 : ∀ t : Fin cfg0.N, ∀ a, win0_2.index t a = 0 := (by decide +kernel : ∀ t : Fin grid0.N, ∀ a, win0_2.index t a = 0)
theorem widx0_3 : ∀ t : Fin cfg0.N, ∀ a, win0_3.index t a = 0 := (by decide +kernel : ∀ t : Fin grid0.N, ∀ a, win0_3.index t a = 0)
theorem widx0_4 : ∀ t : Fin cfg0.N, ∀ a, win0_4.index t a = 0 := (by decide +kernel : ∀ t : Fin grid0.N, ∀ a, win0_4.index t a = 0)
theorem widx0_5 : ∀ t : Fin cfg0.N, ∀ a, win0_5.index t a = 0 := (by decide +kernel : ∀ t : Fin grid0.N, ∀ a, win0_5.index t a = 0)
theorem widx0_6 : ∀ t : Fin cfg0.N, ∀ a, win0_6.index t a = 0 := (by decide +kernel : ∀ t : Fin grid0.N, ∀ a, win0_6.index t a = 0)
theorem widx0_7 : ∀ t : Fin cfg0.N, ∀ a, win0_7.index t a = 0 := (by decide +kernel : ∀ t : Fin grid0.N, ∀ a, win0_7.index t a = 0)

theorem koff0_1 : ∀ t : Fin cfg0.N, k0_off1 (grid0.coords t) 0 = 2048 * (t.val % 4) ∧ k0_off1 (grid0.coords t) 1 = 0 :=
  (by decide +kernel : ∀ t : Fin grid0.N, k0_off1 (grid0.coords t) 0 = 2048 * (t.val % 4) ∧ k0_off1 (grid0.coords t) 1 = 0)
theorem koff0_2 : ∀ t : Fin cfg0.N, k0_off2 (grid0.coords t) 0 = 1024 * (t.val / 4) ∧ k0_off2 (grid0.coords t) 1 = 0 :=
  (by decide +kernel : ∀ t : Fin grid0.N, k0_off2 (grid0.coords t) 0 = 1024 * (t.val / 4) ∧ k0_off2 (grid0.coords t) 1 = 0)
theorem koff0_3 : ∀ t : Fin cfg0.N, k0_off3 (grid0.coords t) 0 = 1024 * (t.val / 4) ∧ k0_off3 (grid0.coords t) 1 = 0 :=
  (by decide +kernel : ∀ t : Fin grid0.N, k0_off3 (grid0.coords t) 0 = 1024 * (t.val / 4) ∧ k0_off3 (grid0.coords t) 1 = 0)

section Region0Value

variable (V : (c : Dev nD) → (b : Ref sig .tc) → Buf (Elt Ideal) ((c : Thread nD τ).loc b))

theorem iblk0_0_apply (c : Dev nD) (t : Fin cfg0.N) (r : Fin 1024) (k : Fin 2048)
    (z : S8192x8192.Idx) (h0 : (z 0).val = 1024 * (t.val / 4) + r.val) (h1 : (z 1).val = 2048 * (t.val % 4) + k.val) :
    (iblk0 V c 0 t : Vec Ideal S1024x2048 .bf16) (ix2 r k) = V c main_v32 z := by
  unfold iblk0
  rw [View.read_apply]
  show V c main_v32 _ = V c main_v32 z
  congr 1
  funext a
  apply Fin.ext
  match a with
  | ⟨0, _⟩ =>
    show win0_0.index t 0 * 1024 + 1 * r.val = (z 0).val
    rw [(widx0_0 t).1, h0]; omega
  | ⟨1, _⟩ =>
    show win0_0.index t 1 * 2048 + 1 * k.val = (z 1).val
    rw [(widx0_0 t).2, h1]; omega

theorem iblk0_1_eq (c : Dev nD) (t : Fin cfg0.N) : (iblk0 V c 1 t : Vec Ideal S8192x160 .f32) = V c main_v37 := by
  have hz : (fun a => win0_1.index t a * main_v37.ty.shape.size a) = fun _ => 0 := funext fun a => by rw [widx0_1 t a]; exact Nat.zero_mul _
  exact Memref.read_access_unit_zero (Elt Ideal) main_v37 hz (fun a => by rw [congrFun hz a]; simp) (V c main_v37)
theorem iblk0_2_eq (c : Dev nD) (t : Fin cfg0.N) : (iblk0 V c 2 t : Vec Ideal S8192x1 .f32) = V c main_v15 := by
  have hz : (fun a => win0_2.index t a * main_v15.ty.shape.size a) = fun _ => 0 := funext fun a => by rw [widx0_2 t a]; exact Nat.zero_mul _
  exact Memref.read_access_unit_zero (Elt Ideal) main_v15 hz (fun a => by rw [congrFun hz a]; simp) (V c main_v15)
theorem iblk0_3_eq (c : Dev nD) (t : Fin cfg0.N) : (iblk0 V c 3 t : Vec Ideal S160x256 .f32) = V c main_v38 := by
  have hz : (fun a => win0_3.index t a * main_v38.ty.shape.size a) = fun _ => 0 := funext fun a => by rw [widx0_3 t a]; exact Nat.zero_mul _
  exact Memref.read_access_unit_zero (Elt Ideal) main_v38 hz (fun a => by rw [congrFun hz a]; simp) (V c main_v38)
theorem iblk0_4_eq (c : Dev nD) (t : Fin cfg0.N) : (iblk0 V c 4 t : Vec Ideal S160x256 .f32) = V c main_v39 := by
  have hz : (fun a => win0_4.index t a * main_v39.ty.shape.size a) = fun _ => 0 := funext fun a => by rw [widx0_4 t a]; exact Nat.zero_mul _
  exact Memref.read_access_unit_zero (Elt Ideal) main_v39 hz (fun a => by rw [congrFun hz a]; simp) (V c main_v39)
theorem iblk0_5_eq (c : Dev nD) (t : Fin cfg0.N) : (iblk0 V c 5 t : Vec Ideal S1x256 .f32) = V c main_v40 := by
  have hz : (fun a => win0_5.index t a * main_v40.ty.shape.size a) = fun _ => 0 := funext fun a => by rw [widx0_5 t a]; exact Nat.zero_mul _
  exact Memref.read_access_unit_zero (Elt Ideal) main_v40 hz (fun a => by rw [congrFun hz a]; simp) (V c main_v40)
theorem iblk0_6_eq (c : Dev nD) (t : Fin cfg0.N) : (iblk0 V c 6 t : Vec Ideal S1x256 .f32) = V c main_v41 := by
  have hz : (fun a => win0_6.index t a * main_v41.ty.shape.size a) = fun _ => 0 := funext fun a => by rw [widx0_6 t a]; exact Nat.zero_mul _
  exact Memref.read_access_unit_zero (Elt Ideal) main_v41 hz (fun a => by rw [congrFun hz a]; simp) (V c main_v41)
theorem iblk0_7_eq (c : Dev nD) (t : Fin cfg0.N) : (iblk0 V c 7 t : Vec Ideal S1x256 .f32) = V c main_v42 := by
  have hz : (fun a => win0_7.index t a * main_v42.ty.shape.size a) = fun _ => 0 := funext fun a => by rw [widx0_7 t a]; exact Nat.zero_mul _
  exact Memref.read_access_unit_zero (Elt Ideal) main_v42 hz (fun a => by rw [congrFun hz a]; simp) (V c main_v42)

end Region0Value

theorem ldH0_apply (X : Vec Ideal S8192x160 .f32) (t : Fin cfg0.N) (k : Fin 2048) (d : Fin 160) (zk : Fin 8192)
    (hzk : zk.val = 2048 * (t.val % 4) + k.val) :
    View.ld X (rH0 (grid0.coords t)) (ix2 k d) = X (ix2 zk d) := by
  show X ((rH0 (grid0.coords t)).idx (ix2 k d)) = X (ix2 zk d)
  congr 1
  funext a
  apply Fin.ext
  match a with
  | ⟨0, _⟩ =>
    show k0_off1 (grid0.coords t) 0 + 1 * k.val = zk.val
    rw [(koff0_1 t).1, hzk]; omega
  | ⟨1, _⟩ =>
    show k0_off1 (grid0.coords t) 1 + 1 * d.val = d.val
    rw [(koff0_1 t).2]; omega

theorem ldD0_apply (X : Vec Ideal S8192x1 .f32) (t : Fin cfg0.N) (r : Fin 1024) (zi : Fin 8192)
    (hzi : zi.val = 1024 * (t.val / 4) + r.val) :
    View.ld X (rD0 (grid0.coords t)) (ix2 r (0 : Fin 1)) = X (ix2 zi (0 : Fin 1)) := by
  show X ((rD0 (grid0.coords t)).idx (ix2 r (0 : Fin 1))) = X (ix2 zi (0 : Fin 1))
  congr 1
  funext a
  apply Fin.ext
  match a with
  | ⟨0, _⟩ =>
    show k0_off2 (grid0.coords t) 0 + 1 * r.val = zi.val
    rw [(koff0_2 t).1, hzi]; omega
  | ⟨1, _⟩ =>
    show k0_off2 (grid0.coords t) 1 + 1 * 0 = 0
    rw [(koff0_2 t).2]

theorem ldX0_apply (X : Vec Ideal S8192x160 .f32) (t : Fin cfg0.N) (r : Fin 1024) (d : Fin 160) (zi : Fin 8192)
    (hzi : zi.val = 1024 * (t.val / 4) + r.val) :
    View.ld X (rX0 (grid0.coords t)) (ix2 r d) = X (ix2 zi d) := by
  show X ((rX0 (grid0.coords t)).idx (ix2 r d)) = X (ix2 zi d)
  congr 1
  funext a
  apply Fin.ext
  match a with
  | ⟨0, _⟩ =>
    show k0_off3 (grid0.coords t) 0 + 1 * r.val = zi.val
    rw [(koff0_3 t).1, hzi]; omega
  | ⟨1, _⟩ =>
    show k0_off3 (grid0.coords t) 1 + 1 * d.val = d.val
    rw [(koff0_3 t).2]; omega

theorem acc0_apply (i : grid0.Coords) (x0 : Vec Ideal S1024x2048 .bf16) (x1 : Vec Ideal S8192x160 .f32)
    (s : Vec Ideal S1024x160 .f32) (r : Fin 1024) (d : Fin 160) :
    acc0 (F := Ideal) i x0 x1 s (ix2 r d) = s (ix2 r d) + ∑ k : Fin 2048, x0 (ix2 r k) * View.ld x1 (rH0 i) (ix2 k d) := by
  unfold acc0
  exact pay2_0_apply x0 (View.ld x1 (rH0 i)) s r d

section Region0Fold

variable (V : (c : Dev nD) → (b : Ref sig .tc) → Buf (Elt Ideal) ((c : Thread nD τ).loc b))

abbrev A0 (c : Dev nD) : Vec Ideal S8192x8192 .bf16 := V c main_v32
abbrev H0 (c : Dev nD) : Vec Ideal S8192x160 .f32 := V c main_v37
abbrev Dg0 (c : Dev nD) : Vec Ideal S8192x1 .f32 := V c main_v15
abbrev Wl0 (c : Dev nD) : Vec Ideal S160x256 .f32 := V c main_v38
abbrev Wr0 (c : Dev nD) : Vec Ideal S160x256 .f32 := V c main_v39
abbrev Bi0 (c : Dev nD) : Vec Ideal S1x256 .f32 := V c main_v40
abbrev Ga0 (c : Dev nD) : Vec Ideal S1x256 .f32 := V c main_v41
abbrev Be0 (c : Dev nD) : Vec Ideal S1x256 .f32 := V c main_v42

abbrev tile0 (c : Dev nD) (t : Fin cfg0.N) : Vec Ideal S1024x2048 .bf16 := iblk0 V c 0 t
abbrev feat0 (c : Dev nD) (t : Fin cfg0.N) : Vec Ideal S8192x160 .f32 := iblk0 V c 1 t

def M0 (c : Dev nD) (n : ℕ) (y : S1024x160.Idx) : EReal :=
  if h : n < cfg0.N then
    ∑ k : Fin 2048, tile0 V c ⟨n, h⟩ (ix2 (y 0) k) * View.ld (feat0 V c ⟨n, h⟩) (rH0 (grid0.coords ⟨n, h⟩)) (ix2 k (y 1))
  else 0

theorem sAt0_sum (c : Dev nD) (t : Fin cfg0.N) (y : S1024x160.Idx) :
    sAt0 V c t.val t.isLt y = 0 + ∑ s ∈ Finset.range (t.val % 4 + 1), M0 V c (4 * (t.val / 4) + s) y := by
  have hN : cfg0.N = 32 := N_0
  have h' : 4 * (t.val / 4) + t.val % 4 < cfg0.N := by have := t.isLt; omega
  rw [Pipeline.eq_accAt_of_mod (α := Vec Ideal S1024x160 .f32) (sAt0 V c) 4
      (fun n h => acc0 (F := Ideal) (grid0.coords ⟨n, h⟩) (tile0 V c ⟨n, h⟩) (feat0 V c ⟨n, h⟩) (k0_pay1 (F := Ideal)))
      (fun n h s => acc0 (F := Ideal) (grid0.coords ⟨n, h⟩) (tile0 V c ⟨n, h⟩) (feat0 V c ⟨n, h⟩) s)
      (fun n h e => sAt0_first V c ⟨n, h⟩ e)
      (fun n h e => sAt0_next V c ⟨n + 1, h⟩ e)
      (by decide) t.val t.isLt h']
  refine Pipeline.accAt_add_apply _ _ (fun _ => 0) (M0 V c) (4 * (t.val / 4)) 3 ?_ ?_ (t.val % 4) (by omega) h' y
  · intro h y
    obtain ⟨r, d, rfl⟩ : ∃ r d, y = ix2 r d := ⟨y 0, y 1, eq_ix2 y⟩
    unfold M0
    rw [dif_pos h, acc0_apply, pay1_0_apply]
  · intro n h acc y _ _
    obtain ⟨r, d, rfl⟩ : ∃ r d, y = ix2 r d := ⟨y 0, y 1, eq_ix2 y⟩
    unfold M0
    rw [dif_pos h, acc0_apply]

theorem sum_blocks4 (f : Fin 8192 → EReal) :
    ∑ j : Fin 8192, f j
      = ∑ s ∈ Finset.range 4, ∑ k : Fin 2048, (if h : 2048 * s + k.val < 8192 then f ⟨2048 * s + k.val, h⟩ else 0) := by
  rw [Finset.sum_range]
  have e := Equiv.sum_comp (finProdFinEquiv (m := 4) (n := 2048)) (fun j : Fin (4 * 2048) => f j)
  rw [Fintype.sum_prod_type] at e
  rw [show (∑ j : Fin 8192, f j) = ∑ j : Fin (4 * 2048), f j from rfl, ← e]
  refine Finset.sum_congr rfl fun s _ => Finset.sum_congr rfl fun k _ => ?_
  have hlt : 2048 * s.val + k.val < 8192 := by have := s.isLt; have := k.isLt; omega
  rw [dif_pos hlt]
  congr 1
  apply Fin.ext
  show k.val + 2048 * s.val = 2048 * s.val + k.val
  omega

theorem sAt0_last (c : Dev nD) (t : Fin cfg0.N) (h3 : t.val % 4 = 3) (r : Fin 1024) (d : Fin 160) (zi : Fin 8192)
    (hzi : zi.val = 1024 * (t.val / 4) + r.val) :
    sAt0 V c t.val t.isLt (ix2 r d) = ∑ j : Fin 8192, A0 V c (ix2 zi j) * H0 V c (ix2 j d) := by
  have hN : cfg0.N = 32 := N_0
  have ht := t.isLt
  rw [sAt0_sum, zero_add, h3, sum_blocks4]
  refine Finset.sum_congr rfl fun s hs => ?_
  have hs4 : s < 4 := Finset.mem_range.mp hs
  have hn : 4 * (t.val / 4) + s < cfg0.N := by omega
  unfold M0
  rw [dif_pos hn]
  dsimp only [tile0, feat0]
  refine Finset.sum_congr rfl fun k _ => ?_
  have hlt : 2048 * s + k.val < 8192 := by have := k.isLt; omega
  rw [dif_pos hlt]
  rw [iblk0_0_apply V c ⟨4 * (t.val / 4) + s, hn⟩ r k (ix2 zi ⟨2048 * s + k.val, hlt⟩)
      (by show zi.val = 1024 * ((4 * (t.val / 4) + s) / 4) + r.val; rw [hzi]; omega)
      (by show 2048 * s + k.val = 2048 * ((4 * (t.val / 4) + s) % 4) + k.val; omega),
    iblk0_1_eq V c ⟨4 * (t.val / 4) + s, hn⟩,
    ldH0_apply (V c main_v37) ⟨4 * (t.val / 4) + s, hn⟩ k d ⟨2048 * s + k.val, hlt⟩
      (by show 2048 * s + k.val = 2048 * ((4 * (t.val / 4) + s) % 4) + k.val; omega)]

end Region0Fold

section Region0Final

variable (V : (c : Dev nD) → (b : Ref sig .tc) → Buf (Elt Ideal) ((c : Thread nD τ).loc b))

def agg0 (c : Dev nD) (i : Fin 8192) (d : Fin 160) : EReal :=
  Ideal.div (∑ j : Fin 8192, A0 V c (ix2 i j) * H0 V c (ix2 j d)) (Dg0 V c (ix2 i (0 : Fin 1)))

def G0 (c : Dev nD) : Buf (Elt Ideal) ((c : Thread nD τ).loc main_v43) :=
  fun x => Sage.post true (Sage.linK (D := 160) (agg0 V c) (H0 V c) (Wl0 V c) (Wr0 V c) (Bi0 V c))
    (Ga0 V c) (Be0 V c) (x 0) (x 1)

theorem xsize0_8 : ∀ t : Fin cfg0.N, win0_8.xsize (grid0.coords t) 0 = 1024 ∧ win0_8.xsize (grid0.coords t) 1 = 256 :=
  (by decide +kernel : ∀ t : Fin grid0.N, win0_8.xsize (grid0.coords t) 0 = 1024 ∧ win0_8.xsize (grid0.coords t) 1 = 256)

theorem G0_blk_apply (c : Dev nD) (t : Fin cfg0.N) (r : Fin 1024) (o : Fin 256) (zi : Fin 8192)
    (hzi : zi.val = 1024 * (t.val / 4) + r.val) :
    ((cfg0.win 8).blk t).view.read (Elt Ideal) (G0 V c) (ix2 r o)
      = Sage.post true (Sage.linK (D := 160) (agg0 V c) (H0 V c) (Wl0 V c) (Wr0 V c) (Bi0 V c))
          (Ga0 V c) (Be0 V c) zi o := by
  rw [View.read_apply]
  show G0 V c _ = _
  unfold G0
  congr 1
  · apply Fin.ext
    show win0_8.index t 0 * 1024 + 1 * r.val = zi.val
    rw [(widx0_8 t).1, hzi]; omega
  · apply Fin.ext
    show win0_8.index t 1 * 256 + 1 * o.val = o.val
    rw [(widx0_8 t).2]; omega

theorem flushed0_8 (c : Dev nD) (t : Fin cfg0.N) (hf : (cfg0.win 8).flush t = true) :
    (dat0 V c).flushed 8 t = ((cfg0.win 8).blk t).view.read (Elt Ideal) (G0 V c) := by
  have hN : cfg0.N = 32 := N_0
  have ht := t.isLt
  have h3 : t.val % 4 = 3 := (flush0_8 t).mp hf
  show (cfg0.win 8).cut (grid0.coords t) ((dat0 V c).after 8 t) = _
  rw [after0_8]
  funext y
  obtain ⟨r, o, rfl⟩ : ∃ r o, y = ix2 r o := ⟨y 0, y 1, eq_ix2 y⟩
  have hlt : 1024 * (t.val / 4) + r.val < 8192 := by have := r.isLt; omega
  rw [G0_blk_apply V c t r o ⟨1024 * (t.val / 4) + r.val, hlt⟩ rfl]
  show fin0 (grid0.coords t) (iblk0 V c 1 t) (iblk0 V c 2 t) (iblk0 V c 3 t) (iblk0 V c 4 t) (iblk0 V c 5 t)
      (iblk0 V c 6 t) (iblk0 V c 7 t) (sAt0 V c t.val t.isLt) (ix2 r o) = _
  unfold fin0
  rw [iblk0_1_eq, iblk0_2_eq, iblk0_3_eq, iblk0_4_eq, iblk0_5_eq, iblk0_6_eq, iblk0_7_eq, fin0_pay_apply]
  unfold Sage.post
  rw [if_pos rfl]
  congr 1
  funext o'
  unfold F0row F0pre Sage.linK agg0
  congr 2
  · congr 1
    · refine Finset.sum_congr rfl fun d _ => ?_
      rw [sAt0_last V c t h3 r d ⟨1024 * (t.val / 4) + r.val, hlt⟩ rfl,
        ldD0_apply (Dg0 V c) t r ⟨1024 * (t.val / 4) + r.val, hlt⟩ rfl]
    · refine Finset.sum_congr rfl fun d _ => ?_
      rw [ldX0_apply (H0 V c) t r d ⟨1024 * (t.val / 4) + r.val, hlt⟩ rfl]

theorem cover0_8 (c : Dev nD) (i : ((cfg0.win 8).arr.view.loc (c.tc : Thread nD τ)).2.ty.Idx) :
    ∃ t : Fin cfg0.N, (cfg0.win 8).flush t = true ∧ i ∈ ((cfg0.win 8).blk t).view.set := by
  have hN : cfg0.N = 32 := N_0
  have h0 : (i 0 : Nat) < 8192 := (i 0).isLt
  have h1 : (i 1 : Nat) < 256 := (i 1).isLt
  have ht : 4 * ((i 0 : Nat) / 1024) + 3 < cfg0.N := by omega
  refine ⟨⟨4 * ((i 0 : Nat) / 1024) + 3, ht⟩, (flush0_8 _).mpr (by show (4 * ((i 0 : Nat) / 1024) + 3) % 4 = 3; omega), ?_⟩
  show i ∈ ((View.whole main_v43).slice (win0_8.rect ⟨4 * ((i 0 : Nat) / 1024) + 3, ht⟩)).set
  rw [View.set_slice_whole, Rect.mem_set_unit]
  intro a
  match a with
  | ⟨0, _⟩ =>
    show win0_8.index ⟨4 * ((i 0 : Nat) / 1024) + 3, ht⟩ 0 * win0_8.size 0 ≤ (i 0 : Nat)
      ∧ (i 0 : Nat) < win0_8.index ⟨4 * ((i 0 : Nat) / 1024) + 3, ht⟩ 0 * win0_8.size 0
          + win0_8.xsize (grid0.coords ⟨4 * ((i 0 : Nat) / 1024) + 3, ht⟩) 0
    rw [(widx0_8 _).1, (xsize0_8 _).1, show win0_8.size 0 = 1024 from rfl]
    show (4 * ((i 0 : Nat) / 1024) + 3) / 4 * 1024 ≤ (i 0 : Nat) ∧ (i 0 : Nat) < (4 * ((i 0 : Nat) / 1024) + 3) / 4 * 1024 + 1024
    omega
  | ⟨1, _⟩ =>
    show win0_8.index ⟨4 * ((i 0 : Nat) / 1024) + 3, ht⟩ 1 * win0_8.size 1 ≤ (i 1 : Nat)
      ∧ (i 1 : Nat) < win0_8.index ⟨4 * ((i 0 : Nat) / 1024) + 3, ht⟩ 1 * win0_8.size 1
          + win0_8.xsize (grid0.coords ⟨4 * ((i 0 : Nat) / 1024) + 3, ht⟩) 1
    rw [(widx0_8 _).2, (xsize0_8 _).2]
    omega

theorem final0_8 (c : Dev nD) :
    (dat0 (F := Ideal) V c).arrAt 8 cfg0.N
      = fun x => Sage.post true
          (Sage.linK (D := 160)
            (fun i d => Ideal.div (∑ j : Fin 8192, A0 V c (ix2 i j) * H0 V c (ix2 j d)) (Dg0 V c (ix2 i (0 : Fin 1))))
            (H0 V c) (Wl0 V c) (Wr0 V c) (Bi0 V c))
          (Ga0 V c) (Be0 V c) (x 0) (x 1) :=
  (dat0 V c).arrAt_eq_of_cover 8 (G0 V c) (flushed0_8 V c) (cover0_8 c)

end Region0Final

end Cert.KernelIdeal.Gen
end
-- ==== Proof.R1Value.lean ====
import proofs.«407196_j36060545417339_2_alg».proof.Proof.R1
import proofs.«407196_j36060545417339_2_alg».proof.Proof.SpecSage
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open scoped BigOperators

namespace Cert.KernelIdeal.Gen

open Idealize.ShloMosaic Idealize.ShloMosaic.TcCoe Idealize.ShloMosaic.ValueIdx
open Idealize.ShloMosaic.Pipeline (Dat Cfg Window)

/-! # Region 1 (the second fused aggregation layer): what its result array holds, over the extended reals

Read at the ideal values, the body's payloads are sums and quotients of extended reals. A row block's accumulator after
its four contraction steps is the count matrix's rows against the whole feature matrix — four sums over 2048 columns
joined into one over 8192 —, and the finalized block is the layer's map of that mean, row by row. -/

/-! ## The two contractions, read at an index -/

theorem dotA1_lhs_0 (j : S1024x512.Idx) (k : dot_S1024x2048_S2048x512_S1024x512_1_0_0_1_n_n.contr.Idx) :
    ((dot_S1024x2048_S2048x512_S1024x512_1_0_0_1_n_n.lhsIdx j k) (0 : Fin 2)).val = (j (0 : Fin 2)).val := by
  unfold DotDims.lhsIdx
  rw [dif_neg (show ¬(0 : Fin S1024x2048.rank) ∈ dot_S1024x2048_S2048x512_S1024x512_1_0_0_1_n_n.lhsBatch by decide),
    dif_pos (show (0 : Fin S1024x2048.rank) ∈ dot_S1024x2048_S2048x512_S1024x512_1_0_0_1_n_n.lhsNonContracting by decide)]
  rfl

theorem dotA1_lhs_1 (j : S1024x512.Idx) (k : dot_S1024x2048_S2048x512_S1024x512_1_0_0_1_n_n.contr.Idx) :
    ((dot_S1024x2048_S2048x512_S1024x512_1_0_0_1_n_n.lhsIdx j k) (1 : Fin 2)).val = (k ⟨0, by decide⟩).val :=
  DotDims.lhsIdx_val_of_single _ (cl := (1 : Fin S1024x2048.rank)) rfl j k

theorem dotA1_rhs_0 (j : S1024x512.Idx) (k : dot_S1024x2048_S2048x512_S1024x512_1_0_0_1_n_n.contr.Idx) :
    ((dot_S1024x2048_S2048x512_S1024x512_1_0_0_1_n_n.rhsIdx j k) (0 : Fin 2)).val = (k ⟨0, by decide⟩).val :=
  DotDims.rhsIdx_val_of_single _ (cr := (0 : Fin S2048x512.rank)) rfl j k

theorem dotA1_rhs_1 (j : S1024x512.Idx) (k : dot_S1024x2048_S2048x512_S1024x512_1_0_0_1_n_n.contr.Idx) :
    ((dot_S1024x2048_S2048x512_S1024x512_1_0_0_1_n_n.rhsIdx j k) (1 : Fin 2)).val = (j (1 : Fin 2)).val := by
  unfold DotDims.rhsIdx
  rw [dif_neg (show ¬(1 : Fin S2048x512.rank) ∈ dot_S1024x2048_S2048x512_S1024x512_1_0_0_1_n_n.rhsBatch by decide),
    dif_pos (show (1 : Fin S2048x512.rank) ∈ dot_S1024x2048_S2048x512_S1024x512_1_0_0_1_n_n.rhsNonContracting by decide)]
  rfl

/-- The count tile against 2048 feature rows, into the zero splat, at (r, d): the tile's row against the column. -/
theorem matmulA1_apply (a : FVec Ideal S1024x2048 .bf16) (w : FVec Ideal S2048x512 .bf16) (r : Fin 1024) (d : Fin 512) :
    matmul dot_S1024x2048_S2048x512_S1024x512_1_0_0_1_n_n none a w (constant (F := Ideal) S1024x512 .f32 0x00000000#32) (ix2 r d)
      = ∑ k : Fin 2048, a (ix2 r k) * w (ix2 k d) := by
  simp only [matmul]
  rw [Ideal.matmul_constant_zero_apply]
  rw [← Equiv.sum_comp (contrEquiv1 dot_S1024x2048_S2048x512_S1024x512_1_0_0_1_n_n 2048 rfl rfl).symm]
  refine Finset.sum_congr rfl fun k _ => ?_
  have hl : dot_S1024x2048_S2048x512_S1024x512_1_0_0_1_n_n.lhsIdx (ix2 r d) ((contrEquiv1 dot_S1024x2048_S2048x512_S1024x512_1_0_0_1_n_n 2048 rfl rfl).symm k) = ix2 r k := by
    funext ax; apply Fin.ext
    match ax with
    | ⟨0, _⟩ => exact dotA1_lhs_0 _ _
    | ⟨1, _⟩ => exact (dotA1_lhs_1 _ _).trans (contrEquiv1_symm_val _ 2048 rfl rfl k)
  have hr : dot_S1024x2048_S2048x512_S1024x512_1_0_0_1_n_n.rhsIdx (ix2 r d) ((contrEquiv1 dot_S1024x2048_S2048x512_S1024x512_1_0_0_1_n_n 2048 rfl rfl).symm k) = ix2 k d := by
    funext ax; apply Fin.ext
    match ax with
    | ⟨0, _⟩ => exact (dotA1_rhs_0 _ _).trans (contrEquiv1_symm_val _ 2048 rfl rfl k)
    | ⟨1, _⟩ => exact dotA1_rhs_1 _ _
  rw [hl, hr]

theorem dotB1_lhs_0 (j : S1024x256.Idx) (k : dot_S1024x512_S512x256_S1024x256_1_0_0_1_n_n.contr.Idx) :
    ((dot_S1024x512_S512x256_S1024x256_1_0_0_1_n_n.lhsIdx j k) (0 : Fin 2)).val = (j (0 : Fin 2)).val := by
  unfold DotDims.lhsIdx
  rw [dif_neg (show ¬(0 : Fin S1024x512.rank) ∈ dot_S1024x512_S512x256_S1024x256_1_0_0_1_n_n.lhsBatch by decide),
    dif_pos (show (0 : Fin S1024x512.rank) ∈ dot_S1024x512_S512x256_S1024x256_1_0_0_1_n_n.lhsNonContracting by decide)]
  rfl

theorem dotB1_lhs_1 (j : S1024x256.Idx) (k : dot_S1024x512_S512x256_S1024x256_1_0_0_1_n_n.contr.Idx) :
    ((dot_S1024x512_S512x256_S1024x256_1_0_0_1_n_n.lhsIdx j k) (1 : Fin 2)).val = (k ⟨0, by decide⟩).val :=
  DotDims.lhsIdx_val_of_single _ (cl := (1 : Fin S1024x512.rank)) rfl j k

theorem dotB1_rhs_0 (j : S1024x256.Idx) (k : dot_S1024x512_S512x256_S1024x256_1_0_0_1_n_n.contr.Idx) :
    ((dot_S1024x512_S512x256_S1024x256_1_0_0_1_n_n.rhsIdx j k) (0 : Fin 2)).val = (k ⟨0, by decide⟩).val :=
  DotDims.rhsIdx_val_of_single _ (cr := (0 : Fin S512x256.rank)) rfl j k

theorem dotB1_rhs_1 (j : S1024x256.Idx) (k : dot_S1024x512_S512x256_S1024x256_1_0_0_1_n_n.contr.Idx) :
    ((dot_S1024x512_S512x256_S1024x256_1_0_0_1_n_n.rhsIdx j k) (1 : Fin 2)).val = (j (1 : Fin 2)).val := by
  unfold DotDims.rhsIdx
  rw [dif_neg (show ¬(1 : Fin S512x256.rank) ∈ dot_S1024x512_S512x256_S1024x256_1_0_0_1_n_n.rhsBatch by decide),
    dif_pos (show (1 : Fin S512x256.rank) ∈ dot_S1024x512_S512x256_S1024x256_1_0_0_1_n_n.rhsNonContracting by decide)]
  rfl

/-- A 1024 by 512 block against a 512 by 256 weight, into the zero splat, at (r, o). -/
theorem matmulB1_apply (a : FVec Ideal S1024x512 .f32) (w : FVec Ideal S512x256 .f32) (r : Fin 1024) (o : Fin 256) :
    matmul dot_S1024x512_S512x256_S1024x256_1_0_0_1_n_n none a w (constant (F := Ideal) S1024x256 .f32 0x00000000#32) (ix2 r o)
      = ∑ k : Fin 512, a (ix2 r k) * w (ix2 k o) := by
  simp only [matmul]
  rw [Ideal.matmul_constant_zero_apply]
  rw [← Equiv.sum_comp (contrEquiv1 dot_S1024x512_S512x256_S1024x256_1_0_0_1_n_n 512 rfl rfl).symm]
  refine Finset.sum_congr rfl fun k _ => ?_
  have hl : dot_S1024x512_S512x256_S1024x256_1_0_0_1_n_n.lhsIdx (ix2 r o) ((contrEquiv1 dot_S1024x512_S512x256_S1024x256_1_0_0_1_n_n 512 rfl rfl).symm k) = ix2 r k := by
    funext ax; apply Fin.ext
    match ax with
    | ⟨0, _⟩ => exact dotB1_lhs_0 _ _
    | ⟨1, _⟩ => exact (dotB1_lhs_1 _ _).trans (contrEquiv1_symm_val _ 512 rfl rfl k)
  have hr : dot_S1024x512_S512x256_S1024x256_1_0_0_1_n_n.rhsIdx (ix2 r o) ((contrEquiv1 dot_S1024x512_S512x256_S1024x256_1_0_0_1_n_n 512 rfl rfl).symm k) = ix2 k o := by
    funext ax; apply Fin.ext
    match ax with
    | ⟨0, _⟩ => exact (dotB1_rhs_0 _ _).trans (contrEquiv1_symm_val _ 512 rfl rfl k)
    | ⟨1, _⟩ => exact dotB1_rhs_1 _ _
  rw [hl, hr]

/-! ## Broadcasts, casts and the row sum, read at an index -/

/-- A column broadcast along 512 lanes reads, at (r, d), the column at r. -/
theorem bcolS1_apply {α : Type} (v : S1024x1.Idx → α) (r : Fin 1024) (d : Fin 512) :
    broadcastTo S1024x512 v broadcasts_S1024x1_S1024x512 (ix2 r d) = v (ix2 r (0 : Fin 1)) :=
  broadcastTo_apply _ _ (ix2 r d) (ix2 r (0 : Fin 1)) (fun ax => by
    match ax with
    | ⟨0, _⟩ => rfl
    | ⟨1, _⟩ => rfl)

/-- A column broadcast along 256 lanes reads, at (r, o), the column at r. -/
theorem bcolO1_apply {α : Type} (v : S1024x1.Idx → α) (r : Fin 1024) (o : Fin 256) :
    broadcastTo S1024x256 v broadcasts_S1024x1_S1024x256 (ix2 r o) = v (ix2 r (0 : Fin 1)) :=
  broadcastTo_apply _ _ (ix2 r o) (ix2 r (0 : Fin 1)) (fun ax => by
    match ax with
    | ⟨0, _⟩ => rfl
    | ⟨1, _⟩ => rfl)

/-- A length-1024 vector cast to a column reads, at (r, 0), the vector at r. -/
theorem colcast1_apply {α : Type} (v : S1024.Idx → α) (r : Fin 1024) :
    shapeCast S1024x1 v shapeCasts_S1024_S1024x1 (ix2 r (0 : Fin 1)) = v (ix1 r) :=
  shapeCast_apply v _ _ _ (by
    rw [Shape.rowMajor_val_two, Shape.rowMajor_val_one]
    show r.val = r.val * 1 + 0
    omega)

theorem liftO1 (r : Fin 1024) (k : Fin 256) :
    reduces_S1024x256_S1024.lift (ix1 r) (k : Fin (S1024x256.size (1 : Fin 2))) = ix2 r k := by
  funext ax; apply Fin.ext
  match ax with
  | ⟨0, h0⟩ =>
    show Shape.Reduces.liftVal reduces_S1024x256_S1024 (ix1 r) k.val ⟨0, h0⟩ = r.val
    unfold Shape.Reduces.liftVal
    rw [dif_neg (by show ¬((0 : ℕ) = 1); omega), dif_pos (by show (0 : ℕ) < 1; omega)]
  | ⟨1, h1⟩ =>
    show Shape.Reduces.liftVal reduces_S1024x256_S1024 (ix1 r) k.val ⟨1, h1⟩ = k.val
    unfold Shape.Reduces.liftVal
    rw [dif_pos (by show (1 : ℕ) = 1; rfl)]

/-- The lane sum at row r: the sum over the row's 256 lanes. -/
theorem sumO1_apply (v : FVec Ideal S1024x256 .f32) (hφ : FTy.f32 = FTy.f32 ∨ FTy.f32 = FTy.bf16)
    (hacc : (0#32 : BitVec 32) = 0#32) (r : Fin 1024) :
    multiReduction .add [(1 : Fin S1024x256.rank)] S1024 v (0#32) reduces_S1024x256_S1024 hφ hacc (ix1 r)
      = ∑ k : Fin 256, v (ix2 r k) :=
  (Ideal.multiReduction_add_single v (0#32) reduces_S1024x256_S1024 hφ hacc (ix1 r)).trans
    (Finset.sum_congr rfl fun k _ => congrArg v (liftO1 r k))

theorem sqrt1_apply {s : Shape} (a : FVec Ideal s .f32) (x : s.Idx) : sqrt a x = Ideal.sqrt (a x) := rfl

/-! ## The accumulator's step and the zero block -/

/-- The zero block the first contraction step starts from. -/
theorem pay1_1_apply (y : S1024x512.Idx) : k1_pay1 (F := Ideal) y = 0 := by
  unfold k1_pay1
  simp only [shapeCast_self]
  show Ideal.ofBits .f32 0x00000000#32 = 0
  exact Ideal.ofBits_zero_f32

/-- One contraction step at (r, d): what the accumulator held plus the tile's row against the feature rows' column. -/
theorem pay2_1_apply (x0 : FVec Ideal S1024x2048 .bf16) (hk : FVec Ideal S2048x512 .f32) (s : FVec Ideal S1024x512 .f32)
    (r : Fin 1024) (d : Fin 512) :
    k1_pay2 (F := Ideal) x0 hk s (ix2 r d) = s (ix2 r d) + ∑ k : Fin 2048, x0 (ix2 r k) * hk (ix2 k d) := by
  unfold k1_pay2
  simp only [shapeCast_self]
  rw [addf_apply, matmulA1_apply]
  rfl

/-! ## The finalized block, index by index -/

section Fin1
variable (deg : FVec Ideal S1024x1 .f32) (s hs : FVec Ideal S1024x512 .f32) (wl wr : FVec Ideal S512x256 .f32)
  (b g be : FVec Ideal S1x256 .f32)

/-- The affine map at local row r and lane o: the mean (the finished sum over the degree) against the left weight, the
    row itself against the right weight, and the bias. -/
def F1pre (r : Fin 1024) (o : Fin 256) : EReal :=
  (∑ d : Fin 512, Ideal.div (s (ix2 r d)) (deg (ix2 r (0 : Fin 1))) * wl (ix2 d o))
    + (∑ d : Fin 512, hs (ix2 r d) * wr (ix2 d o)) + b (ix2 (0 : Fin 1) o)

/-- The rectified affine map of local row r, as a row of 256. -/
def F1row (r : Fin 1024) : Fin 256 → EReal := fun o => Sage.relu (F1pre deg s hs wl wr b r o)

/-! ### The same values as the body builds them, as vectors -/

/-- The rectified affine map. -/
def P1v : FVec Ideal S1024x256 .f32 :=
  maximumf
    (addf
      (addf
        (matmul dot_S1024x512_S512x256_S1024x256_1_0_0_1_n_n none (divf s (broadcastTo S1024x512 deg broadcasts_S1024x1_S1024x512)) wl
          (constant (F := Ideal) S1024x256 .f32 0x00000000#32))
        (matmul dot_S1024x512_S512x256_S1024x256_1_0_0_1_n_n none hs wr (constant (F := Ideal) S1024x256 .f32 0x00000000#32)))
      (broadcastTo S1024x256 b broadcasts_S1x256_S1024x256))
    (broadcast S1024x256 (Scalar.ofBits (F := Ideal) .f32 0x00000000#32))
/-- The rows' means. -/
def Mn1v : FVec Ideal S1024x1 .f32 :=
  divf
    (shapeCast S1024x1
      (multiReduction .add [1] S1024 (P1v deg s hs wl wr b) 0x00000000#32 reduces_S1024x256_S1024 (.inl rfl) rfl)
      shapeCasts_S1024_S1024x1)
    (broadcast S1024x1 (Scalar.ofBits (F := Ideal) .f32 0x43800000#32))
/-- The deviations from the rows' means. -/
def D1v : FVec Ideal S1024x256 .f32 :=
  subf (P1v deg s hs wl wr b) (broadcastTo S1024x256 (Mn1v deg s hs wl wr b) broadcasts_S1024x1_S1024x256)
/-- The rows' variances. -/
def Vr1v : FVec Ideal S1024x1 .f32 :=
  divf
    (shapeCast S1024x1
      (multiReduction .add [1] S1024 (mulf (D1v deg s hs wl wr b) (D1v deg s hs wl wr b)) 0x00000000#32
        reduces_S1024x256_S1024 (.inl rfl) rfl)
      shapeCasts_S1024_S1024x1)
    (broadcast S1024x1 (Scalar.ofBits (F := Ideal) .f32 0x43800000#32))

set_option maxHeartbeats 1000000 in
/-- The normalised block is the deviations over the root of the variances plus the small constant (the payload's
    same-shape casts dropped). -/
theorem pay4_1_eq :
    k1_pay4 (F := Ideal) deg s hs wl wr b
      = divf (D1v deg s hs wl wr b)
          (broadcastTo S1024x256
            (sqrt (addf (Vr1v deg s hs wl wr b) (broadcast S1024x1 (Scalar.ofBits (F := Ideal) .f32 0x3727C5AC#32))))
            broadcasts_S1024x1_S1024x256) := by
  unfold k1_pay4 Vr1v D1v Mn1v P1v
  simp only [shapeCast_self]

theorem P1v_apply (r : Fin 1024) (o : Fin 256) : P1v deg s hs wl wr b (ix2 r o) = F1row deg s hs wl wr b r o := by
  unfold P1v F1row Sage.relu F1pre
  rw [maximumf_apply, addf_apply, addf_apply, matmulB1_apply, matmulB1_apply, broadcastTo_1b_ab_apply, broadcast_apply]
  simp only [divf_apply, bcolS1_apply]
  show max _ (Ideal.ofBits .f32 0x00000000#32) = max _ 0
  rw [Ideal.ofBits_zero_f32]

theorem Mn1v_apply (r : Fin 1024) :
    Mn1v deg s hs wl wr b (ix2 r (0 : Fin 1)) = Sage.LNmean (F1row deg s hs wl wr b r) := by
  unfold Mn1v Sage.LNmean
  rw [divf_apply, colcast1_apply, sumO1_apply, broadcast_apply]
  simp only [P1v_apply]
  rfl

theorem D1v_apply (r : Fin 1024) (o : Fin 256) :
    D1v deg s hs wl wr b (ix2 r o) = F1row deg s hs wl wr b r o - Sage.LNmean (F1row deg s hs wl wr b r) := by
  unfold D1v
  rw [subf_apply, bcolO1_apply, P1v_apply, Mn1v_apply]

theorem Vr1v_apply (r : Fin 1024) :
    Vr1v deg s hs wl wr b (ix2 r (0 : Fin 1)) = Sage.LNvar (F1row deg s hs wl wr b r) := by
  unfold Vr1v Sage.LNvar
  rw [divf_apply, colcast1_apply, sumO1_apply, broadcast_apply]
  simp only [mulf_apply, D1v_apply]
  rfl

/-- THE FINALIZED BLOCK AT (r, o): the layer norm of the rectified affine row, at lane o. -/
theorem fin1_pay_apply (r : Fin 1024) (o : Fin 256) :
    k1_pay3 (F := Ideal) (k1_pay4 (F := Ideal) deg s hs wl wr b) g be (ix2 r o)
      = Sage.LN (F1row deg s hs wl wr b r) g be o := by
  unfold k1_pay3 Sage.LN
  simp only [shapeCast_self]
  rw [addf_apply, mulf_apply, broadcastTo_1b_ab_apply, broadcastTo_1b_ab_apply, pay4_1_eq, divf_apply, bcolO1_apply,
    sqrt1_apply, addf_apply, broadcast_apply, D1v_apply, Vr1v_apply]
  rfl

end Fin1

/-! ## The grid's points and the windows' block indices -/

/-- A point's coordinates: the row block and the contraction block. -/
theorem coords1_val : ∀ t : Fin cfg1.N, (grid1.coords t 0).val = t.val / 4 ∧ (grid1.coords t 1).val = t.val % 4 :=
  (by decide +kernel : ∀ t : Fin grid1.N, (grid1.coords t 0).val = t.val / 4 ∧ (grid1.coords t 1).val = t.val % 4)

/-- The count tile's block index is the point's coordinates; -/
theorem widx1_0 : ∀ t : Fin cfg1.N, win1_0.index t 0 = t.val / 4 ∧ win1_0.index t 1 = t.val % 4 :=
  (by decide +kernel : ∀ t : Fin grid1.N, win1_0.index t 0 = t.val / 4 ∧ win1_0.index t 1 = t.val % 4)
/-- the output block's is the row block; -/
theorem widx1_8 : ∀ t : Fin cfg1.N, win1_8.index t 0 = t.val / 4 ∧ win1_8.index t 1 = 0 :=
  (by decide +kernel : ∀ t : Fin grid1.N, win1_8.index t 0 = t.val / 4 ∧ win1_8.index t 1 = 0)
/-- a resident operand's never moves. -/
theorem widx1_1 : ∀ t : Fin cfg1.N, ∀ a, win1_1.index t a = 0 := (by decide +kernel : ∀ t : Fin grid1.N, ∀ a, win1_1.index t a = 0)
theorem widx1_2 : ∀ t : Fin cfg1.N, ∀ a, win1_2.index t a = 0 := (by decide +kernel : ∀ t : Fin grid1.N, ∀ a, win1_2.index t a = 0)
theorem widx1_3 : ∀ t : Fin cfg1.N, ∀ a, win1_3.index t a = 0 := (by decide +kernel : ∀ t : Fin grid1.N, ∀ a, win1_3.index t a = 0)
theorem widx1_4 : ∀ t : Fin cfg1.N, ∀ a, win1_4.index t a = 0 := (by decide +kernel : ∀ t : Fin grid1.N, ∀ a, win1_4.index t a = 0)
theorem widx1_5 : ∀ t : Fin cfg1.N, ∀ a, win1_5.index t a = 0 := (by decide +kernel : ∀ t : Fin grid1.N, ∀ a, win1_5.index t a = 0)
theorem widx1_6 : ∀ t : Fin cfg1.N, ∀ a, win1_6.index t a = 0 := (by decide +kernel : ∀ t : Fin grid1.N, ∀ a, win1_6.index t a = 0)
theorem widx1_7 : ∀ t : Fin cfg1.N, ∀ a, win1_7.index t a = 0 := (by decide +kernel : ∀ t : Fin grid1.N, ∀ a, win1_7.index t a = 0)

/-- The body's row offsets: 2048 times the contraction block for the feature rows of a step, 1024 times the row block for
    the degrees and the rows themselves. -/
theorem koff1_1 : ∀ t : Fin cfg1.N, k1_off1 (grid1.coords t) 0 = 2048 * (t.val % 4) ∧ k1_off1 (grid1.coords t) 1 = 0 :=
  (by decide +kernel : ∀ t : Fin grid1.N, k1_off1 (grid1.coords t) 0 = 2048 * (t.val % 4) ∧ k1_off1 (grid1.coords t) 1 = 0)
theorem koff1_2 : ∀ t : Fin cfg1.N, k1_off2 (grid1.coords t) 0 = 1024 * (t.val / 4) ∧ k1_off2 (grid1.coords t) 1 = 0 :=
  (by decide +kernel : ∀ t : Fin grid1.N, k1_off2 (grid1.coords t) 0 = 1024 * (t.val / 4) ∧ k1_off2 (grid1.coords t) 1 = 0)
theorem koff1_3 : ∀ t : Fin cfg1.N, k1_off3 (grid1.coords t) 0 = 1024 * (t.val / 4) ∧ k1_off3 (grid1.coords t) 1 = 0 :=
  (by decide +kernel : ∀ t : Fin grid1.N, k1_off3 (grid1.coords t) 0 = 1024 * (t.val / 4) ∧ k1_off3 (grid1.coords t) 1 = 0)

section Region1Value

variable (V : (c : Dev nD) → (b : Ref sig .tc) → Buf (Elt Ideal) ((c : Thread nD τ).loc b))

/-! ## The windows' blocks, read at an index -/

/-- The count tile at point t, at (r, k): the count matrix at row 1024 (t / 4) + r, column 2048 (t % 4) + k. -/
theorem iblk1_0_apply (c : Dev nD) (t : Fin cfg1.N) (r : Fin 1024) (k : Fin 2048)
    (z : S8192x8192.Idx) (h0 : (z 0).val = 1024 * (t.val / 4) + r.val) (h1 : (z 1).val = 2048 * (t.val % 4) + k.val) :
    (iblk1 V c 0 t : Vec Ideal S1024x2048 .bf16) (ix2 r k) = V c main_v32 z := by
  unfold iblk1
  rw [View.read_apply]
  show V c main_v32 _ = V c main_v32 z
  congr 1
  funext a
  apply Fin.ext
  match a with
  | ⟨0, _⟩ =>
    show win1_0.index t 0 * 1024 + 1 * r.val = (z 0).val
    rw [(widx1_0 t).1, h0]; omega
  | ⟨1, _⟩ =>
    show win1_0.index t 1 * 2048 + 1 * k.val = (z 1).val
    rw [(widx1_0 t).2, h1]; omega

/-- A resident operand's block is its whole array, at every point. -/
theorem iblk1_1_eq (c : Dev nD) (t : Fin cfg1.N) : (iblk1 V c 1 t : Vec Ideal S8192x512 .f32) = V c main_v58 := by
  have hz : (fun a => win1_1.index t a * main_v58.ty.shape.size a) = fun _ => 0 := funext fun a => by rw [widx1_1 t a]; exact Nat.zero_mul _
  exact Memref.read_access_unit_zero (Elt Ideal) main_v58 hz (fun a => by rw [congrFun hz a]; simp) (V c main_v58)
theorem iblk1_2_eq (c : Dev nD) (t : Fin cfg1.N) : (iblk1 V c 2 t : Vec Ideal S8192x1 .f32) = V c main_v15 := by
  have hz : (fun a => win1_2.index t a * main_v15.ty.shape.size a) = fun _ => 0 := funext fun a => by rw [widx1_2 t a]; exact Nat.zero_mul _
  exact Memref.read_access_unit_zero (Elt Ideal) main_v15 hz (fun a => by rw [congrFun hz a]; simp) (V c main_v15)
theorem iblk1_3_eq (c : Dev nD) (t : Fin cfg1.N) : (iblk1 V c 3 t : Vec Ideal S512x256 .f32) = V c main_v59 := by
  have hz : (fun a => win1_3.index t a * main_v59.ty.shape.size a) = fun _ => 0 := funext fun a => by rw [widx1_3 t a]; exact Nat.zero_mul _
  exact Memref.read_access_unit_zero (Elt Ideal) main_v59 hz (fun a => by rw [congrFun hz a]; simp) (V c main_v59)
theorem iblk1_4_eq (c : Dev nD) (t : Fin cfg1.N) : (iblk1 V c 4 t : Vec Ideal S512x256 .f32) = V c main_v60 := by
  have hz : (fun a => win1_4.index t a * main_v60.ty.shape.size a) = fun _ => 0 := funext fun a => by rw [widx1_4 t a]; exact Nat.zero_mul _
  exact Memref.read_access_unit_zero (Elt Ideal) main_v60 hz (fun a => by rw [congrFun hz a]; simp) (V c main_v60)
theorem iblk1_5_eq (c : Dev nD) (t : Fin cfg1.N) : (iblk1 V c 5 t : Vec Ideal S1x256 .f32) = V c main_v61 := by
  have hz : (fun a => win1_5.index t a * main_v61.ty.shape.size a) = fun _ => 0 := funext fun a => by rw [widx1_5 t a]; exact Nat.zero_mul _
  exact Memref.read_access_unit_zero (Elt Ideal) main_v61 hz (fun a => by rw [congrFun hz a]; simp) (V c main_v61)
theorem iblk1_6_eq (c : Dev nD) (t : Fin cfg1.N) : (iblk1 V c 6 t : Vec Ideal S1x256 .f32) = V c main_v62 := by
  have hz : (fun a => win1_6.index t a * main_v62.ty.shape.size a) = fun _ => 0 := funext fun a => by rw [widx1_6 t a]; exact Nat.zero_mul _
  exact Memref.read_access_unit_zero (Elt Ideal) main_v62 hz (fun a => by rw [congrFun hz a]; simp) (V c main_v62)
theorem iblk1_7_eq (c : Dev nD) (t : Fin cfg1.N) : (iblk1 V c 7 t : Vec Ideal S1x256 .f32) = V c main_v63 := by
  have hz : (fun a => win1_7.index t a * main_v63.ty.shape.size a) = fun _ => 0 := funext fun a => by rw [widx1_7 t a]; exact Nat.zero_mul _
  exact Memref.read_access_unit_zero (Elt Ideal) main_v63 hz (fun a => by rw [congrFun hz a]; simp) (V c main_v63)

end Region1Value

/-! ## Loads through the body's rectangles, read at an index -/

/-- The feature rows of a contraction step: row k of the step is row 2048 (t % 4) + k of the array. -/
theorem ldH1_apply (X : Vec Ideal S8192x512 .f32) (t : Fin cfg1.N) (k : Fin 2048) (d : Fin 512) (zk : Fin 8192)
    (hzk : zk.val = 2048 * (t.val % 4) + k.val) :
    View.ld X (rH1 (grid1.coords t)) (ix2 k d) = X (ix2 zk d) := by
  show X ((rH1 (grid1.coords t)).idx (ix2 k d)) = X (ix2 zk d)
  congr 1
  funext a
  apply Fin.ext
  match a with
  | ⟨0, _⟩ =>
    show k1_off1 (grid1.coords t) 0 + 1 * k.val = zk.val
    rw [(koff1_1 t).1, hzk]; omega
  | ⟨1, _⟩ =>
    show k1_off1 (grid1.coords t) 1 + 1 * d.val = d.val
    rw [(koff1_1 t).2]; omega

/-- The degrees of a row block: row r of the block is row 1024 (t / 4) + r of the array. -/
theorem ldD1_apply (X : Vec Ideal S8192x1 .f32) (t : Fin cfg1.N) (r : Fin 1024) (zi : Fin 8192)
    (hzi : zi.val = 1024 * (t.val / 4) + r.val) :
    View.ld X (rD1 (grid1.coords t)) (ix2 r (0 : Fin 1)) = X (ix2 zi (0 : Fin 1)) := by
  show X ((rD1 (grid1.coords t)).idx (ix2 r (0 : Fin 1))) = X (ix2 zi (0 : Fin 1))
  congr 1
  funext a
  apply Fin.ext
  match a with
  | ⟨0, _⟩ =>
    show k1_off2 (grid1.coords t) 0 + 1 * r.val = zi.val
    rw [(koff1_2 t).1, hzi]; omega
  | ⟨1, _⟩ =>
    show k1_off2 (grid1.coords t) 1 + 1 * 0 = 0
    rw [(koff1_2 t).2]

/-- The feature rows of a row block likewise. -/
theorem ldX1_apply (X : Vec Ideal S8192x512 .f32) (t : Fin cfg1.N) (r : Fin 1024) (d : Fin 512) (zi : Fin 8192)
    (hzi : zi.val = 1024 * (t.val / 4) + r.val) :
    View.ld X (rX1 (grid1.coords t)) (ix2 r d) = X (ix2 zi d) := by
  show X ((rX1 (grid1.coords t)).idx (ix2 r d)) = X (ix2 zi d)
  congr 1
  funext a
  apply Fin.ext
  match a with
  | ⟨0, _⟩ =>
    show k1_off3 (grid1.coords t) 0 + 1 * r.val = zi.val
    rw [(koff1_3 t).1, hzi]; omega
  | ⟨1, _⟩ =>
    show k1_off3 (grid1.coords t) 1 + 1 * d.val = d.val
    rw [(koff1_3 t).2]; omega

/-! ## The accumulator after a row block's contraction steps: one sum over the whole contraction axis -/

/-- One contraction step at (r, d), over the closed form of the proof data. -/
theorem acc1_apply (i : grid1.Coords) (x0 : Vec Ideal S1024x2048 .bf16) (x1 : Vec Ideal S8192x512 .f32)
    (s : Vec Ideal S1024x512 .f32) (r : Fin 1024) (d : Fin 512) :
    acc1 (F := Ideal) i x0 x1 s (ix2 r d) = s (ix2 r d) + ∑ k : Fin 2048, x0 (ix2 r k) * View.ld x1 (rH1 i) (ix2 k d) := by
  unfold acc1
  exact pay2_1_apply x0 (View.ld x1 (rH1 i)) s r d

section Region1Fold

variable (V : (c : Dev nD) → (b : Ref sig .tc) → Buf (Elt Ideal) ((c : Thread nD τ).loc b))

/-- The arrays the region reads, each at its literal shape, where its entries are extended reals. -/
abbrev A1 (c : Dev nD) : Vec Ideal S8192x8192 .bf16 := V c main_v32
abbrev H1 (c : Dev nD) : Vec Ideal S8192x512 .f32 := V c main_v58
abbrev Dg1 (c : Dev nD) : Vec Ideal S8192x1 .f32 := V c main_v15
abbrev Wl1 (c : Dev nD) : Vec Ideal S512x256 .f32 := V c main_v59
abbrev Wr1 (c : Dev nD) : Vec Ideal S512x256 .f32 := V c main_v60
abbrev Bi1 (c : Dev nD) : Vec Ideal S1x256 .f32 := V c main_v61
abbrev Ga1 (c : Dev nD) : Vec Ideal S1x256 .f32 := V c main_v62
abbrev Be1 (c : Dev nD) : Vec Ideal S1x256 .f32 := V c main_v63
/-- The count tile and the feature matrix as point t's windows hold them, at their literal shapes. -/
abbrev tile1 (c : Dev nD) (t : Fin cfg1.N) : Vec Ideal S1024x2048 .bf16 := iblk1 V c 0 t
abbrev feat1 (c : Dev nD) (t : Fin cfg1.N) : Vec Ideal S8192x512 .f32 := iblk1 V c 1 t

/-- Point n's addend: its count tile against its feature rows (zero past the grid, where it is never used). -/
def M1 (c : Dev nD) (n : ℕ) (y : S1024x512.Idx) : EReal :=
  if h : n < cfg1.N then
    ∑ k : Fin 2048, tile1 V c ⟨n, h⟩ (ix2 (y 0) k) * View.ld (feat1 V c ⟨n, h⟩) (rH1 (grid1.coords ⟨n, h⟩)) (ix2 k (y 1))
  else 0

/-- The accumulator after point t is the sum of the addends of its row block's points up to t: the recursion on the
    point turned into the run's fold, the fold unrolled at an index. -/
theorem sAt1_sum (c : Dev nD) (t : Fin cfg1.N) (y : S1024x512.Idx) :
    sAt1 V c t.val t.isLt y = 0 + ∑ s ∈ Finset.range (t.val % 4 + 1), M1 V c (4 * (t.val / 4) + s) y := by
  have hN : cfg1.N = 32 := N_1
  have h' : 4 * (t.val / 4) + t.val % 4 < cfg1.N := by have := t.isLt; omega
  rw [Pipeline.eq_accAt_of_mod (α := Vec Ideal S1024x512 .f32) (sAt1 V c) 4
      (fun n h => acc1 (F := Ideal) (grid1.coords ⟨n, h⟩) (tile1 V c ⟨n, h⟩) (feat1 V c ⟨n, h⟩) (k1_pay1 (F := Ideal)))
      (fun n h s => acc1 (F := Ideal) (grid1.coords ⟨n, h⟩) (tile1 V c ⟨n, h⟩) (feat1 V c ⟨n, h⟩) s)
      (fun n h e => sAt1_first V c ⟨n, h⟩ e)
      (fun n h e => sAt1_next V c ⟨n + 1, h⟩ e)
      (by decide) t.val t.isLt h']
  refine Pipeline.accAt_add_apply _ _ (fun _ => 0) (M1 V c) (4 * (t.val / 4)) 3 ?_ ?_ (t.val % 4) (by omega) h' y
  · intro h y
    obtain ⟨r, d, rfl⟩ : ∃ r d, y = ix2 r d := ⟨y 0, y 1, eq_ix2 y⟩
    unfold M1
    rw [dif_pos h, acc1_apply, pay1_1_apply]
  · intro n h acc y _ _
    obtain ⟨r, d, rfl⟩ : ∃ r d, y = ix2 r d := ⟨y 0, y 1, eq_ix2 y⟩
    unfold M1
    rw [dif_pos h, acc1_apply]

/-- A sum over 8192 columns is the sum over four blocks of 2048. -/
theorem sum_blocks4_1 (f : Fin 8192 → EReal) :
    ∑ j : Fin 8192, f j
      = ∑ s ∈ Finset.range 4, ∑ k : Fin 2048, (if h : 2048 * s + k.val < 8192 then f ⟨2048 * s + k.val, h⟩ else 0) := by
  rw [Finset.sum_range]
  have e := Equiv.sum_comp (finProdFinEquiv (m := 4) (n := 2048)) (fun j : Fin (4 * 2048) => f j)
  rw [Fintype.sum_prod_type] at e
  rw [show (∑ j : Fin 8192, f j) = ∑ j : Fin (4 * 2048), f j from rfl, ← e]
  refine Finset.sum_congr rfl fun s _ => Finset.sum_congr rfl fun k _ => ?_
  have hlt : 2048 * s.val + k.val < 8192 := by have := s.isLt; have := k.isLt; omega
  rw [dif_pos hlt]
  congr 1
  apply Fin.ext
  show k.val + 2048 * s.val = 2048 * s.val + k.val
  omega

/-- THE FINISHED SUM. After the last contraction step of row block t / 4, the accumulator at (r, d) is row
    1024 (t / 4) + r of the count matrix against column d of the whole feature matrix. -/
theorem sAt1_last (c : Dev nD) (t : Fin cfg1.N) (h3 : t.val % 4 = 3) (r : Fin 1024) (d : Fin 512) (zi : Fin 8192)
    (hzi : zi.val = 1024 * (t.val / 4) + r.val) :
    sAt1 V c t.val t.isLt (ix2 r d) = ∑ j : Fin 8192, A1 V c (ix2 zi j) * H1 V c (ix2 j d) := by
  have hN : cfg1.N = 32 := N_1
  have ht := t.isLt
  rw [sAt1_sum, zero_add, h3, sum_blocks4_1]
  refine Finset.sum_congr rfl fun s hs => ?_
  have hs4 : s < 4 := Finset.mem_range.mp hs
  have hn : 4 * (t.val / 4) + s < cfg1.N := by omega
  unfold M1
  rw [dif_pos hn]
  dsimp only [tile1, feat1]
  refine Finset.sum_congr rfl fun k _ => ?_
  have hlt : 2048 * s + k.val < 8192 := by have := k.isLt; omega
  rw [dif_pos hlt]
  rw [iblk1_0_apply V c ⟨4 * (t.val / 4) + s, hn⟩ r k (ix2 zi ⟨2048 * s + k.val, hlt⟩)
      (by show zi.val = 1024 * ((4 * (t.val / 4) + s) / 4) + r.val; rw [hzi]; omega)
      (by show 2048 * s + k.val = 2048 * ((4 * (t.val / 4) + s) % 4) + k.val; omega),
    iblk1_1_eq V c ⟨4 * (t.val / 4) + s, hn⟩,
    ldH1_apply (V c main_v58) ⟨4 * (t.val / 4) + s, hn⟩ k d ⟨2048 * s + k.val, hlt⟩
      (by show 2048 * s + k.val = 2048 * ((4 * (t.val / 4) + s) % 4) + k.val; omega)]

end Region1Fold

/-! ## The result array -/

section Region1Final

variable (V : (c : Dev nD) → (b : Ref sig .tc) → Buf (Elt Ideal) ((c : Thread nD τ).loc b))

/-- The neighbourhood mean the region computes: row i of the count matrix it reads against column d of the feature
    matrix, over the degree it reads. -/
def agg1 (c : Dev nD) (i : Fin 8192) (d : Fin 512) : EReal :=
  Ideal.div (∑ j : Fin 8192, A1 V c (ix2 i j) * H1 V c (ix2 j d)) (Dg1 V c (ix2 i (0 : Fin 1)))

/-- The layer over the arrays the region reads: the affine map of that mean, rectified and row-normalised. -/
def G1 (c : Dev nD) : Buf (Elt Ideal) ((c : Thread nD τ).loc main_v64) :=
  fun x => Sage.post true (Sage.linK (D := 512) (agg1 V c) (H1 V c) (Wl1 V c) (Wr1 V c) (Bi1 V c))
    (Ga1 V c) (Be1 V c) (x 0) (x 1)

/-- The output window's block at a point has the block's own extents. -/
theorem xsize1_8 : ∀ t : Fin cfg1.N, win1_8.xsize (grid1.coords t) 0 = 1024 ∧ win1_8.xsize (grid1.coords t) 1 = 256 :=
  (by decide +kernel : ∀ t : Fin grid1.N, win1_8.xsize (grid1.coords t) 0 = 1024 ∧ win1_8.xsize (grid1.coords t) 1 = 256)

/-- The layer's array read through the output block of point t, at (r, o): its row 1024 (t / 4) + r, lane o. -/
theorem G1_blk_apply (c : Dev nD) (t : Fin cfg1.N) (r : Fin 1024) (o : Fin 256) (zi : Fin 8192)
    (hzi : zi.val = 1024 * (t.val / 4) + r.val) :
    ((cfg1.win 8).blk t).view.read (Elt Ideal) (G1 V c) (ix2 r o)
      = Sage.post true (Sage.linK (D := 512) (agg1 V c) (H1 V c) (Wl1 V c) (Wr1 V c) (Bi1 V c))
          (Ga1 V c) (Be1 V c) zi o := by
  rw [View.read_apply]
  show G1 V c _ = _
  unfold G1
  congr 1
  · apply Fin.ext
    show win1_8.index t 0 * 1024 + 1 * r.val = zi.val
    rw [(widx1_8 t).1, hzi]; omega
  · apply Fin.ext
    show win1_8.index t 1 * 256 + 1 * o.val = o.val
    rw [(widx1_8 t).2]; omega

/-- WHAT A FLUSHING POINT WRITES BACK IS ITS BLOCK OF THE LAYER'S ARRAY. -/
theorem flushed1_8 (c : Dev nD) (t : Fin cfg1.N) (hf : (cfg1.win 8).flush t = true) :
    (dat1 V c).flushed 8 t = ((cfg1.win 8).blk t).view.read (Elt Ideal) (G1 V c) := by
  have hN : cfg1.N = 32 := N_1
  have ht := t.isLt
  have h3 : t.val % 4 = 3 := (flush1_8 t).mp hf
  show (cfg1.win 8).cut (grid1.coords t) ((dat1 V c).after 8 t) = _
  rw [after1_8]
  funext y
  obtain ⟨r, o, rfl⟩ : ∃ r o, y = ix2 r o := ⟨y 0, y 1, eq_ix2 y⟩
  have hlt : 1024 * (t.val / 4) + r.val < 8192 := by have := r.isLt; omega
  rw [G1_blk_apply V c t r o ⟨1024 * (t.val / 4) + r.val, hlt⟩ rfl]
  show fin1 (grid1.coords t) (iblk1 V c 1 t) (iblk1 V c 2 t) (iblk1 V c 3 t) (iblk1 V c 4 t) (iblk1 V c 5 t)
      (iblk1 V c 6 t) (iblk1 V c 7 t) (sAt1 V c t.val t.isLt) (ix2 r o) = _
  unfold fin1
  rw [iblk1_1_eq, iblk1_2_eq, iblk1_3_eq, iblk1_4_eq, iblk1_5_eq, iblk1_6_eq, iblk1_7_eq, fin1_pay_apply]
  unfold Sage.post
  rw [if_pos rfl]
  congr 1
  funext o'
  unfold F1row F1pre Sage.linK agg1
  congr 2
  · congr 1
    · refine Finset.sum_congr rfl fun d _ => ?_
      rw [sAt1_last V c t h3 r d ⟨1024 * (t.val / 4) + r.val, hlt⟩ rfl,
        ldD1_apply (Dg1 V c) t r ⟨1024 * (t.val / 4) + r.val, hlt⟩ rfl]
    · refine Finset.sum_congr rfl fun d _ => ?_
      rw [ldX1_apply (H1 V c) t r d ⟨1024 * (t.val / 4) + r.val, hlt⟩ rfl]

/-- Every element of the result array lies in the block some flushing point writes back: the block of its row block's
    last contraction step. -/
theorem cover1_8 (c : Dev nD) (i : ((cfg1.win 8).arr.view.loc (c.tc : Thread nD τ)).2.ty.Idx) :
    ∃ t : Fin cfg1.N, (cfg1.win 8).flush t = true ∧ i ∈ ((cfg1.win 8).blk t).view.set := by
  have hN : cfg1.N = 32 := N_1
  have h0 : (i 0 : Nat) < 8192 := (i 0).isLt
  have h1 : (i 1 : Nat) < 256 := (i 1).isLt
  have ht : 4 * ((i 0 : Nat) / 1024) + 3 < cfg1.N := by omega
  refine ⟨⟨4 * ((i 0 : Nat) / 1024) + 3, ht⟩, (flush1_8 _).mpr (by show (4 * ((i 0 : Nat) / 1024) + 3) % 4 = 3; omega), ?_⟩
  show i ∈ ((View.whole main_v64).slice (win1_8.rect ⟨4 * ((i 0 : Nat) / 1024) + 3, ht⟩)).set
  rw [View.set_slice_whole, Rect.mem_set_unit]
  intro a
  match a with
  | ⟨0, _⟩ =>
    show win1_8.index ⟨4 * ((i 0 : Nat) / 1024) + 3, ht⟩ 0 * win1_8.size 0 ≤ (i 0 : Nat)
      ∧ (i 0 : Nat) < win1_8.index ⟨4 * ((i 0 : Nat) / 1024) + 3, ht⟩ 0 * win1_8.size 0
          + win1_8.xsize (grid1.coords ⟨4 * ((i 0 : Nat) / 1024) + 3, ht⟩) 0
    rw [(widx1_8 _).1, (xsize1_8 _).1, show win1_8.size 0 = 1024 from rfl]
    show (4 * ((i 0 : Nat) / 1024) + 3) / 4 * 1024 ≤ (i 0 : Nat) ∧ (i 0 : Nat) < (4 * ((i 0 : Nat) / 1024) + 3) / 4 * 1024 + 1024
    omega
  | ⟨1, _⟩ =>
    show win1_8.index ⟨4 * ((i 0 : Nat) / 1024) + 3, ht⟩ 1 * win1_8.size 1 ≤ (i 1 : Nat)
      ∧ (i 1 : Nat) < win1_8.index ⟨4 * ((i 0 : Nat) / 1024) + 3, ht⟩ 1 * win1_8.size 1
          + win1_8.xsize (grid1.coords ⟨4 * ((i 0 : Nat) / 1024) + 3, ht⟩) 1
    rw [(widx1_8 _).2, (xsize1_8 _).2]
    omega

/-- THE RESULT ARRAY after the region: the layer over the arrays the region reads, at every index. -/
theorem final1_8 (c : Dev nD) :
    (dat1 (F := Ideal) V c).arrAt 8 cfg1.N
      = fun x => Sage.post true
          (Sage.linK (D := 512)
            (fun i d => Ideal.div (∑ j : Fin 8192, A1 V c (ix2 i j) * H1 V c (ix2 j d)) (Dg1 V c (ix2 i (0 : Fin 1))))
            (H1 V c) (Wl1 V c) (Wr1 V c) (Bi1 V c))
          (Ga1 V c) (Be1 V c) (x 0) (x 1) :=
  (dat1 V c).arrAt_eq_of_cover 8 (G1 V c) (flushed1_8 V c) (cover1_8 c)

end Region1Final

end Cert.KernelIdeal.Gen
end
-- ==== Proof.R2Value.lean ====
import proofs.«407196_j36060545417339_2_alg».proof.Proof.R2
import proofs.«407196_j36060545417339_2_alg».proof.Proof.SpecSage
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open scoped BigOperators

namespace Cert.KernelIdeal.Gen

open Idealize.ShloMosaic Idealize.ShloMosaic.TcCoe Idealize.ShloMosaic.ValueIdx
open Idealize.ShloMosaic.Pipeline (Dat Cfg Window)

theorem dotA2_lhs_0 (j : S1024x256.Idx) (k : dot_S1024x2048_S2048x256_S1024x256_1_0_0_1_n_n.contr.Idx) :
    ((dot_S1024x2048_S2048x256_S1024x256_1_0_0_1_n_n.lhsIdx j k) (0 : Fin 2)).val = (j (0 : Fin 2)).val := by
  unfold DotDims.lhsIdx
  rw [dif_neg (show ¬(0 : Fin S1024x2048.rank) ∈ dot_S1024x2048_S2048x256_S1024x256_1_0_0_1_n_n.lhsBatch by decide),
    dif_pos (show (0 : Fin S1024x2048.rank) ∈ dot_S1024x2048_S2048x256_S1024x256_1_0_0_1_n_n.lhsNonContracting by decide)]
  rfl

theorem dotA2_lhs_1 (j : S1024x256.Idx) (k : dot_S1024x2048_S2048x256_S1024x256_1_0_0_1_n_n.contr.Idx) :
    ((dot_S1024x2048_S2048x256_S1024x256_1_0_0_1_n_n.lhsIdx j k) (1 : Fin 2)).val = (k ⟨0, by decide⟩).val :=
  DotDims.lhsIdx_val_of_single _ (cl := (1 : Fin S1024x2048.rank)) rfl j k

theorem dotA2_rhs_0 (j : S1024x256.Idx) (k : dot_S1024x2048_S2048x256_S1024x256_1_0_0_1_n_n.contr.Idx) :
    ((dot_S1024x2048_S2048x256_S1024x256_1_0_0_1_n_n.rhsIdx j k) (0 : Fin 2)).val = (k ⟨0, by decide⟩).val :=
  DotDims.rhsIdx_val_of_single _ (cr := (0 : Fin S2048x256.rank)) rfl j k

theorem dotA2_rhs_1 (j : S1024x256.Idx) (k : dot_S1024x2048_S2048x256_S1024x256_1_0_0_1_n_n.contr.Idx) :
    ((dot_S1024x2048_S2048x256_S1024x256_1_0_0_1_n_n.rhsIdx j k) (1 : Fin 2)).val = (j (1 : Fin 2)).val := by
  unfold DotDims.rhsIdx
  rw [dif_neg (show ¬(1 : Fin S2048x256.rank) ∈ dot_S1024x2048_S2048x256_S1024x256_1_0_0_1_n_n.rhsBatch by decide),
    dif_pos (show (1 : Fin S2048x256.rank) ∈ dot_S1024x2048_S2048x256_S1024x256_1_0_0_1_n_n.rhsNonContracting by decide)]
  rfl

theorem matmulA2_apply (a : FVec Ideal S1024x2048 .bf16) (w : FVec Ideal S2048x256 .bf16) (r : Fin 1024) (d : Fin 256) :
    matmul dot_S1024x2048_S2048x256_S1024x256_1_0_0_1_n_n none a w (constant (F := Ideal) S1024x256 .f32 0x00000000#32) (ix2 r d)
      = ∑ k : Fin 2048, a (ix2 r k) * w (ix2 k d) := by
  simp only [matmul]
  rw [Ideal.matmul_constant_zero_apply]
  rw [← Equiv.sum_comp (contrEquiv1 dot_S1024x2048_S2048x256_S1024x256_1_0_0_1_n_n 2048 rfl rfl).symm]
  refine Finset.sum_congr rfl fun k _ => ?_
  have hl : dot_S1024x2048_S2048x256_S1024x256_1_0_0_1_n_n.lhsIdx (ix2 r d) ((contrEquiv1 dot_S1024x2048_S2048x256_S1024x256_1_0_0_1_n_n 2048 rfl rfl).symm k) = ix2 r k := by
    funext ax; apply Fin.ext
    match ax with
    | ⟨0, _⟩ => exact dotA2_lhs_0 _ _
    | ⟨1, _⟩ => exact (dotA2_lhs_1 _ _).trans (contrEquiv1_symm_val _ 2048 rfl rfl k)
  have hr : dot_S1024x2048_S2048x256_S1024x256_1_0_0_1_n_n.rhsIdx (ix2 r d) ((contrEquiv1 dot_S1024x2048_S2048x256_S1024x256_1_0_0_1_n_n 2048 rfl rfl).symm k) = ix2 k d := by
    funext ax; apply Fin.ext
    match ax with
    | ⟨0, _⟩ => exact (dotA2_rhs_0 _ _).trans (contrEquiv1_symm_val _ 2048 rfl rfl k)
    | ⟨1, _⟩ => exact dotA2_rhs_1 _ _
  rw [hl, hr]

theorem dotB2_lhs_0 (j : S1024x256.Idx) (k : dot_S1024x256_S256x256_S1024x256_1_0_0_1_n_n.contr.Idx) :
    ((dot_S1024x256_S256x256_S1024x256_1_0_0_1_n_n.lhsIdx j k) (0 : Fin 2)).val = (j (0 : Fin 2)).val := by
  unfold DotDims.lhsIdx
  rw [dif_neg (show ¬(0 : Fin S1024x256.rank) ∈ dot_S1024x256_S256x256_S1024x256_1_0_0_1_n_n.lhsBatch by decide),
    dif_pos (show (0 : Fin S1024x256.rank) ∈ dot_S1024x256_S256x256_S1024x256_1_0_0_1_n_n.lhsNonContracting by decide)]
  rfl

theorem dotB2_lhs_1 (j : S1024x256.Idx) (k : dot_S1024x256_S256x256_S1024x256_1_0_0_1_n_n.contr.Idx) :
    ((dot_S1024x256_S256x256_S1024x256_1_0_0_1_n_n.lhsIdx j k) (1 : Fin 2)).val = (k ⟨0, by decide⟩).val :=
  DotDims.lhsIdx_val_of_single _ (cl := (1 : Fin S1024x256.rank)) rfl j k

theorem dotB2_rhs_0 (j : S1024x256.Idx) (k : dot_S1024x256_S256x256_S1024x256_1_0_0_1_n_n.contr.Idx) :
    ((dot_S1024x256_S256x256_S1024x256_1_0_0_1_n_n.rhsIdx j k) (0 : Fin 2)).val = (k ⟨0, by decide⟩).val :=
  DotDims.rhsIdx_val_of_single _ (cr := (0 : Fin S256x256.rank)) rfl j k

theorem dotB2_rhs_1 (j : S1024x256.Idx) (k : dot_S1024x256_S256x256_S1024x256_1_0_0_1_n_n.contr.Idx) :
    ((dot_S1024x256_S256x256_S1024x256_1_0_0_1_n_n.rhsIdx j k) (1 : Fin 2)).val = (j (1 : Fin 2)).val := by
  unfold DotDims.rhsIdx
  rw [dif_neg (show ¬(1 : Fin S256x256.rank) ∈ dot_S1024x256_S256x256_S1024x256_1_0_0_1_n_n.rhsBatch by decide),
    dif_pos (show (1 : Fin S256x256.rank) ∈ dot_S1024x256_S256x256_S1024x256_1_0_0_1_n_n.rhsNonContracting by decide)]
  rfl

theorem matmulB2_apply (a : FVec Ideal S1024x256 .f32) (w : FVec Ideal S256x256 .f32) (r : Fin 1024) (o : Fin 256) :
    matmul dot_S1024x256_S256x256_S1024x256_1_0_0_1_n_n none a w (constant (F := Ideal) S1024x256 .f32 0x00000000#32) (ix2 r o)
      = ∑ k : Fin 256, a (ix2 r k) * w (ix2 k o) := by
  simp only [matmul]
  rw [Ideal.matmul_constant_zero_apply]
  rw [← Equiv.sum_comp (contrEquiv1 dot_S1024x256_S256x256_S1024x256_1_0_0_1_n_n 256 rfl rfl).symm]
  refine Finset.sum_congr rfl fun k _ => ?_
  have hl : dot_S1024x256_S256x256_S1024x256_1_0_0_1_n_n.lhsIdx (ix2 r o) ((contrEquiv1 dot_S1024x256_S256x256_S1024x256_1_0_0_1_n_n 256 rfl rfl).symm k) = ix2 r k := by
    funext ax; apply Fin.ext
    match ax with
    | ⟨0, _⟩ => exact dotB2_lhs_0 _ _
    | ⟨1, _⟩ => exact (dotB2_lhs_1 _ _).trans (contrEquiv1_symm_val _ 256 rfl rfl k)
  have hr : dot_S1024x256_S256x256_S1024x256_1_0_0_1_n_n.rhsIdx (ix2 r o) ((contrEquiv1 dot_S1024x256_S256x256_S1024x256_1_0_0_1_n_n 256 rfl rfl).symm k) = ix2 k o := by
    funext ax; apply Fin.ext
    match ax with
    | ⟨0, _⟩ => exact (dotB2_rhs_0 _ _).trans (contrEquiv1_symm_val _ 256 rfl rfl k)
    | ⟨1, _⟩ => exact dotB2_rhs_1 _ _
  rw [hl, hr]

theorem bcolS2_apply {α : Type} (v : S1024x1.Idx → α) (r : Fin 1024) (d : Fin 256) :
    broadcastTo S1024x256 v broadcasts_S1024x1_S1024x256 (ix2 r d) = v (ix2 r (0 : Fin 1)) :=
  broadcastTo_apply _ _ (ix2 r d) (ix2 r (0 : Fin 1)) (fun ax => by
    match ax with
    | ⟨0, _⟩ => rfl
    | ⟨1, _⟩ => rfl)

theorem pay1_2_apply (y : S1024x256.Idx) : k2_pay1 (F := Ideal) y = 0 := by
  unfold k2_pay1
  simp only [shapeCast_self]
  show Ideal.ofBits .f32 0x00000000#32 = 0
  exact Ideal.ofBits_zero_f32

theorem pay2_2_apply (x0 : FVec Ideal S1024x2048 .bf16) (hk : FVec Ideal S2048x256 .f32) (s : FVec Ideal S1024x256 .f32)
    (r : Fin 1024) (d : Fin 256) :
    k2_pay2 (F := Ideal) x0 hk s (ix2 r d) = s (ix2 r d) + ∑ k : Fin 2048, x0 (ix2 r k) * hk (ix2 k d) := by
  unfold k2_pay2
  simp only [shapeCast_self]
  rw [addf_apply, matmulA2_apply]
  rfl

section Fin2
variable (deg : FVec Ideal S1024x1 .f32) (s hs : FVec Ideal S1024x256 .f32) (wl wr : FVec Ideal S256x256 .f32)
  (b : FVec Ideal S1x256 .f32)

def F2pre (r : Fin 1024) (o : Fin 256) : EReal :=
  (∑ d : Fin 256, Ideal.div (s (ix2 r d)) (deg (ix2 r (0 : Fin 1))) * wl (ix2 d o))
    + (∑ d : Fin 256, hs (ix2 r d) * wr (ix2 d o)) + b (ix2 (0 : Fin 1) o)

def F2row (r : Fin 1024) : Fin 256 → EReal := fun o => Sage.relu (F2pre deg s hs wl wr b r o)

theorem fin2_pay_apply (r : Fin 1024) (o : Fin 256) :
    k2_pay3 (F := Ideal) deg s hs wl wr b (ix2 r o) = F2row deg s hs wl wr b r o := by
  unfold k2_pay3 F2row Sage.relu F2pre
  simp only [shapeCast_self]
  rw [maximumf_apply, addf_apply, addf_apply, matmulB2_apply, matmulB2_apply, broadcastTo_1b_ab_apply, broadcast_apply]
  simp only [divf_apply, bcolS2_apply]
  show max _ (Ideal.ofBits .f32 0x00000000#32) = max _ 0
  rw [Ideal.ofBits_zero_f32]

end Fin2

theorem widx2_0 : ∀ t : Fin cfg2.N, win2_0.index t 0 = t.val / 4 ∧ win2_0.index t 1 = t.val % 4 :=
  (by decide +kernel : ∀ t : Fin grid2.N, win2_0.index t 0 = t.val / 4 ∧ win2_0.index t 1 = t.val % 4)

theorem widx2_8 : ∀ t : Fin cfg2.N, win2_8.index t 0 = t.val / 4 ∧ win2_8.index t 1 = 0 :=
  (by decide +kernel : ∀ t : Fin grid2.N, win2_8.index t 0 = t.val / 4 ∧ win2_8.index t 1 = 0)

theorem widx2_1 : ∀ t : Fin cfg2.N, ∀ a, win2_1.index t a = 0 := (by decide +kernel : ∀ t : Fin grid2.N, ∀ a, win2_1.index t a = 0)
theorem widx2_2 : ∀ t : Fin cfg2.N, ∀ a, win2_2.index t a = 0 := (by decide +kernel : ∀ t : Fin grid2.N, ∀ a, win2_2.index t a = 0)
theorem widx2_3 : ∀ t : Fin cfg2.N, ∀ a, win2_3.index t a = 0 := (by decide +kernel : ∀ t : Fin grid2.N, ∀ a, win2_3.index t a = 0)
theorem widx2_4 : ∀ t : Fin cfg2.N, ∀ a, win2_4.index t a = 0 := (by decide +kernel : ∀ t : Fin grid2.N, ∀ a, win2_4.index t a = 0)
theorem widx2_5 : ∀ t : Fin cfg2.N, ∀ a, win2_5.index t a = 0 := (by decide +kernel : ∀ t : Fin grid2.N, ∀ a, win2_5.index t a = 0)
theorem widx2_6 : ∀ t : Fin cfg2.N, ∀ a, win2_6.index t a = 0 := (by decide +kernel : ∀ t : Fin grid2.N, ∀ a, win2_6.index t a = 0)
theorem widx2_7 : ∀ t : Fin cfg2.N, ∀ a, win2_7.index t a = 0 := (by decide +kernel : ∀ t : Fin grid2.N, ∀ a, win2_7.index t a = 0)

theorem koff2_1 : ∀ t : Fin cfg2.N, k2_off1 (grid2.coords t) 0 = 2048 * (t.val % 4) ∧ k2_off1 (grid2.coords t) 1 = 0 :=
  (by decide +kernel : ∀ t : Fin grid2.N, k2_off1 (grid2.coords t) 0 = 2048 * (t.val % 4) ∧ k2_off1 (grid2.coords t) 1 = 0)
theorem koff2_2 : ∀ t : Fin cfg2.N, k2_off2 (grid2.coords t) 0 = 1024 * (t.val / 4) ∧ k2_off2 (grid2.coords t) 1 = 0 :=
  (by decide +kernel : ∀ t : Fin grid2.N, k2_off2 (grid2.coords t) 0 = 1024 * (t.val / 4) ∧ k2_off2 (grid2.coords t) 1 = 0)
theorem koff2_3 : ∀ t : Fin cfg2.N, k2_off3 (grid2.coords t) 0 = 1024 * (t.val / 4) ∧ k2_off3 (grid2.coords t) 1 = 0 :=
  (by decide +kernel : ∀ t : Fin grid2.N, k2_off3 (grid2.coords t) 0 = 1024 * (t.val / 4) ∧ k2_off3 (grid2.coords t) 1 = 0)

section Region2Value

variable (V : (c : Dev nD) → (b : Ref sig .tc) → Buf (Elt Ideal) ((c : Thread nD τ).loc b))

theorem iblk2_0_apply (c : Dev nD) (t : Fin cfg2.N) (r : Fin 1024) (k : Fin 2048)
    (z : S8192x8192.Idx) (h0 : (z 0).val = 1024 * (t.val / 4) + r.val) (h1 : (z 1).val = 2048 * (t.val % 4) + k.val) :
    (iblk2 V c 0 t : Vec Ideal S1024x2048 .bf16) (ix2 r k) = V c main_v32 z := by
  unfold iblk2
  rw [View.read_apply]
  show V c main_v32 _ = V c main_v32 z
  congr 1
  funext a
  apply Fin.ext
  match a with
  | ⟨0, _⟩ =>
    show win2_0.index t 0 * 1024 + 1 * r.val = (z 0).val
    rw [(widx2_0 t).1, h0]; omega
  | ⟨1, _⟩ =>
    show win2_0.index t 1 * 2048 + 1 * k.val = (z 1).val
    rw [(widx2_0 t).2, h1]; omega

theorem iblk2_1_eq (c : Dev nD) (t : Fin cfg2.N) : (iblk2 V c 1 t : Vec Ideal S8192x256 .f32) = V c main_v64 := by
  have hz : (fun a => win2_1.index t a * main_v64.ty.shape.size a) = fun _ => 0 := funext fun a => by rw [widx2_1 t a]; exact Nat.zero_mul _
  exact Memref.read_access_unit_zero (Elt Ideal) main_v64 hz (fun a => by rw [congrFun hz a]; simp) (V c main_v64)
theorem iblk2_2_eq (c : Dev nD) (t : Fin cfg2.N) : (iblk2 V c 2 t : Vec Ideal S8192x1 .f32) = V c main_v15 := by
  have hz : (fun a => win2_2.index t a * main_v15.ty.shape.size a) = fun _ => 0 := funext fun a => by rw [widx2_2 t a]; exact Nat.zero_mul _
  exact Memref.read_access_unit_zero (Elt Ideal) main_v15 hz (fun a => by rw [congrFun hz a]; simp) (V c main_v15)
theorem iblk2_3_eq (c : Dev nD) (t : Fin cfg2.N) : (iblk2 V c 3 t : Vec Ideal S256x256 .f32) = V c main_v67 := by
  have hz : (fun a => win2_3.index t a * main_v67.ty.shape.size a) = fun _ => 0 := funext fun a => by rw [widx2_3 t a]; exact Nat.zero_mul _
  exact Memref.read_access_unit_zero (Elt Ideal) main_v67 hz (fun a => by rw [congrFun hz a]; simp) (V c main_v67)
theorem iblk2_4_eq (c : Dev nD) (t : Fin cfg2.N) : (iblk2 V c 4 t : Vec Ideal S256x256 .f32) = V c main_v68 := by
  have hz : (fun a => win2_4.index t a * main_v68.ty.shape.size a) = fun _ => 0 := funext fun a => by rw [widx2_4 t a]; exact Nat.zero_mul _
  exact Memref.read_access_unit_zero (Elt Ideal) main_v68 hz (fun a => by rw [congrFun hz a]; simp) (V c main_v68)
theorem iblk2_5_eq (c : Dev nD) (t : Fin cfg2.N) : (iblk2 V c 5 t : Vec Ideal S1x256 .f32) = V c main_v69 := by
  have hz : (fun a => win2_5.index t a * main_v69.ty.shape.size a) = fun _ => 0 := funext fun a => by rw [widx2_5 t a]; exact Nat.zero_mul _
  exact Memref.read_access_unit_zero (Elt Ideal) main_v69 hz (fun a => by rw [congrFun hz a]; simp) (V c main_v69)
end Region2Value

theorem ldH2_apply (X : Vec Ideal S8192x256 .f32) (t : Fin cfg2.N) (k : Fin 2048) (d : Fin 256) (zk : Fin 8192)
    (hzk : zk.val = 2048 * (t.val % 4) + k.val) :
    View.ld X (rH2 (grid2.coords t)) (ix2 k d) = X (ix2 zk d) := by
  show X ((rH2 (grid2.coords t)).idx (ix2 k d)) = X (ix2 zk d)
  congr 1
  funext a
  apply Fin.ext
  match a with
  | ⟨0, _⟩ =>
    show k2_off1 (grid2.coords t) 0 + 1 * k.val = zk.val
    rw [(koff2_1 t).1, hzk]; omega
  | ⟨1, _⟩ =>
    show k2_off1 (grid2.coords t) 1 + 1 * d.val = d.val
    rw [(koff2_1 t).2]; omega

theorem ldD2_apply (X : Vec Ideal S8192x1 .f32) (t : Fin cfg2.N) (r : Fin 1024) (zi : Fin 8192)
    (hzi : zi.val = 1024 * (t.val / 4) + r.val) :
    View.ld X (rD2 (grid2.coords t)) (ix2 r (0 : Fin 1)) = X (ix2 zi (0 : Fin 1)) := by
  show X ((rD2 (grid2.coords t)).idx (ix2 r (0 : Fin 1))) = X (ix2 zi (0 : Fin 1))
  congr 1
  funext a
  apply Fin.ext
  match a with
  | ⟨0, _⟩ =>
    show k2_off2 (grid2.coords t) 0 + 1 * r.val = zi.val
    rw [(koff2_2 t).1, hzi]; omega
  | ⟨1, _⟩ =>
    show k2_off2 (grid2.coords t) 1 + 1 * 0 = 0
    rw [(koff2_2 t).2]

theorem ldX2_apply (X : Vec Ideal S8192x256 .f32) (t : Fin cfg2.N) (r : Fin 1024) (d : Fin 256) (zi : Fin 8192)
    (hzi : zi.val = 1024 * (t.val / 4) + r.val) :
    View.ld X (rX2 (grid2.coords t)) (ix2 r d) = X (ix2 zi d) := by
  show X ((rX2 (grid2.coords t)).idx (ix2 r d)) = X (ix2 zi d)
  congr 1
  funext a
  apply Fin.ext
  match a with
  | ⟨0, _⟩ =>
    show k2_off3 (grid2.coords t) 0 + 1 * r.val = zi.val
    rw [(koff2_3 t).1, hzi]; omega
  | ⟨1, _⟩ =>
    show k2_off3 (grid2.coords t) 1 + 1 * d.val = d.val
    rw [(koff2_3 t).2]; omega

theorem acc2_apply (i : grid2.Coords) (x0 : Vec Ideal S1024x2048 .bf16) (x1 : Vec Ideal S8192x256 .f32)
    (s : Vec Ideal S1024x256 .f32) (r : Fin 1024) (d : Fin 256) :
    acc2 (F := Ideal) i x0 x1 s (ix2 r d) = s (ix2 r d) + ∑ k : Fin 2048, x0 (ix2 r k) * View.ld x1 (rH2 i) (ix2 k d) := by
  unfold acc2
  exact pay2_2_apply x0 (View.ld x1 (rH2 i)) s r d

section Region2Fold

variable (V : (c : Dev nD) → (b : Ref sig .tc) → Buf (Elt Ideal) ((c : Thread nD τ).loc b))

abbrev A2 (c : Dev nD) : Vec Ideal S8192x8192 .bf16 := V c main_v32
abbrev H2 (c : Dev nD) : Vec Ideal S8192x256 .f32 := V c main_v64
abbrev Dg2 (c : Dev nD) : Vec Ideal S8192x1 .f32 := V c main_v15
abbrev Wl2 (c : Dev nD) : Vec Ideal S256x256 .f32 := V c main_v67
abbrev Wr2 (c : Dev nD) : Vec Ideal S256x256 .f32 := V c main_v68
abbrev Bi2 (c : Dev nD) : Vec Ideal S1x256 .f32 := V c main_v69
abbrev Ga2 (c : Dev nD) : Vec Ideal S1x256 .f32 := V c main_v70
abbrev Be2 (c : Dev nD) : Vec Ideal S1x256 .f32 := V c main_v71

abbrev tile2 (c : Dev nD) (t : Fin cfg2.N) : Vec Ideal S1024x2048 .bf16 := iblk2 V c 0 t
abbrev feat2 (c : Dev nD) (t : Fin cfg2.N) : Vec Ideal S8192x256 .f32 := iblk2 V c 1 t

def M2 (c : Dev nD) (n : ℕ) (y : S1024x256.Idx) : EReal :=
  if h : n < cfg2.N then
    ∑ k : Fin 2048, tile2 V c ⟨n, h⟩ (ix2 (y 0) k) * View.ld (feat2 V c ⟨n, h⟩) (rH2 (grid2.coords ⟨n, h⟩)) (ix2 k (y 1))
  else 0

theorem sAt2_sum (c : Dev nD) (t : Fin cfg2.N) (y : S1024x256.Idx) :
    sAt2 V c t.val t.isLt y = 0 + ∑ s ∈ Finset.range (t.val % 4 + 1), M2 V c (4 * (t.val / 4) + s) y := by
  have hN : cfg2.N = 32 := N_2
  have h' : 4 * (t.val / 4) + t.val % 4 < cfg2.N := by have := t.isLt; omega
  rw [Pipeline.eq_accAt_of_mod (α := Vec Ideal S1024x256 .f32) (sAt2 V c) 4
      (fun n h => acc2 (F := Ideal) (grid2.coords ⟨n, h⟩) (tile2 V c ⟨n, h⟩) (feat2 V c ⟨n, h⟩) (k2_pay1 (F := Ideal)))
      (fun n h s => acc2 (F := Ideal) (grid2.coords ⟨n, h⟩) (tile2 V c ⟨n, h⟩) (feat2 V c ⟨n, h⟩) s)
      (fun n h e => sAt2_first V c ⟨n, h⟩ e)
      (fun n h e => sAt2_next V c ⟨n + 1, h⟩ e)
      (by decide) t.val t.isLt h']
  refine Pipeline.accAt_add_apply _ _ (fun _ => 0) (M2 V c) (4 * (t.val / 4)) 3 ?_ ?_ (t.val % 4) (by omega) h' y
  · intro h y
    obtain ⟨r, d, rfl⟩ : ∃ r d, y = ix2 r d := ⟨y 0, y 1, eq_ix2 y⟩
    unfold M2
    rw [dif_pos h, acc2_apply, pay1_2_apply]
  · intro n h acc y _ _
    obtain ⟨r, d, rfl⟩ : ∃ r d, y = ix2 r d := ⟨y 0, y 1, eq_ix2 y⟩
    unfold M2
    rw [dif_pos h, acc2_apply]

theorem sum_blocks4_2 (f : Fin 8192 → EReal) :
    ∑ j : Fin 8192, f j
      = ∑ s ∈ Finset.range 4, ∑ k : Fin 2048, (if h : 2048 * s + k.val < 8192 then f ⟨2048 * s + k.val, h⟩ else 0) := by
  rw [Finset.sum_range]
  have e := Equiv.sum_comp (finProdFinEquiv (m := 4) (n := 2048)) (fun j : Fin (4 * 2048) => f j)
  rw [Fintype.sum_prod_type] at e
  rw [show (∑ j : Fin 8192, f j) = ∑ j : Fin (4 * 2048), f j from rfl, ← e]
  refine Finset.sum_congr rfl fun s _ => Finset.sum_congr rfl fun k _ => ?_
  have hlt : 2048 * s.val + k.val < 8192 := by have := s.isLt; have := k.isLt; omega
  rw [dif_pos hlt]
  congr 1
  apply Fin.ext
  show k.val + 2048 * s.val = 2048 * s.val + k.val
  omega

theorem sAt2_last (c : Dev nD) (t : Fin cfg2.N) (h3 : t.val % 4 = 3) (r : Fin 1024) (d : Fin 256) (zi : Fin 8192)
    (hzi : zi.val = 1024 * (t.val / 4) + r.val) :
    sAt2 V c t.val t.isLt (ix2 r d) = ∑ j : Fin 8192, A2 V c (ix2 zi j) * H2 V c (ix2 j d) := by
  have hN : cfg2.N = 32 := N_2
  have ht := t.isLt
  rw [sAt2_sum, zero_add, h3, sum_blocks4_2]
  refine Finset.sum_congr rfl fun s hs => ?_
  have hs4 : s < 4 := Finset.mem_range.mp hs
  have hn : 4 * (t.val / 4) + s < cfg2.N := by omega
  unfold M2
  rw [dif_pos hn]
  dsimp only [tile2, feat2]
  refine Finset.sum_congr rfl fun k _ => ?_
  have hlt : 2048 * s + k.val < 8192 := by have := k.isLt; omega
  rw [dif_pos hlt]
  rw [iblk2_0_apply V c ⟨4 * (t.val / 4) + s, hn⟩ r k (ix2 zi ⟨2048 * s + k.val, hlt⟩)
      (by show zi.val = 1024 * ((4 * (t.val / 4) + s) / 4) + r.val; rw [hzi]; omega)
      (by show 2048 * s + k.val = 2048 * ((4 * (t.val / 4) + s) % 4) + k.val; omega),
    iblk2_1_eq V c ⟨4 * (t.val / 4) + s, hn⟩,
    ldH2_apply (V c main_v64) ⟨4 * (t.val / 4) + s, hn⟩ k d ⟨2048 * s + k.val, hlt⟩
      (by show 2048 * s + k.val = 2048 * ((4 * (t.val / 4) + s) % 4) + k.val; omega)]

end Region2Fold

section Region2Final

variable (V : (c : Dev nD) → (b : Ref sig .tc) → Buf (Elt Ideal) ((c : Thread nD τ).loc b))

def agg2 (c : Dev nD) (i : Fin 8192) (d : Fin 256) : EReal :=
  Ideal.div (∑ j : Fin 8192, A2 V c (ix2 i j) * H2 V c (ix2 j d)) (Dg2 V c (ix2 i (0 : Fin 1)))

def G2 (c : Dev nD) : Buf (Elt Ideal) ((c : Thread nD τ).loc main_v72) :=
  fun x => Sage.post false (Sage.linK (D := 256) (agg2 V c) (H2 V c) (Wl2 V c) (Wr2 V c) (Bi2 V c))
    (Ga2 V c) (Be2 V c) (x 0) (x 1)

theorem xsize2_8 : ∀ t : Fin cfg2.N, win2_8.xsize (grid2.coords t) 0 = 1024 ∧ win2_8.xsize (grid2.coords t) 1 = 256 :=
  (by decide +kernel : ∀ t : Fin grid2.N, win2_8.xsize (grid2.coords t) 0 = 1024 ∧ win2_8.xsize (grid2.coords t) 1 = 256)

theorem G2_blk_apply (c : Dev nD) (t : Fin cfg2.N) (r : Fin 1024) (o : Fin 256) (zi : Fin 8192)
    (hzi : zi.val = 1024 * (t.val / 4) + r.val) :
    ((cfg2.win 8).blk t).view.read (Elt Ideal) (G2 V c) (ix2 r o)
      = Sage.post false (Sage.linK (D := 256) (agg2 V c) (H2 V c) (Wl2 V c) (Wr2 V c) (Bi2 V c))
          (Ga2 V c) (Be2 V c) zi o := by
  rw [View.read_apply]
  show G2 V c _ = _
  unfold G2
  congr 1
  · apply Fin.ext
    show win2_8.index t 0 * 1024 + 1 * r.val = zi.val
    rw [(widx2_8 t).1, hzi]; omega
  · apply Fin.ext
    show win2_8.index t 1 * 256 + 1 * o.val = o.val
    rw [(widx2_8 t).2]; omega

theorem flushed2_8 (c : Dev nD) (t : Fin cfg2.N) (hf : (cfg2.win 8).flush t = true) :
    (dat2 V c).flushed 8 t = ((cfg2.win 8).blk t).view.read (Elt Ideal) (G2 V c) := by
  have hN : cfg2.N = 32 := N_2
  have ht := t.isLt
  have h3 : t.val % 4 = 3 := (flush2_8 t).mp hf
  show (cfg2.win 8).cut (grid2.coords t) ((dat2 V c).after 8 t) = _
  rw [after2_8]
  funext y
  obtain ⟨r, o, rfl⟩ : ∃ r o, y = ix2 r o := ⟨y 0, y 1, eq_ix2 y⟩
  have hlt : 1024 * (t.val / 4) + r.val < 8192 := by have := r.isLt; omega
  rw [G2_blk_apply V c t r o ⟨1024 * (t.val / 4) + r.val, hlt⟩ rfl]
  show fin2 (grid2.coords t) (iblk2 V c 1 t) (iblk2 V c 2 t) (iblk2 V c 3 t) (iblk2 V c 4 t) (iblk2 V c 5 t)
      (iblk2 V c 6 t) (iblk2 V c 7 t) (sAt2 V c t.val t.isLt) (ix2 r o) = _
  unfold fin2
  rw [iblk2_1_eq, iblk2_2_eq, iblk2_3_eq, iblk2_4_eq, iblk2_5_eq, fin2_pay_apply]
  unfold Sage.post
  rw [if_neg Bool.false_ne_true]
  unfold F2row F2pre Sage.linK agg2
  congr 2
  · congr 1
    · refine Finset.sum_congr rfl fun d _ => ?_
      rw [sAt2_last V c t h3 r d ⟨1024 * (t.val / 4) + r.val, hlt⟩ rfl,
        ldD2_apply (Dg2 V c) t r ⟨1024 * (t.val / 4) + r.val, hlt⟩ rfl]
    · refine Finset.sum_congr rfl fun d _ => ?_
      rw [ldX2_apply (H2 V c) t r d ⟨1024 * (t.val / 4) + r.val, hlt⟩ rfl]

theorem cover2_8 (c : Dev nD) (i : ((cfg2.win 8).arr.view.loc (c.tc : Thread nD τ)).2.ty.Idx) :
    ∃ t : Fin cfg2.N, (cfg2.win 8).flush t = true ∧ i ∈ ((cfg2.win 8).blk t).view.set := by
  have hN : cfg2.N = 32 := N_2
  have h0 : (i 0 : Nat) < 8192 := (i 0).isLt
  have h1 : (i 1 : Nat) < 256 := (i 1).isLt
  have ht : 4 * ((i 0 : Nat) / 1024) + 3 < cfg2.N := by omega
  refine ⟨⟨4 * ((i 0 : Nat) / 1024) + 3, ht⟩, (flush2_8 _).mpr (by show (4 * ((i 0 : Nat) / 1024) + 3) % 4 = 3; omega), ?_⟩
  show i ∈ ((View.whole main_v72).slice (win2_8.rect ⟨4 * ((i 0 : Nat) / 1024) + 3, ht⟩)).set
  rw [View.set_slice_whole, Rect.mem_set_unit]
  intro a
  match a with
  | ⟨0, _⟩ =>
    show win2_8.index ⟨4 * ((i 0 : Nat) / 1024) + 3, ht⟩ 0 * win2_8.size 0 ≤ (i 0 : Nat)
      ∧ (i 0 : Nat) < win2_8.index ⟨4 * ((i 0 : Nat) / 1024) + 3, ht⟩ 0 * win2_8.size 0
          + win2_8.xsize (grid2.coords ⟨4 * ((i 0 : Nat) / 1024) + 3, ht⟩) 0
    rw [(widx2_8 _).1, (xsize2_8 _).1, show win2_8.size 0 = 1024 from rfl]
    show (4 * ((i 0 : Nat) / 1024) + 3) / 4 * 1024 ≤ (i 0 : Nat) ∧ (i 0 : Nat) < (4 * ((i 0 : Nat) / 1024) + 3) / 4 * 1024 + 1024
    omega
  | ⟨1, _⟩ =>
    show win2_8.index ⟨4 * ((i 0 : Nat) / 1024) + 3, ht⟩ 1 * win2_8.size 1 ≤ (i 1 : Nat)
      ∧ (i 1 : Nat) < win2_8.index ⟨4 * ((i 0 : Nat) / 1024) + 3, ht⟩ 1 * win2_8.size 1
          + win2_8.xsize (grid2.coords ⟨4 * ((i 0 : Nat) / 1024) + 3, ht⟩) 1
    rw [(widx2_8 _).2, (xsize2_8 _).2]
    omega

theorem final2_8 (c : Dev nD) :
    (dat2 (F := Ideal) V c).arrAt 8 cfg2.N
      = fun x => Sage.post false
          (Sage.linK (D := 256)
            (fun i d => Ideal.div (∑ j : Fin 8192, A2 V c (ix2 i j) * H2 V c (ix2 j d)) (Dg2 V c (ix2 i (0 : Fin 1))))
            (H2 V c) (Wl2 V c) (Wr2 V c) (Bi2 V c))
          (Ga2 V c) (Be2 V c) (x 0) (x 1) :=
  (dat2 V c).arrAt_eq_of_cover 8 (G2 V c) (flushed2_8 V c) (cover2_8 c)

end Region2Final

end Cert.KernelIdeal.Gen
end
-- ==== Proof.RefRead.lean ====
import proofs.«407196_j36060545417339_2_alg».proof.Proof.RefRun

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem ops_length : (ops : List (HloOp τ sig (Elt F))).length = 305 := rfl

theorem read (k : Nat) (hk : k < 305) (r : Ref sig .tc) (hr : r ∉ W.drop (k + 1)) (V : Valuation τ sig (Elt F)) :
    after ops V (Proc.devRef .tc r)
      = ((ops : List (HloOp τ sig (Elt F)))[k]'(ops_length (F := F) ▸ hk)).result (after (List.take k ops) V) (Proc.devRef .tc r) :=
  after_read_at ops_writesAt k _ r hr V

-- The buffer written at position k holds after @main the operation's value of what its operands hold after @main:
-- operands are written before k and nothing is written twice. One lemma per number of operands.
theorem at_nullary (k : Nat) {y : Ref sig .tc} {v : y.ty.Contents (Elt F)} {hy} (V : Valuation τ sig (Elt F))
    (hop : (ops : List (HloOp τ sig (Elt F)))[k]? = some (StableHlo.nullary y v hy))
    (hy' : y ∉ W.drop (k + 1) := by decide +kernel) :
    after ops V (Proc.devRef .tc y) = v := by
  obtain ⟨hk, h⟩ := List.getElem?_eq_some_iff.mp hop
  rw [after_read_at ops_writesAt k hk y hy' V, h]
  exact nullary_result ..

theorem at_unary (k : Nat) {x y : Ref sig .tc} {f : x.ty.Contents (Elt F) → y.ty.Contents (Elt F)} {hx hy}
    (V : Valuation τ sig (Elt F)) (hop : (ops : List (HloOp τ sig (Elt F)))[k]? = some (StableHlo.unary x y f hx hy))
    (hy' : y ∉ W.drop (k + 1) := by decide +kernel) (hx' : x ∉ W.drop k := by decide +kernel) :
    after ops V (Proc.devRef .tc y) = f (after ops V (Proc.devRef .tc x)) := by
  obtain ⟨hk, h⟩ := List.getElem?_eq_some_iff.mp hop
  rw [after_read_at ops_writesAt k hk y hy' V, after_take_keep ops_writesAt k x hx' V, h]
  exact unary_result ..

theorem at_binary (k : Nat) {a b y : Ref sig .tc}
    {f : a.ty.Contents (Elt F) → b.ty.Contents (Elt F) → y.ty.Contents (Elt F)} {ha hb hy} (V : Valuation τ sig (Elt F))
    (hop : (ops : List (HloOp τ sig (Elt F)))[k]? = some (StableHlo.binary a b y f ha hb hy))
    (hy' : y ∉ W.drop (k + 1) := by decide +kernel) (ha' : a ∉ W.drop k := by decide +kernel)
    (hb' : b ∉ W.drop k := by decide +kernel) :
    after ops V (Proc.devRef .tc y) = f (after ops V (Proc.devRef .tc a)) (after ops V (Proc.devRef .tc b)) := by
  obtain ⟨hk, h⟩ := List.getElem?_eq_some_iff.mp hop
  rw [after_read_at ops_writesAt k hk y hy' V, after_take_keep ops_writesAt k a ha' V,
    after_take_keep ops_writesAt k b hb' V, h]
  exact binary_result ..

theorem at_ternary (k : Nat) {c a b y : Ref sig .tc}
    {f : c.ty.Contents (Elt F) → a.ty.Contents (Elt F) → b.ty.Contents (Elt F) → y.ty.Contents (Elt F)} {hc ha hb hy}
    (V : Valuation τ sig (Elt F))
    (hop : (ops : List (HloOp τ sig (Elt F)))[k]? = some (StableHlo.ternary c a b y f hc ha hb hy))
    (hy' : y ∉ W.drop (k + 1) := by decide +kernel) (hc' : c ∉ W.drop k := by decide +kernel)
    (ha' : a ∉ W.drop k := by decide +kernel) (hb' : b ∉ W.drop k := by decide +kernel) :
    after ops V (Proc.devRef .tc y)
      = f (after ops V (Proc.devRef .tc c)) (after ops V (Proc.devRef .tc a)) (after ops V (Proc.devRef .tc b)) := by
  obtain ⟨hk, h⟩ := List.getElem?_eq_some_iff.mp hop
  rw [after_read_at ops_writesAt k hk y hy' V, after_take_keep ops_writesAt k c hc' V,
    after_take_keep ops_writesAt k a ha' V, after_take_keep ops_writesAt k b hb' V, h]
  exact ternary_result ..

set_option maxRecDepth 8192

def val_main_v0 (V : Valuation τ sig (Elt F)) := at_unary 0 V rfl

theorem val_main_v1 (V : Valuation τ sig (Elt F)) :
    after ops V (Proc.devRef .tc main_v1) = fun i => shapeCast _ (after ops V (Proc.devRef .tc main_v0)) shapeCasts_S1x262144_S262144 i := by
  rw [read 1 (by decide) main_v1 (by decide +kernel) V, after_take_keep ops_writesAt 1 main_v0 (by decide +kernel) V]
  generalize after (List.take 1 ops) V = U
  show (StableHlo.reshape main_v0 main_v1 rfl shapeCasts_S1x262144_S262144 : HloOp τ sig (Elt F)).result U (Proc.devRef .tc main_v1) = _
  exact reshape_result ..

def val_main_v2 (V : Valuation τ sig (Elt F)) := at_unary 2 V rfl

theorem val_main_v3 (V : Valuation τ sig (Elt F)) :
    after ops V (Proc.devRef .tc main_v3) = fun i => shapeCast _ (after ops V (Proc.devRef .tc main_v2)) shapeCasts_S1x262144_S262144 i := by
  rw [read 3 (by decide) main_v3 (by decide +kernel) V, after_take_keep ops_writesAt 3 main_v2 (by decide +kernel) V]
  generalize after (List.take 3 ops) V = U
  show (StableHlo.reshape main_v2 main_v3 rfl shapeCasts_S1x262144_S262144 : HloOp τ sig (Elt F)).result U (Proc.devRef .tc main_v3) = _
  exact reshape_result ..

def val_main_c (V : Valuation τ sig (Elt F)) := at_nullary 5 V rfl

def val_main_v5 (V : Valuation τ sig (Elt F)) := at_unary 6 V rfl

def val_main_v6 (V : Valuation τ sig (Elt F)) := at_binary 7 V rfl

def val_main_v7 (V : Valuation τ sig (Elt F)) := at_unary 9 V rfl

def val_main_v8 (V : Valuation τ sig (Elt F)) := at_binary 10 V rfl

def val_main_v9 (V : Valuation τ sig (Elt F)) := at_ternary 11 V rfl

def val_main_v10 (V : Valuation τ sig (Elt F)) := at_unary 12 V rfl

def val_main_v11 (V : Valuation τ sig (Elt F)) := at_binary 13 V rfl

def val_main_cst (V : Valuation τ sig (Elt F)) := at_nullary 14 V rfl

def val_main_v12 (V : Valuation τ sig (Elt F)) := at_unary 15 V rfl

def val_main_v13 (V : Valuation τ sig (Elt F)) := at_unary 16 V rfl

def val_main_v14 (V : Valuation τ sig (Elt F)) := at_ternary 17 V rfl

def val_main_cst_1 (V : Valuation τ sig (Elt F)) := at_nullary 18 V rfl

def val_main_v15 (V : Valuation τ sig (Elt F)) := at_unary 19 V rfl

def val_main_cst_2 (V : Valuation τ sig (Elt F)) := at_nullary 20 V rfl

def val_main_v16 (V : Valuation τ sig (Elt F)) := at_unary 21 V rfl

def val_main_v17 (V : Valuation τ sig (Elt F)) := at_unary 22 V rfl

def val_main_v18 (V : Valuation τ sig (Elt F)) := at_ternary 23 V rfl

def val_main_cst_3 (V : Valuation τ sig (Elt F)) := at_nullary 24 V rfl

def val_main_v19 (V : Valuation τ sig (Elt F)) := at_unary 25 V rfl

def val_main_v20 (V : Valuation τ sig (Elt F)) := at_binary 26 V rfl

def val_main_v21 (V : Valuation τ sig (Elt F)) := at_unary 27 V rfl

def val_main_v22 (V : Valuation τ sig (Elt F)) := at_unary 28 V rfl

def val_main_v23 (V : Valuation τ sig (Elt F)) := at_binary 29 V rfl

def val_main_v24 (V : Valuation τ sig (Elt F)) := at_unary 30 V rfl

def val_main_v25 (V : Valuation τ sig (Elt F)) := at_binary 31 V rfl

def val_main_v26 (V : Valuation τ sig (Elt F)) := at_unary 32 V rfl

def val_main_v27 (V : Valuation τ sig (Elt F)) := at_unary 33 V rfl

def val_main_v28 (V : Valuation τ sig (Elt F)) := at_binary 34 V rfl

def val_main_v29 (V : Valuation τ sig (Elt F)) := at_unary 35 V rfl

def val_main_v30 (V : Valuation τ sig (Elt F)) := at_binary 36 V rfl

def val_main_v31 (V : Valuation τ sig (Elt F)) := at_binary 37 V rfl

theorem val_main_call0_cst (V : Valuation τ sig (Elt F)) :
    after ops V (Proc.devRef .tc main_call0_cst) = (constant S_ .f32 0x00000000#32) :=
  at_nullary 38 V rfl

theorem val_main_call0_v0 (V : Valuation τ sig (Elt F)) :
    after ops V (Proc.devRef .tc main_call0_v0) = (broadcastInDim S8192x256 ![] bcast_S_S8192x256) (after ops V (Proc.devRef .tc main_call0_cst)) :=
  at_unary 39 V rfl

theorem val_main_v32 (V : Valuation τ sig (Elt F)) :
    after ops V (Proc.devRef .tc main_v32) = maximumf (after ops V (Proc.devRef .tc main_v31)) (after ops V (Proc.devRef .tc main_call0_v0)) :=
  at_binary 40 V rfl

def val_main_cst_4 (V : Valuation τ sig (Elt F)) := at_nullary 41 V rfl

def val_main_v33 (V : Valuation τ sig (Elt F)) := at_binary 42 V rfl

def val_main_v34 (V : Valuation τ sig (Elt F)) := at_unary 43 V rfl

def val_main_cst_5 (V : Valuation τ sig (Elt F)) := at_nullary 44 V rfl

def val_main_v35 (V : Valuation τ sig (Elt F)) := at_unary 45 V rfl

def val_main_v36 (V : Valuation τ sig (Elt F)) := at_binary 46 V rfl

def val_main_v37 (V : Valuation τ sig (Elt F)) := at_unary 47 V rfl

def val_main_v38 (V : Valuation τ sig (Elt F)) := at_binary 48 V rfl

def val_main_v39 (V : Valuation τ sig (Elt F)) := at_binary 49 V rfl

def val_main_cst_6 (V : Valuation τ sig (Elt F)) := at_nullary 50 V rfl

def val_main_v40 (V : Valuation τ sig (Elt F)) := at_binary 51 V rfl

def val_main_v41 (V : Valuation τ sig (Elt F)) := at_unary 52 V rfl

def val_main_cst_7 (V : Valuation τ sig (Elt F)) := at_nullary 53 V rfl

def val_main_v42 (V : Valuation τ sig (Elt F)) := at_unary 54 V rfl

def val_main_v43 (V : Valuation τ sig (Elt F)) := at_binary 55 V rfl

def val_main_v44 (V : Valuation τ sig (Elt F)) := at_unary 56 V rfl

def val_main_v45 (V : Valuation τ sig (Elt F)) := at_binary 57 V rfl

def val_main_cst_8 (V : Valuation τ sig (Elt F)) := at_nullary 58 V rfl

def val_main_v46 (V : Valuation τ sig (Elt F)) := at_unary 59 V rfl

def val_main_v47 (V : Valuation τ sig (Elt F)) := at_binary 60 V rfl

def val_main_v48 (V : Valuation τ sig (Elt F)) := at_unary 61 V rfl

def val_main_v49 (V : Valuation τ sig (Elt F)) := at_unary 62 V rfl

def val_main_v50 (V : Valuation τ sig (Elt F)) := at_binary 63 V rfl

def val_main_v51 (V : Valuation τ sig (Elt F)) := at_unary 64 V rfl

def val_main_v52 (V : Valuation τ sig (Elt F)) := at_unary 65 V rfl

def val_main_v53 (V : Valuation τ sig (Elt F)) := at_binary 66 V rfl

def val_main_v54 (V : Valuation τ sig (Elt F)) := at_unary 67 V rfl

def val_main_v55 (V : Valuation τ sig (Elt F)) := at_unary 68 V rfl

def val_main_v56 (V : Valuation τ sig (Elt F)) := at_binary 69 V rfl

def val_main_cst_9 (V : Valuation τ sig (Elt F)) := at_nullary 70 V rfl

def val_main_v57 (V : Valuation τ sig (Elt F)) := at_unary 71 V rfl

def val_main_v58 (V : Valuation τ sig (Elt F)) := at_binary 72 V rfl

def val_main_c_10 (V : Valuation τ sig (Elt F)) := at_nullary 73 V rfl

def val_main_v59 (V : Valuation τ sig (Elt F)) := at_binary 74 V rfl

theorem val_main_call1_v0 (V : Valuation τ sig (Elt F)) :
    after ops V (Proc.devRef .tc main_call1_v0) = (iotaInDim S8192 32 0) :=
  at_nullary 75 V rfl

theorem val_main_call1_c (V : Valuation τ sig (Elt F)) :
    after ops V (Proc.devRef .tc main_call1_c) = (constantI S_ 1 0#1) :=
  at_nullary 76 V rfl

theorem val_main_call1_c_0 (V : Valuation τ sig (Elt F)) :
    after ops V (Proc.devRef .tc main_call1_c_0) = (constantI S_ 32 0#32) :=
  at_nullary 77 V rfl

theorem val_main_v60 (V : Valuation τ sig (Elt F)) :
    after ops V (Proc.devRef .tc main_v60) = (fun x y u v j => (Host.reduce2 reducer_argmax_i1_i32 x y u v reducesTo_S8192_S_d0 h_S_ j).2) (after ops V (Proc.devRef .tc main_v59)) (after ops V (Proc.devRef .tc main_call1_v0)) (after ops V (Proc.devRef .tc main_call1_c)) (after ops V (Proc.devRef .tc main_call1_c_0)) := by
  rw [read 79 (by decide) main_v60 (by decide +kernel) V, after_take_keep ops_writesAt 79 main_v59 (by decide +kernel) V, after_take_keep ops_writesAt 79 main_call1_v0 (by decide +kernel) V, after_take_keep ops_writesAt 79 main_call1_c (by decide +kernel) V, after_take_keep ops_writesAt 79 main_call1_c_0 (by decide +kernel) V]
  generalize after (List.take 79 ops) V = U
  show (StableHlo.TRef.quaternary (.of main_v59 : StableHlo.TRef sig ⟨S8192, .i1⟩) main_call1.v0 main_call1.c main_call1.c_0 main_call1.v1_1 (fun x y u v j => (Host.reduce2 reducer_argmax_i1_i32 x y u v reducesTo_S8192_S_d0 h_S_ j).2) : HloOp τ sig (Elt F)).result U (Proc.devRef .tc main_v60) = _
  exact quaternary_result ..

def val_main_c_11 (V : Valuation τ sig (Elt F)) := at_nullary 80 V rfl

def val_main_v61 (V : Valuation τ sig (Elt F)) := at_binary 81 V rfl

def val_main_c_12 (V : Valuation τ sig (Elt F)) := at_nullary 82 V rfl

def val_main_v62 (V : Valuation τ sig (Elt F)) := at_binary 83 V rfl

def val_main_v63 (V : Valuation τ sig (Elt F)) := at_ternary 84 V rfl

def val_main_c_13 (V : Valuation τ sig (Elt F)) := at_nullary 85 V rfl

def val_main_c_14 (V : Valuation τ sig (Elt F)) := at_nullary 86 V rfl

def val_main_v64 (V : Valuation τ sig (Elt F)) := at_binary 87 V rfl

def val_main_c_15 (V : Valuation τ sig (Elt F)) := at_nullary 88 V rfl

def val_main_c_16 (V : Valuation τ sig (Elt F)) := at_nullary 89 V rfl

def val_main_v65 (V : Valuation τ sig (Elt F)) := at_binary 90 V rfl

def val_main_c_17 (V : Valuation τ sig (Elt F)) := at_nullary 91 V rfl

def val_main_v66 (V : Valuation τ sig (Elt F)) := at_ternary 92 V rfl

theorem val_main_v68 (V : Valuation τ sig (Elt F)) :
    after ops V (Proc.devRef .tc main_v68) = fun i => shapeCast _ (after ops V (Proc.devRef .tc main_v67)) shapeCasts_S1x256_S256 i := by
  rw [read 94 (by decide) main_v68 (by decide +kernel) V, after_take_keep ops_writesAt 94 main_v67 (by decide +kernel) V]
  generalize after (List.take 94 ops) V = U
  show (StableHlo.reshape main_v67 main_v68 rfl shapeCasts_S1x256_S256 : HloOp τ sig (Elt F)).result U (Proc.devRef .tc main_v68) = _
  exact reshape_result ..

def val_main_v69 (V : Valuation τ sig (Elt F)) := at_unary 95 V rfl

def val_main_v70 (V : Valuation τ sig (Elt F)) := at_unary 96 V rfl

def val_main_v71 (V : Valuation τ sig (Elt F)) := at_binary 97 V rfl

def val_main_c_18 (V : Valuation τ sig (Elt F)) := at_nullary 98 V rfl

def val_main_v72 (V : Valuation τ sig (Elt F)) := at_unary 99 V rfl

def val_main_v73 (V : Valuation τ sig (Elt F)) := at_binary 100 V rfl

def val_main_v74 (V : Valuation τ sig (Elt F)) := at_unary 102 V rfl

def val_main_v75 (V : Valuation τ sig (Elt F)) := at_binary 103 V rfl

def val_main_v76 (V : Valuation τ sig (Elt F)) := at_ternary 104 V rfl

def val_main_v77 (V : Valuation τ sig (Elt F)) := at_unary 105 V rfl

def val_main_v78 (V : Valuation τ sig (Elt F)) := at_binary 106 V rfl

def val_main_cst_20 (V : Valuation τ sig (Elt F)) := at_nullary 107 V rfl

def val_main_v79 (V : Valuation τ sig (Elt F)) := at_unary 108 V rfl

def val_main_v80 (V : Valuation τ sig (Elt F)) := at_unary 109 V rfl

def val_main_v81 (V : Valuation τ sig (Elt F)) := at_ternary 110 V rfl

def val_main_cst_21 (V : Valuation τ sig (Elt F)) := at_nullary 111 V rfl

def val_main_v82 (V : Valuation τ sig (Elt F)) := at_unary 112 V rfl

def val_main_cst_22 (V : Valuation τ sig (Elt F)) := at_nullary 113 V rfl

def val_main_v83 (V : Valuation τ sig (Elt F)) := at_unary 114 V rfl

def val_main_v84 (V : Valuation τ sig (Elt F)) := at_unary 115 V rfl

def val_main_v85 (V : Valuation τ sig (Elt F)) := at_ternary 116 V rfl

def val_main_cst_23 (V : Valuation τ sig (Elt F)) := at_nullary 117 V rfl

def val_main_v86 (V : Valuation τ sig (Elt F)) := at_unary 118 V rfl

def val_main_v87 (V : Valuation τ sig (Elt F)) := at_binary 119 V rfl

def val_main_v88 (V : Valuation τ sig (Elt F)) := at_unary 120 V rfl

def val_main_v89 (V : Valuation τ sig (Elt F)) := at_unary 121 V rfl

def val_main_v90 (V : Valuation τ sig (Elt F)) := at_binary 122 V rfl

def val_main_v91 (V : Valuation τ sig (Elt F)) := at_unary 123 V rfl

def val_main_v92 (V : Valuation τ sig (Elt F)) := at_binary 124 V rfl

def val_main_v93 (V : Valuation τ sig (Elt F)) := at_unary 125 V rfl

def val_main_v94 (V : Valuation τ sig (Elt F)) := at_unary 126 V rfl

def val_main_v95 (V : Valuation τ sig (Elt F)) := at_binary 127 V rfl

def val_main_v96 (V : Valuation τ sig (Elt F)) := at_unary 128 V rfl

def val_main_v97 (V : Valuation τ sig (Elt F)) := at_binary 129 V rfl

def val_main_v98 (V : Valuation τ sig (Elt F)) := at_binary 130 V rfl

theorem val_main_call2_cst (V : Valuation τ sig (Elt F)) :
    after ops V (Proc.devRef .tc main_call2_cst) = (constant S_ .f32 0x00000000#32) :=
  at_nullary 131 V rfl

theorem val_main_call2_v0 (V : Valuation τ sig (Elt F)) :
    after ops V (Proc.devRef .tc main_call2_v0) = (broadcastInDim S8192x256 ![] bcast_S_S8192x256) (after ops V (Proc.devRef .tc main_call2_cst)) :=
  at_unary 132 V rfl

theorem val_main_v99 (V : Valuation τ sig (Elt F)) :
    after ops V (Proc.devRef .tc main_v99) = maximumf (after ops V (Proc.devRef .tc main_v98)) (after ops V (Proc.devRef .tc main_call2_v0)) :=
  at_binary 133 V rfl

def val_main_cst_24 (V : Valuation τ sig (Elt F)) := at_nullary 134 V rfl

def val_main_v100 (V : Valuation τ sig (Elt F)) := at_binary 135 V rfl

def val_main_v101 (V : Valuation τ sig (Elt F)) := at_unary 136 V rfl

def val_main_cst_25 (V : Valuation τ sig (Elt F)) := at_nullary 137 V rfl

def val_main_v102 (V : Valuation τ sig (Elt F)) := at_unary 138 V rfl

def val_main_v103 (V : Valuation τ sig (Elt F)) := at_binary 139 V rfl

def val_main_v104 (V : Valuation τ sig (Elt F)) := at_unary 140 V rfl

def val_main_v105 (V : Valuation τ sig (Elt F)) := at_binary 141 V rfl

def val_main_v106 (V : Valuation τ sig (Elt F)) := at_binary 142 V rfl

def val_main_cst_26 (V : Valuation τ sig (Elt F)) := at_nullary 143 V rfl

def val_main_v107 (V : Valuation τ sig (Elt F)) := at_binary 144 V rfl

def val_main_v108 (V : Valuation τ sig (Elt F)) := at_unary 145 V rfl

def val_main_cst_27 (V : Valuation τ sig (Elt F)) := at_nullary 146 V rfl

def val_main_v109 (V : Valuation τ sig (Elt F)) := at_unary 147 V rfl

def val_main_v110 (V : Valuation τ sig (Elt F)) := at_binary 148 V rfl

def val_main_v111 (V : Valuation τ sig (Elt F)) := at_unary 149 V rfl

def val_main_v112 (V : Valuation τ sig (Elt F)) := at_binary 150 V rfl

def val_main_cst_28 (V : Valuation τ sig (Elt F)) := at_nullary 151 V rfl

def val_main_v113 (V : Valuation τ sig (Elt F)) := at_unary 152 V rfl

def val_main_v114 (V : Valuation τ sig (Elt F)) := at_binary 153 V rfl

def val_main_v115 (V : Valuation τ sig (Elt F)) := at_unary 154 V rfl

def val_main_v116 (V : Valuation τ sig (Elt F)) := at_unary 155 V rfl

def val_main_v117 (V : Valuation τ sig (Elt F)) := at_binary 156 V rfl

def val_main_v118 (V : Valuation τ sig (Elt F)) := at_unary 157 V rfl

def val_main_v119 (V : Valuation τ sig (Elt F)) := at_unary 158 V rfl

def val_main_v120 (V : Valuation τ sig (Elt F)) := at_binary 159 V rfl

def val_main_v121 (V : Valuation τ sig (Elt F)) := at_unary 160 V rfl

def val_main_v122 (V : Valuation τ sig (Elt F)) := at_unary 161 V rfl

def val_main_v123 (V : Valuation τ sig (Elt F)) := at_binary 162 V rfl

def val_main_c_29 (V : Valuation τ sig (Elt F)) := at_nullary 163 V rfl

def val_main_v124 (V : Valuation τ sig (Elt F)) := at_unary 164 V rfl

def val_main_v125 (V : Valuation τ sig (Elt F)) := at_binary 165 V rfl

def val_main_v126 (V : Valuation τ sig (Elt F)) := at_unary 167 V rfl

def val_main_v127 (V : Valuation τ sig (Elt F)) := at_binary 168 V rfl

def val_main_v128 (V : Valuation τ sig (Elt F)) := at_ternary 169 V rfl

def val_main_v129 (V : Valuation τ sig (Elt F)) := at_unary 170 V rfl

def val_main_v130 (V : Valuation τ sig (Elt F)) := at_binary 171 V rfl

def val_main_cst_31 (V : Valuation τ sig (Elt F)) := at_nullary 172 V rfl

def val_main_v131 (V : Valuation τ sig (Elt F)) := at_unary 173 V rfl

def val_main_v132 (V : Valuation τ sig (Elt F)) := at_unary 174 V rfl

def val_main_v133 (V : Valuation τ sig (Elt F)) := at_ternary 175 V rfl

def val_main_cst_32 (V : Valuation τ sig (Elt F)) := at_nullary 176 V rfl

def val_main_v134 (V : Valuation τ sig (Elt F)) := at_unary 177 V rfl

def val_main_cst_33 (V : Valuation τ sig (Elt F)) := at_nullary 178 V rfl

def val_main_v135 (V : Valuation τ sig (Elt F)) := at_unary 179 V rfl

def val_main_v136 (V : Valuation τ sig (Elt F)) := at_unary 180 V rfl

def val_main_v137 (V : Valuation τ sig (Elt F)) := at_ternary 181 V rfl

def val_main_cst_34 (V : Valuation τ sig (Elt F)) := at_nullary 182 V rfl

def val_main_v138 (V : Valuation τ sig (Elt F)) := at_unary 183 V rfl

def val_main_v139 (V : Valuation τ sig (Elt F)) := at_binary 184 V rfl

def val_main_v140 (V : Valuation τ sig (Elt F)) := at_unary 185 V rfl

def val_main_v141 (V : Valuation τ sig (Elt F)) := at_unary 186 V rfl

def val_main_v142 (V : Valuation τ sig (Elt F)) := at_binary 187 V rfl

def val_main_v143 (V : Valuation τ sig (Elt F)) := at_unary 188 V rfl

def val_main_v144 (V : Valuation τ sig (Elt F)) := at_binary 189 V rfl

def val_main_v145 (V : Valuation τ sig (Elt F)) := at_unary 190 V rfl

def val_main_v146 (V : Valuation τ sig (Elt F)) := at_unary 191 V rfl

def val_main_v147 (V : Valuation τ sig (Elt F)) := at_binary 192 V rfl

def val_main_v148 (V : Valuation τ sig (Elt F)) := at_unary 193 V rfl

def val_main_v149 (V : Valuation τ sig (Elt F)) := at_binary 194 V rfl

def val_main_v150 (V : Valuation τ sig (Elt F)) := at_binary 195 V rfl

theorem val_main_call3_cst (V : Valuation τ sig (Elt F)) :
    after ops V (Proc.devRef .tc main_call3_cst) = (constant S_ .f32 0x00000000#32) :=
  at_nullary 196 V rfl

theorem val_main_call3_v0 (V : Valuation τ sig (Elt F)) :
    after ops V (Proc.devRef .tc main_call3_v0) = (broadcastInDim S8192x256 ![] bcast_S_S8192x256) (after ops V (Proc.devRef .tc main_call3_cst)) :=
  at_unary 197 V rfl

theorem val_main_v151 (V : Valuation τ sig (Elt F)) :
    after ops V (Proc.devRef .tc main_v151) = maximumf (after ops V (Proc.devRef .tc main_v150)) (after ops V (Proc.devRef .tc main_call3_v0)) :=
  at_binary 198 V rfl

def val_main_v152 (V : Valuation τ sig (Elt F)) := at_unary 199 V rfl

def val_main_v153 (V : Valuation τ sig (Elt F)) := at_binary 200 V rfl

def val_main_v154 (V : Valuation τ sig (Elt F)) := at_unary 201 V rfl

def val_main_v155 (V : Valuation τ sig (Elt F)) := at_unary 202 V rfl

def val_main_v156 (V : Valuation τ sig (Elt F)) := at_binary 203 V rfl

def val_main_cst_35 (V : Valuation τ sig (Elt F)) := at_nullary 204 V rfl

def val_main_v157 (V : Valuation τ sig (Elt F)) := at_binary 205 V rfl

def val_main_cst_36 (V : Valuation τ sig (Elt F)) := at_nullary 206 V rfl

def val_main_v158 (V : Valuation τ sig (Elt F)) := at_unary 207 V rfl

def val_main_v159 (V : Valuation τ sig (Elt F)) := at_binary 208 V rfl

def val_main_v160 (V : Valuation τ sig (Elt F)) := at_unary 209 V rfl

def val_main_v161 (V : Valuation τ sig (Elt F)) := at_unary 210 V rfl

def val_main_v162 (V : Valuation τ sig (Elt F)) := at_binary 211 V rfl

def val_main_v163 (V : Valuation τ sig (Elt F)) := at_unary 212 V rfl

def val_main_cst_37 (V : Valuation τ sig (Elt F)) := at_nullary 213 V rfl

def val_main_v164 (V : Valuation τ sig (Elt F)) := at_binary 214 V rfl

def val_main_v165 (V : Valuation τ sig (Elt F)) := at_unary 215 V rfl

def val_main_v166 (V : Valuation τ sig (Elt F)) := at_unary 216 V rfl

def val_main_v167 (V : Valuation τ sig (Elt F)) := at_binary 217 V rfl

def val_main_cst_38 (V : Valuation τ sig (Elt F)) := at_nullary 218 V rfl

def val_main_v168 (V : Valuation τ sig (Elt F)) := at_unary 219 V rfl

def val_main_c_39 (V : Valuation τ sig (Elt F)) := at_nullary 220 V rfl

def val_main_v169 (V : Valuation τ sig (Elt F)) := at_unary 221 V rfl

def val_main_v170 (V : Valuation τ sig (Elt F)) := at_binary 222 V rfl

def val_main_c_40 (V : Valuation τ sig (Elt F)) := at_nullary 223 V rfl

def val_main_v171 (V : Valuation τ sig (Elt F)) := at_unary 224 V rfl

def val_main_v172 (V : Valuation τ sig (Elt F)) := at_binary 225 V rfl

def val_main_v173 (V : Valuation τ sig (Elt F)) := at_ternary 226 V rfl

def val_main_c_41 (V : Valuation τ sig (Elt F)) := at_nullary 227 V rfl

def val_main_v174 (V : Valuation τ sig (Elt F)) := at_unary 228 V rfl

def val_main_v175 (V : Valuation τ sig (Elt F)) := at_binary 229 V rfl

def val_main_c_42 (V : Valuation τ sig (Elt F)) := at_nullary 230 V rfl

def val_main_v176 (V : Valuation τ sig (Elt F)) := at_unary 231 V rfl

def val_main_v177 (V : Valuation τ sig (Elt F)) := at_binary 232 V rfl

def val_main_v178 (V : Valuation τ sig (Elt F)) := at_ternary 233 V rfl

def val_main_v179 (V : Valuation τ sig (Elt F)) := at_unary 234 V rfl

def val_main_v180 (V : Valuation τ sig (Elt F)) := at_unary 235 V rfl

def val_main_v181 (V : Valuation τ sig (Elt F)) := at_binary 236 V rfl

def val_main_v182 (V : Valuation τ sig (Elt F)) := at_binary 237 V rfl

def val_main_c_43 (V : Valuation τ sig (Elt F)) := at_nullary 238 V rfl

def val_main_v183 (V : Valuation τ sig (Elt F)) := at_unary 239 V rfl

def val_main_v184 (V : Valuation τ sig (Elt F)) := at_binary 240 V rfl

def val_main_c_44 (V : Valuation τ sig (Elt F)) := at_nullary 241 V rfl

def val_main_v185 (V : Valuation τ sig (Elt F)) := at_unary 242 V rfl

def val_main_v186 (V : Valuation τ sig (Elt F)) := at_binary 243 V rfl

def val_main_v187 (V : Valuation τ sig (Elt F)) := at_ternary 244 V rfl

def val_main_c_45 (V : Valuation τ sig (Elt F)) := at_nullary 245 V rfl

def val_main_v188 (V : Valuation τ sig (Elt F)) := at_unary 246 V rfl

def val_main_v189 (V : Valuation τ sig (Elt F)) := at_binary 247 V rfl

def val_main_c_46 (V : Valuation τ sig (Elt F)) := at_nullary 248 V rfl

def val_main_v190 (V : Valuation τ sig (Elt F)) := at_unary 249 V rfl

def val_main_v191 (V : Valuation τ sig (Elt F)) := at_binary 250 V rfl

def val_main_v192 (V : Valuation τ sig (Elt F)) := at_ternary 251 V rfl

def val_main_v193 (V : Valuation τ sig (Elt F)) := at_unary 252 V rfl

def val_main_v194 (V : Valuation τ sig (Elt F)) := at_unary 253 V rfl

def val_main_v195 (V : Valuation τ sig (Elt F)) := at_binary 254 V rfl

def val_main_v196 (V : Valuation τ sig (Elt F)) := at_ternary 255 V rfl

def val_main_v197 (V : Valuation τ sig (Elt F)) := at_nullary 256 V rfl

def val_main_c_47 (V : Valuation τ sig (Elt F)) := at_nullary 257 V rfl

def val_main_v198 (V : Valuation τ sig (Elt F)) := at_unary 258 V rfl

def val_main_v199 (V : Valuation τ sig (Elt F)) := at_binary 259 V rfl

def val_main_c_48 (V : Valuation τ sig (Elt F)) := at_nullary 260 V rfl

def val_main_v200 (V : Valuation τ sig (Elt F)) := at_unary 261 V rfl

def val_main_v201 (V : Valuation τ sig (Elt F)) := at_binary 262 V rfl

def val_main_v202 (V : Valuation τ sig (Elt F)) := at_ternary 263 V rfl

def val_main_c_49 (V : Valuation τ sig (Elt F)) := at_nullary 264 V rfl

def val_main_v203 (V : Valuation τ sig (Elt F)) := at_unary 265 V rfl

def val_main_v204 (V : Valuation τ sig (Elt F)) := at_binary 266 V rfl

def val_main_c_50 (V : Valuation τ sig (Elt F)) := at_nullary 267 V rfl

def val_main_v205 (V : Valuation τ sig (Elt F)) := at_unary 268 V rfl

def val_main_v206 (V : Valuation τ sig (Elt F)) := at_binary 269 V rfl

def val_main_v207 (V : Valuation τ sig (Elt F)) := at_ternary 270 V rfl

def val_main_v208 (V : Valuation τ sig (Elt F)) := at_unary 271 V rfl

def val_main_v209 (V : Valuation τ sig (Elt F)) := at_unary 272 V rfl

def val_main_v210 (V : Valuation τ sig (Elt F)) := at_binary 273 V rfl

def val_main_v211 (V : Valuation τ sig (Elt F)) := at_binary 274 V rfl

def val_main_c_51 (V : Valuation τ sig (Elt F)) := at_nullary 275 V rfl

def val_main_v212 (V : Valuation τ sig (Elt F)) := at_unary 276 V rfl

def val_main_v213 (V : Valuation τ sig (Elt F)) := at_binary 277 V rfl

def val_main_c_52 (V : Valuation τ sig (Elt F)) := at_nullary 278 V rfl

def val_main_v214 (V : Valuation τ sig (Elt F)) := at_unary 279 V rfl

def val_main_v215 (V : Valuation τ sig (Elt F)) := at_binary 280 V rfl

def val_main_v216 (V : Valuation τ sig (Elt F)) := at_ternary 281 V rfl

def val_main_c_53 (V : Valuation τ sig (Elt F)) := at_nullary 282 V rfl

def val_main_v217 (V : Valuation τ sig (Elt F)) := at_unary 283 V rfl

def val_main_v218 (V : Valuation τ sig (Elt F)) := at_binary 284 V rfl

def val_main_c_54 (V : Valuation τ sig (Elt F)) := at_nullary 285 V rfl

def val_main_v219 (V : Valuation τ sig (Elt F)) := at_unary 286 V rfl

def val_main_v220 (V : Valuation τ sig (Elt F)) := at_binary 287 V rfl

def val_main_v221 (V : Valuation τ sig (Elt F)) := at_ternary 288 V rfl

def val_main_v222 (V : Valuation τ sig (Elt F)) := at_unary 289 V rfl

def val_main_v223 (V : Valuation τ sig (Elt F)) := at_unary 290 V rfl

def val_main_v224 (V : Valuation τ sig (Elt F)) := at_binary 291 V rfl

def val_main_v225 (V : Valuation τ sig (Elt F)) := at_ternary 292 V rfl

def val_main_cst_55 (V : Valuation τ sig (Elt F)) := at_nullary 293 V rfl

def val_main_v226 (V : Valuation τ sig (Elt F)) := at_binary 294 V rfl

def val_main_v227 (V : Valuation τ sig (Elt F)) := at_unary 295 V rfl

def val_main_cst_56 (V : Valuation τ sig (Elt F)) := at_nullary 296 V rfl

def val_main_v228 (V : Valuation τ sig (Elt F)) := at_unary 297 V rfl

def val_main_v229 (V : Valuation τ sig (Elt F)) := at_binary 298 V rfl

def val_main_cst_57 (V : Valuation τ sig (Elt F)) := at_nullary 299 V rfl

theorem val_main_call4_v0 (V : Valuation τ sig (Elt F)) :
    after ops V (Proc.devRef .tc main_call4_v0) = id (after ops V (Proc.devRef .tc main_cst_57)) :=
  at_unary 300 V rfl

theorem val_main_call4_v1 (V : Valuation τ sig (Elt F)) :
    after ops V (Proc.devRef .tc main_call4_v1) = (broadcastInDim S8192x1 ![] bcast_S_S8192x1) (after ops V (Proc.devRef .tc main_call4_v0)) :=
  at_unary 301 V rfl

theorem val_main_v230 (V : Valuation τ sig (Elt F)) :
    after ops V (Proc.devRef .tc main_v230) = select (after ops V (Proc.devRef .tc main_v229)) (after ops V (Proc.devRef .tc main_v227)) (after ops V (Proc.devRef .tc main_call4_v1)) :=
  at_ternary 302 V rfl

def val_main_v231 (V : Valuation τ sig (Elt F)) := at_unary 303 V rfl

theorem val_main_v232 (V : Valuation τ sig (Elt F)) :
    after ops V (Proc.devRef .tc main_v232) = (Host.divf : (⟨S8192x8192, .f32⟩ : BufTy).Contents (Elt F) → (⟨S8192x8192, .f32⟩ : BufTy).Contents (Elt F) → (⟨S8192x8192, .f32⟩ : BufTy).Contents (Elt F)) (after ops V (Proc.devRef .tc main_v225)) (after ops V (Proc.devRef .tc main_v231)) := by
  rw [read 304 (by decide) main_v232 (by decide +kernel) V, after_take_keep ops_writesAt 304 main_v225 (by decide +kernel) V, after_take_keep ops_writesAt 304 main_v231 (by decide +kernel) V]
  generalize after (List.take 304 ops) V = U
  show (StableHlo.binary main_v225 main_v231 main_v232 (Host.divf : (⟨S8192x8192, .f32⟩ : BufTy).Contents (Elt F) → (⟨S8192x8192, .f32⟩ : BufTy).Contents (Elt F) → (⟨S8192x8192, .f32⟩ : BufTy).Contents (Elt F)) : HloOp τ sig (Elt F)).result U (Proc.devRef .tc main_v232) = _
  exact binary_result ..

theorem val_main_v4 (V : Valuation τ sig (Elt F)) :
    after ops V (Proc.devRef .tc main_v4)
      = concatenate S8192x160 1 [⟨S8192x32, after ops V (Proc.devRef .tc main_arg0)⟩, ⟨S8192x32, after ops V (Proc.devRef .tc main_arg1)⟩, ⟨S8192x32, after ops V (Proc.devRef .tc main_arg2)⟩, ⟨S8192x32, after ops V (Proc.devRef .tc main_arg3)⟩, ⟨S8192x32, after ops V (Proc.devRef .tc main_arg4)⟩] concatenates_S8192x32_S8192x32_S8192x32_S8192x32_S8192x32_S8192x160_d1 := by
  rw [read 4 (by decide) main_v4 (by decide +kernel) V, after_take_keep ops_writesAt 4 main_arg0 (by decide +kernel) V, after_take_keep ops_writesAt 4 main_arg1 (by decide +kernel) V, after_take_keep ops_writesAt 4 main_arg2 (by decide +kernel) V, after_take_keep ops_writesAt 4 main_arg3 (by decide +kernel) V, after_take_keep ops_writesAt 4 main_arg4 (by decide +kernel) V]
  generalize after (List.take 4 ops) V = U
  show (StableHlo.nary ![main_arg0, main_arg1, main_arg2, main_arg3, main_arg4] main_v4 (fun u => concatenate S8192x160 1 [⟨S8192x32, u 0⟩, ⟨S8192x32, u 1⟩, ⟨S8192x32, u 2⟩, ⟨S8192x32, u 3⟩, ⟨S8192x32, u 4⟩] concatenates_S8192x32_S8192x32_S8192x32_S8192x32_S8192x32_S8192x160_d1) : HloOp τ sig (Elt F)).result U (Proc.devRef .tc main_v4) = _
  exact nary_result ..

theorem val_main_v67 (V : Valuation τ sig (Elt F)) :
    after ops V (Proc.devRef .tc main_v67)
      = Host.dynamicSlice S1x256 (after ops V (Proc.devRef .tc main_v56))
          (fun k => ((![after ops V (Proc.devRef .tc main_v63), after ops V (Proc.devRef .tc main_v66)] : Fin 2 → (⟨S_, .i32⟩ : BufTy).Contents (Elt F)) k (Shape.Idx.first h_S_)).toInt)
          sliceFits_S8192x256_S1x256 := by
  rw [read 93 (by decide) main_v67 (by decide +kernel) V, after_take_keep ops_writesAt 93 main_v56 (by decide +kernel) V,
    after_take_keep ops_writesAt 93 main_v63 (by decide +kernel) V, after_take_keep ops_writesAt 93 main_v66 (by decide +kernel) V]
  generalize after (List.take 93 ops) V = U
  show (StableHlo.unaryIndexed main_v56 ![main_v63, main_v66] ⟨S_, .i32⟩ main_v67 ((fun x i => Host.dynamicSlice S1x256 x (fun k => (i k (Shape.Idx.first h_S_)).toInt) sliceFits_S8192x256_S1x256) : (⟨S8192x256, .f32⟩ : BufTy).Contents (Elt F) → (Fin 2 → (⟨S_, .i32⟩ : BufTy).Contents (Elt F)) → (⟨S1x256, .f32⟩ : BufTy).Contents (Elt F)) : HloOp τ sig (Elt F)).result U (Proc.devRef .tc main_v67) = _
  refine (unaryIndexed_result ..).trans ?_
  congr 1
  funext k
  fin_cases k <;> rfl

end Cert.ReferenceIdeal.RefRun

end
-- ==== Proof.LibScatterSet.lean ====
import proofs.«407196_j36060545417339_2_alg».proof.Proof.LibScatterMat
import Idealize.ShloMosaic.PureOps.ShapeOps
import Idealize.ShloMosaic.PureOps.Contract
import Idealize.ShloMosaic.Lib.ValueIdx
import Idealize.ShloMosaic.Lib.ValueIdxRank1

noncomputable section

namespace Cert.LibScatterSet

open Idealize.ShloMosaic Idealize.ShloMosaic.ValueIdx Cert.LibScatterMat

theorem foldl_set_own {κ ι α : Type} (tgt : κ → Option ι) (upd : κ → α) (p : ι → α)
    (step : (ι → α) → κ → (ι → α))
    (hsome : ∀ r n i0, tgt n = some i0 → step r n i0 = upd n ∧ ∀ i', i' ≠ i0 → step r n i' = r i')
    (hnone : ∀ r n, tgt n = none → step r n = r)
    (l : List κ) (hupd : ∀ n ∈ l, ∀ i, tgt n = some i → upd n = p i) (x : ι → α) (i : ι) :
    ((∃ n ∈ l, tgt n = some i) ∧ l.foldl step x i = p i) ∨ ((∀ n ∈ l, tgt n ≠ some i) ∧ l.foldl step x i = x i) := by
  induction l generalizing x with
  | nil => exact Or.inr ⟨fun n hn => absurd hn List.not_mem_nil, rfl⟩
  | cons n l ih =>
    rw [List.foldl_cons]
    have hupd' : ∀ m ∈ l, ∀ i, tgt m = some i → upd m = p i := fun m hm => hupd m (List.mem_cons_of_mem _ hm)
    rcases ih hupd' (step x n) with ⟨⟨m, hm, hmt⟩, hv⟩ | ⟨hno, hv⟩
    · exact Or.inl ⟨⟨m, List.mem_cons_of_mem _ hm, hmt⟩, hv⟩
    · by_cases hn : tgt n = some i
      · refine Or.inl ⟨⟨n, List.mem_cons_self, hn⟩, ?_⟩
        rw [hv, (hsome x n i hn).1]
        exact hupd n List.mem_cons_self i hn
      · refine Or.inr ⟨fun m hm => ?_, ?_⟩
        · rcases List.mem_cons.mp hm with rfl | hm'
          · exact hn
          · exact hno m hm'
        · rw [hv]
          cases h : tgt n with
          | none => rw [hnone x n h]
          | some i0 =>
            refine (hsome x n i0 h).2 i fun e => hn ?_
            rw [h, e]

theorem scatter_set_own {α : Type} {s si u : Shape} {w : Nat} (d : ScatterDims s si u) (x : s.Idx → α) (idx : IVec si w)
    (upd : u.Idx → α) (p : s.Idx → α) (hupd : ∀ j i, d.resultIdx? j idx = some i → upd j = p i) (i : s.Idx) :
    ((∃ j, d.resultIdx? j idx = some i) ∧ Host.scatter d (fun _ b => b) x idx upd i = p i)
      ∨ ((∀ j, d.resultIdx? j idx ≠ some i) ∧ Host.scatter d (fun _ b => b) x idx upd i = x i) := by
  have H := foldl_set_own (κ := Fin u.numel) (ι := s.Idx) (α := α)
    (fun n => d.resultIdx? (u.rowMajor.symm n) idx) (fun n => upd (u.rowMajor.symm n)) p
    (fun r n =>
      match d.resultIdx? (u.rowMajor.symm n) idx with
      | some i => fun i' => if i' = i then (fun (_ b : α) => b) (r i) (upd (u.rowMajor.symm n)) else r i'
      | none => r)
    (fun r n i0 h => by
      simp only [h]
      exact ⟨if_pos trivial, fun i' hi' => if_neg hi'⟩)
    (fun r n h => by simp only [h])
    (List.finRange u.numel) (fun n _ i h => hupd _ i h) x i
  rcases H with ⟨⟨n, -, hn⟩, hv⟩ | ⟨hno, hv⟩
  · exact Or.inl ⟨⟨_, hn⟩, hv⟩
  · refine Or.inr ⟨fun j => ?_, hv⟩
    have := hno (u.rowMajor j) (List.mem_finRange _)
    rwa [Equiv.symm_apply_apply] at this

section Mat

variable {M N E : Nat}
  (wf : ScatterDims.WF (⟨2, ![M, N]⟩ : Shape) (⟨2, ![E, 2]⟩ : Shape) (⟨1, ![E]⟩ : Shape) [] [0, 1] [0, 1] 1)

theorem matScatterSet_apply {α : Type} {w : Nat} (x : (⟨2, ![M, N]⟩ : Shape).Idx → α) (idx : IVec (⟨2, ![E, 2]⟩ : Shape) w)
    (upd : (⟨1, ![E]⟩ : Shape).Idx → α) (p : (⟨2, ![M, N]⟩ : Shape).Idx → α)
    (hupd : ∀ (e : Fin E) (r : Fin M) (c : Fin N), (idx (ix2 e (0 : Fin 2))).toInt = (r.val : ℤ) →
      (idx (ix2 e (1 : Fin 2))).toInt = (c.val : ℤ) → upd (ix1 e) = p (ix2 r c))
    (r : Fin M) (c : Fin N) :
    ((∃ e : Fin E, (idx (ix2 e (0 : Fin 2))).toInt = (r.val : ℤ) ∧ (idx (ix2 e (1 : Fin 2))).toInt = (c.val : ℤ))
        ∧ Host.scatter (matScatterDims M N E wf) (fun _ b => b) x idx upd (ix2 r c) = p (ix2 r c))
      ∨ ((∀ e : Fin E, ¬ ((idx (ix2 e (0 : Fin 2))).toInt = (r.val : ℤ) ∧ (idx (ix2 e (1 : Fin 2))).toInt = (c.val : ℤ)))
        ∧ Host.scatter (matScatterDims M N E wf) (fun _ b => b) x idx upd (ix2 r c) = x (ix2 r c)) := by
  have hU : ∀ j i, (matScatterDims M N E wf).resultIdx? j idx = some i → upd j = p i := by
    intro j i h
    rw [eq_ix1 j, eq_ix2 i] at h
    obtain ⟨h0, h1⟩ := (resultIdx?_eq_some_iff wf idx (j 0) (i 0) (i 1)).mp h
    rw [eq_ix1 j, eq_ix2 i]
    exact hupd (j 0) (i 0) (i 1) h0 h1
  rcases scatter_set_own (matScatterDims M N E wf) x idx upd p hU (ix2 r c) with ⟨⟨j, hj⟩, hv⟩ | ⟨hno, hv⟩
  · refine Or.inl ⟨⟨j 0, ?_⟩, hv⟩
    rw [eq_ix1 j] at hj
    exact (resultIdx?_eq_some_iff wf idx (j 0) r c).mp hj
  · refine Or.inr ⟨fun e he => ?_, hv⟩
    exact hno (ix1 e) ((resultIdx?_eq_some_iff wf idx e r c).mpr he)

end Mat

section Gather

variable {α : Type}

abbrev pairGatherDims (M N E : Nat)
    (wf : GatherDims.WF (⟨2, ![M, N]⟩ : Shape) (⟨2, ![E, 2]⟩ : Shape) (⟨1, ![E]⟩ : Shape) [] [0, 1] [] [0, 1] [] 1 ![1, 1]) :
    GatherDims (⟨2, ![M, N]⟩ : Shape) (⟨2, ![E, 2]⟩ : Shape) (⟨1, ![E]⟩ : Shape) where
  offsetDims := []
  collapsedSliceDims := [0, 1]
  operandBatchingDims := []
  startIndicesBatchingDims := []
  startIndexMap := [0, 1]
  indexVectorDim := 1
  sliceSizes := ![1, 1]
  wf := wf

variable {M N E : Nat}
  (wf : GatherDims.WF (⟨2, ![M, N]⟩ : Shape) (⟨2, ![E, 2]⟩ : Shape) (⟨1, ![E]⟩ : Shape) [] [0, 1] [] [0, 1] [] 1 ![1, 1])

theorem pairGather_apply {w : Nat} (hM : 0 < M) (hN : 0 < N) (x : (⟨2, ![M, N]⟩ : Shape).Idx → α)
    (idx : IVec (⟨2, ![E, 2]⟩ : Shape) w) (e : Fin E) :
    Host.gather (pairGatherDims M N E wf) x idx (ix1 e)
      = x (ix2 (⟨min (idx (ix2 e (0 : Fin 2))).toInt.toNat (M - 1), by omega⟩ : Fin M)
          (⟨min (idx (ix2 e (1 : Fin 2))).toInt.toNat (N - 1), by omega⟩ : Fin N)) := by
  have hk : ∀ a : Fin 2, a ∉ (List.finRange 2).filter (· ∉ [(0 : Fin 2), 1] ++ []) := by decide
  unfold Host.gather
  congr 1
  funext a
  revert a
  refine Fin.forall_fin_two.2 ⟨?_, ?_⟩
  · refine Fin.ext ?_
    show (pairGatherDims M N E wf).start (ix1 e) idx 0 + (pairGatherDims M N E wf).batchCoord (ix1 e) 0
      + (pairGatherDims M N E wf).offCoord (ix1 e) 0 = min (idx (ix2 e (0 : Fin 2))).toInt.toNat (M - 1)
    rw [GatherDims.batchCoord_eq_zero _ _ _ List.not_mem_nil, GatherDims.offCoord_eq_zero _ _ _ (hk 0)]
    simp only [Nat.add_zero]
    unfold GatherDims.start
    rw [dif_pos (show (0 : Fin 2) ∈ (pairGatherDims M N E wf).startIndexMap from List.mem_cons_self)]
    have hsi : (pairGatherDims M N E wf).siIdx (ix1 e) ⟨List.idxOf (0 : Fin 2) (pairGatherDims M N E wf).startIndexMap,
        List.idxOf_lt_length_iff.2 List.mem_cons_self⟩ = ix2 e (0 : Fin 2) := by
      funext b; refine Fin.ext ?_
      match b with
      | ⟨0, _⟩ => rfl
      | ⟨1, _⟩ => rfl
    rw [hsi]
    rfl
  · refine Fin.ext ?_
    show (pairGatherDims M N E wf).start (ix1 e) idx 1 + (pairGatherDims M N E wf).batchCoord (ix1 e) 1
      + (pairGatherDims M N E wf).offCoord (ix1 e) 1 = min (idx (ix2 e (1 : Fin 2))).toInt.toNat (N - 1)
    rw [GatherDims.batchCoord_eq_zero _ _ _ List.not_mem_nil, GatherDims.offCoord_eq_zero _ _ _ (hk 1)]
    simp only [Nat.add_zero]
    unfold GatherDims.start
    rw [dif_pos (show (1 : Fin 2) ∈ (pairGatherDims M N E wf).startIndexMap from List.mem_cons_of_mem _ List.mem_cons_self)]
    have hsi : (pairGatherDims M N E wf).siIdx (ix1 e) ⟨List.idxOf (1 : Fin 2) (pairGatherDims M N E wf).startIndexMap,
        List.idxOf_lt_length_iff.2 (List.mem_cons_of_mem _ List.mem_cons_self)⟩ = ix2 e (1 : Fin 2) := by
      funext b; refine Fin.ext ?_
      match b with
      | ⟨0, _⟩ => rfl
      | ⟨1, _⟩ => rfl
    rw [hsi]
    rfl

end Gather

end Cert.LibScatterSet

end
-- ==== Proof.RefReads.lean ====
import proofs.«407196_j36060545417339_2_alg».proof.Proof.SoftmaxForms
import proofs.«407196_j36060545417339_2_alg».proof.Proof.Network
import proofs.«407196_j36060545417339_2_alg».proof.Proof.SpecHost
import proofs.«407196_j36060545417339_2_alg».proof.Proof.LibScatterSet
import Idealize.ShloMosaic.PureOps.Ideal.Laws
import Idealize.ShloMosaic.Lib.IdealHost
import Idealize.ShloMosaic.Lib.ValueIdx
import Idealize.ShloMosaic.Lib.ValueLayout
import Idealize.ShloMosaic.Lib.Pipeline.Value
import Idealize.ShloMosaic.Lib.StackMember
import Idealize.ShloMosaic.Lib.StableHlo.Predicate
import Idealize.ShloMosaic.Lib.Affine

noncomputable section

open scoped BigOperators

namespace Cert.KernelIdeal.Gen.RefReads

open Idealize.ShloMosaic Idealize.ShloMosaic.ValueIdx Cert.LibScatterMat Cert.LibScatterSet

section Bcast

variable {α : Type} {n m : Nat}

theorem bcast_col (h : (⟨1, ![n]⟩ : Shape).BroadcastsInDim ⟨2, ![n, 1]⟩ ![0]) (v : (⟨1, ![n]⟩ : Shape).Idx → α)
    (p : Fin n) (z : Fin 1) : broadcastInDim ⟨2, ![n, 1]⟩ ![0] h v (ix2 p z) = v (ix1 p) :=
  broadcastInDim_apply ![0] h v (ix2 p z) (ix1 p) (fun a => by
    have hp := p.isLt
    match a with
    | ⟨0, _⟩ =>
      show p.val = if n = 1 then 0 else p.val
      split <;> omega)

theorem bcast_row (h : (⟨1, ![m]⟩ : Shape).BroadcastsInDim ⟨2, ![1, m]⟩ ![1]) (v : (⟨1, ![m]⟩ : Shape).Idx → α)
    (z : Fin 1) (q : Fin m) : broadcastInDim ⟨2, ![1, m]⟩ ![1] h v (ix2 z q) = v (ix1 q) :=
  broadcastInDim_apply ![1] h v (ix2 z q) (ix1 q) (fun a => by
    have hq := q.isLt
    match a with
    | ⟨0, _⟩ =>
      show q.val = if m = 1 then 0 else q.val
      split <;> omega)

theorem bcast_of_col (h : (⟨2, ![n, 1]⟩ : Shape).BroadcastsInDim ⟨2, ![n, m]⟩ ![0, 1]) (v : (⟨2, ![n, 1]⟩ : Shape).Idx → α)
    (p : Fin n) (q : Fin m) : broadcastInDim ⟨2, ![n, m]⟩ ![0, 1] h v (ix2 p q) = v (ix2 p (0 : Fin 1)) :=
  broadcastInDim_apply ![0, 1] h v (ix2 p q) (ix2 p (0 : Fin 1)) (fun a => by
    have hp := p.isLt
    match a with
    | ⟨0, _⟩ =>
      show p.val = if n = 1 then 0 else p.val
      split <;> omega
    | ⟨1, _⟩ =>
      show (0 : Nat) = if (1 : Nat) = 1 then 0 else q.val
      rfl)

theorem bcast_of_row (h : (⟨2, ![1, m]⟩ : Shape).BroadcastsInDim ⟨2, ![n, m]⟩ ![0, 1]) (v : (⟨2, ![1, m]⟩ : Shape).Idx → α)
    (p : Fin n) (q : Fin m) : broadcastInDim ⟨2, ![n, m]⟩ ![0, 1] h v (ix2 p q) = v (ix2 (0 : Fin 1) q) :=
  broadcastInDim_apply ![0, 1] h v (ix2 p q) (ix2 (0 : Fin 1) q) (fun a => by
    have hq := q.isLt
    match a with
    | ⟨0, _⟩ =>
      show (0 : Nat) = if (1 : Nat) = 1 then 0 else p.val
      rfl
    | ⟨1, _⟩ =>
      show q.val = if m = 1 then 0 else q.val
      split <;> omega)

theorem bcast_scalar {t : Shape} (h : (⟨0, ![]⟩ : Shape).BroadcastsInDim t ![]) (v : (⟨0, ![]⟩ : Shape).Idx → α) (j : t.Idx) :
    broadcastInDim t ![] h v j = v ix0 :=
  broadcastInDim_apply ![] h v j ix0 (fun a => a.elim0)

end Bcast

theorem hostExp_apply {s : Shape} {φ : FTy} (x : FVec Ideal s φ) (i : s.Idx) : Host.exp x i = Ideal.exp (x i) := rfl

theorem logits_read (H W : Vec Ideal ⟨2, ![8192, 256]⟩ .f32) (Bv : Vec Ideal ⟨1, ![8192]⟩ .f32)
    (ht : (⟨2, ![8192, 256]⟩ : Shape).Transposes [1, 0] ⟨2, ![256, 8192]⟩)
    (hb1 : (⟨1, ![8192]⟩ : Shape).BroadcastsInDim ⟨2, ![1, 8192]⟩ ![1])
    (hb2 : (⟨2, ![1, 8192]⟩ : Shape).BroadcastsInDim ⟨2, ![8192, 8192]⟩ ![0, 1]) (i j : Fin 8192) :
    addf (F := Ideal) (φ := .f32)
        (Host.dotGeneral (F := Ideal) (φ₁ := .f32) (φ₂ := .f32) (DotDims.plain 8192 256 8192) none H
          (transpose ⟨2, ![256, 8192]⟩ [1, 0] W ht))
        (broadcastInDim ⟨2, ![8192, 8192]⟩ ![0, 1] hb2 (broadcastInDim ⟨2, ![1, 8192]⟩ ![1] hb1 Bv)) (ix2 i j)
      = G3L H (HostSpec.Tr W) (HostSpec.Row Bv) i j := by
  rw [addf_apply, StackMember.dotGeneral_plain_apply, bcast_of_row, bcast_row]
  unfold G3L
  congr 1
  refine Finset.sum_congr rfl fun k _ => ?_
  congr 1
  exact transpose_apply [1, 0] W ht (ix2 k j) (ix2 j k) (fun b => by
    match b with
    | ⟨0, _⟩ => rfl
    | ⟨1, _⟩ => rfl)

theorem rowmax_read (L : Vec Ideal ⟨2, ![8192, 8192]⟩ .f32)
    (hr : (⟨2, ![8192, 8192]⟩ : Shape).ReducesTo [1] ⟨1, ![8192]⟩) (h0 : 0 < (⟨0, ![]⟩ : Shape).numel) (i : Fin 8192) :
    Host.reduce (FloatOps.maximumf (F := Ideal) (φ := .f32)) L (constant (F := Ideal) ⟨0, ![]⟩ .f32 0xFF800000#32) hr h0 (ix1 i)
      = (Finset.univ : Finset (Fin 8192)).fold max (Ideal.ofBits .f32 0xFF800000#32) (fun j => L (ix2 i j)) := by
  have hR : (⟨2, ![8192, 8192]⟩ : Shape).Reduces [1] ⟨1, ![8192]⟩ := by decide
  rw [Host.reduce_eq_fold_single (FloatOps.maximumf (F := Ideal) (φ := .f32)) L
    (constant (F := Ideal) ⟨0, ![]⟩ .f32 0xFF800000#32) hr hR h0 (ix1 i)]
  have hl : (L ∘ hR.lift (ix1 i)) = fun j => L (ix2 i j) := by
    funext k
    show L (hR.lift (ix1 i) k) = L (ix2 i k)
    congr 1
    funext c
    refine Fin.ext ?_
    match c with
    | ⟨0, _⟩ => rfl
    | ⟨1, _⟩ => rfl
  rw [hl]
  rfl

theorem rowsum_read (X : Vec Ideal ⟨2, ![8192, 8192]⟩ .f32)
    (hr : (⟨2, ![8192, 8192]⟩ : Shape).ReducesTo [1] ⟨1, ![8192]⟩) (h0 : 0 < (⟨0, ![]⟩ : Shape).numel) (i : Fin 8192) :
    Host.reduceAdd (F := Ideal) (φ := .f32) X (constant (F := Ideal) ⟨0, ![]⟩ .f32 0x00000000#32) hr h0 (ix1 i)
      = ∑ j : Fin 8192, X (ix2 i j) := by
  have hR : (⟨2, ![8192, 8192]⟩ : Shape).Reduces [1] ⟨1, ![8192]⟩ := by decide
  rw [hostReduceAdd_apply, Ideal.hostReduceAdd_single hr hR]
  show Ideal.ofBits .f32 0x00000000#32 + _ = _
  rw [Ideal.ofBits_zero_f32, zero_add]
  refine Finset.sum_congr rfl fun k _ => ?_
  congr 1
  funext c
  refine Fin.ext ?_
  match c with
  | ⟨0, _⟩ => rfl
  | ⟨1, _⟩ => rfl

theorem wrap_id (w : BitVec 32) (h0 : 0 ≤ w.toInt) :
    Scalar.select (IntOp.cmpi .slt w 0#32) (IntOp.addi w 8192#32) w = w := by
  have hne : ¬ IntOp.cmpi .slt w 0#32 = 1#1 := fun h => by
    have := IntOp.cmpi_slt.1 h
    simp at this
    omega
  rw [eq_zero_of_ne_one hne, select_zero]

theorem wrap_read {s : Shape} (x : IVec s 32) (hb : (⟨0, ![]⟩ : Shape).BroadcastsInDim s ![]) (i : s.Idx) (h0 : 0 ≤ (x i).toInt) :
    select (cmpi .slt x (broadcastInDim s ![] hb (constantI ⟨0, ![]⟩ 32 0#32)))
      (addi x (broadcastInDim s ![] hb (constantI ⟨0, ![]⟩ 32 8192#32))) x i = x i := by
  rw [select_apply]
  show Scalar.select (IntOp.cmpi .slt (x i) (broadcastInDim s ![] hb (constantI ⟨0, ![]⟩ 32 0#32) i))
    (IntOp.addi (x i) (broadcastInDim s ![] hb (constantI ⟨0, ![]⟩ 32 8192#32) i)) (x i) = x i
  rw [bcast_scalar, bcast_scalar]
  exact wrap_id (x i) h0

theorem pair_cols {α : Type} {n : Nat} (a b : (⟨2, ![n, 1]⟩ : Shape).Idx → α)
    (hc : Shape.Concatenates [(⟨2, ![n, 1]⟩ : Shape), ⟨2, ![n, 1]⟩] ⟨2, ![n, 2]⟩ 1) (e : Fin n) :
    concatenate ⟨2, ![n, 2]⟩ 1 [⟨⟨2, ![n, 1]⟩, a⟩, ⟨⟨2, ![n, 1]⟩, b⟩] hc (ix2 e (0 : Fin 2)) = a (ix2 e (0 : Fin 1))
      ∧ concatenate ⟨2, ![n, 2]⟩ 1 [⟨⟨2, ![n, 1]⟩, a⟩, ⟨⟨2, ![n, 1]⟩, b⟩] hc (ix2 e (1 : Fin 2)) = b (ix2 e (0 : Fin 1)) := by
  constructor
  · exact concatenate_pair_apply_left 1 a b hc (ix2 e (0 : Fin 2)) rfl (ix2 e (0 : Fin 1)) (fun c => by
      match c with
      | ⟨0, _⟩ => rfl
      | ⟨1, _⟩ => rfl)
  · exact concatenate_pair_apply_right 1 a b hc (ix2 e (1 : Fin 2)) rfl rfl (ix2 e (0 : Fin 1)) (fun c hne => by
      match c with
      | ⟨0, _⟩ => rfl
      | ⟨1, _⟩ => exact absurd rfl hne) rfl

open Classical in

theorem set_pairs_read {α : Type} {E : Nat} (x P : (⟨2, ![8192, 8192]⟩ : Shape).Idx → α) (ia ib : IVec ⟨2, ![E, 2]⟩ 32)
    (wfg : GatherDims.WF (⟨2, ![8192, 8192]⟩ : Shape) (⟨2, ![E, 2]⟩ : Shape) (⟨1, ![E]⟩ : Shape) [] [0, 1] [] [0, 1] [] 1 ![1, 1])
    (wfs : ScatterDims.WF (⟨2, ![8192, 8192]⟩ : Shape) (⟨2, ![E, 2]⟩ : Shape) (⟨1, ![E]⟩ : Shape) [] [0, 1] [0, 1] 1)
    (hab : ∀ (e : Fin E) (c : Fin 2), ia (ix2 e c) = ib (ix2 e c)) (r c : Fin 8192) :
    Host.scatter (matScatterDims 8192 8192 E wfs) (fun _ b => b) x ib
        (Host.gather (pairGatherDims 8192 8192 E wfg) P ia) (ix2 r c)
      = if ∃ e : Fin E, (ib (ix2 e (0 : Fin 2))).toInt = (r.val : ℤ) ∧ (ib (ix2 e (1 : Fin 2))).toInt = (c.val : ℤ)
          then P (ix2 r c) else x (ix2 r c) := by
  have hupd : ∀ (e : Fin E) (r c : Fin 8192), (ib (ix2 e (0 : Fin 2))).toInt = (r.val : ℤ) →
      (ib (ix2 e (1 : Fin 2))).toInt = (c.val : ℤ) →
      Host.gather (pairGatherDims 8192 8192 E wfg) P ia (ix1 e) = P (ix2 r c) := by
    intro e r c h0 h1
    have hr := r.isLt
    have hc := c.isLt
    have h0' : (ia (ix2 e (0 : Fin 2))).toInt = (r.val : ℤ) := by rw [hab e 0]; exact h0
    have h1' : (ia (ix2 e (1 : Fin 2))).toInt = (c.val : ℤ) := by rw [hab e 1]; exact h1
    rw [pairGather_apply wfg (by decide) (by decide)]
    refine congrArg P (congrArg₂ ix2 (Fin.ext ?_) (Fin.ext ?_))
    · show min (ia (ix2 e (0 : Fin 2))).toInt.toNat (8192 - 1) = r.val
      omega
    · show min (ia (ix2 e (1 : Fin 2))).toInt.toNat (8192 - 1) = c.val
      omega
  rcases matScatterSet_apply wfs x ib _ P hupd r c with ⟨hex, hv⟩ | ⟨hno, hv⟩
  · rw [hv, if_pos hex]
  · rw [hv, if_neg (fun ⟨e, he⟩ => hno e he)]

end Cert.KernelIdeal.Gen.RefReads

end
-- ==== Proof.RefSoftmax.lean ====
import proofs.«407196_j36060545417339_2_alg».proof.Proof.RefRead
import proofs.«407196_j36060545417339_2_alg».proof.Proof.RefReads

set_option maxRecDepth 8192

noncomputable section

open scoped BigOperators

namespace Cert.ReferenceIdeal.RefRun

open Cert.ReferenceIdeal Cert.ReferenceIdeal.Gen Idealize.ShloMosaic Idealize.ShloMosaic.TcCoe Idealize.SL.Sem
open Idealize.ShloMosaic.StableHlo Idealize.ShloMosaic.ValueIdx
open Cert.KernelIdeal.Gen Cert.KernelIdeal.Gen.RefReads Cert.LibScatterMat Cert.LibScatterSet

set_option quotPrecheck false

local notation "Aft[" V "," r "]" => after ops V (Proc.devRef .tc r)
local notation "H3[" V "]" => (after ops V (Proc.devRef .tc main_v151) : S8192x256.Idx → EReal)
local notation "WT[" V "]" => HostSpec.Tr (m := 8192) (n := 256) (V (Proc.devRef .tc main_arg14))
local notation "BR[" V "]" => HostSpec.Row (n := 8192) (V (Proc.devRef .tc main_arg15))
local notation "EI[" V "]" => (V (Proc.devRef .tc main_arg20) : S2x262144.Idx → BitVec 32)

set_option quotPrecheck true

variable (V : Valuation τ sig (Elt Ideal))

theorem rd_arg14 : Aft[V, main_arg14] = V (Proc.devRef .tc main_arg14) :=
  keep main_arg14 (by decide +kernel) V
theorem rd_arg15 : Aft[V, main_arg15] = V (Proc.devRef .tc main_arg15) :=
  keep main_arg15 (by decide +kernel) V
theorem rd_arg20 : Aft[V, main_arg20] = V (Proc.devRef .tc main_arg20) :=
  keep main_arg20 (by decide +kernel) V

theorem rd_v156 (i j : Fin 8192) :
    (Aft[V, main_v156] : S8192x8192.Idx → EReal) (ix2 i j) = G3L H3[V] WT[V] BR[V] i j := by
  rw [val_main_v156, val_main_v153, val_main_v155, val_main_v154, val_main_v152, rd_arg14, rd_arg15]
  exact logits_read _ _ _ _ _ _ i j

theorem rd_v157 (i : Fin 8192) : (Aft[V, main_v157] : S8192.Idx → EReal) (ix1 i) = G3M H3[V] WT[V] BR[V] i := by
  rw [val_main_v157, val_main_cst_35]
  refine (rowmax_read _ _ _ i).trans ?_
  unfold G3M
  exact Finset.fold_congr fun j _ => rd_v156 V i j

theorem rd_v159 (i : Fin 8192) : (Aft[V, main_v159] : S8192.Idx → EReal) (ix1 i) = G3M H3[V] WT[V] BR[V] i := by
  rw [val_main_v159, val_main_v158, val_main_cst_36, maximumf_apply, bcast_scalar, rd_v157]
  show max (Ideal.ofBits .f32 0xFF800000#32) _ = _
  rw [ofBits_neg_inf_f32]
  exact max_eq_right bot_le

theorem rd_v163 (i j : Fin 8192) :
    (Aft[V, main_v163] : S8192x8192.Idx → EReal) (ix2 i j) = R3u H3[V] WT[V] BR[V] i j := by
  rw [val_main_v163, val_main_v162, val_main_v161, val_main_v160, hostExp_apply, subf_apply, bcast_of_col, bcast_col,
    rd_v156, rd_v159]
  rfl

theorem rd_v164 (i : Fin 8192) :
    (Aft[V, main_v164] : S8192.Idx → EReal) (ix1 i) = ∑ k : Fin 8192, R3u H3[V] WT[V] BR[V] i k := by
  rw [val_main_v164, val_main_cst_37]
  refine (rowsum_read _ _ _ i).trans ?_
  exact Finset.sum_congr rfl fun k _ => rd_v163 V i k

theorem rd_v167 (i j : Fin 8192) :
    (Aft[V, main_v167] : S8192x8192.Idx → EReal) (ix2 i j) = R3p H3[V] WT[V] BR[V] i j := by
  rw [val_main_v167, val_main_v166, val_main_v165, hostDivf_apply, bcast_of_col, bcast_col, rd_v163, rd_v164]
  rfl

theorem rd_v1 (e : Fin 262144) : (Aft[V, main_v1] : S262144.Idx → BitVec 32) (ix1 e) = EI[V] (ix2 (0 : Fin 2) e) := by
  rw [val_main_v1, val_main_v0, rd_arg20]
  refine (shapeCast_1a_a_apply _ _ e).trans ?_
  exact extractStridedSlice_apply ![0, 0] _ _ (ix2 (0 : Fin 1) e) (ix2 (0 : Fin 2) e) (fun a => by
    match a with
    | ⟨0, _⟩ => rfl
    | ⟨1, _⟩ => exact (Nat.zero_add _).symm)

theorem rd_v3 (e : Fin 262144) : (Aft[V, main_v3] : S262144.Idx → BitVec 32) (ix1 e) = EI[V] (ix2 (1 : Fin 2) e) := by
  rw [val_main_v3, val_main_v2, rd_arg20]
  refine (shapeCast_1a_a_apply _ _ e).trans ?_
  exact extractStridedSlice_apply ![1, 0] _ _ (ix2 (0 : Fin 1) e) (ix2 (1 : Fin 2) e) (fun a => by
    match a with
    | ⟨0, _⟩ => rfl
    | ⟨1, _⟩ => exact (Nat.zero_add _).symm)

variable (hrange : ∀ e, 0 ≤ Sage.srcZ (V (Proc.devRef .tc main_arg20)) e ∧ Sage.srcZ (V (Proc.devRef .tc main_arg20)) e < 8192
  ∧ 0 ≤ Sage.dstZ (V (Proc.devRef .tc main_arg20)) e ∧ Sage.dstZ (V (Proc.devRef .tc main_arg20)) e < 8192)

include hrange

theorem src_nonneg (e : Fin 262144) : 0 ≤ ((Aft[V, main_v1] : S262144.Idx → BitVec 32) (ix1 e)).toInt := by
  rw [rd_v1]; exact (hrange e).1

theorem dst_nonneg (e : Fin 262144) : 0 ≤ ((Aft[V, main_v3] : S262144.Idx → BitVec 32) (ix1 e)).toInt := by
  rw [rd_v3]; exact (hrange e).2.2.1

theorem rd_v173 (e : Fin 262144) : (Aft[V, main_v173] : S262144.Idx → BitVec 32) (ix1 e) = EI[V] (ix2 (0 : Fin 2) e) := by
  rw [val_main_v173, val_main_v170, val_main_v172, val_main_v169, val_main_v171, val_main_c_39, val_main_c_40]
  exact (wrap_read _ _ (ix1 e) (src_nonneg V hrange e)).trans (rd_v1 V e)

theorem rd_v178 (e : Fin 262144) : (Aft[V, main_v178] : S262144.Idx → BitVec 32) (ix1 e) = EI[V] (ix2 (1 : Fin 2) e) := by
  rw [val_main_v178, val_main_v175, val_main_v177, val_main_v174, val_main_v176, val_main_c_41, val_main_c_42]
  exact (wrap_read _ _ (ix1 e) (dst_nonneg V hrange e)).trans (rd_v3 V e)

theorem rd_v187 (e : Fin 262144) : (Aft[V, main_v187] : S262144.Idx → BitVec 32) (ix1 e) = EI[V] (ix2 (0 : Fin 2) e) := by
  rw [val_main_v187, val_main_v184, val_main_v186, val_main_v183, val_main_v185, val_main_c_43, val_main_c_44]
  exact (wrap_read _ _ (ix1 e) (src_nonneg V hrange e)).trans (rd_v1 V e)

theorem rd_v192 (e : Fin 262144) : (Aft[V, main_v192] : S262144.Idx → BitVec 32) (ix1 e) = EI[V] (ix2 (1 : Fin 2) e) := by
  rw [val_main_v192, val_main_v189, val_main_v191, val_main_v188, val_main_v190, val_main_c_45, val_main_c_46]
  exact (wrap_read _ _ (ix1 e) (dst_nonneg V hrange e)).trans (rd_v3 V e)

theorem rd_v181 (e : Fin 262144) :
    (Aft[V, main_v181] : S262144x2.Idx → BitVec 32) (ix2 e (0 : Fin 2)) = EI[V] (ix2 (0 : Fin 2) e)
      ∧ (Aft[V, main_v181] : S262144x2.Idx → BitVec 32) (ix2 e (1 : Fin 2)) = EI[V] (ix2 (1 : Fin 2) e) := by
  have hp := pair_cols (broadcastInDim S262144x1 ![0] bcast_S262144_S262144x1_0 Aft[V, main_v173])
    (broadcastInDim S262144x1 ![0] bcast_S262144_S262144x1_0 Aft[V, main_v178])
    concatenates_S262144x1_S262144x1_S262144x2_d1 e
  rw [val_main_v181, val_main_v179, val_main_v180]
  exact ⟨hp.1.trans ((bcast_col _ _ e 0).trans (rd_v173 V hrange e)),
    hp.2.trans ((bcast_col _ _ e 0).trans (rd_v178 V hrange e))⟩

theorem rd_v195 (e : Fin 262144) :
    (Aft[V, main_v195] : S262144x2.Idx → BitVec 32) (ix2 e (0 : Fin 2)) = EI[V] (ix2 (0 : Fin 2) e)
      ∧ (Aft[V, main_v195] : S262144x2.Idx → BitVec 32) (ix2 e (1 : Fin 2)) = EI[V] (ix2 (1 : Fin 2) e) := by
  have hp := pair_cols (broadcastInDim S262144x1 ![0] bcast_S262144_S262144x1_0 Aft[V, main_v187])
    (broadcastInDim S262144x1 ![0] bcast_S262144_S262144x1_0 Aft[V, main_v192])
    concatenates_S262144x1_S262144x1_S262144x2_d1 e
  rw [val_main_v195, val_main_v193, val_main_v194]
  exact ⟨hp.1.trans ((bcast_col _ _ e 0).trans (rd_v187 V hrange e)),
    hp.2.trans ((bcast_col _ _ e 0).trans (rd_v192 V hrange e))⟩

omit hrange

theorem iota_toInt (k : Fin 8192) : ((iotaInDim S8192 32 0 : S8192.Idx → BitVec 32) (ix1 k)).toInt = (k.val : ℤ) := by
  show (BitVec.ofNat 32 k.val).toInt = _
  exact Predicate.toInt_ofNat_small k.val (by have := k.isLt; omega)

theorem iota_wrap (k : Fin 8192) :
    select (cmpi .slt (iotaInDim S8192 32 0) (broadcastInDim S8192 ![] bcast_S_S8192 (constantI S_ 32 0#32)))
      (addi (iotaInDim S8192 32 0) (broadcastInDim S8192 ![] bcast_S_S8192 (constantI S_ 32 8192#32))) (iotaInDim S8192 32 0) (ix1 k)
      = BitVec.ofNat 32 k.val :=
  wrap_read _ _ (ix1 k) (by rw [iota_toInt]; exact Int.natCast_nonneg _)

theorem rd_v202 (k : Fin 8192) : (Aft[V, main_v202] : S8192.Idx → BitVec 32) (ix1 k) = BitVec.ofNat 32 k.val := by
  rw [val_main_v202, val_main_v199, val_main_v201, val_main_v198, val_main_v200, val_main_c_47, val_main_c_48, val_main_v197]
  exact iota_wrap k

theorem rd_v207 (k : Fin 8192) : (Aft[V, main_v207] : S8192.Idx → BitVec 32) (ix1 k) = BitVec.ofNat 32 k.val := by
  rw [val_main_v207, val_main_v204, val_main_v206, val_main_v203, val_main_v205, val_main_c_49, val_main_c_50, val_main_v197]
  exact iota_wrap k

theorem rd_v216 (k : Fin 8192) : (Aft[V, main_v216] : S8192.Idx → BitVec 32) (ix1 k) = BitVec.ofNat 32 k.val := by
  rw [val_main_v216, val_main_v213, val_main_v215, val_main_v212, val_main_v214, val_main_c_51, val_main_c_52, val_main_v197]
  exact iota_wrap k

theorem rd_v221 (k : Fin 8192) : (Aft[V, main_v221] : S8192.Idx → BitVec 32) (ix1 k) = BitVec.ofNat 32 k.val := by
  rw [val_main_v221, val_main_v218, val_main_v220, val_main_v217, val_main_v219, val_main_c_53, val_main_c_54, val_main_v197]
  exact iota_wrap k

theorem rd_v210 (k : Fin 8192) (c : Fin 2) :
    (Aft[V, main_v210] : S8192x2.Idx → BitVec 32) (ix2 k c) = BitVec.ofNat 32 k.val := by
  have hp := pair_cols (broadcastInDim S8192x1 ![0] bcast_S8192_S8192x1_0 Aft[V, main_v202])
    (broadcastInDim S8192x1 ![0] bcast_S8192_S8192x1_0 Aft[V, main_v207]) concatenates_S8192x1_S8192x1_S8192x2_d1 k
  rw [val_main_v210, val_main_v208, val_main_v209]
  match c with
  | ⟨0, _⟩ => exact hp.1.trans ((bcast_col _ _ k 0).trans (rd_v202 V k))
  | ⟨1, _⟩ => exact hp.2.trans ((bcast_col _ _ k 0).trans (rd_v207 V k))

theorem rd_v224 (k : Fin 8192) (c : Fin 2) :
    (Aft[V, main_v224] : S8192x2.Idx → BitVec 32) (ix2 k c) = BitVec.ofNat 32 k.val := by
  have hp := pair_cols (broadcastInDim S8192x1 ![0] bcast_S8192_S8192x1_0 Aft[V, main_v216])
    (broadcastInDim S8192x1 ![0] bcast_S8192_S8192x1_0 Aft[V, main_v221]) concatenates_S8192x1_S8192x1_S8192x2_d1 k
  rw [val_main_v224, val_main_v222, val_main_v223]
  match c with
  | ⟨0, _⟩ => exact hp.1.trans ((bcast_col _ _ k 0).trans (rd_v216 V k))
  | ⟨1, _⟩ => exact hp.2.trans ((bcast_col _ _ k 0).trans (rd_v221 V k))

theorem rd_v168 (x : S8192x8192.Idx) : (Aft[V, main_v168] : S8192x8192.Idx → EReal) x = (0 : EReal) := by
  rw [val_main_v168, val_main_cst_38, bcast_scalar]
  exact Ideal.ofBits_zero_f32

include hrange

theorem rd_v196 (r c : Fin 8192) :
    (Aft[V, main_v196] : S8192x8192.Idx → EReal) (ix2 r c)
      = if nbrE (V (Proc.devRef .tc main_arg20)) r c then ((Aft[V, main_v167] : S8192x8192.Idx → EReal) (ix2 r c) : EReal)
          else (0 : EReal) := by
  rw [val_main_v196, val_main_v182]
  refine (set_pairs_read (α := EReal) (E := 262144) (Aft[V, main_v168] : S8192x8192.Idx → EReal)
    (Aft[V, main_v167] : S8192x8192.Idx → EReal) (Aft[V, main_v181] : S262144x2.Idx → BitVec 32)
    (Aft[V, main_v195] : S262144x2.Idx → BitVec 32)
    gather_S8192x8192_S262144x2_S262144_n_01_n_n_01_1_11_wf scatter_S8192x8192_S262144x2_S262144_n_01_01_1_wf
    (fun e c => by
      match c with
      | ⟨0, _⟩ => exact (rd_v181 V hrange e).1.trans (rd_v195 V hrange e).1.symm
      | ⟨1, _⟩ => exact (rd_v181 V hrange e).2.trans (rd_v195 V hrange e).2.symm) r c).trans ?_
  have hiff : (∃ e : Fin 262144, ((Aft[V, main_v195] : S262144x2.Idx → BitVec 32) (ix2 e (0 : Fin 2))).toInt = (r.val : ℤ)
      ∧ ((Aft[V, main_v195] : S262144x2.Idx → BitVec 32) (ix2 e (1 : Fin 2))).toInt = (c.val : ℤ))
      ↔ nbrE (V (Proc.devRef .tc main_arg20)) r c := by
    unfold nbrE
    refine exists_congr fun e => ?_
    rw [(rd_v195 V hrange e).1, (rd_v195 V hrange e).2]
    rfl
  by_cases h : nbrE (V (Proc.devRef .tc main_arg20)) r c
  · rw [if_pos (hiff.mpr h), if_pos h]
  · rw [if_neg (fun h' => h (hiff.mp h')), if_neg h, rd_v168]

theorem rd_v225 (r c : Fin 8192) :
    (Aft[V, main_v225] : S8192x8192.Idx → EReal) (ix2 r c)
      = R3mp H3[V] WT[V] BR[V] (nbrE (V (Proc.devRef .tc main_arg20))) r c := by
  rw [val_main_v225, val_main_v211]
  refine (set_pairs_read (α := EReal) (E := 8192) (Aft[V, main_v196] : S8192x8192.Idx → EReal)
    (Aft[V, main_v167] : S8192x8192.Idx → EReal) (Aft[V, main_v210] : S8192x2.Idx → BitVec 32)
    (Aft[V, main_v224] : S8192x2.Idx → BitVec 32)
    gather_S8192x8192_S8192x2_S8192_n_01_n_n_01_1_11_wf scatter_S8192x8192_S8192x2_S8192_n_01_01_1_wf
    (fun k c => (rd_v210 V k c).trans (rd_v224 V k c).symm) r c).trans ?_
  have hiff : (∃ k : Fin 8192, ((Aft[V, main_v224] : S8192x2.Idx → BitVec 32) (ix2 k (0 : Fin 2))).toInt = (r.val : ℤ)
      ∧ ((Aft[V, main_v224] : S8192x2.Idx → BitVec 32) (ix2 k (1 : Fin 2))).toInt = (c.val : ℤ)) ↔ r = c := by
    have ht : ∀ k : Fin 8192, (BitVec.ofNat 32 k.val).toInt = (k.val : ℤ) := fun k =>
      Predicate.toInt_ofNat_small k.val (by have := k.isLt; omega)
    constructor
    · rintro ⟨k, h0, h1⟩
      rw [rd_v224, ht] at h0 h1
      exact Fin.ext (by omega)
    · rintro rfl
      exact ⟨r, by rw [rd_v224, ht], by rw [rd_v224, ht]⟩
  unfold R3mp
  by_cases hd : r = c
  · rw [if_pos (hiff.mpr hd), if_pos (Or.inr hd), rd_v167]
  · rw [if_neg (fun h' => hd (hiff.mp h')), rd_v196 V hrange]
    by_cases hn : nbrE (V (Proc.devRef .tc main_arg20)) r c
    · rw [if_pos hn, if_pos (Or.inl hn), rd_v167]
    · rw [if_neg hn, if_neg (fun h' => h'.elim hn hd)]

theorem rd_v226 (i : Fin 8192) :
    (Aft[V, main_v226] : S8192.Idx → EReal) (ix1 i) = R3s H3[V] WT[V] BR[V] (nbrE (V (Proc.devRef .tc main_arg20))) i := by
  rw [val_main_v226, val_main_cst_55]
  refine (rowsum_read _ _ _ i).trans ?_
  unfold R3s
  exact Finset.sum_congr rfl fun j _ => rd_v225 V hrange i j

theorem ref_softmax :
    (after ops V (Proc.devRef .tc main_v232) : S8192x8192.Idx → EReal)
      = R3 (after ops V (Proc.devRef .tc main_v151)) (HostSpec.Tr (m := 8192) (n := 256) (V (Proc.devRef .tc main_arg14)))
          (HostSpec.Row (n := 8192) (V (Proc.devRef .tc main_arg15))) (nbrE (V (Proc.devRef .tc main_arg20))) := by
  funext x
  obtain ⟨i, j, rfl⟩ : ∃ i j, x = ix2 i j := ⟨x 0, x 1, eq_ix2 x⟩
  rw [R3_ix2, val_main_v232, val_main_v231, val_main_v230, val_main_v229, val_main_v228, val_main_v227, val_main_call4_v1,
    val_main_call4_v0, val_main_cst_56, val_main_cst_57, hostDivf_apply, bcast_of_col, select_apply, cmpf_apply, bcast_col,
    bcast_scalar, bcast_scalar, rd_v225 V hrange, rd_v226 V hrange]
  rfl

end Cert.ReferenceIdeal.RefRun

end
-- ==== Proof.LibGather.lean ====
import Idealize.ShloMosaic.PureOps.Ideal
import Idealize.ShloMosaic.PureOps.Contract
import Idealize.ShloMosaic.Lib.ValueIdx

noncomputable section

namespace Cert.LibGather

open Idealize.ShloMosaic Idealize.ShloMosaic.ValueIdx

section Vec
variable {α : Type}

abbrev vecGatherDims (N E : Nat)
    (wf : GatherDims.WF (⟨1, ![N]⟩ : Shape) (⟨2, ![E, 1]⟩ : Shape) (⟨1, ![E]⟩ : Shape) [] [0] [] [0] [] 1 ![1]) :
    GatherDims (⟨1, ![N]⟩ : Shape) (⟨2, ![E, 1]⟩ : Shape) (⟨1, ![E]⟩ : Shape) where
  offsetDims := []
  collapsedSliceDims := [0]
  operandBatchingDims := []
  startIndicesBatchingDims := []
  startIndexMap := [0]
  indexVectorDim := 1
  sliceSizes := ![1]
  wf := wf

private theorem vec_siIdx {N E : Nat}
    (wf : GatherDims.WF (⟨1, ![N]⟩ : Shape) (⟨2, ![E, 1]⟩ : Shape) (⟨1, ![E]⟩ : Shape) [] [0] [] [0] [] 1 ![1])
    (e : Fin E) (c : Fin (vecGatherDims N E wf).startIndexMap.length) :
    (vecGatherDims N E wf).siIdx (ix1 e) c = ix2 e (0 : Fin 1) := by
  have hc : c.val = 0 := Nat.lt_one_iff.mp c.isLt
  funext b; refine Fin.ext ?_
  match b with
  | ⟨0, _⟩ => rfl
  | ⟨1, _⟩ => exact hc

private theorem vec_start {N E w : Nat}
    (wf : GatherDims.WF (⟨1, ![N]⟩ : Shape) (⟨2, ![E, 1]⟩ : Shape) (⟨1, ![E]⟩ : Shape) [] [0] [] [0] [] 1 ![1])
    (idx : IVec (⟨2, ![E, 1]⟩ : Shape) w) (e : Fin E) :
    (vecGatherDims N E wf).start (ix1 e) idx 0 = min (idx (ix2 e (0 : Fin 1))).toInt.toNat (N - 1) := by
  unfold GatherDims.start
  rw [dif_pos (show (0 : Fin 1) ∈ (vecGatherDims N E wf).startIndexMap from List.mem_singleton.mpr rfl), vec_siIdx]
  rfl

end Vec

section Row
variable {α : Type}

abbrev rowGatherDims (N D E : Nat)
    (wf : GatherDims.WF (⟨2, ![N, D]⟩ : Shape) (⟨2, ![E, 1]⟩ : Shape) (⟨2, ![E, D]⟩ : Shape) [1] [0] [] [0] [] 1 ![1, D]) :
    GatherDims (⟨2, ![N, D]⟩ : Shape) (⟨2, ![E, 1]⟩ : Shape) (⟨2, ![E, D]⟩ : Shape) where
  offsetDims := [1]
  collapsedSliceDims := [0]
  operandBatchingDims := []
  startIndicesBatchingDims := []
  startIndexMap := [0]
  indexVectorDim := 1
  sliceSizes := ![1, D]
  wf := wf

private theorem row_siIdx {N D E : Nat}
    (wf : GatherDims.WF (⟨2, ![N, D]⟩ : Shape) (⟨2, ![E, 1]⟩ : Shape) (⟨2, ![E, D]⟩ : Shape) [1] [0] [] [0] [] 1 ![1, D])
    (e : Fin E) (k : Fin D) (c : Fin (rowGatherDims N D E wf).startIndexMap.length) :
    (rowGatherDims N D E wf).siIdx (ix2 e k) c = ix2 e (0 : Fin 1) := by
  have hc : c.val = 0 := Nat.lt_one_iff.mp c.isLt
  funext b; refine Fin.ext ?_
  match b with
  | ⟨0, _⟩ => rfl
  | ⟨1, _⟩ => exact hc

private theorem row_start_zero {N D E w : Nat}
    (wf : GatherDims.WF (⟨2, ![N, D]⟩ : Shape) (⟨2, ![E, 1]⟩ : Shape) (⟨2, ![E, D]⟩ : Shape) [1] [0] [] [0] [] 1 ![1, D])
    (idx : IVec (⟨2, ![E, 1]⟩ : Shape) w) (e : Fin E) (k : Fin D) :
    (rowGatherDims N D E wf).start (ix2 e k) idx 0 = min (idx (ix2 e (0 : Fin 1))).toInt.toNat (N - 1) := by
  unfold GatherDims.start
  rw [dif_pos (show (0 : Fin 2) ∈ (rowGatherDims N D E wf).startIndexMap from List.mem_singleton.mpr rfl), row_siIdx]
  rfl

private theorem row_start_one {N D E w : Nat}
    (wf : GatherDims.WF (⟨2, ![N, D]⟩ : Shape) (⟨2, ![E, 1]⟩ : Shape) (⟨2, ![E, D]⟩ : Shape) [1] [0] [] [0] [] 1 ![1, D])
    (idx : IVec (⟨2, ![E, 1]⟩ : Shape) w) (j : (⟨2, ![E, D]⟩ : Shape).Idx) :
    (rowGatherDims N D E wf).start j idx 1 = 0 := by
  unfold GatherDims.start
  rw [dif_neg (show ¬ (1 : Fin 2) ∈ (rowGatherDims N D E wf).startIndexMap from
    (by decide : ¬ (1 : Fin 2) ∈ ([0] : List (Fin 2))))]

private theorem row_off_one {N D E : Nat}
    (wf : GatherDims.WF (⟨2, ![N, D]⟩ : Shape) (⟨2, ![E, 1]⟩ : Shape) (⟨2, ![E, D]⟩ : Shape) [1] [0] [] [0] [] 1 ![1, D])
    (e : Fin E) (k : Fin D) :
    (rowGatherDims N D E wf).offCoord (ix2 e k) 1 = k.val := by
  unfold GatherDims.offCoord
  rw [dif_pos ((GatherDims.mem_sKept _ _).mpr
    ⟨(by decide : ¬ (1 : Fin 2) ∈ ([0] : List (Fin 2))), List.not_mem_nil⟩)]
  rfl

theorem rowGather_apply {N D E w : Nat} (hN : 0 < N)
    (wf : GatherDims.WF (⟨2, ![N, D]⟩ : Shape) (⟨2, ![E, 1]⟩ : Shape) (⟨2, ![E, D]⟩ : Shape) [1] [0] [] [0] [] 1 ![1, D])
    (x : (⟨2, ![N, D]⟩ : Shape).Idx → α) (idx : IVec (⟨2, ![E, 1]⟩ : Shape) w) (e : Fin E) (k : Fin D) :
    Host.gather (rowGatherDims N D E wf) x idx (ix2 e k)
      = x (ix2 ⟨min (idx (ix2 e (0 : Fin 1))).toInt.toNat (N - 1), by omega⟩ k) := by
  unfold Host.gather
  congr 1
  funext a
  refine Fin.ext ?_
  revert a
  refine Fin.forall_fin_two.2 ⟨?_, ?_⟩
  · show (rowGatherDims N D E wf).start (ix2 e k) idx 0 + (rowGatherDims N D E wf).batchCoord (ix2 e k) 0
        + (rowGatherDims N D E wf).offCoord (ix2 e k) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl)),
      row_start_zero]
    rfl
  · show (rowGatherDims N D E wf).start (ix2 e k) idx 1 + (rowGatherDims N D E wf).batchCoord (ix2 e k) 1
        + (rowGatherDims N D E wf).offCoord (ix2 e k) 1 = k.val
    rw [GatherDims.batchCoord_eq_zero _ _ _ List.not_mem_nil, row_start_one, row_off_one]
    omega

end Row

section Words

theorem select_slt_zero_of_nonneg {α : Type} (x : BitVec 32) (hx : 0 ≤ x.toInt) (a b : α) :
    Scalar.select (IntOp.cmpi .slt x 0#32) a b = b := by
  have h : x.slt 0#32 = false := by
    simp only [BitVec.slt, BitVec.toInt_zero, decide_eq_false_iff_not, not_lt]
    exact hx
  show Scalar.select (BitVec.ofBool (x.slt 0#32)) a b = b
  rw [h]
  exact select_zero a b

theorem wrap_apply_of_nonneg {s : Shape} (v : IVec s 32) (z c : IVec s 32) (hz : ∀ i, z i = 0#32) (i : s.Idx)
    (hx : 0 ≤ (v i).toInt) : select (cmpi .slt v z) (addi v c) v i = v i := by
  show Scalar.select (IntOp.cmpi .slt (v i) (z i)) (IntOp.addi (v i) (c i)) (v i) = v i
  rw [hz i]
  exact select_slt_zero_of_nonneg (v i) hx _ _

end Words

end Cert.LibGather

end
-- ==== Proof.LibSegmentSum.lean ====
import Idealize.ShloMosaic.PureOps.Ideal
import Idealize.ShloMosaic.PureOps.Contract
import Idealize.ShloMosaic.Lib.ValueIdx

noncomputable section

open scoped BigOperators

namespace Cert.LibSegmentSum

open Idealize.ShloMosaic Idealize.ShloMosaic.ValueIdx

abbrev rowScatterDims (M D E : Nat)
    (wf : ScatterDims.WF (⟨2, ![M, D]⟩ : Shape) (⟨2, ![E, 1]⟩ : Shape) (⟨2, ![E, D]⟩ : Shape) [1] [0] [0] 1) :
    ScatterDims (⟨2, ![M, D]⟩ : Shape) (⟨2, ![E, 1]⟩ : Shape) (⟨2, ![E, D]⟩ : Shape) where
  updateWindowDims := [1]
  insertedWindowDims := [0]
  scatterDimsToOperandDims := [0]
  indexVectorDim := 1
  wf := wf

private theorem start_zero {M D E w : Nat}
    (wf : ScatterDims.WF (⟨2, ![M, D]⟩ : Shape) (⟨2, ![E, 1]⟩ : Shape) (⟨2, ![E, D]⟩ : Shape) [1] [0] [0] 1)
    (idx : IVec (⟨2, ![E, 1]⟩ : Shape) w) (e : Fin E) (k' : Fin D) :
    (rowScatterDims M D E wf).start (ix2 e k') idx 0 = (idx (ix2 e (0 : Fin 1))).toInt := by
  unfold ScatterDims.start
  rw [dif_pos (show (0 : Fin 2) ∈ (rowScatterDims M D E wf).scatterDimsToOperandDims from List.mem_singleton.mpr rfl)]
  have hsi : (rowScatterDims M D E wf).siIdx (ix2 e k') ⟨List.idxOf (0 : Fin 2) (rowScatterDims M D E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

private theorem start_one {M D E w : Nat}
    (wf : ScatterDims.WF (⟨2, ![M, D]⟩ : Shape) (⟨2, ![E, 1]⟩ : Shape) (⟨2, ![E, D]⟩ : Shape) [1] [0] [0] 1)
    (idx : IVec (⟨2, ![E, 1]⟩ : Shape) w) (j : (⟨2, ![E, D]⟩ : Shape).Idx) :
    (rowScatterDims M D E wf).start j idx 1 = 0 := by
  unfold ScatterDims.start
  rw [dif_neg (show ¬ (1 : Fin 2) ∈ (rowScatterDims M D E wf).scatterDimsToOperandDims from (by decide : ¬ (1 : Fin 2) ∈ ([0] : List (Fin 2))))]

private theorem window_zero {M D E : Nat}
    (wf : ScatterDims.WF (⟨2, ![M, D]⟩ : Shape) (⟨2, ![E, 1]⟩ : Shape) (⟨2, ![E, D]⟩ : Shape) [1] [0] [0] 1)
    (j : (⟨2, ![E, D]⟩ : Shape).Idx) :
    (rowScatterDims M D E wf).window j 0 = 0 := by
  unfold ScatterDims.window
  rw [dif_neg (show ¬ (0 : Fin 2) ∈ (rowScatterDims M D E wf).sKept from (by decide : ¬ (0 : Fin 2) ∈ (List.finRange 2).filter (· ∉ [(0 : Fin 2)])))]

private theorem window_one {M D E : Nat}
    (wf : ScatterDims.WF (⟨2, ![M, D]⟩ : Shape) (⟨2, ![E, 1]⟩ : Shape) (⟨2, ![E, D]⟩ : Shape) [1] [0] [0] 1)
    (e : Fin E) (k' : Fin D) :
    (rowScatterDims M D E wf).window (ix2 e k') 1 = k'.val := by
  unfold ScatterDims.window
  rw [dif_pos (show (1 : Fin 2) ∈ (rowScatterDims M D E wf).sKept from (by decide : (1 : Fin 2) ∈ (List.finRange 2).filter (· ∉ [(0 : Fin 2)])))]
  rfl

theorem resultIdx?_eq_some_iff {M D E w : Nat}
    (wf : ScatterDims.WF (⟨2, ![M, D]⟩ : Shape) (⟨2, ![E, 1]⟩ : Shape) (⟨2, ![E, D]⟩ : Shape) [1] [0] [0] 1)
    (idx : IVec (⟨2, ![E, 1]⟩ : Shape) w) (e : Fin E) (k' : Fin D) (r : Fin M) (k : Fin D) :
    (rowScatterDims M D E wf).resultIdx? (ix2 e k') idx = some (ix2 r k)
      ↔ (idx (ix2 e (0 : Fin 1))).toInt = (r.val : ℤ) ∧ k' = k := by
  have hs0 := start_zero wf idx e k'
  have hs1 := start_one wf idx (ix2 e k')
  have hw0 := window_zero wf (ix2 e k')
  have hw1 := window_one wf e k'
  have hr := r.isLt
  have hk := k.isLt
  have hk' := k'.isLt
  constructor
  · intro hres
    unfold ScatterDims.resultIdx? at hres
    split_ifs at hres with h
    rw [Option.some.injEq] at hres
    have e0 : ((rowScatterDims M D E wf).start (ix2 e k') idx 0 + (rowScatterDims M D E wf).window (ix2 e k') 0).toNat = r.val :=
      congrArg Fin.val (congrFun hres 0)
    have e1 : ((rowScatterDims M D E wf).start (ix2 e k') idx 1 + (rowScatterDims M D E wf).window (ix2 e k') 1).toNat = k.val :=
      congrArg Fin.val (congrFun hres 1)
    have h0 := (h 0).1
    rw [hs0, hw0] at e0 h0
    rw [hs1, hw1] at e1
    exact ⟨by omega, Fin.ext (by omega)⟩
  · rintro ⟨hidx, rfl⟩
    unfold ScatterDims.resultIdx?
    have h : ∀ a, 0 ≤ (rowScatterDims M D E wf).start (ix2 e k') idx a + (rowScatterDims M D E wf).window (ix2 e k') a
        ∧ (rowScatterDims M D E wf).start (ix2 e k') idx a + (rowScatterDims M D E wf).window (ix2 e k') a
          < (⟨2, ![M, D]⟩ : Shape).size a := by
      refine Fin.forall_fin_two.2 ⟨?_, ?_⟩
      · rw [hs0, hw0]
        show 0 ≤ _ ∧ _ < (M : ℤ)
        omega
      · rw [hs1, hw1]
        show 0 ≤ _ ∧ _ < (D : ℤ)
        omega
    rw [dif_pos h, Option.some.injEq]
    funext a
    refine Fin.ext ?_
    revert a
    refine Fin.forall_fin_two.2 ⟨?_, ?_⟩
    · show ((rowScatterDims M D E wf).start (ix2 e k') idx 0 + (rowScatterDims M D E wf).window (ix2 e k') 0).toNat = r.val
      rw [hs0, hw0]; omega
    · show ((rowScatterDims M D E wf).start (ix2 e k') idx 1 + (rowScatterDims M D E wf).window (ix2 e k') 1).toNat = k'.val
      rw [hs1, hw1]; omega

theorem rowScatterAdd_apply {M D E w : Nat}
    (wf : ScatterDims.WF (⟨2, ![M, D]⟩ : Shape) (⟨2, ![E, 1]⟩ : Shape) (⟨2, ![E, D]⟩ : Shape) [1] [0] [0] 1)
    (x : (⟨2, ![M, D]⟩ : Shape).Idx → EReal) (idx : IVec (⟨2, ![E, 1]⟩ : Shape) w)
    (u : (⟨2, ![E, D]⟩ : Shape).Idx → EReal) (r : Fin M) (k : Fin D) :
    Ideal.hostScatterAdd (rowScatterDims M D E wf) x idx u (ix2 r k)
      = x (ix2 r k) + ∑ e : Fin E, if (idx (ix2 e (0 : Fin 1))).toInt = (r.val : ℤ) then u (ix2 e k) else 0 := by
  unfold Ideal.hostScatterAdd
  congr 1
  rw [Finset.sum_filter, sum_idx2]
  refine Finset.sum_congr rfl fun e _ => ?_
  simp only [resultIdx?_eq_some_iff]
  by_cases hi : (idx (ix2 e (0 : Fin 1))).toInt = (r.val : ℤ)
  · simp only [hi, true_and, if_true]
    rw [Finset.sum_ite_eq']
    simp
  · simp only [hi, false_and, if_false, Finset.sum_const_zero]

end Cert.LibSegmentSum

end
-- ==== Proof.RefSage.lean ====
import proofs.«407196_j36060545417339_2_alg».proof.Proof.RefRead
import proofs.«407196_j36060545417339_2_alg».proof.Proof.SpecSage
import proofs.«407196_j36060545417339_2_alg».proof.Proof.SpecHost
import proofs.«407196_j36060545417339_2_alg».proof.Proof.LibGather
import proofs.«407196_j36060545417339_2_alg».proof.Proof.LibSegmentSum
import proofs.«407196_j36060545417339_2_alg».proof.Proof.LibScatterVec
import Idealize.ShloMosaic.Lib.IdealHost
import Idealize.ShloMosaic.Lib.Pipeline.Value
import Idealize.ShloMosaic.Lib.StackMember
import Idealize.ShloMosaic.Lib.ValueLayout

noncomputable section

open scoped BigOperators

namespace Cert.ReferenceIdeal.SageHost

open Idealize.ShloMosaic Idealize.ShloMosaic.ValueIdx
open Cert.KernelIdeal.Gen Cert.KernelIdeal.Gen.Sage

theorem bcast_col_apply {α : Type} {n : ℕ} (hn : n ≠ 1)
    (hb : (⟨1, ![n]⟩ : Shape).BroadcastsInDim ⟨2, ![n, 1]⟩ ![0])
    (x : (⟨1, ![n]⟩ : Shape).Idx → α) (e : Fin n) (c : Fin 1) :
    broadcastInDim ⟨2, ![n, 1]⟩ ![0] hb x (ix2 e c) = x (ix1 e) :=
  broadcastInDim_apply _ hb x _ _ fun a => by
    match a with
    | ⟨0, _⟩ =>
      show e.val = if n = 1 then 0 else e.val
      rw [if_neg hn]

theorem bcast_cols_apply {α : Type} {n D : ℕ} (hn : n ≠ 1)
    (hb : (⟨2, ![n, 1]⟩ : Shape).BroadcastsInDim ⟨2, ![n, D]⟩ ![0, 1])
    (x : (⟨2, ![n, 1]⟩ : Shape).Idx → α) (i : Fin n) (d : Fin D) :
    broadcastInDim ⟨2, ![n, D]⟩ ![0, 1] hb x (ix2 i d) = x (ix2 i (0 : Fin 1)) :=
  broadcastInDim_apply _ hb x _ _ fun a => by
    match a with
    | ⟨0, _⟩ =>
      show i.val = if n = 1 then 0 else i.val
      rw [if_neg hn]
    | ⟨1, _⟩ => rfl

theorem bcast_rows_apply {α : Type} {n m : ℕ} (hm : m ≠ 1)
    (hb : (⟨2, ![1, m]⟩ : Shape).BroadcastsInDim ⟨2, ![n, m]⟩ ![0, 1])
    (x : (⟨2, ![1, m]⟩ : Shape).Idx → α) (i : Fin n) (o : Fin m) :
    broadcastInDim ⟨2, ![n, m]⟩ ![0, 1] hb x (ix2 i o) = x (ix2 (0 : Fin 1) o) :=
  broadcastInDim_apply _ hb x _ _ fun a => by
    match a with
    | ⟨0, _⟩ => rfl
    | ⟨1, _⟩ =>
      show o.val = if m = 1 then 0 else o.val
      rw [if_neg hm]

theorem bcast_row_eq_Row {m : ℕ} (hm : m ≠ 1)
    (hb : (⟨1, ![m]⟩ : Shape).BroadcastsInDim ⟨2, ![1, m]⟩ ![1]) (b : Vec Ideal ⟨1, ![m]⟩ .f32) :
    broadcastInDim ⟨2, ![1, m]⟩ ![1] hb b = HostSpec.Row b := by
  funext x
  refine broadcastInDim_apply _ hb b _ (ix1 (x 1)) fun a => ?_
  match a with
  | ⟨0, _⟩ =>
    show (x 1).val = if m = 1 then 0 else (x 1).val
    rw [if_neg hm]

theorem transpose_eq_Tr {a b : ℕ} (w : Vec Ideal ⟨2, ![a, b]⟩ .f32)
    (h : (⟨2, ![a, b]⟩ : Shape).Transposes [1, 0] ⟨2, ![b, a]⟩) :
    transpose ⟨2, ![b, a]⟩ [1, 0] w h = HostSpec.Tr w := by
  funext x
  rw [eq_ix2 x]
  exact transpose_ix2_apply w h _ _

theorem edge_row_apply (ei : IVec ⟨2, ![2, 262144]⟩ 32) (r : Nat) (hr : r < 2)
    (hs : (⟨2, ![2, 262144]⟩ : Shape).Slices ![r, 0] ⟨2, ![1, 262144]⟩)
    (hc : (⟨2, ![1, 262144]⟩ : Shape).ShapeCasts ⟨1, ![262144]⟩) (e : Fin 262144) :
    shapeCast ⟨1, ![262144]⟩ (extractStridedSlice ⟨2, ![1, 262144]⟩ ![r, 0] ei hs) hc (ix1 e) = ei (ix2 ⟨r, hr⟩ e) := by
  rw [shapeCast_dropUnit_apply ![262144] _ hc (ix1 e)]
  refine extractStridedSlice_apply _ ei hs _ _ fun a => ?_
  match a with
  | ⟨0, _⟩ => rfl
  | ⟨1, _⟩ => exact (Nat.zero_add _).symm

section Layer

variable {D : ℕ}

theorem pre_read (ei : IVec ⟨2, ![2, 262144]⟩ 32) (hnn : ∀ e, 0 ≤ srcZ ei e)
    {h : FVec Ideal ⟨2, ![8192, D]⟩ .f32} {wlT wrT : FVec Ideal ⟨2, ![D, 256]⟩ .f32} {b : FVec Ideal ⟨2, ![1, 256]⟩ .f32}
    {src dst : IVec ⟨1, ![262144]⟩ 32}
    (hsrc : ∀ e, src (ix1 e) = ei (ix2 (0 : Fin 2) e)) (hdst : ∀ e, dst (ix1 e) = ei (ix2 (1 : Fin 2) e))

    {f0 : (⟨0, ![]⟩ : Shape).BroadcastsInDim ⟨1, ![262144]⟩ ![]}
    {f1 : (⟨1, ![262144]⟩ : Shape).BroadcastsInDim ⟨2, ![262144, 1]⟩ ![0]}
    {f2 : (⟨0, ![]⟩ : Shape).BroadcastsInDim ⟨2, ![8192, D]⟩ ![]}
    {f3 : (⟨0, ![]⟩ : Shape).BroadcastsInDim ⟨1, ![8192]⟩ ![]}
    {f4 : (⟨1, ![8192]⟩ : Shape).BroadcastsInDim ⟨2, ![8192, 1]⟩ ![0]}
    {f5 : (⟨2, ![8192, 1]⟩ : Shape).BroadcastsInDim ⟨2, ![8192, D]⟩ ![0, 1]}
    {f6 : (⟨2, ![1, 256]⟩ : Shape).BroadcastsInDim ⟨2, ![8192, 256]⟩ ![0, 1]}
    {f7 : (⟨0, ![]⟩ : Shape).BroadcastsInDim ⟨2, ![8192, 256]⟩ ![]}
    {gd : GatherDims ⟨2, ![8192, D]⟩ ⟨2, ![262144, 1]⟩ ⟨2, ![262144, D]⟩}
    {wfg : GatherDims.WF (⟨2, ![8192, D]⟩ : Shape) (⟨2, ![262144, 1]⟩ : Shape) (⟨2, ![262144, D]⟩ : Shape) [1] [0] [] [0] [] 1 ![1, D]}
    {sd : ScatterDims ⟨2, ![8192, D]⟩ ⟨2, ![262144, 1]⟩ ⟨2, ![262144, D]⟩}
    {wfs : ScatterDims.WF (⟨2, ![8192, D]⟩ : Shape) (⟨2, ![262144, 1]⟩ : Shape) (⟨2, ![262144, D]⟩ : Shape) [1] [0] [0] 1}
    {vd : ScatterDims ⟨1, ![8192]⟩ ⟨2, ![262144, 1]⟩ ⟨1, ![262144]⟩}
    {wfv : ScatterDims.WF (⟨1, ![8192]⟩ : Shape) (⟨2, ![262144, 1]⟩ : Shape) (⟨1, ![262144]⟩ : Shape) [] [0] [0] 1}
    {dd : DotDims ⟨2, ![8192, D]⟩ ⟨2, ![D, 256]⟩ ⟨2, ![8192, 256]⟩}

    {c0 c8 : IVec ⟨0, ![]⟩ 32} (hc0 : c0 = constantI ⟨0, ![]⟩ 32 0#32)
    {z w s8 s9 : IVec ⟨1, ![262144]⟩ 32} {lt : IVec ⟨1, ![262144]⟩ 1} {s10 : IVec ⟨2, ![262144, 1]⟩ 32}
    (hz : z = broadcastInDim ⟨1, ![262144]⟩ ![] f0 c0)
    (hlt : lt = cmpi .slt src z)
    (hw : w = broadcastInDim ⟨1, ![262144]⟩ ![] f0 c8)
    (hs8 : s8 = addi src w)
    (hs9 : s9 = select lt s8 src)
    (hs10 : s10 = broadcastInDim ⟨2, ![262144, 1]⟩ ![0] f1 s9)
    {gth : FVec Ideal ⟨2, ![262144, D]⟩ .f32} (hgth : gth = Host.gather gd h s10)
    {k0 : FVec Ideal ⟨0, ![]⟩ .f32} (hk0 : k0 = constant ⟨0, ![]⟩ .f32 0x00000000#32)
    {zeros : FVec Ideal ⟨2, ![8192, D]⟩ .f32} (hzeros : zeros = broadcastInDim ⟨2, ![8192, D]⟩ ![] f2 k0)
    {d13 : IVec ⟨2, ![262144, 1]⟩ 32} (hd13 : d13 = broadcastInDim ⟨2, ![262144, 1]⟩ ![0] f1 dst)
    {sc : FVec Ideal ⟨2, ![8192, D]⟩ .f32} (hsc : sc = Host.scatterAdd sd zeros d13 gth)
    {k1 : FVec Ideal ⟨0, ![]⟩ .f32} (hk1 : k1 = constant ⟨0, ![]⟩ .f32 0x3F800000#32)
    {ones : FVec Ideal ⟨1, ![262144]⟩ .f32} (hones : ones = broadcastInDim ⟨1, ![262144]⟩ ![] f0 k1)
    {k2 : FVec Ideal ⟨0, ![]⟩ .f32} (hk2 : k2 = constant ⟨0, ![]⟩ .f32 0x00000000#32)
    {zerosN : FVec Ideal ⟨1, ![8192]⟩ .f32} (hzerosN : zerosN = broadcastInDim ⟨1, ![8192]⟩ ![] f3 k2)
    {d17 : IVec ⟨2, ![262144, 1]⟩ 32} (hd17 : d17 = broadcastInDim ⟨2, ![262144, 1]⟩ ![0] f1 dst)
    {degraw : FVec Ideal ⟨1, ![8192]⟩ .f32} (hdegraw : degraw = Host.scatterAdd vd zerosN d17 ones)
    {k3 : FVec Ideal ⟨0, ![]⟩ .f32} (hk3 : k3 = constant ⟨0, ![]⟩ .f32 0x3F800000#32)
    {onesN : FVec Ideal ⟨1, ![8192]⟩ .f32} (honesN : onesN = broadcastInDim ⟨1, ![8192]⟩ ![] f3 k3)
    {deg : FVec Ideal ⟨1, ![8192]⟩ .f32} (hdeg : deg = maximumf degraw onesN)
    {deg1 : FVec Ideal ⟨2, ![8192, 1]⟩ .f32} (hdeg1 : deg1 = broadcastInDim ⟨2, ![8192, 1]⟩ ![0] f4 deg)
    {degD : FVec Ideal ⟨2, ![8192, D]⟩ .f32} (hdegD : degD = broadcastInDim ⟨2, ![8192, D]⟩ ![0, 1] f5 deg1)
    {agg : FVec Ideal ⟨2, ![8192, D]⟩ .f32} (hagg : agg = Host.divf sc degD)
    {dot1 : FVec Ideal ⟨2, ![8192, 256]⟩ .f32} (hdot1 : dot1 = Host.dotGeneral dd none agg wlT)
    {bb : FVec Ideal ⟨2, ![8192, 256]⟩ .f32} (hbb : bb = broadcastInDim ⟨2, ![8192, 256]⟩ ![0, 1] f6 b)
    {s28 : FVec Ideal ⟨2, ![8192, 256]⟩ .f32} (hs28 : s28 = addf dot1 bb)
    {dot2 : FVec Ideal ⟨2, ![8192, 256]⟩ .f32} (hdot2 : dot2 = Host.dotGeneral dd none h wrT)
    {pre : FVec Ideal ⟨2, ![8192, 256]⟩ .f32} (hpre : pre = addf s28 dot2)
    {k4 : FVec Ideal ⟨0, ![]⟩ .f32} (hk4 : k4 = constant ⟨0, ![]⟩ .f32 0x00000000#32)
    {rz : FVec Ideal ⟨2, ![8192, 256]⟩ .f32} (hrz : rz = broadcastInDim ⟨2, ![8192, 256]⟩ ![] f7 k4)
    {r : FVec Ideal ⟨2, ![8192, 256]⟩ .f32} (hr : r = maximumf pre rz)
    (hgd : gd = Cert.LibGather.rowGatherDims 8192 D 262144 wfg)
    (hsd : sd = Cert.LibSegmentSum.rowScatterDims 8192 D 262144 wfs)
    (hvd : vd = Cert.LibScatterVec.vecScatterDims 8192 262144 wfv)
    (hdd : dd = DotDims.plain 8192 D 256)
    (i : Fin 8192) (o : Fin 256) :
    r (ix2 i o) = relu (linR (aggR ei h) h wlT wrT b i o) := by

  have hsrcZ : ∀ e, (src (ix1 e)).toInt = srcZ ei e := fun e => by rw [hsrc e]; rfl
  have hdstZ : ∀ e, (dst (ix1 e)).toInt = dstZ ei e := fun e => by rw [hdst e]; rfl
  have hz0 : ∀ j, z j = 0#32 := fun j => by
    rw [hz, broadcastInDim_scalar_apply, hc0]; rfl
  have hs9e : ∀ e, s9 (ix1 e) = src (ix1 e) := fun e => by
    rw [hs9, hlt, hs8]
    exact Cert.LibGather.wrap_apply_of_nonneg src z w hz0 (ix1 e) (by rw [hsrcZ e]; exact hnn e)
  have hs10e : ∀ e, s10 (ix2 e (0 : Fin 1)) = src (ix1 e) := fun e => by
    rw [hs10, bcast_col_apply (by decide) f1 s9 e 0, hs9e e]

  have hrow : ∀ e, (⟨min (s10 (ix2 e (0 : Fin 1))).toInt.toNat (8192 - 1), by omega⟩ : Fin 8192) = srcRow ei e := fun e => by
    apply Fin.ext
    show min (s10 (ix2 e (0 : Fin 1))).toInt.toNat (8192 - 1) = min (if srcZ ei e < 0 then srcZ ei e + 8192 else srcZ ei e).toNat 8191
    rw [hs10e e, hsrcZ e, if_neg (not_lt.mpr (hnn e))]
  have hgthe : ∀ e d, gth (ix2 e d) = h (ix2 (srcRow ei e) d) := fun e d => by
    rw [hgth, hgd, Cert.LibGather.rowGather_apply (by decide) wfg h s10 e d, hrow e]
  have hd13e : ∀ e, (d13 (ix2 e (0 : Fin 1))).toInt = dstZ ei e := fun e => by
    rw [hd13, bcast_col_apply (by decide) f1 dst e 0, hdstZ e]
  have hd17e : ∀ e, (d17 (ix2 e (0 : Fin 1))).toInt = dstZ ei e := fun e => by
    rw [hd17, bcast_col_apply (by decide) f1 dst e 0, hdstZ e]

  have hsce : ∀ i d, sc (ix2 i d) = ∑ e : Fin 262144, if dstZ ei e = (i.val : ℤ) then h (ix2 (srcRow ei e) d) else 0 := fun i d => by
    rw [hsc, hsd]
    show Ideal.hostScatterAdd _ zeros d13 gth (ix2 i d) = _
    rw [Cert.LibSegmentSum.rowScatterAdd_apply wfs zeros d13 gth i d, hzeros, broadcastInDim_scalar_apply, hk0]
    show Ideal.ofBits .f32 0x00000000#32 + _ = _
    rw [Ideal.ofBits_zero_f32, zero_add]
    refine Finset.sum_congr rfl fun e _ => ?_
    rw [hd13e e, hgthe e d]
  have hdegrawe : ∀ i, degraw (ix1 i) = DegRaw ei i := fun i => by
    rw [hdegraw, hvd]
    show Ideal.hostScatterAdd _ zerosN d17 ones (ix1 i) = _
    rw [Cert.LibScatterVec.vecScatterAdd_apply wfv zerosN d17 ones i, hzerosN, broadcastInDim_scalar_apply, hk2]
    show Ideal.ofBits .f32 0x00000000#32 + _ = _
    rw [Ideal.ofBits_zero_f32, zero_add]
    unfold DegRaw
    refine Finset.sum_congr rfl fun e _ => ?_
    rw [hd17e e, hones, broadcastInDim_scalar_apply, hk1]
    show (if _ then Ideal.ofBits .f32 0x3F800000#32 else 0) = _
    rw [Ideal.ofBits_one_f32]
  have hdege : ∀ i, deg (ix1 i) = Deg ei i := fun i => by
    rw [hdeg, maximumf_apply, hdegrawe i, honesN, broadcastInDim_scalar_apply, hk3]
    show max _ (Ideal.ofBits .f32 0x3F800000#32) = _
    rw [Ideal.ofBits_one_f32]; rfl
  have hdegDe : ∀ i d, degD (ix2 i d) = Deg ei i := fun i d => by
    rw [hdegD, bcast_cols_apply (by decide) f5 deg1 i d, hdeg1, bcast_col_apply (by decide) f4 deg i 0, hdege i]
  have hagge : ∀ i d, agg (ix2 i d) = aggR ei h i d := fun i d => by
    rw [hagg, hostDivf_apply, hsce i d, hdegDe i d]; rfl

  have hdot1e : dot1 (ix2 i o) = ∑ d : Fin D, aggR ei h i d * wlT (ix2 d o) := by
    rw [hdot1, hdd, Idealize.ShloMosaic.StackMember.dotGeneral_plain_apply none agg wlT i o]
    exact Finset.sum_congr rfl fun d _ => by rw [hagge i d]
  have hdot2e : dot2 (ix2 i o) = ∑ d : Fin D, h (ix2 i d) * wrT (ix2 d o) := by
    rw [hdot2, hdd, Idealize.ShloMosaic.StackMember.dotGeneral_plain_apply none h wrT i o]
  have hbbe : bb (ix2 i o) = b (ix2 (0 : Fin 1) o) := by
    rw [hbb, bcast_rows_apply (by decide) f6 b i o]
  have hrze : rz (ix2 i o) = 0 := by
    rw [hrz, broadcastInDim_scalar_apply, hk4]
    exact Ideal.ofBits_zero_f32
  rw [hr, maximumf_apply, hrze, hpre, addf_apply, hs28, addf_apply, hdot1e, hdot2e, hbbe]
  rfl

end Layer

theorem rowsum256_apply (X : FVec Ideal ⟨2, ![8192, 256]⟩ .f32) (k : FVec Ideal ⟨0, ![]⟩ .f32)
    (hk : k = constant ⟨0, ![]⟩ .f32 0x00000000#32)
    (hr : (⟨2, ![8192, 256]⟩ : Shape).ReducesTo [1] ⟨1, ![8192]⟩) (h0 : 0 < (⟨0, ![]⟩ : Shape).numel) (i : Fin 8192) :
    Host.reduceAdd X k hr h0 (ix1 i) = ∑ o : Fin 256, X (ix2 i o) := by
  have hR : (⟨2, ![8192, 256]⟩ : Shape).Reduces [1] ⟨1, ![8192]⟩ := by decide
  rw [hostReduceAdd_apply, Ideal.hostReduceAdd_single hr hR, hk]
  show Ideal.ofBits .f32 0x00000000#32 + _ = _
  rw [Ideal.ofBits_zero_f32, zero_add]
  refine Finset.sum_congr rfl fun c _ => ?_
  congr 1
  funext a
  refine Fin.ext ?_
  match a with
  | ⟨0, _⟩ => rfl
  | ⟨1, _⟩ => rfl

theorem ln_read (x : FVec Ideal ⟨2, ![8192, 256]⟩ .f32) (g be : FVec Ideal ⟨2, ![1, 256]⟩ .f32)
    {hr : (⟨2, ![8192, 256]⟩ : Shape).ReducesTo [1] ⟨1, ![8192]⟩} {h0 : 0 < (⟨0, ![]⟩ : Shape).numel}
    {f4 : (⟨1, ![8192]⟩ : Shape).BroadcastsInDim ⟨2, ![8192, 1]⟩ ![0]}
    {f8 : (⟨0, ![]⟩ : Shape).BroadcastsInDim ⟨2, ![8192, 1]⟩ ![]}
    {f9 : (⟨2, ![8192, 1]⟩ : Shape).BroadcastsInDim ⟨2, ![8192, 256]⟩ ![0, 1]}
    {f6 : (⟨2, ![1, 256]⟩ : Shape).BroadcastsInDim ⟨2, ![8192, 256]⟩ ![0, 1]}
    {k4 : FVec Ideal ⟨0, ![]⟩ .f32} (hk4 : k4 = constant ⟨0, ![]⟩ .f32 0x00000000#32)
    {s33 : FVec Ideal ⟨1, ![8192]⟩ .f32} (hs33 : s33 = Host.reduceAdd x k4 hr h0)
    {s34 : FVec Ideal ⟨2, ![8192, 1]⟩ .f32} (hs34 : s34 = broadcastInDim ⟨2, ![8192, 1]⟩ ![0] f4 s33)
    {k5 : FVec Ideal ⟨0, ![]⟩ .f32} (hk5 : k5 = constant ⟨0, ![]⟩ .f32 0x43800000#32)
    {s35 : FVec Ideal ⟨2, ![8192, 1]⟩ .f32} (hs35 : s35 = broadcastInDim ⟨2, ![8192, 1]⟩ ![] f8 k5)
    {mean : FVec Ideal ⟨2, ![8192, 1]⟩ .f32} (hmean : mean = Host.divf s34 s35)
    {m37 : FVec Ideal ⟨2, ![8192, 256]⟩ .f32} (hm37 : m37 = broadcastInDim ⟨2, ![8192, 256]⟩ ![0, 1] f9 mean)
    {d38 : FVec Ideal ⟨2, ![8192, 256]⟩ .f32} (hd38 : d38 = subf x m37)
    {sq : FVec Ideal ⟨2, ![8192, 256]⟩ .f32} (hsq : sq = mulf d38 d38)
    {k6 : FVec Ideal ⟨0, ![]⟩ .f32} (hk6 : k6 = constant ⟨0, ![]⟩ .f32 0x00000000#32)
    {s40 : FVec Ideal ⟨1, ![8192]⟩ .f32} (hs40 : s40 = Host.reduceAdd sq k6 hr h0)
    {s41 : FVec Ideal ⟨2, ![8192, 1]⟩ .f32} (hs41 : s41 = broadcastInDim ⟨2, ![8192, 1]⟩ ![0] f4 s40)
    {k7 : FVec Ideal ⟨0, ![]⟩ .f32} (hk7 : k7 = constant ⟨0, ![]⟩ .f32 0x43800000#32)
    {s42 : FVec Ideal ⟨2, ![8192, 1]⟩ .f32} (hs42 : s42 = broadcastInDim ⟨2, ![8192, 1]⟩ ![] f8 k7)
    {var : FVec Ideal ⟨2, ![8192, 1]⟩ .f32} (hvar : var = Host.divf s41 s42)
    {m44 : FVec Ideal ⟨2, ![8192, 256]⟩ .f32} (hm44 : m44 = broadcastInDim ⟨2, ![8192, 256]⟩ ![0, 1] f9 mean)
    {d45 : FVec Ideal ⟨2, ![8192, 256]⟩ .f32} (hd45 : d45 = subf x m44)
    {k8 : FVec Ideal ⟨0, ![]⟩ .f32} (hk8 : k8 = constant ⟨0, ![]⟩ .f32 0x3727C5AC#32)
    {e46 : FVec Ideal ⟨2, ![8192, 1]⟩ .f32} (he46 : e46 = broadcastInDim ⟨2, ![8192, 1]⟩ ![] f8 k8)
    {s47 : FVec Ideal ⟨2, ![8192, 1]⟩ .f32} (hs47 : s47 = addf var e46)
    {s48 : FVec Ideal ⟨2, ![8192, 1]⟩ .f32} (hs48 : s48 = Host.sqrt s47)
    {s49 : FVec Ideal ⟨2, ![8192, 256]⟩ .f32} (hs49 : s49 = broadcastInDim ⟨2, ![8192, 256]⟩ ![0, 1] f9 s48)
    {n50 : FVec Ideal ⟨2, ![8192, 256]⟩ .f32} (hn50 : n50 = Host.divf d45 s49)
    {gg : FVec Ideal ⟨2, ![8192, 256]⟩ .f32} (hgg : gg = broadcastInDim ⟨2, ![8192, 256]⟩ ![0, 1] f6 g)
    {s53 : FVec Ideal ⟨2, ![8192, 256]⟩ .f32} (hs53 : s53 = mulf n50 gg)
    {bb : FVec Ideal ⟨2, ![8192, 256]⟩ .f32} (hbb : bb = broadcastInDim ⟨2, ![8192, 256]⟩ ![0, 1] f6 be)
    {out : FVec Ideal ⟨2, ![8192, 256]⟩ .f32} (hout : out = addf s53 bb)
    (i : Fin 8192) (o : Fin 256) :
    out (ix2 i o) = LN (fun o' => x (ix2 i o')) g be o := by
  have hmeane : mean (ix2 i (0 : Fin 1)) = LNmean (fun o' => x (ix2 i o')) := by
    rw [hmean, hostDivf_apply, hs34, bcast_col_apply (by decide) f4 s33 i 0, hs33, rowsum256_apply x k4 hk4 hr h0 i,
      hs35, broadcastInDim_scalar_apply, hk5]
    rfl
  have hd : ∀ o', x (ix2 i o') - mean (ix2 i (0 : Fin 1)) = x (ix2 i o') - LNmean (fun o' => x (ix2 i o')) := fun o' => by
    rw [hmeane]
  have hvare : var (ix2 i (0 : Fin 1)) = LNvar (fun o' => x (ix2 i o')) := by
    rw [hvar, hostDivf_apply, hs41, bcast_col_apply (by decide) f4 s40 i 0, hs40, rowsum256_apply sq k6 hk6 hr h0 i,
      hs42, broadcastInDim_scalar_apply, hk7]
    unfold LNvar
    congr 1
    refine Finset.sum_congr rfl fun o' _ => ?_
    rw [hsq, mulf_apply, hd38, subf_apply, hm37, bcast_cols_apply (by decide) f9 mean i o', hmeane]
  rw [hout, addf_apply, hs53, mulf_apply, hn50, hostDivf_apply, hd45, subf_apply, hm44,
    bcast_cols_apply (by decide) f9 mean i o, hmeane, hs49, bcast_cols_apply (by decide) f9 s48 i o, hs48]
  show Ideal.div _ (FloatOps.hostUnary .sqrt (s47 (ix2 i (0 : Fin 1)))) * _ + _ = _
  rw [Ideal.hostUnary_sqrt_def, hs47, addf_apply, hvare, he46, broadcastInDim_scalar_apply, hk8, hgg,
    bcast_rows_apply (by decide) f6 g i o, hbb, bcast_rows_apply (by decide) f6 be i o]
  rfl

end Cert.ReferenceIdeal.SageHost

namespace Cert.ReferenceIdeal.RefRun

open Cert.ReferenceIdeal Idealize.ShloMosaic Idealize.ShloMosaic.TcCoe Idealize.SL.Sem Idealize.ShloMosaic.StableHlo
open Idealize.ShloMosaic.ValueIdx Cert.ReferenceIdeal.SageHost Cert.KernelIdeal.Gen Cert.KernelIdeal.Gen.Sage

set_option maxRecDepth 8192

theorem src_read (V : Valuation τ sig (Elt Ideal)) (e : Fin 262144) :
    ((after ops V (Proc.devRef .tc main_v1)) : IVec ⟨1, ![262144]⟩ 32) (ix1 e) = ((V (Proc.devRef .tc main_arg20)) : IVec ⟨2, ![2, 262144]⟩ 32) (ix2 (0 : Fin 2) e) := by
  rw [val_main_v1, val_main_v0, keep main_arg20 (by decide +kernel) V]
  exact edge_row_apply _ 0 (by decide) _ _ e

theorem dst_read (V : Valuation τ sig (Elt Ideal)) (e : Fin 262144) :
    ((after ops V (Proc.devRef .tc main_v3)) : IVec ⟨1, ![262144]⟩ 32) (ix1 e) = ((V (Proc.devRef .tc main_arg20)) : IVec ⟨2, ![2, 262144]⟩ 32) (ix2 (1 : Fin 2) e) := by
  rw [val_main_v3, val_main_v2, keep main_arg20 (by decide +kernel) V]
  exact edge_row_apply _ 1 (by decide) _ _ e

theorem layer1_read (V : Valuation τ sig (Elt Ideal)) (hnn : ∀ e, 0 ≤ srcZ (V (Proc.devRef .tc main_arg20)) e) :
    ((after ops V (Proc.devRef .tc main_v56)) : FVec Ideal ⟨2, ![8192, 256]⟩ .f32)
      = SageR 160 true (V (Proc.devRef .tc main_arg20)) (after ops V (Proc.devRef .tc main_v4)) (after ops V (Proc.devRef .tc main_v24)) (after ops V (Proc.devRef .tc main_v29)) (after ops V (Proc.devRef .tc main_v26)) (after ops V (Proc.devRef .tc main_v51)) (after ops V (Proc.devRef .tc main_v54)) := by
  funext x
  obtain ⟨i, o, rfl⟩ : ∃ i o, x = ix2 i o := ⟨x 0, x 1, eq_ix2 x⟩
  show _ = LN (fun o' => relu (linR (aggR (V (Proc.devRef .tc main_arg20)) (after ops V (Proc.devRef .tc main_v4))) (after ops V (Proc.devRef .tc main_v4)) (after ops V (Proc.devRef .tc main_v24)) (after ops V (Proc.devRef .tc main_v29)) (after ops V (Proc.devRef .tc main_v26)) i o')) (after ops V (Proc.devRef .tc main_v51)) (after ops V (Proc.devRef .tc main_v54)) o
  refine (ln_read (x := (after ops V (Proc.devRef .tc main_v32))) (g := (after ops V (Proc.devRef .tc main_v51))) (be := (after ops V (Proc.devRef .tc main_v54))) (hk4 := val_main_cst_4 V) (hs33 := val_main_v33 V) (hs34 := val_main_v34 V) (hk5 := val_main_cst_5 V) (hs35 := val_main_v35 V) (hmean := val_main_v36 V) (hm37 := val_main_v37 V) (hd38 := val_main_v38 V) (hsq := val_main_v39 V) (hk6 := val_main_cst_6 V) (hs40 := val_main_v40 V) (hs41 := val_main_v41 V) (hk7 := val_main_cst_7 V) (hs42 := val_main_v42 V) (hvar := val_main_v43 V) (hm44 := val_main_v44 V) (hd45 := val_main_v45 V) (hk8 := val_main_cst_8 V) (he46 := val_main_v46 V) (hs47 := val_main_v47 V) (hs48 := val_main_v48 V) (hs49 := val_main_v49 V) (hn50 := val_main_v50 V) (hgg := val_main_v52 V) (hs53 := val_main_v53 V) (hbb := val_main_v55 V) (hout := val_main_v56 V) i o).trans ?_
  refine congrArg (fun f => LN f (after ops V (Proc.devRef .tc main_v51)) (after ops V (Proc.devRef .tc main_v54)) o) (funext fun o' => ?_)
  exact pre_read (V (Proc.devRef .tc main_arg20)) hnn (src_read V) (dst_read V) (hc0 := val_main_c V) (hz := val_main_v5 V) (hlt := val_main_v6 V) (hw := val_main_v7 V) (hs8 := val_main_v8 V) (hs9 := val_main_v9 V) (hs10 := val_main_v10 V) (hgth := val_main_v11 V) (hk0 := val_main_cst V) (hzeros := val_main_v12 V) (hd13 := val_main_v13 V) (hsc := val_main_v14 V) (hk1 := val_main_cst_1 V) (hones := val_main_v15 V) (hk2 := val_main_cst_2 V) (hzerosN := val_main_v16 V) (hd17 := val_main_v17 V) (hdegraw := val_main_v18 V) (hk3 := val_main_cst_3 V) (honesN := val_main_v19 V) (hdeg := val_main_v20 V) (hdeg1 := val_main_v21 V) (hdegD := val_main_v22 V) (hagg := val_main_v23 V) (hdot1 := val_main_v25 V) (hbb := val_main_v27 V) (hs28 := val_main_v28 V) (hdot2 := val_main_v30 V) (hpre := val_main_v31 V) (hk4 := val_main_call0_cst V) (hrz := val_main_call0_v0 V) (hr := val_main_v32 V) (hgd := rfl) (hsd := rfl) (hvd := rfl) (hdd := rfl) i o'

theorem layer2_read (V : Valuation τ sig (Elt Ideal)) (hnn : ∀ e, 0 ≤ srcZ (V (Proc.devRef .tc main_arg20)) e) :
    ((after ops V (Proc.devRef .tc main_v123)) : FVec Ideal ⟨2, ![8192, 256]⟩ .f32)
      = SageR 512 true (V (Proc.devRef .tc main_arg20)) (after ops V (Proc.devRef .tc main_v71)) (after ops V (Proc.devRef .tc main_v91)) (after ops V (Proc.devRef .tc main_v96)) (after ops V (Proc.devRef .tc main_v93)) (after ops V (Proc.devRef .tc main_v118)) (after ops V (Proc.devRef .tc main_v121)) := by
  funext x
  obtain ⟨i, o, rfl⟩ : ∃ i o, x = ix2 i o := ⟨x 0, x 1, eq_ix2 x⟩
  show _ = LN (fun o' => relu (linR (aggR (V (Proc.devRef .tc main_arg20)) (after ops V (Proc.devRef .tc main_v71))) (after ops V (Proc.devRef .tc main_v71)) (after ops V (Proc.devRef .tc main_v91)) (after ops V (Proc.devRef .tc main_v96)) (after ops V (Proc.devRef .tc main_v93)) i o')) (after ops V (Proc.devRef .tc main_v118)) (after ops V (Proc.devRef .tc main_v121)) o
  refine (ln_read (x := (after ops V (Proc.devRef .tc main_v99))) (g := (after ops V (Proc.devRef .tc main_v118))) (be := (after ops V (Proc.devRef .tc main_v121))) (hk4 := val_main_cst_24 V) (hs33 := val_main_v100 V) (hs34 := val_main_v101 V) (hk5 := val_main_cst_25 V) (hs35 := val_main_v102 V) (hmean := val_main_v103 V) (hm37 := val_main_v104 V) (hd38 := val_main_v105 V) (hsq := val_main_v106 V) (hk6 := val_main_cst_26 V) (hs40 := val_main_v107 V) (hs41 := val_main_v108 V) (hk7 := val_main_cst_27 V) (hs42 := val_main_v109 V) (hvar := val_main_v110 V) (hm44 := val_main_v111 V) (hd45 := val_main_v112 V) (hk8 := val_main_cst_28 V) (he46 := val_main_v113 V) (hs47 := val_main_v114 V) (hs48 := val_main_v115 V) (hs49 := val_main_v116 V) (hn50 := val_main_v117 V) (hgg := val_main_v119 V) (hs53 := val_main_v120 V) (hbb := val_main_v122 V) (hout := val_main_v123 V) i o).trans ?_
  refine congrArg (fun f => LN f (after ops V (Proc.devRef .tc main_v118)) (after ops V (Proc.devRef .tc main_v121)) o) (funext fun o' => ?_)
  exact pre_read (V (Proc.devRef .tc main_arg20)) hnn (src_read V) (dst_read V) (hc0 := val_main_c_18 V) (hz := val_main_v72 V) (hlt := val_main_v73 V) (hw := val_main_v74 V) (hs8 := val_main_v75 V) (hs9 := val_main_v76 V) (hs10 := val_main_v77 V) (hgth := val_main_v78 V) (hk0 := val_main_cst_20 V) (hzeros := val_main_v79 V) (hd13 := val_main_v80 V) (hsc := val_main_v81 V) (hk1 := val_main_cst_21 V) (hones := val_main_v82 V) (hk2 := val_main_cst_22 V) (hzerosN := val_main_v83 V) (hd17 := val_main_v84 V) (hdegraw := val_main_v85 V) (hk3 := val_main_cst_23 V) (honesN := val_main_v86 V) (hdeg := val_main_v87 V) (hdeg1 := val_main_v88 V) (hdegD := val_main_v89 V) (hagg := val_main_v90 V) (hdot1 := val_main_v92 V) (hbb := val_main_v94 V) (hs28 := val_main_v95 V) (hdot2 := val_main_v97 V) (hpre := val_main_v98 V) (hk4 := val_main_call2_cst V) (hrz := val_main_call2_v0 V) (hr := val_main_v99 V) (hgd := rfl) (hsd := rfl) (hvd := rfl) (hdd := rfl) i o'

theorem layer3_read (V : Valuation τ sig (Elt Ideal)) (hnn : ∀ e, 0 ≤ srcZ (V (Proc.devRef .tc main_arg20)) e)
    (g be : Vec Ideal ⟨2, ![1, 256]⟩ .f32) :
    ((after ops V (Proc.devRef .tc main_v151)) : FVec Ideal ⟨2, ![8192, 256]⟩ .f32)
      = SageR 256 false (V (Proc.devRef .tc main_arg20)) (after ops V (Proc.devRef .tc main_v123)) (after ops V (Proc.devRef .tc main_v143)) (after ops V (Proc.devRef .tc main_v148)) (after ops V (Proc.devRef .tc main_v145)) g be := by
  funext x
  obtain ⟨i, o, rfl⟩ : ∃ i o, x = ix2 i o := ⟨x 0, x 1, eq_ix2 x⟩
  show _ = relu (linR (aggR (V (Proc.devRef .tc main_arg20)) (after ops V (Proc.devRef .tc main_v123))) (after ops V (Proc.devRef .tc main_v123)) (after ops V (Proc.devRef .tc main_v143)) (after ops V (Proc.devRef .tc main_v148)) (after ops V (Proc.devRef .tc main_v145)) i o)
  exact pre_read (V (Proc.devRef .tc main_arg20)) hnn (src_read V) (dst_read V) (hc0 := val_main_c_29 V) (hz := val_main_v124 V) (hlt := val_main_v125 V) (hw := val_main_v126 V) (hs8 := val_main_v127 V) (hs9 := val_main_v128 V) (hs10 := val_main_v129 V) (hgth := val_main_v130 V) (hk0 := val_main_cst_31 V) (hzeros := val_main_v131 V) (hd13 := val_main_v132 V) (hsc := val_main_v133 V) (hk1 := val_main_cst_32 V) (hones := val_main_v134 V) (hk2 := val_main_cst_33 V) (hzerosN := val_main_v135 V) (hd17 := val_main_v136 V) (hdegraw := val_main_v137 V) (hk3 := val_main_cst_34 V) (honesN := val_main_v138 V) (hdeg := val_main_v139 V) (hdeg1 := val_main_v140 V) (hdegD := val_main_v141 V) (hagg := val_main_v142 V) (hdot1 := val_main_v144 V) (hbb := val_main_v146 V) (hs28 := val_main_v147 V) (hdot2 := val_main_v149 V) (hpre := val_main_v150 V) (hk4 := val_main_call3_cst V) (hrz := val_main_call3_v0 V) (hr := val_main_v151 V) (hgd := rfl) (hsd := rfl) (hvd := rfl) (hdd := rfl) i o

theorem tr_main_v24 (V : Valuation τ sig (Elt Ideal)) :
    ((after ops V (Proc.devRef .tc main_v24)) : FVec Ideal ⟨2, ![160, 256]⟩ .f32) = HostSpec.Tr (m := 256) (n := 160) (V (Proc.devRef .tc main_arg5)) := by
  rw [val_main_v24, keep main_arg5 (by decide +kernel) V]
  exact transpose_eq_Tr _ _

theorem tr_main_v29 (V : Valuation τ sig (Elt Ideal)) :
    ((after ops V (Proc.devRef .tc main_v29)) : FVec Ideal ⟨2, ![160, 256]⟩ .f32) = HostSpec.Tr (m := 256) (n := 160) (V (Proc.devRef .tc main_arg6)) := by
  rw [val_main_v29, keep main_arg6 (by decide +kernel) V]
  exact transpose_eq_Tr _ _

theorem tr_main_v91 (V : Valuation τ sig (Elt Ideal)) :
    ((after ops V (Proc.devRef .tc main_v91)) : FVec Ideal ⟨2, ![512, 256]⟩ .f32) = HostSpec.Tr (m := 256) (n := 512) (V (Proc.devRef .tc main_arg8)) := by
  rw [val_main_v91, keep main_arg8 (by decide +kernel) V]
  exact transpose_eq_Tr _ _

theorem tr_main_v96 (V : Valuation τ sig (Elt Ideal)) :
    ((after ops V (Proc.devRef .tc main_v96)) : FVec Ideal ⟨2, ![512, 256]⟩ .f32) = HostSpec.Tr (m := 256) (n := 512) (V (Proc.devRef .tc main_arg9)) := by
  rw [val_main_v96, keep main_arg9 (by decide +kernel) V]
  exact transpose_eq_Tr _ _

theorem tr_main_v143 (V : Valuation τ sig (Elt Ideal)) :
    ((after ops V (Proc.devRef .tc main_v143)) : FVec Ideal ⟨2, ![256, 256]⟩ .f32) = HostSpec.Tr (m := 256) (n := 256) (V (Proc.devRef .tc main_arg11)) := by
  rw [val_main_v143, keep main_arg11 (by decide +kernel) V]
  exact transpose_eq_Tr _ _

theorem tr_main_v148 (V : Valuation τ sig (Elt Ideal)) :
    ((after ops V (Proc.devRef .tc main_v148)) : FVec Ideal ⟨2, ![256, 256]⟩ .f32) = HostSpec.Tr (m := 256) (n := 256) (V (Proc.devRef .tc main_arg12)) := by
  rw [val_main_v148, keep main_arg12 (by decide +kernel) V]
  exact transpose_eq_Tr _ _

theorem row_main_v26 (V : Valuation τ sig (Elt Ideal)) :
    ((after ops V (Proc.devRef .tc main_v26)) : FVec Ideal ⟨2, ![1, 256]⟩ .f32) = HostSpec.Row (n := 256) (V (Proc.devRef .tc main_arg7)) := by
  rw [val_main_v26, keep main_arg7 (by decide +kernel) V]
  exact bcast_row_eq_Row (by decide) _ _

theorem row_main_v51 (V : Valuation τ sig (Elt Ideal)) :
    ((after ops V (Proc.devRef .tc main_v51)) : FVec Ideal ⟨2, ![1, 256]⟩ .f32) = HostSpec.Row (n := 256) (V (Proc.devRef .tc main_arg16)) := by
  rw [val_main_v51, keep main_arg16 (by decide +kernel) V]
  exact bcast_row_eq_Row (by decide) _ _

theorem row_main_v54 (V : Valuation τ sig (Elt Ideal)) :
    ((after ops V (Proc.devRef .tc main_v54)) : FVec Ideal ⟨2, ![1, 256]⟩ .f32) = HostSpec.Row (n := 256) (V (Proc.devRef .tc main_arg17)) := by
  rw [val_main_v54, keep main_arg17 (by decide +kernel) V]
  exact bcast_row_eq_Row (by decide) _ _

theorem row_main_v93 (V : Valuation τ sig (Elt Ideal)) :
    ((after ops V (Proc.devRef .tc main_v93)) : FVec Ideal ⟨2, ![1, 256]⟩ .f32) = HostSpec.Row (n := 256) (V (Proc.devRef .tc main_arg10)) := by
  rw [val_main_v93, keep main_arg10 (by decide +kernel) V]
  exact bcast_row_eq_Row (by decide) _ _

theorem row_main_v118 (V : Valuation τ sig (Elt Ideal)) :
    ((after ops V (Proc.devRef .tc main_v118)) : FVec Ideal ⟨2, ![1, 256]⟩ .f32) = HostSpec.Row (n := 256) (V (Proc.devRef .tc main_arg18)) := by
  rw [val_main_v118, keep main_arg18 (by decide +kernel) V]
  exact bcast_row_eq_Row (by decide) _ _

theorem row_main_v121 (V : Valuation τ sig (Elt Ideal)) :
    ((after ops V (Proc.devRef .tc main_v121)) : FVec Ideal ⟨2, ![1, 256]⟩ .f32) = HostSpec.Row (n := 256) (V (Proc.devRef .tc main_arg19)) := by
  rw [val_main_v121, keep main_arg19 (by decide +kernel) V]
  exact bcast_row_eq_Row (by decide) _ _

theorem row_main_v145 (V : Valuation τ sig (Elt Ideal)) :
    ((after ops V (Proc.devRef .tc main_v145)) : FVec Ideal ⟨2, ![1, 256]⟩ .f32) = HostSpec.Row (n := 256) (V (Proc.devRef .tc main_arg13)) := by
  rw [val_main_v145, keep main_arg13 (by decide +kernel) V]
  exact bcast_row_eq_Row (by decide) _ _

end Cert.ReferenceIdeal.RefRun

end
-- ==== Proof.RefTcat.lean ====
import proofs.«407196_j36060545417339_2_alg».proof.Proof.RefRead
import proofs.«407196_j36060545417339_2_alg».proof.Proof.SpecHost

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxHeartbeats 4000000 in
theorem ref_tcat (V : Valuation τ sig (Elt Ideal)) :
    (after ops V (Proc.devRef .tc main_v71) : S8192x512.Idx → EReal)
      = Cert.KernelIdeal.Gen.HostSpec.Tcat (after ops V (Proc.devRef .tc main_v56)) (V (Proc.devRef .tc main_arg2)) := by
  rw [val_main_v71, val_main_v70, val_main_v69, val_main_v68, val_main_v67, val_main_v63, val_main_v61, val_main_v62,
    val_main_v66, val_main_v64, val_main_v65, val_main_v60, val_main_v59, val_main_v58, val_main_v57,
    val_main_cst_9, val_main_c_10, val_main_call1_v0, val_main_call1_c, val_main_call1_c_0, val_main_c_11, val_main_c_12,
    val_main_c_13, val_main_c_14, val_main_c_15, val_main_c_16, val_main_c_17,
    keep main_arg2 (by decide +kernel) V]
  rfl

end Cert.ReferenceIdeal.RefRun

end
-- ==== Proof.RefH3.lean ====
import proofs.«407196_j36060545417339_2_alg».proof.Proof.RefSage
import proofs.«407196_j36060545417339_2_alg».proof.Proof.RefTcat
import proofs.«407196_j36060545417339_2_alg».proof.Proof.Network
import proofs.«407196_j36060545417339_2_alg».proof.Proof.SpecHost
import Idealize.ShloMosaic.Lib.Pipeline.Value

noncomputable section

namespace Cert.ReferenceIdeal.RefRun

open Cert.ReferenceIdeal Idealize.ShloMosaic Idealize.ShloMosaic.TcCoe Idealize.SL.Sem Idealize.ShloMosaic.StableHlo
open Idealize.ShloMosaic.ValueIdx Cert.KernelIdeal.Gen Cert.KernelIdeal.Gen.Sage
open scoped BigOperators

set_option maxRecDepth 8192

theorem h0_of_concatenate (a0 a1 a2 a3 a4 : (⟨2, ![8192, 32]⟩ : Shape).Idx → EReal)
    (h : Shape.Concatenates (([⟨⟨2, ![8192, 32]⟩, a0⟩, ⟨⟨2, ![8192, 32]⟩, a1⟩, ⟨⟨2, ![8192, 32]⟩, a2⟩, ⟨⟨2, ![8192, 32]⟩, a3⟩,
      ⟨⟨2, ![8192, 32]⟩, a4⟩] : List ((s : Shape) × (s.Idx → EReal))).map (·.1)) ⟨2, ![8192, 160]⟩ 1) :
    concatenate ⟨2, ![8192, 160]⟩ 1 [⟨⟨2, ![8192, 32]⟩, a0⟩, ⟨⟨2, ![8192, 32]⟩, a1⟩, ⟨⟨2, ![8192, 32]⟩, a2⟩,
      ⟨⟨2, ![8192, 32]⟩, a3⟩, ⟨⟨2, ![8192, 32]⟩, a4⟩] h = HostSpec.H0 a0 a1 a2 a3 a4 := by
  funext x
  obtain ⟨i, d, rfl⟩ : ∃ i d, x = ix2 i d := ⟨x 0, x 1, eq_ix2 x⟩
  rw [HostSpec.H0_ix2]
  by_cases h0 : d.val < 32
  · rw [if_pos h0]
    refine concatenate_apply_piece (t := ⟨2, ![8192, 160]⟩) (1 : Fin 2) _ h (ix2 i d) 0 (show 0 < 5 from by decide) ⟨2, ![8192, 32]⟩ a0 rfl rfl 0 rfl
      (ix2 i (⟨d.val % 32, Nat.mod_lt _ (by decide)⟩ : Fin 32)) ?_ ?_
    · intro b hb
      match b, hb with
      | ⟨0, _⟩, _ => rfl
      | ⟨1, _⟩, hb => exact absurd rfl hb
    · show 0 + d.val % 32 = d.val
      have := d.isLt
      omega
  · rw [if_neg h0]
    by_cases h1 : d.val < 64
    · rw [if_pos h1]
      refine concatenate_apply_piece (t := ⟨2, ![8192, 160]⟩) (1 : Fin 2) _ h (ix2 i d) 1 (show 1 < 5 from by decide) ⟨2, ![8192, 32]⟩ a1 rfl rfl 32 rfl
        (ix2 i (⟨d.val % 32, Nat.mod_lt _ (by decide)⟩ : Fin 32)) ?_ ?_
      · intro b hb
        match b, hb with
        | ⟨0, _⟩, _ => rfl
        | ⟨1, _⟩, hb => exact absurd rfl hb
      · show 32 + d.val % 32 = d.val
        have := d.isLt
        omega
    · rw [if_neg h1]
      by_cases h2 : d.val < 96
      · rw [if_pos h2]
        refine concatenate_apply_piece (t := ⟨2, ![8192, 160]⟩) (1 : Fin 2) _ h (ix2 i d) 2 (show 2 < 5 from by decide) ⟨2, ![8192, 32]⟩ a2 rfl rfl 64 rfl
          (ix2 i (⟨d.val % 32, Nat.mod_lt _ (by decide)⟩ : Fin 32)) ?_ ?_
        · intro b hb
          match b, hb with
          | ⟨0, _⟩, _ => rfl
          | ⟨1, _⟩, hb => exact absurd rfl hb
        · show 64 + d.val % 32 = d.val
          have := d.isLt
          omega
      · rw [if_neg h2]
        by_cases h3 : d.val < 128
        · rw [if_pos h3]
          refine concatenate_apply_piece (t := ⟨2, ![8192, 160]⟩) (1 : Fin 2) _ h (ix2 i d) 3 (show 3 < 5 from by decide) ⟨2, ![8192, 32]⟩ a3 rfl rfl 96 rfl
            (ix2 i (⟨d.val % 32, Nat.mod_lt _ (by decide)⟩ : Fin 32)) ?_ ?_
          · intro b hb
            match b, hb with
            | ⟨0, _⟩, _ => rfl
            | ⟨1, _⟩, hb => exact absurd rfl hb
          · show 96 + d.val % 32 = d.val
            have := d.isLt
            omega
        · rw [if_neg h3]
          refine concatenate_apply_piece (t := ⟨2, ![8192, 160]⟩) (1 : Fin 2) _ h (ix2 i d) 4 (show 4 < 5 from by decide) ⟨2, ![8192, 32]⟩ a4 rfl rfl 128 rfl
            (ix2 i (⟨d.val % 32, Nat.mod_lt _ (by decide)⟩ : Fin 32)) ?_ ?_
          · intro b hb
            match b, hb with
            | ⟨0, _⟩, _ => rfl
            | ⟨1, _⟩, hb => exact absurd rfl hb
          · show 128 + d.val % 32 = d.val
            have := d.isLt
            omega

theorem ref_h0 (V : Valuation τ sig (Elt Ideal)) :
    ((after ops V (Proc.devRef .tc main_v4)) : FVec Ideal ⟨2, ![8192, 160]⟩ .f32)
      = HostSpec.H0 (V (Proc.devRef .tc main_arg0)) (V (Proc.devRef .tc main_arg1)) (V (Proc.devRef .tc main_arg2)) (V (Proc.devRef .tc main_arg3)) (V (Proc.devRef .tc main_arg4)) := by
  rw [val_main_v4, keep main_arg0 (by decide +kernel) V, keep main_arg1 (by decide +kernel) V, keep main_arg2 (by decide +kernel) V, keep main_arg3 (by decide +kernel) V, keep main_arg4 (by decide +kernel) V]
  exact h0_of_concatenate _ _ _ _ _ _

theorem ref_h3_of (V : Valuation τ sig (Elt Ideal)) (hnn : ∀ e, 0 ≤ srcZ (V (Proc.devRef .tc main_arg20)) e)
    (g3 e3 : Vec Ideal ⟨2, ![1, 256]⟩ .f32) :
    ((after ops V (Proc.devRef .tc main_v151)) : FVec Ideal ⟨2, ![8192, 256]⟩ .f32)
      = L3R (V (Proc.devRef .tc main_arg20)) (HostSpec.H0 (V (Proc.devRef .tc main_arg0)) (V (Proc.devRef .tc main_arg1)) (V (Proc.devRef .tc main_arg2)) (V (Proc.devRef .tc main_arg3)) (V (Proc.devRef .tc main_arg4))) (fun h => HostSpec.Tcat h (V (Proc.devRef .tc main_arg2)))
          (HostSpec.Tr (V (Proc.devRef .tc main_arg5))) (HostSpec.Tr (V (Proc.devRef .tc main_arg6))) (HostSpec.Row (V (Proc.devRef .tc main_arg7))) (HostSpec.Row (V (Proc.devRef .tc main_arg16))) (HostSpec.Row (V (Proc.devRef .tc main_arg17)))
          (HostSpec.Tr (V (Proc.devRef .tc main_arg8))) (HostSpec.Tr (V (Proc.devRef .tc main_arg9))) (HostSpec.Row (V (Proc.devRef .tc main_arg10))) (HostSpec.Row (V (Proc.devRef .tc main_arg18))) (HostSpec.Row (V (Proc.devRef .tc main_arg19)))
          (HostSpec.Tr (V (Proc.devRef .tc main_arg11))) (HostSpec.Tr (V (Proc.devRef .tc main_arg12))) (HostSpec.Row (V (Proc.devRef .tc main_arg13))) g3 e3 := by
  unfold L3R
  rw [layer3_read V hnn g3 e3, layer2_read V hnn, ref_tcat V, layer1_read V hnn, ref_h0 V,
    tr_main_v24 V, tr_main_v29 V, row_main_v26 V, row_main_v51 V, row_main_v54 V,
    tr_main_v91 V, tr_main_v96 V, row_main_v93 V, row_main_v118 V, row_main_v121 V,
    tr_main_v143 V, tr_main_v148 V, row_main_v145 V]

theorem ref_h3 (V : Valuation τ sig (Elt Ideal))
    (hrange : ∀ e, 0 ≤ srcZ (V (Proc.devRef .tc main_arg20)) e ∧ srcZ (V (Proc.devRef .tc main_arg20)) e < 8192 ∧ 0 ≤ dstZ (V (Proc.devRef .tc main_arg20)) e ∧ dstZ (V (Proc.devRef .tc main_arg20)) e < 8192) :
    ((after ops V (Proc.devRef .tc main_v151)) : FVec Ideal ⟨2, ![8192, 256]⟩ .f32)
      = L3R (V (Proc.devRef .tc main_arg20)) (HostSpec.H0 (V (Proc.devRef .tc main_arg0)) (V (Proc.devRef .tc main_arg1)) (V (Proc.devRef .tc main_arg2)) (V (Proc.devRef .tc main_arg3)) (V (Proc.devRef .tc main_arg4))) (fun h => HostSpec.Tcat h (V (Proc.devRef .tc main_arg2)))
          (HostSpec.Tr (V (Proc.devRef .tc main_arg5))) (HostSpec.Tr (V (Proc.devRef .tc main_arg6))) (HostSpec.Row (V (Proc.devRef .tc main_arg7))) (HostSpec.Row (V (Proc.devRef .tc main_arg16))) (HostSpec.Row (V (Proc.devRef .tc main_arg17)))
          (HostSpec.Tr (V (Proc.devRef .tc main_arg8))) (HostSpec.Tr (V (Proc.devRef .tc main_arg9))) (HostSpec.Row (V (Proc.devRef .tc main_arg10))) (HostSpec.Row (V (Proc.devRef .tc main_arg18))) (HostSpec.Row (V (Proc.devRef .tc main_arg19)))
          (HostSpec.Tr (V (Proc.devRef .tc main_arg11))) (HostSpec.Tr (V (Proc.devRef .tc main_arg12))) (HostSpec.Row (V (Proc.devRef .tc main_arg13))) (fun _ => (1 : EReal)) (fun _ => (0 : EReal)) :=
  ref_h3_of V (fun e => (hrange e).1) _ _

end Cert.ReferenceIdeal.RefRun

end
-- ==== Proof.RefValue.lean ====
import proofs.«407196_j36060545417339_2_alg».proof.Proof.RefSoftmax
import proofs.«407196_j36060545417339_2_alg».proof.Proof.NetArgs
import proofs.«407196_j36060545417339_2_alg».proof.Proof.RefH3

set_option maxRecDepth 8192

noncomputable section

namespace Cert.ReferenceIdeal.RefRun

open Cert.ReferenceIdeal Cert.ReferenceIdeal.Gen Idealize.ShloMosaic Idealize.ShloMosaic.TcCoe Idealize.SL.Sem
open Idealize.ShloMosaic.StableHlo Idealize.ShloMosaic.ValueIdx
open Cert.KernelIdeal.Gen

theorem ref_value_of (V : Valuation τ sig (Elt Ideal))
    (hrange : ∀ e, 0 ≤ Sage.srcZ (V (Proc.devRef .tc main_arg20)) e ∧ Sage.srcZ (V (Proc.devRef .tc main_arg20)) e < 8192
      ∧ 0 ≤ Sage.dstZ (V (Proc.devRef .tc main_arg20)) e ∧ Sage.dstZ (V (Proc.devRef .tc main_arg20)) e < 8192)
    (g3 e3 : Vec Ideal ⟨2, ![1, 256]⟩ .f32)
    (hsage : (after ops V (Proc.devRef .tc main_v151) : S8192x256.Idx → EReal)
      = L3R (V (Proc.devRef .tc main_arg20))
          (HostSpec.H0 (V (Proc.devRef .tc main_arg0)) (V (Proc.devRef .tc main_arg1)) (V (Proc.devRef .tc main_arg2))
            (V (Proc.devRef .tc main_arg3)) (V (Proc.devRef .tc main_arg4)))
          (fun h => HostSpec.Tcat h (V (Proc.devRef .tc main_arg2)))
          (HostSpec.Tr (V (Proc.devRef .tc main_arg5))) (HostSpec.Tr (V (Proc.devRef .tc main_arg6)))
          (HostSpec.Row (V (Proc.devRef .tc main_arg7))) (HostSpec.Row (V (Proc.devRef .tc main_arg16)))
          (HostSpec.Row (V (Proc.devRef .tc main_arg17)))
          (HostSpec.Tr (V (Proc.devRef .tc main_arg8))) (HostSpec.Tr (V (Proc.devRef .tc main_arg9)))
          (HostSpec.Row (V (Proc.devRef .tc main_arg10))) (HostSpec.Row (V (Proc.devRef .tc main_arg18)))
          (HostSpec.Row (V (Proc.devRef .tc main_arg19)))
          (HostSpec.Tr (V (Proc.devRef .tc main_arg11))) (HostSpec.Tr (V (Proc.devRef .tc main_arg12)))
          (HostSpec.Row (V (Proc.devRef .tc main_arg13))) g3 e3) :
    (after ops V (Proc.devRef .tc main_v232) : S8192x8192.Idx → EReal)
      = netR (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) (V (Proc.devRef .tc main_arg10)) (V (Proc.devRef .tc main_arg11))
          (V (Proc.devRef .tc main_arg12)) (V (Proc.devRef .tc main_arg13)) (V (Proc.devRef .tc main_arg14))
          (V (Proc.devRef .tc main_arg15)) (V (Proc.devRef .tc main_arg16)) (V (Proc.devRef .tc main_arg17))
          (V (Proc.devRef .tc main_arg18)) (V (Proc.devRef .tc main_arg19)) (V (Proc.devRef .tc main_arg20)) := by
  rw [ref_softmax V hrange, hsage]
  rfl

theorem ref_value (V : Valuation τ sig (Elt Ideal))
    (hrange : ∀ e, 0 ≤ Sage.srcZ (V (Proc.devRef .tc main_arg20)) e ∧ Sage.srcZ (V (Proc.devRef .tc main_arg20)) e < 8192
      ∧ 0 ≤ Sage.dstZ (V (Proc.devRef .tc main_arg20)) e ∧ Sage.dstZ (V (Proc.devRef .tc main_arg20)) e < 8192) :
    (after ops V (Proc.devRef .tc main_v232) : S8192x8192.Idx → EReal)
      = netR (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) (V (Proc.devRef .tc main_arg10)) (V (Proc.devRef .tc main_arg11))
          (V (Proc.devRef .tc main_arg12)) (V (Proc.devRef .tc main_arg13)) (V (Proc.devRef .tc main_arg14))
          (V (Proc.devRef .tc main_arg15)) (V (Proc.devRef .tc main_arg16)) (V (Proc.devRef .tc main_arg17))
          (V (Proc.devRef .tc main_arg18)) (V (Proc.devRef .tc main_arg19)) (V (Proc.devRef .tc main_arg20)) :=
  ref_value_of V hrange _ _ (ref_h3 V hrange)

end Cert.ReferenceIdeal.RefRun

end
-- ==== Proof.lean ====
import proofs.«407196_j36060545417339_2_alg».proof.Defs
import proofs.«407196_j36060545417339_2_alg».proof.Proof.Gen.Kernel
import proofs.«407196_j36060545417339_2_alg».proof.Proof.Gen.KernelIdeal
import proofs.«407196_j36060545417339_2_alg».proof.Proof.Gen.ReferenceIdeal
import proofs.«407196_j36060545417339_2_alg».proof.Proof.Gen.Pre_finite_inputs
import proofs.«407196_j36060545417339_2_alg».proof.Proof.K.RunAll
import proofs.«407196_j36060545417339_2_alg».proof.Proof.Assemble
import proofs.«407196_j36060545417339_2_alg».proof.Proof.KernelValue
import proofs.«407196_j36060545417339_2_alg».proof.Proof.R0Value
import proofs.«407196_j36060545417339_2_alg».proof.Proof.R1Value
import proofs.«407196_j36060545417339_2_alg».proof.Proof.R2Value
import proofs.«407196_j36060545417339_2_alg».proof.Proof.RefValue

noncomputable section

namespace Cert.Proof

open Idealize.ShloMosaic Idealize.SL.Sem

-- Three runs that end with the arguments as launched; nothing rewritten between the kernel and its reading over the
-- extended reals; and the network in matrix form (counts times features) equal to its edge form (sums over edges).
theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    Parts.frame_pi,
    Parts.frame_ri,
    Parts.preserves,
    Parts.algebraic_of
      (fun m c h => Cert.KernelIdeal.Gen.kernel_value_of_mem m c
        (fun V c => Cert.KernelIdeal.Gen.final0_8 V c) (fun V c => Cert.KernelIdeal.Gen.final1_8 V c)
        (fun V c => Cert.KernelIdeal.Gen.final2_8 V c) h)
      (fun m' c h => Cert.ReferenceIdeal.RefRun.ref_value (fun b => m' (c, b)) h)⟩

end Cert.Proof

end
